-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x512 : Shape := ⟨2, ![4096, 512]⟩
abbrev S512x2048 : Shape := ⟨2, ![512, 2048]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S4096x512 .f32) (main_arg1 : FVec F S512x2048 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x4096 .f32) (main_arg1 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x512 : Shape := ⟨2, ![4096, 512]⟩
abbrev S512x2048 : Shape := ⟨2, ![512, 2048]⟩
abbrev S4096x2048 : Shape := ⟨2, ![4096, 2048]⟩
abbrev S3x1368x2048 : Shape := ⟨3, ![3, 1368, 2048]⟩
abbrev S3x1368x512 : Shape := ⟨3, ![3, 1368, 512]⟩
abbrev S3x1368x256 : Shape := ⟨3, ![3, 1368, 256]⟩
abbrev S3x10 : Shape := ⟨2, ![3, 10]⟩
abbrev S3x4 : Shape := ⟨2, ![3, 4]⟩
abbrev S_ : Shape := ⟨0, ![]⟩
abbrev S1368x512 : Shape := ⟨2, ![1368, 512]⟩
abbrev S512x512 : Shape := ⟨2, ![512, 512]⟩
abbrev S1x1368x512 : Shape := ⟨3, ![1, 1368, 512]⟩
abbrev S1x1 : Shape := ⟨2, ![1, 1]⟩
abbrev S1360x512 : Shape := ⟨2, ![1360, 512]⟩
abbrev S1x1360x512 : Shape := ⟨3, ![1, 1360, 512]⟩
abbrev S1x1368x256 : Shape := ⟨3, ![1, 1368, 256]⟩
abbrev S1368x256 : Shape := ⟨2, ![1368, 256]⟩
abbrev S1x1360x256 : Shape := ⟨3, ![1, 1360, 256]⟩
abbrev S1360x256 : Shape := ⟨2, ![1360, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .local _ .vmem, ⟨0, _⟩ => ⟨S4096x512, .f32⟩
  | .local _ .vmem, ⟨1, _⟩ => ⟨S512x2048, .f32⟩
  | .local _ .vmem, ⟨2, _⟩ => ⟨S3x1368x2048, .f32⟩
  | .local _ .vmem, ⟨3, _⟩ => ⟨S3x1368x512, .f32⟩
  | .local _ .vmem, ⟨4, _⟩ => ⟨S3x1368x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_37 : BitVec 32 := 1#32
  let v81 : BitVec 32 := Scalar.muli v65 c1_i32_37
  let v82 : BitVec 32 := Scalar.addi c0_i32_38 v81
  v82.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_40 : BitVec 32 := 1#32
  let v83 : BitVec 32 := Scalar.muli v68 c1_i32_40
  let v84 : BitVec 32 := Scalar.addi c0_i32_41 v83
  v84.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_43 : BitVec 32 := 1#32
  let v85 : BitVec 32 := Scalar.muli v79 c1_i32_43
  let v86 : BitVec 32 := Scalar.addi c0_i32_44 v85
  v86.toNat
def k0_off1 (d0 : Dev nD) : Fin 2 → Nat :=
  let c0_101 : Index := 0#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v87 : BitVec 32 := Scalar.subi c1_i32_46 v33
  let c1024_i32 : BitVec 32 := 1024#32
  let v88 : BitVec 32 := Scalar.muli v87 c1024_i32
  let c1_i32_48 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v90 : BitVec 32 := Scalar.subi c1_i32_48 v50
  let c512_i32 : BitVec 32 := 512#32
  let v91 : BitVec 32 := Scalar.muli v90 c512_i32
  let v92 : BitVec 32 := Scalar.addi v88 v91
  let v179 : Index := Scalar.indexCast v92
  ![0, v179.toNat]
def k0_off2 (d0 : Dev nD) : Fin 3 → Nat :=
  let c0_102 : Index := 0#32
  let c0_103 : Index := 0#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v87 : BitVec 32 := Scalar.subi c1_i32_46 v33
  let c1024_i32 : BitVec 32 := 1024#32
  let v88 : BitVec 32 := Scalar.muli v87 c1024_i32
  let c1_i32_48 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v90 : BitVec 32 := Scalar.subi c1_i32_48 v50
  let c512_i32 : BitVec 32 := 512#32
  let v91 : BitVec 32 := Scalar.muli v90 c512_i32
  let v92 : BitVec 32 := Scalar.addi v88 v91
  let v183 : Index := Scalar.indexCast v92
  ![0, 0, v183.toNat]
def k0_off3 (d0 : Dev nD) : Fin 3 → Nat :=
  let c0_i32_105 : BitVec 32 := 0#32
  let c0_i32_112 : BitVec 32 := 0#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v87 : BitVec 32 := Scalar.subi c1_i32_46 v33
  let c1024_i32 : BitVec 32 := 1024#32
  let v88 : BitVec 32 := Scalar.muli v87 c1024_i32
  let c1_i32_48 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v90 : BitVec 32 := Scalar.subi c1_i32_48 v50
  let c512_i32 : BitVec 32 := 512#32
  let v91 : BitVec 32 := Scalar.muli v90 c512_i32
  let v92 : BitVec 32 := Scalar.addi v88 v91
  ![0, 0, v92.toNat]
def k0_dev4 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_110 : BitVec 32 := 1#32
  let v187 : BitVec 32 := Scalar.muli v65 c1_i32_110
  let v188 : BitVec 32 := Scalar.addi c0_i32_111 v187
  v188.toNat
def k0_off4 (d0 : Dev nD) : Fin 2 → Nat :=
  let c0_115 : Index := 0#32
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v117 : BitVec 32 := Scalar.subi c1_i32_62 v50
  let c1024_i32_63 : BitVec 32 := 1024#32
  let v118 : BitVec 32 := Scalar.muli v117 c1024_i32_63
  let c1_i32_65 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v120 : BitVec 32 := Scalar.subi c1_i32_65 v19
  let c512_i32_66 : BitVec 32 := 512#32
  let v121 : BitVec 32 := Scalar.muli v120 c512_i32_66
  let v122 : BitVec 32 := Scalar.addi v118 v121
  let v199 : Index := Scalar.indexCast v122
  ![0, v199.toNat]
def k0_off5 (d0 : Dev nD) : Fin 3 → Nat :=
  let c1 : Index := 1#32
  let c0_117 : Index := 0#32
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v117 : BitVec 32 := Scalar.subi c1_i32_62 v50
  let c1024_i32_63 : BitVec 32 := 1024#32
  let v118 : BitVec 32 := Scalar.muli v117 c1024_i32_63
  let c1_i32_65 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v120 : BitVec 32 := Scalar.subi c1_i32_65 v19
  let c512_i32_66 : BitVec 32 := 512#32
  let v121 : BitVec 32 := Scalar.muli v120 c512_i32_66
  let v122 : BitVec 32 := Scalar.addi v118 v121
  let v203 : Index := Scalar.indexCast v122
  ![1, 0, v203.toNat]
def k0_off6 (d0 : Dev nD) : Fin 3 → Nat :=
  let c1_i32_119 : BitVec 32 := 1#32
  let c0_i32_126 : BitVec 32 := 0#32
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v117 : BitVec 32 := Scalar.subi c1_i32_62 v50
  let c1024_i32_63 : BitVec 32 := 1024#32
  let v118 : BitVec 32 := Scalar.muli v117 c1024_i32_63
  let c1_i32_65 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v120 : BitVec 32 := Scalar.subi c1_i32_65 v19
  let c512_i32_66 : BitVec 32 := 512#32
  let v121 : BitVec 32 := Scalar.muli v120 c512_i32_66
  let v122 : BitVec 32 := Scalar.addi v118 v121
  ![1, 0, v122.toNat]
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_124 : BitVec 32 := 1#32
  let v207 : BitVec 32 := Scalar.muli v68 c1_i32_124
  let v208 : BitVec 32 := Scalar.addi c0_i32_125 v207
  v208.toNat
def k0_off7 (d0 : Dev nD) : Fin 2 → Nat :=
  let c0_129 : Index := 0#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v147 : BitVec 32 := Scalar.subi c1_i32_81 v19
  let c1024_i32_82 : BitVec 32 := 1024#32
  let v148 : BitVec 32 := Scalar.muli v147 c1024_i32_82
  let c1_i32_84 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v150 : BitVec 32 := Scalar.subi c1_i32_84 v33
  let c512_i32_85 : BitVec 32 := 512#32
  let v151 : BitVec 32 := Scalar.muli v150 c512_i32_85
  let v152 : BitVec 32 := Scalar.addi v148 v151
  let v219 : Index := Scalar.indexCast v152
  ![0, v219.toNat]
def k0_off8 (d0 : Dev nD) : Fin 3 → Nat :=
  let c2 : Index := 2#32
  let c0_131 : Index := 0#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v147 : BitVec 32 := Scalar.subi c1_i32_81 v19
  let c1024_i32_82 : BitVec 32 := 1024#32
  let v148 : BitVec 32 := Scalar.muli v147 c1024_i32_82
  let c1_i32_84 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v150 : BitVec 32 := Scalar.subi c1_i32_84 v33
  let c512_i32_85 : BitVec 32 := 512#32
  let v151 : BitVec 32 := Scalar.muli v150 c512_i32_85
  let v152 : BitVec 32 := Scalar.addi v148 v151
  let v223 : Index := Scalar.indexCast v152
  ![2, 0, v223.toNat]
def k0_off9 (d0 : Dev nD) : Fin 3 → Nat :=
  let c2_i32_133 : BitVec 32 := 2#32
  let c0_i32_140 : BitVec 32 := 0#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v147 : BitVec 32 := Scalar.subi c1_i32_81 v19
  let c1024_i32_82 : BitVec 32 := 1024#32
  let v148 : BitVec 32 := Scalar.muli v147 c1024_i32_82
  let c1_i32_84 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v150 : BitVec 32 := Scalar.subi c1_i32_84 v33
  let c512_i32_85 : BitVec 32 := 512#32
  let v151 : BitVec 32 := Scalar.muli v150 c512_i32_85
  let v152 : BitVec 32 := Scalar.addi v148 v151
  ![2, 0, v152.toNat]
def k0_dev6 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_138 : BitVec 32 := 1#32
  let v227 : BitVec 32 := Scalar.muli v79 c1_i32_138
  let v228 : BitVec 32 := Scalar.addi c0_i32_139 v227
  v228.toNat
def k0_off10 (d0 : Dev nD) : Fin 2 → Nat :=
  let c0_144 : Index := 0#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v87 : BitVec 32 := Scalar.subi c1_i32_46 v33
  let c1024_i32 : BitVec 32 := 1024#32
  let v88 : BitVec 32 := Scalar.muli v87 c1024_i32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_49 : BitVec 32 := 512#32
  let v93 : BitVec 32 := Scalar.muli v50 c512_i32_49
  let v94 : BitVec 32 := Scalar.addi v88 v93
  let v239 : Index := Scalar.indexCast v94
  ![0, v239.toNat]
def k0_off11 (d0 : Dev nD) : Fin 3 → Nat :=
  let c0_146 : Index := 0#32
  let c0_147 : Index := 0#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v87 : BitVec 32 := Scalar.subi c1_i32_46 v33
  let c1024_i32 : BitVec 32 := 1024#32
  let v88 : BitVec 32 := Scalar.muli v87 c1024_i32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_49 : BitVec 32 := 512#32
  let v93 : BitVec 32 := Scalar.muli v50 c512_i32_49
  let v94 : BitVec 32 := Scalar.addi v88 v93
  let v243 : Index := Scalar.indexCast v94
  ![0, 0, v243.toNat]
def k0_off12 (d0 : Dev nD) : Fin 3 → Nat :=
  let c0_i32_149 : BitVec 32 := 0#32
  let c0_i32_156 : BitVec 32 := 0#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v87 : BitVec 32 := Scalar.subi c1_i32_46 v33
  let c1024_i32 : BitVec 32 := 1024#32
  let v88 : BitVec 32 := Scalar.muli v87 c1024_i32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_49 : BitVec 32 := 512#32
  let v93 : BitVec 32 := Scalar.muli v50 c512_i32_49
  let v94 : BitVec 32 := Scalar.addi v88 v93
  ![0, 0, v94.toNat]
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_154 : BitVec 32 := 1#32
  let v247 : BitVec 32 := Scalar.muli v65 c1_i32_154
  let v248 : BitVec 32 := Scalar.addi c0_i32_155 v247
  v248.toNat
def k0_off13 (d0 : Dev nD) : Fin 2 → Nat :=
  let c0_160 : Index := 0#32
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v117 : BitVec 32 := Scalar.subi c1_i32_62 v50
  let c1024_i32_63 : BitVec 32 := 1024#32
  let v118 : BitVec 32 := Scalar.muli v117 c1024_i32_63
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_67 : BitVec 32 := 512#32
  let v123 : BitVec 32 := Scalar.muli v19 c512_i32_67
  let v124 : BitVec 32 := Scalar.addi v118 v123
  let v259 : Index := Scalar.indexCast v124
  ![0, v259.toNat]
def k0_off14 (d0 : Dev nD) : Fin 3 → Nat :=
  let c1_162 : Index := 1#32
  let c0_163 : Index := 0#32
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v117 : BitVec 32 := Scalar.subi c1_i32_62 v50
  let c1024_i32_63 : BitVec 32 := 1024#32
  let v118 : BitVec 32 := Scalar.muli v117 c1024_i32_63
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_67 : BitVec 32 := 512#32
  let v123 : BitVec 32 := Scalar.muli v19 c512_i32_67
  let v124 : BitVec 32 := Scalar.addi v118 v123
  let v263 : Index := Scalar.indexCast v124
  ![1, 0, v263.toNat]
def k0_off15 (d0 : Dev nD) : Fin 3 → Nat :=
  let c1_i32_165 : BitVec 32 := 1#32
  let c0_i32_172 : BitVec 32 := 0#32
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v117 : BitVec 32 := Scalar.subi c1_i32_62 v50
  let c1024_i32_63 : BitVec 32 := 1024#32
  let v118 : BitVec 32 := Scalar.muli v117 c1024_i32_63
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_67 : BitVec 32 := 512#32
  let v123 : BitVec 32 := Scalar.muli v19 c512_i32_67
  let v124 : BitVec 32 := Scalar.addi v118 v123
  ![1, 0, v124.toNat]
def k0_dev8 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_170 : BitVec 32 := 1#32
  let v267 : BitVec 32 := Scalar.muli v68 c1_i32_170
  let v268 : BitVec 32 := Scalar.addi c0_i32_171 v267
  v268.toNat
def k0_off16 (d0 : Dev nD) : Fin 2 → Nat :=
  let c0_176 : Index := 0#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v147 : BitVec 32 := Scalar.subi c1_i32_81 v19
  let c1024_i32_82 : BitVec 32 := 1024#32
  let v148 : BitVec 32 := Scalar.muli v147 c1024_i32_82
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_86 : BitVec 32 := 512#32
  let v153 : BitVec 32 := Scalar.muli v33 c512_i32_86
  let v154 : BitVec 32 := Scalar.addi v148 v153
  let v279 : Index := Scalar.indexCast v154
  ![0, v279.toNat]
def k0_off17 (d0 : Dev nD) : Fin 3 → Nat :=
  let c2_178 : Index := 2#32
  let c0_179 : Index := 0#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v147 : BitVec 32 := Scalar.subi c1_i32_81 v19
  let c1024_i32_82 : BitVec 32 := 1024#32
  let v148 : BitVec 32 := Scalar.muli v147 c1024_i32_82
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_86 : BitVec 32 := 512#32
  let v153 : BitVec 32 := Scalar.muli v33 c512_i32_86
  let v154 : BitVec 32 := Scalar.addi v148 v153
  let v283 : Index := Scalar.indexCast v154
  ![2, 0, v283.toNat]
def k0_off18 (d0 : Dev nD) : Fin 3 → Nat :=
  let c2_i32_181 : BitVec 32 := 2#32
  let c0_i32_188 : BitVec 32 := 0#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v147 : BitVec 32 := Scalar.subi c1_i32_81 v19
  let c1024_i32_82 : BitVec 32 := 1024#32
  let v148 : BitVec 32 := Scalar.muli v147 c1024_i32_82
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_86 : BitVec 32 := 512#32
  let v153 : BitVec 32 := Scalar.muli v33 c512_i32_86
  let v154 : BitVec 32 := Scalar.addi v148 v153
  ![2, 0, v154.toNat]
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_186 : BitVec 32 := 1#32
  let v287 : BitVec 32 := Scalar.muli v79 c1_i32_186
  let v288 : BitVec 32 := Scalar.addi c0_i32_187 v287
  v288.toNat
def k0_off19 (d0 : Dev nD) : Fin 3 → Nat :=
  let c0_209 : Index := 0#32
  let c0_210 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c1_i32_50 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v95 : BitVec 32 := Scalar.subi c1_i32_50 v50
  let c512_i32_51 : BitVec 32 := 512#32
  let v96 : BitVec 32 := Scalar.muli v95 c512_i32_51
  let v97 : BitVec 32 := Scalar.addi v89 v96
  let v311 : Index := Scalar.indexCast v97
  ![0, 0, v311.toNat]
def k0_off20 (d0 : Dev nD) : Fin 2 → Nat :=
  let c0_213 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c1_i32_50 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v95 : BitVec 32 := Scalar.subi c1_i32_50 v50
  let c512_i32_51 : BitVec 32 := 512#32
  let v96 : BitVec 32 := Scalar.muli v95 c512_i32_51
  let v97 : BitVec 32 := Scalar.addi v89 v96
  let v316 : Index := Scalar.indexCast v97
  ![0, v316.toNat]
def k0_off21 (d0 : Dev nD) : Fin 3 → Nat :=
  let c0_i32_217 : BitVec 32 := 0#32
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c1_i32_50 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v95 : BitVec 32 := Scalar.subi c1_i32_50 v50
  let c512_i32_51 : BitVec 32 := 512#32
  let v96 : BitVec 32 := Scalar.muli v95 c512_i32_51
  let v97 : BitVec 32 := Scalar.addi v89 v96
  ![0, 0, v97.toNat]
def k0_dev10 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_223 : BitVec 32 := 1#32
  let v325 : BitVec 32 := Scalar.muli v68 c1_i32_223
  let v326 : BitVec 32 := Scalar.addi c0_i32_224 v325
  v326.toNat
def k0_off22 (d0 : Dev nD) : Fin 3 → Nat :=
  let c1_247 : Index := 1#32
  let c0_248 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c1_i32_68 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v125 : BitVec 32 := Scalar.subi c1_i32_68 v19
  let c512_i32_69 : BitVec 32 := 512#32
  let v126 : BitVec 32 := Scalar.muli v125 c512_i32_69
  let v127 : BitVec 32 := Scalar.addi v119 v126
  let v349 : Index := Scalar.indexCast v127
  ![1, 0, v349.toNat]
def k0_off23 (d0 : Dev nD) : Fin 2 → Nat :=
  let c0_251 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c1_i32_68 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v125 : BitVec 32 := Scalar.subi c1_i32_68 v19
  let c512_i32_69 : BitVec 32 := 512#32
  let v126 : BitVec 32 := Scalar.muli v125 c512_i32_69
  let v127 : BitVec 32 := Scalar.addi v119 v126
  let v354 : Index := Scalar.indexCast v127
  ![0, v354.toNat]
def k0_off24 (d0 : Dev nD) : Fin 3 → Nat :=
  let c1_i32_255 : BitVec 32 := 1#32
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c1_i32_68 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v125 : BitVec 32 := Scalar.subi c1_i32_68 v19
  let c512_i32_69 : BitVec 32 := 512#32
  let v126 : BitVec 32 := Scalar.muli v125 c512_i32_69
  let v127 : BitVec 32 := Scalar.addi v119 v126
  ![1, 0, v127.toNat]
def k0_dev11 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_261 : BitVec 32 := 1#32
  let v363 : BitVec 32 := Scalar.muli v79 c1_i32_261
  let v364 : BitVec 32 := Scalar.addi c0_i32_262 v363
  v364.toNat
def k0_off25 (d0 : Dev nD) : Fin 3 → Nat :=
  let c2_285 : Index := 2#32
  let c0_286 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c1_i32_87 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v155 : BitVec 32 := Scalar.subi c1_i32_87 v33
  let c512_i32_88 : BitVec 32 := 512#32
  let v156 : BitVec 32 := Scalar.muli v155 c512_i32_88
  let v157 : BitVec 32 := Scalar.addi v149 v156
  let v387 : Index := Scalar.indexCast v157
  ![2, 0, v387.toNat]
def k0_off26 (d0 : Dev nD) : Fin 2 → Nat :=
  let c0_289 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c1_i32_87 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v155 : BitVec 32 := Scalar.subi c1_i32_87 v33
  let c512_i32_88 : BitVec 32 := 512#32
  let v156 : BitVec 32 := Scalar.muli v155 c512_i32_88
  let v157 : BitVec 32 := Scalar.addi v149 v156
  let v392 : Index := Scalar.indexCast v157
  ![0, v392.toNat]
def k0_off27 (d0 : Dev nD) : Fin 3 → Nat :=
  let c2_i32_293 : BitVec 32 := 2#32
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c1_i32_87 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v155 : BitVec 32 := Scalar.subi c1_i32_87 v33
  let c512_i32_88 : BitVec 32 := 512#32
  let v156 : BitVec 32 := Scalar.muli v155 c512_i32_88
  let v157 : BitVec 32 := Scalar.addi v149 v156
  ![2, 0, v157.toNat]
def k0_dev12 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_299 : BitVec 32 := 1#32
  let v401 : BitVec 32 := Scalar.muli v65 c1_i32_299
  let v402 : BitVec 32 := Scalar.addi c0_i32_300 v401
  v402.toNat
def k0_off28 (d0 : Dev nD) : Fin 3 → Nat :=
  let c0_323 : Index := 0#32
  let c0_324 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_52 : BitVec 32 := 512#32
  let v98 : BitVec 32 := Scalar.muli v50 c512_i32_52
  let v99 : BitVec 32 := Scalar.addi v89 v98
  let v425 : Index := Scalar.indexCast v99
  ![0, 0, v425.toNat]
def k0_off29 (d0 : Dev nD) : Fin 2 → Nat :=
  let c0_327 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_52 : BitVec 32 := 512#32
  let v98 : BitVec 32 := Scalar.muli v50 c512_i32_52
  let v99 : BitVec 32 := Scalar.addi v89 v98
  let v430 : Index := Scalar.indexCast v99
  ![0, v430.toNat]
def k0_off30 (d0 : Dev nD) : Fin 3 → Nat :=
  let c0_352 : Index := 0#32
  let c0_353 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_53 : BitVec 32 := 512#32
  let v100 : BitVec 32 := Scalar.muli v50 c512_i32_53
  let v101 : BitVec 32 := Scalar.addi v89 v100
  let c1_i32_54 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_54 v19
  let c256_i32 : BitVec 32 := 256#32
  let v103 : BitVec 32 := Scalar.muli v102 c256_i32
  let v104 : BitVec 32 := Scalar.addi v101 v103
  let v453 : Index := Scalar.indexCast v104
  ![0, 0, v453.toNat]
def k0_off31 (d0 : Dev nD) : Fin 3 → Nat :=
  let c0_354 : Index := 0#32
  let c0_355 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_53 : BitVec 32 := 512#32
  let v100 : BitVec 32 := Scalar.muli v50 c512_i32_53
  let v101 : BitVec 32 := Scalar.addi v89 v100
  let c1_i32_54 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_54 v19
  let c256_i32 : BitVec 32 := 256#32
  let v103 : BitVec 32 := Scalar.muli v102 c256_i32
  let v104 : BitVec 32 := Scalar.addi v101 v103
  let c512_i32_52 : BitVec 32 := 512#32
  let v98 : BitVec 32 := Scalar.muli v50 c512_i32_52
  let v99 : BitVec 32 := Scalar.addi v89 v98
  let v456 : BitVec 32 := Scalar.subi v104 v99
  let v457 : Index := Scalar.indexCast v456
  ![0, 0, v457.toNat]
def k0_off32 (d0 : Dev nD) : Fin 3 → Nat :=
  let c0_i32_358 : BitVec 32 := 0#32
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_53 : BitVec 32 := 512#32
  let v100 : BitVec 32 := Scalar.muli v50 c512_i32_53
  let v101 : BitVec 32 := Scalar.addi v89 v100
  let c1_i32_54 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_54 v19
  let c256_i32 : BitVec 32 := 256#32
  let v103 : BitVec 32 := Scalar.muli v102 c256_i32
  let v104 : BitVec 32 := Scalar.addi v101 v103
  ![0, 0, v104.toNat]
def k0_dev13 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_364 : BitVec 32 := 1#32
  let v465 : BitVec 32 := Scalar.muli v79 c1_i32_364
  let v466 : BitVec 32 := Scalar.addi c0_i32_365 v465
  v466.toNat
def k0_off33 (d0 : Dev nD) : Fin 3 → Nat :=
  let c0_369 : Index := 0#32
  let c0_370 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_55 : BitVec 32 := 512#32
  let v105 : BitVec 32 := Scalar.muli v50 c512_i32_55
  let v106 : BitVec 32 := Scalar.addi v89 v105
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_56 : BitVec 32 := 256#32
  let v107 : BitVec 32 := Scalar.muli v19 c256_i32_56
  let v108 : BitVec 32 := Scalar.addi v106 v107
  let v475 : Index := Scalar.indexCast v108
  ![0, 0, v475.toNat]
def k0_off34 (d0 : Dev nD) : Fin 3 → Nat :=
  let c0_371 : Index := 0#32
  let c0_372 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_55 : BitVec 32 := 512#32
  let v105 : BitVec 32 := Scalar.muli v50 c512_i32_55
  let v106 : BitVec 32 := Scalar.addi v89 v105
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_56 : BitVec 32 := 256#32
  let v107 : BitVec 32 := Scalar.muli v19 c256_i32_56
  let v108 : BitVec 32 := Scalar.addi v106 v107
  let c512_i32_52 : BitVec 32 := 512#32
  let v98 : BitVec 32 := Scalar.muli v50 c512_i32_52
  let v99 : BitVec 32 := Scalar.addi v89 v98
  let v478 : BitVec 32 := Scalar.subi v108 v99
  let v479 : Index := Scalar.indexCast v478
  ![0, 0, v479.toNat]
def k0_off35 (d0 : Dev nD) : Fin 3 → Nat :=
  let c1_394 : Index := 1#32
  let c0_395 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_70 : BitVec 32 := 512#32
  let v128 : BitVec 32 := Scalar.muli v19 c512_i32_70
  let v129 : BitVec 32 := Scalar.addi v119 v128
  let v501 : Index := Scalar.indexCast v129
  ![1, 0, v501.toNat]
def k0_off36 (d0 : Dev nD) : Fin 2 → Nat :=
  let c0_398 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_70 : BitVec 32 := 512#32
  let v128 : BitVec 32 := Scalar.muli v19 c512_i32_70
  let v129 : BitVec 32 := Scalar.addi v119 v128
  let v506 : Index := Scalar.indexCast v129
  ![0, v506.toNat]
def k0_off37 (d0 : Dev nD) : Fin 3 → Nat :=
  let c1_423 : Index := 1#32
  let c0_424 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_71 : BitVec 32 := 512#32
  let v130 : BitVec 32 := Scalar.muli v19 c512_i32_71
  let v131 : BitVec 32 := Scalar.addi v119 v130
  let c1_i32_72 : BitVec 32 := 1#32
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v132 : BitVec 32 := Scalar.subi c1_i32_72 v33
  let c256_i32_73 : BitVec 32 := 256#32
  let v133 : BitVec 32 := Scalar.muli v132 c256_i32_73
  let v134 : BitVec 32 := Scalar.addi v131 v133
  let v529 : Index := Scalar.indexCast v134
  ![1, 0, v529.toNat]
def k0_off38 (d0 : Dev nD) : Fin 3 → Nat :=
  let c1_425 : Index := 1#32
  let c0_426 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_71 : BitVec 32 := 512#32
  let v130 : BitVec 32 := Scalar.muli v19 c512_i32_71
  let v131 : BitVec 32 := Scalar.addi v119 v130
  let c1_i32_72 : BitVec 32 := 1#32
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v132 : BitVec 32 := Scalar.subi c1_i32_72 v33
  let c256_i32_73 : BitVec 32 := 256#32
  let v133 : BitVec 32 := Scalar.muli v132 c256_i32_73
  let v134 : BitVec 32 := Scalar.addi v131 v133
  let c512_i32_70 : BitVec 32 := 512#32
  let v128 : BitVec 32 := Scalar.muli v19 c512_i32_70
  let v129 : BitVec 32 := Scalar.addi v119 v128
  let v532 : BitVec 32 := Scalar.subi v134 v129
  let v533 : Index := Scalar.indexCast v532
  ![1, 0, v533.toNat]
def k0_off39 (d0 : Dev nD) : Fin 3 → Nat :=
  let c1_i32_429 : BitVec 32 := 1#32
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_71 : BitVec 32 := 512#32
  let v130 : BitVec 32 := Scalar.muli v19 c512_i32_71
  let v131 : BitVec 32 := Scalar.addi v119 v130
  let c1_i32_72 : BitVec 32 := 1#32
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v132 : BitVec 32 := Scalar.subi c1_i32_72 v33
  let c256_i32_73 : BitVec 32 := 256#32
  let v133 : BitVec 32 := Scalar.muli v132 c256_i32_73
  let v134 : BitVec 32 := Scalar.addi v131 v133
  ![1, 0, v134.toNat]
def k0_dev14 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_435 : BitVec 32 := 1#32
  let v541 : BitVec 32 := Scalar.muli v65 c1_i32_435
  let v542 : BitVec 32 := Scalar.addi c0_i32_436 v541
  v542.toNat
def k0_off40 (d0 : Dev nD) : Fin 3 → Nat :=
  let c1_440 : Index := 1#32
  let c0_441 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_74 : BitVec 32 := 512#32
  let v135 : BitVec 32 := Scalar.muli v19 c512_i32_74
  let v136 : BitVec 32 := Scalar.addi v119 v135
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c256_i32_75 : BitVec 32 := 256#32
  let v137 : BitVec 32 := Scalar.muli v33 c256_i32_75
  let v138 : BitVec 32 := Scalar.addi v136 v137
  let v551 : Index := Scalar.indexCast v138
  ![1, 0, v551.toNat]
def k0_off41 (d0 : Dev nD) : Fin 3 → Nat :=
  let c1_442 : Index := 1#32
  let c0_443 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_74 : BitVec 32 := 512#32
  let v135 : BitVec 32 := Scalar.muli v19 c512_i32_74
  let v136 : BitVec 32 := Scalar.addi v119 v135
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c256_i32_75 : BitVec 32 := 256#32
  let v137 : BitVec 32 := Scalar.muli v33 c256_i32_75
  let v138 : BitVec 32 := Scalar.addi v136 v137
  let c512_i32_70 : BitVec 32 := 512#32
  let v128 : BitVec 32 := Scalar.muli v19 c512_i32_70
  let v129 : BitVec 32 := Scalar.addi v119 v128
  let v554 : BitVec 32 := Scalar.subi v138 v129
  let v555 : Index := Scalar.indexCast v554
  ![1, 0, v555.toNat]
def k0_off42 (d0 : Dev nD) : Fin 3 → Nat :=
  let c2_465 : Index := 2#32
  let c0_466 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_89 : BitVec 32 := 512#32
  let v158 : BitVec 32 := Scalar.muli v33 c512_i32_89
  let v159 : BitVec 32 := Scalar.addi v149 v158
  let v577 : Index := Scalar.indexCast v159
  ![2, 0, v577.toNat]
def k0_off43 (d0 : Dev nD) : Fin 2 → Nat :=
  let c0_469 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_89 : BitVec 32 := 512#32
  let v158 : BitVec 32 := Scalar.muli v33 c512_i32_89
  let v159 : BitVec 32 := Scalar.addi v149 v158
  let v582 : Index := Scalar.indexCast v159
  ![0, v582.toNat]
def k0_off44 (d0 : Dev nD) : Fin 3 → Nat :=
  let c2_494 : Index := 2#32
  let c0_495 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_90 : BitVec 32 := 512#32
  let v160 : BitVec 32 := Scalar.muli v33 c512_i32_90
  let v161 : BitVec 32 := Scalar.addi v149 v160
  let c1_i32_91 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v162 : BitVec 32 := Scalar.subi c1_i32_91 v50
  let c256_i32_92 : BitVec 32 := 256#32
  let v163 : BitVec 32 := Scalar.muli v162 c256_i32_92
  let v164 : BitVec 32 := Scalar.addi v161 v163
  let v605 : Index := Scalar.indexCast v164
  ![2, 0, v605.toNat]
def k0_off45 (d0 : Dev nD) : Fin 3 → Nat :=
  let c2_496 : Index := 2#32
  let c0_497 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_90 : BitVec 32 := 512#32
  let v160 : BitVec 32 := Scalar.muli v33 c512_i32_90
  let v161 : BitVec 32 := Scalar.addi v149 v160
  let c1_i32_91 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v162 : BitVec 32 := Scalar.subi c1_i32_91 v50
  let c256_i32_92 : BitVec 32 := 256#32
  let v163 : BitVec 32 := Scalar.muli v162 c256_i32_92
  let v164 : BitVec 32 := Scalar.addi v161 v163
  let c512_i32_89 : BitVec 32 := 512#32
  let v158 : BitVec 32 := Scalar.muli v33 c512_i32_89
  let v159 : BitVec 32 := Scalar.addi v149 v158
  let v608 : BitVec 32 := Scalar.subi v164 v159
  let v609 : Index := Scalar.indexCast v608
  ![2, 0, v609.toNat]
def k0_off46 (d0 : Dev nD) : Fin 3 → Nat :=
  let c2_i32_500 : BitVec 32 := 2#32
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_90 : BitVec 32 := 512#32
  let v160 : BitVec 32 := Scalar.muli v33 c512_i32_90
  let v161 : BitVec 32 := Scalar.addi v149 v160
  let c1_i32_91 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v162 : BitVec 32 := Scalar.subi c1_i32_91 v50
  let c256_i32_92 : BitVec 32 := 256#32
  let v163 : BitVec 32 := Scalar.muli v162 c256_i32_92
  let v164 : BitVec 32 := Scalar.addi v161 v163
  ![2, 0, v164.toNat]
def k0_dev15 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_506 : BitVec 32 := 1#32
  let v617 : BitVec 32 := Scalar.muli v68 c1_i32_506
  let v618 : BitVec 32 := Scalar.addi c0_i32_507 v617
  v618.toNat
def k0_off47 (d0 : Dev nD) : Fin 3 → Nat :=
  let c2_511 : Index := 2#32
  let c0_512 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_93 : BitVec 32 := 512#32
  let v165 : BitVec 32 := Scalar.muli v33 c512_i32_93
  let v166 : BitVec 32 := Scalar.addi v149 v165
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c256_i32_94 : BitVec 32 := 256#32
  let v167 : BitVec 32 := Scalar.muli v50 c256_i32_94
  let v168 : BitVec 32 := Scalar.addi v166 v167
  let v627 : Index := Scalar.indexCast v168
  ![2, 0, v627.toNat]
def k0_off48 (d0 : Dev nD) : Fin 3 → Nat :=
  let c2_513 : Index := 2#32
  let c0_514 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_93 : BitVec 32 := 512#32
  let v165 : BitVec 32 := Scalar.muli v33 c512_i32_93
  let v166 : BitVec 32 := Scalar.addi v149 v165
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c256_i32_94 : BitVec 32 := 256#32
  let v167 : BitVec 32 := Scalar.muli v50 c256_i32_94
  let v168 : BitVec 32 := Scalar.addi v166 v167
  let c512_i32_89 : BitVec 32 := 512#32
  let v158 : BitVec 32 := Scalar.muli v33 c512_i32_89
  let v159 : BitVec 32 := Scalar.addi v149 v158
  let v630 : BitVec 32 := Scalar.subi v168 v159
  let v631 : Index := Scalar.indexCast v630
  ![2, 0, v631.toNat]
def k0_off49 (d0 : Dev nD) : Fin 3 → Nat :=
  let c0_i32_547 : BitVec 32 := 0#32
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_55 : BitVec 32 := 512#32
  let v105 : BitVec 32 := Scalar.muli v50 c512_i32_55
  let v106 : BitVec 32 := Scalar.addi v89 v105
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_56 : BitVec 32 := 256#32
  let v107 : BitVec 32 := Scalar.muli v19 c256_i32_56
  let v108 : BitVec 32 := Scalar.addi v106 v107
  ![0, 0, v108.toNat]
def k0_dev16 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_552 : BitVec 32 := 1#32
  let v665 : BitVec 32 := Scalar.muli v79 c1_i32_552
  let v666 : BitVec 32 := Scalar.addi c0_i32_553 v665
  v666.toNat
def k0_dev17 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_561 : BitVec 32 := 1#32
  let v675 : BitVec 32 := Scalar.muli v68 c1_i32_561
  let v676 : BitVec 32 := Scalar.addi c0_i32_562 v675
  v676.toNat
def k0_dev18 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_570 : BitVec 32 := 1#32
  let v685 : BitVec 32 := Scalar.muli v65 c1_i32_570
  let v686 : BitVec 32 := Scalar.addi c0_i32_571 v685
  v686.toNat
def k0_off50 (d0 : Dev nD) : Fin 3 → Nat :=
  let c1_i32_604 : BitVec 32 := 1#32
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_74 : BitVec 32 := 512#32
  let v135 : BitVec 32 := Scalar.muli v19 c512_i32_74
  let v136 : BitVec 32 := Scalar.addi v119 v135
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c256_i32_75 : BitVec 32 := 256#32
  let v137 : BitVec 32 := Scalar.muli v33 c256_i32_75
  let v138 : BitVec 32 := Scalar.addi v136 v137
  ![1, 0, v138.toNat]
def k0_dev19 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_609 : BitVec 32 := 1#32
  let v721 : BitVec 32 := Scalar.muli v65 c1_i32_609
  let v722 : BitVec 32 := Scalar.addi c0_i32_610 v721
  v722.toNat
def k0_dev20 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_619 : BitVec 32 := 1#32
  let v731 : BitVec 32 := Scalar.muli v79 c1_i32_619
  let v732 : BitVec 32 := Scalar.addi c0_i32_620 v731
  v732.toNat
def k0_dev21 (d0 : Dev nD) : Nat :=
  let c0_i32_630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_629 : BitVec 32 := 1#32
  let v741 : BitVec 32 := Scalar.muli v68 c1_i32_629
  let v742 : BitVec 32 := Scalar.addi c0_i32_630 v741
  v742.toNat
def k0_off51 (d0 : Dev nD) : Fin 3 → Nat :=
  let c2_i32_663 : BitVec 32 := 2#32
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_93 : BitVec 32 := 512#32
  let v165 : BitVec 32 := Scalar.muli v33 c512_i32_93
  let v166 : BitVec 32 := Scalar.addi v149 v165
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c256_i32_94 : BitVec 32 := 256#32
  let v167 : BitVec 32 := Scalar.muli v50 c256_i32_94
  let v168 : BitVec 32 := Scalar.addi v166 v167
  ![2, 0, v168.toNat]
def k0_dev22 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_668 : BitVec 32 := 1#32
  let v777 : BitVec 32 := Scalar.muli v68 c1_i32_668
  let v778 : BitVec 32 := Scalar.addi c0_i32_669 v777
  v778.toNat
def k0_dev23 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_678 : BitVec 32 := 1#32
  let v787 : BitVec 32 := Scalar.muli v65 c1_i32_678
  let v788 : BitVec 32 := Scalar.addi c0_i32_679 v787
  v788.toNat
def k0_dev24 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_688 : BitVec 32 := 1#32
  let v797 : BitVec 32 := Scalar.muli v79 c1_i32_688
  let v798 : BitVec 32 := Scalar.addi c0_i32_689 v797
  v798.toNat
def k0_off52 (d0 : Dev nD) : Fin 2 → Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_52 : BitVec 32 := 512#32
  let v98 : BitVec 32 := Scalar.muli v50 c512_i32_52
  let v99 : BitVec 32 := Scalar.addi v89 v98
  ![0, v99.toNat]
def k0_off53 (d0 : Dev nD) : Fin 3 → Nat :=
  let c0_i32_711 : BitVec 32 := 0#32
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_52 : BitVec 32 := 512#32
  let v98 : BitVec 32 := Scalar.muli v50 c512_i32_52
  let v99 : BitVec 32 := Scalar.addi v89 v98
  ![0, 0, v99.toNat]
def k0_dev25 (d0 : Dev nD) : Nat :=
  let c0_i32_722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_721 : BitVec 32 := 1#32
  let v826 : BitVec 32 := Scalar.muli v68 c1_i32_721
  let v827 : BitVec 32 := Scalar.addi c0_i32_722 v826
  v827.toNat
def k0_dev26 (d0 : Dev nD) : Nat :=
  let c0_i32_732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_731 : BitVec 32 := 1#32
  let v836 : BitVec 32 := Scalar.muli v65 c1_i32_731
  let v837 : BitVec 32 := Scalar.addi c0_i32_732 v836
  v837.toNat
def k0_off54 (d0 : Dev nD) : Fin 2 → Nat :=
  let c1368_i32 : BitVec 32 := 1368#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_70 : BitVec 32 := 512#32
  let v128 : BitVec 32 := Scalar.muli v19 c512_i32_70
  let v129 : BitVec 32 := Scalar.addi v119 v128
  ![1368, v129.toNat]
def k0_off55 (d0 : Dev nD) : Fin 3 → Nat :=
  let c1_i32_754 : BitVec 32 := 1#32
  let c0_i32_757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_70 : BitVec 32 := 512#32
  let v128 : BitVec 32 := Scalar.muli v19 c512_i32_70
  let v129 : BitVec 32 := Scalar.addi v119 v128
  ![1, 0, v129.toNat]
def k0_dev27 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_764 : BitVec 32 := 1#32
  let v865 : BitVec 32 := Scalar.muli v79 c1_i32_764
  let v866 : BitVec 32 := Scalar.addi c0_i32_765 v865
  v866.toNat
def k0_dev28 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_774 : BitVec 32 := 1#32
  let v875 : BitVec 32 := Scalar.muli v68 c1_i32_774
  let v876 : BitVec 32 := Scalar.addi c0_i32_775 v875
  v876.toNat
def k0_off56 (d0 : Dev nD) : Fin 2 → Nat :=
  let c2736_i32 : BitVec 32 := 2736#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_89 : BitVec 32 := 512#32
  let v158 : BitVec 32 := Scalar.muli v33 c512_i32_89
  let v159 : BitVec 32 := Scalar.addi v149 v158
  ![2736, v159.toNat]
def k0_off57 (d0 : Dev nD) : Fin 3 → Nat :=
  let c2_i32_797 : BitVec 32 := 2#32
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_89 : BitVec 32 := 512#32
  let v158 : BitVec 32 := Scalar.muli v33 c512_i32_89
  let v159 : BitVec 32 := Scalar.addi v149 v158
  ![2, 0, v159.toNat]
def k0_dev29 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_807 : BitVec 32 := 1#32
  let v904 : BitVec 32 := Scalar.muli v65 c1_i32_807
  let v905 : BitVec 32 := Scalar.addi c0_i32_808 v904
  v905.toNat
def k0_dev30 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_817 : BitVec 32 := 1#32
  let v914 : BitVec 32 := Scalar.muli v79 c1_i32_817
  let v915 : BitVec 32 := Scalar.addi c0_i32_818 v914
  v915.toNat
def k0_off58 (d0 : Dev nD) : Fin 2 → Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c1024_i32_47 : BitVec 32 := 1024#32
  let v89 : BitVec 32 := Scalar.muli v33 c1024_i32_47
  let c1_i32_60 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v114 : BitVec 32 := Scalar.subi c1_i32_60 v50
  let c512_i32_61 : BitVec 32 := 512#32
  let v115 : BitVec 32 := Scalar.muli v114 c512_i32_61
  let v116 : BitVec 32 := Scalar.addi v89 v115
  ![0, v116.toNat]
def k0_dev31 (d0 : Dev nD) : Nat :=
  let c0_i32_870 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v51 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_20 : BitVec 32 := 1#32
  let v53 : BitVec 32 := Scalar.addi v52 c1_i32_20
  let c2_i32_27 : BitVec 32 := 2#32
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v29 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let v64 : BitVec 32 := Scalar.muli c2_i32_27 v63
  let v65 : BitVec 32 := Scalar.subi v53 v64
  let c1_i32_869 : BitVec 32 := 1#32
  let v957 : BitVec 32 := Scalar.muli v65 c1_i32_869
  let v958 : BitVec 32 := Scalar.addi c0_i32_870 v957
  v958.toNat
def k0_off59 (d0 : Dev nD) : Fin 2 → Nat :=
  let c1368_i32_914 : BitVec 32 := 1368#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c1024_i32_64 : BitVec 32 := 1024#32
  let v119 : BitVec 32 := Scalar.muli v50 c1024_i32_64
  let c1_i32_79 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v144 : BitVec 32 := Scalar.subi c1_i32_79 v19
  let c512_i32_80 : BitVec 32 := 512#32
  let v145 : BitVec 32 := Scalar.muli v144 c512_i32_80
  let v146 : BitVec 32 := Scalar.addi v119 v145
  ![1368, v146.toNat]
def k0_dev32 (d0 : Dev nD) : Nat :=
  let c0_i32_923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_28 : BitVec 32 := 4#32
  let v66 : BitVec 32 := Scalar.muli v19 c4_i32_28
  let c3_i32 : BitVec 32 := 3#32
  let v67 : BitVec 32 := Scalar.addi v66 c3_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.subi v67 v29
  let c1_i32_922 : BitVec 32 := 1#32
  let v1000 : BitVec 32 := Scalar.muli v68 c1_i32_922
  let v1001 : BitVec 32 := Scalar.addi c0_i32_923 v1000
  v1001.toNat
def k0_off60 (d0 : Dev nD) : Fin 2 → Nat :=
  let c2736_i32_967 : BitVec 32 := 2736#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_83 : BitVec 32 := 1024#32
  let v149 : BitVec 32 := Scalar.muli v19 c1024_i32_83
  let c1_i32_98 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v174 : BitVec 32 := Scalar.subi c1_i32_98 v33
  let c512_i32_99 : BitVec 32 := 512#32
  let v175 : BitVec 32 := Scalar.muli v174 c512_i32_99
  let v176 : BitVec 32 := Scalar.addi v149 v175
  ![2736, v176.toNat]
def k0_dev33 (d0 : Dev nD) : Nat :=
  let c0_i32_976 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v69 : BitVec 32 := Scalar.addi v2 c4_i32_29
  let c8_i32_30 : BitVec 32 := 8#32
  let c0_i32_31 : BitVec 32 := 0#32
  let v70 : BitVec 1 := Scalar.cmpi .eq c8_i32_30 c0_i32_31
  let c1_i32_32 : BitVec 32 := 1#32
  let v71 : BitVec 32 := Scalar.select v70 c1_i32_32 c8_i32_30
  let v72 : BitVec 32 := Scalar.remsi v69 v71
  let c0_i32_34 : BitVec 32 := 0#32
  let v74 : BitVec 1 := Scalar.cmpi .slt v72 c0_i32_34
  let c0_i32_35 : BitVec 32 := 0#32
  let v75 : BitVec 1 := Scalar.cmpi .slt v71 c0_i32_35
  let v76 : BitVec 1 := Scalar.xori v74 v75
  let c0_i32_33 : BitVec 32 := 0#32
  let v73 : BitVec 1 := Scalar.cmpi .ne v72 c0_i32_33
  let v77 : BitVec 1 := Scalar.andi v76 v73
  let v78 : BitVec 32 := Scalar.addi v72 v71
  let v79 : BitVec 32 := Scalar.select v77 v78 v72
  let c1_i32_975 : BitVec 32 := 1#32
  let v1043 : BitVec 32 := Scalar.muli v79 c1_i32_975
  let v1044 : BitVec 32 := Scalar.addi c0_i32_976 v1043
  v1044.toNat
def k0_off61 (d0 : Dev nD) : Fin 2 → Nat :=
  let c0_i32_1023 : BitVec 32 := 0#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v87 : BitVec 32 := Scalar.subi c1_i32_46 v33
  let c1024_i32 : BitVec 32 := 1024#32
  let v88 : BitVec 32 := Scalar.muli v87 c1024_i32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let c512_i32_979 : BitVec 32 := 512#32
  let v1053 : BitVec 32 := Scalar.muli v50 c512_i32_979
  let v1054 : BitVec 32 := Scalar.addi v88 v1053
  ![0, v1054.toNat]
def k0_off62 (d0 : Dev nD) : Fin 2 → Nat :=
  let c1368_i32_1066 : BitVec 32 := 1368#32
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v117 : BitVec 32 := Scalar.subi c1_i32_62 v50
  let c1024_i32_63 : BitVec 32 := 1024#32
  let v118 : BitVec 32 := Scalar.muli v117 c1024_i32_63
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_980 : BitVec 32 := 512#32
  let v1055 : BitVec 32 := Scalar.muli v19 c512_i32_980
  let v1056 : BitVec 32 := Scalar.addi v118 v1055
  ![1368, v1056.toNat]
def k0_off63 (d0 : Dev nD) : Fin 2 → Nat :=
  let c2736_i32_1109 : BitVec 32 := 2736#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v147 : BitVec 32 := Scalar.subi c1_i32_81 v19
  let c1024_i32_82 : BitVec 32 := 1024#32
  let v148 : BitVec 32 := Scalar.muli v147 c1024_i32_82
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let c512_i32_981 : BitVec 32 := 512#32
  let v1057 : BitVec 32 := Scalar.muli v33 c512_i32_981
  let v1058 : BitVec 32 := Scalar.addi v148 v1057
  ![2736, v1058.toNat]
def k0_off64 (d0 : Dev nD) : Fin 2 → Nat :=
  let c0_i32_1135 : BitVec 32 := 0#32
  let c1_i32_46 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v87 : BitVec 32 := Scalar.subi c1_i32_46 v33
  let c1024_i32 : BitVec 32 := 1024#32
  let v88 : BitVec 32 := Scalar.muli v87 c1024_i32
  let c1_i32_1130 : BitVec 32 := 1#32
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v1172 : BitVec 32 := Scalar.subi c1_i32_1130 v50
  let c512_i32_1131 : BitVec 32 := 512#32
  let v1173 : BitVec 32 := Scalar.muli v1172 c512_i32_1131
  let v1174 : BitVec 32 := Scalar.addi v88 v1173
  ![0, v1174.toNat]
def k0_off65 (d0 : Dev nD) : Fin 2 → Nat :=
  let c1368_i32_1161 : BitVec 32 := 1368#32
  let c1_i32_62 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let v35 : BitVec 1 := Scalar.cmpi .sgt v29 c0_i32_13
  let v36 : BitVec 32 := Scalar.extui v35
  let c0_i32_14 : BitVec 32 := 0#32
  let v37 : BitVec 1 := Scalar.cmpi .slt v29 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v29 c2_i32_12
  let c0_i32_17 : BitVec 32 := 0#32
  let v47 : BitVec 1 := Scalar.cmpi .ne v46 c0_i32_17
  let v48 : BitVec 1 := Scalar.andi v45 v47
  let v34 : BitVec 32 := Scalar.divsi v29 c2_i32_12
  let c1_i32_18 : BitVec 32 := 1#32
  let v49 : BitVec 32 := Scalar.subi v34 c1_i32_18
  let v50 : BitVec 32 := Scalar.select v48 v49 v34
  let v117 : BitVec 32 := Scalar.subi c1_i32_62 v50
  let c1024_i32_63 : BitVec 32 := 1024#32
  let v118 : BitVec 32 := Scalar.muli v117 c1024_i32_63
  let c1_i32_1156 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1194 : BitVec 32 := Scalar.subi c1_i32_1156 v19
  let c512_i32_1157 : BitVec 32 := 512#32
  let v1195 : BitVec 32 := Scalar.muli v1194 c512_i32_1157
  let v1196 : BitVec 32 := Scalar.addi v118 v1195
  ![1368, v1196.toNat]
def k0_off66 (d0 : Dev nD) : Fin 2 → Nat :=
  let c2736_i32_1187 : BitVec 32 := 2736#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v147 : BitVec 32 := Scalar.subi c1_i32_81 v19
  let c1024_i32_82 : BitVec 32 := 1024#32
  let v148 : BitVec 32 := Scalar.muli v147 c1024_i32_82
  let c1_i32_1182 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let c2_i32 : BitVec 32 := 2#32
  let v31 : BitVec 1 := Scalar.cmpi .eq v29 c2_i32
  let v32 : BitVec 1 := Scalar.ori v30 v31
  let v33 : BitVec 32 := Scalar.extui v32
  let v1216 : BitVec 32 := Scalar.subi c1_i32_1182 v33
  let c512_i32_1183 : BitVec 32 := 512#32
  let v1217 : BitVec 32 := Scalar.muli v1216 c512_i32_1183
  let v1218 : BitVec 32 := Scalar.addi v148 v1217
  ![2736, v1218.toNat]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S4096x512_S1368x512_0_0 : ∀ a, (![0, 0] : Fin 2 → Nat) a + S1368x512.size a ≤ S4096x512.size a
  h_S1368x512 : 0 < S1368x512.numel
  shapeCasts_S1368x512_S1368x512 : S1368x512.ShapeCasts S1368x512
  h_S512x512 : 0 < S512x512.numel
  shapeCasts_S512x512_S512x512 : S512x512.ShapeCasts S512x512
  h_S1x1368x512 : 0 < S1x1368x512.numel
  shapeCasts_S1x1368x512_S1368x512 : S1x1368x512.ShapeCasts S1368x512
  shapeCasts_S1368x512_S1x1368x512 : S1368x512.ShapeCasts S1x1368x512
  inb_S3x10_S1x1_0_0 : ∀ a, (![0, 0] : Fin 2 → Nat) a + S1x1.size a ≤ S3x10.size a
  squeezes_S1x1_S_ : S1x1.Squeezes S_
  squeezes_S1x1368x512_S1368x512 : S1x1368x512.Squeezes S1368x512
  inb_S4096x512_S1368x512_1368_0 : ∀ a, (![1368, 0] : Fin 2 → Nat) a + S1368x512.size a ≤ S4096x512.size a
  inb_S3x10_S1x1_1_0 : ∀ a, (![1, 0] : Fin 2 → Nat) a + S1x1.size a ≤ S3x10.size a
  inb_S4096x512_S1360x512_2736_0 : ∀ a, (![2736, 0] : Fin 2 → Nat) a + S1360x512.size a ≤ S4096x512.size a
  h_S1360x512 : 0 < S1360x512.numel
  shapeCasts_S1360x512_S1360x512 : S1360x512.ShapeCasts S1360x512
  h_S1x1360x512 : 0 < S1x1360x512.numel
  shapeCasts_S1x1360x512_S1360x512 : S1x1360x512.ShapeCasts S1360x512
  shapeCasts_S1360x512_S1x1360x512 : S1360x512.ShapeCasts S1x1360x512
  inb_S3x10_S1x1_2_0 : ∀ a, (![2, 0] : Fin 2 → Nat) a + S1x1.size a ≤ S3x10.size a
  squeezes_S1x1360x512_S1360x512 : S1x1360x512.Squeezes S1360x512
  inb_S3x10_S1x1_0_1 : ∀ a, (![0, 1] : Fin 2 → Nat) a + S1x1.size a ≤ S3x10.size a
  inb_S3x10_S1x1_1_1 : ∀ a, (![1, 1] : Fin 2 → Nat) a + S1x1.size a ≤ S3x10.size a
  inb_S3x10_S1x1_2_1 : ∀ a, (![2, 1] : Fin 2 → Nat) a + S1x1.size a ≤ S3x10.size a
  inb_S3x10_S1x1_0_2 : ∀ a, (![0, 2] : Fin 2 → Nat) a + S1x1.size a ≤ S3x10.size a
  inb_S3x1368x512_S1x1368x512_0_0_0 : ∀ a, (![0, 0, 0] : Fin 3 → Nat) a + S1x1368x512.size a ≤ S3x1368x512.size a
  inb_S3x10_S1x1_1_2 : ∀ a, (![1, 2] : Fin 2 → Nat) a + S1x1.size a ≤ S3x10.size a
  inb_S3x1368x512_S1x1368x512_1_0_0 : ∀ a, (![1, 0, 0] : Fin 3 → Nat) a + S1x1368x512.size a ≤ S3x1368x512.size a
  inb_S3x10_S1x1_2_2 : ∀ a, (![2, 2] : Fin 2 → Nat) a + S1x1.size a ≤ S3x10.size a
  inb_S3x1368x512_S1x1360x512_2_0_0 : ∀ a, (![2, 0, 0] : Fin 3 → Nat) a + S1x1360x512.size a ≤ S3x1368x512.size a
  h_S1x1368x256 : 0 < S1x1368x256.numel
  shapeCasts_S1x1368x256_S1368x256 : S1x1368x256.ShapeCasts S1368x256
  shapeCasts_S1368x256_S1x1368x256 : S1368x256.ShapeCasts S1x1368x256
  inb_S3x10_S1x1_0_3 : ∀ a, (![0, 3] : Fin 2 → Nat) a + S1x1.size a ≤ S3x10.size a
  inb_S3x1368x256_S1x1368x256_0_0_0 : ∀ a, (![0, 0, 0] : Fin 3 → Nat) a + S1x1368x256.size a ≤ S3x1368x256.size a
  squeezes_S1x1368x256_S1368x256 : S1x1368x256.Squeezes S1368x256
  inb_S3x10_S1x1_1_3 : ∀ a, (![1, 3] : Fin 2 → Nat) a + S1x1.size a ≤ S3x10.size a
  inb_S3x1368x256_S1x1368x256_1_0_0 : ∀ a, (![1, 0, 0] : Fin 3 → Nat) a + S1x1368x256.size a ≤ S3x1368x256.size a
  h_S1x1360x256 : 0 < S1x1360x256.numel
  shapeCasts_S1x1360x256_S1360x256 : S1x1360x256.ShapeCasts S1360x256
  shapeCasts_S1360x256_S1x1360x256 : S1360x256.ShapeCasts S1x1360x256
  inb_S3x10_S1x1_2_3 : ∀ a, (![2, 3] : Fin 2 → Nat) a + S1x1.size a ≤ S3x10.size a
  inb_S3x1368x256_S1x1360x256_2_0_0 : ∀ a, (![2, 0, 0] : Fin 3 → Nat) a + S1x1360x256.size a ≤ S3x1368x256.size a
  squeezes_S1x1360x256_S1360x256 : S1x1360x256.Squeezes S1360x256
  inb_S3x10_S1x1_0_4 : ∀ a, (![0, 4] : Fin 2 → Nat) a + S1x1.size a ≤ S3x10.size a
  inb_S3x10_S1x1_0_5 : ∀ a, (![0, 5] : Fin 2 → Nat) a + S1x1.size a ≤ S3x10.size a
  inb_S3x10_S1x1_0_6 : ∀ a, (![0, 6] : Fin 2 → Nat) a + S1x1.size a ≤ S3x10.size a
  inb_S3x10_S1x1_1_4 : ∀ a, (![1, 4] : Fin 2 → Nat) a + S1x1.size a ≤ S3x10.size a
  inb_S3x10_S1x1_1_5 : ∀ a, (![1, 5] : Fin 2 → Nat) a + S1x1.size a ≤ S3x10.size a
  inb_S3x10_S1x1_1_6 : ∀ a, (![1, 6] : Fin 2 → Nat) a + S1x1.size a ≤ S3x10.size a
  inb_S3x10_S1x1_2_4 : ∀ a, (![2, 4] : Fin 2 → Nat) a + S1x1.size a ≤ S3x10.size a
  inb_S3x10_S1x1_2_5 : ∀ a, (![2, 5] : Fin 2 → Nat) a + S1x1.size a ≤ S3x10.size a
  inb_S3x10_S1x1_2_6 : ∀ a, (![2, 6] : Fin 2 → Nat) a + S1x1.size a ≤ S3x10.size a
  inb_S3x4_S1x1_0_0 : ∀ a, (![0, 0] : Fin 2 → Nat) a + S1x1.size a ≤ S3x4.size a
  inb_S3x10_S1x1_0_7 : ∀ a, (![0, 7] : Fin 2 → Nat) a + S1x1.size a ≤ S3x10.size a
  inb_S3x10_S1x1_0_8 : ∀ a, (![0, 8] : Fin 2 → Nat) a + S1x1.size a ≤ S3x10.size a
  inb_S3x4_S1x1_1_0 : ∀ a, (![1, 0] : Fin 2 → Nat) a + S1x1.size a ≤ S3x4.size a
  inb_S3x10_S1x1_1_7 : ∀ a, (![1, 7] : Fin 2 → Nat) a + S1x1.size a ≤ S3x10.size a
  inb_S3x10_S1x1_1_8 : ∀ a, (![1, 8] : Fin 2 → Nat) a + S1x1.size a ≤ S3x10.size a
  inb_S3x4_S1x1_2_0 : ∀ a, (![2, 0] : Fin 2 → Nat) a + S1x1.size a ≤ S3x4.size a
  inb_S3x10_S1x1_2_7 : ∀ a, (![2, 7] : Fin 2 → Nat) a + S1x1.size a ≤ S3x10.size a
  inb_S3x10_S1x1_2_8 : ∀ a, (![2, 8] : Fin 2 → Nat) a + S1x1.size a ≤ S3x10.size a
  inb_S3x4_S1x1_0_1 : ∀ a, (![0, 1] : Fin 2 → Nat) a + S1x1.size a ≤ S3x4.size a
  inb_S3x10_S1x1_0_9 : ∀ a, (![0, 9] : Fin 2 → Nat) a + S1x1.size a ≤ S3x10.size a
  inb_S3x4_S1x1_1_1 : ∀ a, (![1, 1] : Fin 2 → Nat) a + S1x1.size a ≤ S3x4.size a
  inb_S3x10_S1x1_1_9 : ∀ a, (![1, 9] : Fin 2 → Nat) a + S1x1.size a ≤ S3x10.size a
  inb_S3x4_S1x1_2_1 : ∀ a, (![2, 1] : Fin 2 → Nat) a + S1x1.size a ≤ S3x4.size a
  inb_S3x10_S1x1_2_9 : ∀ a, (![2, 9] : Fin 2 → Nat) a + S1x1.size a ≤ S3x10.size a
  inb_S3x4_S1x1_0_2 : ∀ a, (![0, 2] : Fin 2 → Nat) a + S1x1.size a ≤ S3x4.size a
  inb_S3x4_S1x1_1_2 : ∀ a, (![1, 2] : Fin 2 → Nat) a + S1x1.size a ≤ S3x4.size a
  inb_S3x4_S1x1_2_2 : ∀ a, (![2, 2] : Fin 2 → Nat) a + S1x1.size a ≤ S3x4.size a
  inb_S3x4_S1x1_0_3 : ∀ a, (![0, 3] : Fin 2 → Nat) a + S1x1.size a ≤ S3x4.size a
  inb_S3x4_S1x1_1_3 : ∀ a, (![1, 3] : Fin 2 → Nat) a + S1x1.size a ≤ S3x4.size a
  inb_S3x4_S1x1_2_3 : ∀ a, (![2, 3] : Fin 2 → Nat) a + S1x1.size a ≤ S3x4.size a
  dot_S1368x512_S512x512_S1368x512_1_0_0_1_n_n_wf : DotDims.WF S1368x512 S512x512 S1368x512 [1] [0] [0] [1] [] []
  dot_S1360x512_S512x512_S1360x512_1_0_0_1_n_n_wf : DotDims.WF S1360x512 S512x512 S1360x512 [1] [0] [0] [1] [] []
  hcc0_scratch3 : 2 + S3x10.numel ≤ 74
  hcc0_scratch4 : 32 + S3x10.numel ≤ 74
  hcc0_scratch5 : 62 + S3x4.numel ≤ 74
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S512x512.size a ≤ S512x2048.size a
  k0_off2_inb : ∀ d0 : Dev nD, ∀ a, (k0_off2 d0) a + S1x1368x512.size a ≤ S3x1368x2048.size a
  k0_off3_inb : ∀ d0 : Dev nD, ∀ a, (k0_off3 d0) a + S1x1368x512.size a ≤ S3x1368x2048.size a
  k0_dev4_lt : ∀ d0 : Dev nD, (k0_dev4 d0) < nD
  k0_off4_inb : ∀ d0 : Dev nD, ∀ a, (k0_off4 d0) a + S512x512.size a ≤ S512x2048.size a
  k0_off5_inb : ∀ d0 : Dev nD, ∀ a, (k0_off5 d0) a + S1x1368x512.size a ≤ S3x1368x2048.size a
  k0_off6_inb : ∀ d0 : Dev nD, ∀ a, (k0_off6 d0) a + S1x1368x512.size a ≤ S3x1368x2048.size a
  k0_dev5_lt : ∀ d0 : Dev nD, (k0_dev5 d0) < nD
  k0_off7_inb : ∀ d0 : Dev nD, ∀ a, (k0_off7 d0) a + S512x512.size a ≤ S512x2048.size a
  k0_off8_inb : ∀ d0 : Dev nD, ∀ a, (k0_off8 d0) a + S1x1360x512.size a ≤ S3x1368x2048.size a
  k0_off9_inb : ∀ d0 : Dev nD, ∀ a, (k0_off9 d0) a + S1x1360x512.size a ≤ S3x1368x2048.size a
  k0_dev6_lt : ∀ d0 : Dev nD, (k0_dev6 d0) < nD
  k0_off10_inb : ∀ d0 : Dev nD, ∀ a, (k0_off10 d0) a + S512x512.size a ≤ S512x2048.size a
  k0_off11_inb : ∀ d0 : Dev nD, ∀ a, (k0_off11 d0) a + S1x1368x512.size a ≤ S3x1368x2048.size a
  k0_off12_inb : ∀ d0 : Dev nD, ∀ a, (k0_off12 d0) a + S1x1368x512.size a ≤ S3x1368x2048.size a
  k0_dev7_lt : ∀ d0 : Dev nD, (k0_dev7 d0) < nD
  k0_off13_inb : ∀ d0 : Dev nD, ∀ a, (k0_off13 d0) a + S512x512.size a ≤ S512x2048.size a
  k0_off14_inb : ∀ d0 : Dev nD, ∀ a, (k0_off14 d0) a + S1x1368x512.size a ≤ S3x1368x2048.size a
  k0_off15_inb : ∀ d0 : Dev nD, ∀ a, (k0_off15 d0) a + S1x1368x512.size a ≤ S3x1368x2048.size a
  k0_dev8_lt : ∀ d0 : Dev nD, (k0_dev8 d0) < nD
  k0_off16_inb : ∀ d0 : Dev nD, ∀ a, (k0_off16 d0) a + S512x512.size a ≤ S512x2048.size a
  k0_off17_inb : ∀ d0 : Dev nD, ∀ a, (k0_off17 d0) a + S1x1360x512.size a ≤ S3x1368x2048.size a
  k0_off18_inb : ∀ d0 : Dev nD, ∀ a, (k0_off18 d0) a + S1x1360x512.size a ≤ S3x1368x2048.size a
  k0_dev9_lt : ∀ d0 : Dev nD, (k0_dev9 d0) < nD
  k0_off19_inb : ∀ d0 : Dev nD, ∀ a, (k0_off19 d0) a + S1x1368x512.size a ≤ S3x1368x2048.size a
  k0_off20_inb : ∀ d0 : Dev nD, ∀ a, (k0_off20 d0) a + S512x512.size a ≤ S512x2048.size a
  k0_off21_inb : ∀ d0 : Dev nD, ∀ a, (k0_off21 d0) a + S1x1368x512.size a ≤ S3x1368x2048.size a
  k0_dev10_lt : ∀ d0 : Dev nD, (k0_dev10 d0) < nD
  k0_off22_inb : ∀ d0 : Dev nD, ∀ a, (k0_off22 d0) a + S1x1368x512.size a ≤ S3x1368x2048.size a
  k0_off23_inb : ∀ d0 : Dev nD, ∀ a, (k0_off23 d0) a + S512x512.size a ≤ S512x2048.size a
  k0_off24_inb : ∀ d0 : Dev nD, ∀ a, (k0_off24 d0) a + S1x1368x512.size a ≤ S3x1368x2048.size a
  k0_dev11_lt : ∀ d0 : Dev nD, (k0_dev11 d0) < nD
  k0_off25_inb : ∀ d0 : Dev nD, ∀ a, (k0_off25 d0) a + S1x1360x512.size a ≤ S3x1368x2048.size a
  k0_off26_inb : ∀ d0 : Dev nD, ∀ a, (k0_off26 d0) a + S512x512.size a ≤ S512x2048.size a
  k0_off27_inb : ∀ d0 : Dev nD, ∀ a, (k0_off27 d0) a + S1x1360x512.size a ≤ S3x1368x2048.size a
  k0_dev12_lt : ∀ d0 : Dev nD, (k0_dev12 d0) < nD
  k0_off28_inb : ∀ d0 : Dev nD, ∀ a, (k0_off28 d0) a + S1x1368x512.size a ≤ S3x1368x2048.size a
  k0_off29_inb : ∀ d0 : Dev nD, ∀ a, (k0_off29 d0) a + S512x512.size a ≤ S512x2048.size a
  k0_off30_inb : ∀ d0 : Dev nD, ∀ a, (k0_off30 d0) a + S1x1368x256.size a ≤ S3x1368x2048.size a
  k0_off31_inb : ∀ d0 : Dev nD, ∀ a, (k0_off31 d0) a + S1x1368x256.size a ≤ S3x1368x512.size a
  k0_off32_inb : ∀ d0 : Dev nD, ∀ a, (k0_off32 d0) a + S1x1368x256.size a ≤ S3x1368x2048.size a
  k0_dev13_lt : ∀ d0 : Dev nD, (k0_dev13 d0) < nD
  k0_off33_inb : ∀ d0 : Dev nD, ∀ a, (k0_off33 d0) a + S1x1368x256.size a ≤ S3x1368x2048.size a
  k0_off34_inb : ∀ d0 : Dev nD, ∀ a, (k0_off34 d0) a + S1x1368x256.size a ≤ S3x1368x512.size a
  k0_off35_inb : ∀ d0 : Dev nD, ∀ a, (k0_off35 d0) a + S1x1368x512.size a ≤ S3x1368x2048.size a
  k0_off36_inb : ∀ d0 : Dev nD, ∀ a, (k0_off36 d0) a + S512x512.size a ≤ S512x2048.size a
  k0_off37_inb : ∀ d0 : Dev nD, ∀ a, (k0_off37 d0) a + S1x1368x256.size a ≤ S3x1368x2048.size a
  k0_off38_inb : ∀ d0 : Dev nD, ∀ a, (k0_off38 d0) a + S1x1368x256.size a ≤ S3x1368x512.size a
  k0_off39_inb : ∀ d0 : Dev nD, ∀ a, (k0_off39 d0) a + S1x1368x256.size a ≤ S3x1368x2048.size a
  k0_dev14_lt : ∀ d0 : Dev nD, (k0_dev14 d0) < nD
  k0_off40_inb : ∀ d0 : Dev nD, ∀ a, (k0_off40 d0) a + S1x1368x256.size a ≤ S3x1368x2048.size a
  k0_off41_inb : ∀ d0 : Dev nD, ∀ a, (k0_off41 d0) a + S1x1368x256.size a ≤ S3x1368x512.size a
  k0_off42_inb : ∀ d0 : Dev nD, ∀ a, (k0_off42 d0) a + S1x1360x512.size a ≤ S3x1368x2048.size a
  k0_off43_inb : ∀ d0 : Dev nD, ∀ a, (k0_off43 d0) a + S512x512.size a ≤ S512x2048.size a
  k0_off44_inb : ∀ d0 : Dev nD, ∀ a, (k0_off44 d0) a + S1x1360x256.size a ≤ S3x1368x2048.size a
  k0_off45_inb : ∀ d0 : Dev nD, ∀ a, (k0_off45 d0) a + S1x1360x256.size a ≤ S3x1368x512.size a
  k0_off46_inb : ∀ d0 : Dev nD, ∀ a, (k0_off46 d0) a + S1x1360x256.size a ≤ S3x1368x2048.size a
  k0_dev15_lt : ∀ d0 : Dev nD, (k0_dev15 d0) < nD
  k0_off47_inb : ∀ d0 : Dev nD, ∀ a, (k0_off47 d0) a + S1x1360x256.size a ≤ S3x1368x2048.size a
  k0_off48_inb : ∀ d0 : Dev nD, ∀ a, (k0_off48 d0) a + S1x1360x256.size a ≤ S3x1368x512.size a
  k0_off49_inb : ∀ d0 : Dev nD, ∀ a, (k0_off49 d0) a + S1x1368x256.size a ≤ S3x1368x2048.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off50_inb : ∀ d0 : Dev nD, ∀ a, (k0_off50 d0) a + S1x1368x256.size a ≤ S3x1368x2048.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off51_inb : ∀ d0 : Dev nD, ∀ a, (k0_off51 d0) a + S1x1360x256.size a ≤ S3x1368x2048.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_off52_inb : ∀ d0 : Dev nD, ∀ a, (k0_off52 d0) a + S1368x512.size a ≤ S4096x2048.size a
  k0_off53_inb : ∀ d0 : Dev nD, ∀ a, (k0_off53 d0) a + S1x1368x512.size a ≤ S3x1368x2048.size a
  k0_dev25_lt : ∀ d0 : Dev nD, (k0_dev25 d0) < nD
  k0_dev26_lt : ∀ d0 : Dev nD, (k0_dev26 d0) < nD
  k0_off54_inb : ∀ d0 : Dev nD, ∀ a, (k0_off54 d0) a + S1368x512.size a ≤ S4096x2048.size a
  k0_off55_inb : ∀ d0 : Dev nD, ∀ a, (k0_off55 d0) a + S1x1368x512.size a ≤ S3x1368x2048.size a
  k0_dev27_lt : ∀ d0 : Dev nD, (k0_dev27 d0) < nD
  k0_dev28_lt : ∀ d0 : Dev nD, (k0_dev28 d0) < nD
  k0_off56_inb : ∀ d0 : Dev nD, ∀ a, (k0_off56 d0) a + S1360x512.size a ≤ S4096x2048.size a
  k0_off57_inb : ∀ d0 : Dev nD, ∀ a, (k0_off57 d0) a + S1x1360x512.size a ≤ S3x1368x2048.size a
  k0_dev29_lt : ∀ d0 : Dev nD, (k0_dev29 d0) < nD
  k0_dev30_lt : ∀ d0 : Dev nD, (k0_dev30 d0) < nD
  k0_off58_inb : ∀ d0 : Dev nD, ∀ a, (k0_off58 d0) a + S1368x512.size a ≤ S4096x2048.size a
  k0_dev31_lt : ∀ d0 : Dev nD, (k0_dev31 d0) < nD
  k0_off59_inb : ∀ d0 : Dev nD, ∀ a, (k0_off59 d0) a + S1368x512.size a ≤ S4096x2048.size a
  k0_dev32_lt : ∀ d0 : Dev nD, (k0_dev32 d0) < nD
  k0_off60_inb : ∀ d0 : Dev nD, ∀ a, (k0_off60 d0) a + S1360x512.size a ≤ S4096x2048.size a
  k0_dev33_lt : ∀ d0 : Dev nD, (k0_dev33 d0) < nD
  k0_off61_inb : ∀ d0 : Dev nD, ∀ a, (k0_off61 d0) a + S1368x512.size a ≤ S4096x2048.size a
  k0_off62_inb : ∀ d0 : Dev nD, ∀ a, (k0_off62 d0) a + S1368x512.size a ≤ S4096x2048.size a
  k0_off63_inb : ∀ d0 : Dev nD, ∀ a, (k0_off63 d0) a + S1360x512.size a ≤ S4096x2048.size a
  k0_off64_inb : ∀ d0 : Dev nD, ∀ a, (k0_off64 d0) a + S1368x512.size a ≤ S4096x2048.size a
  k0_off65_inb : ∀ d0 : Dev nD, ∀ a, (k0_off65 d0) a + S1368x512.size a ≤ S4096x2048.size a
  k0_off66_inb : ∀ d0 : Dev nD, ∀ a, (k0_off66 d0) a + S1360x512.size a ≤ S4096x2048.size a
  hstage0_0 : ∀ j, (stage0_0 j).IsWhole
  hstage0_1 : ∀ j, (stage0_1 j).IsWhole

variable [Facts₀]

abbrev cc0_scratch3 : DmaSems sig S3x10 := SemArray.consecutive 2 S3x10 hcc0_scratch3
abbrev cc0_scratch4 : DmaSems sig S3x10 := SemArray.consecutive 32 S3x10 hcc0_scratch4
abbrev cc0_scratch5 : DmaSems sig S3x4 := SemArray.consecutive 62 S3x4 hcc0_scratch5
def dot_S1368x512_S512x512_S1368x512_1_0_0_1_n_n : DotDims S1368x512 S512x512 S1368x512 where
  lhsContracting := [1]
  rhsContracting := [0]
  lhsNonContracting := [0]
  rhsNonContracting := [1]
  lhsBatch := []
  rhsBatch := []
  wf := dot_S1368x512_S512x512_S1368x512_1_0_0_1_n_n_wf
def dot_S1360x512_S512x512_S1360x512_1_0_0_1_n_n : DotDims S1360x512 S512x512 S1360x512 where
  lhsContracting := [1]
  rhsContracting := [0]
  lhsNonContracting := [0]
  rhsNonContracting := [1]
  lhsBatch := []
  rhsBatch := []
  wf := dot_S1360x512_S512x512_S1360x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Spec.lean ====
import proofs.«900802_g7700000000000803_dist_gemm_ar_m4096_k4096_n2048_f32_relu_v7x_i8_1_alg».proof.KernelIdeal

namespace Cert.KernelIdeal.Spec

open Idealize.ShloMosaic

def zb (c : Dev nD) : ℕ := c.val / 4

def qq (c : Dev nD) : ℕ := c.val % 4

def bit (k : Fin 3) (c : Dev nD) : ℕ :=
  match k with
  | 0 => if qq c = 1 ∨ qq c = 2 then 1 else 0
  | 1 => qq c / 2
  | 2 => zb c

def par (k : Fin 3) (c : Dev nD) : Dev nD :=
  match k with
  | 0 => ⟨(zb c * 4 + qq c + 1 - 2 * (qq c % 2)) % 8, Nat.mod_lt _ (by decide)⟩
  | 1 => ⟨(zb c * 4 + 3 - qq c) % 8, Nat.mod_lt _ (by decide)⟩
  | 2 => ⟨(c.val + 4) % 8, Nat.mod_lt _ (by decide)⟩

theorem par_par (k : Fin 3) (c : Dev nD) : par k (par k c) = c := by revert k c; decide
def axis (p j : Fin 3) : Fin 3 := ⟨(p.val + j.val) % 3, Nat.mod_lt _ (by decide)⟩

def b (p j : Fin 3) (c : Dev nD) : ℕ := bit (axis p j) c

def rowStart (p : Fin 3) : ℕ := ![0, 1368, 2736] p
def rowLen (p : Fin 3) : ℕ := ![1368, 1368, 1360] p

def away0 (p : Fin 3) (c : Dev nD) : ℕ := (1 - b p 0 c) * 1024

def o1 (p : Fin 3) (c : Dev nD) : ℕ := b p 0 c * 1024

def sub1 (p : Fin 3) (c : Dev nD) : ℕ := away0 p c + (1 - b p 1 c) * 512
def sub2 (p : Fin 3) (c : Dev nD) : ℕ := away0 p c + b p 1 c * 512

def away1 (p : Fin 3) (c : Dev nD) : ℕ := o1 p c + (1 - b p 1 c) * 512
def o2 (p : Fin 3) (c : Dev nD) : ℕ := o1 p c + b p 1 c * 512

def away2 (p : Fin 3) (c : Dev nD) : ℕ := o2 p c + (1 - b p 2 c) * 256
def o3 (p : Fin 3) (c : Dev nD) : ℕ := o2 p c + b p 2 c * 256

end Cert.KernelIdeal.Spec
-- ==== Proof.Tree.lean ====
import proofs.«900802_g7700000000000803_dist_gemm_ar_m4096_k4096_n2048_f32_relu_v7x_i8_1_alg».proof.Proof.Spec

namespace Cert.KernelIdeal.Spec

open Idealize.ShloMosaic

variable {α : Type} [Add α]

def red1 (P : Dev nD → α) (p : Fin 3) (c : Dev nD) : α := P (par (axis p 0) c) + P c

def red2 (P : Dev nD → α) (p : Fin 3) (c : Dev nD) : α := red1 P p c + red1 P p (par (axis p 1) c)

def red3 (P : Dev nD → α) (p : Fin 3) (c : Dev nD) : α := red2 P p c + red2 P p (par (axis p 2) c)

end Cert.KernelIdeal.Spec
-- ==== Proof.Vals.lean ====
import proofs.«900802_g7700000000000803_dist_gemm_ar_m4096_k4096_n2048_f32_relu_v7x_i8_1_alg».proof.Proof.Tree
import proofs.«900802_g7700000000000803_dist_gemm_ar_m4096_k4096_n2048_f32_relu_v7x_i8_1_alg».proof.Proof.Gen.KernelIdeal.Skeleton
import Idealize.ShloMosaic.Lib.ValueIdx

noncomputable section

namespace Cert.KernelIdeal.Vals

open Idealize.ShloMosaic Cert.KernelIdeal.Spec Cert.KernelIdeal.Gen
open Idealize.ShloMosaic.ValueIdx

variable {F : FTy → Type} [FloatOps F]

local instance : Add (F .f32) := ⟨FloatOps.addf⟩

def junk : F .f32 := FloatOps.ofBits .f32 0x00000000#32

variable (x : Dev nD → Vec F S4096x512 .f32) (w : Dev nD → Vec F S512x2048 .f32)

def xrowsA (d : Dev nD) (r0 : ℕ) (h : r0 + 1368 ≤ 4096) : Vec F S1368x512 .f32 :=
  fun y => x d (ix2 ⟨r0 + (y 0).val, by have h0 : (y 0).val < 1368 := (y 0).isLt; show r0 + (y 0).val < 4096; omega⟩ (y 1))

def xrowsB (d : Dev nD) : Vec F S1360x512 .f32 :=
  fun y => x d (ix2 ⟨2736 + (y 0).val, by have h0 : (y 0).val < 1360 := (y 0).isLt; show 2736 + (y 0).val < 4096; omega⟩ (y 1))

def wcols (d : Dev nD) (t : Fin 4) : Vec F S512x512 .f32 :=
  fun y => w d (ix2 (y 0) ⟨512 * t.val + (y 1).val, by have h1 : (y 1).val < 512 := (y 1).isLt; have := t.isLt; show 512 * t.val + (y 1).val < 2048; omega⟩)

def mmA (a : Vec F S1368x512 .f32) (bm : Vec F S512x512 .f32) : FVec F S1368x512 .f32 :=
  matmul dot_S1368x512_S512x512_S1368x512_1_0_0_1_n_n none (shapeCast S1368x512 a shapeCasts_S1368x512_S1368x512)
    (shapeCast S512x512 bm shapeCasts_S512x512_S512x512) (constant S1368x512 .f32 0x00000000#32)
def mmB (a : Vec F S1360x512 .f32) (bm : Vec F S512x512 .f32) : FVec F S1360x512 .f32 :=
  matmul dot_S1360x512_S512x512_S1360x512_1_0_0_1_n_n none (shapeCast S1360x512 a shapeCasts_S1360x512_S1360x512)
    (shapeCast S512x512 bm shapeCasts_S512x512_S512x512) (constant S1360x512 .f32 0x00000000#32)

def own (p : Fin 3) (r col : ℕ) (d : Dev nD) : F .f32 :=
  if hc : col < 2048 then
    match p with
    | 0 => if hr : r < 1368 then mmA (xrowsA x d 0 (by omega)) (wcols w d ⟨col / 512, by omega⟩) (ix2 ⟨r, hr⟩ ⟨col % 512, Nat.mod_lt _ (by omega)⟩) else junk
    | 1 => if hr : r < 1368 then mmA (xrowsA x d 1368 (by omega)) (wcols w d ⟨col / 512, by omega⟩) (ix2 ⟨r, hr⟩ ⟨col % 512, Nat.mod_lt _ (by omega)⟩) else junk
    | 2 => if hr : r < 1360 then mmB (xrowsB x d) (wcols w d ⟨col / 512, by omega⟩) (ix2 ⟨r, hr⟩ ⟨col % 512, Nat.mod_lt _ (by omega)⟩) else junk
  else junk

def st1 (p : Fin 3) (r col : ℕ) (c : Dev nD) : F .f32 := red1 (own x w p r col) p c
def st2 (p : Fin 3) (r col : ℕ) (c : Dev nD) : F .f32 := red2 (own x w p r col) p c
def st3 (p : Fin 3) (r col : ℕ) (c : Dev nD) : F .f32 := red3 (own x w p r col) p c

def fin (p : Fin 3) (r col : ℕ) (c : Dev nD) : F .f32 :=
  FloatOps.maximumf (st3 x w p r col c) (Scalar.ofBits .f32 0x00000000#32)

end Cert.KernelIdeal.Vals

end
-- ==== Proof.Regions.lean ====
import proofs.«900802_g7700000000000803_dist_gemm_ar_m4096_k4096_n2048_f32_relu_v7x_i8_1_alg».proof.Proof.Spec
import proofs.«900802_g7700000000000803_dist_gemm_ar_m4096_k4096_n2048_f32_relu_v7x_i8_1_alg».proof.Proof.Gen.KernelIdeal
import Idealize.ShloMosaic.Lib.ValueIdx

noncomputable section

namespace Cert.KernelIdeal.Reg

open Idealize.ShloMosaic Idealize.ShloMosaic.TcCoe Cert.KernelIdeal.Spec

abbrev wbM : Memref sig .tc .vmem S3x1368x2048 .f32 := Memref.whole cc0_scratch0
abbrev r1M : Memref sig .tc .vmem S3x1368x512 .f32 := Memref.whole cc0_scratch1
abbrev r2M : Memref sig .tc .vmem S3x1368x256 .f32 := Memref.whole cc0_scratch2
abbrev outM : Memref sig .tc .hbm S4096x2048 .f32 := Memref.whole main_v1

def Inb3 (W p n off wd : ℕ) : Prop := p + 1 ≤ 3 ∧ n ≤ 1368 ∧ off + wd ≤ W

theorem inb3 {W p n off wd : ℕ} (h : Inb3 W p n off wd) :
    ∀ a, (![p, 0, off] : Fin 3 → Nat) a + (![1, n, wd] : Fin 3 → Nat) a ≤ (⟨3, ![3, 1368, W]⟩ : Shape).size a := by
  intro a; obtain ⟨h0, h1, h2⟩ := h
  fin_cases a
  · show p + 1 ≤ 3; exact h0
  · show 0 + n ≤ 1368; omega
  · show off + wd ≤ W; exact h2

def wbRect (p n off wd : ℕ) (h : Inb3 2048 p n off wd) : Rect S3x1368x2048 :=
  Rect.unit (s := S3x1368x2048) ![p, 0, off] ![1, n, wd] (inb3 h)
def r1Rect (p n off wd : ℕ) (h : Inb3 512 p n off wd) : Rect S3x1368x512 :=
  Rect.unit (s := S3x1368x512) ![p, 0, off] ![1, n, wd] (inb3 h)
def r2Rect (p n off wd : ℕ) (h : Inb3 256 p n off wd) : Rect S3x1368x256 :=
  Rect.unit (s := S3x1368x256) ![p, 0, off] ![1, n, wd] (inb3 h)

def Inb2 (r0 n off wd : ℕ) : Prop := r0 + n ≤ 4096 ∧ off + wd ≤ 2048
theorem inb2 {r0 n off wd : ℕ} (h : Inb2 r0 n off wd) :
    ∀ a, (![r0, off] : Fin 2 → Nat) a + (![n, wd] : Fin 2 → Nat) a ≤ S4096x2048.size a := by
  intro a; obtain ⟨h0, h1⟩ := h
  fin_cases a
  · show r0 + n ≤ 4096; exact h0
  · show off + wd ≤ 2048; exact h1
def outRect (r0 n off wd : ℕ) (h : Inb2 r0 n off wd) : Rect S4096x2048 :=
  Rect.unit (s := S4096x2048) ![r0, off] ![n, wd] (inb2 h)

variable (c : Dev nD)

def wbReg (p n off wd : ℕ) (h : Inb3 2048 p n off wd) : Finset (Idx ((wbM.access (wbRect p n off wd h)).loc (c : Thread nD τ))) :=
  (wbM.access (wbRect p n off wd h)).set
def r1Reg (p n off wd : ℕ) (h : Inb3 512 p n off wd) : Finset (Idx ((r1M.access (r1Rect p n off wd h)).loc (c : Thread nD τ))) :=
  (r1M.access (r1Rect p n off wd h)).set
def r2Reg (p n off wd : ℕ) (h : Inb3 256 p n off wd) : Finset (Idx ((r2M.access (r2Rect p n off wd h)).loc (c : Thread nD τ))) :=
  (r2M.access (r2Rect p n off wd h)).set
def outReg (r0 n off wd : ℕ) (h : Inb2 r0 n off wd) : Finset (Idx ((outM.access (outRect r0 n off wd h)).loc (c : Thread nD τ))) :=
  (outM.access (outRect r0 n off wd h)).set

end Cert.KernelIdeal.Reg

end
-- ==== Proof.Proto.lean ====
import proofs.«900802_g7700000000000803_dist_gemm_ar_m4096_k4096_n2048_f32_relu_v7x_i8_1_alg».proof.Proof.Vals
import proofs.«900802_g7700000000000803_dist_gemm_ar_m4096_k4096_n2048_f32_relu_v7x_i8_1_alg».proof.Proof.Regions
import proofs.«900802_g7700000000000803_dist_gemm_ar_m4096_k4096_n2048_f32_relu_v7x_i8_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Spec Cert.KernelIdeal.Reg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem

def ssem (p : Fin 3) (i : Fin 10) : DmaSem sig := ⟨2 + 10 * p.val + i.val, by have := p.isLt; have := i.isLt; show _ < 74; omega⟩
def rsem (p : Fin 3) (i : Fin 10) : DmaSem sig := ⟨32 + 10 * p.val + i.val, by have := p.isLt; have := i.isLt; show _ < 74; omega⟩
def lsem (p : Fin 3) (j : Fin 4) : DmaSem sig := ⟨62 + 4 * p.val + j.val, by have := p.isLt; have := j.isLt; show _ < 74; omega⟩

abbrev barCell (c : Dev nD) : GSem nD τ sig := ((c : Thread nD τ), .reg barS)
abbrev sendCell (c : Dev nD) (p : Fin 3) (i : Fin 10) : GSem nD τ sig := ((c : Thread nD τ), .dma (ssem p i))
abbrev recvCell (c : Dev nD) (p : Fin 3) (i : Fin 10) : GSem nD τ sig := ((c : Thread nD τ), .dma (rsem p i))
abbrev locCell (c : Dev nD) (p : Fin 3) (j : Fin 4) : GSem nD τ sig := ((c : Thread nD τ), .dma (lsem p j))

def cut (i : Fin 10) : Fin 3 := ![0, 0, 1, 2, 2, 1, 0, 1, 0, 0] i

def wid (i : Fin 10) : ℕ := ![512, 512, 512, 256, 256, 256, 256, 256, 256, 512] i

def peer (p : Fin 3) (i : Fin 10) (c : Dev nD) : Dev nD := par (axis p (cut i)) c

def srcOff (p : Fin 3) (i : Fin 10) (c : Dev nD) : ℕ :=
  ![sub1 p c, sub2 p c, away1 p c, away2 p c, o3 p c, o3 p c, o3 p c, away2 p c, away2 p c, away1 p c] i

theorem peer_peer (p : Fin 3) (i : Fin 10) (c : Dev nD) : peer p i (peer p i c) = c := par_par _ _

instance (W p n off wd : ℕ) : Decidable (Inb3 W p n off wd) := by unfold Inb3; infer_instance

theorem inb_src (p : Fin 3) (i : Fin 10) (c : Dev nD) : Inb3 2048 p.val (rowLen p) (srcOff p i c) (wid i) := by
  revert p i c; decide
theorem inb_r1 (p : Fin 3) : Inb3 512 p.val (rowLen p) 0 512 := by revert p; decide
theorem inb_r2 (p : Fin 3) : Inb3 256 p.val (rowLen p) 0 256 := by revert p; decide

variable (x : Dev nD → Vec F S4096x512 .f32) (w : Dev nD → Vec F S512x2048 .f32)

def holdsW (c : Dev nD) (p : Fin 3) (off wd : ℕ) (h : Inb3 2048 p.val (rowLen p) off wd) (val : ℕ → ℕ → F .f32) : sProp 𝕄 :=
  iprop(∃ f : Buf (Elt F) ((wbM.access (wbRect p.val (rowLen p) off wd h)).loc (c : Thread nD τ)),
    (((wbM.access (wbRect p.val (rowLen p) off wd h)).loc (c : Thread nD τ)) ↦[wbReg c p.val (rowLen p) off wd h]{fullShare} f)
    ∗ ⌜∀ y : (⟨3, ![1, rowLen p, wd]⟩ : Shape).Idx, (wbM.access (wbRect p.val (rowLen p) off wd h)).read (Elt F) f y = val (y 1).val (off + (y 2).val)⌝)

def ownsW (c : Dev nD) (p : Fin 3) (off wd : ℕ) (h : Inb3 2048 p.val (rowLen p) off wd) : sProp 𝕄 :=
  iprop(∃ f : Buf (Elt F) ((wbM.access (wbRect p.val (rowLen p) off wd h)).loc (c : Thread nD τ)),
    (((wbM.access (wbRect p.val (rowLen p) off wd h)).loc (c : Thread nD τ)) ↦[wbReg c p.val (rowLen p) off wd h]{fullShare} f))

def holdsR1 (c : Dev nD) (p : Fin 3) (base : ℕ) (val : ℕ → ℕ → F .f32) : sProp 𝕄 :=
  iprop(∃ f : Buf (Elt F) ((r1M.access (r1Rect p.val (rowLen p) 0 512 (inb_r1 p))).loc (c : Thread nD τ)),
    (((r1M.access (r1Rect p.val (rowLen p) 0 512 (inb_r1 p))).loc (c : Thread nD τ)) ↦[r1Reg c p.val (rowLen p) 0 512 (inb_r1 p)]{fullShare} f)
    ∗ ⌜∀ y : (⟨3, ![1, rowLen p, 512]⟩ : Shape).Idx, (r1M.access (r1Rect p.val (rowLen p) 0 512 (inb_r1 p))).read (Elt F) f y = val (y 1).val (base + (y 2).val)⌝)
def ownsR1 (c : Dev nD) (p : Fin 3) : sProp 𝕄 :=
  iprop(∃ f : Buf (Elt F) ((r1M.access (r1Rect p.val (rowLen p) 0 512 (inb_r1 p))).loc (c : Thread nD τ)),
    (((r1M.access (r1Rect p.val (rowLen p) 0 512 (inb_r1 p))).loc (c : Thread nD τ)) ↦[r1Reg c p.val (rowLen p) 0 512 (inb_r1 p)]{fullShare} f))
def holdsR2 (c : Dev nD) (p : Fin 3) (base : ℕ) (val : ℕ → ℕ → F .f32) : sProp 𝕄 :=
  iprop(∃ f : Buf (Elt F) ((r2M.access (r2Rect p.val (rowLen p) 0 256 (inb_r2 p))).loc (c : Thread nD τ)),
    (((r2M.access (r2Rect p.val (rowLen p) 0 256 (inb_r2 p))).loc (c : Thread nD τ)) ↦[r2Reg c p.val (rowLen p) 0 256 (inb_r2 p)]{fullShare} f)
    ∗ ⌜∀ y : (⟨3, ![1, rowLen p, 256]⟩ : Shape).Idx, (r2M.access (r2Rect p.val (rowLen p) 0 256 (inb_r2 p))).read (Elt F) f y = val (y 1).val (base + (y 2).val)⌝)
def ownsR2 (c : Dev nD) (p : Fin 3) : sProp 𝕄 :=
  iprop(∃ f : Buf (Elt F) ((r2M.access (r2Rect p.val (rowLen p) 0 256 (inb_r2 p))).loc (c : Thread nD τ)),
    (((r2M.access (r2Rect p.val (rowLen p) 0 256 (inb_r2 p))).loc (c : Thread nD τ)) ↦[r2Reg c p.val (rowLen p) 0 256 (inb_r2 p)]{fullShare} f))

def who (p : Fin 3) (col : ℕ) : Dev nD :=
  ((List.finRange 8).find? (fun d : Dev nD => decide (o3 p d = col / 256 * 256))).getD 0
theorem who_o3 (p : Fin 3) (d : Dev nD) : ((List.finRange 8).find? (fun d' : Dev nD => decide (o3 p d' = o3 p d))).getD 0 = d := by
  revert p d; decide

def gath (p : Fin 3) (r col : ℕ) : F .f32 := Vals.fin x w p r col (who p col)

def locOff (p : Fin 3) (j : Fin 4) (c : Dev nD) : ℕ := ![o2 p c, away1 p c, sub2 p c, sub1 p c] j
theorem inb_loc (p : Fin 3) (j : Fin 4) (c : Dev nD) : Inb3 2048 p.val (rowLen p) (locOff p j c) 512 := by revert p j c; decide
theorem inb_out (p : Fin 3) (j : Fin 4) (c : Dev nD) : Inb2 (rowStart p) (rowLen p) (locOff p j c) 512 := by
  revert p j c; unfold Inb2; decide

def holdsOut (c : Dev nD) (p : Fin 3) (off : ℕ) (h : Inb2 (rowStart p) (rowLen p) off 512) (val : ℕ → ℕ → F .f32) : sProp 𝕄 :=
  iprop(∃ f : Buf (Elt F) ((outM.access (outRect (rowStart p) (rowLen p) off 512 h)).loc (c : Thread nD τ)),
    (((outM.access (outRect (rowStart p) (rowLen p) off 512 h)).loc (c : Thread nD τ)) ↦[outReg c (rowStart p) (rowLen p) off 512 h]{fullShare} f)
    ∗ ⌜∀ y : (⟨2, ![rowLen p, 512]⟩ : Shape).Idx, (outM.access (outRect (rowStart p) (rowLen p) off 512 h)).read (Elt F) f y = val (y 0).val (off + (y 1).val)⌝)
def ownsOut (c : Dev nD) (p : Fin 3) (off : ℕ) (h : Inb2 (rowStart p) (rowLen p) off 512) : sProp 𝕄 :=
  iprop(∃ f : Buf (Elt F) ((outM.access (outRect (rowStart p) (rowLen p) off 512 h)).loc (c : Thread nD τ)),
    (((outM.access (outRect (rowStart p) (rowLen p) off 512 h)).loc (c : Thread nD τ)) ↦[outReg c (rowStart p) (rowLen p) off 512 h]{fullShare} f))

def shr (i : Fin 10) : PosShare TreeShare :=
  ![fullShare, fullShare, fullShare, fullShare,
    fullShare.left, fullShare.right.left, fullShare.right.right.left,
    fullShare.left, fullShare.right.left, fullShare.left] i

def lshr : PosShare TreeShare := fullShare.right.right.right

def lentW (c : Dev nD) (p : Fin 3) (off wd : ℕ) (h : Inb3 2048 p.val (rowLen p) off wd) (q : PosShare TreeShare) : sProp 𝕄 :=
  iprop(∃ f : Buf (Elt F) ((wbM.access (wbRect p.val (rowLen p) off wd h)).loc (c : Thread nD τ)),
    (((wbM.access (wbRect p.val (rowLen p) off wd h)).loc (c : Thread nD τ)) ↦[wbReg c p.val (rowLen p) off wd h]{q} f))

def barPay (c : Dev nD) (k : Fin 3) : sProp 𝕄 :=
  iprop(ownsW (par k c) k (srcOff k 2 (par k c)) 512 (inb_src k 2 (par k c))
    ∗ ownsW (par k c) k (o2 k (par k c)) 512 (by have := inb_loc k 0 (par k c); exact this)
    ∗ ownsR1 (par k c) ⟨(k.val + 2) % 3, Nat.mod_lt _ (by decide)⟩
    ∗ ownsR2 (par k c) ⟨(k.val + 1) % 3, Nat.mod_lt _ (by decide)⟩)

def recvPay (c : Dev nD) (p : Fin 3) (i : Fin 10) : sProp 𝕄 :=
  match i with
  | ⟨0, _⟩ => iprop(holdsW c p (srcOff p 0 (peer p 0 c)) 512 (inb_src p 0 (peer p 0 c)) (fun r col => Vals.own x w p r col (peer p 0 c))
      ∗ ownsW (peer p 0 c) p (srcOff p 0 (peer p 0 c)) 512 (inb_src p 0 (peer p 0 c)))
  | ⟨1, _⟩ => iprop(holdsW c p (srcOff p 1 (peer p 1 c)) 512 (inb_src p 1 (peer p 1 c)) (fun r col => Vals.own x w p r col (peer p 1 c))
      ∗ ownsW (peer p 1 c) p (srcOff p 1 (peer p 1 c)) 512 (inb_src p 1 (peer p 1 c)))
  | ⟨2, _⟩ => iprop(holdsR1 c p (srcOff p 2 (peer p 2 c)) (fun r col => Vals.st1 x w p r col (peer p 2 c))
      ∗ ownsW (peer p 2 c) p (srcOff p 2 (peer p 2 c)) 512 (inb_src p 2 (peer p 2 c)))
  | ⟨3, _⟩ => iprop(holdsR2 c p (srcOff p 3 (peer p 3 c)) (fun r col => Vals.st2 x w p r col (peer p 3 c))
      ∗ ownsW (peer p 3 c) p (srcOff p 3 (peer p 3 c)) 256 (inb_src p 3 (peer p 3 c)))
  | ⟨n + 4, hn⟩ => holdsW c p (srcOff p ⟨n + 4, hn⟩ (peer p ⟨n + 4, hn⟩ c)) (wid ⟨n + 4, hn⟩) (inb_src p ⟨n + 4, hn⟩ (peer p ⟨n + 4, hn⟩ c)) (gath x w p)

def sendPay (c : Dev nD) (p : Fin 3) (i : Fin 10) : sProp 𝕄 :=
  if i.val < 4 then iprop(emp) else lentW c p (srcOff p i c) (wid i) (inb_src p i c) (shr i)

def locPay (c : Dev nD) (p : Fin 3) (j : Fin 4) : sProp 𝕄 :=
  iprop(holdsOut c p (locOff p j c) (inb_out p j c) (gath x w p) ∗ lentW c p (locOff p j c) 512 (inb_loc p j c) lshr)

def credW (n wd : ℕ) : ℕ := sig.dmaCredit .tc (Kind.tc.table .vmem) (wbM : Memref sig .tc .vmem S3x1368x2048 .f32).view.buf ⟨2, ![n, wd]⟩ .f32
def credR1 (n : ℕ) : ℕ := sig.dmaCredit .tc (Kind.tc.table .vmem) (r1M : Memref sig .tc .vmem S3x1368x512 .f32).view.buf ⟨2, ![n, 512]⟩ .f32
def credR2 (n : ℕ) : ℕ := sig.dmaCredit .tc (Kind.tc.table .vmem) (r2M : Memref sig .tc .vmem S3x1368x256 .f32).view.buf ⟨2, ![n, 256]⟩ .f32
def credOut (n : ℕ) : ℕ := sig.dmaCredit .tc (Kind.tc.table .hbm) (outM : Memref sig .tc .hbm S4096x2048 .f32).view.buf ⟨2, ![n, 512]⟩ .f32

def credOf (p : Fin 3) (i : Fin 10) : ℕ :=
  if i.val = 2 then credR1 (rowLen p) else if i.val = 3 then credR2 (rowLen p) else credW (rowLen p) (wid i)

theorem numel_pos (p : Fin 3) (wd : ℕ) (h : 0 < wd) : 0 < (⟨2, ![rowLen p, wd]⟩ : Shape).numel := by
  have hr : 0 < rowLen p := by revert p; decide
  show 0 < ∏ a : Fin 2, (![rowLen p, wd] : Fin 2 → ℕ) a
  rw [Fin.prod_univ_two]; exact Nat.mul_pos hr h
theorem credOf_pos (p : Fin 3) (i : Fin 10) : 0 < credOf p i := by
  unfold credOf credR1 credR2 credW
  split_ifs
  · exact sig.dmaCredit_pos _ _ _ _ _ (numel_pos p 512 (by decide))
  · exact sig.dmaCredit_pos _ _ _ _ _ (numel_pos p 256 (by decide))
  · exact sig.dmaCredit_pos _ _ _ _ _ (numel_pos p (wid i) (by revert i; decide))
theorem credOut_pos (p : Fin 3) : 0 < credOut (rowLen p) := sig.dmaCredit_pos _ _ _ _ _ (numel_pos p 512 (by decide))

inductive Role | stage | send (p : Fin 3) (i : Fin 10) | recv (p : Fin 3) (i : Fin 10) | loc (p : Fin 3) (j : Fin 4)
  deriving DecidableEq
def roleOf (q : DmaSem sig) : Role :=
  if h : q.val < 2 then .stage
  else if h1 : q.val < 32 then .send ⟨(q.val - 2) / 10, by omega⟩ ⟨(q.val - 2) % 10, Nat.mod_lt _ (by decide)⟩
  else if h2 : q.val < 62 then .recv ⟨(q.val - 32) / 10, by omega⟩ ⟨(q.val - 32) % 10, Nat.mod_lt _ (by decide)⟩
  else .loc ⟨(q.val - 62) / 4, by have hq : q.val < 74 := q.isLt; omega⟩ ⟨(q.val - 62) % 4, Nat.mod_lt _ (by decide)⟩

theorem roleOf_ssem (p : Fin 3) (i : Fin 10) : roleOf (ssem p i) = .send p i := by revert p i; decide
theorem roleOf_rsem (p : Fin 3) (i : Fin 10) : roleOf (rsem p i) = .recv p i := by revert p i; decide
theorem roleOf_lsem (p : Fin 3) (j : Fin 4) : roleOf (lsem p j) = .loc p j := by revert p j; decide

def cubeRd : Rounds.Schedule (GSem nD τ sig) (Fin 3) 𝕄 where
  duties g r :=
    if r = 0 ∧ g.1.2 = .tc then
      match g.2 with
      | .reg s => if s = barS then Finset.univ else ∅
      | .dma q => match roleOf q with | .stage => ∅ | _ => {0}
    else ∅
  amount g _ _ :=
    match g.2 with
    | .reg _ => 1
    | .dma q => match roleOf q with
      | .stage => 1
      | .send p i => credOf p i
      | .recv p i => credOf p i
      | .loc p _ => credOut (rowLen p)
  payload g _ d :=
    match g.2 with
    | .reg s => if s = barS then barPay g.1.1 d else iprop(emp)
    | .dma q => match roleOf q with
      | .stage => iprop(emp)
      | .send p i => sendPay g.1.1 p i
      | .recv p i => recvPay x w g.1.1 p i
      | .loc p j => locPay x w g.1.1 p j
  amount_pos g _ _ _ := by
    obtain ⟨t, s | q⟩ := g
    · exact Nat.one_pos
    · show 0 < (match roleOf q with
        | .stage => 1 | .send p i => credOf p i | .recv p i => credOf p i | .loc p _ => credOut (rowLen p))
      cases roleOf q with
      | stage => exact Nat.one_pos
      | send p i => exact credOf_pos p i
      | recv p i => exact credOf_pos p i
      | loc p j => exact credOut_pos p

/-- Names the nine buffers once, so that no part's statement repeats them. -/
abbrev withBufs {β : Sort _} (f : (a0 : Memref sig .tc .vmem S4096x512 .f32) → a0.IsWhole → (a1 : Memref sig .tc .vmem S512x2048 .f32) → a1.IsWhole
    → (a2 : Memref sig .tc .hbm S4096x2048 .f32) → a2.IsWhole → (a3 : Memref sig .tc .vmem S3x1368x2048 .f32) → a3.IsWhole
    → (a4 : Memref sig .tc .vmem S3x1368x512 .f32) → a4.IsWhole → (a5 : Memref sig .tc .vmem S3x1368x256 .f32) → a5.IsWhole
    → DmaSems sig S3x10 → DmaSems sig S3x10 → DmaSems sig S3x4 → β) : β :=
  f (Memref.whole cc0_stg0_0) (Memref.isWhole_whole _) (Memref.whole cc0_stg1_0) (Memref.isWhole_whole _) (Memref.whole main_v1)
    (Memref.isWhole_whole _) (Memref.whole cc0_scratch0) (Memref.isWhole_whole _) (Memref.whole cc0_scratch1) (Memref.isWhole_whole _)
    (Memref.whole cc0_scratch2) (Memref.isWhole_whole _) cc0_scratch3 cc0_scratch4 cc0_scratch5

end Cert.KernelIdeal.Proto

end
-- ==== Proof.Launch.lean ====
import proofs.«900802_g7700000000000803_dist_gemm_ar_m4096_k4096_n2048_f32_relu_v7x_i8_1_alg».proof.Proof.Proto
import proofs.«900802_g7700000000000803_dist_gemm_ar_m4096_k4096_n2048_f32_relu_v7x_i8_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Spec Cert.KernelIdeal.Reg Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def xOf (c : Dev nD) : Vec F S4096x512 .f32 := m ((c : Thread nD τ).loc main_arg0)
def wOf (c : Dev nD) : Vec F S512x2048 .f32 := m ((c : Thread nD τ).loc main_arg1)

abbrev PI : Type := Fin 3 × Fin 10
abbrev PJ : Type := Fin 3 × Fin 4

abbrev OIx : Type := PI ⊕ PI ⊕ PJ

abbrev CIx : Type := Unit ⊕ OIx

instance : DecidableEq OIx := inferInstance
instance : DecidableEq CIx := inferInstance
instance : DecidableEq (Dev nD × CIx) := inferInstance

def osem : OIx → SemLoc sig
  | .inl pi => .dma (ssem pi.1 pi.2)
  | .inr (.inl pi) => .dma (rsem pi.1 pi.2)
  | .inr (.inr pj) => .dma (lsem pj.1 pj.2)
def csem : CIx → SemLoc sig
  | .inl _ => .reg barS
  | .inr k => osem k
abbrev kcell (ck : Dev nD × CIx) : GSem nD τ sig := ((ck.1 : Thread nD τ), csem ck.2)

def sendOrder : List PI :=
  [(0,0),(1,0),(2,0),(0,1),(1,1),(2,1),(0,2),(1,2),(2,2),(0,3),(1,3),(2,3),(0,4),(0,5),(0,6),(1,4),(1,5),(1,6),
   (2,4),(2,5),(2,6),(0,7),(0,8),(1,7),(1,8),(2,7),(2,8),(0,9),(1,9),(2,9)]

def waitOrder : List PI :=
  [(0,0),(1,0),(2,0),(0,1),(0,2),(1,1),(1,2),(2,1),(2,2),(0,3),(1,3),(2,3),(0,4),(1,4),(2,4),(0,5),(0,7),(1,5),
   (1,7),(2,5),(2,7),(0,6),(0,8),(1,6),(1,8),(2,6),(2,8),(0,9),(1,9),(2,9)]

def locOrder : List PJ := [(0,0),(1,0),(2,0),(0,1),(1,1),(2,1),(0,2),(1,2),(2,2),(0,3),(1,3),(2,3)]
def locWaitOrder : List PJ := [(0,0),(0,1),(0,2),(0,3),(1,0),(1,1),(1,2),(1,3),(2,0),(2,1),(2,2),(2,3)]

theorem sendOrder_univ : (Finset.univ : Finset PI) = sendOrder.toFinset := by decide
theorem sendOrder_nodup : sendOrder.Nodup := by decide
theorem waitOrder_univ : (Finset.univ : Finset PI) = waitOrder.toFinset := by decide
theorem waitOrder_nodup : waitOrder.Nodup := by decide
theorem locOrder_univ : (Finset.univ : Finset PJ) = locOrder.toFinset := by decide
theorem locOrder_nodup : locOrder.Nodup := by decide
theorem locWaitOrder_univ : (Finset.univ : Finset PJ) = locWaitOrder.toFinset := by decide
theorem locWaitOrder_nodup : locWaitOrder.Nodup := by decide

inductive Pay | bar (k : Fin 3) | copy (p : Fin 3) (i : Fin 10)
  deriving DecidableEq

def payDev (c : Dev nD) : Pay → Dev nD
  | .bar k => par k c
  | .copy p i => peer p i c
def paySem : Pay → SemLoc sig
  | .bar _ => .reg barS
  | .copy p i => .dma (rsem p i)
def payAmt : Pay → ℕ
  | .bar _ => 1
  | .copy p i => credOf p i
abbrev payCell (c : Dev nD) (a : Pay) : GSem nD τ sig := ((payDev c a : Thread nD τ), paySem a)

def pays : List Pay :=
  [.bar 0, .bar 1, .bar 2,
   .copy 0 0, .copy 1 0, .copy 2 0, .copy 0 1, .copy 1 1, .copy 2 1, .copy 0 2, .copy 1 2, .copy 2 2,
   .copy 0 3, .copy 1 3, .copy 2 3, .copy 0 4, .copy 0 5, .copy 0 6, .copy 1 4, .copy 1 5, .copy 1 6,
   .copy 2 4, .copy 2 5, .copy 2 6, .copy 0 7, .copy 0 8, .copy 1 7, .copy 1 8, .copy 2 7, .copy 2 8,
   .copy 0 9, .copy 1 9, .copy 2 9]

def owedOf (c : Dev nD) (l : List Pay) : CellTallies nD τ sig Unit :=
  l.foldr (fun a O => O + tallyAt (payCell c a) () (payAmt a)) 0

theorem owedOf_cons (c : Dev nD) (a : Pay) (l : List Pay) :
    owedOf c (a :: l) = owedOf c l + tallyAt (payCell c a) () (payAmt a) := rfl

def O₀ (c : Dev nD) : CellTallies nD τ sig Unit := owedOf c pays

def wpos (p : Fin 3) (i : Fin 10) : ℕ := waitOrder.idxOf (p, i)

def L (g : GSem nD τ sig) : Finset Unit := if g.1.2 = .tc then {()} else ∅

def lv (g : GSem nD τ sig) (_ : Unit) : ℕ :=
  match g.2 with
  | .reg _ => 1
  | .dma q => match roleOf q with
    | .recv p i => 2 + wpos p i
    | _ => 0

def payLv : Pay → ℕ
  | .bar _ => 1
  | .copy p i => 2 + wpos p i

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (p : Fin 3) (i : Fin 10) : lv (recvCell c p i) () = 2 + wpos p i := by
  show (match roleOf (rsem p i) with | .recv p i => 2 + wpos p i | _ => 0) = 2 + wpos p i; rw [roleOf_rsem]
theorem lv_payCell (c : Dev nD) (a : Pay) : lv (payCell c a) () = payLv a := by
  cases a with
  | bar k => rfl
  | copy p i => exact lv_recv _ p i
theorem payLv_pos (a : Pay) : 0 < payLv a := by cases a <;> simp [payLv]

theorem owedOf_pos {c : Dev nD} {l : List Pay} {g : GSem nD τ sig} {u : Unit} (h : 0 < owedOf c l g u) : ∃ a ∈ l, g = payCell c a := by
  induction l with
  | nil => exact absurd h (Nat.lt_irrefl 0)
  | cons a l ih =>
    rw [owedOf_cons] at h
    rcases Pipeline.add_pos_cases h with h1 | h2
    · obtain ⟨b, hb, rfl⟩ := ih h1; exact ⟨b, List.mem_cons_of_mem _ hb, rfl⟩
    · exact ⟨a, List.mem_cons_self, (Pipeline.tallyAt_pos h2).1⟩

omit [FloatOps F] in

theorem mayWait_of_lt (c : Dev nD) (s : SemLoc sig) (l : List Pay) (h : ∀ a ∈ l, lv ((c : Thread nD τ), s) () < payLv a) :
    (levAts L lv : sProp 𝕄) ⊢ MayWait (c : Thread nD τ) s () (owedOf c l) :=
  Pipeline.mayWait_of_levAts (L := L) (lev := lv) (by rw [L_tc]; exact Finset.mem_singleton_self _) fun g u hg => by
    obtain ⟨a, ha, rfl⟩ := owedOf_pos hg
    exact ⟨by rw [L_tc]; exact Finset.mem_singleton_self _, by rw [lv_payCell]; exact h a ha⟩

omit [FloatOps F] in

theorem mayWait_bar (c : Dev nD) :
    (levAts L lv : sProp 𝕄) ⊢ MayWait (c : Thread nD τ) (.reg barS) () (owedOf c (pays.drop 3)) :=
  mayWait_of_lt c _ _ (by rw [lv_bar]; decide)
omit [FloatOps F] in

theorem mayWait_recv (c : Dev nD) (p : Fin 3) (i : Fin 10) (l : List Pay) (h : ∀ a ∈ l, 2 + wpos p i < payLv a) :
    (levAts L lv : sProp 𝕄) ⊢ MayWait (c : Thread nD τ) (.dma (rsem p i)) () (owedOf c l) :=
  mayWait_of_lt c _ _ (by rw [lv_recv]; exact h)
omit [FloatOps F] in

theorem mayWait_low (c : Dev nD) (q : DmaSem sig) (hq : ∀ p i, roleOf q ≠ .recv p i) (l : List Pay) :
    (levAts L lv : sProp 𝕄) ⊢ MayWait (c : Thread nD τ) (.dma q) () (owedOf c l) :=
  mayWait_of_lt c _ _ fun a _ => by
    have h0 : lv ((c : Thread nD τ), SemLoc.dma q) () = 0 := by
      show (match roleOf q with | .recv p i => 2 + wpos p i | _ => 0) = 0
      cases hr : roleOf q <;> first | rfl | exact absurd hr (hq _ _)
    rw [h0]; exact payLv_pos a
omit [FloatOps F] in
theorem mayWait_send (c : Dev nD) (p : Fin 3) (i : Fin 10) (l : List Pay) :
    (levAts L lv : sProp 𝕄) ⊢ MayWait (c : Thread nD τ) (.dma (ssem p i)) () (owedOf c l) :=
  mayWait_low c _ (fun p' i' h => by rw [roleOf_ssem] at h; cases h) l
omit [FloatOps F] in
theorem mayWait_loc (c : Dev nD) (p : Fin 3) (j : Fin 4) (l : List Pay) :
    (levAts L lv : sProp 𝕄) ⊢ MayWait (c : Thread nD τ) (.dma (lsem p j)) () (owedOf c l) :=
  mayWait_low c _ (fun p' i' h => by rw [roleOf_lsem] at h; cases h) l

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def xstg (c : Dev nD) : (cc0_stg0_0 : Ref sig .tc).ty.Contents (Elt F) :=
  (win0_0.blk t₀).view.read (Elt F) (m ((c : Thread nD τ).loc main_arg0))
def wstg (c : Dev nD) : (cc0_stg1_0 : Ref sig .tc).ty.Contents (Elt F) :=
  (win0_1.blk t₀).view.read (Elt F) (m ((c : Thread nD τ).loc main_arg1))

def sliceOf (r : ℕ) : Fin 3 := if r < 1368 then 0 else if r < 2736 then 1 else 2

theorem row_lt (p : Fin 3) {r : ℕ} (hr : r < rowLen p) : rowStart p + r < 4096 := by
  revert r; revert p; decide

def resArr : Vec F S4096x2048 .f32 := fun y =>
  gath (xOf m) (wOf m) (sliceOf (y 0).val) ((y 0).val - rowStart (sliceOf (y 0).val)) (y 1).val

def IsRes (res : Vec F S4096x2048 .f32) : Prop :=
  ∀ (p : Fin 3) (r col : ℕ) (hr : r < rowLen p) (hc : col < 2048),
    res (ValueIdx.ix2 ⟨rowStart p + r, row_lt p hr⟩ ⟨col, hc⟩) = gath (xOf m) (wOf m) p r col

theorem sliceOf_spec (r : ℕ) (h : r < 4096) : rowStart (sliceOf r) ≤ r ∧ r - rowStart (sliceOf r) < rowLen (sliceOf r) := by
  unfold sliceOf
  split_ifs with h1 h2
  · exact ⟨Nat.zero_le _, by show r - 0 < 1368; omega⟩
  · exact ⟨by show 1368 ≤ r; omega, by show r - 1368 < 1368; omega⟩
  · exact ⟨by show 2736 ≤ r; omega, by show r - 2736 < 1360; omega⟩

theorem eq_resArr {res : Vec F S4096x2048 .f32} (h : IsRes m res) : res = resArr m := by
  funext y
  obtain ⟨a, b, rfl⟩ : ∃ a b, y = ValueIdx.ix2 a b := ⟨_, _, ValueIdx.eq_ix2 y⟩
  obtain ⟨h1, h2⟩ := sliceOf_spec a.val a.isLt
  have := h (sliceOf a.val) (a.val - rowStart (sliceOf a.val)) b.val h2 b.isLt
  unfold resArr
  rw [← this]
  congr 1
  exact congrArg (fun t => ValueIdx.ix2 t b) (Fin.ext (by show a.val = rowStart (sliceOf a.val) + (a.val - rowStart (sliceOf a.val)); omega))

abbrev Rd : Rounds.Schedule (GSem nD τ sig) (Fin 3) 𝕄 := cubeRd (xOf m) (wOf m)

set_option synthInstance.maxHeartbeats 2000000 in
set_option maxHeartbeats 2000000 in
instance Rd_payload_storable (g : GSem nD τ sig) (r : ℕ) (d : Fin 3) :
    BI.Storable (upEmb : UEmb _ 𝕄) ((Rd m).payload g r d) := by
  obtain ⟨t, s | q⟩ := g
  · show BI.Storable upEmb (if s = barS then barPay t.1 d else iprop(emp))
    unfold barPay ownsW ownsR1 ownsR2
    split <;> infer_instance
  · show BI.Storable upEmb (match roleOf q with
      | .stage => iprop(emp) | .send p i => sendPay t.1 p i | .recv p i => recvPay (xOf m) (wOf m) t.1 p i | .loc p j => locPay (xOf m) (wOf m) t.1 p j)
    cases roleOf q <;> dsimp only
    · infer_instance
    · unfold sendPay lentW; split <;> infer_instance
    · unfold recvPay holdsW ownsW holdsR1 holdsR2; split <;> infer_instance
    · unfold locPay holdsOut lentW; infer_instance

def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

theorem inv_at (K : Dev nD × CIx → ℕ) (ck : Dev nD × CIx) : records m K ⊢ cellInv ER (Rd m) (K ck) (kcell ck) :=
  sep_elim_left.trans (bigSep_elim (Finset.mem_univ ck))
theorem reached_at (K : Dev nD × CIx → ℕ) (ck : Dev nD × CIx) : records m K ⊢ reached ER (kcell ck) 0 :=
  sep_elim_right.trans (bigSep_elim (Finset.mem_univ ck))

abbrev kBar (d : Dev nD) : Dev nD × CIx := (d, .inl ())
abbrev kSend (d : Dev nD) (p : Fin 3) (i : Fin 10) : Dev nD × CIx := (d, .inr (.inl (p, i)))
abbrev kRecv (d : Dev nD) (p : Fin 3) (i : Fin 10) : Dev nD × CIx := (d, .inr (.inr (.inl (p, i))))
abbrev kLoc (d : Dev nD) (p : Fin 3) (j : Fin 4) : Dev nD × CIx := (d, .inr (.inr (.inr (p, j))))

theorem inv_bar (K : Dev nD × CIx → ℕ) (d : Dev nD) : records m K ⊢ cellInv ER (Rd m) (K (kBar d)) (barCell d) := inv_at m K (kBar d)
theorem inv_send (K : Dev nD × CIx → ℕ) (d : Dev nD) (p : Fin 3) (i : Fin 10) : records m K ⊢ cellInv ER (Rd m) (K (kSend d p i)) (sendCell d p i) := inv_at m K (kSend d p i)
theorem inv_recv (K : Dev nD × CIx → ℕ) (d : Dev nD) (p : Fin 3) (i : Fin 10) : records m K ⊢ cellInv ER (Rd m) (K (kRecv d p i)) (recvCell d p i) := inv_at m K (kRecv d p i)
theorem inv_loc (K : Dev nD × CIx → ℕ) (d : Dev nD) (p : Fin 3) (j : Fin 4) : records m K ⊢ cellInv ER (Rd m) (K (kLoc d p j)) (locCell d p j) := inv_at m K (kLoc d p j)
theorem reached_bar (K : Dev nD × CIx → ℕ) (d : Dev nD) : records m K ⊢ reached ER (barCell d) 0 := reached_at m K (kBar d)
theorem reached_send (K : Dev nD × CIx → ℕ) (d : Dev nD) (p : Fin 3) (i : Fin 10) : records m K ⊢ reached ER (sendCell d p i) 0 := reached_at m K (kSend d p i)
theorem reached_recv (K : Dev nD × CIx → ℕ) (d : Dev nD) (p : Fin 3) (i : Fin 10) : records m K ⊢ reached ER (recvCell d p i) 0 := reached_at m K (kRecv d p i)
theorem reached_loc (K : Dev nD × CIx → ℕ) (d : Dev nD) (p : Fin 3) (j : Fin 4) : records m K ⊢ reached ER (locCell d p j) 0 := reached_at m K (kLoc d p j)

def payToks (c : Dev nD) : sProp 𝕄 :=
  iprop(bigSepL [(0 : Fin 3), 1, 2] (fun k => dutyTok ER (barCell (par k c)) 0 k)
    ∗ bigSepL sendOrder (fun pi => iprop(dutyTok ER (sendCell c pi.1 pi.2) 0 0 ∗ dutyTok ER (recvCell (peer pi.1 pi.2 c) pi.1 pi.2) 0 0))
    ∗ bigSepL locOrder (fun pj => dutyTok ER (locCell c pj.1 pj.2) 0 0))

def waitRes (c : Dev nD) : sProp 𝕄 :=
  iprop((atPos ER (barCell c) 0 ∅ 0 ∗ cred (tallyAt (barCell c) () 3))
    ∗ bigSepL waitOrder (fun pi => iprop(atPos ER (sendCell c pi.1 pi.2) 0 ∅ 0 ∗ atPos ER (recvCell c pi.1 pi.2) 0 ∅ 0
        ∗ cred (tallyAt (recvCell c pi.1 pi.2) () (credOf pi.1 pi.2))))
    ∗ bigSepL locWaitOrder (fun pj => atPos ER (locCell c pj.1 pj.2) 0 ∅ 0))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def inputs (c : Dev nD) : sProp 𝕄 :=
  iprop((((c : Thread nD τ).loc cc0_stg0_0) ↦{fullShare} xstg m c) ∗ (((c : Thread nD τ).loc cc0_stg1_0) ↦{fullShare} wstg m c))

def bodyPreK (K : Dev nD × CIx → ℕ) (c : Dev nD) : sProp 𝕄 :=
  iprop(records m K ∗ levAts L lv ∗ payToks c ∗ waitRes c
    ∗ (∃ W : Waits sig Unit, owes (c : Thread nD τ) (O₀ c) W)
    ∗ inputs m c ∗ scratch c
    ∗ (((c : Thread nD τ).loc main_v1) ↦{fullShare} m ((c : Thread nD τ).loc main_v1)))

def closedCells (c : Dev nD) : sProp 𝕄 :=
  iprop(bigSepL waitOrder (fun pi => iprop(semVal (sendCell c pi.1 pi.2) 0 ∗ semVal (recvCell c pi.1 pi.2) 0))
    ∗ bigSepL locWaitOrder (fun pj => semVal (locCell c pj.1 pj.2) 0))

def resultAt (c : Dev nD) : sProp 𝕄 :=
  iprop(∃ res : Buf (Elt F) ((c : Thread nD τ).loc main_v1), ⌜IsRes m res⌝ ∗ (((c : Thread nD τ).loc main_v1) ↦{fullShare} res))

def bodyPost (c : Dev nD) : sProp 𝕄 :=
  iprop(resultAt m c ∗ scratch c ∗ inputs m c ∗ closedCells c ∗ (∃ W : Waits sig Unit, owes (c : Thread nD τ) 0 W))

abbrev crRecv (c : Dev nD) (pi : PI) : sProp 𝕄 := cred (tallyAt (recvCell c pi.1 pi.2) () (credOf pi.1 pi.2))

def payToksU (c : Dev nD) : sProp 𝕄 :=
  iprop(bigSep Finset.univ (fun k : Fin 3 => dutyTok ER (barCell (par k c)) 0 k)
    ∗ bigSep Finset.univ (fun pi : PI => dutyTok ER (sendCell c pi.1 pi.2) 0 0)
    ∗ bigSep Finset.univ (fun pi : PI => dutyTok ER (recvCell (peer pi.1 pi.2 c) pi.1 pi.2) 0 0)
    ∗ bigSep Finset.univ (fun pj : PJ => dutyTok ER (locCell c pj.1 pj.2) 0 0))
def posnsU (c : Dev nD) : sProp 𝕄 :=
  iprop(atPos ER (barCell c) 0 ∅ 0 ∗ bigSep Finset.univ (fun pi : PI => atPos ER (sendCell c pi.1 pi.2) 0 ∅ 0)
    ∗ bigSep Finset.univ (fun pi : PI => atPos ER (recvCell c pi.1 pi.2) 0 ∅ 0)
    ∗ bigSep Finset.univ (fun pj : PJ => atPos ER (locCell c pj.1 pj.2) 0 ∅ 0))
def credsU (c : Dev nD) : sProp 𝕄 :=
  iprop(cred (tallyAt (barCell c) () 3) ∗ bigSep Finset.univ (crRecv c))

omit [FloatOps F] in
theorem payToks_intro (c : Dev nD) : (payToksU c : sProp 𝕄) ⊢ payToks c := by
  unfold payToksU payToks
  rw [← bigSep_univ_eq_bigSepL [(0 : Fin 3), 1, 2] (by decide) (by decide), ← bigSep_univ_eq_bigSepL sendOrder sendOrder_univ sendOrder_nodup,
    ← bigSep_univ_eq_bigSepL locOrder locOrder_univ locOrder_nodup, bigSep_sep']
  iintro ⟨H1, H2, H3, H4⟩
  iframe

omit [FloatOps F] in
theorem waitRes_intro (c : Dev nD) : iprop(posnsU c ∗ credsU c) ⊢ (waitRes c : sProp 𝕄) := by
  unfold posnsU credsU waitRes
  rw [← bigSep_univ_eq_bigSepL waitOrder waitOrder_univ waitOrder_nodup, ← bigSep_univ_eq_bigSepL locWaitOrder locWaitOrder_univ locWaitOrder_nodup,
    bigSep_sep', bigSep_sep']
  iintro ⟨⟨HaB, HaS, HaR, HaL⟩, HcB, HcR⟩
  iframe

omit [FloatOps F] in

theorem closedCells_elim (c : Dev nD) : (closedCells c : sProp 𝕄) ⊢ Pipeline.ownSems0 osem c := by
  unfold closedCells Pipeline.ownSems0
  rw [← bigSep_univ_eq_bigSepL waitOrder waitOrder_univ waitOrder_nodup, ← bigSep_univ_eq_bigSepL locWaitOrder locWaitOrder_univ locWaitOrder_nodup,
    bigSep_sep' Finset.univ (fun pi : PI => semVal (sendCell c pi.1 pi.2) 0) (fun pi : PI => semVal (recvCell c pi.1 pi.2) 0),
    bigSep_univ_sum, bigSep_univ_sum]
  exact sep_assoc.1

def start (c : Dev nD) : sProp 𝕄 :=
  iprop((∃ K, records m K) ∗ payToksU c ∗ posnsU c ∗ credsU c ∗ levAts L lv
    ∗ (((c : Thread nD τ).loc main_v1) ↦{fullShare} m ((c : Thread nD τ).loc main_v1)))

def Φ₀ (c : Dev nD) : sProp 𝕄 := iprop(start m c ∗ scratch c)
def Φ₁ (c : Dev nD) : sProp 𝕄 := iprop(resultAt m c ∗ scratch c ∗ closedCells c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem owns_whole' (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole (c : Thread nD τ) b fullShare X

abbrev prog : Prog (TpuEff nD τ sig (Elt F) Λ₀ .tc) PUnit :=
  cc0_body (Memref.whole cc0_stg0_0) (Memref.isWhole_whole _) (Memref.whole cc0_stg1_0) (Memref.isWhole_whole _)
    (Memref.whole main_v1) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5

set_option maxRecDepth 4000 in
def oblPre (c : Dev nD) : sProp 𝕄 :=
  iprop(Φ₀ m c ∗ (dats m 0 c).owesAt () t₀.castSucc
    ∗ (∃ d, ((c : Thread nD τ).loc cc0_stg0_0) ↦{fullShare} (dats m 0 c).before (0 : Fin 2) t₀ d)
    ∗ (∃ d, ((c : Thread nD τ).loc cc0_stg1_0) ↦{fullShare} (dats m 0 c).before (1 : Fin 2) t₀ d))

def oblPost (c : Dev nD) : sProp 𝕄 := iprop(Φ₁ m c ∗ (dats m 0 c).owesAt () t₀.succ ∗ inputs m c)

theorem fetch_0 (t : Fin cfg0.N) : (cfg0.win (0 : Fin 2)).fetch t = true := fetch0_0 t
theorem fetch_1 (t : Fin cfg0.N) : (cfg0.win (1 : Fin 2)).fetch t = true := fetch0_1 t

abbrev BodyHyp : Prop :=
  ∀ (K : Dev nD × CIx → ℕ) (c : Dev nD) (Kt : PUnit → sProp 𝕄),
    iprop(bodyPreK m K c ∗ (bodyPost m c -∗ Kt ⟨⟩)) ⊢ wp frame (wpE (defs₀ (F := F)) 𝒱₀ c none) Set.univ (prog (F := F)) Kt

set_option maxRecDepth 40000 in

theorem body_obligation (hbody : BodyHyp m) (c : Dev nD) : BodyObligation (dats (F := F) m 0 c) (defs₀ (F := F)) 𝒱₀ () Set.univ := fun t => by
  rw [fin_N t]
  rw [bigSep_W0, bigSep_W0]
  simp only [owns_whole']
  show oblPre m c ⊢ wp frame (wpE (defs₀ (F := F)) 𝒱₀ c none) Set.univ (prog (F := F)) (fun _ => oblPost m c)
  unfold oblPre Φ₀ start
  iintro ⟨⟨⟨⟨%K, #HR⟩, Htk, Hat, Hcr, #Hlev, Hout⟩, Hscr⟩, Ho, ⟨%d0, Hx⟩, ⟨%d1, Hw⟩⟩
  rw [show (dats m 0 c).before (0 : Fin 2) t₀ d0 = xstg m c from by unfold Dat.before; rw [if_pos (fetch_0 t₀)]; rfl,
    show (dats m 0 c).before (1 : Fin 2) t₀ d1 = wstg m c from by unfold Dat.before; rw [if_pos (fetch_1 t₀)]; rfl]
  unfold Dat.owesAt Pipeline.owesWithin
  icases Ho with ⟨%W, %hW, HO⟩
  rw [show (dats m 0 c).owed t₀.castSucc = O₀ c from rfl]
  iapply (hbody K c fun _ => oblPost m c)
  isplitl
  · unfold bodyPreK inputs
    iframe HR Hlev Hx Hw Hscr Hout
    isplitl [Htk]; · iapply (payToks_intro c); iexact Htk
    isplitl [Hat Hcr]
    · iapply (waitRes_intro c); iframe Hat Hcr
    iexists W; iexact HO
  · unfold bodyPost oblPost Φ₁ Dat.owesAt Pipeline.owesWithin
    rw [show (dats m 0 c).owed t₀.succ = 0 from rfl]
    iintro ⟨Hres, Hscr, Hin, Hcl, ⟨%W', HO⟩⟩
    iframe Hres Hscr Hcl Hin
    iexists W'; iframe HO
    ipureintro; exact fun _ _ => Or.inl trivial

theorem share_eq (c : Dev nD) (w : Fin cfg0.W) : (dats m 0 c).share w = fullShare := by unfold Dat.share; split <;> rfl

def ixOf : SemLoc sig → CIx
  | .reg _ => .inl ()
  | .dma q => match roleOf q with
    | .stage => .inl ()
    | .send p i => .inr (.inl (p, i))
    | .recv p i => .inr (.inr (.inl (p, i)))
    | .loc p j => .inr (.inr (.inr (p, j)))

theorem ixOf_csem (k : CIx) : ixOf (csem k) = k := by
  rcases k with u | ⟨p, i⟩ | ⟨p, i⟩ | ⟨p, j⟩
  · rfl
  all_goals simp only [csem, osem, ixOf, roleOf_ssem, roleOf_rsem, roleOf_lsem]

theorem csem_injective : Function.Injective csem := Function.LeftInverse.injective ixOf_csem
theorem osem_injective : Function.Injective osem := fun a b h => Sum.inr_injective (csem_injective (show csem (.inr a) = csem (.inr b) from h))

theorem kcell_injective : Function.Injective (kcell : Dev nD × CIx → GSem nD τ sig) := by
  rintro ⟨c, k⟩ ⟨c', k'⟩ h
  obtain rfl : c = c' := congrArg (fun g : GSem nD τ sig => g.1.1) h
  obtain rfl : k = k' := csem_injective (congrArg Prod.snd h)
  rfl
def cubeCells : Finset (GSem nD τ sig) := Finset.univ.map ⟨kcell, kcell_injective⟩

abbrev TIx : Type := Fin 3 ⊕ OIx

def tokOf (cj : Dev nD × TIx) : GSem nD τ sig × ℕ × Fin 3 := match cj.2 with
  | .inl k => (barCell cj.1, 0, k)
  | .inr o => (((cj.1 : Thread nD τ), osem o), 0, 0)
def tixOf (x : GSem nD τ sig × ℕ × Fin 3) : TIx := match ixOf x.1.2 with
  | .inl _ => .inl x.2.2
  | .inr o => .inr o
theorem tixOf_tokOf (cj : Dev nD × TIx) : tixOf (tokOf cj) = cj.2 := by
  obtain ⟨c, k | o⟩ := cj
  · rfl
  · show (match ixOf (csem (.inr o)) with | .inl _ => (Sum.inl 0 : TIx) | .inr o => .inr o) = .inr o
    rw [ixOf_csem]
theorem tokOf_injective : Function.Injective (tokOf : Dev nD × TIx → GSem nD τ sig × ℕ × Fin 3) := by
  rintro ⟨c, j⟩ ⟨c', j'⟩ h
  have h1 : c = c' := by
    have := congrArg (fun x : GSem nD τ sig × ℕ × Fin 3 => x.1.1.1) h
    rcases j with k | o <;> rcases j' with k' | o' <;> exact this
  have h2 : j = j' := by have := congrArg tixOf h; rwa [tixOf_tokOf, tixOf_tokOf] at this
  rw [h1, h2]
def cubeToks : Finset (GSem nD τ sig × ℕ × Fin 3) := Finset.univ.map ⟨tokOf, tokOf_injective⟩

def u₀ : UU :=
  (initOf (Pipeline.cells cfgs cellOf_inj) (Pipeline.launchToks cfgs cellOf_inj), initOf cubeCells cubeToks)

def toks (c : Dev nD) : sProp 𝕄 :=
  bigSep Finset.univ fun j : TIx => dutyTok ER (tokOf (c, j)).1 (tokOf (c, j)).2.1 (tokOf (c, j)).2.2

omit [FloatOps F] in
theorem toks_eq (c : Dev nD) : (toks c : sProp 𝕄)
    = iprop(bigSep Finset.univ (fun k : Fin 3 => dutyTok ER (barCell c) 0 k) ∗ bigSep Finset.univ (fun pi : PI => dutyTok ER (sendCell c pi.1 pi.2) 0 0)
      ∗ bigSep Finset.univ (fun pi : PI => dutyTok ER (recvCell c pi.1 pi.2) 0 0) ∗ bigSep Finset.univ (fun pj : PJ => dutyTok ER (locCell c pj.1 pj.2) 0 0)) := by
  unfold toks; rw [bigSep_univ_sum, bigSep_univ_sum, bigSep_univ_sum]; rfl

def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks c)

def G' (c : Dev nD) : sProp 𝕄 := iprop(∃ K, records m K ∗ payToksU c ∗ posnsU c)

theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun k : CIx => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]; rfl
  iintro HX
  imod (Rounds.fund ER (Rd m) cubeCells cubeToks) $$ HX with ⟨Hst, Hr, Hat, Htok⟩
  imodintro
  unfold G; simp only [hX, hT, bigSep_sep']
  iframe

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_univ_sum, bigSep_univ_of_subsingleton ()]
  exact sep_comm.1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · iframe Hos Hus
  imod (show iprop((bigSep Finset.univ fun k : CIx => semVal (kcell (c, k)) 0) ∗ bigSep Finset.univ fun k : CIx => roundState ER (Rd m) (kcell (c, k)) 0)
      ⊢ (|={Set.univ}=> bigSep Finset.univ fun k : CIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe Hv Hst
  imodintro
  iframe Hinv Hat Htok

omit [FloatOps F] in

theorem bigSep_shuffle {J : Type} [Fintype J] (e : J → Dev nD ≃ Dev nD) (T : Dev nD → J → sProp 𝕄) :
    (bigSep Finset.univ fun c => bigSep Finset.univ fun j => T c j) = bigSep Finset.univ fun c => bigSep Finset.univ fun j => T (e j c) j := by
  rw [bigSep_univ_comm T, bigSep_univ_comm (fun c j => T (e j c) j)]
  exact bigSep_congr fun j _ => bigSep_univ_equiv (e j) (fun c => T c j)

def parE (k : Fin 3) : Dev nD ≃ Dev nD := ⟨par k, par k, par_par k, par_par k⟩
def peerE (pi : PI) : Dev nD ≃ Dev nD := ⟨peer pi.1 pi.2, peer pi.1 pi.2, peer_peer pi.1 pi.2, peer_peer pi.1 pi.2⟩

omit [FloatOps F] in

theorem toks_around : (bigSep Finset.univ fun c : Dev nD => (toks c : sProp 𝕄)) ⊢ bigSep Finset.univ fun c : Dev nD => payToksU c := by
  rw [bigSep_congr (s := Finset.univ) (fun (c : Dev nD) _ => toks_eq c)]
  unfold payToksU
  rw [bigSep_sep', bigSep_sep', bigSep_sep', bigSep_sep', bigSep_sep', bigSep_sep',
    bigSep_shuffle parE (fun c k => dutyTok ER (barCell c) 0 k), bigSep_shuffle peerE (fun c pi => dutyTok ER (recvCell c pi.1 pi.2) 0 0)]
  exact .rfl

def linear (c : Dev nD) : sProp 𝕄 := iprop(posnsU c ∗ payToksU c)

theorem ghost_intro (K : Dev nD × CIx → ℕ) (c : Dev nD) : iprop(records m K ∗ linear c) ⊢ G' m c := by
  unfold linear G'
  iintro ⟨#HR, Hp, Ht⟩
  iexists K
  iframe HR Ht Hp

theorem regroup :
    (bigSep Finset.univ fun c : Dev nD => iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; iframe HI HR
  · iapply ((Entails.of_eq (bigSep_sep' Finset.univ (fun c : Dev nD => bigSep Finset.univ fun k : CIx => (atPos ER (kcell (c, k)) 0 ∅ 0 : sProp 𝕄)) payToksU).symm).trans
      (bigSep_mono fun c _ => show _ ⊢ linear c from Entails.of_eq (by unfold linear posnsU; rw [bigSep_univ_sum, bigSep_univ_sum, bigSep_univ_sum, bigSep_univ_of_subsingleton ()]; rfl)))
    iframe Hat Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem payDev_invol (c : Dev nD) (a : Pay) : payDev (payDev c a) a = c := by
  cases a with
  | bar k => exact par_par k c
  | copy p i => exact peer_peer p i c

omit [FloatOps F] in

theorem launchCred_owedOf (l : List Pay) (c : Dev nD) :
    (Pipeline.launchCred (fun d => owedOf d l) c : sProp 𝕄) ⊢ bigSepL l fun a => cred (tallyAt ((c : Thread nD τ), paySem a) () (payAmt a)) := by
  induction l with
  | nil => exact Entails.of_eq (Pipeline.launchCred_zero c)
  | cons a l ih =>
    rw [show (fun d : Dev nD => owedOf d (a :: l)) = fun d => owedOf d l + tallyAt (payCell d a) () (payAmt a) from rfl,
      Pipeline.launchCred_add (fun d => owedOf d l) (fun d => tallyAt (payCell d a) () (payAmt a)) c, bigSepL_cons]
    exact sep_comm.1.trans ((sep_mono_left (Pipeline.launchCred_tallyAt (paySem a) (fun d => payDev d a) (fun d => payDev d a)
      (fun c => payDev_invol c a) (fun c => payDev_invol c a) () (payAmt a) c)).trans (sep_mono_right ih))

omit [FloatOps F] in
theorem creds (c : Dev nD) : (Pipeline.launchCred O₀ c : sProp 𝕄) ⊢ credsU c := by
  refine (launchCred_owedOf pays c).trans ?_
  unfold credsU
  rw [bigSep_univ_eq_bigSepL sendOrder sendOrder_univ sendOrder_nodup,
    show (tallyAt (barCell c) () 3 : CellTallies nD τ sig Unit) = tallyAt (barCell c) () 1 + (tallyAt (barCell c) () 1 + tallyAt (barCell c) () 1) from by
      rw [tallyAt_add, tallyAt_add]]
  show iprop(cred (tallyAt (barCell c) () 1) ∗ cred (tallyAt (barCell c) () 1) ∗ cred (tallyAt (barCell c) () 1) ∗ bigSepL sendOrder (crRecv c)) ⊢ _
  iintro ⟨H1, H2, H3, Hr⟩
  iframe Hr
  iapply (cred_add _ _).2
  iframe H1
  iapply (cred_add _ _).2
  iframe H2 H3

theorem ownSemFacts : Pipeline.OwnSemFacts cfg0.spec osem := ⟨by decide, osem_injective, by decide⟩

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hout, Hlev, Hcr, -, HG⟩
  ihave Hc := (creds (F := F) c) $$ Hcr
  imodintro
  unfold start G'
  icases HG with ⟨%K, HR, Htk, Hat⟩
  iframe Htk Hat Hc Hlev Hout
  iexists K; iexact HR

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  iframe Hs Hr

theorem phi1_exit (c : Dev nD) :
    (dats m 0 c).Φ (Fin.last cfg0.N) ⊢ iprop(resultAt m c ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hr, Hs, Hc⟩
  iframe Hr Hs
  iapply (closedCells_elim c); iexact Hc

theorem waits (c : Dev nD) : (levAts L lv : sProp 𝕄) ⊢ Pipeline.cellsWaits cfgs (dats m) () 0 c :=
  Pipeline.cellsWaits_intro cfgs (dats m) () 0 c fun w s t => by
    have hq : ∀ p i, roleOf ((cfg0.win w).sem s) ≠ .recv p i := by fin_cases w <;> fin_cases s <;> decide
    rcases t with ⟨_ | _, ht⟩
    · exact mayWait_low c _ hq pays
    · exact mayWait_low c _ hq []

set_option maxRecDepth 40000 in

theorem launch (hbody : BodyHyp m) :
    θ_run defs (onTc (τ := τ) (main (F := F))) ⟨m, fun _ => 0, ρ⟩
      (fun r => ∀ c : Dev nD, r.2.mem ((c : Thread nD τ).loc main_v1) = resArr m
        ∧ r.2.mem ((c : Thread nD τ).loc main_arg0) = m ((c : Thread nD τ).loc main_arg0)
        ∧ r.2.mem ((c : Thread nD τ).loc main_arg1) = m ((c : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cube m) $$ HX with HG
      imodintro
      iframe HP HG)
    (hglob := glob m)
    (hA := fun _ _ => rfl) (hpf := fun _ k => k.elim0)
    (X := start m) (Y := resultAt m) (Z := fun _ => iprop(emp))
    (hX := start_intro m ρ) (hin := phi0_intro m) (hout := phi1_exit m)
    (QY := fun c s => s.mem ((c : Thread nD τ).loc main_v1) = resArr m)
    (hY := fun c s' => by
      unfold resultAt
      iintro ⟨⟨%res, %hres, Hpt⟩, -, HSI⟩
      icombine HSI Hpt gives %hx
      imodintro
      isplitr; · ipureintro; exact (Buf.eq_of_forall_mem_univ hx).trans (eq_resArr m hres)
      iexact HSI)
    (hQ := fun s h c => ⟨(h c).2.2, ((h c).1 0).trans ((dats m 0 c).arrAt_in 0 rfl _), ((h c).1 1).trans ((dats m 0 c).arrAt_in 1 rfl _)⟩)

omit [FloatOps F] in
theorem xstg_eq (c : Dev nD) : xstg m c = xOf m c :=
  Memref.read_access_unit_zero (Elt F) main_arg0 (off := fun a => win0_0.index t₀ a * win0_0.size a)
    (funext fun a => by fin_cases a <;> rfl) _ (m ((c : Thread nD τ).loc main_arg0))
omit [FloatOps F] in
theorem wstg_eq (c : Dev nD) : wstg m c = wOf m c :=
  Memref.read_access_unit_zero (Elt F) main_arg1 (off := fun a => win0_1.index t₀ a * win0_1.size a)
    (funext fun a => by fin_cases a <;> rfl) _ (m ((c : Thread nD τ).loc main_arg1))

end Cert.KernelIdeal.Launch

end
-- ==== Proof.EvBarrier.lean ====
import proofs.«900802_g7700000000000803_dist_gemm_ar_m4096_k4096_n2048_f32_relu_v7x_i8_1_alg».proof.Proof.Proto
import proofs.«900802_g7700000000000803_dist_gemm_ar_m4096_k4096_n2048_f32_relu_v7x_i8_1_alg».proof.Proof.Gen.KernelIdeal.Skeleton
import Idealize.ShloMosaic.Lib.Tactic

noncomputable section

namespace Cert.KernelIdeal.Body

open Cert.KernelIdeal Cert.KernelIdeal.Gen Cert.KernelIdeal.Spec Cert.KernelIdeal.Reg Cert.KernelIdeal.Proto

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

variable (x : Dev nD → Vec F S4096x512 .f32) (w : Dev nD → Vec F S512x2048 .f32)

theorem duties_bar (c : Dev nD) : (cubeRd x w).duties (barCell c) 0 = Finset.univ := rfl
theorem amount_bar (c : Dev nD) (k : Fin 3) : (cubeRd x w).amount (barCell c) 0 k = 1 := rfl
theorem payload_bar (c : Dev nD) (k : Fin 3) : (cubeRd x w).payload (barCell c) 0 k = barPay (F := F) c k := rfl
theorem expect_bar (c : Dev nD) : (cubeRd x w).expect (barCell c) 0 = 3 := rfl

theorem bigSep_fin_three {M : Type} [URA M] (Φ : Fin 3 → sProp M) :
    bigSep Finset.univ Φ = iprop(Φ 0 ∗ Φ 1 ∗ Φ 2) := by
  rw [show (Finset.univ : Finset (Fin 3)) = {0, 1, 2} from by decide, bigSep_insert (by decide),
    bigSep_insert (by decide), bigSep_singleton]
  rfl

end Cert.KernelIdeal.Body

end
-- ==== Proof.Forms.lean ====
import proofs.«900802_g7700000000000803_dist_gemm_ar_m4096_k4096_n2048_f32_relu_v7x_i8_1_alg».proof.Proof.Spec
import proofs.«900802_g7700000000000803_dist_gemm_ar_m4096_k4096_n2048_f32_relu_v7x_i8_1_alg».proof.Proof.Gen.KernelIdeal

namespace Cert.KernelIdeal.Forms

open Idealize.ShloMosaic
open Cert.KernelIdeal Cert.KernelIdeal.Spec

variable [Facts]
open Facts₀ Facts

theorem dev_1 (c : Dev nD) : (⟨k0_dev1 c, k0_dev1_lt c⟩ : Dev nD) = par 0 c := by revert c; decide +kernel
theorem dev_2 (c : Dev nD) : (⟨k0_dev2 c, k0_dev2_lt c⟩ : Dev nD) = par 1 c := by revert c; decide +kernel
theorem dev_3 (c : Dev nD) : (⟨k0_dev3 c, k0_dev3_lt c⟩ : Dev nD) = par 2 c := by revert c; decide +kernel

theorem off_1 (c : Dev nD) : k0_off1 c = ![0, sub1 0 c] := by revert c; decide +kernel
theorem off_2 (c : Dev nD) : k0_off2 c = ![0, 0, sub1 0 c] := by revert c; decide +kernel
theorem off_3 (c : Dev nD) : k0_off3 c = ![0, 0, sub1 0 c] := by revert c; decide +kernel
theorem dev_4 (c : Dev nD) : (⟨k0_dev4 c, k0_dev4_lt c⟩ : Dev nD) = par (axis 0 0) c := by revert c; decide +kernel
theorem off_4 (c : Dev nD) : k0_off4 c = ![0, sub1 1 c] := by revert c; decide +kernel
theorem off_5 (c : Dev nD) : k0_off5 c = ![1, 0, sub1 1 c] := by revert c; decide +kernel
theorem off_6 (c : Dev nD) : k0_off6 c = ![1, 0, sub1 1 c] := by revert c; decide +kernel
theorem dev_5 (c : Dev nD) : (⟨k0_dev5 c, k0_dev5_lt c⟩ : Dev nD) = par (axis 1 0) c := by revert c; decide +kernel
theorem off_7 (c : Dev nD) : k0_off7 c = ![0, sub1 2 c] := by revert c; decide +kernel
theorem off_8 (c : Dev nD) : k0_off8 c = ![2, 0, sub1 2 c] := by revert c; decide +kernel
theorem off_9 (c : Dev nD) : k0_off9 c = ![2, 0, sub1 2 c] := by revert c; decide +kernel
theorem dev_6 (c : Dev nD) : (⟨k0_dev6 c, k0_dev6_lt c⟩ : Dev nD) = par (axis 2 0) c := by revert c; decide +kernel

theorem off_10 (c : Dev nD) : k0_off10 c = ![0, sub2 0 c] := by revert c; decide +kernel
theorem off_11 (c : Dev nD) : k0_off11 c = ![0, 0, sub2 0 c] := by revert c; decide +kernel
theorem off_12 (c : Dev nD) : k0_off12 c = ![0, 0, sub2 0 c] := by revert c; decide +kernel
theorem dev_7 (c : Dev nD) : (⟨k0_dev7 c, k0_dev7_lt c⟩ : Dev nD) = par (axis 0 0) c := by revert c; decide +kernel
theorem off_13 (c : Dev nD) : k0_off13 c = ![0, sub2 1 c] := by revert c; decide +kernel
theorem off_14 (c : Dev nD) : k0_off14 c = ![1, 0, sub2 1 c] := by revert c; decide +kernel
theorem off_15 (c : Dev nD) : k0_off15 c = ![1, 0, sub2 1 c] := by revert c; decide +kernel
theorem dev_8 (c : Dev nD) : (⟨k0_dev8 c, k0_dev8_lt c⟩ : Dev nD) = par (axis 1 0) c := by revert c; decide +kernel
theorem off_16 (c : Dev nD) : k0_off16 c = ![0, sub2 2 c] := by revert c; decide +kernel
theorem off_17 (c : Dev nD) : k0_off17 c = ![2, 0, sub2 2 c] := by revert c; decide +kernel
theorem off_18 (c : Dev nD) : k0_off18 c = ![2, 0, sub2 2 c] := by revert c; decide +kernel
theorem dev_9 (c : Dev nD) : (⟨k0_dev9 c, k0_dev9_lt c⟩ : Dev nD) = par (axis 2 0) c := by revert c; decide +kernel

theorem off_19 (c : Dev nD) : k0_off19 c = ![0, 0, away1 0 c] := by revert c; decide +kernel
theorem off_20 (c : Dev nD) : k0_off20 c = ![0, away1 0 c] := by revert c; decide +kernel
theorem off_21 (c : Dev nD) : k0_off21 c = ![0, 0, away1 0 c] := by revert c; decide +kernel
theorem dev_10 (c : Dev nD) : (⟨k0_dev10 c, k0_dev10_lt c⟩ : Dev nD) = par (axis 0 1) c := by revert c; decide +kernel
theorem off_22 (c : Dev nD) : k0_off22 c = ![1, 0, away1 1 c] := by revert c; decide +kernel
theorem off_23 (c : Dev nD) : k0_off23 c = ![0, away1 1 c] := by revert c; decide +kernel
theorem off_24 (c : Dev nD) : k0_off24 c = ![1, 0, away1 1 c] := by revert c; decide +kernel
theorem dev_11 (c : Dev nD) : (⟨k0_dev11 c, k0_dev11_lt c⟩ : Dev nD) = par (axis 1 1) c := by revert c; decide +kernel
theorem off_25 (c : Dev nD) : k0_off25 c = ![2, 0, away1 2 c] := by revert c; decide +kernel
theorem off_26 (c : Dev nD) : k0_off26 c = ![0, away1 2 c] := by revert c; decide +kernel
theorem off_27 (c : Dev nD) : k0_off27 c = ![2, 0, away1 2 c] := by revert c; decide +kernel
theorem dev_12 (c : Dev nD) : (⟨k0_dev12 c, k0_dev12_lt c⟩ : Dev nD) = par (axis 2 1) c := by revert c; decide +kernel

theorem off_28 (c : Dev nD) : k0_off28 c = ![0, 0, o2 0 c] := by revert c; decide +kernel
theorem off_29 (c : Dev nD) : k0_off29 c = ![0, o2 0 c] := by revert c; decide +kernel
theorem off_30 (c : Dev nD) : k0_off30 c = ![0, 0, away2 0 c] := by revert c; decide +kernel
theorem off_31 (c : Dev nD) : k0_off31 c = ![0, 0, away2 0 c - o2 0 c] := by revert c; decide +kernel
theorem off_32 (c : Dev nD) : k0_off32 c = ![0, 0, away2 0 c] := by revert c; decide +kernel
theorem dev_13 (c : Dev nD) : (⟨k0_dev13 c, k0_dev13_lt c⟩ : Dev nD) = par (axis 0 2) c := by revert c; decide +kernel
theorem off_33 (c : Dev nD) : k0_off33 c = ![0, 0, o3 0 c] := by revert c; decide +kernel
theorem off_34 (c : Dev nD) : k0_off34 c = ![0, 0, o3 0 c - o2 0 c] := by revert c; decide +kernel

theorem off_35 (c : Dev nD) : k0_off35 c = ![1, 0, o2 1 c] := by revert c; decide +kernel
theorem off_36 (c : Dev nD) : k0_off36 c = ![0, o2 1 c] := by revert c; decide +kernel
theorem off_37 (c : Dev nD) : k0_off37 c = ![1, 0, away2 1 c] := by revert c; decide +kernel
theorem off_38 (c : Dev nD) : k0_off38 c = ![1, 0, away2 1 c - o2 1 c] := by revert c; decide +kernel
theorem off_39 (c : Dev nD) : k0_off39 c = ![1, 0, away2 1 c] := by revert c; decide +kernel
theorem dev_14 (c : Dev nD) : (⟨k0_dev14 c, k0_dev14_lt c⟩ : Dev nD) = par (axis 1 2) c := by revert c; decide +kernel
theorem off_40 (c : Dev nD) : k0_off40 c = ![1, 0, o3 1 c] := by revert c; decide +kernel
theorem off_41 (c : Dev nD) : k0_off41 c = ![1, 0, o3 1 c - o2 1 c] := by revert c; decide +kernel

theorem off_42 (c : Dev nD) : k0_off42 c = ![2, 0, o2 2 c] := by revert c; decide +kernel
theorem off_43 (c : Dev nD) : k0_off43 c = ![0, o2 2 c] := by revert c; decide +kernel
theorem off_44 (c : Dev nD) : k0_off44 c = ![2, 0, away2 2 c] := by revert c; decide +kernel
theorem off_45 (c : Dev nD) : k0_off45 c = ![2, 0, away2 2 c - o2 2 c] := by revert c; decide +kernel
theorem off_46 (c : Dev nD) : k0_off46 c = ![2, 0, away2 2 c] := by revert c; decide +kernel
theorem dev_15 (c : Dev nD) : (⟨k0_dev15 c, k0_dev15_lt c⟩ : Dev nD) = par (axis 2 2) c := by revert c; decide +kernel
theorem off_47 (c : Dev nD) : k0_off47 c = ![2, 0, o3 2 c] := by revert c; decide +kernel
theorem off_48 (c : Dev nD) : k0_off48 c = ![2, 0, o3 2 c - o2 2 c] := by revert c; decide +kernel

theorem off_49 (c : Dev nD) : k0_off49 c = ![0, 0, o3 0 c] := by revert c; decide +kernel
theorem dev_16 (c : Dev nD) : (⟨k0_dev16 c, k0_dev16_lt c⟩ : Dev nD) = par (axis 0 2) c := by revert c; decide +kernel
theorem dev_17 (c : Dev nD) : (⟨k0_dev17 c, k0_dev17_lt c⟩ : Dev nD) = par (axis 0 1) c := by revert c; decide +kernel
theorem dev_18 (c : Dev nD) : (⟨k0_dev18 c, k0_dev18_lt c⟩ : Dev nD) = par (axis 0 0) c := by revert c; decide +kernel
theorem off_50 (c : Dev nD) : k0_off50 c = ![1, 0, o3 1 c] := by revert c; decide +kernel
theorem dev_19 (c : Dev nD) : (⟨k0_dev19 c, k0_dev19_lt c⟩ : Dev nD) = par (axis 1 2) c := by revert c; decide +kernel
theorem dev_20 (c : Dev nD) : (⟨k0_dev20 c, k0_dev20_lt c⟩ : Dev nD) = par (axis 1 1) c := by revert c; decide +kernel
theorem dev_21 (c : Dev nD) : (⟨k0_dev21 c, k0_dev21_lt c⟩ : Dev nD) = par (axis 1 0) c := by revert c; decide +kernel
theorem off_51 (c : Dev nD) : k0_off51 c = ![2, 0, o3 2 c] := by revert c; decide +kernel
theorem dev_22 (c : Dev nD) : (⟨k0_dev22 c, k0_dev22_lt c⟩ : Dev nD) = par (axis 2 2) c := by revert c; decide +kernel
theorem dev_23 (c : Dev nD) : (⟨k0_dev23 c, k0_dev23_lt c⟩ : Dev nD) = par (axis 2 1) c := by revert c; decide +kernel
theorem dev_24 (c : Dev nD) : (⟨k0_dev24 c, k0_dev24_lt c⟩ : Dev nD) = par (axis 2 0) c := by revert c; decide +kernel

theorem off_52 (c : Dev nD) : k0_off52 c = ![rowStart 0, o2 0 c] := by revert c; decide +kernel
theorem off_53 (c : Dev nD) : k0_off53 c = ![0, 0, o2 0 c] := by revert c; decide +kernel
theorem dev_25 (c : Dev nD) : (⟨k0_dev25 c, k0_dev25_lt c⟩ : Dev nD) = par (axis 0 1) c := by revert c; decide +kernel
theorem dev_26 (c : Dev nD) : (⟨k0_dev26 c, k0_dev26_lt c⟩ : Dev nD) = par (axis 0 0) c := by revert c; decide +kernel
theorem off_54 (c : Dev nD) : k0_off54 c = ![rowStart 1, o2 1 c] := by revert c; decide +kernel
theorem off_55 (c : Dev nD) : k0_off55 c = ![1, 0, o2 1 c] := by revert c; decide +kernel
theorem dev_27 (c : Dev nD) : (⟨k0_dev27 c, k0_dev27_lt c⟩ : Dev nD) = par (axis 1 1) c := by revert c; decide +kernel
theorem dev_28 (c : Dev nD) : (⟨k0_dev28 c, k0_dev28_lt c⟩ : Dev nD) = par (axis 1 0) c := by revert c; decide +kernel
theorem off_56 (c : Dev nD) : k0_off56 c = ![rowStart 2, o2 2 c] := by revert c; decide +kernel
theorem off_57 (c : Dev nD) : k0_off57 c = ![2, 0, o2 2 c] := by revert c; decide +kernel
theorem dev_29 (c : Dev nD) : (⟨k0_dev29 c, k0_dev29_lt c⟩ : Dev nD) = par (axis 2 1) c := by revert c; decide +kernel
theorem dev_30 (c : Dev nD) : (⟨k0_dev30 c, k0_dev30_lt c⟩ : Dev nD) = par (axis 2 0) c := by revert c; decide +kernel

theorem off_58 (c : Dev nD) : k0_off58 c = ![rowStart 0, away1 0 c] := by revert c; decide +kernel
theorem dev_31 (c : Dev nD) : (⟨k0_dev31 c, k0_dev31_lt c⟩ : Dev nD) = par (axis 0 0) c := by revert c; decide +kernel
theorem off_59 (c : Dev nD) : k0_off59 c = ![rowStart 1, away1 1 c] := by revert c; decide +kernel
theorem dev_32 (c : Dev nD) : (⟨k0_dev32 c, k0_dev32_lt c⟩ : Dev nD) = par (axis 1 0) c := by revert c; decide +kernel
theorem off_60 (c : Dev nD) : k0_off60 c = ![rowStart 2, away1 2 c] := by revert c; decide +kernel
theorem dev_33 (c : Dev nD) : (⟨k0_dev33 c, k0_dev33_lt c⟩ : Dev nD) = par (axis 2 0) c := by revert c; decide +kernel

theorem off_61 (c : Dev nD) : k0_off61 c = ![rowStart 0, sub2 0 c] := by revert c; decide +kernel
theorem off_62 (c : Dev nD) : k0_off62 c = ![rowStart 1, sub2 1 c] := by revert c; decide +kernel
theorem off_63 (c : Dev nD) : k0_off63 c = ![rowStart 2, sub2 2 c] := by revert c; decide +kernel
theorem off_64 (c : Dev nD) : k0_off64 c = ![rowStart 0, sub1 0 c] := by revert c; decide +kernel
theorem off_65 (c : Dev nD) : k0_off65 c = ![rowStart 1, sub1 1 c] := by revert c; decide +kernel
theorem off_66 (c : Dev nD) : k0_off66 c = ![rowStart 2, sub1 2 c] := by revert c; decide +kernel

end Cert.KernelIdeal.Forms
-- ==== Proof.Part3.lean ====
import proofs.«900802_g7700000000000803_dist_gemm_ar_m4096_k4096_n2048_f32_relu_v7x_i8_1_alg».proof.Proof.EvBarrier
import proofs.«900802_g7700000000000803_dist_gemm_ar_m4096_k4096_n2048_f32_relu_v7x_i8_1_alg».proof.Proof.Forms

noncomputable section

namespace Cert.KernelIdeal.Body

open Cert.KernelIdeal Cert.KernelIdeal.Gen Cert.KernelIdeal.Spec Cert.KernelIdeal.Reg Cert.KernelIdeal.Proto

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_bar amount_bar payload_bar expect_bar

theorem part1 (c : Dev nD) (arg0 : Memref sig .tc .vmem S4096x512 .f32) (harg0 : arg0.IsWhole) (arg1 : Memref sig .tc .vmem S512x2048 .f32) (harg1 : arg1.IsWhole) (arg2 : Memref sig .tc .hbm S4096x2048 .f32) (harg2 : arg2.IsWhole) (arg3 : Memref sig .tc .vmem S3x1368x2048 .f32) (harg3 : arg3.IsWhole) (arg4 : Memref sig .tc .vmem S3x1368x512 .f32) (harg4 : arg4.IsWhole) (arg5 : Memref sig .tc .vmem S3x1368x256 .f32) (harg5 : arg5.IsWhole) (arg6 : DmaSems sig S3x10) (arg7 : DmaSems sig S3x10) (arg8 : DmaSems sig S3x4) :
    (iprop(emp) : sProp 𝕄)
      ⊢ wp frame (wpE (defs₀ (F := F)) Variants.none (c : Thread nD τ) none) Set.univ
          (k0_part1 (F := F) arg0 harg0 arg1 harg1 arg2 harg2 arg3 harg3 arg4 harg4 arg5 harg5 arg6 arg7 arg8)
          (fun res => iprop(⌜res.1 = c⌝)) := by
  iintro Hemp
  rw [k0_part1_eq_skeleton]; unfold k0_part1_skel
  sl_exec
  sl_step
  ipureintro; rfl

theorem part2 (c : Dev nD) (arg0 : Memref sig .tc .vmem S4096x512 .f32) (harg0 : arg0.IsWhole) (arg1 : Memref sig .tc .vmem S512x2048 .f32) (harg1 : arg1.IsWhole) (arg2 : Memref sig .tc .hbm S4096x2048 .f32) (harg2 : arg2.IsWhole) (arg3 : Memref sig .tc .vmem S3x1368x2048 .f32) (harg3 : arg3.IsWhole) (arg4 : Memref sig .tc .vmem S3x1368x512 .f32) (harg4 : arg4.IsWhole) (arg5 : Memref sig .tc .vmem S3x1368x256 .f32) (harg5 : arg5.IsWhole) (arg6 : DmaSems sig S3x10) (arg7 : DmaSems sig S3x10) (arg8 : DmaSems sig S3x4)
    (v2 v19 v29 c2_i32_12 v34 v36 v38 : BitVec 32) :
    (iprop(emp) : sProp 𝕄)
      ⊢ wp frame (wpE (defs₀ (F := F)) Variants.none (c : Thread nD τ) none) Set.univ
          (k0_part2 (F := F) arg0 harg0 arg1 harg1 arg2 harg2 arg3 harg3 arg4 harg4 arg5 harg5 arg6 arg7 arg8 v2 v19 v29 c2_i32_12 v34 v36 v38)
          (fun _ => iprop(emp)) := by
  iintro Hemp
  rw [k0_part2_eq_skeleton]; unfold k0_part2_skel
  sl_exec
  sl_step
  iexact Hemp

theorem part4 (c : Dev nD) (arg0 : Memref sig .tc .vmem S4096x512 .f32) (harg0 : arg0.IsWhole) (arg1 : Memref sig .tc .vmem S512x2048 .f32) (harg1 : arg1.IsWhole) (arg2 : Memref sig .tc .hbm S4096x2048 .f32) (harg2 : arg2.IsWhole) (arg3 : Memref sig .tc .vmem S3x1368x2048 .f32) (harg3 : arg3.IsWhole) (arg4 : Memref sig .tc .vmem S3x1368x512 .f32) (harg4 : arg4.IsWhole) (arg5 : Memref sig .tc .vmem S3x1368x256 .f32) (harg5 : arg5.IsWhole) (arg6 : DmaSems sig S3x10) (arg7 : DmaSems sig S3x10) (arg8 : DmaSems sig S3x4)
    (v19 v33 v50 v89 v106 v107 : BitVec 32) :
    (iprop(emp) : sProp 𝕄)
      ⊢ wp frame (wpE (defs₀ (F := F)) Variants.none (c : Thread nD τ) none) Set.univ
          (k0_part4 (F := F) arg0 harg0 arg1 harg1 arg2 harg2 arg3 harg3 arg4 harg4 arg5 harg5 arg6 arg7 arg8 v19 v33 v50 v89 v106 v107)
          (fun _ => iprop(emp)) := by
  iintro Hemp
  rw [k0_part4_eq_skeleton]; unfold k0_part4_skel
  sl_exec
  sl_step
  iexact Hemp

theorem part3 (c : Dev nD) (κ0 κ1 κ2 κc : ℕ) (arg0 : Memref sig .tc .vmem S4096x512 .f32) (harg0 : arg0.IsWhole) (arg1 : Memref sig .tc .vmem S512x2048 .f32) (harg1 : arg1.IsWhole) (arg2 : Memref sig .tc .hbm S4096x2048 .f32) (harg2 : arg2.IsWhole) (arg3 : Memref sig .tc .vmem S3x1368x2048 .f32) (harg3 : arg3.IsWhole) (arg4 : Memref sig .tc .vmem S3x1368x512 .f32) (harg4 : arg4.IsWhole) (arg5 : Memref sig .tc .vmem S3x1368x256 .f32) (harg5 : arg5.IsWhole) (arg6 : DmaSems sig S3x10) (arg7 : DmaSems sig S3x10) (arg8 : DmaSems sig S3x4) (d0 : Dev nD) (hd : d0 = c)
    (v19 v33 v50 v65 v68 v71 v72 : BitVec 32) (v73 v76 : BitVec 1)
    (O : CellTallies nD τ sig Unit) (W : Waits sig Unit) :
    iprop(cellInv (ER (F := F)) (cubeRd x w) κ0 (barCell (par 0 c))
        ∗ cellInv (ER (F := F)) (cubeRd x w) κ1 (barCell (par 1 c))
        ∗ cellInv (ER (F := F)) (cubeRd x w) κ2 (barCell (par 2 c))
        ∗ cellInv (ER (F := F)) (cubeRd x w) κc (barCell c)
        ∗ dutyTok (ER (F := F)) (barCell (par 0 c)) 0 (0 : Fin 3) ∗ dutyTok (ER (F := F)) (barCell (par 1 c)) 0 (1 : Fin 3)
        ∗ dutyTok (ER (F := F)) (barCell (par 2 c)) 0 (2 : Fin 3)
        ∗ reached (ER (F := F)) (barCell (par 0 c)) 0 ∗ reached (ER (F := F)) (barCell (par 1 c)) 0
        ∗ reached (ER (F := F)) (barCell (par 2 c)) 0
        ∗ barPay (F := F) (par 0 c) 0 ∗ barPay (F := F) (par 1 c) 1 ∗ barPay (F := F) (par 2 c) 2
        ∗ owes (c : Thread nD τ) (O + tallyAt (barCell (par 2 c)) () 1 + tallyAt (barCell (par 1 c)) () 1
            + tallyAt (barCell (par 0 c)) () 1) W
        ∗ atPos (ER (F := F)) (barCell c) 0 ∅ 0 ∗ cred (tallyAt (barCell c) () 3)
        ∗ MayWait (c : Thread nD τ) (.reg barS) () O)
      ⊢ wp frame (wpE (defs₀ (F := F)) Variants.none (c : Thread nD τ) none) Set.univ
          (k0_part3 (F := F) arg0 harg0 arg1 harg1 arg2 harg2 arg3 harg3 arg4 harg4 arg5 harg5 arg6 arg7 arg8 d0 v19 v33 v50 v65 v68 v71 v72 v73 v76)
          (fun _ => iprop(owes (c : Thread nD τ) O (insert (.reg barS, ()) W) ∗ atPos (ER (F := F)) (barCell c) 1 ∅ 0
            ∗ reached (ER (F := F)) (barCell c) 1 ∗ barPay (F := F) c 0 ∗ barPay (F := F) c 1 ∗ barPay (F := F) c 2)) := by
  subst hd
  iintro ⟨#HI0, #HI1, #HI2, #HIc, Ht0, Ht1, Ht2, #Hr0, #Hr1, #Hr2, Hp0, Hp1, Hp2, HO, Hat, Hcr, #Hmw⟩
  rw [k0_part3_eq_skeleton]; unfold k0_part3_skel
  have hdev1 := Forms.dev_1
  have hdev2 := Forms.dev_2
  have hdev3 := Forms.dev_3
  sl_exec
  sl_step
  ihave Hp := (Entails.of_eq (bigSep_fin_three (fun d => barPay (F := F) d0 d))) $$ Hat_pay1
  icases Hp with ⟨Hq0, Hq1, Hq2⟩
  iframe HO Hat Hat_reached Hq0 Hq1 Hq2

end Cert.KernelIdeal.Body

end
-- ==== Proof.Stages.lean ====
import proofs.«900802_g7700000000000803_dist_gemm_ar_m4096_k4096_n2048_f32_relu_v7x_i8_1_alg».proof.Proof.Proto

noncomputable section

namespace Cert.KernelIdeal.Stages

open Cert.KernelIdeal Cert.KernelIdeal.Gen Cert.KernelIdeal.Spec Cert.KernelIdeal.Reg Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

local instance : Add (F .f32) := ⟨FloatOps.addf⟩

variable (x : Dev nD → Vec F S4096x512 .f32) (w : Dev nD → Vec F S512x2048 .f32)

abbrev nb (p : Fin 3) (j : Fin 3) (c : Dev nD) : Dev nD := par (axis p j) c

def during (lo hi d : ℕ) (A : sProp 𝕄) : sProp 𝕄 := if lo ≤ d ∧ d < hi then A else iprop(emp)

def since (lo d : ℕ) (A : sProp 𝕄) : sProp 𝕄 := if lo ≤ d then A else iprop(emp)

def partW (c : Dev nD) (p : Fin 3) (off wd : ℕ) (h : Inb3 2048 p.val (rowLen p) off wd) (qs : List (PosShare TreeShare))
    (val : ℕ → ℕ → F .f32) : sProp 𝕄 :=
  iprop(∃ f : Buf (Elt F) ((wbM.access (wbRect p.val (rowLen p) off wd h)).loc (c : Thread nD τ)),
    (qs.foldr (fun q A => iprop((((wbM.access (wbRect p.val (rowLen p) off wd h)).loc (c : Thread nD τ)) ↦[wbReg c p.val (rowLen p) off wd h]{q} f) ∗ A)) iprop(emp))
    ∗ ⌜∀ y : (⟨3, ![1, rowLen p, wd]⟩ : Shape).Idx, (wbM.access (wbRect p.val (rowLen p) off wd h)).read (Elt F) f y = val (y 1).val (off + (y 2).val)⌝)

theorem hA (p : Fin 3) (c : Dev nD) : Inb3 2048 p.val (rowLen p) (sub1 p c) 512 := by revert p c; decide
theorem hB (p : Fin 3) (c : Dev nD) : Inb3 2048 p.val (rowLen p) (sub2 p c) 512 := by revert p c; decide
theorem hC (p : Fin 3) (c : Dev nD) : Inb3 2048 p.val (rowLen p) (away1 p c) 512 := by revert p c; decide
theorem hD (p : Fin 3) (c : Dev nD) : Inb3 2048 p.val (rowLen p) (o2 p c) 512 := by revert p c; decide
theorem hE (p : Fin 3) (c : Dev nD) : Inb3 2048 p.val (rowLen p) (away2 p c) 256 := by revert p c; decide
theorem hG (p : Fin 3) (c : Dev nD) : Inb3 2048 p.val (rowLen p) (o3 p c) 256 := by revert p c; decide

theorem hCg (p : Fin 3) (c : Dev nD) : Inb3 2048 p.val (rowLen p) (o3 p (nb p 1 c)) 256 := hG p _
theorem hCe (p : Fin 3) (c : Dev nD) : Inb3 2048 p.val (rowLen p) (away2 p (nb p 1 c)) 256 := hE p _

theorem hBg (p : Fin 3) (c : Dev nD) : Inb3 2048 p.val (rowLen p) (o3 p (nb p 0 c)) 256 := hG p _
theorem hBe (p : Fin 3) (c : Dev nD) : Inb3 2048 p.val (rowLen p) (away2 p (nb p 0 c)) 256 := hE p _

def keep3 : List (PosShare TreeShare) := [fullShare.left, fullShare.right.left, fullShare.right.right.left]

def dataSl (c : Dev nD) (p : Fin 3) (d : ℕ) : sProp 𝕄 :=
  iprop(

    during 0 1 d (ownsW c p (sub1 p c) 512 (hA p c))
    ∗ during 1 2 d (holdsW c p (sub1 p c) 512 (hA p c) (fun r col => Vals.own x w p r col c))
    ∗ during 36 37 d (holdsW c p (sub1 p c) 512 (hA p c) (gath x w p))
    ∗ since 37 d (partW c p (sub1 p c) 512 (hA p c) keep3 (gath x w p))

    ∗ during 0 3 d (ownsW c p (sub2 p c) 512 (hB p c))
    ∗ during 3 4 d (holdsW c p (sub2 p c) 512 (hB p c) (fun r col => Vals.own x w p r col c))
    ∗ during 31 33 d (holdsW c p (o3 p (nb p 0 c)) 256 (hBg p c) (gath x w p))
    ∗ during 33 34 d (holdsW c p (sub2 p c) 512 (hB p c) (gath x w p))
    ∗ since 34 d (partW c p (sub2 p c) 512 (hB p c) keep3 (gath x w p))

    ∗ during 5 6 d (holdsW c p (away1 p c) 512 (hC p c) (fun r col => Vals.own x w p r col (nb p 0 c)))
    ∗ during 6 7 d (holdsW c p (away1 p c) 512 (hC p c) (fun r col => Vals.st1 x w p r col c))
    ∗ during 25 27 d (holdsW c p (o3 p (nb p 1 c)) 256 (hCg p c) (gath x w p))
    ∗ during 27 28 d (holdsW c p (away1 p c) 512 (hC p c) (gath x w p))
    ∗ during 28 29 d (partW c p (away1 p c) 512 (hC p c) keep3 (gath x w p))
    ∗ since 29 d (partW c p (away1 p c) 512 (hC p c) [fullShare.right.left, fullShare.right.right.left] (gath x w p))

    ∗ during 8 9 d (holdsW c p (o2 p c) 512 (hD p c) (fun r col => Vals.own x w p r col (nb p 0 c)))
    ∗ during 9 11 d (holdsW c p (o2 p c) 512 (hD p c) (fun r col => Vals.st1 x w p r col c))
    ∗ during 11 12 d (holdsW c p (away2 p c) 256 (hE p c) (fun r col => Vals.st2 x w p r col c))
    ∗ during 11 13 d (holdsW c p (o3 p c) 256 (hG p c) (fun r col => Vals.st1 x w p r col c))
    ∗ during 13 15 d (holdsW c p (o3 p c) 256 (hG p c) (fun r col => Vals.st2 x w p r col c))
    ∗ during 15 16 d (holdsW c p (o3 p c) 256 (hG p c) (gath x w p))
    ∗ during 16 17 d (partW c p (o3 p c) 256 (hG p c) [fullShare.right] (gath x w p))
    ∗ during 17 18 d (partW c p (o3 p c) 256 (hG p c) [fullShare.right.right] (gath x w p))
    ∗ during 18 21 d (partW c p (o3 p c) 256 (hG p c) [lshr] (gath x w p))
    ∗ during 20 21 d (holdsW c p (away2 p c) 256 (hE p c) (gath x w p))
    ∗ during 21 22 d (partW c p (away2 p c) 256 (hE p c) keep3 (gath x w p))
    ∗ during 22 23 d (partW c p (away2 p c) 256 (hE p c) [fullShare.right.left, fullShare.right.right.left] (gath x w p))
    ∗ since 23 d (partW c p (away2 p c) 256 (hE p c) [fullShare.right.right.left] (gath x w p))

    ∗ since 10 d (holdsR1 c p (o2 p c) (fun r col => Vals.st1 x w p r col (nb p 1 c)))
    ∗ since 14 d (holdsR2 c p (o3 p c) (fun r col => Vals.st2 x w p r col (nb p 2 c)))

    ∗ during 0 2 d (ownsW (nb p 0 c) p (sub1 p c) 512 (hA p c))
    ∗ during 0 4 d (ownsW (nb p 0 c) p (sub2 p c) 512 (hB p c))
    ∗ during 0 7 d (ownsR1 (nb p 1 c) p)
    ∗ during 0 12 d (ownsR2 (nb p 2 c) p)
    ∗ during 5 29 d (ownsW (nb p 0 c) p (away1 p c) 512 (hC p c))
    ∗ during 8 18 d (ownsW (nb p 0 c) p (o2 p c) 512 (hD p c))
    ∗ during 18 23 d (ownsW (nb p 0 c) p (away2 p c) 256 (hE p c))
    ∗ during 10 17 d (ownsW (nb p 1 c) p (o2 p c) 512 (hD p c))
    ∗ during 17 22 d (ownsW (nb p 1 c) p (away2 p c) 256 (hE p c))
    ∗ during 14 16 d (ownsW (nb p 2 c) p (o3 p c) 256 (hG p c))

    ∗ since 19 d (lentW c p (o3 p c) 256 (hG p c) fullShare.left)
    ∗ since 24 d (lentW c p (o3 p c) 256 (hG p c) fullShare.right.left)
    ∗ since 30 d (lentW c p (o3 p c) 256 (hG p c) fullShare.right.right.left)
    ∗ since 26 d (lentW c p (away2 p c) 256 (hE p c) fullShare.left)
    ∗ since 32 d (lentW c p (away2 p c) 256 (hE p c) fullShare.right.left)
    ∗ since 35 d (lentW c p (away1 p c) 512 (hC p c) fullShare.left)

    ∗ during 0 21 d (ownsOut c p (o2 p c) (by have := inb_out p 0 c; exact this))
    ∗ during 0 28 d (ownsOut c p (away1 p c) (by have := inb_out p 1 c; exact this))
    ∗ during 0 34 d (ownsOut c p (sub2 p c) (by have := inb_out p 2 c; exact this))
    ∗ during 0 37 d (ownsOut c p (sub1 p c) (by have := inb_out p 3 c; exact this))
    ∗ since 38 d (locPay x w c p 0) ∗ since 39 d (locPay x w c p 1) ∗ since 40 d (locPay x w c p 2) ∗ since 41 d (locPay x w c p 3))

def sendG (c : Dev nD) (p : Fin 3) (i : Fin 10) (ph : ℕ) : sProp 𝕄 :=
  match ph with
  | 0 => iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0)
  | 1 => iprop(cred (tallyAt (sendCell c p i) () (credOf p i)) ∗ atPos ER (sendCell c p i) 0 ∅ 0)
  | _ => atPos ER (sendCell c p i) 1 ∅ 0

def recvG (c : Dev nD) (p : Fin 3) (i : Fin 10) (ph : ℕ) : sProp 𝕄 :=
  match ph with
  | 0 => iprop(cred (tallyAt (recvCell c p i) () (credOf p i)) ∗ atPos ER (recvCell c p i) 0 ∅ 0)
  | _ => atPos ER (recvCell c p i) 1 ∅ 0

def locG (c : Dev nD) (p : Fin 3) (j : Fin 4) (ph : ℕ) : sProp 𝕄 :=
  match ph with
  | 0 => iprop(dutyTok ER (locCell c p j) 0 0 ∗ reached ER (locCell c p j) 0 ∗ atPos ER (locCell c p j) 0 ∅ 0)
  | 1 => iprop(cred (tallyAt (locCell c p j) () (credOut (rowLen p))) ∗ atPos ER (locCell c p j) 0 ∅ 0)
  | _ => atPos ER (locCell c p j) 1 ∅ 0

end Cert.KernelIdeal.Stages

end
-- ==== Proof.Views.lean ====
import proofs.«900802_g7700000000000803_dist_gemm_ar_m4096_k4096_n2048_f32_relu_v7x_i8_1_alg».proof.Proof.Regions
import Idealize.ShloMosaic.Lib.Pipeline.Value
import Idealize.ShloMosaic.Lib.ValueIdx
import Idealize.ShloMosaic.Rules.PointsTo

noncomputable section

namespace Cert.KernelIdeal.Reg

open Idealize.ShloMosaic Idealize.ShloMosaic.TcCoe Idealize.ShloMosaic.ValueIdx Cert.KernelIdeal.Spec

section Rank3

variable {W p n off wd : ℕ}

theorem Inb3.slice_lt (h : Inb3 W p n off wd) : p < 3 := by obtain ⟨h0, _, _⟩ := h; omega
theorem Inb3.row_lt (h : Inb3 W p n off wd) {r : ℕ} (hr : r < n) : r < 1368 := by obtain ⟨_, h1, _⟩ := h; omega
theorem Inb3.col_lt (h : Inb3 W p n off wd) {q : ℕ} (hq : q < wd) : off + q < W := by obtain ⟨_, _, h2⟩ := h; omega

abbrev rect3 (h : Inb3 W p n off wd) : Rect (⟨3, ![3, 1368, W]⟩ : Shape) :=
  Rect.unit (s := ⟨3, ![3, 1368, W]⟩) ![p, 0, off] ![1, n, wd] (inb3 h)

abbrev at3 (h : Inb3 W p n off wd) (r : Fin n) (q : Fin wd) : (⟨3, ![3, 1368, W]⟩ : Shape).Idx :=
  ix3 ⟨p, h.slice_lt⟩ ⟨r.val, h.row_lt r.isLt⟩ ⟨off + q.val, h.col_lt q.isLt⟩

theorem mem_rect3 (h : Inb3 W p n off wd) (i : (⟨3, ![3, 1368, W]⟩ : Shape).Idx) :
    i ∈ (rect3 h).set ↔ (i 0).val = p ∧ (i 1).val < n ∧ off ≤ (i 2).val ∧ (i 2).val < off + wd := by
  refine (Rect.mem_set_unit.trans <| Fin.forall_fin_succ.trans <| and_congr_right' Fin.forall_fin_two).trans ?_
  show (p ≤ (i 0).val ∧ (i 0).val < p + 1) ∧ (0 ≤ (i 1).val ∧ (i 1).val < 0 + n) ∧
    off ≤ (i 2).val ∧ (i 2).val < off + wd ↔ _
  omega

theorem emb_rect3 (h : Inb3 W p n off wd) (y : (⟨3, ![1, n, wd]⟩ : Shape).Idx) :
    (rect3 h).emb y = at3 h (y 1) (y 2) := by
  funext a; apply Fin.ext
  match a with
  | ⟨0, _⟩ =>
    show p + 1 * (y 0).val = p
    have : (y 0).val < 1 := (y 0).isLt
    omega
  | ⟨1, _⟩ => show 0 + 1 * (y 1).val = (y 1).val; omega
  | ⟨2, _⟩ => show off + 1 * (y 2).val = off + (y 2).val; omega

theorem squeeze_idx (hn : (⟨2, ![n, wd]⟩ : Shape).numel = (⟨3, ![1, n, wd]⟩ : Shape).numel)
    (y : (⟨2, ![n, wd]⟩ : Shape).Idx) :
    Shape.reshapeEquiv hn y = ix3 ⟨0, Nat.one_pos⟩ (y 0) (y 1) := by
  rw [Shape.reshapeEquiv_cons_one (n := 2) (d := ![n, wd]) hn y]
  funext a
  match a with
  | ⟨0, _⟩ => rfl
  | ⟨1, _⟩ => rfl
  | ⟨2, _⟩ => rfl

end Rank3

section View3

variable {W p n off wd : ℕ} {κ : Kind} {sp : Space} {e : EltTy} {Val : EltTy → Type}

theorem read_slice3 (v : View sig κ sp ⟨3, ![3, 1368, W]⟩ e) (h : Inb3 W p n off wd) (f : v.ty.Contents Val)
    (y : (⟨3, ![1, n, wd]⟩ : Shape).Idx) :
    (v.slice (rect3 h)).read Val f y = v.read Val f (at3 h (y 1) (y 2)) := by
  rw [← emb_rect3 h y]; rfl

theorem read_squeeze3 (v : View sig κ sp ⟨3, ![3, 1368, W]⟩ e) (h : Inb3 W p n off wd)
    (hn : (⟨2, ![n, wd]⟩ : Shape).numel = (⟨3, ![1, n, wd]⟩ : Shape).numel) (f : v.ty.Contents Val)
    (y : (⟨2, ![n, wd]⟩ : Shape).Idx) :
    ((v.slice (rect3 h)).reshape ⟨2, ![n, wd]⟩ hn).read Val f y = v.read Val f (at3 h (y 0) (y 1)) :=
  congrArg (v.read Val f) ((congrArg _ (squeeze_idx hn y)).trans (emb_rect3 h _))

end View3

section Local3

variable {W p n off wd : ℕ}

abbrev loc2 (x : (⟨3, ![3, 1368, W]⟩ : Shape).Idx) (h1 : (x 1).val < n) (h2 : off ≤ (x 2).val)
    (h3 : (x 2).val < off + wd) : (⟨2, ![n, wd]⟩ : Shape).Idx :=
  ix2 ⟨(x 1).val, h1⟩ ⟨(x 2).val - off, by omega⟩

theorem at3_sub (h : Inb3 W p n off wd) (x : (⟨3, ![3, 1368, W]⟩ : Shape).Idx) (h0 : (x 0).val = p)
    (h1 : (x 1).val < n) (h2 : off ≤ (x 2).val) (h3 : (x 2).val < off + wd) :
    at3 h ⟨(x 1).val, h1⟩ ⟨(x 2).val - off, by omega⟩ = x := by
  funext a; apply Fin.ext
  match a with
  | ⟨0, _⟩ => exact h0.symm
  | ⟨1, _⟩ => rfl
  | ⟨2, _⟩ => show off + ((x 2).val - off) = (x 2).val; omega

end Local3

section Write3

variable {W p n off wd : ℕ} {κ : Kind} {sp : Space} {e : EltTy} {Val : EltTy → Type}

theorem write_squeeze3_in (v : View sig κ sp ⟨3, ![3, 1368, W]⟩ e) (h : Inb3 W p n off wd)
    (hn : (⟨2, ![n, wd]⟩ : Shape).numel = (⟨3, ![1, n, wd]⟩ : Shape).numel) (f : v.ty.Contents Val)
    (w : (⟨2, ![n, wd]⟩ : Shape).Idx → Val e) (x : (⟨3, ![3, 1368, W]⟩ : Shape).Idx) (h0 : (x 0).val = p)
    (h1 : (x 1).val < n) (h2 : off ≤ (x 2).val) (h3 : (x 2).val < off + wd) :
    v.read Val (((v.slice (rect3 h)).reshape ⟨2, ![n, wd]⟩ hn).write Val f w Finset.univ) x = w (loc2 x h1 h2 h3) :=
  ((congrArg _ (at3_sub h x h0 h1 h2 h3).symm).trans (read_squeeze3 v h hn _ (loc2 x h1 h2 h3)).symm).trans
    (View.read_write_of_mem (v := (v.slice (rect3 h)).reshape ⟨2, ![n, wd]⟩ hn) f w (Finset.mem_univ _))

end Write3

section Cut3

variable {W p n off wd p' n' off' wd' w₁ w₂ : ℕ}

theorem Inb3.left (h : Inb3 W p n off (w₁ + w₂)) : Inb3 W p n off w₁ := by
  obtain ⟨h0, h1, h2⟩ := h; exact ⟨h0, h1, by omega⟩
theorem Inb3.right (h : Inb3 W p n off (w₁ + w₂)) : Inb3 W p n (off + w₁) w₂ := by
  obtain ⟨h0, h1, h2⟩ := h; exact ⟨h0, h1, by omega⟩

theorem rect3_set_add (h : Inb3 W p n off (w₁ + w₂)) :
    (rect3 h).set = (rect3 h.left).set ∪ (rect3 h.right).set := by
  ext i
  rw [Finset.mem_union, mem_rect3, mem_rect3, mem_rect3]
  omega

theorem rect3_disjoint (h : Inb3 W p n off wd) (h' : Inb3 W p' n' off' wd')
    (hd : p ≠ p' ∨ off + wd ≤ off' ∨ off' + wd' ≤ off) : Disjoint (rect3 h).set (rect3 h').set := by
  rw [Finset.disjoint_left]
  intro i hi hi'
  rw [mem_rect3] at hi hi'
  omega

end Cut3

section Scratch

open Idealize.SL Idealize.SL.RA Idealize.SL.ProofMode
open Idealize.SL.BI (sProp)
open scoped Idealize.SL.BI
open Idealize.SL.BI.BIBase Idealize.SL.BI.Laws

open Lean in
set_option hygiene false in

local macro "scratch_views " pre:ident M:ident R:ident G:ident b:ident S:ident Wd:num : command => do
  let nm (s : String) : Ident := mkIdent (Name.mkSimple (s.replace "□" pre.getId.toString))
  `(

  theorem $(nm "□Reg_eq") (c : Dev nD) {p n off wd : ℕ} (h : Inb3 $Wd p n off wd) :
      ($G c p n off wd h : Finset (Shape.Idx $S)) = (rect3 h).set := by
    unfold $G; exact View.set_slice_whole $b _

  theorem $(nm "mem_□Reg") (c : Dev nD) {p n off wd : ℕ} (h : Inb3 $Wd p n off wd) (i : Shape.Idx $S) :
      i ∈ $G c p n off wd h ↔ (i 0).val = p ∧ (i 1).val < n ∧ off ≤ (i 2).val ∧ (i 2).val < off + wd := by
    rw [$(nm "□Reg_eq"):ident]; exact mem_rect3 h i

  theorem $(nm "set_□_squeeze") (c : Dev nD) {p n off wd : ℕ} (h : Inb3 $Wd p n off wd)
      (hsq : (⟨3, ![1, n, wd]⟩ : Shape).Squeezes ⟨2, ![n, wd]⟩) :
      ((Memref.slice $M ($R p n off wd h) (fun _ => rfl)).squeeze ⟨2, ![n, wd]⟩ hsq).view.set = $G c p n off wd h :=
    View.set_reshape _ _

  theorem $(nm "read_□_access") (c : Dev nD) {p n off wd : ℕ} {Val : EltTy → Type} (h : Inb3 $Wd p n off wd)
      (f : Buf Val ((Memref.access $M ($R p n off wd h)).loc (c : Thread nD τ)))
      (y : (⟨3, ![1, n, wd]⟩ : Shape).Idx) :
      (Memref.access $M ($R p n off wd h)).read Val f y = f (at3 h (y 1) (y 2)) :=
    read_slice3 (Memref.view $M) h f y

  theorem $(nm "read_□_squeeze") (c : Dev nD) {p n off wd : ℕ} {Val : EltTy → Type} (h : Inb3 $Wd p n off wd)
      (hsq : (⟨3, ![1, n, wd]⟩ : Shape).Squeezes ⟨2, ![n, wd]⟩)
      (f : Buf Val ((Memref.access $M ($R p n off wd h)).loc (c : Thread nD τ)))
      (y : (⟨2, ![n, wd]⟩ : Shape).Idx) :
      ((Memref.slice $M ($R p n off wd h) (fun _ => rfl)).squeeze ⟨2, ![n, wd]⟩ hsq).view.read Val f y
        = f (at3 h (y 0) (y 1)) :=
    read_squeeze3 (Memref.view $M) h hsq.numel_eq f y

  theorem $(nm "□Reg_add") (c : Dev nD) {p n off w₁ w₂ : ℕ} (h : Inb3 $Wd p n off (w₁ + w₂)) :
      ($G c p n off (w₁ + w₂) h : Finset (Shape.Idx $S))
        = $G c p n off w₁ h.left ∪ $G c p n (off + w₁) w₂ h.right := by
    rw [$(nm "□Reg_eq"):ident, $(nm "□Reg_eq"):ident, $(nm "□Reg_eq"):ident]; exact rect3_set_add h

  theorem $(nm "□Reg_disjoint") (c : Dev nD) {p n off wd p' n' off' wd' : ℕ} (h : Inb3 $Wd p n off wd)
      (h' : Inb3 $Wd p' n' off' wd') (hd : p ≠ p' ∨ off + wd ≤ off' ∨ off' + wd' ≤ off) :
      Disjoint ($G c p n off wd h : Finset (Shape.Idx $S)) ($G c p' n' off' wd' h') := by
    rw [$(nm "□Reg_eq"):ident, $(nm "□Reg_eq"):ident]; exact rect3_disjoint h h' hd

  theorem $(nm "□Reg_disjoint_add") (c : Dev nD) {p n off w₁ w₂ : ℕ} (h : Inb3 $Wd p n off (w₁ + w₂)) :
      Disjoint ($G c p n off w₁ h.left : Finset (Shape.Idx $S)) ($G c p n (off + w₁) w₂ h.right) :=
    $(nm "□Reg_disjoint") c h.left h.right (Or.inr (Or.inl (Nat.le_refl _)))

  theorem $(nm "pointsTo_□_add") {Ix : Type} [DecidableEq Ix] {Val : EltTy → Type} {Name : Type} [DecidableEq Name]
      {U : Type} [URA U] {Lvl : Type} (c : Dev nD) {p n off w₁ w₂ : ℕ} (h : Inb3 $Wd p n off (w₁ + w₂))
      (q : PosShare TreeShare) (f : Buf Val ((c : Thread nD τ).loc $b)) :
      (((c : Thread nD τ).loc $b) ↦[$G c p n off (w₁ + w₂) h]{q} f : sProp (MT nD τ sig Ix Val Name U Lvl))
        ⊣⊢ iprop((((c : Thread nD τ).loc $b) ↦[$G c p n off w₁ h.left]{q} f)
            ∗ ((c : Thread nD τ).loc $b) ↦[$G c p n (off + w₁) w₂ h.right]{q} f) := by
    rw [$(nm "□Reg_add") c h]; exact pointsTo_union ($(nm "□Reg_disjoint_add") c h)
  )

scratch_views wb wbM wbRect wbReg cc0_scratch0 S3x1368x2048 2048
scratch_views r1 r1M r1Rect r1Reg cc0_scratch1 S3x1368x512 512
scratch_views r2 r2M r2Rect r2Reg cc0_scratch2 S3x1368x256 256

end Scratch

section Rank2

variable {r0 n off wd : ℕ}

abbrev rect2 (h : Inb2 r0 n off wd) : Rect (⟨2, ![4096, 2048]⟩ : Shape) :=
  Rect.unit (s := ⟨2, ![4096, 2048]⟩) ![r0, off] ![n, wd] (inb2 h)

theorem mem_rect2 (h : Inb2 r0 n off wd) (i : (⟨2, ![4096, 2048]⟩ : Shape).Idx) :
    i ∈ (rect2 h).set ↔ r0 ≤ (i 0).val ∧ (i 0).val < r0 + n ∧ off ≤ (i 1).val ∧ (i 1).val < off + wd :=
  Rect.mem_set_unit.trans (Fin.forall_fin_two.trans and_assoc)

end Rank2

section Result

variable (c : Dev nD) {r0 n off wd : ℕ}

theorem mem_outReg (h : Inb2 r0 n off wd) (i : S4096x2048.Idx) :
    i ∈ outReg c r0 n off wd h ↔ r0 ≤ (i 0).val ∧ (i 0).val < r0 + n ∧ off ≤ (i 1).val ∧ (i 1).val < off + wd := by
  unfold outReg
  rw [show (outM.access (outRect r0 n off wd h)).set = (rect2 h).set from View.set_slice_whole main_v1 _]
  exact mem_rect2 h i

end Result

end Cert.KernelIdeal.Reg

end
-- ==== Proof.Pieces.lean ====
import proofs.«900802_g7700000000000803_dist_gemm_ar_m4096_k4096_n2048_f32_relu_v7x_i8_1_alg».proof.Proof.Stages
import proofs.«900802_g7700000000000803_dist_gemm_ar_m4096_k4096_n2048_f32_relu_v7x_i8_1_alg».proof.Proof.Views

noncomputable section

namespace Cert.KernelIdeal.Pieces

open Cert.KernelIdeal Cert.KernelIdeal.Gen Cert.KernelIdeal.Spec Cert.KernelIdeal.Reg Cert.KernelIdeal.Proto Cert.KernelIdeal.Stages

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

theorem holdsW_congr (c : Dev nD) (p : Fin 3) {off off' wd wd' : ℕ} (e : off = off') (ew : wd = wd')
    (h : Inb3 2048 p.val (rowLen p) off wd) (h' : Inb3 2048 p.val (rowLen p) off' wd') (val : ℕ → ℕ → F .f32) :
    (holdsW c p off wd h val : sProp 𝕄) = holdsW c p off' wd' h' val := by subst e; subst ew; rfl
theorem ownsW_congr (c : Dev nD) (p : Fin 3) {off off' wd wd' : ℕ} (e : off = off') (ew : wd = wd')
    (h : Inb3 2048 p.val (rowLen p) off wd) (h' : Inb3 2048 p.val (rowLen p) off' wd') :
    (ownsW c p off wd h : sProp 𝕄) = ownsW c p off' wd' h' := by subst e; subst ew; rfl
theorem srcOff0_peer (p : Fin 3) (c : Dev nD) : srcOff p 0 (peer p 0 c) = away1 p c := by revert p c; decide
theorem srcOff1_peer (p : Fin 3) (c : Dev nD) : srcOff p 1 (peer p 1 c) = o2 p c := by revert p c; decide
theorem srcOff2_peer (p : Fin 3) (c : Dev nD) : srcOff p 2 (peer p 2 c) = o2 p c := by revert p c; decide
theorem srcOff3_peer (p : Fin 3) (c : Dev nD) : srcOff p 3 (peer p 3 c) = o3 p c := by revert p c; decide

theorem holdsW_land0 (c : Dev nD) (p : Fin 3) (val : ℕ → ℕ → F .f32) :
    (holdsW c p (srcOff p 0 (peer p 0 c)) 512 (inb_src p 0 (peer p 0 c)) val : sProp 𝕄) = holdsW c p (away1 p c) 512 (hC p c) val :=
  holdsW_congr c p (srcOff0_peer p c) rfl _ _ val
theorem holdsW_land1 (c : Dev nD) (p : Fin 3) (val : ℕ → ℕ → F .f32) :
    (holdsW c p (srcOff p 1 (peer p 1 c)) 512 (inb_src p 1 (peer p 1 c)) val : sProp 𝕄) = holdsW c p (o2 p c) 512 (hD p c) val :=
  holdsW_congr c p (srcOff1_peer p c) rfl _ _ val
theorem holdsR1_land2 (c : Dev nD) (p : Fin 3) (val : ℕ → ℕ → F .f32) :
    (holdsR1 c p (srcOff p 2 (peer p 2 c)) val : sProp 𝕄) = holdsR1 c p (o2 p c) val := by rw [srcOff2_peer]
theorem holdsR2_land3 (c : Dev nD) (p : Fin 3) (val : ℕ → ℕ → F .f32) :
    (holdsR2 c p (srcOff p 3 (peer p 3 c)) val : sProp 𝕄) = holdsR2 c p (o3 p c) val := by rw [srcOff3_peer]
theorem holdsW_land4 (c : Dev nD) (p : Fin 3) (val : ℕ → ℕ → F .f32) :
    (holdsW c p (srcOff p 4 (peer p 4 c)) (wid 4) (inb_src p 4 (peer p 4 c)) val : sProp 𝕄) = holdsW c p (away2 p c) 256 (hE p c) val :=
  holdsW_congr c p (by revert p c; decide) rfl _ _ val
theorem holdsW_land5 (c : Dev nD) (p : Fin 3) (val : ℕ → ℕ → F .f32) :
    (holdsW c p (srcOff p 5 (peer p 5 c)) (wid 5) (inb_src p 5 (peer p 5 c)) val : sProp 𝕄) = holdsW c p (o3 p (nb p 1 c)) 256 (hCg p c) val :=
  holdsW_congr c p (by revert p c; decide) rfl _ _ val
theorem holdsW_land6 (c : Dev nD) (p : Fin 3) (val : ℕ → ℕ → F .f32) :
    (holdsW c p (srcOff p 6 (peer p 6 c)) (wid 6) (inb_src p 6 (peer p 6 c)) val : sProp 𝕄) = holdsW c p (o3 p (nb p 0 c)) 256 (hBg p c) val :=
  holdsW_congr c p (by revert p c; decide) rfl _ _ val
theorem holdsW_land7 (c : Dev nD) (p : Fin 3) (val : ℕ → ℕ → F .f32) :
    (holdsW c p (srcOff p 7 (peer p 7 c)) (wid 7) (inb_src p 7 (peer p 7 c)) val : sProp 𝕄) = holdsW c p (away2 p (nb p 1 c)) 256 (hCe p c) val :=
  holdsW_congr c p (by revert p c; decide) rfl _ _ val
theorem holdsW_land8 (c : Dev nD) (p : Fin 3) (val : ℕ → ℕ → F .f32) :
    (holdsW c p (srcOff p 8 (peer p 8 c)) (wid 8) (inb_src p 8 (peer p 8 c)) val : sProp 𝕄) = holdsW c p (away2 p (nb p 0 c)) 256 (hBe p c) val :=
  holdsW_congr c p (by revert p c; decide) rfl _ _ val
theorem holdsW_land9 (c : Dev nD) (p : Fin 3) (val : ℕ → ℕ → F .f32) :
    (holdsW c p (srcOff p 9 (peer p 9 c)) (wid 9) (inb_src p 9 (peer p 9 c)) val : sProp 𝕄) = holdsW c p (sub1 p c) 512 (hA p c) val :=
  holdsW_congr c p (by revert p c; decide) rfl _ _ val

theorem ownsW_land0 (c : Dev nD) (p : Fin 3) :
    (ownsW (peer p 0 c) p (srcOff p 0 (peer p 0 c)) 512 (inb_src p 0 (peer p 0 c)) : sProp 𝕄) = ownsW (nb p 0 c) p (away1 p c) 512 (hC p c) :=
  ownsW_congr _ p (srcOff0_peer p c) rfl _ _
theorem ownsW_land1 (c : Dev nD) (p : Fin 3) :
    (ownsW (peer p 1 c) p (srcOff p 1 (peer p 1 c)) 512 (inb_src p 1 (peer p 1 c)) : sProp 𝕄) = ownsW (nb p 0 c) p (o2 p c) 512 (hD p c) :=
  ownsW_congr _ p (srcOff1_peer p c) rfl _ _
theorem ownsW_land2 (c : Dev nD) (p : Fin 3) :
    (ownsW (peer p 2 c) p (srcOff p 2 (peer p 2 c)) 512 (inb_src p 2 (peer p 2 c)) : sProp 𝕄) = ownsW (nb p 1 c) p (o2 p c) 512 (hD p c) :=
  ownsW_congr _ p (srcOff2_peer p c) rfl _ _
theorem ownsW_land3 (c : Dev nD) (p : Fin 3) :
    (ownsW (peer p 3 c) p (srcOff p 3 (peer p 3 c)) 256 (inb_src p 3 (peer p 3 c)) : sProp 𝕄) = ownsW (nb p 2 c) p (o3 p c) 256 (hG p c) :=
  ownsW_congr _ p (srcOff3_peer p c) rfl _ _

section Cut
variable (c : Dev nD) (p : Fin 3) {off wd w₁ w₂ : ℕ}

theorem wfact_iff (h : Inb3 2048 p.val (rowLen p) off wd) (val : ℕ → ℕ → F .f32)
    (f : Buf (Elt F) ((wbM.access (wbRect p.val (rowLen p) off wd h)).loc (c : Thread nD τ))) :
    (∀ y : (⟨3, ![1, rowLen p, wd]⟩ : Shape).Idx,
        (wbM.access (wbRect p.val (rowLen p) off wd h)).read (Elt F) f y = val (y 1).val (off + (y 2).val))
      ↔ ∀ (r : Fin (rowLen p)) (q : Fin wd), f (at3 h r q) = val r.val (off + q.val) := by
  constructor
  · intro H r q
    have := H (ix3 ⟨0, Nat.one_pos⟩ r q)
    rwa [read_wb_access c h f] at this
  · intro H y
    rw [read_wb_access c h f]
    exact H (y 1) (y 2)

theorem at3_right (h : Inb3 2048 p.val (rowLen p) off (w₁ + w₂)) (r : Fin (rowLen p)) (q : Fin w₂) :
    at3 h.right r q = at3 h r ⟨w₁ + q.val, by have := q.isLt; omega⟩ := by
  funext a; apply Fin.ext
  match a with
  | ⟨0, _⟩ => rfl
  | ⟨1, _⟩ => rfl
  | ⟨2, _⟩ => show off + w₁ + q.val = off + (w₁ + q.val); omega

theorem holdsW_add (h : Inb3 2048 p.val (rowLen p) off (w₁ + w₂)) (val : ℕ → ℕ → F .f32) :
    (holdsW c p off (w₁ + w₂) h val : sProp 𝕄)
      ⊣⊢ iprop(holdsW c p off w₁ h.left val ∗ holdsW c p (off + w₁) w₂ h.right val) := by
  unfold holdsW
  constructor
  · iintro ⟨%f, Hf, %hf⟩
    have H := (wfact_iff c p h val f).1 hf
    ihave Hs := (pointsTo_wb_add c h fullShare f).1 $$ Hf
    icases Hs with ⟨H1, H2⟩
    isplitl [H1]
    · iexists f
      iframe H1
      ipureintro
      exact (wfact_iff c p h.left val f).2 fun r q => H r ⟨q.val, by have := q.isLt; omega⟩
    · iexists f
      iframe H2
      ipureintro
      refine (wfact_iff c p h.right val f).2 fun r q => ?_
      rw [at3_right p h r q, H, Nat.add_assoc]
  · iintro ⟨⟨%f₁, H1, %hf₁⟩, ⟨%f₂, H2, %hf₂⟩⟩
    have G1 := (wfact_iff c p h.left val f₁).1 hf₁
    have G2 := (wfact_iff c p h.right val f₂).1 hf₂
    ihave Hj := (pointsTo_join (wbReg_disjoint_add c h)) $$ [H1 H2]
    · iframe H1 H2
    iexists ((wbReg c p.val (rowLen p) (off + w₁) w₂ h.right).piecewise f₂ f₁)
    isplitl [Hj]
    · rw [wbReg_add c h]; iexact Hj
    · ipureintro
      refine (wfact_iff c p h val _).2 fun r q => ?_
      by_cases hq : q.val < w₁
      · have hn : at3 h r q ∉ wbReg c p.val (rowLen p) (off + w₁) w₂ h.right := by
          rw [mem_wbReg]; intro hm
          have h2 : off + w₁ ≤ off + q.val := hm.2.2.1
          omega
        rw [Finset.piecewise_eq_of_notMem _ _ _ hn]
        exact G1 r ⟨q.val, hq⟩
      · have hm : at3 h r q ∈ wbReg c p.val (rowLen p) (off + w₁) w₂ h.right := by
          rw [mem_wbReg]
          refine ⟨rfl, r.isLt, ?_, ?_⟩
          · show off + w₁ ≤ off + q.val; omega
          · show off + q.val < off + w₁ + w₂; have := q.isLt; omega
        rw [Finset.piecewise_eq_of_mem _ _ _ hm]
        have e : at3 h r q = at3 h.right r ⟨q.val - w₁, by have := q.isLt; omega⟩ := by
          rw [at3_right]; exact congrArg (at3 h r) (Fin.ext (by show q.val = w₁ + (q.val - w₁); omega))
        rw [e, G2]
        exact congrArg (val r.val) (by show off + w₁ + (q.val - w₁) = off + q.val; omega)

theorem ownsW_add (h : Inb3 2048 p.val (rowLen p) off (w₁ + w₂)) :
    (ownsW c p off (w₁ + w₂) h : sProp 𝕄)
      ⊣⊢ iprop(ownsW c p off w₁ h.left ∗ ownsW c p (off + w₁) w₂ h.right) := by
  unfold ownsW
  constructor
  · iintro ⟨%f, Hf⟩
    ihave Hs := (pointsTo_wb_add c h fullShare f).1 $$ Hf
    icases Hs with ⟨H1, H2⟩
    isplitl [H1]
    · iexists f; iexact H1
    · iexists f; iexact H2
  · iintro ⟨⟨%f₁, H1⟩, ⟨%f₂, H2⟩⟩
    ihave Hj := (pointsTo_join (wbReg_disjoint_add c h)) $$ [H1 H2]
    · iframe H1 H2
    iexists ((wbReg c p.val (rowLen p) (off + w₁) w₂ h.right).piecewise f₂ f₁)
    rw [wbReg_add c h]; iexact Hj

end Cut

section Halves
variable (c : Dev nD) (p : Fin 3)

theorem holdsW_halves {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256)
    (val : ℕ → ℕ → F .f32) :
    (holdsW c p off 512 h val : sProp 𝕄) ⊣⊢ iprop(holdsW c p a 256 ha val ∗ holdsW c p b 256 hb val) := by
  have base := holdsW_add c p (w₁ := 256) (w₂ := 256) h val
  rcases hab with ⟨rfl, rfl⟩ | ⟨rfl, rfl⟩
  · exact base
  · exact ⟨base.1.trans sep_comm.1, sep_comm.1.trans base.2⟩

theorem ownsW_halves {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256) :
    (ownsW c p off 512 h : sProp 𝕄) ⊣⊢ iprop(ownsW c p a 256 ha ∗ ownsW c p b 256 hb) := by
  have base := ownsW_add (F := F) c p (w₁ := 256) (w₂ := 256) h
  rcases hab with ⟨rfl, rfl⟩ | ⟨rfl, rfl⟩
  · exact base
  · exact ⟨base.1.trans sep_comm.1, sep_comm.1.trans base.2⟩

theorem halvesD (p : Fin 3) (c : Dev nD) :
    (away2 p c = o2 p c ∧ o3 p c = o2 p c + 256) ∨ (o3 p c = o2 p c ∧ away2 p c = o2 p c + 256) := by revert p c; decide
theorem halvesB (p : Fin 3) (c : Dev nD) :
    (o3 p (nb p 0 c) = sub2 p c ∧ away2 p (nb p 0 c) = sub2 p c + 256) ∨ (away2 p (nb p 0 c) = sub2 p c ∧ o3 p (nb p 0 c) = sub2 p c + 256) := by
  revert p c; decide
theorem halvesC (p : Fin 3) (c : Dev nD) :
    (o3 p (nb p 1 c) = away1 p c ∧ away2 p (nb p 1 c) = away1 p c + 256) ∨ (away2 p (nb p 1 c) = away1 p c ∧ o3 p (nb p 1 c) = away1 p c + 256) := by
  revert p c; decide

theorem holdsW_D (val : ℕ → ℕ → F .f32) :
    (holdsW c p (o2 p c) 512 (hD p c) val : sProp 𝕄)
      ⊣⊢ iprop(holdsW c p (away2 p c) 256 (hE p c) val ∗ holdsW c p (o3 p c) 256 (hG p c) val) :=
  holdsW_halves c p (halvesD p c) _ _ _ val

theorem ownsW_D (d : Dev nD) :
    (ownsW d p (o2 p c) 512 (hD p c) : sProp 𝕄)
      ⊣⊢ iprop(ownsW d p (away2 p c) 256 (hE p c) ∗ ownsW d p (o3 p c) 256 (hG p c)) :=
  ownsW_halves d p (halvesD p c) _ _ _

theorem holdsW_B (val : ℕ → ℕ → F .f32) :
    (holdsW c p (sub2 p c) 512 (hB p c) val : sProp 𝕄)
      ⊣⊢ iprop(holdsW c p (o3 p (nb p 0 c)) 256 (hBg p c) val ∗ holdsW c p (away2 p (nb p 0 c)) 256 (hBe p c) val) :=
  holdsW_halves c p (halvesB p c) _ _ _ val

theorem holdsW_C (val : ℕ → ℕ → F .f32) :
    (holdsW c p (away1 p c) 512 (hC p c) val : sProp 𝕄)
      ⊣⊢ iprop(holdsW c p (o3 p (nb p 1 c)) 256 (hCg p c) val ∗ holdsW c p (away2 p (nb p 1 c)) 256 (hCe p c) val) :=
  holdsW_halves c p (halvesC p c) _ _ _ val

end Halves

section Shares
variable (c : Dev nD) (p : Fin 3) {off wd : ℕ} (h : Inb3 2048 p.val (rowLen p) off wd)

theorem holdsW_partW (val : ℕ → ℕ → F .f32) :
    (holdsW c p off wd h val : sProp 𝕄) ⊣⊢ partW c p off wd h [fullShare] val := by
  unfold holdsW partW
  simp only [List.foldr_cons, List.foldr_nil]
  constructor
  · iintro ⟨%f, Hf, %hf⟩
    iexists f
    iframe Hf
    ipureintro; exact hf
  · iintro ⟨%f, ⟨Hf, -⟩, %hf⟩
    iexists f
    iframe Hf
    ipureintro; exact hf

theorem partW_share (q : PosShare TreeShare) (qs : List (PosShare TreeShare)) (val : ℕ → ℕ → F .f32) :
    (partW c p off wd h (q :: qs) val : sProp 𝕄) ⊣⊢ partW c p off wd h (q.left :: q.right :: qs) val := by
  unfold partW
  simp only [List.foldr_cons]
  constructor
  · iintro ⟨%f, ⟨Hq, Hr⟩, %hf⟩
    ihave Hq' := (pointsTo_share (PosShare.mem_left_op_right q)).1 $$ Hq
    icases Hq' with ⟨Hl, Hrr⟩
    iexists f
    iframe Hl Hrr Hr
    ipureintro; exact hf
  · iintro ⟨%f, ⟨Hl, Hrr, Hr⟩, %hf⟩
    iexists f
    isplitl [Hl Hrr Hr]
    · isplitl [Hl Hrr]
      · iapply (pointsTo_share (PosShare.mem_left_op_right q)).2
        iframe Hl Hrr
      · iexact Hr
    · ipureintro; exact hf

theorem partW_cons (q : PosShare TreeShare) (qs : List (PosShare TreeShare)) (val : ℕ → ℕ → F .f32) :
    (partW c p off wd h (q :: qs) val : sProp 𝕄)
      ⊣⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{q} f)
          ∗ (qs.foldr (fun q A => iprop((((wbM.access (wbRect p.val (rowLen p) off wd h)).loc (c : Thread nD τ)) ↦[wbReg c p.val (rowLen p) off wd h]{q} f) ∗ A)) iprop(emp))
          ∗ ⌜∀ y : (⟨3, ![1, rowLen p, wd]⟩ : Shape).Idx, (wbM.access (wbRect p.val (rowLen p) off wd h)).read (Elt F) f y = val (y 1).val (off + (y 2).val)⌝) := by
  unfold partW
  simp only [List.foldr_cons]
  constructor
  · iintro ⟨%f, ⟨Hq, Hr⟩, %hf⟩
    iexists f
    iframe Hq Hr
    ipureintro; exact hf
  · iintro ⟨%f, Hq, Hr, %hf⟩
    iexists f
    iframe Hq Hr
    ipureintro; exact hf

end Shares

theorem bigSep_fin3 (Φ : Fin 3 → sProp 𝕄) : (bigSep Finset.univ Φ : sProp 𝕄) = iprop(Φ 0 ∗ Φ 1 ∗ Φ 2) :=
  bigSep_univ_eq_bigSepL [0, 1, 2] (by decide) (by decide) Φ
theorem bigSep_fin4 (Φ : Fin 4 → sProp 𝕄) : (bigSep Finset.univ Φ : sProp 𝕄) = iprop(Φ 0 ∗ Φ 1 ∗ Φ 2 ∗ Φ 3) :=
  bigSep_univ_eq_bigSepL [0, 1, 2, 3] (by decide) (by decide) Φ

section Out
variable (c : Dev nD)

theorem row_lt : ∀ (p : Fin 3) (r : ℕ), r < rowLen p → rowStart p + r < 4096
  | 0, r, hr => by have h : r < 1368 := hr; show 0 + r < 4096; omega
  | 1, r, hr => by have h : r < 1368 := hr; show 1368 + r < 4096; omega
  | 2, r, hr => by have h : r < 1360 := hr; show 2736 + r < 4096; omega

theorem mem_outReg {r0 n off wd : ℕ} (h : Inb2 r0 n off wd) (i : S4096x2048.Idx) :
    i ∈ outReg c r0 n off wd h ↔ r0 ≤ (i 0).val ∧ (i 0).val < r0 + n ∧ off ≤ (i 1).val ∧ (i 1).val < off + wd := by
  unfold outReg
  rw [show (outM.access (outRect r0 n off wd h)).set = (outRect r0 n off wd h).set from View.set_slice_whole main_v1 _]
  unfold outRect
  rw [Rect.mem_set_unit]
  exact ⟨fun H => ⟨(H 0).1, (H 0).2, (H 1).1, (H 1).2⟩, fun ⟨a0, a1, b0, b1⟩ a =>
    match a with
    | ⟨0, _⟩ => ⟨a0, a1⟩
    | ⟨1, _⟩ => ⟨b0, b1⟩⟩

theorem read_out_access {r0 n off wd : ℕ} (h : Inb2 r0 n off wd)
    (f : Buf (Elt F) ((outM.access (outRect r0 n off wd h)).loc (c : Thread nD τ))) (y : (⟨2, ![n, wd]⟩ : Shape).Idx) :
    (outM.access (outRect r0 n off wd h)).read (Elt F) f y
      = f (ix2 (⟨r0 + (y 0).val, by have := (y 0).isLt; have hh : (y 0).val < n := this; obtain ⟨h0, _⟩ := h; omega⟩ : Fin 4096)
            (⟨off + (y 1).val, by have := (y 1).isLt; have hh : (y 1).val < wd := this; obtain ⟨_, h1⟩ := h; omega⟩ : Fin 2048)) := by
  show f ((outRect r0 n off wd h).emb y) = _
  refine congrArg f (funext fun a => Fin.ext ?_)
  match a with
  | ⟨0, _⟩ => show r0 + 1 * (y 0).val = r0 + (y 0).val; omega
  | ⟨1, _⟩ => show off + 1 * (y 1).val = off + (y 1).val; omega

theorem rows_sep (p p' : Fin 3) (hp : p ≠ p') :
    rowStart p + rowLen p ≤ rowStart p' ∨ rowStart p' + rowLen p' ≤ rowStart p := by revert p p'; decide
theorem cols_sep (p : Fin 3) (c : Dev nD) (j j' : Fin 4) (hj : j ≠ j') :
    locOff p j c + 512 ≤ locOff p j' c ∨ locOff p j' c + 512 ≤ locOff p j c := by revert p c j j'; decide
theorem cols_cover (p : Fin 3) (c : Dev nD) (col : ℕ) (hc : col < 2048) :
    ∃ j : Fin 4, locOff p j c ≤ col ∧ col < locOff p j c + 512 := by
  obtain ⟨j, hj⟩ := (by decide : ∀ (p : Fin 3) (c : Dev nD) (t : Fin 4), ∃ j : Fin 4, locOff p j c = 512 * t.val) p c ⟨col / 512, by omega⟩
  exact ⟨j, by rw [hj]; show 512 * (col / 512) ≤ col; omega, by rw [hj]; show col < 512 * (col / 512) + 512; omega⟩
theorem rows_cover (r : ℕ) (hr : r < 4096) : ∃ p : Fin 3, rowStart p ≤ r ∧ r < rowStart p + rowLen p := by
  by_cases h1 : r < 1368
  · exact ⟨0, Nat.zero_le _, by show r < 0 + 1368; omega⟩
  · by_cases h2 : r < 2736
    · exact ⟨1, by show 1368 ≤ r; omega, by show r < 1368 + 1368; omega⟩
    · exact ⟨2, by show 2736 ≤ r; omega, by show r < 2736 + 1360; omega⟩

abbrev outPiece (pj : Fin 3 × Fin 4) : Finset (Idx ((c : Thread nD τ).loc main_v1)) :=
  outReg c (rowStart pj.1) (rowLen pj.1) (locOff pj.1 pj.2 c) 512 (inb_out pj.1 pj.2 c)

theorem mem_outPiece (pj : Fin 3 × Fin 4) (i : S4096x2048.Idx) :
    i ∈ outPiece c pj ↔ rowStart pj.1 ≤ (i 0).val ∧ (i 0).val < rowStart pj.1 + rowLen pj.1
      ∧ locOff pj.1 pj.2 c ≤ (i 1).val ∧ (i 1).val < locOff pj.1 pj.2 c + 512 := mem_outReg c _ i

theorem outPiece_disjoint (pj pj' : Fin 3 × Fin 4) (hne : pj ≠ pj') : Disjoint (outPiece c pj) (outPiece c pj') := by
  rw [Finset.disjoint_left]
  intro i hi hi'
  rw [mem_outPiece] at hi hi'
  obtain ⟨p, j⟩ := pj; obtain ⟨p', j'⟩ := pj'
  by_cases hp : p = p'
  · subst hp
    have hj : j ≠ j' := fun e => hne (by rw [e])
    have := cols_sep p c j j' hj
    simp only at hi hi'
    omega
  · have := rows_sep p p' hp
    simp only at hi hi'
    omega

theorem outPiece_cover : Finset.univ.biUnion (outPiece c) = Finset.univ := by
  ext i
  simp only [Finset.mem_biUnion, Finset.mem_univ, true_and, iff_true]
  have hi0 : (i 0).val < 4096 := (i 0).isLt
  have hi1 : (i 1).val < 2048 := (i 1).isLt
  obtain ⟨p, hp0, hp1⟩ := rows_cover (i 0).val hi0
  obtain ⟨j, hlo, hhi⟩ := cols_cover p c (i 1).val hi1
  exact ⟨(p, j), (mem_outPiece c (p, j) i).mpr ⟨hp0, hp1, hlo, hhi⟩⟩

theorem out_split (V : Buf (Elt F) ((c : Thread nD τ).loc main_v1)) :
    ((((c : Thread nD τ).loc main_v1) ↦{fullShare} V) : sProp 𝕄)
      ⊢ bigSep Finset.univ (fun p : Fin 3 => bigSep Finset.univ (fun j : Fin 4 => ownsOut c p (locOff p j c) (inb_out p j c))) := by
  have e := pointsTo_biUnion (Ix := Unit) (Val := Elt F) (Name := ℕ) (U := UU) (Lvl := ℕ) (q := fullShare) (f := V)
    Finset.univ (outPiece c) (fun t _ t' _ hne => outPiece_disjoint c t t' hne)
  rw [outPiece_cover c] at e
  refine (Entails.of_eq e).trans ?_
  rw [bigSep_univ_prod]
  refine bigSep_mono fun p _ => bigSep_mono fun j _ => ?_
  exact exists_intro (PROP := sProp 𝕄) V

end Out

section OutJoin
variable (c : Dev nD)

theorem out_join (x : Dev nD → Vec F S4096x512 .f32) (w : Dev nD → Vec F S512x2048 .f32) :
    (bigSep Finset.univ (fun p : Fin 3 => bigSep Finset.univ (fun j : Fin 4 =>
        holdsOut c p (locOff p j c) (inb_out p j c) (gath x w p))) : sProp 𝕄)
      ⊢ iprop(∃ res : Buf (Elt F) ((c : Thread nD τ).loc main_v1), ((((c : Thread nD τ).loc main_v1) ↦{fullShare} res)
          ∗ ⌜∀ (p : Fin 3) (r col : ℕ) (hr : r < rowLen p) (hc : col < 2048),
              res (ix2 (⟨rowStart p + r, row_lt p r hr⟩ : Fin 4096) (⟨col, hc⟩ : Fin 2048)) = gath x w p r col⌝)) := by
  rw [← bigSep_univ_prod (fun pj : Fin 3 × Fin 4 => holdsOut c pj.1 (locOff pj.1 pj.2 c) (inb_out pj.1 pj.2 c) (gath x w pj.1))]
  unfold holdsOut
  haveI : Nonempty (Buf (Elt F) ((c : Thread nD τ).loc main_v1)) := ⟨fun _ => (FloatOps.ofBits .f32 0x00000000#32 : F .f32)⟩
  refine (bigSep_exists_pi Finset.univ _).trans ?_
  have J := pointsTo_biUnion_join (q := fullShare) (Ix := Unit) (Val := Elt F) (Name := ℕ) (U := UU) (Lvl := ℕ)
    (ℓ := (c : Thread nD τ).loc main_v1) Finset.univ (outPiece c)
  rw [outPiece_cover c] at J
  refine (exists_mono fun fs => (bigSep_mono fun _ _ => BI.sep_comm).trans (bigSep_pure_sep Finset.univ _ _)).trans ?_
  iintro ⟨%fs, %hf, Hp⟩
  ihave Hj := (J fs (fs (0, 0)) (fun t _ t' _ hne => outPiece_disjoint c t t' hne)) $$ Hp
  icases Hj with ⟨%g, %hg, Hg⟩
  iexists g
  iframe Hg
  ipureintro
  intro p r col hr hc
  obtain ⟨j, hlo, hhi⟩ := cols_cover p c col hc
  have hi : (ix2 (⟨rowStart p + r, row_lt p r hr⟩ : Fin 4096) (⟨col, hc⟩ : Fin 2048) : S4096x2048.Idx) ∈ outPiece c (p, j) :=
    (mem_outPiece c (p, j) _).mpr ⟨Nat.le_add_right _ _, Nat.add_lt_add_left hr _, hlo, hhi⟩
  rw [hg (p, j) (Finset.mem_univ _) _ hi]
  obtain ⟨k, rfl⟩ : ∃ k, col = locOff p j c + k := ⟨col - locOff p j c, by omega⟩
  have := hf (p, j) (Finset.mem_univ _) (ix2 ⟨r, hr⟩ ⟨k, by omega⟩)
  rwa [read_out_access] at this

end OutJoin

section Scratch

theorem whole_split {ℓ : Loc nD τ sig} {B : Type} [Fintype B] [DecidableEq B] (K : B → Finset (Idx ℓ))
    (hd : ∀ b b', b ≠ b' → Disjoint (K b) (K b')) (f₀ : Buf (Elt F) ℓ) :
    (iprop(∃ f : Buf (Elt F) ℓ, ℓ ↦{fullShare} f) : sProp 𝕄)
      ⊣⊢ iprop((bigSep Finset.univ fun b : B => (iprop(∃ f : Buf (Elt F) ℓ, ℓ ↦[K b]{fullShare} f) : sProp 𝕄))
          ∗ ∃ f : Buf (Elt F) ℓ, ℓ ↦[Finset.univ \ Finset.univ.biUnion K]{fullShare} f) := by
  haveI : Nonempty (Buf (Elt F) ℓ) := ⟨f₀⟩
  have eU : Finset.univ.biUnion K ∪ (Finset.univ \ Finset.univ.biUnion K) = (Finset.univ : Finset (Idx ℓ)) :=
    Finset.union_sdiff_of_subset (Finset.subset_univ _)
  constructor
  · iintro ⟨%f, Hf⟩
    ihave Hs := (pointsTo_split_subset (I := Finset.univ.biUnion K) (Finset.subset_univ _)).1 $$ Hf
    icases Hs with ⟨HU, HR⟩
    isplitl [HU]
    · have M : ((ℓ ↦[Finset.univ.biUnion K]{fullShare} f) : sProp 𝕄)
          ⊢ bigSep Finset.univ fun b : B => (iprop(∃ f : Buf (Elt F) ℓ, ℓ ↦[K b]{fullShare} f) : sProp 𝕄) :=
        (Entails.of_eq (pointsTo_biUnion (q := fullShare) (f := f) Finset.univ K (fun t _ t' _ hne => hd t t' hne))).trans
          (bigSep_mono fun b _ => exists_intro (PROP := sProp 𝕄) f)
      iapply M; iexact HU
    · iexists f; iexact HR
  · iintro ⟨HB, ⟨%fr, HR⟩⟩
    ihave HB' := (bigSep_exists_pi Finset.univ (fun (b : B) (f : Buf (Elt F) ℓ) => ((ℓ ↦[K b]{fullShare} f) : sProp 𝕄))) $$ HB
    icases HB' with ⟨%fs, HB'⟩
    ihave HU := (pointsTo_biUnion_join (q := fullShare) Finset.univ K fs f₀ (fun t _ t' _ hne => hd t t' hne)) $$ HB'
    icases HU with ⟨%g, -, HU⟩
    ihave HJ := (pointsTo_join (Finset.disjoint_sdiff)) $$ [HU HR]
    · iframe HU HR
    iexists ((Finset.univ \ Finset.univ.biUnion K).piecewise fr g)
    have J' : ((ℓ ↦[Finset.univ.biUnion K ∪ (Finset.univ \ Finset.univ.biUnion K)]{fullShare} ((Finset.univ \ Finset.univ.biUnion K).piecewise fr g)) : sProp 𝕄)
        ⊢ (ℓ ↦{fullShare} ((Finset.univ \ Finset.univ.biUnion K).piecewise fr g)) := Entails.of_eq (by rw [eU])
    iapply J'; iexact HJ

end Scratch

section ScratchPieces
variable (c : Dev nD)

def wPiece (pj : Fin 3 × Fin 4) : Finset (Idx ((c : Thread nD τ).loc cc0_scratch0)) :=
  wbReg c pj.1.val (rowLen pj.1) (locOff pj.1 pj.2 c) 512 (inb_loc pj.1 pj.2 c)
def r1Piece (p : Fin 3) : Finset (Idx ((c : Thread nD τ).loc cc0_scratch1)) := r1Reg c p.val (rowLen p) 0 512 (inb_r1 p)
def r2Piece (p : Fin 3) : Finset (Idx ((c : Thread nD τ).loc cc0_scratch2)) := r2Reg c p.val (rowLen p) 0 256 (inb_r2 p)

theorem wPiece_disjoint (pj pj' : Fin 3 × Fin 4) (hne : pj ≠ pj') : Disjoint (wPiece c pj) (wPiece c pj') := by
  obtain ⟨p, j⟩ := pj; obtain ⟨p', j'⟩ := pj'
  refine wbReg_disjoint c _ _ ?_
  by_cases hp : p = p'
  · subst hp; right; exact cols_sep p c j j' (fun e => hne (by rw [e]))
  · left; exact fun e => hp (Fin.ext e)

def restScr : sProp 𝕄 :=
  iprop((∃ f : Buf (Elt F) ((c : Thread nD τ).loc cc0_scratch0),
      ((c : Thread nD τ).loc cc0_scratch0) ↦[Finset.univ \ Finset.univ.biUnion (wPiece c)]{fullShare} f)
    ∗ (∃ f : Buf (Elt F) ((c : Thread nD τ).loc cc0_scratch1),
      ((c : Thread nD τ).loc cc0_scratch1) ↦[Finset.univ \ Finset.univ.biUnion (r1Piece c)]{fullShare} f)
    ∗ (∃ f : Buf (Elt F) ((c : Thread nD τ).loc cc0_scratch2),
      ((c : Thread nD τ).loc cc0_scratch2) ↦[Finset.univ \ Finset.univ.biUnion (r2Piece c)]{fullShare} f))

def slicePieces (p : Fin 3) : sProp 𝕄 :=
  iprop((bigSep Finset.univ fun j : Fin 4 => (ownsW c p (locOff p j c) 512 (inb_loc p j c) : sProp 𝕄)) ∗ ownsR1 c p ∗ ownsR2 c p)

theorem scratch_split :
    (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)) : sProp 𝕄)
      ⊣⊢ iprop((bigSep Finset.univ fun p : Fin 3 => (slicePieces c p : sProp 𝕄)) ∗ restScr c) := by
  have z : F .f32 := FloatOps.ofBits .f32 0x00000000#32
  have e0 := whole_split (F := F) (wPiece c) (wPiece_disjoint c) (fun _ => z)
  have e1 := whole_split (F := F) (r1Piece c) (fun _ _ hne => r1Reg_disjoint c _ _ (Or.inl fun e => hne (Fin.ext e))) (fun _ => z)
  have e2 := whole_split (F := F) (r2Piece c) (fun _ _ hne => r2Reg_disjoint c _ _ (Or.inl fun e => hne (Fin.ext e))) (fun _ => z)
  rw [bigSep_univ_prod] at e0
  rw [show (bigSep Finset.univ fun p : Fin 3 => (slicePieces c p : sProp 𝕄)) = _ from
    (bigSep_sep' Finset.univ _ _).trans (congrArg (BIBase.sep _) (bigSep_sep' Finset.univ _ _))]
  unfold restScr
  constructor
  · iintro ⟨H0, H1, H2⟩
    ihave H0' := e0.1 $$ H0
    ihave H1' := e1.1 $$ H1
    ihave H2' := e2.1 $$ H2
    icases H0' with ⟨W, RW⟩
    icases H1' with ⟨R1, RR1⟩
    icases H2' with ⟨R2, RR2⟩
    iframe RW RR1 RR2
    isplitl [W]; · iexact W
    isplitl [R1]; · iexact R1
    iexact R2
  · iintro ⟨⟨W, R1, R2⟩, ⟨RW, RR1, RR2⟩⟩
    isplitl [W RW]
    · iapply e0.2; iframe RW; iexact W
    isplitl [R1 RR1]
    · iapply e1.2; iframe RR1; iexact R1
    · iapply e2.2; iframe RR2; iexact R2

end ScratchPieces

end Cert.KernelIdeal.Pieces

end
-- ==== Proof.Ends.lean ====
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages
import proofs.«900802_g7700000000000803_dist_gemm_ar_m4096_k4096_n2048_f32_relu_v7x_i8_1_alg».proof.Proof.Launch

noncomputable section

namespace Cert.KernelIdeal.Ends

open Cert.KernelIdeal Cert.KernelIdeal.Gen Cert.KernelIdeal.Spec Cert.KernelIdeal.Reg Cert.KernelIdeal.Proto
open Cert.KernelIdeal.Stages (nb hA hB hC hD hE hG dataSl partW keep3 during since sendG recvG locG)
open Cert.KernelIdeal.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem away1_nb (k : Fin 3) (c : Dev nD) : away1 k (par k c) = sub1 k c := by revert k c; decide
theorem o2_nb (k : Fin 3) (c : Dev nD) : o2 k (par k c) = sub2 k c := by revert k c; decide

theorem barPay_eq (d e : Dev nD) (k p1 p2 : Fin 3) (he : par k d = e) (h1 : p1.val = (k.val + 2) % 3) (h2 : p2.val = (k.val + 1) % 3) :
    (barPay (F := F) d k : sProp 𝕄)
      = iprop(ownsW e k (away1 k e) 512 (hC k e) ∗ ownsW e k (o2 k e) 512 (hD k e) ∗ ownsR1 e p1 ∗ ownsR2 e p2) := by
  obtain rfl : p1 = ⟨(k.val + 2) % 3, Nat.mod_lt _ (by decide)⟩ := Fin.ext h1
  obtain rfl : p2 = ⟨(k.val + 1) % 3, Nat.mod_lt _ (by decide)⟩ := Fin.ext h2
  subst he; rfl

theorem barPay_give (c : Dev nD) (k p1 p2 : Fin 3) (h1 : p1.val = (k.val + 2) % 3) (h2 : p2.val = (k.val + 1) % 3) :
    (iprop(ownsW c k (away1 k c) 512 (hC k c) ∗ ownsW c k (o2 k c) 512 (hD k c) ∗ ownsR1 c p1 ∗ ownsR2 c p2) : sProp 𝕄)
      ⊢ (barPay (F := F) (par k c) k : sProp 𝕄) :=
  Entails.of_eq (barPay_eq (par k c) c k p1 p2 (par_par k c) h1 h2).symm

theorem barPay_take (c : Dev nD) (k p1 p2 : Fin 3) (h1 : p1.val = (k.val + 2) % 3) (h2 : p2.val = (k.val + 1) % 3) :
    (barPay (F := F) c k : sProp 𝕄)
      ⊢ iprop(ownsW (par k c) k (sub1 k c) 512 (hA k c) ∗ ownsW (par k c) k (sub2 k c) 512 (hB k c)
          ∗ ownsR1 (par k c) p1 ∗ ownsR2 (par k c) p2) := by
  rw [barPay_eq c (par k c) k p1 p2 rfl h1 h2,
    ownsW_congr (F := F) (par k c) k (wd := 512) (wd' := 512) (away1_nb k c) rfl (hC k (par k c)) (hA k c),
    ownsW_congr (F := F) (par k c) k (wd := 512) (wd' := 512) (o2_nb k c) rfl (hD k (par k c)) (hB k c)]

section Shares
variable (c : Dev nD) (p : Fin 3) {off wd : ℕ} (h : Inb3 2048 p.val (rowLen p) off wd)

def sharesW (qs : List (PosShare TreeShare)) : sProp 𝕄 :=
  iprop(∃ f : Buf (Elt F) ((wbM.access (wbRect p.val (rowLen p) off wd h)).loc (c : Thread nD τ)),
    qs.foldr (fun q A => iprop((((wbM.access (wbRect p.val (rowLen p) off wd h)).loc (c : Thread nD τ)) ↦[wbReg c p.val (rowLen p) off wd h]{q} f) ∗ A)) iprop(emp))

theorem partW_sharesW (qs : List (PosShare TreeShare)) (val : ℕ → ℕ → F .f32) :
    (partW c p off wd h qs val : sProp 𝕄) ⊢ sharesW c p h qs := by
  unfold partW sharesW
  iintro ⟨%f, H, -⟩
  iexists f
  iexact H

theorem lentW_sharesW (q : PosShare TreeShare) : (lentW c p off wd h q : sProp 𝕄) ⊢ sharesW c p h [q] := by
  unfold lentW sharesW
  simp only [List.foldr_cons, List.foldr_nil]
  iintro ⟨%f, H⟩
  iexists f
  iframe H

theorem sharesW_return (q q' : PosShare TreeShare) (qs : List (PosShare TreeShare)) :
    (iprop(lentW c p off wd h q ∗ sharesW c p h (q' :: qs)) : sProp 𝕄) ⊢ sharesW c p h (q :: q' :: qs) := by
  unfold lentW sharesW
  simp only [List.foldr_cons]
  iintro ⟨⟨%g, Hg⟩, ⟨%f, Hq', Hr⟩⟩
  icombine Hg Hq' as H2
  ihave %hag := BI.Region.is_agree $$ H2
  icases H2 with ⟨Hg, Hq'⟩
  ihave Hg' := (Entails.of_eq (pointsTo_congr (f := g) (g := f) fun i hi => (hag i (Finset.mem_inter.mpr ⟨hi, hi⟩)).1)) $$ Hg
  iexists f
  iframe Hg' Hq' Hr

theorem sharesW_whole :
    (sharesW c p h [fullShare.right.right.right, fullShare.left, fullShare.right.left, fullShare.right.right.left] : sProp 𝕄)
      ⊢ ownsW c p off wd h := by
  unfold sharesW ownsW
  simp only [List.foldr_cons, List.foldr_nil]
  iintro ⟨%f, H4, H1, H2, H3, -⟩
  iexists f
  iapply (pointsTo_share (PosShare.mem_left_op_right fullShare)).2
  iframe H1
  iapply (pointsTo_share (PosShare.mem_left_op_right fullShare.right)).2
  iframe H2
  iapply (pointsTo_share (PosShare.mem_left_op_right fullShare.right.right)).2
  iframe H3 H4

theorem whole3 {X : sProp 𝕄} (hX : X ⊢ sharesW c p h keep3) : (iprop(lentW c p off wd h lshr ∗ X) : sProp 𝕄) ⊢ ownsW c p off wd h :=
  (sep_mono_right hX).trans ((sharesW_return c p h _ _ _).trans (sharesW_whole c p h))

theorem whole2 {X : sProp 𝕄} (hX : X ⊢ sharesW c p h [fullShare.right.left, fullShare.right.right.left]) :
    (iprop(lentW c p off wd h lshr ∗ lentW c p off wd h fullShare.left ∗ X) : sProp 𝕄) ⊢ ownsW c p off wd h :=
  whole3 c p h ((sep_mono_right hX).trans (sharesW_return c p h _ _ _))

theorem whole1 {X : sProp 𝕄} (hX : X ⊢ sharesW c p h [fullShare.right.right.left]) :
    (iprop(lentW c p off wd h lshr ∗ lentW c p off wd h fullShare.left ∗ lentW c p off wd h fullShare.right.left ∗ X) : sProp 𝕄)
      ⊢ ownsW c p off wd h :=
  whole2 c p h ((sep_mono_right hX).trans (sharesW_return c p h _ _ _))

end Shares

section LentCut
variable (c : Dev nD) (p : Fin 3)

theorem lentW_add {off w₁ w₂ : ℕ} (h : Inb3 2048 p.val (rowLen p) off (w₁ + w₂)) (q : PosShare TreeShare) :
    (lentW c p off (w₁ + w₂) h q : sProp 𝕄) ⊢ iprop(lentW c p off w₁ h.left q ∗ lentW c p (off + w₁) w₂ h.right q) := by
  unfold lentW
  iintro ⟨%f, Hf⟩
  ihave Hs := (pointsTo_wb_add c h q f).1 $$ Hf
  icases Hs with ⟨H1, H2⟩
  isplitl [H1]
  · iexists f; iexact H1
  · iexists f; iexact H2

theorem lentW_halves {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256)
    (q : PosShare TreeShare) :
    (lentW c p off 512 h q : sProp 𝕄) ⊢ iprop(lentW c p a 256 ha q ∗ lentW c p b 256 hb q) := by
  have h' : Inb3 2048 p.val (rowLen p) off (256 + 256) := h
  have base := lentW_add (F := F) c p h' q
  rcases hab with ⟨rfl, rfl⟩ | ⟨rfl, rfl⟩
  · exact base
  · exact base.trans sep_comm.1

theorem lentW_D (q : PosShare TreeShare) :
    (lentW c p (o2 p c) 512 (hD p c) q : sProp 𝕄)
      ⊢ iprop(lentW c p (away2 p c) 256 (hE p c) q ∗ lentW c p (o3 p c) 256 (hG p c) q) :=
  lentW_halves c p (halvesD p c) _ _ _ q

end LentCut

theorem bigSep_fin10 (Φ : Fin 10 → sProp 𝕄) :
    (bigSep Finset.univ Φ : sProp 𝕄) = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

section End
variable (x : Dev nD → Vec F S4096x512 .f32) (w : Dev nD → Vec F S512x2048 .f32)

theorem holdsR1_owns (c : Dev nD) (p : Fin 3) (base : ℕ) (val : ℕ → ℕ → F .f32) :
    (holdsR1 c p base val : sProp 𝕄) ⊢ ownsR1 c p := by
  unfold holdsR1 ownsR1
  iintro ⟨%f, H, -⟩
  iexists f
  iexact H
theorem holdsR2_owns (c : Dev nD) (p : Fin 3) (base : ℕ) (val : ℕ → ℕ → F .f32) :
    (holdsR2 c p base val : sProp 𝕄) ⊢ ownsR2 c p := by
  unfold holdsR2 ownsR2
  iintro ⟨%f, H, -⟩
  iexists f
  iexact H

def sliceEnd (c : Dev nD) (p : Fin 3) : sProp 𝕄 :=
  iprop(partW c p (sub1 p c) 512 (hA p c) keep3 (gath x w p)
    ∗ partW c p (sub2 p c) 512 (hB p c) keep3 (gath x w p)
    ∗ partW c p (away1 p c) 512 (hC p c) [fullShare.right.left, fullShare.right.right.left] (gath x w p)
    ∗ partW c p (away2 p c) 256 (hE p c) [fullShare.right.right.left] (gath x w p)
    ∗ holdsR1 c p (o2 p c) (fun r col => Vals.st1 x w p r col (nb p 1 c))
    ∗ holdsR2 c p (o3 p c) (fun r col => Vals.st2 x w p r col (nb p 2 c))
    ∗ lentW c p (o3 p c) 256 (hG p c) fullShare.left
    ∗ lentW c p (o3 p c) 256 (hG p c) fullShare.right.left
    ∗ lentW c p (o3 p c) 256 (hG p c) fullShare.right.right.left
    ∗ lentW c p (away2 p c) 256 (hE p c) fullShare.left
    ∗ lentW c p (away2 p c) 256 (hE p c) fullShare.right.left
    ∗ lentW c p (away1 p c) 512 (hC p c) fullShare.left
    ∗ locPay x w c p 0 ∗ locPay x w c p 1 ∗ locPay x w c p 2 ∗ locPay x w c p 3
    ∗ sendG c p 0 2 ∗ sendG c p 1 2 ∗ sendG c p 2 2 ∗ sendG c p 3 2 ∗ sendG c p 4 2 ∗ sendG c p 5 2 ∗ sendG c p 6 2 ∗ sendG c p 7 2 ∗ sendG c p 8 2 ∗ sendG c p 9 2
    ∗ recvG c p 0 1 ∗ recvG c p 1 1 ∗ recvG c p 2 1 ∗ recvG c p 3 1 ∗ recvG c p 4 1 ∗ recvG c p 5 1 ∗ recvG c p 6 1 ∗ recvG c p 7 1 ∗ recvG c p 8 1 ∗ recvG c p 9 1
    ∗ locG c p 0 2 ∗ locG c p 1 2 ∗ locG c p 2 2 ∗ locG c p 3 2)

def ghostEnd (c : Dev nD) (p : Fin 3) : sProp 𝕄 :=
  iprop((bigSep Finset.univ fun i : Fin 10 => (atPos (ER (F := F)) (sendCell c p i) 1 ∅ 0 : sProp 𝕄))
    ∗ (bigSep Finset.univ fun i : Fin 10 => (atPos (ER (F := F)) (recvCell c p i) 1 ∅ 0 : sProp 𝕄))
    ∗ (bigSep Finset.univ fun j : Fin 4 => (atPos (ER (F := F)) (locCell c p j) 1 ∅ 0 : sProp 𝕄)))

theorem sendG_two (c : Dev nD) (p : Fin 3) (i : Fin 10) :
    (sendG (F := F) c p i 2 : sProp 𝕄) = atPos (ER (F := F)) (sendCell c p i) 1 ∅ 0 := rfl
theorem recvG_one (c : Dev nD) (p : Fin 3) (i : Fin 10) :
    (recvG (F := F) c p i 1 : sProp 𝕄) = atPos (ER (F := F)) (recvCell c p i) 1 ∅ 0 := rfl
theorem locG_two (c : Dev nD) (p : Fin 3) (j : Fin 4) :
    (locG (F := F) c p j 2 : sProp 𝕄) = atPos (ER (F := F)) (locCell c p j) 1 ∅ 0 := rfl

theorem slicePieces_eq (c : Dev nD) (p : Fin 3) : (slicePieces (F := F) c p : sProp 𝕄)
    = iprop((ownsW c p (o2 p c) 512 (hD p c) ∗ ownsW c p (away1 p c) 512 (hC p c) ∗ ownsW c p (sub2 p c) 512 (hB p c)
        ∗ ownsW c p (sub1 p c) 512 (hA p c)) ∗ ownsR1 c p ∗ ownsR2 c p) := by
  unfold slicePieces
  rw [bigSep_fin4]
  rfl

theorem slice_close (c : Dev nD) (p : Fin 3) :
    (sliceEnd x w c p : sProp 𝕄)
      ⊢ iprop((bigSep Finset.univ fun j : Fin 4 => (holdsOut c p (locOff p j c) (inb_out p j c) (gath x w p) : sProp 𝕄))
          ∗ slicePieces c p ∗ ghostEnd c p) := by
  unfold sliceEnd ghostEnd
  rw [slicePieces_eq, bigSep_fin4, bigSep_fin4, bigSep_fin10, bigSep_fin10]
  simp only [locPay, locOff, Matrix.cons_val, sendG_two, recvG_one, locG_two]
  iintro ⟨PA, PB, PC, PE, R1, R2, G1, G2, G3, E1, E2, C1, ⟨O0, L0⟩, ⟨O1, L1⟩, ⟨O2, L2⟩, ⟨O3, L3⟩, S0, S1, S2, S3, S4, S5, S6, S7, S8, S9, Q0, Q1, Q2, Q3, Q4, Q5, Q6, Q7, Q8, Q9, T0, T1, T2, T3⟩
  iframe O0 O1 O2 O3 S0 S1 S2 S3 S4 S5 S6 S7 S8 S9 Q0 Q1 Q2 Q3 Q4 Q5 Q6 Q7 Q8 Q9 T0 T1 T2 T3
  isplitr [R1 R2]
  · isplitl [PE G1 G2 G3 E1 E2 L0]
    · ihave L0' := (lentW_D c p lshr) $$ L0
      icases L0' with ⟨LE, LG⟩
      iapply (ownsW_D c p c).2
      isplitl [LE E1 E2 PE]
      · iapply (whole1 c p (hE p c) (partW_sharesW c p _ _ (gath x w p))); iframe LE E1 E2 PE
      · iapply (whole1 c p (hG p c) (lentW_sharesW c p _ fullShare.right.right.left)); iframe LG G1 G2 G3
    isplitl [PC C1 L1]
    · iapply (whole2 c p (hC p c) (partW_sharesW c p _ _ (gath x w p))); iframe L1 C1 PC
    isplitl [PB L2]
    · iapply (whole3 c p (hB p c) (partW_sharesW c p _ _ (gath x w p))); iframe L2 PB
    · iapply (whole3 c p (hA p c) (partW_sharesW c p _ _ (gath x w p))); iframe L3 PA
  isplitl [R1]
  · iapply (holdsR1_owns c p _ _); iexact R1
  · iapply (holdsR2_owns c p _ _); iexact R2

end End

section Close
variable (m : (ℓ : Loc nD τ sig) → Buf (Elt F) ℓ) (K : Dev nD × Launch.CIx → ℕ)

theorem duties_later (g : GSem nD τ sig) (r : ℕ) (hr : 1 ≤ r) : (Launch.Rd m).duties g r = ∅ :=
  if_neg (fun h => by omega)

theorem close_cell (ck : Dev nD × Launch.CIx) :
    (iprop(Launch.records m K ∗ atPos (ER (F := F)) (Launch.kcell ck) 1 ∅ 0) : sProp 𝕄)
      ⊢ iprop(|={Set.univ}=> semVal (Launch.kcell ck) 0) := by
  iintro ⟨#HR, Hat⟩
  ihave HI := (Launch.inv_at m K ck) $$ HR
  iapply (cell_close (ER (F := F)) (Launch.Rd m) (Set.mem_univ (K ck)) (fun h => h)
    (fun r hr => duties_later m (Launch.kcell ck) r hr))
  iframe HI Hat

theorem bigSep_insert' {I : Type} [DecidableEq I] {s : Finset I} {i : I} (hi : i ∉ s) (Φ : I → sProp 𝕄) :
    (bigSep (insert i s) Φ : sProp 𝕄) = iprop(Φ i ∗ bigSep s Φ) := bigSep_insert hi

theorem close_all {I : Type} [DecidableEq I] (S : Finset I) (g : I → GSem nD τ sig) (ck : I → Dev nD × Launch.CIx)
    (hg : ∀ i, Launch.kcell (ck i) = g i) :
    (iprop(Launch.records m K ∗ bigSep S (fun i => (atPos (ER (F := F)) (g i) 1 ∅ 0 : sProp 𝕄))) : sProp 𝕄)
      ⊢ iprop(|={Set.univ}=> bigSep S (fun i => (semVal (g i) 0 : sProp 𝕄))) := by
  obtain rfl : g = fun i => Launch.kcell (ck i) := funext fun i => (hg i).symm
  induction S using Finset.induction_on with
  | empty =>
    rw [bigSep_empty, bigSep_empty]
    iintro ⟨-, H⟩
    imodintro
    iexact H
  | insert i s hi ih =>
    rw [bigSep_insert' hi, bigSep_insert' hi]
    iintro ⟨#HR, Hi, Hs⟩
    ihave Hi' := (close_cell m K (ck i)) $$ [Hi]
    · iframe HR Hi
    ihave Hs' := ih $$ [Hs]
    · iframe HR Hs
    imod Hi'
    imod Hs'
    imodintro
    iframe Hi' Hs'

theorem closedCells_eq (c : Dev nD) :
    (Launch.closedCells (F := F) c : sProp 𝕄)
      = iprop(((bigSep Finset.univ fun pi : Launch.PI => (semVal (sendCell c pi.1 pi.2) 0 : sProp 𝕄))
          ∗ (bigSep Finset.univ fun pi : Launch.PI => (semVal (recvCell c pi.1 pi.2) 0 : sProp 𝕄)))
          ∗ (bigSep Finset.univ fun pj : Launch.PJ => (semVal (locCell c pj.1 pj.2) 0 : sProp 𝕄))) := by
  unfold Launch.closedCells
  rw [← bigSep_univ_eq_bigSepL Launch.waitOrder Launch.waitOrder_univ Launch.waitOrder_nodup,
    ← bigSep_univ_eq_bigSepL Launch.locWaitOrder Launch.locWaitOrder_univ Launch.locWaitOrder_nodup,
    bigSep_sep' Finset.univ (fun pi : Launch.PI => (semVal (sendCell c pi.1 pi.2) 0 : sProp 𝕄))
      (fun pi : Launch.PI => (semVal (recvCell c pi.1 pi.2) 0 : sProp 𝕄))]

theorem cells_close (c : Dev nD) :
    (iprop(Launch.records m K ∗ ghostEnd (F := F) c 0 ∗ ghostEnd (F := F) c 1 ∗ ghostEnd (F := F) c 2) : sProp 𝕄)
      ⊢ iprop(|={Set.univ}=> Launch.closedCells (F := F) c) := by
  unfold ghostEnd
  iintro ⟨#HR, ⟨S0, R0, L0⟩, ⟨S1, R1, L1⟩, ⟨S2, R2, L2⟩⟩
  ihave HS := (close_all m K Finset.univ (fun pi : Launch.PI => sendCell c pi.1 pi.2) (fun pi => Launch.kSend c pi.1 pi.2) (fun _ => rfl)) $$ [S0 S1 S2]
  · rw [bigSep_univ_prod, bigSep_fin3]; iframe HR S0 S1 S2
  ihave HQ := (close_all m K Finset.univ (fun pi : Launch.PI => recvCell c pi.1 pi.2) (fun pi => Launch.kRecv c pi.1 pi.2) (fun _ => rfl)) $$ [R0 R1 R2]
  · rw [bigSep_univ_prod, bigSep_fin3]; iframe HR R0 R1 R2
  ihave HL := (close_all m K Finset.univ (fun pj : Launch.PJ => locCell c pj.1 pj.2) (fun pj => Launch.kLoc c pj.1 pj.2) (fun _ => rfl)) $$ [L0 L1 L2]
  · rw [bigSep_univ_prod, bigSep_fin3]; iframe HR L0 L1 L2
  imod HS
  imod HQ
  imod HL
  imodintro
  rw [closedCells_eq]
  iframe HS HQ HL

theorem result_join (c : Dev nD) :
    (iprop((bigSep Finset.univ fun j : Fin 4 => (holdsOut c 0 (locOff 0 j c) (inb_out 0 j c) (gath (Launch.xOf m) (Launch.wOf m) 0) : sProp 𝕄))
        ∗ (bigSep Finset.univ fun j : Fin 4 => (holdsOut c 1 (locOff 1 j c) (inb_out 1 j c) (gath (Launch.xOf m) (Launch.wOf m) 1) : sProp 𝕄))
        ∗ (bigSep Finset.univ fun j : Fin 4 => (holdsOut c 2 (locOff 2 j c) (inb_out 2 j c) (gath (Launch.xOf m) (Launch.wOf m) 2) : sProp 𝕄))) : sProp 𝕄)
      ⊢ Launch.resultAt m c := by
  have hj := out_join (F := F) c (Launch.xOf m) (Launch.wOf m)
  rw [bigSep_fin3] at hj
  refine hj.trans ?_
  unfold Launch.resultAt
  iintro ⟨%res, H, %hres⟩
  iexists res
  iframe H
  ipureintro
  exact hres

theorem scratch_join (c : Dev nD) :
    (iprop((slicePieces (F := F) c 0 ∗ slicePieces (F := F) c 1 ∗ slicePieces (F := F) c 2) ∗ restScr (F := F) c) : sProp 𝕄)
      ⊢ Launch.scratch (F := F) c := by
  have hs := (scratch_split (F := F) c).2
  rw [bigSep_fin3] at hs
  unfold Launch.scratch
  exact hs

theorem close_post (c : Dev nD) :
    (iprop(Launch.records m K ∗ sliceEnd (Launch.xOf m) (Launch.wOf m) c 0 ∗ sliceEnd (Launch.xOf m) (Launch.wOf m) c 1
        ∗ sliceEnd (Launch.xOf m) (Launch.wOf m) c 2 ∗ restScr c ∗ Launch.inputs m c
        ∗ (∃ W : Waits sig Unit, owes (c : Thread nD τ) 0 W)) : sProp 𝕄)
      ⊢ iprop(|={Set.univ}=> Launch.bodyPost m c) := by
  iintro ⟨#HR, E0, E1, E2, Hrest, Hin, HO⟩
  ihave E0' := (slice_close (Launch.xOf m) (Launch.wOf m) c 0) $$ E0
  ihave E1' := (slice_close (Launch.xOf m) (Launch.wOf m) c 1) $$ E1
  ihave E2' := (slice_close (Launch.xOf m) (Launch.wOf m) c 2) $$ E2
  icases E0' with ⟨O0, P0, G0⟩
  icases E1' with ⟨O1, P1, G1⟩
  icases E2' with ⟨O2, P2, G2⟩
  ihave HC := (cells_close m K c) $$ [G0 G1 G2]
  · iframe HR G0 G1 G2
  imod HC
  imodintro
  unfold Launch.bodyPost
  iframe Hin HC HO
  isplitl [O0 O1 O2]
  · iapply (result_join m c); iframe O0 O1 O2
  · iapply (scratch_join c); iframe P0 P1 P2 Hrest

end Close

end Cert.KernelIdeal.Ends

end
-- ==== Proof.Tables.lean ====
import proofs.«900802_g7700000000000803_dist_gemm_ar_m4096_k4096_n2048_f32_relu_v7x_i8_1_alg».proof.Proof.Proto

noncomputable section

namespace Cert.KernelIdeal.Tables

open Cert.KernelIdeal Cert.KernelIdeal.Gen Cert.KernelIdeal.Spec Cert.KernelIdeal.Reg Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x512 .f32) (w : Dev nD → Vec F S512x2048 .f32)

theorem duties_send (c : Dev nD) (p : Fin 3) (i : Fin 10) : (cubeRd x w).duties (sendCell c p i) 0 = {0} := by
  simp [cubeRd, roleOf_ssem]
theorem amount_send (c : Dev nD) (p : Fin 3) (i : Fin 10) (d : Fin 3) : (cubeRd x w).amount (sendCell c p i) 0 d = credOf p i := by
  simp [cubeRd, roleOf_ssem]
theorem payload_send (c : Dev nD) (p : Fin 3) (i : Fin 10) (d : Fin 3) :
    (cubeRd x w).payload (sendCell c p i) 0 d = sendPay (F := F) c p i := by
  simp [cubeRd, roleOf_ssem]
theorem expect_send (c : Dev nD) (p : Fin 3) (i : Fin 10) : (cubeRd x w).expect (sendCell c p i) 0 = credOf p i := by
  unfold Schedule.expect Schedule.amountOf
  rw [duties_send, Finset.sum_singleton, amount_send]
theorem mem_duties_send (c : Dev nD) (p : Fin 3) (i : Fin 10) : (0 : Fin 3) ∈ (cubeRd x w).duties (sendCell c p i) 0 := by
  rw [duties_send]; exact Finset.mem_singleton_self _

theorem rest_send (c : Dev nD) (p : Fin 3) (i : Fin 10) :
    bigSep ((cubeRd x w).duties (sendCell c p i) 0 \ ∅) (fun d => (cubeRd x w).payload (sendCell c p i) 0 d)
      = sendPay (F := F) c p i := by
  rw [Finset.sdiff_empty, duties_send, bigSep_singleton, payload_send]

theorem duties_recv (c : Dev nD) (p : Fin 3) (i : Fin 10) : (cubeRd x w).duties (recvCell c p i) 0 = {0} := by
  simp [cubeRd, roleOf_rsem]
theorem amount_recv (c : Dev nD) (p : Fin 3) (i : Fin 10) (d : Fin 3) : (cubeRd x w).amount (recvCell c p i) 0 d = credOf p i := by
  simp [cubeRd, roleOf_rsem]
theorem payload_recv (c : Dev nD) (p : Fin 3) (i : Fin 10) (d : Fin 3) :
    (cubeRd x w).payload (recvCell c p i) 0 d = recvPay x w c p i := by
  simp [cubeRd, roleOf_rsem]
theorem expect_recv (c : Dev nD) (p : Fin 3) (i : Fin 10) : (cubeRd x w).expect (recvCell c p i) 0 = credOf p i := by
  unfold Schedule.expect Schedule.amountOf
  rw [duties_recv, Finset.sum_singleton, amount_recv]
theorem mem_duties_recv (c : Dev nD) (p : Fin 3) (i : Fin 10) : (0 : Fin 3) ∈ (cubeRd x w).duties (recvCell c p i) 0 := by
  rw [duties_recv]; exact Finset.mem_singleton_self _

theorem rest_recv (c : Dev nD) (p : Fin 3) (i : Fin 10) :
    bigSep ((cubeRd x w).duties (recvCell c p i) 0 \ ∅) (fun d => (cubeRd x w).payload (recvCell c p i) 0 d)
      = recvPay x w c p i := by
  rw [Finset.sdiff_empty, duties_recv, bigSep_singleton, payload_recv]

theorem duties_loc (c : Dev nD) (p : Fin 3) (j : Fin 4) : (cubeRd x w).duties (locCell c p j) 0 = {0} := by
  simp [cubeRd, roleOf_lsem]
theorem amount_loc (c : Dev nD) (p : Fin 3) (j : Fin 4) (d : Fin 3) : (cubeRd x w).amount (locCell c p j) 0 d = credOut (rowLen p) := by
  simp [cubeRd, roleOf_lsem]
theorem payload_loc (c : Dev nD) (p : Fin 3) (j : Fin 4) (d : Fin 3) :
    (cubeRd x w).payload (locCell c p j) 0 d = locPay x w c p j := by
  simp [cubeRd, roleOf_lsem]
theorem expect_loc (c : Dev nD) (p : Fin 3) (j : Fin 4) : (cubeRd x w).expect (locCell c p j) 0 = credOut (rowLen p) := by
  unfold Schedule.expect Schedule.amountOf
  rw [duties_loc, Finset.sum_singleton, amount_loc]
theorem rest_loc (c : Dev nD) (p : Fin 3) (j : Fin 4) :
    bigSep ((cubeRd x w).duties (locCell c p j) 0 \ ∅) (fun d => (cubeRd x w).payload (locCell c p j) 0 d)
      = locPay x w c p j := by
  rw [Finset.sdiff_empty, duties_loc, bigSep_singleton, payload_loc]

end Cert.KernelIdeal.Tables

end
-- ==== Proof.EvWait.lean ====
import proofs.«900802_g7700000000000803_dist_gemm_ar_m4096_k4096_n2048_f32_relu_v7x_i8_1_alg».proof.Proof.Proto
import proofs.«900802_g7700000000000803_dist_gemm_ar_m4096_k4096_n2048_f32_relu_v7x_i8_1_alg».proof.Proof.Views
import proofs.«900802_g7700000000000803_dist_gemm_ar_m4096_k4096_n2048_f32_relu_v7x_i8_1_alg».proof.Proof.Tables

noncomputable section

namespace Cert.KernelIdeal.Body

open Cert.KernelIdeal Cert.KernelIdeal.Gen Cert.KernelIdeal.Spec Cert.KernelIdeal.Reg Cert.KernelIdeal.Proto
open Cert.KernelIdeal.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

local notation "𝒱₀" => Variants.none

variable (x : Dev nD → Vec F S4096x512 .f32) (w : Dev nD → Vec F S512x2048 .f32)

section Waits

variable (c : Dev nD) (p : Fin 3) (i : Fin 10) (j : Fin 4)
variable {L : GSem nD τ sig → Finset Unit} {lv : GSem nD τ sig → Unit → ℕ}

-- A wait that closes round 0 of a cell hands back the round's payload and moves the cell to round 1.
theorem ev_wait_cell {g : GSem nD τ sig} {sm : DmaSem sig} (hg : g = ((c : Thread nD τ), .dma sm)) {n κ : ℕ} {P : sProp 𝕄}
    {sp sp' : Space} {s s' : Shape} {e e' : EltTy} {κd : Kind}
    {src : Memref sig .tc sp' s' e'} {dst : Memref sig κd sp s e}
    {hsrc : src.view.WordExact} {hdst : dst.view.WordExact}
    (hcr : dst.view.dmaCredit = n) (hn : (cubeRd x w).expect g 0 = n)
    (hP : bigSep ((cubeRd x w).duties g 0 \ ∅) (fun d => (cubeRd x w).payload g 0 d) = P)
    {O : CellTallies nD τ sig Unit} {W : Waits sig Unit}
    {α : Type} {Q : α → sProp 𝕄} {k : PUnit → Prog (TpuEff nD τ sig (Elt F) Λ₀ .tc) α} :
    iprop(cellInv ER (cubeRd x w) κ g ∗ atPos ER g 0 ∅ 0
        ∗ cred (tallyAt g () n) ∗ owes (c : Thread nD τ) O W ∗ MayWait (c : Thread nD τ) (.dma sm) () O)
      ⊢ iprop(((P ∗ atPos ER g 1 ∅ 0 ∗ reached ER g 1
              ∗ owes (c : Thread nD τ) O (insert (SemLoc.dma sm, ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm src dst hsrc hdst) k) Q) := by
  subst hg hcr hP
  have R := Rounds.wp_wait_rest_token (defs := defs₀ (F := F)) 𝒱₀ ER (cubeRd x w) (c : Thread nD τ) none (κ := κ) (Q := Q) (k := k)
      (w := .waitDma2 sm src dst hsrc hdst)
      (wpE_waitDma2_eq (defs := defs₀ (F := F)) 𝒱₀ (c : Thread nD τ) none Set.univ) (Set.mem_univ _) () (O := O) (W := W) (R := 0) (m := 0) (T := ∅)
      ((Nat.zero_add _).trans hn.symm)
  iintro ⟨Hg, Hat, Hc, HL, Hlev⟩ Hk
  iapply R $$ [Hg Hc HL Hlev Hat]
  · iframe Hg Hc HL Hlev Hat
  iintro ⟨HL, Hat, Hr, Hpay⟩
  iapply Hk
  iframe Hpay Hat Hr HL

theorem ev_wait_send_mw {κ : ℕ} {sp sp' : Space} {s s' : Shape} {e e' : EltTy} {κd : Kind}
    {sem : DmaSem sig} {src : Memref sig .tc sp' s' e'} {dst : Memref sig κd sp s e}
    {hsrc : src.view.WordExact} {hdst : dst.view.WordExact}
    (hsem : sem = ssem p i) (hcr : dst.view.dmaCredit = credOf p i)
    {O : CellTallies nD τ sig Unit} {W : Waits sig Unit}
    {α : Type} {Q : α → sProp 𝕄} {k : PUnit → Prog (TpuEff nD τ sig (Elt F) Λ₀ .tc) α} :
    iprop(cellInv ER (cubeRd x w) κ (sendCell c p i) ∗ atPos ER (sendCell c p i) 0 ∅ 0
        ∗ cred (tallyAt (sendCell c p i) () (credOf p i)) ∗ owes (c : Thread nD τ) O W ∗ MayWait (c : Thread nD τ) (.dma (ssem p i)) () O)
      ⊢ iprop(((sendPay c p i ∗ atPos ER (sendCell c p i) 1 ∅ 0 ∗ reached ER (sendCell c p i) 1
              ∗ owes (c : Thread nD τ) O (insert (SemLoc.dma (ssem p i), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem; exact ev_wait_cell x w c rfl hcr (by rw [expect_send]) (by rw [rest_send])

theorem ev_wait_send {κ : ℕ} {sp sp' : Space} {s s' : Shape} {e e' : EltTy} {κd : Kind}
    {sem : DmaSem sig} {src : Memref sig .tc sp' s' e'} {dst : Memref sig κd sp s e}
    {hsrc : src.view.WordExact} {hdst : dst.view.WordExact}
    (hsem : sem = ssem p i) (hcr : dst.view.dmaCredit = credOf p i)
    {O : CellTallies nD τ sig Unit} {W : Waits sig Unit}
    (hmw : (levAts L lv : sProp 𝕄) ⊢ MayWait (c : Thread nD τ) (.dma (ssem p i)) () O)
    {α : Type} {Q : α → sProp 𝕄} {k : PUnit → Prog (TpuEff nD τ sig (Elt F) Λ₀ .tc) α} :
    iprop(cellInv ER (cubeRd x w) κ (sendCell c p i) ∗ atPos ER (sendCell c p i) 0 ∅ 0
        ∗ cred (tallyAt (sendCell c p i) () (credOf p i)) ∗ owes (c : Thread nD τ) O W ∗ levAts L lv)
      ⊢ iprop(((sendPay c p i ∗ atPos ER (sendCell c p i) 1 ∅ 0 ∗ reached ER (sendCell c p i) 1
              ∗ owes (c : Thread nD τ) O (insert (SemLoc.dma (ssem p i), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) :=
  (sep_mono_r <| sep_mono_r <| sep_mono_r <| sep_mono_r hmw).trans (ev_wait_send_mw x w c p i hsem hcr)

theorem ev_wait_recv_mw {κ : ℕ} {sp sp' : Space} {s s' : Shape} {e e' : EltTy} {κd : Kind}
    {sem : DmaSem sig} {src : Memref sig .tc sp' s' e'} {dst : Memref sig κd sp s e}
    {hsrc : src.view.WordExact} {hdst : dst.view.WordExact}
    (hsem : sem = rsem p i) (hcr : dst.view.dmaCredit = credOf p i)
    {O : CellTallies nD τ sig Unit} {W : Waits sig Unit}
    {α : Type} {Q : α → sProp 𝕄} {k : PUnit → Prog (TpuEff nD τ sig (Elt F) Λ₀ .tc) α} :
    iprop(cellInv ER (cubeRd x w) κ (recvCell c p i) ∗ atPos ER (recvCell c p i) 0 ∅ 0
        ∗ cred (tallyAt (recvCell c p i) () (credOf p i)) ∗ owes (c : Thread nD τ) O W ∗ MayWait (c : Thread nD τ) (.dma (rsem p i)) () O)
      ⊢ iprop(((recvPay x w c p i ∗ atPos ER (recvCell c p i) 1 ∅ 0 ∗ reached ER (recvCell c p i) 1
              ∗ owes (c : Thread nD τ) O (insert (SemLoc.dma (rsem p i), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem; exact ev_wait_cell x w c rfl hcr (by rw [expect_recv]) (by rw [rest_recv])

theorem ev_wait_local_mw {κ : ℕ} {sp sp' : Space} {s s' : Shape} {e e' : EltTy} {κd : Kind}
    {sem : DmaSem sig} {src : Memref sig .tc sp' s' e'} {dst : Memref sig κd sp s e}
    {hsrc : src.view.WordExact} {hdst : dst.view.WordExact}
    (hsem : sem = lsem p j) (hcr : dst.view.dmaCredit = credOut (rowLen p))
    {O : CellTallies nD τ sig Unit} {W : Waits sig Unit}
    {α : Type} {Q : α → sProp 𝕄} {k : PUnit → Prog (TpuEff nD τ sig (Elt F) Λ₀ .tc) α} :
    iprop(cellInv ER (cubeRd x w) κ (locCell c p j) ∗ atPos ER (locCell c p j) 0 ∅ 0
        ∗ cred (tallyAt (locCell c p j) () (credOut (rowLen p))) ∗ owes (c : Thread nD τ) O W ∗ MayWait (c : Thread nD τ) (.dma (lsem p j)) () O)
      ⊢ iprop(((locPay x w c p j ∗ atPos ER (locCell c p j) 1 ∅ 0 ∗ reached ER (locCell c p j) 1
              ∗ owes (c : Thread nD τ) O (insert (SemLoc.dma (lsem p j), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem; exact ev_wait_cell x w c rfl hcr (by rw [expect_loc]) (by rw [rest_loc])

end Waits

section Local

variable (c : Dev nD) (p : Fin 3) (j : Fin 4)

theorem ev_local {κ : ℕ}
    {o : Fin 3 → ℕ} (ho : o = ![p.val, 0, locOff p j c])
    {hinb : ∀ a, o a + (![1, rowLen p, 512] : Fin 3 → ℕ) a ≤ S3x1368x2048.size a}
    {hsq : (⟨3, ![1, rowLen p, 512]⟩ : Shape).Squeezes ⟨2, ![rowLen p, 512]⟩}
    {o' : Fin 2 → ℕ} (ho' : o' = ![rowStart p, locOff p j c])
    {hinb' : ∀ a, o' a + (![rowLen p, 512] : Fin 2 → ℕ) a ≤ S4096x2048.size a}
    {sem : DmaSem sig} (hsem : sem = lsem p j)
    {hsrc : ((wbM.slice (Rect.unit (s := S3x1368x2048) o ![1, rowLen p, 512] hinb) (fun _ => rfl)).squeeze ⟨2, ![rowLen p, 512]⟩ hsq).view.WordExact} {hdst : (outM.slice (Rect.unit (s := S4096x2048) o' ![rowLen p, 512] hinb') (fun _ => rfl)).view.WordExact}
    {hty : DmaTarget.Typed (nD := nD) .vmem (.dma sem) (DmaTarget.here (outM.slice (Rect.unit (s := S4096x2048) o' ![rowLen p, 512] hinb') (fun _ => rfl)) : DmaTarget nD τ sig Proc.tc Space.hbm ⟨2, ![rowLen p, 512]⟩ .f32)}
    (fs : Buf (Elt F) ((wbM.access (wbRect p.val (rowLen p) (locOff p j c) 512 (inb_loc p j c))).loc (c : Thread nD τ)))
    (hfs : ∀ y : (⟨3, ![1, rowLen p, 512]⟩ : Shape).Idx,
      (wbM.access (wbRect p.val (rowLen p) (locOff p j c) 512 (inb_loc p j c))).read (Elt F) fs y = gath x w p (y 1).val (locOff p j c + (y 2).val))
    {α : Type} {Q : α → sProp 𝕄} {k : PUnit → Prog (TpuEff nD τ sig (Elt F) Λ₀ .tc) α} :
    iprop(cellInv ER (cubeRd x w) κ (locCell c p j)
        ∗ (((wbM.access (wbRect p.val (rowLen p) (locOff p j c) 512 (inb_loc p j c))).loc (c : Thread nD τ)) ↦[wbReg c p.val (rowLen p) (locOff p j c) 512 (inb_loc p j c)]{lshr} fs)
        ∗ ownsOut c p (locOff p j c) (inb_out p j c)
        ∗ dutyTok ER (locCell c p j) 0 0 ∗ reached ER (locCell c p j) 0)
      ⊢ iprop((cred (tallyAt (locCell c p j) () (credOut (rowLen p)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((wbM.slice (Rect.unit (s := S3x1368x2048) o ![1, rowLen p, 512] hinb) (fun _ => rfl)).squeeze ⟨2, ![rowLen p, 512]⟩ hsq) (DmaTarget.here (outM.slice (Rect.unit (s := S4096x2048) o' ![rowLen p, 512] hinb') (fun _ => rfl)) : DmaTarget nD τ sig Proc.tc Space.hbm ⟨2, ![rowLen p, 512]⟩ .f32) (.dma sem) hsrc hdst hty) k) Q) := by
  subst ho; subst ho'; subst hsem
  unfold ownsOut
  let S := (wbM.slice (Rect.unit (s := S3x1368x2048) ![p.val, 0, locOff p j c] ![1, rowLen p, 512] hinb) (fun _ => rfl)).squeeze ⟨2, ![rowLen p, 512]⟩ hsq
  let D := outM.slice (Rect.unit (s := S4096x2048) ![rowStart p, locOff p j c] ![rowLen p, 512] hinb') (fun _ => rfl)
  iintro ⟨Hg, Hsrc, ⟨%fd, Hdst⟩, Htok, Hr⟩ Hk
  have hset : S.view.set = wbReg c p.val (rowLen p) (locOff p j c) 512 (inb_loc p j c) :=
    set_wb_squeeze c (inb_loc p j c) hsq
  have hpay : iprop((D.view.loc (c : Thread nD τ) ↦[D.view.set]{fullShare}
          (D.view.write (Elt F) fd (S.view.read (Elt F) fs) Finset.univ))
        ∗ (S.view.loc (c : Thread nD τ) ↦[S.view.set]{lshr} fs))
      ⊢ (cubeRd x w).payload (locCell c p j) 0 0 := by
    rw [payload_loc]
    unfold locPay holdsOut lentW
    iintro ⟨Hd, Hs⟩
    isplitl [Hd]
    · iexists _
      isplitl [Hd]
      · iexact Hd
      ipureintro
      exact fun y => ((View.read_write_of_mem (v := D.view) fd _ (Finset.mem_univ y)).trans
        (read_wb_squeeze c (inb_loc p j c) hsq fs y)).trans
        ((read_wb_access c (inb_loc p j c) fs _).symm.trans (hfs (ix3 ⟨0, Nat.one_pos⟩ (y 0) (y 1))))
    · iexists fs
      rw [hset]
      iexact Hs
  have R := Rounds.wp_copy_pointsTo (defs := defs₀ (F := F)) 𝒱₀ ER (cubeRd x w) (c : Thread nD τ) none
      (src := S) (dst := D) (sem := .dma (lsem p j)) (hsrc := hsrc) (hdst := hdst) (hsem := hty)
      (k := k) (Q := Q) (q := lshr) (fs := fs) (fd := fd) (r := 0) (d := 0) (κ := κ) (Es := Set.univ) (Γ := PendingWaitsCtx.empty)
      (by rw [duties_loc]; exact Finset.mem_singleton_self _) () (credOut (rowLen p)) rfl (amount_loc x w c p j 0) hpay
  rw [hset] at R
  iapply R $$ [Hg Hsrc Hdst Htok Hr]
  · iframe Hg Hsrc Htok Hr
    iexact Hdst
  iexact Hk

end Local

end Cert.KernelIdeal.Body

end
-- ==== Proof.BodyTail.lean ====
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.Forms
import proofs.«900802_g7700000000000803_dist_gemm_ar_m4096_k4096_n2048_f32_relu_v7x_i8_1_alg».proof.Proof.Stages
import proofs.«900802_g7700000000000803_dist_gemm_ar_m4096_k4096_n2048_f32_relu_v7x_i8_1_alg».proof.Proof.Tables

noncomputable section

namespace Cert.KernelIdeal.Body

open Cert.KernelIdeal Cert.KernelIdeal.Gen Cert.KernelIdeal.Spec Cert.KernelIdeal.Reg Cert.KernelIdeal.Proto
open Cert.KernelIdeal.Tables Cert.KernelIdeal.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

theorem tail_1_3 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off6 d0) S1x1368x512.size (Gen.k0_off6_inb d0)) (fun _ => rfl)).squeeze S1368x512 Gen.squeezes_S1x1368x512_S1368x512).view.WordExact}
    {hdst : ((Memref.whole main_v1).slice (Rect.unit (s := S4096x2048) (k0_off65 d0) S1368x512.size (Gen.k0_off65_inb d0)) (fun _ => rfl)).view.WordExact} :
    (iprop(cellInv (ER (F := F)) (cubeRd x w) κ (locCell c 1 3) ∗ MayWait (c : Thread nD τ) (.dma (lsem 1 3)) () O
        ∗ locG (F := F) c 1 3 1 ∗ owes (c : Thread nD τ) O W) : sProp 𝕄)
      ⊢ iprop(((locPay x w c 1 3 ∗ locG (F := F) c 1 3 2 ∗ owes (c : Thread nD τ) O (insert (SemLoc.dma (lsem 1 3), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![1, 3] S1x1.size Gen.inb_S3x4_S1x1_1_3)).squeeze S_ Gen.squeezes_S1x1_S_).sem
                  (((Memref.whole cc0_scratch0).slice (Rect.unit (s := S3x1368x2048) (k0_off6 d0) S1x1368x512.size (Gen.k0_off6_inb d0)) (fun _ => rfl)).squeeze S1368x512 Gen.squeezes_S1x1368x512_S1368x512)
                  ((Memref.whole main_v1).slice (Rect.unit (s := S4096x2048) (k0_off65 d0) S1368x512.size (Gen.k0_off65_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 1 3 (hsem := rfl) (hcr := rfl)) $$ [Hc Hat HO]
  · isplitr [Hc Hat HO]; · iexact HI
    iframe Hat Hc HO Hmw
  iintro ⟨Hpay, Hat, Hr, HO⟩
  iapply Hk
  iframe Hpay Hat HO

theorem tail_2_0 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off57 d0) S1x1360x512.size (Gen.k0_off57_inb d0)) (fun _ => rfl)).squeeze S1360x512 Gen.squeezes_S1x1360x512_S1360x512).view.WordExact}
    {hdst : ((Memref.whole main_v1).slice (Rect.unit (s := S4096x2048) (k0_off56 d0) S1360x512.size (Gen.k0_off56_inb d0)) (fun _ => rfl)).view.WordExact} :
    (iprop(cellInv (ER (F := F)) (cubeRd x w) κ (locCell c 2 0) ∗ MayWait (c : Thread nD τ) (.dma (lsem 2 0)) () O
        ∗ locG (F := F) c 2 0 1 ∗ owes (c : Thread nD τ) O W) : sProp 𝕄)
      ⊢ iprop(((locPay x w c 2 0 ∗ locG (F := F) c 2 0 2 ∗ owes (c : Thread nD τ) O (insert (SemLoc.dma (lsem 2 0), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![2, 0] S1x1.size Gen.inb_S3x4_S1x1_2_0)).squeeze S_ Gen.squeezes_S1x1_S_).sem
                  (((Memref.whole cc0_scratch0).slice (Rect.unit (s := S3x1368x2048) (k0_off57 d0) S1x1360x512.size (Gen.k0_off57_inb d0)) (fun _ => rfl)).squeeze S1360x512 Gen.squeezes_S1x1360x512_S1360x512)
                  ((Memref.whole main_v1).slice (Rect.unit (s := S4096x2048) (k0_off56 d0) S1360x512.size (Gen.k0_off56_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 2 0 (hsem := rfl) (hcr := rfl)) $$ [Hc Hat HO]
  · isplitr [Hc Hat HO]; · iexact HI
    iframe Hat Hc HO Hmw
  iintro ⟨Hpay, Hat, Hr, HO⟩
  iapply Hk
  iframe Hpay Hat HO

theorem tail_2_1 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off27 d0) S1x1360x512.size (Gen.k0_off27_inb d0)) (fun _ => rfl)).squeeze S1360x512 Gen.squeezes_S1x1360x512_S1360x512).view.WordExact}
    {hdst : ((Memref.whole main_v1).slice (Rect.unit (s := S4096x2048) (k0_off60 d0) S1360x512.size (Gen.k0_off60_inb d0)) (fun _ => rfl)).view.WordExact} :
    (iprop(cellInv (ER (F := F)) (cubeRd x w) κ (locCell c 2 1) ∗ MayWait (c : Thread nD τ) (.dma (lsem 2 1)) () O
        ∗ locG (F := F) c 2 1 1 ∗ owes (c : Thread nD τ) O W) : sProp 𝕄)
      ⊢ iprop(((locPay x w c 2 1 ∗ locG (F := F) c 2 1 2 ∗ owes (c : Thread nD τ) O (insert (SemLoc.dma (lsem 2 1), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![2, 1] S1x1.size Gen.inb_S3x4_S1x1_2_1)).squeeze S_ Gen.squeezes_S1x1_S_).sem
                  (((Memref.whole cc0_scratch0).slice (Rect.unit (s := S3x1368x2048) (k0_off27 d0) S1x1360x512.size (Gen.k0_off27_inb d0)) (fun _ => rfl)).squeeze S1360x512 Gen.squeezes_S1x1360x512_S1360x512)
                  ((Memref.whole main_v1).slice (Rect.unit (s := S4096x2048) (k0_off60 d0) S1360x512.size (Gen.k0_off60_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 2 1 (hsem := rfl) (hcr := rfl)) $$ [Hc Hat HO]
  · isplitr [Hc Hat HO]; · iexact HI
    iframe Hat Hc HO Hmw
  iintro ⟨Hpay, Hat, Hr, HO⟩
  iapply Hk
  iframe Hpay Hat HO

theorem tail_2_2 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off18 d0) S1x1360x512.size (Gen.k0_off18_inb d0)) (fun _ => rfl)).squeeze S1360x512 Gen.squeezes_S1x1360x512_S1360x512).view.WordExact}
    {hdst : ((Memref.whole main_v1).slice (Rect.unit (s := S4096x2048) (k0_off63 d0) S1360x512.size (Gen.k0_off63_inb d0)) (fun _ => rfl)).view.WordExact} :
    (iprop(cellInv (ER (F := F)) (cubeRd x w) κ (locCell c 2 2) ∗ MayWait (c : Thread nD τ) (.dma (lsem 2 2)) () O
        ∗ locG (F := F) c 2 2 1 ∗ owes (c : Thread nD τ) O W) : sProp 𝕄)
      ⊢ iprop(((locPay x w c 2 2 ∗ locG (F := F) c 2 2 2 ∗ owes (c : Thread nD τ) O (insert (SemLoc.dma (lsem 2 2), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![2, 2] S1x1.size Gen.inb_S3x4_S1x1_2_2)).squeeze S_ Gen.squeezes_S1x1_S_).sem
                  (((Memref.whole cc0_scratch0).slice (Rect.unit (s := S3x1368x2048) (k0_off18 d0) S1x1360x512.size (Gen.k0_off18_inb d0)) (fun _ => rfl)).squeeze S1360x512 Gen.squeezes_S1x1360x512_S1360x512)
                  ((Memref.whole main_v1).slice (Rect.unit (s := S4096x2048) (k0_off63 d0) S1360x512.size (Gen.k0_off63_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 2 2 (hsem := rfl) (hcr := rfl)) $$ [Hc Hat HO]
  · isplitr [Hc Hat HO]; · iexact HI
    iframe Hat Hc HO Hmw
  iintro ⟨Hpay, Hat, Hr, HO⟩
  iapply Hk
  iframe Hpay Hat HO

theorem tail_2_3 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off9 d0) S1x1360x512.size (Gen.k0_off9_inb d0)) (fun _ => rfl)).squeeze S1360x512 Gen.squeezes_S1x1360x512_S1360x512).view.WordExact}
    {hdst : ((Memref.whole main_v1).slice (Rect.unit (s := S4096x2048) (k0_off66 d0) S1360x512.size (Gen.k0_off66_inb d0)) (fun _ => rfl)).view.WordExact} :
    (iprop(cellInv (ER (F := F)) (cubeRd x w) κ (locCell c 2 3) ∗ MayWait (c : Thread nD τ) (.dma (lsem 2 3)) () O
        ∗ locG (F := F) c 2 3 1 ∗ owes (c : Thread nD τ) O W) : sProp 𝕄)
      ⊢ iprop(((locPay x w c 2 3 ∗ locG (F := F) c 2 3 2 ∗ owes (c : Thread nD τ) O (insert (SemLoc.dma (lsem 2 3), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![2, 3] S1x1.size Gen.inb_S3x4_S1x1_2_3)).squeeze S_ Gen.squeezes_S1x1_S_).sem
                  (((Memref.whole cc0_scratch0).slice (Rect.unit (s := S3x1368x2048) (k0_off9 d0) S1x1360x512.size (Gen.k0_off9_inb d0)) (fun _ => rfl)).squeeze S1360x512 Gen.squeezes_S1x1360x512_S1360x512)
                  ((Memref.whole main_v1).slice (Rect.unit (s := S4096x2048) (k0_off66 d0) S1360x512.size (Gen.k0_off66_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 2 3 (hsem := rfl) (hcr := rfl)) $$ [Hc Hat HO]
  · isplitr [Hc Hat HO]; · iexact HI
    iframe Hat Hc HO Hmw
  iintro ⟨Hpay, Hat, Hr, HO⟩
  iapply Hk
  iframe Hpay Hat HO

end Cert.KernelIdeal.Body

end
-- ==== Proof.EvSend.lean ====
import proofs.«900802_g7700000000000803_dist_gemm_ar_m4096_k4096_n2048_f32_relu_v7x_i8_1_alg».proof.Proof.Proto
import proofs.«900802_g7700000000000803_dist_gemm_ar_m4096_k4096_n2048_f32_relu_v7x_i8_1_alg».proof.Proof.Views
import proofs.«900802_g7700000000000803_dist_gemm_ar_m4096_k4096_n2048_f32_relu_v7x_i8_1_alg».proof.Proof.Tables

noncomputable section

namespace Cert.KernelIdeal.Body

open Cert.KernelIdeal Cert.KernelIdeal.Gen Cert.KernelIdeal.Spec Cert.KernelIdeal.Reg Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (x : Dev nD → Vec F S4096x512 .f32) (w : Dev nD → Vec F S512x2048 .f32)

section Land

variable {W W' p p' n off off' wd : ℕ} {κ κ' : Kind} {sp sp' : Space} {e : EltTy} {Val : EltTy → Type}

theorem read_landed3 (v : View sig κ sp ⟨3, ![3, 1368, W]⟩ e) (v' : View sig κ' sp' ⟨3, ![3, 1368, W']⟩ e)
    (h : Inb3 W p n off wd) (h' : Inb3 W' p' n off' wd)
    (hn : (⟨2, ![n, wd]⟩ : Shape).numel = (⟨3, ![1, n, wd]⟩ : Shape).numel)
    (fs : v.ty.Contents Val) (fd : v'.ty.Contents Val) (y : (⟨3, ![1, n, wd]⟩ : Shape).Idx) :
    (v'.slice (rect3 h')).read Val
        (((v'.slice (rect3 h')).reshape ⟨2, ![n, wd]⟩ hn).write Val fd
          (((v.slice (rect3 h)).reshape ⟨2, ![n, wd]⟩ hn).read Val fs) Finset.univ) y
      = (v.slice (rect3 h)).read Val fs y := by
  rw [read_slice3 v' h' _ y, write_squeeze3_in v' h' hn fd _ (at3 h' (y 1) (y 2)) rfl (y 1).isLt (Nat.le_add_right _ _)
      (Nat.add_lt_add_left (y 2).isLt _), read_squeeze3 v h hn fs _, read_slice3 v h fs y]
  congr 1
  show at3 h ⟨(y 1).val, _⟩ ⟨off' + (y 2).val - off', _⟩ = at3 h (y 1) (y 2)
  congr 1
  exact Fin.ext (Nat.add_sub_cancel_left ..)

end Land

abbrev wbPiece (o : Fin 3 → ℕ) (n wd : ℕ) (hin : ∀ a, o a + (![1, n, wd] : Fin 3 → ℕ) a ≤ S3x1368x2048.size a)
    (hsq : (⟨3, ![1, n, wd]⟩ : Shape).Squeezes ⟨2, ![n, wd]⟩) : Memref sig .tc .vmem ⟨2, ![n, wd]⟩ .f32 :=
  (wbM.slice (Rect.unit (s := S3x1368x2048) o ![1, n, wd] hin) (fun _ => rfl)).squeeze ⟨2, ![n, wd]⟩ hsq

abbrev r1Piece (o : Fin 3 → ℕ) (n : ℕ) (hin : ∀ a, o a + (![1, n, 512] : Fin 3 → ℕ) a ≤ S3x1368x512.size a)
    (hsq : (⟨3, ![1, n, 512]⟩ : Shape).Squeezes ⟨2, ![n, 512]⟩) : Memref sig .tc .vmem ⟨2, ![n, 512]⟩ .f32 :=
  (r1M.slice (Rect.unit (s := S3x1368x512) o ![1, n, 512] hin) (fun _ => rfl)).squeeze ⟨2, ![n, 512]⟩ hsq

abbrev r2Piece (o : Fin 3 → ℕ) (n : ℕ) (hin : ∀ a, o a + (![1, n, 256] : Fin 3 → ℕ) a ≤ S3x1368x256.size a)
    (hsq : (⟨3, ![1, n, 256]⟩ : Shape).Squeezes ⟨2, ![n, 256]⟩) : Memref sig .tc .vmem ⟨2, ![n, 256]⟩ .f32 :=
  (r2M.slice (Rect.unit (s := S3x1368x256) o ![1, n, 256] hin) (fun _ => rfl)).squeeze ⟨2, ![n, 256]⟩ hsq

theorem set_wbPiece (c : Dev nD) {p n off wd : ℕ} (h : Inb3 2048 p n off wd)
    (hin : ∀ a, (![p, 0, off] : Fin 3 → ℕ) a + (![1, n, wd] : Fin 3 → ℕ) a ≤ S3x1368x2048.size a)
    (hsq : (⟨3, ![1, n, wd]⟩ : Shape).Squeezes ⟨2, ![n, wd]⟩) :
    (wbPiece ![p, 0, off] n wd hin hsq).view.set = wbReg c p n off wd h :=
  View.set_reshape _ _

theorem recvPay_gather (c : Dev nD) (p : Fin 3) (i : Fin 10) (hi : 4 ≤ i.val) :
    recvPay x w c p i = holdsW c p (srcOff p i (peer p i c)) (wid i) (inb_src p i (peer p i c)) (gath x w p) := by
  obtain ⟨k, hk⟩ := i
  match k, hk, hi with
  | n + 4, hk, _ => rfl

theorem recvPay_own (c : Dev nD) (p : Fin 3) (i : Fin 10) (hi : i.val < 2) :
    recvPay x w c p i
      = iprop(holdsW c p (srcOff p i (peer p i c)) (wid i) (inb_src p i (peer p i c)) (fun r col => Vals.own x w p r col (peer p i c))
          ∗ ownsW (peer p i c) p (srcOff p i (peer p i c)) (wid i) (inb_src p i (peer p i c))) := by
  obtain ⟨k, hk⟩ := i
  match k, hk, hi with
  | 0, _, _ => rfl
  | 1, _, _ => rfl

theorem sendPay_gather (c : Dev nD) (p : Fin 3) (i : Fin 10) (hi : 4 ≤ i.val) :
    sendPay (F := F) c p i = lentW c p (srcOff p i c) (wid i) (inb_src p i c) (shr i) := by
  unfold sendPay; rw [if_neg (by omega)]
theorem sendPay_reduce (c : Dev nD) (p : Fin 3) (i : Fin 10) (hi : i.val < 4) :
    sendPay (F := F) c p i = iprop(emp) := by
  unfold sendPay; rw [if_pos hi]

theorem recvPay_r1 (c : Dev nD) (p : Fin 3) :
    recvPay x w c p 2
      = iprop(holdsR1 c p (srcOff p 2 (peer p 2 c)) (fun r col => Vals.st1 x w p r col (peer p 2 c))
          ∗ ownsW (peer p 2 c) p (srcOff p 2 (peer p 2 c)) 512 (inb_src p 2 (peer p 2 c))) := rfl

theorem recvPay_r2 (c : Dev nD) (p : Fin 3) :
    recvPay x w c p 3
      = iprop(holdsR2 c p (srcOff p 3 (peer p 3 c)) (fun r col => Vals.st2 x w p r col (peer p 3 c))
          ∗ ownsW (peer p 3 c) p (srcOff p 3 (peer p 3 c)) 256 (inb_src p 3 (peer p 3 c))) := rfl

theorem ev_send_share {α : Type} {Q : α → sProp 𝕄} (c : Dev nD) (p : Fin 3) (i : Fin 10) (hi : 4 ≤ i.val)
    {n wd off : ℕ} (hn : n = rowLen p) (hwd : wd = wid i) (hoff : off = srcOff p i c)
    (h : Inb3 2048 p.val (rowLen p) off wd)
    {o o' : Fin 3 → ℕ} (ho : o = ![p.val, 0, off]) (ho' : o' = ![p.val, 0, off])
    {hin : ∀ a, o a + (![1, n, wd] : Fin 3 → ℕ) a ≤ S3x1368x2048.size a}
    {hin' : ∀ a, o' a + (![1, n, wd] : Fin 3 → ℕ) a ≤ S3x1368x2048.size a}
    {hsq hsq' : (⟨3, ![1, n, wd]⟩ : Shape).Squeezes ⟨2, ![n, wd]⟩}
    {src dst : Memref sig .tc .vmem ⟨2, ![n, wd]⟩ .f32}
    (hsrcE : src = wbPiece o n wd hin hsq) (hdstE : dst = wbPiece o' n wd hin' hsq')
    {c' : Dev nD} (hc' : c' = peer p i c)
    {sS sR : DmaSem sig} (hsS : sS = ssem p i) (hsR : sR = rsem p i)
    {q : PosShare TreeShare} (hq : q = shr i)
    {hsc : dst.view.ref.isScScratch = false} {hsrc : src.view.WordExact} {hdst : dst.view.WordExact}
    {hsem : DmaTarget.Typed (nD := nD) (τ := τ) .vmem (.dma sR) (.remote (Dev.tc c') dst (.dma sS) hsc)}
    {k : PUnit → Prog (TpuEff nD τ sig (Elt F) Λ₀ .tc) α}
    {κ₁ κ₂ : ℕ} {O₀ : CellTallies nD τ sig Unit} (O : CellTallies nD τ sig Unit)
    (hO : O₀ = O + tallyAt (recvCell (peer p i c) p i) () (credOf p i)) {W : Waits sig Unit}
    (fs : Buf (Elt F) ((wbM.access (wbRect p.val (rowLen p) off wd h)).loc (c : Thread nD τ)))
    (hfs : ∀ y : (⟨3, ![1, rowLen p, wd]⟩ : Shape).Idx,
      (wbM.access (wbRect p.val (rowLen p) off wd h)).read (Elt F) fs y = gath x w p (y 1).val (off + (y 2).val)) :
    iprop(cellInv ER (cubeRd x w) κ₁ (sendCell c p i) ∗ cellInv ER (cubeRd x w) κ₂ (recvCell (peer p i c) p i)
        ∗ (((wbM.access (wbRect p.val (rowLen p) off wd h)).loc (c : Thread nD τ)) ↦[wbReg c p.val (rowLen p) off wd h]{q} fs)
        ∗ ownsW (peer p i c) p off wd h
        ∗ owes (c : Thread nD τ) O₀ W
        ∗ dutyTok ER (sendCell c p i) 0 0 ∗ reached ER (sendCell c p i) 0
        ∗ dutyTok ER (recvCell (peer p i c) p i) 0 0 ∗ reached ER (recvCell (peer p i c) p i) 0)
      ⊢ iprop(((cred (tallyAt (sendCell c p i) () (credOf p i)) ∗ owes (c : Thread nD τ) O W)
            -∗ wp Idealize.ShloMosaic.frame (wpE (defs₀ (F := F)) Variants.none (c : Thread nD τ) none) Set.univ (k ⟨⟩) Q)
          -∗ wp Idealize.ShloMosaic.frame (wpE (defs₀ (F := F)) Variants.none (c : Thread nD τ) none) Set.univ
            (.op (.enqueueDma src (.remote (Dev.tc c') dst (.dma sS) hsc) (.dma sR) hsrc hdst hsem) k) Q) := by
  subst hn hwd hoff ho ho' hsrcE hdstE hc' hsS hsR hq
  have hsetS := set_wbPiece c h hin hsq
  have hsetD := set_wbPiece (peer p i c) h hin' hsq'
  unfold ownsW
  rw [← hsetS, ← hsetD]
  iintro ⟨Hg₁, Hg₂, Hsrc, ⟨%fd, Hdst⟩, HL, Htok₁, Hr₁, Htok₂, Hr₂⟩
  iapply (Rounds.wp_send_pointsTo (defs := defs₀ (F := F)) Variants.none ER (cubeRd x w) c.tc none
      (c' := (peer p i c).tc)
      (src := wbPiece ![p.val, 0, srcOff p i c] (rowLen p) (wid i) hin hsq)
      (dst := wbPiece ![p.val, 0, srcOff p i c] (rowLen p) (wid i) hin' hsq')
      (q := shr i) (fs := fs) (fd := fd) (κ₁ := κ₁) (κ₂ := κ₂) (W := W)
      (Tables.mem_duties_send x w c p i) (Tables.mem_duties_recv x w (peer p i c) p i) () () (credOf p i) (by unfold credOf; rw [if_neg (by omega), if_neg (by omega)]; rfl)
      (Tables.amount_send x w c p i 0) (Tables.amount_recv x w (peer p i c) p i 0) O hO
      (by
        rw [Tables.payload_send, sendPay_gather c p i hi, hsetS]
        exact exists_intro (PROP := sProp 𝕄) fs)
      (by
        rw [Tables.payload_recv, recvPay_gather x w _ p i hi, peer_peer, hsetD]
        unfold holdsW
        iintro H
        iexists _
        isplitl [H]
        · iexact H
        · ipureintro
          exact fun y => (read_landed3 wbM.view wbM.view h h hsq.numel_eq fs fd y).trans (hfs y))
      (by routes))
    $$ [Hg₁ Hg₂ Hsrc Hdst HL Htok₁ Hr₁ Htok₂ Hr₂]
  iframe

theorem ev_send_handoff {α : Type} {Q : α → sProp 𝕄} (c : Dev nD) (p : Fin 3) (i : Fin 10) (hi : i.val < 2)
    {n wd off : ℕ} (hn : n = rowLen p) (hwd : wd = wid i) (hoff : off = srcOff p i c)
    (h : Inb3 2048 p.val (rowLen p) off wd)
    {o o' : Fin 3 → ℕ} (ho : o = ![p.val, 0, off]) (ho' : o' = ![p.val, 0, off])
    {hin : ∀ a, o a + (![1, n, wd] : Fin 3 → ℕ) a ≤ S3x1368x2048.size a}
    {hin' : ∀ a, o' a + (![1, n, wd] : Fin 3 → ℕ) a ≤ S3x1368x2048.size a}
    {hsq hsq' : (⟨3, ![1, n, wd]⟩ : Shape).Squeezes ⟨2, ![n, wd]⟩}
    {src dst : Memref sig .tc .vmem ⟨2, ![n, wd]⟩ .f32}
    (hsrcE : src = wbPiece o n wd hin hsq) (hdstE : dst = wbPiece o' n wd hin' hsq')
    {c' : Dev nD} (hc' : c' = peer p i c)
    {sS sR : DmaSem sig} (hsS : sS = ssem p i) (hsR : sR = rsem p i)
    {val : ℕ → ℕ → F .f32} (hval : val = fun r col => Vals.own x w p r col c)
    {hsc : dst.view.ref.isScScratch = false} {hsrc : src.view.WordExact} {hdst : dst.view.WordExact}
    {hsem : DmaTarget.Typed (nD := nD) (τ := τ) .vmem (.dma sR) (.remote (Dev.tc c') dst (.dma sS) hsc)}
    {k : PUnit → Prog (TpuEff nD τ sig (Elt F) Λ₀ .tc) α}
    {κ₁ κ₂ : ℕ} {O₀ : CellTallies nD τ sig Unit} (O : CellTallies nD τ sig Unit)
    (hO : O₀ = O + tallyAt (recvCell (peer p i c) p i) () (credOf p i)) {W : Waits sig Unit} :
    iprop(cellInv ER (cubeRd x w) κ₁ (sendCell c p i) ∗ cellInv ER (cubeRd x w) κ₂ (recvCell (peer p i c) p i)
        ∗ holdsW c p off wd h val
        ∗ ownsW (peer p i c) p off wd h
        ∗ owes (c : Thread nD τ) O₀ W
        ∗ dutyTok ER (sendCell c p i) 0 0 ∗ reached ER (sendCell c p i) 0
        ∗ dutyTok ER (recvCell (peer p i c) p i) 0 0 ∗ reached ER (recvCell (peer p i c) p i) 0)
      ⊢ iprop(((cred (tallyAt (sendCell c p i) () (credOf p i)) ∗ owes (c : Thread nD τ) O W)
            -∗ wp Idealize.ShloMosaic.frame (wpE (defs₀ (F := F)) Variants.none (c : Thread nD τ) none) Set.univ (k ⟨⟩) Q)
          -∗ wp Idealize.ShloMosaic.frame (wpE (defs₀ (F := F)) Variants.none (c : Thread nD τ) none) Set.univ
            (.op (.enqueueDma src (.remote (Dev.tc c') dst (.dma sS) hsc) (.dma sR) hsrc hdst hsem) k) Q) := by
  subst hn hwd hoff ho ho' hsrcE hdstE hc' hsS hsR hval
  have hsetS := set_wbPiece c h hin hsq
  have hsetD := set_wbPiece (peer p i c) h hin' hsq'
  unfold holdsW ownsW
  rw [← hsetS, ← hsetD]
  iintro ⟨Hg₁, Hg₂, ⟨%fs, Hsrc, %hfs⟩, ⟨%fd, Hdst⟩, HL, Htok₁, Hr₁, Htok₂, Hr₂⟩
  iapply (Rounds.wp_send_landing_pointsTo (defs := defs₀ (F := F)) Variants.none ER (cubeRd x w) c.tc none
      (c' := (peer p i c).tc)
      (src := wbPiece ![p.val, 0, srcOff p i c] (rowLen p) (wid i) hin hsq)
      (dst := wbPiece ![p.val, 0, srcOff p i c] (rowLen p) (wid i) hin' hsq')
      (q := fullShare) (fs := fs) (fd := fd) (κ₁ := κ₁) (κ₂ := κ₂) (W := W)
      (Tables.mem_duties_send x w c p i) (Tables.mem_duties_recv x w (peer p i c) p i) () () (credOf p i) (by unfold credOf; rw [if_neg (by omega), if_neg (by omega)]; rfl)
      (Tables.amount_send x w c p i 0) (Tables.amount_recv x w (peer p i c) p i 0) O hO (by rw [Tables.payload_send, sendPay_reduce c p i (by omega)])
      (by
        rw [Tables.payload_recv, recvPay_own x w _ p i hi, peer_peer, hsetS]
        unfold holdsW ownsW
        iintro ⟨Hd, Hs⟩
        isplitl [Hd]
        · iexists _
          isplitl [Hd]
          · iexact Hd
          · ipureintro
            exact fun y => (read_landed3 wbM.view wbM.view h h hsq.numel_eq fs fd y).trans (hfs y)
        · iexists fs
          iexact Hs)
      (by routes))
    $$ [Hg₁ Hg₂ Hsrc Hdst HL Htok₁ Hr₁ Htok₂ Hr₂]
  iframe

theorem ev_send_handoff_r1 {α : Type} {Q : α → sProp 𝕄} (c : Dev nD) (p : Fin 3)
    {n off : ℕ} (hn : n = rowLen p) (hoff : off = srcOff p 2 c)
    (h : Inb3 2048 p.val (rowLen p) off 512)
    {o o' : Fin 3 → ℕ} (ho : o = ![p.val, 0, off]) (ho' : o' = ![p.val, 0, 0])
    {hin : ∀ a, o a + (![1, n, 512] : Fin 3 → ℕ) a ≤ S3x1368x2048.size a}
    {hin' : ∀ a, o' a + (![1, n, 512] : Fin 3 → ℕ) a ≤ S3x1368x512.size a}
    {hsq hsq' : (⟨3, ![1, n, 512]⟩ : Shape).Squeezes ⟨2, ![n, 512]⟩}
    {src dst : Memref sig .tc .vmem ⟨2, ![n, 512]⟩ .f32}
    (hsrcE : src = wbPiece o n 512 hin hsq) (hdstE : dst = r1Piece o' n hin' hsq')
    {c' : Dev nD} (hc' : c' = peer p 2 c)
    {sS sR : DmaSem sig} (hsS : sS = ssem p 2) (hsR : sR = rsem p 2)
    {val : ℕ → ℕ → F .f32} (hval : val = fun r col => Vals.st1 x w p r col c)
    {hsc : dst.view.ref.isScScratch = false} {hsrc : src.view.WordExact} {hdst : dst.view.WordExact}
    {hsem : DmaTarget.Typed (nD := nD) (τ := τ) .vmem (.dma sR) (.remote (Dev.tc c') dst (.dma sS) hsc)}
    {k : PUnit → Prog (TpuEff nD τ sig (Elt F) Λ₀ .tc) α}
    {κ₁ κ₂ : ℕ} {O₀ : CellTallies nD τ sig Unit} (O : CellTallies nD τ sig Unit)
    (hO : O₀ = O + tallyAt (recvCell (peer p 2 c) p 2) () (credOf p 2)) {W : Waits sig Unit} :
    iprop(cellInv ER (cubeRd x w) κ₁ (sendCell c p 2) ∗ cellInv ER (cubeRd x w) κ₂ (recvCell (peer p 2 c) p 2)
        ∗ holdsW c p off 512 h val
        ∗ ownsR1 (peer p 2 c) p
        ∗ owes (c : Thread nD τ) O₀ W
        ∗ dutyTok ER (sendCell c p 2) 0 0 ∗ reached ER (sendCell c p 2) 0
        ∗ dutyTok ER (recvCell (peer p 2 c) p 2) 0 0 ∗ reached ER (recvCell (peer p 2 c) p 2) 0)
      ⊢ iprop(((cred (tallyAt (sendCell c p 2) () (credOf p 2)) ∗ owes (c : Thread nD τ) O W)
            -∗ wp Idealize.ShloMosaic.frame (wpE (defs₀ (F := F)) Variants.none (c : Thread nD τ) none) Set.univ (k ⟨⟩) Q)
          -∗ wp Idealize.ShloMosaic.frame (wpE (defs₀ (F := F)) Variants.none (c : Thread nD τ) none) Set.univ
            (.op (.enqueueDma src (.remote (Dev.tc c') dst (.dma sS) hsc) (.dma sR) hsrc hdst hsem) k) Q) := by
  subst hn hoff ho ho' hsrcE hdstE hc' hsS hsR hval
  have hsetS := set_wbPiece c h hin hsq
  have hsetD : (r1Piece ![p.val, 0, 0] (rowLen p) hin' hsq').view.set = r1Reg (peer p 2 c) p.val (rowLen p) 0 512 (inb_r1 p) :=
    View.set_reshape _ _
  unfold holdsW ownsR1
  iintro ⟨Hg₁, Hg₂, ⟨%fs, Hsrc, %hfs⟩, ⟨%fd, Hdst⟩, HL, Htok₁, Hr₁, Htok₂, Hr₂⟩
  iapply (Rounds.wp_send_landing_pointsTo (defs := defs₀ (F := F)) Variants.none ER (cubeRd x w) c.tc none
      (c' := (peer p 2 c).tc)
      (src := wbPiece ![p.val, 0, srcOff p 2 c] (rowLen p) 512 hin hsq)
      (dst := r1Piece ![p.val, 0, 0] (rowLen p) hin' hsq')
      (q := fullShare) (fs := fs) (fd := fd) (κ₁ := κ₁) (κ₂ := κ₂) (W := W)
      (Tables.mem_duties_send x w c p 2) (Tables.mem_duties_recv x w (peer p 2 c) p 2) () () (credOf p 2) (by unfold credOf; rw [if_pos (by decide)]; rfl)
      (Tables.amount_send x w c p 2 0) (Tables.amount_recv x w (peer p 2 c) p 2 0) O hO (by rw [Tables.payload_send, sendPay_reduce c p 2 (by decide)])
      (by
        rw [Tables.payload_recv, recvPay_r1 x w _ p, peer_peer, hsetS, hsetD]
        unfold holdsR1 ownsW
        iintro ⟨Hd, Hs⟩
        isplitl [Hd]
        · iexists _
          isplitl [Hd]
          · iexact Hd
          · ipureintro
            exact fun y => (read_landed3 wbM.view r1M.view h (inb_r1 p) hsq.numel_eq fs fd y).trans (hfs y)
        · iexists fs
          iexact Hs)
      (by routes))
    $$ [Hg₁ Hg₂ Hsrc Hdst HL Htok₁ Hr₁ Htok₂ Hr₂]
  rw [hsetS, hsetD]
  iframe

theorem ev_send_handoff_r2 {α : Type} {Q : α → sProp 𝕄} (c : Dev nD) (p : Fin 3)
    {n off : ℕ} (hn : n = rowLen p) (hoff : off = srcOff p 3 c)
    (h : Inb3 2048 p.val (rowLen p) off 256)
    {o o' : Fin 3 → ℕ} (ho : o = ![p.val, 0, off]) (ho' : o' = ![p.val, 0, 0])
    {hin : ∀ a, o a + (![1, n, 256] : Fin 3 → ℕ) a ≤ S3x1368x2048.size a}
    {hin' : ∀ a, o' a + (![1, n, 256] : Fin 3 → ℕ) a ≤ S3x1368x256.size a}
    {hsq hsq' : (⟨3, ![1, n, 256]⟩ : Shape).Squeezes ⟨2, ![n, 256]⟩}
    {src dst : Memref sig .tc .vmem ⟨2, ![n, 256]⟩ .f32}
    (hsrcE : src = wbPiece o n 256 hin hsq) (hdstE : dst = r2Piece o' n hin' hsq')
    {c' : Dev nD} (hc' : c' = peer p 3 c)
    {sS sR : DmaSem sig} (hsS : sS = ssem p 3) (hsR : sR = rsem p 3)
    {val : ℕ → ℕ → F .f32} (hval : val = fun r col => Vals.st2 x w p r col c)
    {hsc : dst.view.ref.isScScratch = false} {hsrc : src.view.WordExact} {hdst : dst.view.WordExact}
    {hsem : DmaTarget.Typed (nD := nD) (τ := τ) .vmem (.dma sR) (.remote (Dev.tc c') dst (.dma sS) hsc)}
    {k : PUnit → Prog (TpuEff nD τ sig (Elt F) Λ₀ .tc) α}
    {κ₁ κ₂ : ℕ} {O₀ : CellTallies nD τ sig Unit} (O : CellTallies nD τ sig Unit)
    (hO : O₀ = O + tallyAt (recvCell (peer p 3 c) p 3) () (credOf p 3)) {W : Waits sig Unit} :
    iprop(cellInv ER (cubeRd x w) κ₁ (sendCell c p 3) ∗ cellInv ER (cubeRd x w) κ₂ (recvCell (peer p 3 c) p 3)
        ∗ holdsW c p off 256 h val
        ∗ ownsR2 (peer p 3 c) p
        ∗ owes (c : Thread nD τ) O₀ W
        ∗ dutyTok ER (sendCell c p 3) 0 0 ∗ reached ER (sendCell c p 3) 0
        ∗ dutyTok ER (recvCell (peer p 3 c) p 3) 0 0 ∗ reached ER (recvCell (peer p 3 c) p 3) 0)
      ⊢ iprop(((cred (tallyAt (sendCell c p 3) () (credOf p 3)) ∗ owes (c : Thread nD τ) O W)
            -∗ wp Idealize.ShloMosaic.frame (wpE (defs₀ (F := F)) Variants.none (c : Thread nD τ) none) Set.univ (k ⟨⟩) Q)
          -∗ wp Idealize.ShloMosaic.frame (wpE (defs₀ (F := F)) Variants.none (c : Thread nD τ) none) Set.univ
            (.op (.enqueueDma src (.remote (Dev.tc c') dst (.dma sS) hsc) (.dma sR) hsrc hdst hsem) k) Q) := by
  subst hn hoff ho ho' hsrcE hdstE hc' hsS hsR hval
  have hsetS := set_wbPiece c h hin hsq
  have hsetD : (r2Piece ![p.val, 0, 0] (rowLen p) hin' hsq').view.set = r2Reg (peer p 3 c) p.val (rowLen p) 0 256 (inb_r2 p) :=
    View.set_reshape _ _
  unfold holdsW ownsR2
  iintro ⟨Hg₁, Hg₂, ⟨%fs, Hsrc, %hfs⟩, ⟨%fd, Hdst⟩, HL, Htok₁, Hr₁, Htok₂, Hr₂⟩
  iapply (Rounds.wp_send_landing_pointsTo (defs := defs₀ (F := F)) Variants.none ER (cubeRd x w) c.tc none
      (c' := (peer p 3 c).tc)
      (src := wbPiece ![p.val, 0, srcOff p 3 c] (rowLen p) 256 hin hsq)
      (dst := r2Piece ![p.val, 0, 0] (rowLen p) hin' hsq')
      (q := fullShare) (fs := fs) (fd := fd) (κ₁ := κ₁) (κ₂ := κ₂) (W := W)
      (Tables.mem_duties_send x w c p 3) (Tables.mem_duties_recv x w (peer p 3 c) p 3) () () (credOf p 3) (by unfold credOf; rw [if_neg (by decide), if_pos (by decide)]; rfl)
      (Tables.amount_send x w c p 3 0) (Tables.amount_recv x w (peer p 3 c) p 3 0) O hO (by rw [Tables.payload_send, sendPay_reduce c p 3 (by decide)])
      (by
        rw [Tables.payload_recv, recvPay_r2 x w _ p, peer_peer, hsetS, hsetD]
        unfold holdsR2 ownsW
        iintro ⟨Hd, Hs⟩
        isplitl [Hd]
        · iexists _
          isplitl [Hd]
          · iexact Hd
          · ipureintro
            exact fun y => (read_landed3 wbM.view r2M.view h (inb_r2 p) hsq.numel_eq fs fd y).trans (hfs y)
        · iexists fs
          iexact Hs)
      (by routes))
    $$ [Hg₁ Hg₂ Hsrc Hdst HL Htok₁ Hr₁ Htok₂ Hr₂]
  rw [hsetS, hsetD]
  iframe

end Cert.KernelIdeal.Body

end
-- ==== Proof.Pays.lean ====
import proofs.«900802_g7700000000000803_dist_gemm_ar_m4096_k4096_n2048_f32_relu_v7x_i8_1_alg».proof.Proof.Vals
import proofs.«900802_g7700000000000803_dist_gemm_ar_m4096_k4096_n2048_f32_relu_v7x_i8_1_alg».proof.Proof.Gen.KernelIdeal.Skeleton
import Idealize.ShloMosaic.Lib.Pipeline.Value
import Idealize.ShloMosaic.Lib.ValueLayout
import Idealize.ShloMosaic.Lib.ValueIdx

noncomputable section

namespace Cert.KernelIdeal.Pays

open Idealize.ShloMosaic Idealize.ShloMosaic.ValueIdx Cert.KernelIdeal Cert.KernelIdeal.Gen Cert.KernelIdeal.Spec

section Casts
variable {α : Type} {n wd : ℕ}

abbrev inner (y : (⟨3, ![1, n, wd]⟩ : Shape).Idx) : (⟨2, ![n, wd]⟩ : Shape).Idx :=
  ix2 (⟨(y 1).val, (y 1).isLt⟩ : Fin n) (⟨(y 2).val, (y 2).isLt⟩ : Fin wd)

theorem cast_add_apply (v : (⟨2, ![n, wd]⟩ : Shape).Idx → α) (h : (⟨2, ![n, wd]⟩ : Shape).ShapeCasts ⟨3, ![1, n, wd]⟩)
    (y : (⟨3, ![1, n, wd]⟩ : Shape).Idx) : shapeCast ⟨3, ![1, n, wd]⟩ v h y = v (inner y) := by
  obtain ⟨u, r, q, rfl⟩ : ∃ (u : Fin 1) (r : Fin n) (q : Fin wd), y = ix3 u r q := ⟨y 0, y 1, y 2, eq_ix3 y⟩
  exact shapeCast_ab_1ab_apply v h u r q

theorem cast_drop_apply (v : (⟨3, ![1, n, wd]⟩ : Shape).Idx → α) (h : (⟨3, ![1, n, wd]⟩ : Shape).ShapeCasts ⟨2, ![n, wd]⟩)
    (y : (⟨3, ![1, n, wd]⟩ : Shape).Idx) : shapeCast ⟨2, ![n, wd]⟩ v h (inner y) = v y := by
  obtain ⟨u, r, q, rfl⟩ : ∃ (u : Fin 1) (r : Fin n) (q : Fin wd), y = ix3 u r q := ⟨y 0, y 1, y 2, eq_ix3 y⟩
  have hu : u = 0 := Subsingleton.elim _ _
  subst hu
  exact shapeCast_1ab_ab_apply v h r q

end Casts

variable {F : FTy → Type} [FloatOps F]

section Shapes
variable {n wd : ℕ}

theorem add_cast_apply (u : (⟨3, ![1, n, wd]⟩ : Shape).Idx → F .f32) (g : (⟨2, ![n, wd]⟩ : Shape).Idx → F .f32)
    (h : (⟨3, ![1, n, wd]⟩ : Shape).ShapeCasts ⟨2, ![n, wd]⟩) (h' : (⟨2, ![n, wd]⟩ : Shape).ShapeCasts ⟨3, ![1, n, wd]⟩)
    (y : (⟨3, ![1, n, wd]⟩ : Shape).Idx) :
    shapeCast ⟨3, ![1, n, wd]⟩ (addf (shapeCast ⟨2, ![n, wd]⟩ u h) g) h' y = FloatOps.addf (u y) (g (inner y)) :=
  (cast_add_apply _ h' y).trans (congrArg (FloatOps.addf · _) (cast_drop_apply u h y))

theorem add_cast_cast_apply (u v : (⟨3, ![1, n, wd]⟩ : Shape).Idx → F .f32)
    (h₁ h₂ : (⟨3, ![1, n, wd]⟩ : Shape).ShapeCasts ⟨2, ![n, wd]⟩) (h' : (⟨2, ![n, wd]⟩ : Shape).ShapeCasts ⟨3, ![1, n, wd]⟩)
    (y : (⟨3, ![1, n, wd]⟩ : Shape).Idx) :
    shapeCast ⟨3, ![1, n, wd]⟩ (addf (shapeCast ⟨2, ![n, wd]⟩ u h₁) (shapeCast ⟨2, ![n, wd]⟩ v h₂)) h' y
      = FloatOps.addf (u y) (v y) := by
  rw [add_cast_apply, cast_drop_apply]

theorem max_add_cast_cast_apply (u v : (⟨3, ![1, n, wd]⟩ : Shape).Idx → F .f32) (z : F .f32)
    (h₁ h₂ : (⟨3, ![1, n, wd]⟩ : Shape).ShapeCasts ⟨2, ![n, wd]⟩) (h' : (⟨2, ![n, wd]⟩ : Shape).ShapeCasts ⟨3, ![1, n, wd]⟩)
    (y : (⟨3, ![1, n, wd]⟩ : Shape).Idx) :
    shapeCast ⟨3, ![1, n, wd]⟩ (maximumf (addf (shapeCast ⟨2, ![n, wd]⟩ u h₁) (shapeCast ⟨2, ![n, wd]⟩ v h₂)) (broadcast ⟨2, ![n, wd]⟩ z)) h' y
      = FloatOps.maximumf (FloatOps.addf (u y) (v y)) z :=
  (cast_add_apply _ h' y).trans
    (congrArg₂ (fun a b => FloatOps.maximumf (FloatOps.addf a b) z) (cast_drop_apply u h₁ y) (cast_drop_apply v h₂ y))

end Shapes

theorem pay3_apply (a : Vec F S1368x512 .f32) (bm : Vec F S512x512 .f32) (y : S1x1368x512.Idx) :
    k0_pay3 (k0_pay1 a) (k0_pay2 bm) y = Vals.mmA a bm (inner y) :=
  cast_add_apply (Vals.mmA a bm) _ y
theorem pay4_apply (a : Vec F S1368x512 .f32) (bm : Vec F S512x512 .f32) (y : S1x1368x512.Idx) :
    k0_pay4 a bm y = Vals.mmA a bm (inner y) :=
  cast_add_apply (Vals.mmA a bm) _ y
theorem pay5_apply (a : Vec F S1360x512 .f32) (bm : Vec F S512x512 .f32) (y : S1x1360x512.Idx) :
    k0_pay5 a bm y = Vals.mmB a bm (inner y) :=
  cast_add_apply (Vals.mmB a bm) _ y
theorem pay7_apply (a : Vec F S1368x512 .f32) (bm : Vec F S512x512 .f32) (y : S1x1368x512.Idx) :
    k0_pay7 (k0_pay6 a bm) y = Vals.mmA a bm (inner y) :=
  cast_add_apply (Vals.mmA a bm) _ y
theorem pay8_apply (a : Vec F S1368x512 .f32) (bm : Vec F S512x512 .f32) (y : S1x1368x512.Idx) :
    k0_pay8 a bm y = Vals.mmA a bm (inner y) :=
  cast_add_apply (Vals.mmA a bm) _ y
theorem pay9_apply (a : Vec F S1360x512 .f32) (bm : Vec F S512x512 .f32) (y : S1x1360x512.Idx) :
    k0_pay9 a bm y = Vals.mmB a bm (inner y) :=
  cast_add_apply (Vals.mmB a bm) _ y

theorem pay10_apply (v : Vec F S1x1368x512 .f32) (a : Vec F S1368x512 .f32) (bm : Vec F S512x512 .f32) (y : S1x1368x512.Idx) :
    k0_pay10 v a bm y = FloatOps.addf (v y) (Vals.mmA a bm (inner y)) :=
  add_cast_apply v (Vals.mmA a bm) _ _ y
theorem pay11_apply (v : Vec F S1x1368x512 .f32) (a : Vec F S1368x512 .f32) (bm : Vec F S512x512 .f32) (y : S1x1368x512.Idx) :
    k0_pay11 v a bm y = FloatOps.addf (v y) (Vals.mmA a bm (inner y)) :=
  add_cast_apply v (Vals.mmA a bm) _ _ y
theorem pay13_apply (v : Vec F S1x1360x512 .f32) (a : Vec F S1360x512 .f32) (bm : Vec F S512x512 .f32) (y : S1x1360x512.Idx) :
    k0_pay13 (k0_pay12 v) a bm y = FloatOps.addf (v y) (Vals.mmB a bm (inner y)) :=
  add_cast_apply v (Vals.mmB a bm) _ _ y
theorem pay14_apply (v : Vec F S1x1368x512 .f32) (a : Vec F S1368x512 .f32) (bm : Vec F S512x512 .f32) (y : S1x1368x512.Idx) :
    k0_pay14 v a bm y = FloatOps.addf (v y) (Vals.mmA a bm (inner y)) :=
  add_cast_apply v (Vals.mmA a bm) _ _ y
theorem pay19_apply (v : Vec F S1x1368x512 .f32) (a : Vec F S1368x512 .f32) (bm : Vec F S512x512 .f32) (y : S1x1368x512.Idx) :
    k0_pay19 (k0_pay17 v) (k0_pay18 a) bm y = FloatOps.addf (v y) (Vals.mmA a bm (inner y)) :=
  add_cast_apply v (Vals.mmA a bm) _ _ y
theorem pay23_apply (v : Vec F S1x1360x512 .f32) (a : Vec F S1360x512 .f32) (bm : Vec F S512x512 .f32) (y : S1x1360x512.Idx) :
    k0_pay23 v a bm y = FloatOps.addf (v y) (Vals.mmB a bm (inner y)) :=
  add_cast_apply v (Vals.mmB a bm) _ _ y

theorem pay15_apply (u v : Vec F S1x1368x256 .f32) (y : S1x1368x256.Idx) : k0_pay15 u v y = FloatOps.addf (u y) (v y) :=
  add_cast_cast_apply u v _ _ _ y
theorem pay16_apply (u v : Vec F S1x1368x256 .f32) (y : S1x1368x256.Idx) : k0_pay16 u v y = FloatOps.addf (u y) (v y) :=
  add_cast_cast_apply u v _ _ _ y
theorem pay21_apply (u v : Vec F S1x1368x256 .f32) (y : S1x1368x256.Idx) : k0_pay21 (k0_pay20 u) v y = FloatOps.addf (u y) (v y) :=
  add_cast_cast_apply u v _ _ _ y
theorem pay22_apply (u v : Vec F S1x1368x256 .f32) (y : S1x1368x256.Idx) : k0_pay22 u v y = FloatOps.addf (u y) (v y) :=
  add_cast_cast_apply u v _ _ _ y
theorem pay24_apply (u v : Vec F S1x1360x256 .f32) (y : S1x1360x256.Idx) : k0_pay24 u v y = FloatOps.addf (u y) (v y) :=
  add_cast_cast_apply u v _ _ _ y
theorem pay25_apply (u v : Vec F S1x1360x256 .f32) (y : S1x1360x256.Idx) : k0_pay25 u v y = FloatOps.addf (u y) (v y) :=
  add_cast_cast_apply u v _ _ _ y

theorem pay26_apply (u v : Vec F S1x1368x256 .f32) (y : S1x1368x256.Idx) :
    k0_pay26 u v y = FloatOps.maximumf (FloatOps.addf (u y) (v y)) (Scalar.ofBits .f32 0x00000000#32) :=
  max_add_cast_cast_apply u v _ _ _ _ y
theorem pay27_apply (u v : Vec F S1x1368x256 .f32) (y : S1x1368x256.Idx) :
    k0_pay27 u v y = FloatOps.maximumf (FloatOps.addf (u y) (v y)) (Scalar.ofBits .f32 0x00000000#32) :=
  max_add_cast_cast_apply u v _ _ _ _ y
theorem pay28_apply (u v : Vec F S1x1360x256 .f32) (y : S1x1360x256.Idx) :
    k0_pay28 u v y = FloatOps.maximumf (FloatOps.addf (u y) (v y)) (Scalar.ofBits .f32 0x00000000#32) :=
  max_add_cast_cast_apply u v _ _ _ _ y

-- a rectangle of consecutive coordinates sends `y` to its first coordinate plus `y` on every axis
private theorem unit_idx_val {s : Shape} {o sz : Fin s.rank → ℕ} (hb : ∀ a, o a + sz a ≤ s.size a)
    (y : (Rect.unit o sz hb).toLoadRect.shape.Idx) (a : Fin s.rank) :
    ((Rect.unit o sz hb).toLoadRect.idx y a).val = o a + (y a).val :=
  congrArg (o a + ·) (Nat.one_mul _)

theorem rowsA_readAt (x : Dev nD → Vec F S4096x512 .f32) (d : Dev nD) (o : Fin 2 → ℕ) (r0 : ℕ) (h0 : o 0 = r0) (h1 : o 1 = 0)
    (hb : ∀ a, o a + S1368x512.size a ≤ S4096x512.size a) (hr : r0 + 1368 ≤ 4096) :
    (Memref.whole cc0_stg0_0 : Memref sig .tc .vmem S4096x512 .f32).view.readAt (Elt F)
        (Rect.unit (s := S4096x512) o S1368x512.size hb).toLoadRect (x d)
      = Vals.xrowsA x d r0 hr :=
  funext fun y => congrArg (x d) <| funext fun a => Fin.ext <| (unit_idx_val hb y a).trans <| by
    match a with
    | ⟨0, _⟩ => exact congrArg (· + _) h0
    | ⟨1, _⟩ => exact (congrArg (· + _) h1).trans (Nat.zero_add _)

theorem rowsB_readAt (x : Dev nD → Vec F S4096x512 .f32) (d : Dev nD) (o : Fin 2 → ℕ) (h0 : o 0 = 2736) (h1 : o 1 = 0)
    (hb : ∀ a, o a + S1360x512.size a ≤ S4096x512.size a) :
    (Memref.whole cc0_stg0_0 : Memref sig .tc .vmem S4096x512 .f32).view.readAt (Elt F)
        (Rect.unit (s := S4096x512) o S1360x512.size hb).toLoadRect (x d)
      = Vals.xrowsB x d :=
  funext fun y => congrArg (x d) <| funext fun a => Fin.ext <| (unit_idx_val hb y a).trans <| by
    match a with
    | ⟨0, _⟩ => exact congrArg (· + _) h0
    | ⟨1, _⟩ => exact (congrArg (· + _) h1).trans (Nat.zero_add _)

theorem cols_readAt (w : Dev nD → Vec F S512x2048 .f32) (d : Dev nD) (o : Fin 2 → ℕ) (t : Fin 4) (h0 : o 0 = 0) (h1 : o 1 = 512 * t.val)
    (hb : ∀ a, o a + S512x512.size a ≤ S512x2048.size a) :
    (Memref.whole cc0_stg1_0 : Memref sig .tc .vmem S512x2048 .f32).view.readAt (Elt F)
        (Rect.unit (s := S512x2048) o S512x512.size hb).toLoadRect (w d)
      = Vals.wcols w d t :=
  funext fun y => congrArg (w d) <| funext fun a => Fin.ext <| (unit_idx_val hb y a).trans <| by
    match a with
    | ⟨0, _⟩ => exact (congrArg (· + _) h0).trans (Nat.zero_add _)
    | ⟨1, _⟩ => exact congrArg (· + _) h1

theorem wcols_congr (w : Dev nD → Vec F S512x2048 .f32) (d : Dev nD) (t t' : Fin 4) (h : t.val = t'.val) :
    Vals.wcols w d t = Vals.wcols w d t' := by cases Fin.ext h; rfl

theorem col_split (t : Fin 4) (q : Fin 512) :
    512 * t.val + q.val < 2048 ∧ (512 * t.val + q.val) / 512 = t.val ∧ (512 * t.val + q.val) % 512 = q.val := by
  have ht := t.isLt; have hq := q.isLt
  refine ⟨by omega, ?_, ?_⟩
  · rw [Nat.mul_add_div (by decide : 0 < 512), Nat.div_eq_of_lt hq, Nat.add_zero]
  · rw [Nat.mul_add_mod, Nat.mod_eq_of_lt hq]

theorem mmA_own0 (x : Dev nD → Vec F S4096x512 .f32) (w : Dev nD → Vec F S512x2048 .f32) (c : Dev nD)
    (hr0 : 0 + 1368 ≤ 4096) (t : Fin 4) (r : Fin 1368) (q : Fin 512) :
    Vals.mmA (Vals.xrowsA x c 0 hr0) (Vals.wcols w c t) (ix2 r q) = Vals.own x w 0 r.val (512 * t.val + q.val) c := by
  obtain ⟨hc, hd, hm⟩ := col_split t q
  unfold Vals.own
  rw [dif_pos hc]
  show _ = (if hr : r.val < 1368 then _ else _)
  rw [dif_pos r.isLt]
  rw [wcols_congr w c ⟨(512 * t.val + q.val) / 512, _⟩ t hd]
  exact congrArg (Vals.mmA (Vals.xrowsA x c 0 hr0) (Vals.wcols w c t)) (congrArg (ix2 r) (Fin.ext hm.symm))

theorem mmA_own1 (x : Dev nD → Vec F S4096x512 .f32) (w : Dev nD → Vec F S512x2048 .f32) (c : Dev nD)
    (hr0 : 1368 + 1368 ≤ 4096) (t : Fin 4) (r : Fin 1368) (q : Fin 512) :
    Vals.mmA (Vals.xrowsA x c 1368 hr0) (Vals.wcols w c t) (ix2 r q) = Vals.own x w 1 r.val (512 * t.val + q.val) c := by
  obtain ⟨hc, hd, hm⟩ := col_split t q
  unfold Vals.own
  rw [dif_pos hc]
  show _ = (if hr : r.val < 1368 then _ else _)
  rw [dif_pos r.isLt]
  rw [wcols_congr w c ⟨(512 * t.val + q.val) / 512, _⟩ t hd]
  exact congrArg (Vals.mmA (Vals.xrowsA x c 1368 hr0) (Vals.wcols w c t)) (congrArg (ix2 r) (Fin.ext hm.symm))

theorem mmB_own2 (x : Dev nD → Vec F S4096x512 .f32) (w : Dev nD → Vec F S512x2048 .f32) (c : Dev nD)
    (t : Fin 4) (r : Fin 1360) (q : Fin 512) :
    Vals.mmB (Vals.xrowsB x c) (Vals.wcols w c t) (ix2 r q) = Vals.own x w 2 r.val (512 * t.val + q.val) c := by
  obtain ⟨hc, hd, hm⟩ := col_split t q
  unfold Vals.own
  rw [dif_pos hc]
  show _ = (if hr : r.val < 1360 then _ else _)
  rw [dif_pos r.isLt]
  rw [wcols_congr w c ⟨(512 * t.val + q.val) / 512, _⟩ t hd]
  exact congrArg (Vals.mmB (Vals.xrowsB x c) (Vals.wcols w c t)) (congrArg (ix2 r) (Fin.ext hm.symm))

end Cert.KernelIdeal.Pays

end
-- ==== Proof.EvStore.lean ====
import proofs.«900802_g7700000000000803_dist_gemm_ar_m4096_k4096_n2048_f32_relu_v7x_i8_1_alg».proof.Proof.Proto
import proofs.«900802_g7700000000000803_dist_gemm_ar_m4096_k4096_n2048_f32_relu_v7x_i8_1_alg».proof.Proof.Forms
import proofs.«900802_g7700000000000803_dist_gemm_ar_m4096_k4096_n2048_f32_relu_v7x_i8_1_alg».proof.Proof.Pays
import Idealize.ShloMosaic.Lib.Tactic

noncomputable section

namespace Cert.KernelIdeal.Body

open Cert.KernelIdeal Cert.KernelIdeal.Gen Cert.KernelIdeal.Spec Cert.KernelIdeal.Reg Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

local notation "𝒱₀" => Variants.none

section Ops

variable (c : Dev nD) (p : Fin 3) (off wd : ℕ) (h : Inb3 2048 p.val (rowLen p) off wd)

theorem wp_Swb {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    {pl : (⟨3, ![1, rowLen p, wd]⟩ : Shape).Idx → Elt F .f32} (val : ℕ → ℕ → F .f32)
    (hpl : ∀ y, pl y = val (y 1).val (off + (y 2).val))
    {hx : (mW.access (Rect.unit (s := S3x1368x2048) o ![1, rowLen p, wd] hb)).Stores Finset.univ}
    {hm : (Finset.univ : Finset (Rect.unit (s := S3x1368x2048) o ![1, rowLen p, wd] hb).shape.Idx) = Finset.univ ∨ ∀ a, (Rect.unit (s := S3x1368x2048) o ![1, rowLen p, wd] hb).stride a = 1}
    {k : PUnit → Prog (TpuEff nD τ sig (Elt F) Λ₀ .tc) PUnit} {Q : PUnit → sProp 𝕄} :
    ownsW (F := F) c p off wd h
      ⊢ iprop((holdsW c p off wd h val -∗ wp frame (wpE (defs₀ (F := F)) 𝒱₀ c none) Set.univ (k ⟨⟩) Q)
        -∗ wp frame (wpE (defs₀ (F := F)) 𝒱₀ c none) Set.univ
            (.op (.store mW (Rect.unit (s := S3x1368x2048) o ![1, rowLen p, wd] hb) pl Finset.univ hx hm) k) Q) := by
  subst hmW; subst ho
  unfold ownsW holdsW
  iintro ⟨%f, Hf⟩ Hk
  iapply (wp_store 𝒱₀ (c : Thread nD τ) none Set.univ (m := wbM) (r := wbRect p.val (rowLen p) off wd h) (Mk := Finset.univ) (S := wbReg c p.val (rowLen p) off wd h) (Finset.Subset.refl _)) $$ Hf
  iintro Hf
  iapply Hk
  iexists _; isplitl
  · iexact Hf
  ipureintro
  intro y
  exact (View.read_write_of_mem (v := wbM.access (wbRect p.val (rowLen p) off wd h)) f pl (Finset.mem_univ y)).trans (hpl y)

theorem wp_Lwb {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    (val : ℕ → ℕ → F .f32)
    {hl : mW.view.LoadsAt (Rect.unit (s := S3x1368x2048) o ![1, rowLen p, wd] hb).toLoadRect}
    {α : Type} {k : ((⟨3, ![1, rowLen p, wd]⟩ : Shape).Idx → Elt F .f32) → Prog (TpuEff nD τ sig (Elt F) Λ₀ .tc) α} {Q : α → sProp 𝕄} :
    holdsW c p off wd h val
      ⊢ iprop((∀ u : (⟨3, ![1, rowLen p, wd]⟩ : Shape).Idx → Elt F .f32, ⌜∀ y, u y = val (y 1).val (off + (y 2).val)⌝
            -∗ holdsW c p off wd h val -∗ wp frame (wpE (defs₀ (F := F)) 𝒱₀ c none) Set.univ (k u) Q)
        -∗ wp frame (wpE (defs₀ (F := F)) 𝒱₀ c none) Set.univ
            (.op (.load mW (Rect.unit (s := S3x1368x2048) o ![1, rowLen p, wd] hb).toLoadRect hl) k) Q) := by
  subst hmW; subst ho
  unfold holdsW
  iintro ⟨%f, Hf, %hf⟩ Hk
  iapply (wp_load_rect 𝒱₀ (c : Thread nD τ) none Set.univ (m := wbM) (r := wbRect p.val (rowLen p) off wd h) (S := wbReg c p.val (rowLen p) off wd h) (Finset.Subset.refl _)) $$ Hf
  iintro Hf
  iapply Hk $$ %_ %hf
  iexists f; isplitl
  · iexact Hf
  ipureintro; exact hf

theorem wp_Lwb_owns {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    {hl : mW.view.LoadsAt (Rect.unit (s := S3x1368x2048) o ![1, rowLen p, wd] hb).toLoadRect}
    {α : Type} {k : ((⟨3, ![1, rowLen p, wd]⟩ : Shape).Idx → Elt F .f32) → Prog (TpuEff nD τ sig (Elt F) Λ₀ .tc) α} {Q : α → sProp 𝕄} :
    ownsW (F := F) c p off wd h
      ⊢ iprop((∀ u : (⟨3, ![1, rowLen p, wd]⟩ : Shape).Idx → Elt F .f32,
            ownsW c p off wd h -∗ wp frame (wpE (defs₀ (F := F)) 𝒱₀ c none) Set.univ (k u) Q)
        -∗ wp frame (wpE (defs₀ (F := F)) 𝒱₀ c none) Set.univ
            (.op (.load mW (Rect.unit (s := S3x1368x2048) o ![1, rowLen p, wd] hb).toLoadRect hl) k) Q) := by
  subst hmW; subst ho
  unfold ownsW
  iintro ⟨%f, Hf⟩ Hk
  iapply (wp_load_rect 𝒱₀ (c : Thread nD τ) none Set.univ (m := wbM) (r := wbRect p.val (rowLen p) off wd h) (S := wbReg c p.val (rowLen p) off wd h) (Finset.Subset.refl _)) $$ Hf
  iintro Hf
  iapply Hk $$ %_
  iexists f; iexact Hf

end Ops

section Recv

variable (c : Dev nD) (p : Fin 3)

theorem r1_sub (q0 : ℕ) (hq : Inb3 512 p.val (rowLen p) q0 256) :
    (r1M.access (r1Rect p.val (rowLen p) q0 256 hq)).set ⊆ r1Reg c p.val (rowLen p) 0 512 (inb_r1 p) := by
  unfold r1Reg
  intro i hi
  rw [show (r1M.access _).set = _ from View.set_slice_whole cc0_scratch1 _] at hi ⊢
  unfold r1Rect at hi ⊢
  rw [Rect.mem_set_unit] at hi ⊢
  intro a
  have h2 : q0 ≤ (i 2).val ∧ (i 2).val < q0 + 256 := hi 2
  obtain ⟨_, _, hq2⟩ := hq
  match a with
  | ⟨0, _⟩ => exact hi 0
  | ⟨1, _⟩ => exact hi 1
  | ⟨2, _⟩ => show 0 ≤ (i 2).val ∧ (i 2).val < 0 + 512; omega

theorem r1_read (base q0 : ℕ) (hq : Inb3 512 p.val (rowLen p) q0 256) (val : ℕ → ℕ → F .f32)
    (f : Buf (Elt F) ((r1M.access (r1Rect p.val (rowLen p) 0 512 (inb_r1 p))).loc (c : Thread nD τ)))
    (hf : ∀ y : (⟨3, ![1, rowLen p, 512]⟩ : Shape).Idx, (r1M.access (r1Rect p.val (rowLen p) 0 512 (inb_r1 p))).read (Elt F) f y = val (y 1).val (base + (y 2).val))
    (y : (⟨3, ![1, rowLen p, 256]⟩ : Shape).Idx) :
    (r1M.access (r1Rect p.val (rowLen p) q0 256 hq)).read (Elt F) f y = val (y 1).val (base + (q0 + (y 2).val)) := by
  have hlt : q0 + (y 2).val < 512 := by
    obtain ⟨_, _, h2⟩ := hq; have h' : (y 2).val < 256 := (y 2).isLt; omega
  have ea : (r1Rect p.val (rowLen p) q0 256 hq).emb y
      = (r1Rect p.val (rowLen p) 0 512 (inb_r1 p)).emb (ix3 ⟨0, Nat.one_pos⟩ (y 1) ⟨q0 + (y 2).val, hlt⟩) := by
    funext a; apply Fin.ext
    match a with
    | ⟨0, _⟩ =>
      show p.val + 1 * (y 0).val = p.val + 1 * 0
      have : (y 0).val < 1 := (y 0).isLt
      omega
    | ⟨1, _⟩ => rfl
    | ⟨2, _⟩ => show q0 + 1 * (y 2).val = 0 + 1 * (q0 + (y 2).val); omega
  exact (congrArg (r1M.view.read (Elt F) f) ea).trans (hf _)

theorem wp_Lr1 (base q0 : ℕ) (hq : Inb3 512 p.val (rowLen p) q0 256) (val : ℕ → ℕ → F .f32)
    {mR : Memref sig .tc .vmem S3x1368x512 .f32} (hmR : mR = r1M)
    {o : Fin 3 → ℕ} (ho : o = ![p.val, 0, q0])
    {hb : ∀ a, o a + (![1, rowLen p, 256] : Fin 3 → ℕ) a ≤ S3x1368x512.size a}
    {hl : mR.view.LoadsAt (Rect.unit (s := S3x1368x512) o ![1, rowLen p, 256] hb).toLoadRect}
    {α : Type} {k : ((⟨3, ![1, rowLen p, 256]⟩ : Shape).Idx → Elt F .f32) → Prog (TpuEff nD τ sig (Elt F) Λ₀ .tc) α} {Q : α → sProp 𝕄} :
    holdsR1 c p base val
      ⊢ iprop((∀ u : (⟨3, ![1, rowLen p, 256]⟩ : Shape).Idx → Elt F .f32, ⌜∀ y, u y = val (y 1).val (base + (q0 + (y 2).val))⌝
            -∗ holdsR1 c p base val -∗ wp frame (wpE (defs₀ (F := F)) 𝒱₀ c none) Set.univ (k u) Q)
        -∗ wp frame (wpE (defs₀ (F := F)) 𝒱₀ c none) Set.univ
            (.op (.load mR (Rect.unit (s := S3x1368x512) o ![1, rowLen p, 256] hb).toLoadRect hl) k) Q) := by
  subst hmR; subst ho
  unfold holdsR1
  iintro ⟨%f, Hf, %hf⟩ Hk
  iapply (wp_load_rect 𝒱₀ (c : Thread nD τ) none Set.univ (m := r1M) (r := r1Rect p.val (rowLen p) q0 256 hq) (S := r1Reg c p.val (rowLen p) 0 512 (inb_r1 p)) (r1_sub c p q0 hq)) $$ Hf
  iintro Hf
  iapply Hk $$ %_ %(r1_read c p base q0 hq val f hf)
  iexists f; isplitl
  · iexact Hf
  ipureintro; exact hf

theorem wp_Lr2 (base : ℕ) (val : ℕ → ℕ → F .f32)
    {mR : Memref sig .tc .vmem S3x1368x256 .f32} (hmR : mR = r2M)
    {o : Fin 3 → ℕ} (ho : o = ![p.val, 0, 0])
    {hb : ∀ a, o a + (![1, rowLen p, 256] : Fin 3 → ℕ) a ≤ S3x1368x256.size a}
    {hl : mR.view.LoadsAt (Rect.unit (s := S3x1368x256) o ![1, rowLen p, 256] hb).toLoadRect}
    {α : Type} {k : ((⟨3, ![1, rowLen p, 256]⟩ : Shape).Idx → Elt F .f32) → Prog (TpuEff nD τ sig (Elt F) Λ₀ .tc) α} {Q : α → sProp 𝕄} :
    holdsR2 c p base val
      ⊢ iprop((∀ u : (⟨3, ![1, rowLen p, 256]⟩ : Shape).Idx → Elt F .f32, ⌜∀ y, u y = val (y 1).val (base + (y 2).val)⌝
            -∗ holdsR2 c p base val -∗ wp frame (wpE (defs₀ (F := F)) 𝒱₀ c none) Set.univ (k u) Q)
        -∗ wp frame (wpE (defs₀ (F := F)) 𝒱₀ c none) Set.univ
            (.op (.load mR (Rect.unit (s := S3x1368x256) o ![1, rowLen p, 256] hb).toLoadRect hl) k) Q) := by
  subst hmR; subst ho
  unfold holdsR2
  iintro ⟨%f, Hf, %hf⟩ Hk
  iapply (wp_load_rect 𝒱₀ (c : Thread nD τ) none Set.univ (m := r2M) (r := r2Rect p.val (rowLen p) 0 256 (inb_r2 p)) (S := r2Reg c p.val (rowLen p) 0 256 (inb_r2 p)) (Finset.Subset.refl _)) $$ Hf
  iintro Hf
  iapply Hk $$ %_ %hf
  iexists f; isplitl
  · iexact Hf
  ipureintro; exact hf

end Recv

section Staged

variable (c : Dev nD)

abbrev xM : Memref sig .tc .vmem S4096x512 .f32 := Memref.whole cc0_stg0_0
abbrev wM : Memref sig .tc .vmem S512x2048 .f32 := Memref.whole cc0_stg1_0

theorem wp_Lstg0 {lr : LoadRect S4096x512} {hl : (xM : Memref sig .tc .vmem S4096x512 .f32).view.LoadsAt lr} {q : PosShare TreeShare} (fx : Vec F S4096x512 .f32)
    {α : Type} {k : (lr.shape.Idx → Elt F .f32) → Prog (TpuEff nD τ sig (Elt F) Λ₀ .tc) α} {Q : α → sProp 𝕄} :
    (((c : Thread nD τ).loc cc0_stg0_0) ↦{q} fx : sProp 𝕄)
      ⊢ iprop(((((c : Thread nD τ).loc cc0_stg0_0) ↦{q} fx) -∗ wp frame (wpE (defs₀ (F := F)) 𝒱₀ c none) Set.univ (k ((xM : Memref sig .tc .vmem S4096x512 .f32).view.readAt (Elt F) lr fx)) Q)
        -∗ wp frame (wpE (defs₀ (F := F)) 𝒱₀ c none) Set.univ (.op (.load xM lr hl) k) Q) :=
  wp_load 𝒱₀ (c : Thread nD τ) none Set.univ (m := (xM : Memref sig .tc .vmem S4096x512 .f32)) (S := Finset.univ) (Finset.subset_univ _)

theorem wp_Lstg1 {lr : LoadRect S512x2048} {hl : (wM : Memref sig .tc .vmem S512x2048 .f32).view.LoadsAt lr} {q : PosShare TreeShare} (fw : Vec F S512x2048 .f32)
    {α : Type} {k : (lr.shape.Idx → Elt F .f32) → Prog (TpuEff nD τ sig (Elt F) Λ₀ .tc) α} {Q : α → sProp 𝕄} :
    (((c : Thread nD τ).loc cc0_stg1_0) ↦{q} fw : sProp 𝕄)
      ⊢ iprop(((((c : Thread nD τ).loc cc0_stg1_0) ↦{q} fw) -∗ wp frame (wpE (defs₀ (F := F)) 𝒱₀ c none) Set.univ (k ((wM : Memref sig .tc .vmem S512x2048 .f32).view.readAt (Elt F) lr fw)) Q)
        -∗ wp frame (wpE (defs₀ (F := F)) 𝒱₀ c none) Set.univ (.op (.load wM lr hl) k) Q) :=
  wp_load 𝒱₀ (c : Thread nD τ) none Set.univ (m := (wM : Memref sig .tc .vmem S512x2048 .f32)) (S := Finset.univ) (Finset.subset_univ _)

end Staged

section Holds

variable (c : Dev nD) (p : Fin 3) (off wd : ℕ) (h : Inb3 2048 p.val (rowLen p) off wd)

theorem holdsW_owns (val : ℕ → ℕ → F .f32) : holdsW c p off wd h val ⊢ ownsW c p off wd h := by
  unfold holdsW ownsW
  iintro ⟨%f, Hf, -⟩
  iexists f; iexact Hf

theorem holdsW_congr (val val' : ℕ → ℕ → F .f32) (hv : ∀ r q, q < wd → val r (off + q) = val' r (off + q)) :
    holdsW c p off wd h val ⊢ holdsW c p off wd h val' := by
  unfold holdsW
  iintro ⟨%f, Hf, %hf⟩
  iexists f; isplitl
  · iexact Hf
  ipureintro; intro y
  rw [hf y]; exact hv _ _ (y 2).isLt

end Holds

section Events

variable (c : Dev nD) (p : Fin 3) (x : Dev nD → Vec F S4096x512 .f32) (w : Dev nD → Vec F S512x2048 .f32)

theorem ev_S1 (off : ℕ) (h : Inb3 2048 p.val (rowLen p) off 512)
    {mW : Memref sig .tc .vmem S3x1368x2048 .f32} (hmW : mW = wbM)
    {ox : Fin 2 → ℕ} {hbx : ∀ a, ox a + (![rowLen p, 512] : Fin 2 → ℕ) a ≤ S4096x512.size a}
    {hlx : (xM : Memref sig .tc .vmem S4096x512 .f32).view.LoadsAt (Rect.unit (s := S4096x512) ox ![rowLen p, 512] hbx).toLoadRect}
    {ow : Fin 2 → ℕ} {hbw : ∀ a, ow a + (![512, 512] : Fin 2 → ℕ) a ≤ S512x2048.size a}
    {hlw : (wM : Memref sig .tc .vmem S512x2048 .f32).view.LoadsAt (Rect.unit (s := S512x2048) ow ![512, 512] hbw).toLoadRect}
    {o : Fin 3 → ℕ} (ho : o = ![p.val, 0, off])
    {hb : ∀ a, o a + (![1, rowLen p, 512] : Fin 3 → ℕ) a ≤ S3x1368x2048.size a}
    {hl : mW.view.LoadsAt (Rect.unit (s := S3x1368x2048) o ![1, rowLen p, 512] hb).toLoadRect}
    {hx : (mW.access (Rect.unit (s := S3x1368x2048) o ![1, rowLen p, 512] hb)).Stores Finset.univ}
    {hm : (Finset.univ : Finset (Rect.unit (s := S3x1368x2048) o ![1, rowLen p, 512] hb).shape.Idx) = Finset.univ ∨ ∀ a, (Rect.unit (s := S3x1368x2048) o ![1, rowLen p, 512] hb).stride a = 1}
    {pl : ((⟨2, ![rowLen p, 512]⟩ : Shape).Idx → Elt F .f32) → ((⟨2, ![512, 512]⟩ : Shape).Idx → Elt F .f32) → (⟨3, ![1, rowLen p, 512]⟩ : Shape).Idx → Elt F .f32}
    (hpl : ∀ y, pl ((xM : Memref sig .tc .vmem S4096x512 .f32).view.readAt (Elt F) (Rect.unit (s := S4096x512) ox ![rowLen p, 512] hbx).toLoadRect (x c)) ((wM : Memref sig .tc .vmem S512x2048 .f32).view.readAt (Elt F) (Rect.unit (s := S512x2048) ow ![512, 512] hbw).toLoadRect (w c)) y
      = Vals.own x w p (y 1).val (off + (y 2).val) c)
    {q0 q1 : PosShare TreeShare}
    {k : PUnit → Prog (TpuEff nD τ sig (Elt F) Λ₀ .tc) PUnit} {Q : PUnit → sProp 𝕄} :
    iprop(ownsW (F := F) c p off 512 h ∗ (((c : Thread nD τ).loc cc0_stg0_0) ↦{q0} x c) ∗ (((c : Thread nD τ).loc cc0_stg1_0) ↦{q1} w c))
      ⊢ iprop(((holdsW c p off 512 h (fun r col => Vals.own x w p r col c) ∗ (((c : Thread nD τ).loc cc0_stg0_0) ↦{q0} x c) ∗ (((c : Thread nD τ).loc cc0_stg1_0) ↦{q1} w c))
            -∗ wp frame (wpE (defs₀ (F := F)) 𝒱₀ c none) Set.univ (k ⟨⟩) Q)
        -∗ wp frame (wpE (defs₀ (F := F)) 𝒱₀ c none) Set.univ
            (.op (.load xM (Rect.unit (s := S4096x512) ox ![rowLen p, 512] hbx).toLoadRect hlx) fun vx =>
              .op (.load wM (Rect.unit (s := S512x2048) ow ![512, 512] hbw).toLoadRect hlw) fun vw =>
              .op (.load mW (Rect.unit (s := S3x1368x2048) o ![1, rowLen p, 512] hb).toLoadRect hl) fun _ =>
              .op (.store mW (Rect.unit (s := S3x1368x2048) o ![1, rowLen p, 512] hb) (pl vx vw) Finset.univ hx hm) k) Q) := by
  iintro ⟨Hw, Hx, Ht⟩ Hk
  iapply (wp_Lstg0 c (x c)) $$ Hx; iintro Hx
  iapply (wp_Lstg1 c (w c)) $$ Ht; iintro Ht
  iapply (wp_Lwb_owns c p off 512 h hmW ho) $$ Hw; iintro %u Hw
  iapply (wp_Swb c p off 512 h hmW ho (fun r col => Vals.own x w p r col c) hpl) $$ Hw; iintro Hw
  iapply Hk
  iframe Hw Hx Ht

theorem ev_S2 (off : ℕ) (h : Inb3 2048 p.val (rowLen p) off 512) (v : ℕ → ℕ → F .f32)
    {mW : Memref sig .tc .vmem S3x1368x2048 .f32} (hmW : mW = wbM)
    {ox : Fin 2 → ℕ} {hbx : ∀ a, ox a + (![rowLen p, 512] : Fin 2 → ℕ) a ≤ S4096x512.size a}
    {hlx : (xM : Memref sig .tc .vmem S4096x512 .f32).view.LoadsAt (Rect.unit (s := S4096x512) ox ![rowLen p, 512] hbx).toLoadRect}
    {ow : Fin 2 → ℕ} {hbw : ∀ a, ow a + (![512, 512] : Fin 2 → ℕ) a ≤ S512x2048.size a}
    {hlw : (wM : Memref sig .tc .vmem S512x2048 .f32).view.LoadsAt (Rect.unit (s := S512x2048) ow ![512, 512] hbw).toLoadRect}
    {o : Fin 3 → ℕ} (ho : o = ![p.val, 0, off])
    {hb : ∀ a, o a + (![1, rowLen p, 512] : Fin 3 → ℕ) a ≤ S3x1368x2048.size a}
    {hl1 hl2 : mW.view.LoadsAt (Rect.unit (s := S3x1368x2048) o ![1, rowLen p, 512] hb).toLoadRect}
    {hx : (mW.access (Rect.unit (s := S3x1368x2048) o ![1, rowLen p, 512] hb)).Stores Finset.univ}
    {hm : (Finset.univ : Finset (Rect.unit (s := S3x1368x2048) o ![1, rowLen p, 512] hb).shape.Idx) = Finset.univ ∨ ∀ a, (Rect.unit (s := S3x1368x2048) o ![1, rowLen p, 512] hb).stride a = 1}
    {pl : ((⟨3, ![1, rowLen p, 512]⟩ : Shape).Idx → Elt F .f32) → ((⟨2, ![rowLen p, 512]⟩ : Shape).Idx → Elt F .f32) → ((⟨2, ![512, 512]⟩ : Shape).Idx → Elt F .f32) → (⟨3, ![1, rowLen p, 512]⟩ : Shape).Idx → Elt F .f32}
    (hpl : ∀ u y, pl u ((xM : Memref sig .tc .vmem S4096x512 .f32).view.readAt (Elt F) (Rect.unit (s := S4096x512) ox ![rowLen p, 512] hbx).toLoadRect (x c)) ((wM : Memref sig .tc .vmem S512x2048 .f32).view.readAt (Elt F) (Rect.unit (s := S512x2048) ow ![512, 512] hbw).toLoadRect (w c)) y
      = FloatOps.addf (u y) (Vals.own x w p (y 1).val (off + (y 2).val) c))
    {q0 q1 : PosShare TreeShare}
    {k : PUnit → Prog (TpuEff nD τ sig (Elt F) Λ₀ .tc) PUnit} {Q : PUnit → sProp 𝕄} :
    iprop(holdsW c p off 512 h v ∗ (((c : Thread nD τ).loc cc0_stg0_0) ↦{q0} x c) ∗ (((c : Thread nD τ).loc cc0_stg1_0) ↦{q1} w c))
      ⊢ iprop(((holdsW c p off 512 h (fun r col => FloatOps.addf (v r col) (Vals.own x w p r col c)) ∗ (((c : Thread nD τ).loc cc0_stg0_0) ↦{q0} x c) ∗ (((c : Thread nD τ).loc cc0_stg1_0) ↦{q1} w c))
            -∗ wp frame (wpE (defs₀ (F := F)) 𝒱₀ c none) Set.univ (k ⟨⟩) Q)
        -∗ wp frame (wpE (defs₀ (F := F)) 𝒱₀ c none) Set.univ
            (.op (.load mW (Rect.unit (s := S3x1368x2048) o ![1, rowLen p, 512] hb).toLoadRect hl1) fun u =>
              .op (.load xM (Rect.unit (s := S4096x512) ox ![rowLen p, 512] hbx).toLoadRect hlx) fun vx =>
              .op (.load wM (Rect.unit (s := S512x2048) ow ![512, 512] hbw).toLoadRect hlw) fun vw =>
              .op (.load mW (Rect.unit (s := S3x1368x2048) o ![1, rowLen p, 512] hb).toLoadRect hl2) fun _ =>
              .op (.store mW (Rect.unit (s := S3x1368x2048) o ![1, rowLen p, 512] hb) (pl u vx vw) Finset.univ hx hm) k) Q) := by
  iintro ⟨Hw, Hx, Ht⟩ Hk
  iapply (wp_Lwb c p off 512 h hmW ho v) $$ Hw; iintro %u %hu Hw
  iapply (wp_Lstg0 c (x c)) $$ Hx; iintro Hx
  iapply (wp_Lstg1 c (w c)) $$ Ht; iintro Ht
  iapply (wp_Lwb c p off 512 h hmW ho v) $$ Hw; iintro %u' %hu' Hw
  ihave Hw := (holdsW_owns c p off 512 h v) $$ Hw
  iapply (wp_Swb c p off 512 h hmW ho (fun r col => FloatOps.addf (v r col) (Vals.own x w p r col c))
    (fun y => (hpl u y).trans (by rw [hu y]))) $$ Hw; iintro Hw
  iapply Hk
  iframe Hw Hx Ht

theorem ev_S3 (off base : ℕ) (h : Inb3 2048 p.val (rowLen p) off 256) (hbase : base ≤ off) (hq : Inb3 512 p.val (rowLen p) (off - base) 256)
    (u v : ℕ → ℕ → F .f32)
    {mW : Memref sig .tc .vmem S3x1368x2048 .f32} (hmW : mW = wbM)
    {mR : Memref sig .tc .vmem S3x1368x512 .f32} (hmR : mR = r1M)
    {o : Fin 3 → ℕ} (ho : o = ![p.val, 0, off])
    {hb : ∀ a, o a + (![1, rowLen p, 256] : Fin 3 → ℕ) a ≤ S3x1368x2048.size a}
    {oR : Fin 3 → ℕ} (hoR : oR = ![p.val, 0, off - base])
    {hbR : ∀ a, oR a + (![1, rowLen p, 256] : Fin 3 → ℕ) a ≤ S3x1368x512.size a}
    {hl1 hl2 : mW.view.LoadsAt (Rect.unit (s := S3x1368x2048) o ![1, rowLen p, 256] hb).toLoadRect}
    {hlR : mR.view.LoadsAt (Rect.unit (s := S3x1368x512) oR ![1, rowLen p, 256] hbR).toLoadRect}
    {hx : (mW.access (Rect.unit (s := S3x1368x2048) o ![1, rowLen p, 256] hb)).Stores Finset.univ}
    {hm : (Finset.univ : Finset (Rect.unit (s := S3x1368x2048) o ![1, rowLen p, 256] hb).shape.Idx) = Finset.univ ∨ ∀ a, (Rect.unit (s := S3x1368x2048) o ![1, rowLen p, 256] hb).stride a = 1}
    {pl : ((⟨3, ![1, rowLen p, 256]⟩ : Shape).Idx → Elt F .f32) → ((⟨3, ![1, rowLen p, 256]⟩ : Shape).Idx → Elt F .f32) → (⟨3, ![1, rowLen p, 256]⟩ : Shape).Idx → Elt F .f32}
    (hpl : ∀ a b y, pl a b y = FloatOps.addf (a y) (b y))
    {k : PUnit → Prog (TpuEff nD τ sig (Elt F) Λ₀ .tc) PUnit} {Q : PUnit → sProp 𝕄} :
    iprop(holdsW c p off 256 h u ∗ holdsR1 c p base v)
      ⊢ iprop(((holdsW c p off 256 h (fun r col => FloatOps.addf (u r col) (v r col)) ∗ holdsR1 c p base v)
            -∗ wp frame (wpE (defs₀ (F := F)) 𝒱₀ c none) Set.univ (k ⟨⟩) Q)
        -∗ wp frame (wpE (defs₀ (F := F)) 𝒱₀ c none) Set.univ
            (.op (.load mW (Rect.unit (s := S3x1368x2048) o ![1, rowLen p, 256] hb).toLoadRect hl1) fun a =>
              .op (.load mR (Rect.unit (s := S3x1368x512) oR ![1, rowLen p, 256] hbR).toLoadRect hlR) fun b =>
              .op (.load mW (Rect.unit (s := S3x1368x2048) o ![1, rowLen p, 256] hb).toLoadRect hl2) fun _ =>
              .op (.store mW (Rect.unit (s := S3x1368x2048) o ![1, rowLen p, 256] hb) (pl a b) Finset.univ hx hm) k) Q) := by
  iintro ⟨Hw, Hr⟩ Hk
  iapply (wp_Lwb c p off 256 h hmW ho u) $$ Hw; iintro %a %ha Hw
  iapply (wp_Lr1 c p base (off - base) hq v hmR hoR) $$ Hr; iintro %b %hbv Hr
  iapply (wp_Lwb c p off 256 h hmW ho u) $$ Hw; iintro %a' %ha' Hw
  ihave Hw := (holdsW_owns c p off 256 h u) $$ Hw
  iapply (wp_Swb c p off 256 h hmW ho (fun r col => FloatOps.addf (u r col) (v r col))
    (fun y => by rw [hpl a b y, ha y, hbv y, show base + (off - base + (y 2).val) = off + (y 2).val by omega])) $$ Hw; iintro Hw
  iapply Hk
  iframe Hw Hr

theorem ev_S4 (off : ℕ) (h : Inb3 2048 p.val (rowLen p) off 256) (u v : ℕ → ℕ → F .f32)
    {mW : Memref sig .tc .vmem S3x1368x2048 .f32} (hmW : mW = wbM)
    {mR : Memref sig .tc .vmem S3x1368x256 .f32} (hmR : mR = r2M)
    {o : Fin 3 → ℕ} (ho : o = ![p.val, 0, off])
    {hb : ∀ a, o a + (![1, rowLen p, 256] : Fin 3 → ℕ) a ≤ S3x1368x2048.size a}
    {oR : Fin 3 → ℕ} (hoR : oR = ![p.val, 0, 0])
    {hbR : ∀ a, oR a + (![1, rowLen p, 256] : Fin 3 → ℕ) a ≤ S3x1368x256.size a}
    {hl1 hl2 : mW.view.LoadsAt (Rect.unit (s := S3x1368x2048) o ![1, rowLen p, 256] hb).toLoadRect}
    {hlR : mR.view.LoadsAt (Rect.unit (s := S3x1368x256) oR ![1, rowLen p, 256] hbR).toLoadRect}
    {hx : (mW.access (Rect.unit (s := S3x1368x2048) o ![1, rowLen p, 256] hb)).Stores Finset.univ}
    {hm : (Finset.univ : Finset (Rect.unit (s := S3x1368x2048) o ![1, rowLen p, 256] hb).shape.Idx) = Finset.univ ∨ ∀ a, (Rect.unit (s := S3x1368x2048) o ![1, rowLen p, 256] hb).stride a = 1}
    {pl : ((⟨3, ![1, rowLen p, 256]⟩ : Shape).Idx → Elt F .f32) → ((⟨3, ![1, rowLen p, 256]⟩ : Shape).Idx → Elt F .f32) → (⟨3, ![1, rowLen p, 256]⟩ : Shape).Idx → Elt F .f32}
    (hpl : ∀ a b y, pl a b y = FloatOps.maximumf (FloatOps.addf (a y) (b y)) (Scalar.ofBits .f32 0x00000000#32))
    {k : PUnit → Prog (TpuEff nD τ sig (Elt F) Λ₀ .tc) PUnit} {Q : PUnit → sProp 𝕄} :
    iprop(holdsW c p off 256 h u ∗ holdsR2 c p off v)
      ⊢ iprop(((holdsW c p off 256 h (fun r col => FloatOps.maximumf (FloatOps.addf (u r col) (v r col)) (Scalar.ofBits .f32 0x00000000#32)) ∗ holdsR2 c p off v)
            -∗ wp frame (wpE (defs₀ (F := F)) 𝒱₀ c none) Set.univ (k ⟨⟩) Q)
        -∗ wp frame (wpE (defs₀ (F := F)) 𝒱₀ c none) Set.univ
            (.op (.load mW (Rect.unit (s := S3x1368x2048) o ![1, rowLen p, 256] hb).toLoadRect hl1) fun a =>
              .op (.load mR (Rect.unit (s := S3x1368x256) oR ![1, rowLen p, 256] hbR).toLoadRect hlR) fun b =>
              .op (.load mW (Rect.unit (s := S3x1368x2048) o ![1, rowLen p, 256] hb).toLoadRect hl2) fun _ =>
              .op (.store mW (Rect.unit (s := S3x1368x2048) o ![1, rowLen p, 256] hb) (pl a b) Finset.univ hx hm) k) Q) := by
  iintro ⟨Hw, Hr⟩ Hk
  iapply (wp_Lwb c p off 256 h hmW ho u) $$ Hw; iintro %a %ha Hw
  iapply (wp_Lr2 c p off v hmR hoR) $$ Hr; iintro %b %hbv Hr
  iapply (wp_Lwb c p off 256 h hmW ho u) $$ Hw; iintro %a' %ha' Hw
  ihave Hw := (holdsW_owns c p off 256 h u) $$ Hw
  iapply (wp_Swb c p off 256 h hmW ho (fun r col => FloatOps.maximumf (FloatOps.addf (u r col) (v r col)) (Scalar.ofBits .f32 0x00000000#32))
    (fun y => by rw [hpl a b y, ha y, hbv y])) $$ Hw; iintro Hw
  iapply Hk
  iframe Hw Hr

end Events

end Cert.KernelIdeal.Body

end
-- ==== Proof.Parts5.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.EvSend
import proofs.«900802_g7700000000000803_dist_gemm_ar_m4096_k4096_n2048_f32_relu_v7x_i8_1_alg».proof.Proof.EvStore
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages
import proofs.«900802_g7700000000000803_dist_gemm_ar_m4096_k4096_n2048_f32_relu_v7x_i8_1_alg».proof.Proof.Tables
import proofs.«900802_g7700000000000803_dist_gemm_ar_m4096_k4096_n2048_f32_relu_v7x_i8_1_alg».proof.Proof.Pays

noncomputable section

namespace Cert.KernelIdeal.Body

open Cert.KernelIdeal Cert.KernelIdeal.Gen Cert.KernelIdeal.Spec Cert.KernelIdeal.Reg Cert.KernelIdeal.Proto
open Cert.KernelIdeal.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

def p5_colA (p : Fin 3) (c : Dev nD) : Fin 4 := ⟨sub1 p c / 512, by revert p c; decide⟩

def p5_colB (p : Fin 3) (c : Dev nD) : Fin 4 := ⟨sub2 p c / 512, by revert p c; decide⟩

theorem p5_sub1_colA (p : Fin 3) (c : Dev nD) : sub1 p c = 512 * (p5_colA p c).val := by revert p c; decide
theorem p5_sub2_colB (p : Fin 3) (c : Dev nD) : sub2 p c = 512 * (p5_colB p c).val := by revert p c; decide

private theorem p5_own0 (c : Dev nD) (t : Fin 4) (off : ℕ) (ht : off = 512 * t.val) (y : S1x1368x512.Idx) :
    Vals.mmA (Vals.xrowsA x c 0 (by decide)) (Vals.wcols w c t) (Pays.inner y)
      = Vals.own x w 0 (y 1).val (off + (y 2).val) c := by
  subst ht
  exact Pays.mmA_own0 x w c _ t ⟨(y 1).val, (y 1).isLt⟩ ⟨(y 2).val, (y 2).isLt⟩

private theorem p5_own1 (c : Dev nD) (t : Fin 4) (off : ℕ) (ht : off = 512 * t.val) (y : S1x1368x512.Idx) :
    Vals.mmA (Vals.xrowsA x c 1368 (by decide)) (Vals.wcols w c t) (Pays.inner y)
      = Vals.own x w 1 (y 1).val (off + (y 2).val) c := by
  subst ht
  exact Pays.mmA_own1 x w c _ t ⟨(y 1).val, (y 1).isLt⟩ ⟨(y 2).val, (y 2).isLt⟩

private theorem p5_own2 (c : Dev nD) (t : Fin 4) (off : ℕ) (ht : off = 512 * t.val) (y : S1x1360x512.Idx) :
    Vals.mmB (Vals.xrowsB x c) (Vals.wcols w c t) (Pays.inner y)
      = Vals.own x w 2 (y 1).val (off + (y 2).val) c := by
  subst ht
  exact Pays.mmB_own2 x w c t ⟨(y 1).val, (y 1).isLt⟩ ⟨(y 2).val, (y 2).isLt⟩

private theorem p5_pl3 (c : Dev nD) (y : S1x1368x512.Idx) :
    k0_pay3 (k0_pay1 (Vals.xrowsA x c 0 (by decide))) (k0_pay2 (Vals.wcols w c (p5_colA 0 c))) y
      = Vals.own x w 0 (y 1).val (sub1 0 c + (y 2).val) c :=
  (Pays.pay3_apply _ _ y).trans (p5_own0 x w c (p5_colA 0 c) (sub1 0 c) (p5_sub1_colA 0 c) y)

private theorem p5_pl7 (c : Dev nD) (y : S1x1368x512.Idx) :
    k0_pay7 (k0_pay6 (Vals.xrowsA x c 0 (by decide)) (Vals.wcols w c (p5_colB 0 c))) y
      = Vals.own x w 0 (y 1).val (sub2 0 c + (y 2).val) c :=
  (Pays.pay7_apply _ _ y).trans (p5_own0 x w c (p5_colB 0 c) (sub2 0 c) (p5_sub2_colB 0 c) y)

private theorem p5_plS1 (c : Dev nD) (t : Fin 4) (off : ℕ) (ht : off = 512 * t.val)
    (pl : Vec F S1368x512 .f32 → Vec F S512x512 .f32 → FVec F S1x1368x512 .f32)
    (hpl : ∀ a bm y, pl a bm y = Vals.mmA a bm (Pays.inner y))
    (ow : Fin 2 → ℕ) (h0 : ow 0 = 0) (h1 : ow 1 = off)
    {hbx : ∀ a, (![1368, 0] : Fin 2 → ℕ) a + S1368x512.size a ≤ S4096x512.size a}
    {hbw : ∀ a, ow a + S512x512.size a ≤ S512x2048.size a} (y : S1x1368x512.Idx) :
    pl ((Memref.whole cc0_stg0_0 : Memref sig .tc .vmem S4096x512 .f32).view.readAt (Elt F) (Rect.unit (s := S4096x512) ![1368, 0] S1368x512.size hbx).toLoadRect (x c))
       ((Memref.whole cc0_stg1_0 : Memref sig .tc .vmem S512x2048 .f32).view.readAt (Elt F) (Rect.unit (s := S512x2048) ow S512x512.size hbw).toLoadRect (w c)) y
      = Vals.own x w 1 (y 1).val (off + (y 2).val) c := by
  rw [Pays.rowsA_readAt x c ![1368, 0] 1368 rfl rfl hbx (by decide), Pays.cols_readAt w c ow t h0 (h1.trans ht) hbw, hpl]
  exact p5_own1 x w c t off ht y

private theorem p5_plS2 (c : Dev nD) (t : Fin 4) (off : ℕ) (ht : off = 512 * t.val)
    (pl : Vec F S1360x512 .f32 → Vec F S512x512 .f32 → FVec F S1x1360x512 .f32)
    (hpl : ∀ a bm y, pl a bm y = Vals.mmB a bm (Pays.inner y))
    (ow : Fin 2 → ℕ) (h0 : ow 0 = 0) (h1 : ow 1 = off)
    {hbx : ∀ a, (![2736, 0] : Fin 2 → ℕ) a + S1360x512.size a ≤ S4096x512.size a}
    {hbw : ∀ a, ow a + S512x512.size a ≤ S512x2048.size a} (y : S1x1360x512.Idx) :
    pl ((Memref.whole cc0_stg0_0 : Memref sig .tc .vmem S4096x512 .f32).view.readAt (Elt F) (Rect.unit (s := S4096x512) ![2736, 0] S1360x512.size hbx).toLoadRect (x c))
       ((Memref.whole cc0_stg1_0 : Memref sig .tc .vmem S512x2048 .f32).view.readAt (Elt F) (Rect.unit (s := S512x2048) ow S512x512.size hbw).toLoadRect (w c)) y
      = Vals.own x w 2 (y 1).val (off + (y 2).val) c := by
  rw [Pays.rowsB_readAt x c ![2736, 0] rfl rfl hbx, Pays.cols_readAt w c ow t h0 (h1.trans ht) hbw, hpl]
  exact p5_own2 x w c t off ht y

private theorem p5_sendG0 (c : Dev nD) (p : Fin 3) (i : Fin 10) :
    sendG (F := F) c p i 0 = iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
private theorem p5_sendG1 (c : Dev nD) (p : Fin 3) (i : Fin 10) :
    sendG (F := F) c p i 1 = iprop(cred (tallyAt (sendCell c p i) () (credOf p i)) ∗ atPos ER (sendCell c p i) 0 ∅ 0) := rfl
private theorem p5_sendG2 (c : Dev nD) (p : Fin 3) (i : Fin 10) :
    sendG (F := F) c p i 2 = atPos ER (sendCell c p i) 1 ∅ 0 := rfl

private theorem p5_Swb (c : Dev nD) (p : Fin 3) (off wd : ℕ) (h : Inb3 2048 p.val (rowLen p) off wd)
    {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    {pl : (⟨3, ![1, rowLen p, wd]⟩ : Shape).Idx → Elt F .f32} (val : ℕ → ℕ → F .f32)
    (hpl : ∀ y, pl y = val (y 1).val (off + (y 2).val))
    {hx : (mW.access (Rect.unit (s := S3x1368x2048) o ![1, rowLen p, wd] hb)).Stores Finset.univ}
    {hm : (Finset.univ : Finset (Rect.unit (s := S3x1368x2048) o ![1, rowLen p, wd] hb).shape.Idx) = Finset.univ ∨ ∀ a, (Rect.unit (s := S3x1368x2048) o ![1, rowLen p, wd] hb).stride a = 1}
    {α : Type} {k : PUnit → Prog (TpuEff nD τ sig (Elt F) Λ₀ .tc) α} {Q : α → sProp 𝕄} :
    ownsW (F := F) c p off wd h
      ⊢ iprop((holdsW c p off wd h val -∗ wp frame (wpE (defs₀ (F := F)) Variants.none c none) Set.univ (k ⟨⟩) Q)
        -∗ wp frame (wpE (defs₀ (F := F)) Variants.none c none) Set.univ
            (.op (.store mW (Rect.unit (s := S3x1368x2048) o ![1, rowLen p, wd] hb) pl Finset.univ hx hm) k) Q) := by
  subst hmW; subst ho
  unfold ownsW holdsW
  iintro ⟨%f, Hf⟩ Hk
  iapply (wp_store Variants.none (c : Thread nD τ) none Set.univ (m := wbM) (r := wbRect p.val (rowLen p) off wd h) (Mk := Finset.univ) (S := wbReg c p.val (rowLen p) off wd h) (Finset.Subset.refl _)) $$ Hf
  iintro Hf
  iapply Hk
  iexists _; isplitl
  · iexact Hf
  ipureintro
  intro y
  exact (View.read_write_of_mem (v := wbM.access (wbRect p.val (rowLen p) off wd h)) f pl (Finset.mem_univ y)).trans (hpl y)

private theorem p5_S1 (c : Dev nD) (p : Fin 3) (off : ℕ) (h : Inb3 2048 p.val (rowLen p) off 512)
    {mW : Memref sig .tc .vmem S3x1368x2048 .f32} (hmW : mW = wbM)
    {ox : Fin 2 → ℕ} {hbx : ∀ a, ox a + (![rowLen p, 512] : Fin 2 → ℕ) a ≤ S4096x512.size a}
    {hlx : (xM : Memref sig .tc .vmem S4096x512 .f32).view.LoadsAt (Rect.unit (s := S4096x512) ox ![rowLen p, 512] hbx).toLoadRect}
    {ow : Fin 2 → ℕ} {hbw : ∀ a, ow a + (![512, 512] : Fin 2 → ℕ) a ≤ S512x2048.size a}
    {hlw : (wM : Memref sig .tc .vmem S512x2048 .f32).view.LoadsAt (Rect.unit (s := S512x2048) ow ![512, 512] hbw).toLoadRect}
    {o : Fin 3 → ℕ} (ho : o = ![p.val, 0, off])
    {hb : ∀ a, o a + (![1, rowLen p, 512] : Fin 3 → ℕ) a ≤ S3x1368x2048.size a}
    {hl : mW.view.LoadsAt (Rect.unit (s := S3x1368x2048) o ![1, rowLen p, 512] hb).toLoadRect}
    {hx : (mW.access (Rect.unit (s := S3x1368x2048) o ![1, rowLen p, 512] hb)).Stores Finset.univ}
    {hm : (Finset.univ : Finset (Rect.unit (s := S3x1368x2048) o ![1, rowLen p, 512] hb).shape.Idx) = Finset.univ ∨ ∀ a, (Rect.unit (s := S3x1368x2048) o ![1, rowLen p, 512] hb).stride a = 1}
    {pl : ((⟨2, ![rowLen p, 512]⟩ : Shape).Idx → Elt F .f32) → ((⟨2, ![512, 512]⟩ : Shape).Idx → Elt F .f32) → (⟨3, ![1, rowLen p, 512]⟩ : Shape).Idx → Elt F .f32}
    (hpl : ∀ y, pl ((xM : Memref sig .tc .vmem S4096x512 .f32).view.readAt (Elt F) (Rect.unit (s := S4096x512) ox ![rowLen p, 512] hbx).toLoadRect (x c)) ((wM : Memref sig .tc .vmem S512x2048 .f32).view.readAt (Elt F) (Rect.unit (s := S512x2048) ow ![512, 512] hbw).toLoadRect (w c)) y
      = Vals.own x w p (y 1).val (off + (y 2).val) c)
    {q0 q1 : PosShare TreeShare}
    {α : Type} {k : PUnit → Prog (TpuEff nD τ sig (Elt F) Λ₀ .tc) α} {Q : α → sProp 𝕄} :
    iprop(ownsW (F := F) c p off 512 h ∗ (((c : Thread nD τ).loc cc0_stg0_0) ↦{q0} x c) ∗ (((c : Thread nD τ).loc cc0_stg1_0) ↦{q1} w c))
      ⊢ iprop(((holdsW c p off 512 h (fun r col => Vals.own x w p r col c) ∗ (((c : Thread nD τ).loc cc0_stg0_0) ↦{q0} x c) ∗ (((c : Thread nD τ).loc cc0_stg1_0) ↦{q1} w c))
            -∗ wp frame (wpE (defs₀ (F := F)) Variants.none c none) Set.univ (k ⟨⟩) Q)
        -∗ wp frame (wpE (defs₀ (F := F)) Variants.none c none) Set.univ
            (.op (.load xM (Rect.unit (s := S4096x512) ox ![rowLen p, 512] hbx).toLoadRect hlx) fun vx =>
              .op (.load wM (Rect.unit (s := S512x2048) ow ![512, 512] hbw).toLoadRect hlw) fun vw =>
              .op (.load mW (Rect.unit (s := S3x1368x2048) o ![1, rowLen p, 512] hb).toLoadRect hl) fun _ =>
              .op (.store mW (Rect.unit (s := S3x1368x2048) o ![1, rowLen p, 512] hb) (pl vx vw) Finset.univ hx hm) k) Q) := by
  iintro ⟨Hw, Hx, Ht⟩ Hk
  iapply (wp_Lstg0 c (x c)) $$ Hx; iintro Hx
  iapply (wp_Lstg1 c (w c)) $$ Ht; iintro Ht
  iapply (wp_Lwb_owns c p off 512 h hmW ho) $$ Hw; iintro %u Hw
  iapply (p5_Swb c p off 512 h hmW ho (fun r col => Vals.own x w p r col c) hpl) $$ Hw; iintro Hw
  iapply Hk
  iframe Hw Hx Ht

theorem part5 (c : Dev nD) (d0 : Dev nD) (hd : d0 = c) (v19 v33 v50 v92 v119 v144 : BitVec 32) :
    (iprop((((c : Thread nD τ).loc cc0_stg0_0) ↦{fullShare} x c) ∗ (((c : Thread nD τ).loc cc0_stg1_0) ↦{fullShare} w c)) : sProp 𝕄)
      ⊢ wp frame (wpE (defs₀ (F := F)) Variants.none (c : Thread nD τ) none) Set.univ
          (withBufs (k0_part5 (F := F)) d0 v19 v33 v50 v92 v119 v144)
          (fun res => iprop(⌜res.2.2.2.2.2.2.2.1 = k0_pay1 (Vals.xrowsA x c 0 (by decide))⌝
            ∗ ⌜res.2.2.2.2.2.2.2.2 = k0_pay2 (Vals.wcols w c (p5_colA 0 c))⌝
            ∗ (((c : Thread nD τ).loc cc0_stg0_0) ↦{fullShare} x c) ∗ (((c : Thread nD τ).loc cc0_stg1_0) ↦{fullShare} w c))) := by
  subst hd
  iintro ⟨Hx, Hw⟩
  unfold withBufs; rw [k0_part5_eq_skeleton]; unfold k0_part5_skel
  iapply (wp_Lstg0 d0 (x d0)) $$ Hx; iintro Hx
  iapply (wp_Lstg1 d0 (w d0)) $$ Hw; iintro Hw
  iapply (Idealize.SL.Sem.le_wp_ret _ _)
  isplitl []
  · ipureintro
    exact congrArg k0_pay1 (Pays.rowsA_readAt x d0 ![0, 0] 0 rfl rfl _ _)
  isplitl []
  · ipureintro
    exact congrArg k0_pay2 (Pays.cols_readAt w d0 (k0_off1 d0) (p5_colA 0 d0) (by rw [Forms.off_1]; rfl)
      (by rw [Forms.off_1]; exact p5_sub1_colA 0 d0) _)
  iframe Hx Hw

theorem part6 (c : Dev nD) (κs κr : ℕ) (d0 : Dev nD) (hd : d0 = c) (v65 v68 v92 v122 : BitVec 32)
    (v178 : FVec F S1368x512 .f32) (h178 : v178 = k0_pay1 (Vals.xrowsA x c 0 (by decide)))
    (v181 : FVec F S512x512 .f32) (h181 : v181 = k0_pay2 (Vals.wcols w c (p5_colA 0 c)))
    (O : CellTallies nD τ sig Unit) (W : Waits sig Unit) :
    iprop(cellInv (ER (F := F)) (cubeRd x w) κs (sendCell c 0 0)
        ∗ cellInv (ER (F := F)) (cubeRd x w) κr (recvCell (peer 0 0 c) 0 0)
        ∗ ownsW (F := F) c 0 (sub1 0 c) 512 (hA 0 c)
        ∗ ownsW (F := F) (nb 0 0 c) 0 (sub1 0 c) 512 (hA 0 c)
        ∗ sendG (F := F) c 0 0 0
        ∗ ownsW (F := F) c 1 (sub1 1 c) 512 (hA 1 c)
        ∗ owes (c : Thread nD τ) (O + tallyAt (recvCell (peer 0 0 c) 0 0) () (credOf 0 0)) W
        ∗ (((c : Thread nD τ).loc cc0_stg0_0) ↦{fullShare} x c) ∗ (((c : Thread nD τ).loc cc0_stg1_0) ↦{fullShare} w c))
      ⊢ wp frame (wpE (defs₀ (F := F)) Variants.none (c : Thread nD τ) none) Set.univ
          (withBufs (k0_part6 (F := F)) d0 v65 v68 v92 v122 v178 v181)
          (fun _ => iprop(sendG (F := F) c 0 0 1
            ∗ holdsW c 1 (sub1 1 c) 512 (hA 1 c) (fun r col => Vals.own x w 1 r col c)
            ∗ owes (c : Thread nD τ) O W
            ∗ (((c : Thread nD τ).loc cc0_stg0_0) ↦{fullShare} x c) ∗ (((c : Thread nD τ).loc cc0_stg1_0) ↦{fullShare} w c))) := by
  subst hd; subst h178; subst h181
  iintro ⟨#HIsX, #HIrX, HA0, HnA0, Hg, HA1, HO, Hx, Hw⟩
  unfold withBufs; rw [k0_part6_eq_skeleton]; unfold k0_part6_skel
  iapply (wp_Lwb_owns d0 0 (sub1 0 d0) 512 (hA 0 d0) rfl (Forms.off_2 d0)) $$ HA0
  iintro %u HA0
  iapply (wp_Swb d0 0 (sub1 0 d0) 512 (hA 0 d0) rfl (Forms.off_2 d0) (pl := k0_pay3 _ _)
    (fun r col => Vals.own x w 0 r col d0) (p5_pl3 x w d0)) $$ HA0
  iintro HA0
  ihave Hg := (Entails.of_eq (p5_sendG0 (F := F) d0 0 0)) $$ Hg
  icases Hg with ⟨HtXa, HrXa, HtXb, HrXb, HatX⟩
  iapply (ev_send_handoff x w d0 0 0 (by decide) (n := 1368) (wd := 512) (off := sub1 0 d0) rfl rfl rfl (hA 0 d0) (Forms.off_3 d0) (Forms.off_3 d0) rfl rfl (Forms.dev_4 d0) rfl rfl rfl O rfl) $$ [HA0 HnA0 HO HtXa HrXa HtXb HrXb]
  · isplitl []; · iexact HIsX
    isplitl []; · iexact HIrX
    isplitl [HA0]; · iexact HA0
    isplitl [HnA0]; · iexact HnA0
    isplitl [HO]; · iexact HO
    isplitl [HtXa]; · iexact HtXa
    isplitl [HrXa]; · iexact HrXa
    isplitl [HtXb]; · iexact HtXb
    iexact HrXb
  iintro ⟨HcrX, HO⟩
  have h0 : k0_off4 d0 0 = 0 := by rw [Forms.off_4]; rfl
  have h1 : k0_off4 d0 1 = sub1 1 d0 := by rw [Forms.off_4]; rfl
  iapply (ev_S1 d0 1 x w (sub1 1 d0) (hA 1 d0) rfl (ox := ![1368, 0]) (ow := k0_off4 d0) (Forms.off_5 d0)
    (pl := fun vx vw => k0_pay4 vx vw)
    (p5_plS1 x w d0 (p5_colA 1 d0) (sub1 1 d0) (p5_sub1_colA 1 d0) (fun vx vw => k0_pay4 vx vw) Pays.pay4_apply (k0_off4 d0) h0 h1)) $$ [HA1 Hx Hw]
  · iframe HA1 Hx Hw
  iintro ⟨HA1, Hx, Hw⟩
  iapply (Idealize.SL.Sem.le_wp_ret _ _)
  isplitl [HcrX HatX]
  · iapply (Entails.of_eq (p5_sendG1 (F := F) d0 0 0).symm)
    iframe HcrX HatX
  iframe HA1 HO Hx Hw

theorem part7 (c : Dev nD) (κs1 κr1 κs2 κr2 : ℕ) (d0 : Dev nD) (hd : d0 = c) (v79 v94 v152 : BitVec 32)
    (O : CellTallies nD τ sig Unit) (W : Waits sig Unit) :
    iprop(cellInv (ER (F := F)) (cubeRd x w) κs1 (sendCell c 1 0)
        ∗ cellInv (ER (F := F)) (cubeRd x w) κr1 (recvCell (peer 1 0 c) 1 0)
        ∗ cellInv (ER (F := F)) (cubeRd x w) κs2 (sendCell c 2 0)
        ∗ cellInv (ER (F := F)) (cubeRd x w) κr2 (recvCell (peer 2 0 c) 2 0)
        ∗ holdsW c 1 (sub1 1 c) 512 (hA 1 c) (fun r col => Vals.own x w 1 r col c)
        ∗ ownsW (F := F) (nb 1 0 c) 1 (sub1 1 c) 512 (hA 1 c)
        ∗ sendG (F := F) c 1 0 0
        ∗ ownsW (F := F) c 2 (sub1 2 c) 512 (hA 2 c)
        ∗ ownsW (F := F) (nb 2 0 c) 2 (sub1 2 c) 512 (hA 2 c)
        ∗ sendG (F := F) c 2 0 0
        ∗ ownsW (F := F) c 0 (sub2 0 c) 512 (hB 0 c)
        ∗ owes (c : Thread nD τ) (O + tallyAt (recvCell (peer 2 0 c) 2 0) () (credOf 2 0) + tallyAt (recvCell (peer 1 0 c) 1 0) () (credOf 1 0)) W
        ∗ (((c : Thread nD τ).loc cc0_stg0_0) ↦{fullShare} x c) ∗ (((c : Thread nD τ).loc cc0_stg1_0) ↦{fullShare} w c))
      ⊢ wp frame (wpE (defs₀ (F := F)) Variants.none (c : Thread nD τ) none) Set.univ
          (withBufs (k0_part7 (F := F)) d0 v79 v94 v152)
          (fun res => iprop(⌜res.1 = k0_pay6 (Vals.xrowsA x c 0 (by decide)) (Vals.wcols w c (p5_colB 0 c))⌝
            ∗ sendG (F := F) c 1 0 1
            ∗ sendG (F := F) c 2 0 1
            ∗ ownsW (F := F) c 0 (sub2 0 c) 512 (hB 0 c)
            ∗ owes (c : Thread nD τ) O W
            ∗ (((c : Thread nD τ).loc cc0_stg0_0) ↦{fullShare} x c) ∗ (((c : Thread nD τ).loc cc0_stg1_0) ↦{fullShare} w c))) := by
  subst hd
  iintro ⟨#HIsP, #HIrP, #HIsQ, #HIrQ, HA1, HnA1, HgP, HA2, HnA2, HgQ, HB0, HO, Hx, Hw⟩
  unfold withBufs; rw [k0_part7_eq_skeleton]; unfold k0_part7_skel
  ihave HgP := (Entails.of_eq (p5_sendG0 (F := F) d0 1 0)) $$ HgP
  icases HgP with ⟨HtPa, HrPa, HtPb, HrPb, HatP⟩
  iapply (ev_send_handoff x w d0 1 0 (by decide) (n := 1368) (wd := 512) (off := sub1 1 d0) rfl rfl rfl (hA 1 d0) (Forms.off_6 d0) (Forms.off_6 d0) rfl rfl (Forms.dev_5 d0) rfl rfl rfl (O + tallyAt (recvCell (peer 2 0 d0) 2 0) () (credOf 2 0)) rfl) $$ [HA1 HnA1 HO HtPa HrPa HtPb HrPb]
  · isplitl []; · iexact HIsP
    isplitl []; · iexact HIrP
    isplitl [HA1]; · iexact HA1
    isplitl [HnA1]; · iexact HnA1
    isplitl [HO]; · iexact HO
    isplitl [HtPa]; · iexact HtPa
    isplitl [HrPa]; · iexact HrPa
    isplitl [HtPb]; · iexact HtPb
    iexact HrPb
  iintro ⟨HcrP, HO⟩
  have h0 : k0_off7 d0 0 = 0 := by rw [Forms.off_7]; rfl
  have h1 : k0_off7 d0 1 = sub1 2 d0 := by rw [Forms.off_7]; rfl
  iapply (p5_S1 x w d0 2 (sub1 2 d0) (hA 2 d0) rfl (ox := ![2736, 0]) (ow := k0_off7 d0) (Forms.off_8 d0)
    (pl := fun vx vw => k0_pay5 vx vw)
    (p5_plS2 x w d0 (p5_colA 2 d0) (sub1 2 d0) (p5_sub1_colA 2 d0) (fun vx vw => k0_pay5 vx vw) Pays.pay5_apply (k0_off7 d0) h0 h1)) $$ [HA2 Hx Hw]
  · iframe HA2 Hx Hw
  iintro ⟨HA2, Hx, Hw⟩
  ihave HgQ := (Entails.of_eq (p5_sendG0 (F := F) d0 2 0)) $$ HgQ
  icases HgQ with ⟨HtQa, HrQa, HtQb, HrQb, HatQ⟩
  iapply (ev_send_handoff x w d0 2 0 (by decide) (n := 1360) (wd := 512) (off := sub1 2 d0) rfl rfl rfl (hA 2 d0) (Forms.off_9 d0) (Forms.off_9 d0) rfl rfl (Forms.dev_6 d0) rfl rfl rfl (O) rfl) $$ [HA2 HnA2 HO HtQa HrQa HtQb HrQb]
  · isplitl []; · iexact HIsQ
    isplitl []; · iexact HIrQ
    isplitl [HA2]; · iexact HA2
    isplitl [HnA2]; · iexact HnA2
    isplitl [HO]; · iexact HO
    isplitl [HtQa]; · iexact HtQa
    isplitl [HrQa]; · iexact HrQa
    isplitl [HtQb]; · iexact HtQb
    iexact HrQb
  iintro ⟨HcrQ, HO⟩
  iapply (wp_Lstg0 d0 (x d0)) $$ Hx; iintro Hx
  iapply (wp_Lstg1 d0 (w d0)) $$ Hw; iintro Hw
  iapply (wp_Lwb_owns d0 0 (sub2 0 d0) 512 (hB 0 d0) rfl (Forms.off_11 d0)) $$ HB0
  iintro %u HB0
  iapply (Idealize.SL.Sem.le_wp_ret _ _)
  isplitl []
  · ipureintro
    exact congrArg₂ k0_pay6 (Pays.rowsA_readAt x d0 ![0, 0] 0 rfl rfl _ _)
      (Pays.cols_readAt w d0 (k0_off10 d0) (p5_colB 0 d0) (by rw [Forms.off_10]; rfl)
        (by rw [Forms.off_10]; exact p5_sub2_colB 0 d0) _)
  isplitl [HcrP HatP]
  · iapply (Entails.of_eq (p5_sendG1 (F := F) d0 1 0).symm)
    iframe HcrP HatP
  isplitl [HcrQ HatQ]
  · iapply (Entails.of_eq (p5_sendG1 (F := F) d0 2 0).symm)
    iframe HcrQ HatQ
  iframe HB0 HO Hx Hw

theorem part8 (c : Dev nD) (κs κr : ℕ) (d0 : Dev nD) (hd : d0 = c) (v65 v68 v124 : BitVec 32)
    (v242 : FVec F S1368x512 .f32) (h242 : v242 = k0_pay6 (Vals.xrowsA x c 0 (by decide)) (Vals.wcols w c (p5_colB 0 c)))
    (v244 : Vec F S1x1368x512 .f32)
    (O : CellTallies nD τ sig Unit) (W : Waits sig Unit) :
    iprop(cellInv (ER (F := F)) (cubeRd x w) κs (sendCell c 0 1)
        ∗ cellInv (ER (F := F)) (cubeRd x w) κr (recvCell (peer 0 1 c) 0 1)
        ∗ ownsW (F := F) c 0 (sub2 0 c) 512 (hB 0 c)
        ∗ ownsW (F := F) (nb 0 0 c) 0 (sub2 0 c) 512 (hB 0 c)
        ∗ sendG (F := F) c 0 1 0
        ∗ ownsW (F := F) c 1 (sub2 1 c) 512 (hB 1 c)
        ∗ owes (c : Thread nD τ) (O + tallyAt (recvCell (peer 0 1 c) 0 1) () (credOf 0 1)) W
        ∗ (((c : Thread nD τ).loc cc0_stg0_0) ↦{fullShare} x c) ∗ (((c : Thread nD τ).loc cc0_stg1_0) ↦{fullShare} w c))
      ⊢ wp frame (wpE (defs₀ (F := F)) Variants.none (c : Thread nD τ) none) Set.univ
          (withBufs (k0_part8 (F := F)) d0 v65 v68 v124 v242 v244)
          (fun _ => iprop(sendG (F := F) c 0 1 1
            ∗ holdsW c 1 (sub2 1 c) 512 (hB 1 c) (fun r col => Vals.own x w 1 r col c)
            ∗ owes (c : Thread nD τ) O W
            ∗ (((c : Thread nD τ).loc cc0_stg0_0) ↦{fullShare} x c) ∗ (((c : Thread nD τ).loc cc0_stg1_0) ↦{fullShare} w c))) := by
  subst hd; subst h242
  iintro ⟨#HIsX, #HIrX, HB0, HnB0, Hg, HB1, HO, Hx, Hw⟩
  unfold withBufs; rw [k0_part8_eq_skeleton]; unfold k0_part8_skel
  iapply (wp_Swb d0 0 (sub2 0 d0) 512 (hB 0 d0) rfl (Forms.off_11 d0) (pl := k0_pay7 _)
    (fun r col => Vals.own x w 0 r col d0) (p5_pl7 x w d0)) $$ HB0
  iintro HB0
  ihave Hg := (Entails.of_eq (p5_sendG0 (F := F) d0 0 1)) $$ Hg
  icases Hg with ⟨HtXa, HrXa, HtXb, HrXb, HatX⟩
  iapply (ev_send_handoff x w d0 0 1 (by decide) (n := 1368) (wd := 512) (off := sub2 0 d0) rfl rfl rfl (hB 0 d0) (Forms.off_12 d0) (Forms.off_12 d0) rfl rfl (Forms.dev_7 d0) rfl rfl rfl (O) rfl) $$ [HB0 HnB0 HO HtXa HrXa HtXb HrXb]
  · isplitl []; · iexact HIsX
    isplitl []; · iexact HIrX
    isplitl [HB0]; · iexact HB0
    isplitl [HnB0]; · iexact HnB0
    isplitl [HO]; · iexact HO
    isplitl [HtXa]; · iexact HtXa
    isplitl [HrXa]; · iexact HrXa
    isplitl [HtXb]; · iexact HtXb
    iexact HrXb
  iintro ⟨HcrX, HO⟩
  have h0 : k0_off13 d0 0 = 0 := by rw [Forms.off_13]; rfl
  have h1 : k0_off13 d0 1 = sub2 1 d0 := by rw [Forms.off_13]; rfl
  iapply (ev_S1 d0 1 x w (sub2 1 d0) (hB 1 d0) rfl (ox := ![1368, 0]) (ow := k0_off13 d0) (Forms.off_14 d0)
    (pl := fun vx vw => k0_pay8 vx vw)
    (p5_plS1 x w d0 (p5_colB 1 d0) (sub2 1 d0) (p5_sub2_colB 1 d0) (fun vx vw => k0_pay8 vx vw) Pays.pay8_apply (k0_off13 d0) h0 h1)) $$ [HB1 Hx Hw]
  · iframe HB1 Hx Hw
  iintro ⟨HB1, Hx, Hw⟩
  iapply (Idealize.SL.Sem.le_wp_ret _ _)
  isplitl [HcrX HatX]
  · iapply (Entails.of_eq (p5_sendG1 (F := F) d0 0 1).symm)
    iframe HcrX HatX
  iframe HB1 HO Hx Hw

theorem part9 (c : Dev nD) (κs1 κr1 κs2 κr2 κw : ℕ) (d0 : Dev nD) (hd : d0 = c) (v79 v154 : BitVec 32)
    (O : CellTallies nD τ sig Unit) (W : Waits sig Unit)
    {L : GSem nD τ sig → Finset Unit} {lv : GSem nD τ sig → Unit → ℕ}
    (hmw : (levAts L lv : sProp 𝕄) ⊢ MayWait (c : Thread nD τ) (.dma (ssem 0 0)) () O) :
    iprop(cellInv (ER (F := F)) (cubeRd x w) κs1 (sendCell c 1 1)
        ∗ cellInv (ER (F := F)) (cubeRd x w) κr1 (recvCell (peer 1 1 c) 1 1)
        ∗ cellInv (ER (F := F)) (cubeRd x w) κs2 (sendCell c 2 1)
        ∗ cellInv (ER (F := F)) (cubeRd x w) κr2 (recvCell (peer 2 1 c) 2 1)
        ∗ cellInv (ER (F := F)) (cubeRd x w) κw (sendCell c 0 0)
        ∗ levAts L lv
        ∗ holdsW c 1 (sub2 1 c) 512 (hB 1 c) (fun r col => Vals.own x w 1 r col c)
        ∗ ownsW (F := F) (nb 1 0 c) 1 (sub2 1 c) 512 (hB 1 c)
        ∗ sendG (F := F) c 1 1 0
        ∗ ownsW (F := F) c 2 (sub2 2 c) 512 (hB 2 c)
        ∗ ownsW (F := F) (nb 2 0 c) 2 (sub2 2 c) 512 (hB 2 c)
        ∗ sendG (F := F) c 2 1 0
        ∗ sendG (F := F) c 0 0 1
        ∗ owes (c : Thread nD τ) (O + tallyAt (recvCell (peer 2 1 c) 2 1) () (credOf 2 1) + tallyAt (recvCell (peer 1 1 c) 1 1) () (credOf 1 1)) W
        ∗ (((c : Thread nD τ).loc cc0_stg0_0) ↦{fullShare} x c) ∗ (((c : Thread nD τ).loc cc0_stg1_0) ↦{fullShare} w c))
      ⊢ wp frame (wpE (defs₀ (F := F)) Variants.none (c : Thread nD τ) none) Set.univ
          (withBufs (k0_part9 (F := F)) d0 v79 v154)
          (fun _ => iprop(sendG (F := F) c 1 1 1
            ∗ sendG (F := F) c 2 1 1
            ∗ sendG (F := F) c 0 0 2
            ∗ owes (c : Thread nD τ) O (insert (SemLoc.dma (ssem 0 0), ()) W)
            ∗ (((c : Thread nD τ).loc cc0_stg0_0) ↦{fullShare} x c) ∗ (((c : Thread nD τ).loc cc0_stg1_0) ↦{fullShare} w c))) := by
  subst hd
  iintro ⟨#HIsP, #HIrP, #HIsQ, #HIrQ, #HIw, #Hlev, HB1, HnB1, HgP, HB2, HnB2, HgQ, HgW, HO, Hx, Hw⟩
  unfold withBufs; rw [k0_part9_eq_skeleton]; unfold k0_part9_skel
  ihave HgP := (Entails.of_eq (p5_sendG0 (F := F) d0 1 1)) $$ HgP
  icases HgP with ⟨HtPa, HrPa, HtPb, HrPb, HatP⟩
  iapply (ev_send_handoff x w d0 1 1 (by decide) (n := 1368) (wd := 512) (off := sub2 1 d0) rfl rfl rfl (hB 1 d0) (Forms.off_15 d0) (Forms.off_15 d0) rfl rfl (Forms.dev_8 d0) rfl rfl rfl (O + tallyAt (recvCell (peer 2 1 d0) 2 1) () (credOf 2 1)) rfl) $$ [HB1 HnB1 HO HtPa HrPa HtPb HrPb]
  · isplitl []; · iexact HIsP
    isplitl []; · iexact HIrP
    isplitl [HB1]; · iexact HB1
    isplitl [HnB1]; · iexact HnB1
    isplitl [HO]; · iexact HO
    isplitl [HtPa]; · iexact HtPa
    isplitl [HrPa]; · iexact HrPa
    isplitl [HtPb]; · iexact HtPb
    iexact HrPb
  iintro ⟨HcrP, HO⟩
  have h0 : k0_off16 d0 0 = 0 := by rw [Forms.off_16]; rfl
  have h1 : k0_off16 d0 1 = sub2 2 d0 := by rw [Forms.off_16]; rfl
  iapply (ev_S1 d0 2 x w (sub2 2 d0) (hB 2 d0) rfl (ox := ![2736, 0]) (ow := k0_off16 d0) (Forms.off_17 d0)
    (pl := fun vx vw => k0_pay9 vx vw)
    (p5_plS2 x w d0 (p5_colB 2 d0) (sub2 2 d0) (p5_sub2_colB 2 d0) (fun vx vw => k0_pay9 vx vw) Pays.pay9_apply (k0_off16 d0) h0 h1)) $$ [HB2 Hx Hw]
  · iframe HB2 Hx Hw
  iintro ⟨HB2, Hx, Hw⟩
  ihave HgQ := (Entails.of_eq (p5_sendG0 (F := F) d0 2 1)) $$ HgQ
  icases HgQ with ⟨HtQa, HrQa, HtQb, HrQb, HatQ⟩
  iapply (ev_send_handoff x w d0 2 1 (by decide) (n := 1360) (wd := 512) (off := sub2 2 d0) rfl rfl rfl (hB 2 d0) (Forms.off_18 d0) (Forms.off_18 d0) rfl rfl (Forms.dev_9 d0) rfl rfl rfl (O) rfl) $$ [HB2 HnB2 HO HtQa HrQa HtQb HrQb]
  · isplitl []; · iexact HIsQ
    isplitl []; · iexact HIrQ
    isplitl [HB2]; · iexact HB2
    isplitl [HnB2]; · iexact HnB2
    isplitl [HO]; · iexact HO
    isplitl [HtQa]; · iexact HtQa
    isplitl [HrQa]; · iexact HrQa
    isplitl [HtQb]; · iexact HtQb
    iexact HrQb
  iintro ⟨HcrQ, HO⟩
  ihave HgW := (Entails.of_eq (p5_sendG1 (F := F) d0 0 0)) $$ HgW
  icases HgW with ⟨HcrW, HatW⟩
  have hcr : ∀ (o : Fin 3 → ℕ) (hin : ∀ a, o a + S1x1368x512.size a ≤ S3x1368x2048.size a)
      (hsq : S1x1368x512.Squeezes S1368x512),
      ((wbM.slice (Rect.unit (s := S3x1368x2048) o S1x1368x512.size hin) (fun _ => rfl)).squeeze S1368x512 hsq).view.dmaCredit
        = credOf 0 0 := fun _ _ _ => rfl
  iapply (ev_wait_send x w d0 0 0 rfl (hcr _ _ _) hmw) $$ [HatW HcrW HO]
  · iframe HIw HatW HcrW HO Hlev
  iintro ⟨Hpay, HatW, HrW, HO⟩
  iclear Hpay
  iclear HrW
  iapply (Idealize.SL.Sem.le_wp_ret _ _)
  isplitl [HcrP HatP]
  · iapply (Entails.of_eq (p5_sendG1 (F := F) d0 1 1).symm)
    iframe HcrP HatP
  isplitl [HcrQ HatQ]
  · iapply (Entails.of_eq (p5_sendG1 (F := F) d0 2 1).symm)
    iframe HcrQ HatQ
  isplitl [HatW]
  · iapply (Entails.of_eq (p5_sendG2 (F := F) d0 0 0).symm)
    iexact HatW
  iframe HO Hx Hw

end Cert.KernelIdeal.Body

end
-- ==== Proof.Parts10.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.EvSend
import proofs.«900802_g7700000000000803_dist_gemm_ar_m4096_k4096_n2048_f32_relu_v7x_i8_1_alg».proof.Proof.EvStore
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages

noncomputable section

namespace Cert.KernelIdeal.Body

open Cert.KernelIdeal Cert.KernelIdeal.Gen Cert.KernelIdeal.Spec Cert.KernelIdeal.Reg Cert.KernelIdeal.Proto
open Cert.KernelIdeal.Tables Cert.KernelIdeal.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv

local instance p10_i3 (c : Dev nD) : ClosedOff (k0_off3 c) := ⟨![0, 0, sub1 0 c], Forms.off_3 c⟩
local instance p10_i6 (c : Dev nD) : ClosedOff (k0_off6 c) := ⟨![1, 0, sub1 1 c], Forms.off_6 c⟩
local instance p10_i9 (c : Dev nD) : ClosedOff (k0_off9 c) := ⟨![2, 0, sub1 2 c], Forms.off_9 c⟩
local instance p10_i12 (c : Dev nD) : ClosedOff (k0_off12 c) := ⟨![0, 0, sub2 0 c], Forms.off_12 c⟩
local instance p10_i19 (c : Dev nD) : ClosedOff (k0_off19 c) := ⟨![0, 0, away1 0 c], Forms.off_19 c⟩
local instance p10_i20 (c : Dev nD) : ClosedOff (k0_off20 c) := ⟨![0, away1 0 c], Forms.off_20 c⟩
local instance p10_i21 (c : Dev nD) : ClosedOff (k0_off21 c) := ⟨![0, 0, away1 0 c], Forms.off_21 c⟩
local instance p10_i22 (c : Dev nD) : ClosedOff (k0_off22 c) := ⟨![1, 0, away1 1 c], Forms.off_22 c⟩
local instance p10_i23 (c : Dev nD) : ClosedOff (k0_off23 c) := ⟨![0, away1 1 c], Forms.off_23 c⟩
local instance p10_i24 (c : Dev nD) : ClosedOff (k0_off24 c) := ⟨![1, 0, away1 1 c], Forms.off_24 c⟩
local instance p10_i25 (c : Dev nD) : ClosedOff (k0_off25 c) := ⟨![2, 0, away1 2 c], Forms.off_25 c⟩
local instance p10_i26 (c : Dev nD) : ClosedOff (k0_off26 c) := ⟨![0, away1 2 c], Forms.off_26 c⟩
local instance p10_i27 (c : Dev nD) : ClosedOff (k0_off27 c) := ⟨![2, 0, away1 2 c], Forms.off_27 c⟩
local instance p10_i28 (c : Dev nD) : ClosedOff (k0_off28 c) := ⟨![0, 0, o2 0 c], Forms.off_28 c⟩
local instance p10_i29 (c : Dev nD) : ClosedOff (k0_off29 c) := ⟨![0, o2 0 c], Forms.off_29 c⟩

private theorem p10_colC (p : Fin 3) (c : Dev nD) : ∃ t : Fin 4, away1 p c = 512 * t.val := by revert p c; decide
private theorem p10_colD (p : Fin 3) (c : Dev nD) : ∃ t : Fin 4, o2 p c = 512 * t.val := by revert p c; decide

private theorem p10_recvPay0 (c : Dev nD) (p : Fin 3) :
    recvPay x w c p 0 = iprop(holdsW c p (away1 p c) 512 (hC p c) (fun r col => Vals.own x w p r col (nb p 0 c))
      ∗ ownsW (F := F) (nb p 0 c) p (away1 p c) 512 (hC p c)) :=
  (recvPay_own x w c p 0 (by decide)).trans
    (congrArg₂ (fun A B : sProp 𝕄 => iprop(A ∗ B)) (Pieces.holdsW_land0 c p _) (Pieces.ownsW_land0 (F := F) c p))

private theorem p10_recvPay1 (c : Dev nD) (p : Fin 3) :
    recvPay x w c p 1 = iprop(holdsW c p (o2 p c) 512 (hD p c) (fun r col => Vals.own x w p r col (nb p 0 c))
      ∗ ownsW (F := F) (nb p 0 c) p (o2 p c) 512 (hD p c)) :=
  (recvPay_own x w c p 1 (by decide)).trans
    (congrArg₂ (fun A B : sProp 𝕄 => iprop(A ∗ B)) (Pieces.holdsW_land1 c p _) (Pieces.ownsW_land1 (F := F) c p))

private theorem p10_hpl10 (c : Dev nD) (t : Fin 4) (ht : away1 0 c = 512 * t.val)
    {hbx : ∀ a, (![0, 0] : Fin 2 → ℕ) a + S1368x512.size a ≤ S4096x512.size a}
    {hbw : ∀ a, k0_off20 c a + S512x512.size a ≤ S512x2048.size a}
    (u : Vec F S1x1368x512 .f32) (y : S1x1368x512.Idx) :
    k0_pay10 u ((Memref.whole cc0_stg0_0 : Memref sig .tc .vmem S4096x512 .f32).view.readAt (Elt F)
          (Rect.unit (s := S4096x512) ![0, 0] S1368x512.size hbx).toLoadRect (x c))
        ((Memref.whole cc0_stg1_0 : Memref sig .tc .vmem S512x2048 .f32).view.readAt (Elt F)
          (Rect.unit (s := S512x2048) (k0_off20 c) S512x512.size hbw).toLoadRect (w c)) y
      = FloatOps.addf (u y) (Vals.own x w 0 (y 1).val (away1 0 c + (y 2).val) c) := by
  rw [Pays.pay10_apply, Pays.rowsA_readAt x c _ 0 rfl rfl _ (by decide),
    Pays.cols_readAt w c _ t (congrFun (Forms.off_20 c) 0) ((congrFun (Forms.off_20 c) 1).trans ht)]
  show FloatOps.addf (u y) (Vals.mmA _ _ (ix2 _ _)) = _
  rw [Pays.mmA_own0 x w c (by decide) t, ht]

private theorem p10_hpl11 (c : Dev nD) (t : Fin 4) (ht : away1 1 c = 512 * t.val)
    {hbx : ∀ a, (![1368, 0] : Fin 2 → ℕ) a + S1368x512.size a ≤ S4096x512.size a}
    {hbw : ∀ a, k0_off23 c a + S512x512.size a ≤ S512x2048.size a}
    (u : Vec F S1x1368x512 .f32) (y : S1x1368x512.Idx) :
    k0_pay11 u ((Memref.whole cc0_stg0_0 : Memref sig .tc .vmem S4096x512 .f32).view.readAt (Elt F)
          (Rect.unit (s := S4096x512) ![1368, 0] S1368x512.size hbx).toLoadRect (x c))
        ((Memref.whole cc0_stg1_0 : Memref sig .tc .vmem S512x2048 .f32).view.readAt (Elt F)
          (Rect.unit (s := S512x2048) (k0_off23 c) S512x512.size hbw).toLoadRect (w c)) y
      = FloatOps.addf (u y) (Vals.own x w 1 (y 1).val (away1 1 c + (y 2).val) c) := by
  rw [Pays.pay11_apply, Pays.rowsA_readAt x c _ 1368 rfl rfl _ (by decide),
    Pays.cols_readAt w c _ t (congrFun (Forms.off_23 c) 0) ((congrFun (Forms.off_23 c) 1).trans ht)]
  show FloatOps.addf (u y) (Vals.mmA _ _ (ix2 _ _)) = _
  rw [Pays.mmA_own1 x w c (by decide) t, ht]

private theorem p10_hpl14 (c : Dev nD) (t : Fin 4) (ht : o2 0 c = 512 * t.val)
    {hbx : ∀ a, (![0, 0] : Fin 2 → ℕ) a + S1368x512.size a ≤ S4096x512.size a}
    {hbw : ∀ a, k0_off29 c a + S512x512.size a ≤ S512x2048.size a}
    (u : Vec F S1x1368x512 .f32) (y : S1x1368x512.Idx) :
    k0_pay14 u ((Memref.whole cc0_stg0_0 : Memref sig .tc .vmem S4096x512 .f32).view.readAt (Elt F)
          (Rect.unit (s := S4096x512) ![0, 0] S1368x512.size hbx).toLoadRect (x c))
        ((Memref.whole cc0_stg1_0 : Memref sig .tc .vmem S512x2048 .f32).view.readAt (Elt F)
          (Rect.unit (s := S512x2048) (k0_off29 c) S512x512.size hbw).toLoadRect (w c)) y
      = FloatOps.addf (u y) (Vals.own x w 0 (y 1).val (o2 0 c + (y 2).val) c) := by
  rw [Pays.pay14_apply, Pays.rowsA_readAt x c _ 0 rfl rfl _ (by decide),
    Pays.cols_readAt w c _ t (congrFun (Forms.off_29 c) 0) ((congrFun (Forms.off_29 c) 1).trans ht)]
  show FloatOps.addf (u y) (Vals.mmA _ _ (ix2 _ _)) = _
  rw [Pays.mmA_own0 x w c (by decide) t, ht]

private theorem p10_hpl13 (c : Dev nD) (t : Fin 4) (ht : away1 2 c = 512 * t.val)
    {hbx : ∀ a, (![2736, 0] : Fin 2 → ℕ) a + S1360x512.size a ≤ S4096x512.size a}
    {hbw : ∀ a, k0_off26 c a + S512x512.size a ≤ S512x2048.size a}
    (u : Vec F S1x1360x512 .f32)
    (hu : ∀ y : S1x1360x512.Idx, u y = Vals.own x w 2 (y 1).val (away1 2 c + (y 2).val) (nb 2 0 c))
    (y : S1x1360x512.Idx) :
    k0_pay13 (k0_pay12 u) ((Memref.whole cc0_stg0_0 : Memref sig .tc .vmem S4096x512 .f32).view.readAt (Elt F)
          (Rect.unit (s := S4096x512) ![2736, 0] S1360x512.size hbx).toLoadRect (x c))
        ((Memref.whole cc0_stg1_0 : Memref sig .tc .vmem S512x2048 .f32).view.readAt (Elt F)
          (Rect.unit (s := S512x2048) (k0_off26 c) S512x512.size hbw).toLoadRect (w c)) y
      = Vals.st1 x w 2 (y 1).val (away1 2 c + (y 2).val) c := by
  rw [Pays.pay13_apply, Pays.rowsB_readAt x c _ rfl rfl _,
    Pays.cols_readAt w c _ t (congrFun (Forms.off_26 c) 0) ((congrFun (Forms.off_26 c) 1).trans ht), hu y]
  show FloatOps.addf _ (Vals.mmB _ _ (ix2 _ _)) = _
  rw [Pays.mmB_own2 x w c t, ht]
  all_goals rfl

theorem part10 (c : Dev nD) (κr κs κd : ℕ) (d0 : Dev nD) (hd : d0 = c) (v65 v68 v97 : BitVec 32)
    (O : CellTallies nD τ sig Unit) (W : Waits sig Unit) :
    iprop(cellInv (ER (F := F)) (cubeRd x w) κr (recvCell c 0 0) ∗ cellInv (ER (F := F)) (cubeRd x w) κs (sendCell c 0 2)
        ∗ cellInv (ER (F := F)) (cubeRd x w) κd (recvCell (peer 0 2 c) 0 2)
        ∗ recvG (F := F) c 0 0 0 ∗ sendG (F := F) c 0 2 0
        ∗ ownsR1 (F := F) (nb 0 1 c) 0
        ∗ owes (c : Thread nD τ) (O + tallyAt (recvCell (peer 0 2 c) 0 2) () (credOf 0 2)) W
        ∗ (((c : Thread nD τ).loc cc0_stg0_0) ↦{fullShare} x c) ∗ (((c : Thread nD τ).loc cc0_stg1_0) ↦{fullShare} w c)
        ∗ MayWait (c : Thread nD τ) (.dma (rsem 0 0)) () (O + tallyAt (recvCell (peer 0 2 c) 0 2) () (credOf 0 2)))
      ⊢ wp frame (wpE (defs₀ (F := F)) Variants.none (c : Thread nD τ) none) Set.univ
          (withBufs (k0_part10 (F := F)) d0 v65 v68 v97)
          (fun _ => iprop(recvG (F := F) c 0 0 1 ∗ sendG (F := F) c 0 2 1
            ∗ ownsW (F := F) (nb 0 0 c) 0 (away1 0 c) 512 (hC 0 c)
            ∗ owes (c : Thread nD τ) O (insert (SemLoc.dma (rsem 0 0), ()) W)
            ∗ (((c : Thread nD τ).loc cc0_stg0_0) ↦{fullShare} x c) ∗ (((c : Thread nD τ).loc cc0_stg1_0) ↦{fullShare} w c))) := by
  subst hd
  simp only [sendG, recvG]
  iintro ⟨#HIr, #HIs, #HId, ⟨Hcr, Hatr⟩, Hsg, HR1, HO, Hx, Hw, #Hmw⟩
  unfold withBufs; rw [k0_part10_eq_skeleton]; unfold k0_part10_skel
  sl_exec
  ihave Hp := (Entails.of_eq (p10_recvPay0 x w d0 0)) $$ Hatr_pay1
  icases Hp with ⟨Hh, Hn⟩
  obtain ⟨t, ht⟩ := p10_colC 0 d0
  iapply (ev_S2 d0 0 x w (away1 0 d0) (hC 0 d0) (fun r col => Vals.own x w 0 r col (nb 0 0 d0)) (hmW := rfl)
    (ho := Forms.off_19 d0) (pl := k0_pay10) (hpl := fun u y => p10_hpl10 x w d0 t ht u y)) $$ [Hh Hx Hw]
  · iframe Hh Hx Hw
  iintro ⟨Hh, Hx, Hw⟩
  icases Hsg with ⟨Ht1, Hr1, Ht2, Hr2, Hat2⟩
  iapply (ev_send_handoff_r1 x w d0 0 (hn := rfl) (hoff := rfl) (hC 0 d0) (ho := Forms.off_21 d0) (ho' := rfl)
    (hsrcE := rfl) (hdstE := rfl) (hc' := Forms.dev_10 d0) (hsS := rfl) (hsR := rfl) (hval := rfl) O rfl) $$ [Hh HR1 HO Ht1 Hr1 Ht2 Hr2]
  · isplitr [Hh HR1 HO Ht1 Hr1 Ht2 Hr2]; · iexact HIs
    isplitr [Hh HR1 HO Ht1 Hr1 Ht2 Hr2]; · iexact HId
    isplitl [Hh]; · iexact Hh
    isplitl [HR1]; · iexact HR1
    isplitl [HO]; · iexact HO
    isplitl [Ht1]; · iexact Ht1
    isplitl [Hr1]; · iexact Hr1
    isplitl [Ht2]; · iexact Ht2
    iexact Hr2
  iintro ⟨Hcs2, HO⟩
  iapply (le_wp_ret _ _ _ PUnit.unit _)
  iframe Hatr
  isplitl [Hcs2 Hat2]
  · iframe Hcs2 Hat2
  isplitl [Hn]; · iexact Hn
  isplitl [HO]; · iexact HO
  isplitl [Hx]; · iexact Hx
  iexact Hw

theorem part11 (c : Dev nD) (κs κr : ℕ) (d0 : Dev nD) (hd : d0 = c) (v68 v127 : BitVec 32)
    (O : CellTallies nD τ sig Unit) (W : Waits sig Unit) :
    iprop(cellInv (ER (F := F)) (cubeRd x w) κs (sendCell c 1 0) ∗ cellInv (ER (F := F)) (cubeRd x w) κr (recvCell c 1 0)
        ∗ sendG (F := F) c 1 0 1 ∗ recvG (F := F) c 1 0 0
        ∗ owes (c : Thread nD τ) O W
        ∗ (((c : Thread nD τ).loc cc0_stg0_0) ↦{fullShare} x c) ∗ (((c : Thread nD τ).loc cc0_stg1_0) ↦{fullShare} w c)
        ∗ MayWait (c : Thread nD τ) (.dma (ssem 1 0)) () (O) ∗ MayWait (c : Thread nD τ) (.dma (rsem 1 0)) () (O))
      ⊢ wp frame (wpE (defs₀ (F := F)) Variants.none (c : Thread nD τ) none) Set.univ
          (withBufs (k0_part11 (F := F)) d0 v68 v127)
          (fun _ => iprop(sendG (F := F) c 1 0 2 ∗ recvG (F := F) c 1 0 1
            ∗ holdsW c 1 (away1 1 c) 512 (hC 1 c) (fun r col => Vals.st1 x w 1 r col c)
            ∗ ownsW (F := F) (nb 1 0 c) 1 (away1 1 c) 512 (hC 1 c)
            ∗ owes (c : Thread nD τ) O (insert (SemLoc.dma (rsem 1 0), ()) (insert (SemLoc.dma (ssem 1 0), ()) W))
            ∗ (((c : Thread nD τ).loc cc0_stg0_0) ↦{fullShare} x c) ∗ (((c : Thread nD τ).loc cc0_stg1_0) ↦{fullShare} w c))) := by
  subst hd
  simp only [sendG, recvG]
  iintro ⟨#HIs, #HIr, ⟨Hcs, Hats⟩, ⟨Hcr, Hatr⟩, HO, Hx, Hw, #Hmws, #Hmwr⟩
  unfold withBufs; rw [k0_part11_eq_skeleton]; unfold k0_part11_skel
  sl_exec
  ihave Hp := (Entails.of_eq (p10_recvPay0 x w d0 1)) $$ Hatr_pay1
  icases Hp with ⟨Hh, Hn⟩
  obtain ⟨t, ht⟩ := p10_colC 1 d0
  iapply (ev_S2 d0 1 x w (away1 1 d0) (hC 1 d0) (fun r col => Vals.own x w 1 r col (nb 1 0 d0)) (hmW := rfl)
    (ho := Forms.off_22 d0) (pl := k0_pay11) (hpl := fun u y => p10_hpl11 x w d0 t ht u y)) $$ [Hh Hx Hw]
  · iframe Hh Hx Hw
  iintro ⟨Hh, Hx, Hw⟩
  iapply (le_wp_ret _ _ _ PUnit.unit _)
  isplitl [Hats]; · iexact Hats
  isplitl [Hatr]; · iexact Hatr
  isplitl [Hh]; · iexact Hh
  isplitl [Hn]; · iexact Hn
  isplitl [HO]; · iexact HO
  isplitl [Hx]; · iexact Hx
  iexact Hw

theorem part12 (c : Dev nD) (κs2 κd2 κs κr : ℕ) (d0 : Dev nD) (hd : d0 = c) (v79 v157 : BitVec 32)
    (O : CellTallies nD τ sig Unit) (W : Waits sig Unit) :
    iprop(cellInv (ER (F := F)) (cubeRd x w) κs2 (sendCell c 1 2) ∗ cellInv (ER (F := F)) (cubeRd x w) κd2 (recvCell (peer 1 2 c) 1 2)
        ∗ cellInv (ER (F := F)) (cubeRd x w) κs (sendCell c 2 0) ∗ cellInv (ER (F := F)) (cubeRd x w) κr (recvCell c 2 0)
        ∗ sendG (F := F) c 1 2 0 ∗ sendG (F := F) c 2 0 1 ∗ recvG (F := F) c 2 0 0
        ∗ holdsW c 1 (away1 1 c) 512 (hC 1 c) (fun r col => Vals.st1 x w 1 r col c)
        ∗ ownsR1 (F := F) (nb 1 1 c) 1
        ∗ owes (c : Thread nD τ) (O + tallyAt (recvCell (peer 1 2 c) 1 2) () (credOf 1 2)) W
        ∗ MayWait (c : Thread nD τ) (.dma (ssem 2 0)) () (O) ∗ MayWait (c : Thread nD τ) (.dma (rsem 2 0)) () (O))
      ⊢ wp frame (wpE (defs₀ (F := F)) Variants.none (c : Thread nD τ) none) Set.univ
          (withBufs (k0_part12 (F := F)) d0 v79 v157)
          (fun res => iprop(⌜∃ u : Vec F S1x1360x512 .f32, res = k0_pay12 u
                ∧ ∀ y : S1x1360x512.Idx, u y = Vals.own x w 2 (y 1).val (away1 2 c + (y 2).val) (nb 2 0 c)⌝
            ∗ sendG (F := F) c 1 2 1 ∗ sendG (F := F) c 2 0 2 ∗ recvG (F := F) c 2 0 1
            ∗ holdsW c 2 (away1 2 c) 512 (hC 2 c) (fun r col => Vals.own x w 2 r col (nb 2 0 c))
            ∗ ownsW (F := F) (nb 2 0 c) 2 (away1 2 c) 512 (hC 2 c)
            ∗ owes (c : Thread nD τ) O (insert (SemLoc.dma (rsem 2 0), ()) (insert (SemLoc.dma (ssem 2 0), ()) W)))) := by
  subst hd
  simp only [sendG, recvG]
  iintro ⟨#HIs2, #HId2, #HIs, #HIr, Hsg, ⟨Hcs, Hats⟩, ⟨Hcr, Hatr⟩, Hh, HR1, HO, #Hmws, #Hmwr⟩
  unfold withBufs; rw [k0_part12_eq_skeleton]; unfold k0_part12_skel
  icases Hsg with ⟨Ht1, Hr1, Ht2, Hr2, Hat2⟩
  iapply (ev_send_handoff_r1 x w d0 1 (hn := rfl) (hoff := rfl) (hC 1 d0) (ho := Forms.off_24 d0) (ho' := rfl)
    (hsrcE := rfl) (hdstE := rfl) (hc' := Forms.dev_11 d0) (hsS := rfl) (hsR := rfl) (hval := rfl) O rfl) $$ [Hh HR1 HO Ht1 Hr1 Ht2 Hr2]
  · isplitr [Hh HR1 HO Ht1 Hr1 Ht2 Hr2]; · iexact HIs2
    isplitr [Hh HR1 HO Ht1 Hr1 Ht2 Hr2]; · iexact HId2
    isplitl [Hh]; · iexact Hh
    isplitl [HR1]; · iexact HR1
    isplitl [HO]; · iexact HO
    isplitl [Ht1]; · iexact Ht1
    isplitl [Hr1]; · iexact Hr1
    isplitl [Ht2]; · iexact Ht2
    iexact Hr2
  iintro ⟨Hcs2, HO⟩
  iapply (ev_wait_send_mw x w d0 2 0 rfl rfl) $$ [Hats Hcs HO]
  · isplitr [Hats Hcs HO]; · iexact HIs
    iframe Hats Hcs HO Hmws
  iintro ⟨Hsp_20, Hats, Hrs_20, HO⟩
  iapply (ev_wait_recv_mw x w d0 2 0 rfl rfl) $$ [Hatr Hcr HO]
  · isplitr [Hatr Hcr HO]; · iexact HIr
    iframe Hatr Hcr HO Hmwr
  iintro ⟨Hrp_20, Hatr, Hrr_20, HO⟩
  ihave Hp := (Entails.of_eq (p10_recvPay0 x w d0 2)) $$ Hrp_20
  icases Hp with ⟨Hh2, Hn⟩
  iapply (wp_Lwb d0 2 (away1 2 d0) 512 (hC 2 d0) (hmW := rfl) (ho := Forms.off_25 d0)
    (fun r col => Vals.own x w 2 r col (nb 2 0 d0))) $$ [Hh2]
  · iexact Hh2
  iintro %u %hu Hh2
  iapply (le_wp_ret _ _ _ (k0_pay12 u) _)
  isplitr [Hcs2 Hat2 Hats Hatr Hh2 Hn HO]
  · ipureintro; exact ⟨u, rfl, hu⟩
  isplitl [Hcs2 Hat2]
  · iframe Hcs2 Hat2
  iframe Hats Hatr Hh2 Hn HO

theorem part13 (c : Dev nD) (κs2 κd2 κs : ℕ) (d0 : Dev nD) (hd : d0 = c) (v65 v157 : BitVec 32)
    (v389 : FVec F S1360x512 .f32) (u : Vec F S1x1360x512 .f32) (h389 : v389 = k0_pay12 u)
    (hu : ∀ y : S1x1360x512.Idx, u y = Vals.own x w 2 (y 1).val (away1 2 c + (y 2).val) (nb 2 0 c))
    (O : CellTallies nD τ sig Unit) (W : Waits sig Unit) :
    iprop(cellInv (ER (F := F)) (cubeRd x w) κs2 (sendCell c 2 2) ∗ cellInv (ER (F := F)) (cubeRd x w) κd2 (recvCell (peer 2 2 c) 2 2)
        ∗ cellInv (ER (F := F)) (cubeRd x w) κs (sendCell c 0 1)
        ∗ sendG (F := F) c 2 2 0 ∗ sendG (F := F) c 0 1 1
        ∗ holdsW c 2 (away1 2 c) 512 (hC 2 c) (fun r col => Vals.own x w 2 r col (nb 2 0 c))
        ∗ ownsR1 (F := F) (nb 2 1 c) 2
        ∗ owes (c : Thread nD τ) (O + tallyAt (recvCell (peer 2 2 c) 2 2) () (credOf 2 2)) W
        ∗ (((c : Thread nD τ).loc cc0_stg0_0) ↦{fullShare} x c) ∗ (((c : Thread nD τ).loc cc0_stg1_0) ↦{fullShare} w c)
        ∗ MayWait (c : Thread nD τ) (.dma (ssem 0 1)) () (O))
      ⊢ wp frame (wpE (defs₀ (F := F)) Variants.none (c : Thread nD τ) none) Set.univ
          (withBufs (k0_part13 (F := F)) d0 v65 v157 v389)
          (fun _ => iprop(sendG (F := F) c 2 2 1 ∗ sendG (F := F) c 0 1 2
            ∗ owes (c : Thread nD τ) O (insert (SemLoc.dma (ssem 0 1), ()) W)
            ∗ (((c : Thread nD τ).loc cc0_stg0_0) ↦{fullShare} x c) ∗ (((c : Thread nD τ).loc cc0_stg1_0) ↦{fullShare} w c))) := by
  subst hd; subst h389
  simp only [sendG]
  iintro ⟨#HIs2, #HId2, #HIs, Hsg, ⟨Hcs, Hats⟩, Hh, HR1, HO, Hx, Hw, #Hmws⟩
  unfold withBufs; rw [k0_part13_eq_skeleton]; unfold k0_part13_skel
  iapply (wp_Lstg0 d0 (x d0)) $$ [Hx]
  · iexact Hx
  iintro Hx
  iapply (wp_Lstg1 d0 (w d0)) $$ [Hw]
  · iexact Hw
  iintro Hw
  iapply (wp_Lwb d0 2 (away1 2 d0) 512 (hC 2 d0) (hmW := rfl) (ho := Forms.off_25 d0)
    (fun r col => Vals.own x w 2 r col (nb 2 0 d0))) $$ [Hh]
  · iexact Hh
  iintro %u' %hu' Hh
  ihave Hown := (holdsW_owns d0 2 (away1 2 d0) 512 (hC 2 d0) _) $$ Hh
  obtain ⟨t, ht⟩ := p10_colC 2 d0
  iapply (wp_Swb d0 2 (away1 2 d0) 512 (hC 2 d0) (hmW := rfl) (ho := Forms.off_25 d0)
    (fun r col => Vals.st1 x w 2 r col d0) (hpl := fun y => p10_hpl13 x w d0 t ht u hu y)) $$ [Hown]
  · iexact Hown
  iintro Hh
  icases Hsg with ⟨Ht1, Hr1, Ht2, Hr2, Hat2⟩
  iapply (ev_send_handoff_r1 x w d0 2 (hn := rfl) (hoff := rfl) (hC 2 d0) (ho := Forms.off_27 d0) (ho' := rfl)
    (hsrcE := rfl) (hdstE := rfl) (hc' := Forms.dev_12 d0) (hsS := rfl) (hsR := rfl) (hval := rfl) O rfl) $$ [Hh HR1 HO Ht1 Hr1 Ht2 Hr2]
  · isplitr [Hh HR1 HO Ht1 Hr1 Ht2 Hr2]; · iexact HIs2
    isplitr [Hh HR1 HO Ht1 Hr1 Ht2 Hr2]; · iexact HId2
    isplitl [Hh]; · iexact Hh
    isplitl [HR1]; · iexact HR1
    isplitl [HO]; · iexact HO
    isplitl [Ht1]; · iexact Ht1
    isplitl [Hr1]; · iexact Hr1
    isplitl [Ht2]; · iexact Ht2
    iexact Hr2
  iintro ⟨Hcs2, HO⟩
  iapply (ev_wait_send_mw x w d0 0 1 rfl rfl) $$ [Hats Hcs HO]
  · isplitr [Hats Hcs HO]; · iexact HIs
    iframe Hats Hcs HO Hmws
  iintro ⟨Hsp_01, Hats, Hrs_01, HO⟩
  iapply (le_wp_ret _ _ _ PUnit.unit _)
  isplitl [Hcs2 Hat2]
  · iframe Hcs2 Hat2
  iframe Hats HO Hx Hw

theorem part14 (c : Dev nD) (κr κs : ℕ) (d0 : Dev nD) (hd : d0 = c) (v65 v99 : BitVec 32)
    (O : CellTallies nD τ sig Unit) (W : Waits sig Unit) :
    iprop(cellInv (ER (F := F)) (cubeRd x w) κr (recvCell c 0 1) ∗ cellInv (ER (F := F)) (cubeRd x w) κs (sendCell c 0 2)
        ∗ recvG (F := F) c 0 1 0 ∗ sendG (F := F) c 0 2 1
        ∗ owes (c : Thread nD τ) O W
        ∗ (((c : Thread nD τ).loc cc0_stg0_0) ↦{fullShare} x c) ∗ (((c : Thread nD τ).loc cc0_stg1_0) ↦{fullShare} w c)
        ∗ MayWait (c : Thread nD τ) (.dma (rsem 0 1)) () (O) ∗ MayWait (c : Thread nD τ) (.dma (ssem 0 2)) () (O))
      ⊢ wp frame (wpE (defs₀ (F := F)) Variants.none (c : Thread nD τ) none) Set.univ
          (withBufs (k0_part14 (F := F)) d0 v65 v99)
          (fun _ => iprop(recvG (F := F) c 0 1 1 ∗ sendG (F := F) c 0 2 2
            ∗ holdsW c 0 (o2 0 c) 512 (hD 0 c) (fun r col => Vals.st1 x w 0 r col c)
            ∗ ownsW (F := F) (nb 0 0 c) 0 (o2 0 c) 512 (hD 0 c)
            ∗ owes (c : Thread nD τ) O (insert (SemLoc.dma (ssem 0 2), ()) (insert (SemLoc.dma (rsem 0 1), ()) W))
            ∗ (((c : Thread nD τ).loc cc0_stg0_0) ↦{fullShare} x c) ∗ (((c : Thread nD τ).loc cc0_stg1_0) ↦{fullShare} w c))) := by
  subst hd
  simp only [sendG, recvG]
  iintro ⟨#HIr, #HIs, ⟨Hcr, Hatr⟩, ⟨Hcs, Hats⟩, HO, Hx, Hw, #Hmwr, #Hmws⟩
  unfold withBufs; rw [k0_part14_eq_skeleton]; unfold k0_part14_skel
  sl_exec
  ihave Hp := (Entails.of_eq (p10_recvPay1 x w d0 0)) $$ Hatr_pay1
  icases Hp with ⟨Hh, Hn⟩
  obtain ⟨t, ht⟩ := p10_colD 0 d0
  iapply (ev_S2 d0 0 x w (o2 0 d0) (hD 0 d0) (fun r col => Vals.own x w 0 r col (nb 0 0 d0)) (hmW := rfl)
    (ho := Forms.off_28 d0) (pl := k0_pay14) (hpl := fun u y => p10_hpl14 x w d0 t ht u y)) $$ [Hh Hx Hw]
  · iframe Hh Hx Hw
  iintro ⟨Hh, Hx, Hw⟩
  iapply (ev_wait_send_mw x w d0 0 2 rfl rfl) $$ [Hats Hcs HO]
  · isplitr [Hats Hcs HO]; · iexact HIs
    iframe Hats Hcs HO Hmws
  iintro ⟨Hsp_02, Hats, Hrs_02, HO⟩
  iapply (le_wp_ret _ _ _ PUnit.unit _)
  isplitl [Hatr]; · iexact Hatr
  isplitl [Hats]; · iexact Hats
  isplitl [Hh]; · iexact Hh
  isplitl [Hn]; · iexact Hn
  isplitl [HO]; · iexact HO
  isplitl [Hx]; · iexact Hx
  iexact Hw

end Cert.KernelIdeal.Body

end
-- ==== Proof.Parts15.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.EvSend
import proofs.«900802_g7700000000000803_dist_gemm_ar_m4096_k4096_n2048_f32_relu_v7x_i8_1_alg».proof.Proof.EvStore
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages

noncomputable section

namespace Cert.KernelIdeal.Body

open Cert.KernelIdeal Cert.KernelIdeal.Gen Cert.KernelIdeal.Spec Cert.KernelIdeal.Reg Cert.KernelIdeal.Proto
open Cert.KernelIdeal.Tables Cert.KernelIdeal.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

private theorem p15_sendG0 (c : Dev nD) (p : Fin 3) (i : Fin 10) :
    sendG (F := F) c p i 0 = iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
private theorem p15_sendG1 (c : Dev nD) (p : Fin 3) (i : Fin 10) :
    sendG (F := F) c p i 1 = iprop(cred (tallyAt (sendCell c p i) () (credOf p i)) ∗ atPos ER (sendCell c p i) 0 ∅ 0) := rfl
private theorem p15_sendG2 (c : Dev nD) (p : Fin 3) (i : Fin 10) :
    sendG (F := F) c p i 2 = atPos ER (sendCell c p i) 1 ∅ 0 := rfl
private theorem p15_recvG0 (c : Dev nD) (p : Fin 3) (i : Fin 10) :
    recvG (F := F) c p i 0 = iprop(cred (tallyAt (recvCell c p i) () (credOf p i)) ∗ atPos ER (recvCell c p i) 0 ∅ 0) := rfl
private theorem p15_recvG1 (c : Dev nD) (p : Fin 3) (i : Fin 10) :
    recvG (F := F) c p i 1 = atPos ER (recvCell c p i) 1 ∅ 0 := rfl

private theorem p15_o2_block (p : Fin 3) (c : Dev nD) : ∃ t : Fin 4, o2 p c = 512 * t.val := by revert p c; decide

private theorem p15_recvPay1 (c : Dev nD) (p : Fin 3) :
    recvPay x w c p 1 = iprop(holdsW c p (o2 p c) 512 (hD p c) (fun r col => Vals.own x w p r col (nb p 0 c))
      ∗ ownsW (nb p 0 c) p (o2 p c) 512 (hD p c)) := by
  show iprop(holdsW c p (srcOff p 1 (peer p 1 c)) 512 (inb_src p 1 (peer p 1 c)) (fun r col => Vals.own x w p r col (peer p 1 c))
      ∗ ownsW (peer p 1 c) p (srcOff p 1 (peer p 1 c)) 512 (inb_src p 1 (peer p 1 c))) = _
  rw [Pieces.holdsW_land1, Pieces.ownsW_land1]
  rfl
private theorem p15_recvPay2 (c : Dev nD) (p : Fin 3) :
    recvPay x w c p 2 = iprop(holdsR1 c p (o2 p c) (fun r col => Vals.st1 x w p r col (nb p 1 c))
      ∗ ownsW (nb p 1 c) p (o2 p c) 512 (hD p c)) := by
  rw [recvPay_r1, Pieces.holdsR1_land2, Pieces.ownsW_land2]
  rfl

private theorem p15_hq3 (p : Fin 3) (c : Dev nD) : Inb3 512 p.val (rowLen p) (o3 p c - o2 p c) 256 := by revert p c; decide
private theorem p15_hq2 (p : Fin 3) (c : Dev nD) : Inb3 512 p.val (rowLen p) (away2 p c - o2 p c) 256 := by revert p c; decide
private theorem p15_le3 (p : Fin 3) (c : Dev nD) : o2 p c ≤ o3 p c := by revert p c; decide
private theorem p15_le2 (p : Fin 3) (c : Dev nD) : o2 p c ≤ away2 p c := by revert p c; decide

private theorem p15_Swb (c : Dev nD) (p : Fin 3) (off wd : ℕ) (h : Inb3 2048 p.val (rowLen p) off wd)
    {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    {pl : (⟨3, ![1, rowLen p, wd]⟩ : Shape).Idx → Elt F .f32} (val : ℕ → ℕ → F .f32)
    (hpl : ∀ y, pl y = val (y 1).val (off + (y 2).val))
    {hx : (mW.access (Rect.unit (s := S3x1368x2048) o ![1, rowLen p, wd] hb)).Stores Finset.univ}
    {hm : (Finset.univ : Finset (Rect.unit (s := S3x1368x2048) o ![1, rowLen p, wd] hb).shape.Idx) = Finset.univ ∨ ∀ a, (Rect.unit (s := S3x1368x2048) o ![1, rowLen p, wd] hb).stride a = 1}
    {α : Type} {k : PUnit → Prog (TpuEff nD τ sig (Elt F) Λ₀ .tc) α} {Q : α → sProp 𝕄} :
    ownsW (F := F) c p off wd h
      ⊢ iprop((holdsW c p off wd h val -∗ wp frame (wpE (defs₀ (F := F)) Variants.none c none) Set.univ (k ⟨⟩) Q)
        -∗ wp frame (wpE (defs₀ (F := F)) Variants.none c none) Set.univ
            (.op (.store mW (Rect.unit (s := S3x1368x2048) o ![1, rowLen p, wd] hb) pl Finset.univ hx hm) k) Q) := by
  subst hmW; subst ho
  unfold ownsW holdsW
  iintro ⟨%f, Hf⟩ Hk
  iapply (wp_store Variants.none (c : Thread nD τ) none Set.univ (m := wbM) (r := wbRect p.val (rowLen p) off wd h) (Mk := Finset.univ) (S := wbReg c p.val (rowLen p) off wd h) (Finset.Subset.refl _)) $$ Hf
  iintro Hf
  iapply Hk
  iexists _; isplitl
  · iexact Hf
  ipureintro
  intro y
  exact (View.read_write_of_mem (v := wbM.access (wbRect p.val (rowLen p) off wd h)) f pl (Finset.mem_univ y)).trans (hpl y)

theorem part15 (c : Dev nD) (κr κs κq : ℕ) (d0 : Dev nD) (hd : d0 = c)
    (v68 v79 v99 v104 v108 : BitVec 32)
    (O : CellTallies nD τ sig Unit) (W : Waits sig Unit) :
    iprop(cellInv (ER (F := F)) (cubeRd x w) κr (recvCell c 0 2)
        ∗ cellInv (ER (F := F)) (cubeRd x w) κs (sendCell c 0 3)
        ∗ cellInv (ER (F := F)) (cubeRd x w) κq (recvCell (peer 0 3 c) 0 3)
        ∗ MayWait (c : Thread nD τ) (.dma (rsem 0 2)) () (O + tallyAt (recvCell (peer 0 3 c) 0 3) () (credOf 0 3))
        ∗ recvG (F := F) c 0 2 0 ∗ sendG (F := F) c 0 3 0
        ∗ holdsW c 0 (o2 0 c) 512 (hD 0 c) (fun r col => Vals.st1 x w 0 r col c)
        ∗ ownsR2 (F := F) (nb 0 2 c) 0
        ∗ owes (c : Thread nD τ) (O + tallyAt (recvCell (peer 0 3 c) 0 3) () (credOf 0 3)) W)
      ⊢ wp frame (wpE (defs₀ (F := F)) Variants.none (c : Thread nD τ) none) Set.univ
          (withBufs (k0_part15 (F := F)) d0 v68 v79 v99 v104 v108)
          (fun res => iprop(⌜∀ y : S1x1368x256.Idx, res y = Vals.st1 x w 0 (y 1).val (o3 0 c + (y 2).val) c⌝
            ∗ recvG (F := F) c 0 2 1 ∗ sendG (F := F) c 0 3 1
            ∗ holdsR1 c 0 (o2 0 c) (fun r col => Vals.st1 x w 0 r col (nb 0 1 c))
            ∗ ownsW (F := F) (nb 0 1 c) 0 (o2 0 c) 512 (hD 0 c)
            ∗ holdsW c 0 (o3 0 c) 256 (hG 0 c) (fun r col => Vals.st1 x w 0 r col c)
            ∗ owes (c : Thread nD τ) O (insert (SemLoc.dma (rsem 0 2), ()) W))) := by
  subst hd
  rw [p15_recvG0, p15_recvG1, p15_sendG0, p15_sendG1]
  iintro ⟨#HIr, #HIs, #HIq, #Hmwr, ⟨Hcr, Hatr⟩, ⟨Hts, Hrs, Htr, Hrr, Hats⟩, Hd, HR2, HO⟩
  unfold withBufs; rw [k0_part15_eq_skeleton]; unfold k0_part15_skel
  iapply (ev_wait_recv_mw x w d0 0 2 rfl rfl) $$ [Hatr Hcr HO]
  · iframe HIr Hatr Hcr HO Hmwr
  rw [p15_recvPay2]
  iintro ⟨⟨HR, Hn⟩, Hatr, #Hrr1, HO⟩
  ihave HD := (Pieces.holdsW_D d0 0 (fun r col => Vals.st1 x w 0 r col d0)).1 $$ Hd
  icases HD with ⟨HE, HG⟩
  iapply (wp_Lwb d0 0 (away2 0 d0) 256 (hE 0 d0) rfl (Forms.off_30 d0) (fun r col => Vals.st1 x w 0 r col d0)) $$ HE
  iintro %a %ha HE
  iapply (wp_Lr1 d0 0 (o2 0 d0) (away2 0 d0 - o2 0 d0) (p15_hq2 0 d0) (fun r col => Vals.st1 x w 0 r col (nb 0 1 d0)) rfl (Forms.off_31 d0)) $$ HR
  iintro %b %hb HR
  iapply (wp_Lwb d0 0 (away2 0 d0) 256 (hE 0 d0) rfl (Forms.off_30 d0) (fun r col => Vals.st1 x w 0 r col d0)) $$ HE
  iintro %a' %ha' HE
  ihave HE := (holdsW_owns d0 0 (away2 0 d0) 256 (hE 0 d0) (fun r col => Vals.st1 x w 0 r col d0)) $$ HE
  have hplE : ∀ y : S1x1368x256.Idx, k0_pay15 a b y = Vals.st2 x w 0 (y 1).val (away2 0 d0 + (y 2).val) d0 := by
    intro y
    refine (Pays.pay15_apply a b y).trans ?_
    rw [ha y, hb y, show o2 0 d0 + (away2 0 d0 - o2 0 d0 + (y 2).val) = away2 0 d0 + (y 2).val from by have := p15_le2 0 d0; omega]
    rfl
  iapply (p15_Swb d0 0 (away2 0 d0) 256 (hE 0 d0) rfl (Forms.off_30 d0) (fun r col => Vals.st2 x w 0 r col d0) hplE) $$ HE
  iintro HE
  iapply (ev_send_handoff_r2 x w d0 0 rfl rfl (hE 0 d0) (Forms.off_32 d0) rfl rfl rfl (Forms.dev_13 d0) rfl rfl rfl O rfl) $$ [HE HR2 HO Hts Hrs Htr Hrr]
  · isplitl []; · iexact HIs
    isplitl []; · iexact HIq
    isplitl [HE]; · iexact HE
    isplitl [HR2]; · iexact HR2
    isplitl [HO]; · iexact HO
    isplitl [Hts]; · iexact Hts
    isplitl [Hrs]; · iexact Hrs
    isplitl [Htr]; · iexact Htr
    iexact Hrr
  iintro ⟨Hcs, HO⟩
  iapply (wp_Lwb d0 0 (o3 0 d0) 256 (hG 0 d0) rfl (Forms.off_33 d0) (fun r col => Vals.st1 x w 0 r col d0)) $$ HG
  iintro %g %hg HG
  iapply (le_wp_ret (Fr := Idealize.ShloMosaic.frame) (wpE := wpE (defs₀ (F := F)) Variants.none (d0 : Thread nD τ) none) (E := Set.univ) _ _)
  isplitl []; · ipureintro; exact hg
  iframe Hatr
  isplitl [Hcs Hats]
  · iframe Hcs Hats
  iframe HR Hn HG HO

theorem part16 (c : Dev nD) (κs κr : ℕ) (d0 : Dev nD) (hd : d0 = c)
    (v68 v99 v108 v129 : BitVec 32)
    (v476 : Vec F S1x1368x256 .f32) (h476 : ∀ y : S1x1368x256.Idx, v476 y = Vals.st1 x w 0 (y 1).val (o3 0 c + (y 2).val) c)
    (O : CellTallies nD τ sig Unit) (W : Waits sig Unit) :
    iprop(cellInv (ER (F := F)) (cubeRd x w) κs (sendCell c 1 1)
        ∗ cellInv (ER (F := F)) (cubeRd x w) κr (recvCell c 1 1)
        ∗ MayWait (c : Thread nD τ) (.dma (ssem 1 1)) () O
        ∗ MayWait (c : Thread nD τ) (.dma (rsem 1 1)) () O
        ∗ sendG (F := F) c 1 1 1 ∗ recvG (F := F) c 1 1 0
        ∗ holdsW c 0 (o3 0 c) 256 (hG 0 c) (fun r col => Vals.st1 x w 0 r col c)
        ∗ holdsR1 c 0 (o2 0 c) (fun r col => Vals.st1 x w 0 r col (nb 0 1 c))
        ∗ (((c : Thread nD τ).loc cc0_stg0_0) ↦{fullShare} x c)
        ∗ owes (c : Thread nD τ) O W)
      ⊢ wp frame (wpE (defs₀ (F := F)) Variants.none (c : Thread nD τ) none) Set.univ
          (withBufs (k0_part16 (F := F)) d0 v68 v99 v108 v129 v476)
          (fun res => iprop(⌜∃ u : Vec F S1x1368x512 .f32, res.1 = k0_pay17 u
                ∧ ∀ y : S1x1368x512.Idx, u y = Vals.own x w 1 (y 1).val (o2 1 c + (y 2).val) (nb 1 0 c)⌝
            ∗ ⌜res.2 = k0_pay18 (Vals.xrowsA x c 1368 (by decide))⌝
            ∗ sendG (F := F) c 1 1 2 ∗ recvG (F := F) c 1 1 1
            ∗ holdsW c 0 (o3 0 c) 256 (hG 0 c) (fun r col => Vals.st2 x w 0 r col c)
            ∗ holdsR1 c 0 (o2 0 c) (fun r col => Vals.st1 x w 0 r col (nb 0 1 c))
            ∗ holdsW c 1 (o2 1 c) 512 (hD 1 c) (fun r col => Vals.own x w 1 r col (nb 1 0 c))
            ∗ ownsW (F := F) (nb 1 0 c) 1 (o2 1 c) 512 (hD 1 c)
            ∗ (((c : Thread nD τ).loc cc0_stg0_0) ↦{fullShare} x c)
            ∗ owes (c : Thread nD τ) O (insert (SemLoc.dma (rsem 1 1), ()) (insert (SemLoc.dma (ssem 1 1), ()) W)))) := by
  subst hd
  rw [p15_sendG1, p15_recvG0, p15_sendG2, p15_recvG1]
  iintro ⟨#HIs, #HIr, #Hmws, #Hmwr, ⟨Hcs, Hats⟩, ⟨Hcr, Hatr⟩, HG, HR, Hx, HO⟩
  unfold withBufs; rw [k0_part16_eq_skeleton]; unfold k0_part16_skel
  iapply (wp_Lr1 d0 0 (o2 0 d0) (o3 0 d0 - o2 0 d0) (p15_hq3 0 d0) (fun r col => Vals.st1 x w 0 r col (nb 0 1 d0)) rfl (Forms.off_34 d0)) $$ HR
  iintro %b %hb HR
  iapply (wp_Lwb d0 0 (o3 0 d0) 256 (hG 0 d0) rfl (Forms.off_33 d0) (fun r col => Vals.st1 x w 0 r col d0)) $$ HG
  iintro %a' %ha' HG
  ihave HG := (holdsW_owns d0 0 (o3 0 d0) 256 (hG 0 d0) (fun r col => Vals.st1 x w 0 r col d0)) $$ HG
  have hpl : ∀ y : S1x1368x256.Idx, k0_pay16 v476 b y = Vals.st2 x w 0 (y 1).val (o3 0 d0 + (y 2).val) d0 := by
    intro y
    refine (Pays.pay16_apply v476 b y).trans ?_
    rw [h476 y, hb y, show o2 0 d0 + (o3 0 d0 - o2 0 d0 + (y 2).val) = o3 0 d0 + (y 2).val from by have := p15_le3 0 d0; omega]
    rfl
  iapply (p15_Swb d0 0 (o3 0 d0) 256 (hG 0 d0) rfl (Forms.off_33 d0) (fun r col => Vals.st2 x w 0 r col d0) hpl) $$ HG
  iintro HG
  iapply (ev_wait_send_mw x w d0 1 1 rfl rfl) $$ [Hats Hcs HO]
  · iframe HIs Hats Hcs HO Hmws
  rw [sendPay_reduce d0 1 1 (by decide)]
  iintro ⟨-, Hats, #Hrs, HO⟩
  iapply (ev_wait_recv_mw x w d0 1 1 rfl rfl) $$ [Hatr Hcr HO]
  · iframe HIr Hatr Hcr HO Hmwr
  rw [p15_recvPay1]
  iintro ⟨⟨Hd, Hn⟩, Hatr, #Hrr, HO⟩
  iapply (wp_Lwb d0 1 (o2 1 d0) 512 (hD 1 d0) rfl (Forms.off_35 d0) (fun r col => Vals.own x w 1 r col (nb 1 0 d0))) $$ Hd
  iintro %u %hu Hd
  iapply (wp_Lstg0 d0 (x d0)) $$ Hx
  iintro Hx
  iapply (le_wp_ret (Fr := Idealize.ShloMosaic.frame) (wpE := wpE (defs₀ (F := F)) Variants.none (d0 : Thread nD τ) none) (E := Set.univ) _ _)
  isplitl []; · ipureintro; exact ⟨u, rfl, hu⟩
  isplitl []; · ipureintro; exact congrArg k0_pay18 (Pays.rowsA_readAt x d0 _ 1368 rfl rfl _ _)
  iframe Hats Hatr HG HR Hd Hn Hx HO

theorem part17 (c : Dev nD) (κs κr : ℕ) (d0 : Dev nD) (hd : d0 = c)
    (v79 v129 v134 : BitVec 32)
    (v503 : FVec F S1368x512 .f32) (u503 : Vec F S1x1368x512 .f32) (h503 : v503 = k0_pay17 u503)
    (hu503 : ∀ y : S1x1368x512.Idx, u503 y = Vals.own x w 1 (y 1).val (o2 1 c + (y 2).val) (nb 1 0 c))
    (v505 : FVec F S1368x512 .f32) (h505 : v505 = k0_pay18 (Vals.xrowsA x c 1368 (by decide)))
    (O : CellTallies nD τ sig Unit) (W : Waits sig Unit) :
    iprop(cellInv (ER (F := F)) (cubeRd x w) κs (sendCell c 1 2)
        ∗ cellInv (ER (F := F)) (cubeRd x w) κr (recvCell c 1 2)
        ∗ MayWait (c : Thread nD τ) (.dma (ssem 1 2)) () O
        ∗ MayWait (c : Thread nD τ) (.dma (rsem 1 2)) () O
        ∗ sendG (F := F) c 1 2 1 ∗ recvG (F := F) c 1 2 0
        ∗ holdsW c 1 (o2 1 c) 512 (hD 1 c) (fun r col => Vals.own x w 1 r col (nb 1 0 c))
        ∗ (((c : Thread nD τ).loc cc0_stg1_0) ↦{fullShare} w c)
        ∗ owes (c : Thread nD τ) O W)
      ⊢ wp frame (wpE (defs₀ (F := F)) Variants.none (c : Thread nD τ) none) Set.univ
          (withBufs (k0_part17 (F := F)) d0 v79 v129 v134 v503 v505)
          (fun res => iprop(⌜∃ u : Vec F S1x1368x256 .f32, res.1 = k0_pay20 u
                ∧ ∀ y : S1x1368x256.Idx, u y = Vals.st1 x w 1 (y 1).val (away2 1 c + (y 2).val) c⌝
            ∗ ⌜∀ y : S1x1368x256.Idx, res.2 y = Vals.st1 x w 1 (y 1).val (away2 1 c + (y 2).val) (nb 1 1 c)⌝
            ∗ sendG (F := F) c 1 2 2 ∗ recvG (F := F) c 1 2 1
            ∗ holdsW c 1 (o2 1 c) 512 (hD 1 c) (fun r col => Vals.st1 x w 1 r col c)
            ∗ holdsR1 c 1 (o2 1 c) (fun r col => Vals.st1 x w 1 r col (nb 1 1 c))
            ∗ ownsW (F := F) (nb 1 1 c) 1 (o2 1 c) 512 (hD 1 c)
            ∗ (((c : Thread nD τ).loc cc0_stg1_0) ↦{fullShare} w c)
            ∗ owes (c : Thread nD τ) O (insert (SemLoc.dma (rsem 1 2), ()) (insert (SemLoc.dma (ssem 1 2), ()) W)))) := by
  subst hd
  subst h503 h505
  rw [p15_sendG1, p15_recvG0, p15_sendG2, p15_recvG1]
  iintro ⟨#HIs, #HIr, #Hmws, #Hmwr, ⟨Hcs, Hats⟩, ⟨Hcr, Hatr⟩, Hd, Hw, HO⟩
  unfold withBufs; rw [k0_part17_eq_skeleton]; unfold k0_part17_skel
  have hoff36 := Forms.off_36 d0
  iapply (wp_Lstg1 d0 (w d0)) $$ Hw
  iintro Hw
  iapply (wp_Lwb d0 1 (o2 1 d0) 512 (hD 1 d0) rfl (Forms.off_35 d0) (fun r col => Vals.own x w 1 r col (nb 1 0 d0))) $$ Hd
  iintro %a' %ha' Hd
  ihave Hd := (holdsW_owns d0 1 (o2 1 d0) 512 (hD 1 d0) (fun r col => Vals.own x w 1 r col (nb 1 0 d0))) $$ Hd
  have hpl : ∀ y : S1x1368x512.Idx,
      k0_pay19 (k0_pay17 u503) (k0_pay18 (Vals.xrowsA x d0 1368 (by decide)))
        ((Memref.whole cc0_stg1_0 : Memref sig .tc .vmem S512x2048 .f32).view.readAt (Elt F) (Rect.unit (s := S512x2048) (k0_off36 d0) S512x512.size (Gen.k0_off36_inb d0)).toLoadRect (w d0)) y
      = Vals.st1 x w 1 (y 1).val (o2 1 d0 + (y 2).val) d0 := by
    intro y
    obtain ⟨t, ht⟩ := p15_o2_block 1 d0
    refine (Pays.pay19_apply u503 _ _ y).trans ?_
    rw [hu503 y, Pays.cols_readAt w d0 _ t (by rw [hoff36]; rfl) (by rw [hoff36]; exact ht), ht]
    exact congrArg _ (Pays.mmA_own1 x w d0 (by decide) t (y 1) (y 2))
  iapply (p15_Swb d0 1 (o2 1 d0) 512 (hD 1 d0) rfl (Forms.off_35 d0) (fun r col => Vals.st1 x w 1 r col d0) hpl) $$ Hd
  iintro Hd
  iapply (ev_wait_send_mw x w d0 1 2 rfl rfl) $$ [Hats Hcs HO]
  · iframe HIs Hats Hcs HO Hmws
  rw [sendPay_reduce d0 1 2 (by decide)]
  iintro ⟨-, Hats, #Hrs, HO⟩
  iapply (ev_wait_recv_mw x w d0 1 2 rfl rfl) $$ [Hatr Hcr HO]
  · iframe HIr Hatr Hcr HO Hmwr
  rw [p15_recvPay2]
  iintro ⟨⟨HR, Hn⟩, Hatr, #Hrr, HO⟩
  ihave HD := (Pieces.holdsW_D d0 1 (fun r col => Vals.st1 x w 1 r col d0)).1 $$ Hd
  icases HD with ⟨HE, HGp⟩
  iapply (wp_Lwb d0 1 (away2 1 d0) 256 (hE 1 d0) rfl (Forms.off_37 d0) (fun r col => Vals.st1 x w 1 r col d0)) $$ HE
  iintro %u %hu HE
  iapply (wp_Lr1 d0 1 (o2 1 d0) (away2 1 d0 - o2 1 d0) (p15_hq2 1 d0) (fun r col => Vals.st1 x w 1 r col (nb 1 1 d0)) rfl (Forms.off_38 d0)) $$ HR
  iintro %b %hb HR
  ihave Hd := (Pieces.holdsW_D d0 1 (fun r col => Vals.st1 x w 1 r col d0)).2 $$ [HE HGp]
  · iframe HE HGp
  iapply (le_wp_ret (Fr := Idealize.ShloMosaic.frame) (wpE := wpE (defs₀ (F := F)) Variants.none (d0 : Thread nD τ) none) (E := Set.univ) _ _)
  isplitl []; · ipureintro; exact ⟨u, rfl, hu⟩
  isplitl []
  · ipureintro
    intro y
    refine (hb y).trans ?_
    rw [show o2 1 d0 + (away2 1 d0 - o2 1 d0 + (y 2).val) = away2 1 d0 + (y 2).val from by have := p15_le2 1 d0; omega]
  iframe Hats Hatr Hd HR Hn Hw HO

theorem part18 (c : Dev nD) (κs κq : ℕ) (d0 : Dev nD) (hd : d0 = c)
    (v65 v129 v134 v138 : BitVec 32)
    (v531 : FVec F S1368x256 .f32) (u531 : Vec F S1x1368x256 .f32) (h531 : v531 = k0_pay20 u531)
    (hu531 : ∀ y : S1x1368x256.Idx, u531 y = Vals.st1 x w 1 (y 1).val (away2 1 c + (y 2).val) c)
    (v534 : Vec F S1x1368x256 .f32)
    (h534 : ∀ y : S1x1368x256.Idx, v534 y = Vals.st1 x w 1 (y 1).val (away2 1 c + (y 2).val) (nb 1 1 c))
    (O : CellTallies nD τ sig Unit) (W : Waits sig Unit) :
    iprop(cellInv (ER (F := F)) (cubeRd x w) κs (sendCell c 1 3)
        ∗ cellInv (ER (F := F)) (cubeRd x w) κq (recvCell (peer 1 3 c) 1 3)
        ∗ sendG (F := F) c 1 3 0
        ∗ holdsW c 1 (o2 1 c) 512 (hD 1 c) (fun r col => Vals.st1 x w 1 r col c)
        ∗ holdsR1 c 1 (o2 1 c) (fun r col => Vals.st1 x w 1 r col (nb 1 1 c))
        ∗ ownsR2 (F := F) (nb 1 2 c) 1
        ∗ owes (c : Thread nD τ) (O + tallyAt (recvCell (peer 1 3 c) 1 3) () (credOf 1 3)) W)
      ⊢ wp frame (wpE (defs₀ (F := F)) Variants.none (c : Thread nD τ) none) Set.univ
          (withBufs (k0_part18 (F := F)) d0 v65 v129 v134 v138 v531 v534)
          (fun _ => iprop(sendG (F := F) c 1 3 1
            ∗ holdsW c 1 (o3 1 c) 256 (hG 1 c) (fun r col => Vals.st2 x w 1 r col c)
            ∗ holdsR1 c 1 (o2 1 c) (fun r col => Vals.st1 x w 1 r col (nb 1 1 c))
            ∗ owes (c : Thread nD τ) O W)) := by
  subst hd
  subst h531
  rw [p15_sendG0, p15_sendG1]
  iintro ⟨#HIs, #HIq, ⟨Hts, Hrs, Htr, Hrr, Hats⟩, Hd, HR, HR2, HO⟩
  unfold withBufs; rw [k0_part18_eq_skeleton]; unfold k0_part18_skel
  ihave HD := (Pieces.holdsW_D d0 1 (fun r col => Vals.st1 x w 1 r col d0)).1 $$ Hd
  icases HD with ⟨HE, HG⟩
  iapply (wp_Lwb d0 1 (away2 1 d0) 256 (hE 1 d0) rfl (Forms.off_37 d0) (fun r col => Vals.st1 x w 1 r col d0)) $$ HE
  iintro %e' %he' HE
  ihave HE := (holdsW_owns d0 1 (away2 1 d0) 256 (hE 1 d0) (fun r col => Vals.st1 x w 1 r col d0)) $$ HE
  have hplE : ∀ y : S1x1368x256.Idx, k0_pay21 (k0_pay20 u531) v534 y = Vals.st2 x w 1 (y 1).val (away2 1 d0 + (y 2).val) d0 := by
    intro y
    refine (Pays.pay21_apply u531 v534 y).trans ?_
    rw [hu531 y, h534 y]
    rfl
  iapply (p15_Swb d0 1 (away2 1 d0) 256 (hE 1 d0) rfl (Forms.off_37 d0) (fun r col => Vals.st2 x w 1 r col d0) hplE) $$ HE
  iintro HE
  iapply (ev_send_handoff_r2 x w d0 1 rfl rfl (hE 1 d0) (Forms.off_39 d0) rfl rfl rfl (Forms.dev_14 d0) rfl rfl rfl O rfl) $$ [HE HR2 HO Hts Hrs Htr Hrr]
  · isplitl []; · iexact HIs
    isplitl []; · iexact HIq
    isplitl [HE]; · iexact HE
    isplitl [HR2]; · iexact HR2
    isplitl [HO]; · iexact HO
    isplitl [Hts]; · iexact Hts
    isplitl [Hrs]; · iexact Hrs
    isplitl [Htr]; · iexact Htr
    iexact Hrr
  iintro ⟨Hcs, HO⟩
  iapply (wp_Lwb d0 1 (o3 1 d0) 256 (hG 1 d0) rfl (Forms.off_40 d0) (fun r col => Vals.st1 x w 1 r col d0)) $$ HG
  iintro %a %ha HG
  iapply (wp_Lr1 d0 1 (o2 1 d0) (o3 1 d0 - o2 1 d0) (p15_hq3 1 d0) (fun r col => Vals.st1 x w 1 r col (nb 1 1 d0)) rfl (Forms.off_41 d0)) $$ HR
  iintro %b %hb HR
  iapply (wp_Lwb d0 1 (o3 1 d0) 256 (hG 1 d0) rfl (Forms.off_40 d0) (fun r col => Vals.st1 x w 1 r col d0)) $$ HG
  iintro %a' %ha' HG
  ihave HG := (holdsW_owns d0 1 (o3 1 d0) 256 (hG 1 d0) (fun r col => Vals.st1 x w 1 r col d0)) $$ HG
  have hplG : ∀ y : S1x1368x256.Idx, k0_pay22 a b y = Vals.st2 x w 1 (y 1).val (o3 1 d0 + (y 2).val) d0 := by
    intro y
    refine (Pays.pay22_apply a b y).trans ?_
    rw [ha y, hb y, show o2 1 d0 + (o3 1 d0 - o2 1 d0 + (y 2).val) = o3 1 d0 + (y 2).val from by have := p15_le3 1 d0; omega]
    rfl
  iapply (p15_Swb d0 1 (o3 1 d0) 256 (hG 1 d0) rfl (Forms.off_40 d0) (fun r col => Vals.st2 x w 1 r col d0) hplG) $$ HG
  iintro HG
  iapply (le_wp_ret (Fr := Idealize.ShloMosaic.frame) (wpE := wpE (defs₀ (F := F)) Variants.none (d0 : Thread nD τ) none) (E := Set.univ) PUnit.unit _)
  isplitl [Hcs Hats]
  · iframe Hcs Hats
  iframe HG HR HO

theorem part19 (c : Dev nD) (κs κr : ℕ) (d0 : Dev nD) (hd : d0 = c)
    (v79 v159 : BitVec 32)
    (O : CellTallies nD τ sig Unit) (W : Waits sig Unit) :
    iprop(cellInv (ER (F := F)) (cubeRd x w) κs (sendCell c 2 1)
        ∗ cellInv (ER (F := F)) (cubeRd x w) κr (recvCell c 2 1)
        ∗ MayWait (c : Thread nD τ) (.dma (ssem 2 1)) () O
        ∗ MayWait (c : Thread nD τ) (.dma (rsem 2 1)) () O
        ∗ sendG (F := F) c 2 1 1 ∗ recvG (F := F) c 2 1 0
        ∗ (((c : Thread nD τ).loc cc0_stg0_0) ↦{fullShare} x c)
        ∗ (((c : Thread nD τ).loc cc0_stg1_0) ↦{fullShare} w c)
        ∗ owes (c : Thread nD τ) O W)
      ⊢ wp frame (wpE (defs₀ (F := F)) Variants.none (c : Thread nD τ) none) Set.univ
          (withBufs (k0_part19 (F := F)) d0 v79 v159)
          (fun _ => iprop(sendG (F := F) c 2 1 2 ∗ recvG (F := F) c 2 1 1
            ∗ holdsW c 2 (o2 2 c) 512 (hD 2 c) (fun r col => Vals.st1 x w 2 r col c)
            ∗ ownsW (F := F) (nb 2 0 c) 2 (o2 2 c) 512 (hD 2 c)
            ∗ (((c : Thread nD τ).loc cc0_stg0_0) ↦{fullShare} x c)
            ∗ (((c : Thread nD τ).loc cc0_stg1_0) ↦{fullShare} w c)
            ∗ owes (c : Thread nD τ) O (insert (SemLoc.dma (rsem 2 1), ()) (insert (SemLoc.dma (ssem 2 1), ()) W)))) := by
  subst hd
  rw [p15_sendG1, p15_recvG0, p15_sendG2, p15_recvG1]
  iintro ⟨#HIs, #HIr, #Hmws, #Hmwr, ⟨Hcs, Hats⟩, ⟨Hcr, Hatr⟩, Hx, Hw, HO⟩
  unfold withBufs; rw [k0_part19_eq_skeleton]; unfold k0_part19_skel
  have hoff42 := Forms.off_42 d0
  have hoff43 := Forms.off_43 d0
  iapply (ev_wait_send_mw x w d0 2 1 rfl rfl) $$ [Hats Hcs HO]
  · iframe HIs Hats Hcs HO Hmws
  rw [sendPay_reduce d0 2 1 (by decide)]
  iintro ⟨-, Hats, #Hrs, HO⟩
  iapply (ev_wait_recv_mw x w d0 2 1 rfl rfl) $$ [Hatr Hcr HO]
  · iframe HIr Hatr Hcr HO Hmwr
  rw [p15_recvPay1]
  iintro ⟨⟨Hd, Hn⟩, Hatr, #Hrr, HO⟩
  have hpl : ∀ (u : Vec F S1x1360x512 .f32) (y : S1x1360x512.Idx),
      k0_pay23 u ((Memref.whole cc0_stg0_0 : Memref sig .tc .vmem S4096x512 .f32).view.readAt (Elt F) (Rect.unit (s := S4096x512) ![2736, 0] S1360x512.size Gen.inb_S4096x512_S1360x512_2736_0).toLoadRect (x d0))
        ((Memref.whole cc0_stg1_0 : Memref sig .tc .vmem S512x2048 .f32).view.readAt (Elt F) (Rect.unit (s := S512x2048) (k0_off43 d0) S512x512.size (Gen.k0_off43_inb d0)).toLoadRect (w d0)) y
      = FloatOps.addf (u y) (Vals.own x w 2 (y 1).val (o2 2 d0 + (y 2).val) d0) := by
    intro u y
    obtain ⟨t, ht⟩ := p15_o2_block 2 d0
    rw [Pays.pay23_apply, Pays.rowsB_readAt x d0 _ rfl rfl, Pays.cols_readAt w d0 _ t (by rw [hoff43]; rfl) (by rw [hoff43]; exact ht), ht]
    exact congrArg _ (Pays.mmB_own2 x w d0 t (y 1) (y 2))
  iapply (ev_S2 d0 2 x w (o2 2 d0) (hD 2 d0) (fun r col => Vals.own x w 2 r col (nb 2 0 d0)) rfl hoff42 hpl) $$ [Hd Hx Hw]
  · iframe Hd Hx Hw
  iintro ⟨Hd, Hx, Hw⟩
  iapply (le_wp_ret (Fr := Idealize.ShloMosaic.frame) (wpE := wpE (defs₀ (F := F)) Variants.none (d0 : Thread nD τ) none) (E := Set.univ) PUnit.unit _)
  isplitl [Hats]; · iexact Hats
  isplitl [Hatr]; · iexact Hatr
  isplitl [Hd]; · iexact Hd
  isplitl [Hn]; · iexact Hn
  isplitl [Hx]; · iexact Hx
  isplitl [Hw]; · iexact Hw
  iexact HO

end Cert.KernelIdeal.Body

end
-- ==== Proof.Parts20.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.EvSend
import proofs.«900802_g7700000000000803_dist_gemm_ar_m4096_k4096_n2048_f32_relu_v7x_i8_1_alg».proof.Proof.EvStore
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages

noncomputable section

namespace Cert.KernelIdeal.Body

open Cert.KernelIdeal Cert.KernelIdeal.Gen Cert.KernelIdeal.Spec Cert.KernelIdeal.Reg Cert.KernelIdeal.Proto
open Cert.KernelIdeal.Tables Cert.KernelIdeal.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv

private theorem p20_ret_bind {E : Type → Type} {α β : Type} (a : α) (k : α → Prog E β) : (Prog.ret a).bind k = k a := rfl

private theorem p20_who (p : Fin 3) (c : Dev nD) (q : ℕ) (hq : q < 256) : who p (o3 p c + q) = c := by
  have hk : o3 p c % 256 = 0 := by revert p c; decide
  have h2 : (o3 p c + q) / 256 * 256 = o3 p c := by omega
  unfold who; rw [h2]; exact who_o3 p c

private theorem p20_gath (p : Fin 3) (c : Dev nD) (r q : ℕ) (hq : q < 256) :
    FloatOps.maximumf (FloatOps.addf (Vals.st2 x w p r (o3 p c + q) c) (Vals.st2 x w p r (o3 p c + q) (nb p 2 c)))
        (Scalar.ofBits .f32 0x00000000#32) = gath x w p r (o3 p c + q) := by
  unfold gath; rw [p20_who p c q hq]; rfl

private theorem p20_partW_intro (c : Dev nD) (p : Fin 3) (off wd : ℕ) (h : Inb3 2048 p.val (rowLen p) off wd)
    (qs : List (PosShare TreeShare)) (val : ℕ → ℕ → F .f32)
    (f : Buf (Elt F) ((wbM.access (wbRect p.val (rowLen p) off wd h)).loc (c : Thread nD τ)))
    (hf : ∀ y : (⟨3, ![1, rowLen p, wd]⟩ : Shape).Idx, (wbM.access (wbRect p.val (rowLen p) off wd h)).read (Elt F) f y = val (y 1).val (off + (y 2).val)) :
    (qs.foldr (fun q A => iprop((((wbM.access (wbRect p.val (rowLen p) off wd h)).loc (c : Thread nD τ)) ↦[wbReg c p.val (rowLen p) off wd h]{q} f) ∗ A)) iprop(emp) : sProp 𝕄)
      ⊢ partW c p off wd h qs val := by
  unfold partW
  iintro H
  iexists f
  iframe H
  ipureintro; exact hf

theorem part20 (c : Dev nD) (κ1 κ2 : ℕ) (d0 : Dev nD) (hd : d0 = c)
    (v65 v68 v159 v164 : BitVec 32)
    (O : CellTallies nD τ sig Unit) (W : Waits sig Unit) :
    iprop(cellInv (ER (F := F)) (cubeRd x w) κ1 (sendCell c 2 2)
        ∗ cellInv (ER (F := F)) (cubeRd x w) κ2 (recvCell c 2 2)
        ∗ MayWait (c : Thread nD τ) (.dma (ssem 2 2)) () O
        ∗ MayWait (c : Thread nD τ) (.dma (rsem 2 2)) () O
        ∗ sendG (F := F) c 2 2 1 ∗ recvG (F := F) c 2 2 0
        ∗ holdsW c 2 (o2 2 c) 512 (hD 2 c) (fun r col => Vals.st1 x w 2 r col c)
        ∗ owes (c : Thread nD τ) O W)
      ⊢ wp frame (wpE (defs₀ (F := F)) Variants.none (c : Thread nD τ) none) Set.univ
          (withBufs (k0_part20 (F := F)) d0 v65 v68 v159 v164)
          (fun _ => iprop(sendG (F := F) c 2 2 2 ∗ recvG (F := F) c 2 2 1
            ∗ holdsR1 c 2 (o2 2 c) (fun r col => Vals.st1 x w 2 r col (nb 2 1 c))
            ∗ ownsW (F := F) (nb 2 1 c) 2 (o2 2 c) 512 (hD 2 c)
            ∗ holdsW c 2 (away2 2 c) 256 (hE 2 c) (fun r col => Vals.st2 x w 2 r col c)
            ∗ holdsW c 2 (o3 2 c) 256 (hG 2 c) (fun r col => Vals.st1 x w 2 r col c)
            ∗ owes (c : Thread nD τ) O (insert (SemLoc.dma (rsem 2 2), ()) (insert (SemLoc.dma (ssem 2 2), ()) W)))) := by
  subst hd
  simp only [sendG, recvG]
  iintro ⟨#HI1, #HI2, #Hmw1, #Hmw2, ⟨Hsc, Hsat⟩, ⟨Hrc, Hrat⟩, HD, HO⟩
  unfold withBufs; rw [k0_part20_eq_skeleton]; unfold k0_part20_skel
  sl_exec
  ihave Hpay := (Entails.of_eq (recvPay_r1 x w d0 2)) $$ Hrat_pay1
  icases Hpay with ⟨HR1, HoN⟩
  ihave HR1 := (Entails.of_eq (Pieces.holdsR1_land2 d0 2 _)) $$ HR1
  ihave HoN := (Entails.of_eq (Pieces.ownsW_land2 (F := F) d0 2)) $$ HoN
  ihave HDs := (Pieces.holdsW_D d0 2 _).1 $$ HD
  icases HDs with ⟨HE, HG⟩
  have hbase : o2 2 d0 ≤ away2 2 d0 := by revert d0; decide
  have hq : Inb3 512 (2 : Fin 3).val (rowLen 2) (away2 2 d0 - o2 2 d0) 256 := by revert d0; decide
  iapply (ev_S3 d0 2 (away2 2 d0) (o2 2 d0) (hE 2 d0) hbase hq _ _ rfl rfl (Forms.off_44 d0) (Forms.off_45 d0) (fun a b y => Pays.pay24_apply a b y)) $$ [HE HR1]
  · iframe HE HR1
  iintro ⟨HE, HR1⟩
  simp only [p20_ret_bind]
  sl_step
  isplitl [Hsat]; · iexact Hsat
  isplitl [Hrat]; · iexact Hrat
  isplitl [HR1]; · iexact HR1
  isplitl [HoN]; · iexact HoN
  isplitl [HE]; · iexact HE
  isplitl [HG]; · iexact HG
  iexact HO

theorem part21 (c : Dev nD) (κ1 κ2 κ3 : ℕ) (d0 : Dev nD) (hd : d0 = c)
    (v79 v159 v168 : BitVec 32)
    (O : CellTallies nD τ sig Unit) (W : Waits sig Unit) :
    iprop(cellInv (ER (F := F)) (cubeRd x w) κ1 (sendCell c 2 3)
        ∗ cellInv (ER (F := F)) (cubeRd x w) κ2 (recvCell (peer 2 3 c) 2 3)
        ∗ cellInv (ER (F := F)) (cubeRd x w) κ3 (sendCell c 0 3)
        ∗ MayWait (c : Thread nD τ) (.dma (ssem 0 3)) () O
        ∗ sendG (F := F) c 2 3 0
        ∗ holdsW c 2 (away2 2 c) 256 (hE 2 c) (fun r col => Vals.st2 x w 2 r col c)
        ∗ ownsR2 (F := F) (nb 2 2 c) 2
        ∗ holdsW c 2 (o3 2 c) 256 (hG 2 c) (fun r col => Vals.st1 x w 2 r col c)
        ∗ holdsR1 c 2 (o2 2 c) (fun r col => Vals.st1 x w 2 r col (nb 2 1 c))
        ∗ sendG (F := F) c 0 3 1
        ∗ owes (c : Thread nD τ) (O + tallyAt (recvCell (peer 2 3 c) 2 3) () (credOf 2 3)) W)
      ⊢ wp frame (wpE (defs₀ (F := F)) Variants.none (c : Thread nD τ) none) Set.univ
          (withBufs (k0_part21 (F := F)) d0 v79 v159 v168)
          (fun _ => iprop(sendG (F := F) c 2 3 1
            ∗ holdsW c 2 (o3 2 c) 256 (hG 2 c) (fun r col => Vals.st2 x w 2 r col c)
            ∗ holdsR1 c 2 (o2 2 c) (fun r col => Vals.st1 x w 2 r col (nb 2 1 c))
            ∗ sendG (F := F) c 0 3 2
            ∗ owes (c : Thread nD τ) O (insert (SemLoc.dma (ssem 0 3), ()) W))) := by
  subst hd
  simp only [sendG, recvG]
  iintro ⟨#HI1, #HI2, #HI3, #Hmw, ⟨Ht1, Hr1, Ht2, Hr2, Hat⟩, HE, HoR2, HG, HR1, ⟨Hc03, Hat03⟩, HO⟩
  unfold withBufs; rw [k0_part21_eq_skeleton]; unfold k0_part21_skel
  have hdev15 := Forms.dev_15
  iapply (ev_send_handoff_r2 x w d0 2 rfl rfl (hE 2 d0) (Forms.off_46 d0) rfl rfl rfl (Forms.dev_15 d0) rfl rfl rfl O rfl) $$ [HE HoR2 HO Ht1 Hr1 Ht2 Hr2]
  · isplitl []; · iexact HI1
    isplitl []; · iexact HI2
    isplitl [HE]; · iexact HE
    isplitl [HoR2]; · iexact HoR2
    isplitl [HO]; · iexact HO
    isplitl [Ht1]; · iexact Ht1
    isplitl [Hr1]; · iexact Hr1
    isplitl [Ht2]; · iexact Ht2
    iexact Hr2
  iintro ⟨Hcr, HO⟩
  simp only [p20_ret_bind, Prog.bind_lift]
  have hbase : o2 2 d0 ≤ o3 2 d0 := by revert d0; decide
  have hq : Inb3 512 (2 : Fin 3).val (rowLen 2) (o3 2 d0 - o2 2 d0) 256 := by revert d0; decide
  iapply (ev_S3 d0 2 (o3 2 d0) (o2 2 d0) (hG 2 d0) hbase hq _ _ rfl rfl (Forms.off_47 d0) (Forms.off_48 d0) (fun a b y => Pays.pay25_apply a b y)) $$ [HG HR1]
  · iframe HG HR1
  iintro ⟨HG, HR1⟩
  sl_exec
  sl_step
  isplitl [Hcr Hat]
  · iframe Hcr Hat
  isplitl [HG]; · iexact HG
  isplitl [HR1]; · iexact HR1
  isplitl [Hat03]; · iexact Hat03
  iexact HO

theorem part22 (c : Dev nD) (κ1 κ2 κ3 : ℕ) (d0 : Dev nD) (hd : d0 = c)
    (v68 v79 v108 : BitVec 32)
    (O : CellTallies nD τ sig Unit) (W : Waits sig Unit) :
    iprop(cellInv (ER (F := F)) (cubeRd x w) κ1 (recvCell c 0 3)
        ∗ cellInv (ER (F := F)) (cubeRd x w) κ2 (sendCell c 0 4)
        ∗ cellInv (ER (F := F)) (cubeRd x w) κ3 (recvCell (peer 0 4 c) 0 4)
        ∗ MayWait (c : Thread nD τ) (.dma (rsem 0 3)) () (O + tallyAt (recvCell (peer 0 4 c) 0 4) () (credOf 0 4))
        ∗ recvG (F := F) c 0 3 0
        ∗ holdsW c 0 (o3 0 c) 256 (hG 0 c) (fun r col => Vals.st2 x w 0 r col c)
        ∗ sendG (F := F) c 0 4 0
        ∗ owes (c : Thread nD τ) (O + tallyAt (recvCell (peer 0 4 c) 0 4) () (credOf 0 4)) W)
      ⊢ wp frame (wpE (defs₀ (F := F)) Variants.none (c : Thread nD τ) none) Set.univ
          (withBufs (k0_part22 (F := F)) d0 v68 v79 v108)
          (fun _ => iprop(recvG (F := F) c 0 3 1
            ∗ holdsR2 c 0 (o3 0 c) (fun r col => Vals.st2 x w 0 r col (nb 0 2 c))
            ∗ partW c 0 (o3 0 c) 256 (hG 0 c) [fullShare.right] (gath x w 0)
            ∗ sendG (F := F) c 0 4 1
            ∗ owes (c : Thread nD τ) O (insert (SemLoc.dma (rsem 0 3), ()) W))) := by
  subst hd
  simp only [sendG, recvG]
  iintro ⟨#HI1, #HI2, #HI3, #Hmw, ⟨Hrc, Hrat⟩, HG, ⟨Ht1, Hr1, Ht2, Hr2, Hat⟩, HO⟩
  unfold withBufs; rw [k0_part22_eq_skeleton]; unfold k0_part22_skel
  have hdev16 := Forms.dev_16
  sl_exec
  ihave Hpay := (Entails.of_eq (recvPay_r2 x w d0 0)) $$ Hrat_pay1
  icases Hpay with ⟨HR2, HoN⟩
  ihave HR2 := (Entails.of_eq (Pieces.holdsR2_land3 d0 0 _)) $$ HR2
  ihave HoN := (Entails.of_eq (Pieces.ownsW_land3 (F := F) d0 0)) $$ HoN
  iapply (ev_S4 d0 0 (o3 0 d0) (hG 0 d0) _ _ rfl rfl (Forms.off_33 d0) rfl (fun a b y => Pays.pay26_apply a b y)) $$ [HG HR2]
  · iframe HG HR2
  iintro ⟨HG, HR2⟩
  ihave HG := (holdsW_congr d0 0 (o3 0 d0) 256 (hG 0 d0) _ (gath x w 0) (fun r q hq => p20_gath x w 0 d0 r q hq)) $$ HG
  ihave HP := (Pieces.holdsW_partW d0 0 (hG 0 d0) _).1 $$ HG
  ihave HP := (Pieces.partW_share d0 0 (hG 0 d0) fullShare [] _).1 $$ HP
  ihave HP := (Pieces.partW_cons d0 0 (hG 0 d0) fullShare.left [fullShare.right] _).1 $$ HP
  icases HP with ⟨%fs, Hq, Hrest, %hfs⟩
  simp only [p20_ret_bind, Prog.bind_lift]
  iapply (ev_send_share x w d0 0 4 (by decide) rfl rfl rfl (hG 0 d0) (Forms.off_49 d0) (Forms.off_49 d0) rfl rfl (Forms.dev_16 d0) rfl rfl rfl O rfl fs hfs) $$ [Hq HoN HO Ht1 Hr1 Ht2 Hr2]
  · isplitl []; · iexact HI2
    isplitl []; · iexact HI3
    isplitl [Hq]; · iexact Hq
    isplitl [HoN]; · iexact HoN
    isplitl [HO]; · iexact HO
    isplitl [Ht1]; · iexact Ht1
    isplitl [Hr1]; · iexact Hr1
    isplitl [Ht2]; · iexact Ht2
    iexact Hr2
  iintro ⟨Hcr, HO⟩
  ihave HP := (p20_partW_intro d0 0 (o3 0 d0) 256 (hG 0 d0) [fullShare.right] (gath x w 0) fs hfs) $$ Hrest
  sl_step
  isplitl [Hrat]; · iexact Hrat
  isplitl [HR2]; · iexact HR2
  isplitl [HP]; · iexact HP
  isplitl [Hcr Hat]
  · iframe Hcr Hat
  iexact HO

theorem part23 (c : Dev nD) (κ1 κ2 κ3 κ4 κ5 : ℕ) (d0 : Dev nD) (hd : d0 = c)
    (v65 : BitVec 32)
    (O : CellTallies nD τ sig Unit) (W : Waits sig Unit) :
    iprop(cellInv (ER (F := F)) (cubeRd x w) κ1 (sendCell c 0 5)
        ∗ cellInv (ER (F := F)) (cubeRd x w) κ2 (recvCell (peer 0 5 c) 0 5)
        ∗ cellInv (ER (F := F)) (cubeRd x w) κ3 (sendCell c 0 6)
        ∗ cellInv (ER (F := F)) (cubeRd x w) κ4 (recvCell (peer 0 6 c) 0 6)
        ∗ cellInv (ER (F := F)) (cubeRd x w) κ5 (sendCell c 1 3)
        ∗ MayWait (c : Thread nD τ) (.dma (ssem 1 3)) () O
        ∗ sendG (F := F) c 0 5 0 ∗ sendG (F := F) c 0 6 0
        ∗ partW c 0 (o3 0 c) 256 (hG 0 c) [fullShare.right] (gath x w 0)
        ∗ ownsW (F := F) (nb 0 1 c) 0 (o2 0 c) 512 (hD 0 c)
        ∗ ownsW (F := F) (nb 0 0 c) 0 (o2 0 c) 512 (hD 0 c)
        ∗ sendG (F := F) c 1 3 1
        ∗ owes (c : Thread nD τ) (O + tallyAt (recvCell (peer 0 6 c) 0 6) () (credOf 0 6)
            + tallyAt (recvCell (peer 0 5 c) 0 5) () (credOf 0 5)) W)
      ⊢ wp frame (wpE (defs₀ (F := F)) Variants.none (c : Thread nD τ) none) Set.univ
          (withBufs (k0_part23 (F := F)) d0 v65)
          (fun _ => iprop(sendG (F := F) c 0 5 1 ∗ sendG (F := F) c 0 6 1
            ∗ partW c 0 (o3 0 c) 256 (hG 0 c) [lshr] (gath x w 0)
            ∗ ownsW (F := F) (nb 0 1 c) 0 (away2 0 c) 256 (hE 0 c)
            ∗ ownsW (F := F) (nb 0 0 c) 0 (away2 0 c) 256 (hE 0 c)
            ∗ sendG (F := F) c 1 3 2
            ∗ owes (c : Thread nD τ) O (insert (SemLoc.dma (ssem 1 3), ()) W))) := by
  subst hd
  simp only [sendG, recvG]
  iintro ⟨#HI1, #HI2, #HI3, #HI4, #HI5, #Hmw, ⟨Ht51, Hr51, Ht52, Hr52, Hat5⟩, ⟨Ht61, Hr61, Ht62, Hr62, Hat6⟩, HP, Ho1, Ho0, ⟨Hc13, Hat13⟩, HO⟩
  unfold withBufs; rw [k0_part23_eq_skeleton]; unfold k0_part23_skel
  have hdev17 := Forms.dev_17
  have hdev18 := Forms.dev_18
  ihave Ho1 := (Pieces.ownsW_D (F := F) d0 0 (nb 0 1 d0)).1 $$ Ho1
  icases Ho1 with ⟨Ho1E, Ho1G⟩
  ihave Ho0 := (Pieces.ownsW_D (F := F) d0 0 (nb 0 0 d0)).1 $$ Ho0
  icases Ho0 with ⟨Ho0E, Ho0G⟩
  ihave HP := (Pieces.partW_share d0 0 (hG 0 d0) fullShare.right [] _).1 $$ HP
  ihave HP := (Pieces.partW_cons d0 0 (hG 0 d0) fullShare.right.left [fullShare.right.right] _).1 $$ HP
  icases HP with ⟨%fs, Hq5, Hrest, %hfs⟩
  iapply (ev_send_share x w d0 0 5 (by decide) rfl rfl rfl (hG 0 d0) (Forms.off_49 d0) (Forms.off_49 d0) rfl rfl (Forms.dev_17 d0) rfl rfl rfl (O + tallyAt (recvCell (peer 0 6 d0) 0 6) () (credOf 0 6)) rfl fs hfs) $$ [Hq5 Ho1G HO Ht51 Hr51 Ht52 Hr52]
  · isplitl []; · iexact HI1
    isplitl []; · iexact HI2
    isplitl [Hq5]; · iexact Hq5
    isplitl [Ho1G]; · iexact Ho1G
    isplitl [HO]; · iexact HO
    isplitl [Ht51]; · iexact Ht51
    isplitl [Hr51]; · iexact Hr51
    isplitl [Ht52]; · iexact Ht52
    iexact Hr52
  iintro ⟨Hcr5, HO⟩
  ihave HP := (p20_partW_intro d0 0 (o3 0 d0) 256 (hG 0 d0) [fullShare.right.right] (gath x w 0) fs hfs) $$ Hrest
  ihave HP := (Pieces.partW_share d0 0 (hG 0 d0) fullShare.right.right [] _).1 $$ HP
  ihave HP := (Pieces.partW_cons d0 0 (hG 0 d0) fullShare.right.right.left [fullShare.right.right.right] _).1 $$ HP
  icases HP with ⟨%fs6, Hq6, Hrest6, %hfs6⟩
  simp only [p20_ret_bind, Prog.bind_lift]
  iapply (ev_send_share x w d0 0 6 (by decide) rfl rfl rfl (hG 0 d0) (Forms.off_49 d0) (Forms.off_49 d0) rfl rfl (Forms.dev_18 d0) rfl rfl rfl O rfl fs6 hfs6) $$ [Hq6 Ho0G HO Ht61 Hr61 Ht62 Hr62]
  · isplitl []; · iexact HI3
    isplitl []; · iexact HI4
    isplitl [Hq6]; · iexact Hq6
    isplitl [Ho0G]; · iexact Ho0G
    isplitl [HO]; · iexact HO
    isplitl [Ht61]; · iexact Ht61
    isplitl [Hr61]; · iexact Hr61
    isplitl [Ht62]; · iexact Ht62
    iexact Hr62
  iintro ⟨Hcr6, HO⟩
  ihave HP := (p20_partW_intro d0 0 (o3 0 d0) 256 (hG 0 d0) [fullShare.right.right.right] (gath x w 0) fs6 hfs6) $$ Hrest6
  simp only [p20_ret_bind, Prog.bind_lift]
  sl_exec
  sl_step
  isplitl [Hcr5 Hat5]
  · iframe Hcr5 Hat5
  isplitl [Hcr6 Hat6]
  · iframe Hcr6 Hat6
  isplitl [HP]; · iexact HP
  isplitl [Ho1E]; · iexact Ho1E
  isplitl [Ho0E]; · iexact Ho0E
  isplitl [Hat13]; · iexact Hat13
  iexact HO

theorem part24 (c : Dev nD) (κ1 κ2 κ3 : ℕ) (d0 : Dev nD) (hd : d0 = c)
    (v65 v79 v138 : BitVec 32)
    (O : CellTallies nD τ sig Unit) (W : Waits sig Unit) :
    iprop(cellInv (ER (F := F)) (cubeRd x w) κ1 (recvCell c 1 3)
        ∗ cellInv (ER (F := F)) (cubeRd x w) κ2 (sendCell c 1 4)
        ∗ cellInv (ER (F := F)) (cubeRd x w) κ3 (recvCell (peer 1 4 c) 1 4)
        ∗ MayWait (c : Thread nD τ) (.dma (rsem 1 3)) () (O + tallyAt (recvCell (peer 1 4 c) 1 4) () (credOf 1 4))
        ∗ recvG (F := F) c 1 3 0
        ∗ holdsW c 1 (o3 1 c) 256 (hG 1 c) (fun r col => Vals.st2 x w 1 r col c)
        ∗ sendG (F := F) c 1 4 0
        ∗ owes (c : Thread nD τ) (O + tallyAt (recvCell (peer 1 4 c) 1 4) () (credOf 1 4)) W)
      ⊢ wp frame (wpE (defs₀ (F := F)) Variants.none (c : Thread nD τ) none) Set.univ
          (withBufs (k0_part24 (F := F)) d0 v65 v79 v138)
          (fun _ => iprop(recvG (F := F) c 1 3 1
            ∗ holdsR2 c 1 (o3 1 c) (fun r col => Vals.st2 x w 1 r col (nb 1 2 c))
            ∗ partW c 1 (o3 1 c) 256 (hG 1 c) [fullShare.right] (gath x w 1)
            ∗ sendG (F := F) c 1 4 1
            ∗ owes (c : Thread nD τ) O (insert (SemLoc.dma (rsem 1 3), ()) W))) := by
  subst hd
  simp only [sendG, recvG]
  iintro ⟨#HI1, #HI2, #HI3, #Hmw, ⟨Hrc, Hrat⟩, HG, ⟨Ht1, Hr1, Ht2, Hr2, Hat⟩, HO⟩
  unfold withBufs; rw [k0_part24_eq_skeleton]; unfold k0_part24_skel
  have hdev19 := Forms.dev_19
  sl_exec
  ihave Hpay := (Entails.of_eq (recvPay_r2 x w d0 1)) $$ Hrat_pay1
  icases Hpay with ⟨HR2, HoN⟩
  ihave HR2 := (Entails.of_eq (Pieces.holdsR2_land3 d0 1 _)) $$ HR2
  ihave HoN := (Entails.of_eq (Pieces.ownsW_land3 (F := F) d0 1)) $$ HoN
  iapply (ev_S4 d0 1 (o3 1 d0) (hG 1 d0) _ _ rfl rfl (Forms.off_40 d0) rfl (fun a b y => Pays.pay27_apply a b y)) $$ [HG HR2]
  · iframe HG HR2
  iintro ⟨HG, HR2⟩
  ihave HG := (holdsW_congr d0 1 (o3 1 d0) 256 (hG 1 d0) _ (gath x w 1) (fun r q hq => p20_gath x w 1 d0 r q hq)) $$ HG
  ihave HP := (Pieces.holdsW_partW d0 1 (hG 1 d0) _).1 $$ HG
  ihave HP := (Pieces.partW_share d0 1 (hG 1 d0) fullShare [] _).1 $$ HP
  ihave HP := (Pieces.partW_cons d0 1 (hG 1 d0) fullShare.left [fullShare.right] _).1 $$ HP
  icases HP with ⟨%fs, Hq, Hrest, %hfs⟩
  simp only [p20_ret_bind, Prog.bind_lift]
  iapply (ev_send_share x w d0 1 4 (by decide) rfl rfl rfl (hG 1 d0) (Forms.off_50 d0) (Forms.off_50 d0) rfl rfl (Forms.dev_19 d0) rfl rfl rfl O rfl fs hfs) $$ [Hq HoN HO Ht1 Hr1 Ht2 Hr2]
  · isplitl []; · iexact HI2
    isplitl []; · iexact HI3
    isplitl [Hq]; · iexact Hq
    isplitl [HoN]; · iexact HoN
    isplitl [HO]; · iexact HO
    isplitl [Ht1]; · iexact Ht1
    isplitl [Hr1]; · iexact Hr1
    isplitl [Ht2]; · iexact Ht2
    iexact Hr2
  iintro ⟨Hcr, HO⟩
  ihave HP := (p20_partW_intro d0 1 (o3 1 d0) 256 (hG 1 d0) [fullShare.right] (gath x w 1) fs hfs) $$ Hrest
  sl_step
  isplitl [Hrat]; · iexact Hrat
  isplitl [HR2]; · iexact HR2
  isplitl [HP]; · iexact HP
  isplitl [Hcr Hat]
  · iframe Hcr Hat
  iexact HO

end Cert.KernelIdeal.Body

end
-- ==== Proof.Parts25.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.EvSend
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages

noncomputable section

namespace Cert.KernelIdeal.Body

open Cert.KernelIdeal Cert.KernelIdeal.Gen Cert.KernelIdeal.Spec Cert.KernelIdeal.Reg Cert.KernelIdeal.Proto
open Cert.KernelIdeal.Stages Cert.KernelIdeal.Tables Cert.KernelIdeal.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

private theorem p25_sendG_0 (c : Dev nD) (p : Fin 3) (i : Fin 10) : (sendG (F := F) c p i 0 : sProp 𝕄) =
    iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
private theorem p25_sendG_1 (c : Dev nD) (p : Fin 3) (i : Fin 10) : (sendG (F := F) c p i 1 : sProp 𝕄) =
    iprop(cred (tallyAt (sendCell c p i) () (credOf p i)) ∗ atPos ER (sendCell c p i) 0 ∅ 0) := rfl
private theorem p25_sendG_2 (c : Dev nD) (p : Fin 3) (i : Fin 10) : (sendG (F := F) c p i 2 : sProp 𝕄) = atPos ER (sendCell c p i) 1 ∅ 0 := rfl

theorem part25 (c : Dev nD) (κ0 κ1 κ2 κ3 κ4 : ℕ) (d0 : Dev nD) (hd : d0 = c) (v68 : BitVec 32)
    (O : CellTallies nD τ sig Unit) (W : Waits sig Unit) :
    iprop(cellInv (ER (F := F)) (cubeRd x w) κ0 (sendCell c 1 5) ∗ cellInv (ER (F := F)) (cubeRd x w) κ1 (recvCell (peer 1 5 c) 1 5)
        ∗ cellInv (ER (F := F)) (cubeRd x w) κ2 (sendCell c 1 6) ∗ cellInv (ER (F := F)) (cubeRd x w) κ3 (recvCell (peer 1 6 c) 1 6)
        ∗ cellInv (ER (F := F)) (cubeRd x w) κ4 (sendCell c 2 3)
        ∗ MayWait (c : Thread nD τ) (.dma (ssem 2 3)) () O
        ∗ partW c 1 (o3 1 c) 256 (hG 1 c) [fullShare.right] (gath x w 1)
        ∗ ownsW (nb 1 1 c) 1 (o2 1 c) 512 (hD 1 c) ∗ ownsW (nb 1 0 c) 1 (o2 1 c) 512 (hD 1 c)
        ∗ sendG (F := F) c 1 5 0 ∗ sendG (F := F) c 1 6 0 ∗ sendG (F := F) c 2 3 1
        ∗ owes (c : Thread nD τ) (O + tallyAt (recvCell (peer 1 6 c) 1 6) () (credOf 1 6) + tallyAt (recvCell (peer 1 5 c) 1 5) () (credOf 1 5)) W)
      ⊢ wp frame (wpE (defs₀ (F := F)) Variants.none (c : Thread nD τ) none) Set.univ
          (withBufs (k0_part25 (F := F)) d0 v68)
          (fun _ => iprop(partW c 1 (o3 1 c) 256 (hG 1 c) [lshr] (gath x w 1)
            ∗ ownsW (nb 1 1 c) 1 (away2 1 c) 256 (hE 1 c) ∗ ownsW (nb 1 0 c) 1 (away2 1 c) 256 (hE 1 c)
            ∗ sendG (F := F) c 1 5 1 ∗ sendG (F := F) c 1 6 1 ∗ sendG (F := F) c 2 3 2
            ∗ owes (c : Thread nD τ) O (insert (.dma (ssem 2 3), ()) W))) := by
  subst hd
  simp only [p25_sendG_0, p25_sendG_1, p25_sendG_2]
  iintro ⟨#HI0, #HI1, #HI2, #HI3, #HI4, #Hmw, HG, HO1, HO0, ⟨Ht5, #Hr5, Htr5, #Hrr5, Hat5⟩, ⟨Ht6, #Hr6, Htr6, #Hrr6, Hat6⟩, ⟨Hc3, Hat3⟩, HO⟩
  unfold withBufs; rw [k0_part25_eq_skeleton]; unfold k0_part25_skel
  have eD1 := ownsW_D (F := F) d0 (1 : Fin 3) (nb (1 : Fin 3) (1 : Fin 3) d0)
  have eD0 := ownsW_D (F := F) d0 (1 : Fin 3) (nb (1 : Fin 3) (0 : Fin 3) d0)
  have eS1 := partW_share (F := F) d0 (1 : Fin 3) (hG 1 d0) fullShare.right [] (gath x w 1)
  have eC1 := partW_cons (F := F) d0 (1 : Fin 3) (hG 1 d0) fullShare.right.left [fullShare.right.right] (gath x w 1)
  have eS2 := partW_share (F := F) d0 (1 : Fin 3) (hG 1 d0) fullShare.right.right [] (gath x w 1)
  have eC2 := partW_cons (F := F) d0 (1 : Fin 3) (hG 1 d0) fullShare.right.right.left [fullShare.right.right.right] (gath x w 1)
  ihave HO1' := (eD1.1) $$ HO1
  icases HO1' with ⟨HO1E, HO1G⟩
  ihave HO0' := (eD0.1) $$ HO0
  icases HO0' with ⟨HO0E, HO0G⟩

  ihave HG2 := (eS1.1) $$ HG
  ihave HG3 := (eC1.1) $$ HG2
  icases HG3 with ⟨%f, Hsh, Hrest, %hf⟩
  sl_exec
  iapply (ev_send_share x w d0 1 5 (by decide) rfl rfl rfl (hG 1 d0) (Forms.off_50 d0) (Forms.off_50 d0) rfl rfl (Forms.dev_20 d0) rfl rfl rfl
    (O + tallyAt (recvCell (peer 1 6 d0) 1 6) () (credOf 1 6)) rfl f hf) $$ [Hsh HO1G HO Ht5 Htr5]
  · isplitl []; · iexact HI0
    isplitl []; · iexact HI1
    isplitl [Hsh]; · iexact Hsh
    isplitl [HO1G]; · iexact HO1G
    isplitl [HO]; · iexact HO
    isplitl [Ht5]; · iexact Ht5
    isplitl []; · iexact Hr5
    isplitl [Htr5]; · iexact Htr5
    iexact Hrr5
  iintro ⟨Hc5, HO⟩
  ihave HG4 : partW d0 1 (o3 1 d0) 256 (hG 1 d0) [fullShare.right.right] (gath x w 1) $$ [Hrest]
  · unfold partW
    iexists f
    iframe Hrest
    ipureintro; exact hf

  ihave HG5 := (eS2.1) $$ HG4
  ihave HG6 := (eC2.1) $$ HG5
  icases HG6 with ⟨%f2, Hsh2, Hrest2, %hf2⟩
  sl_exec
  iapply (ev_send_share x w d0 1 6 (by decide) rfl rfl rfl (hG 1 d0) (Forms.off_50 d0) (Forms.off_50 d0) rfl rfl (Forms.dev_21 d0) rfl rfl rfl
    O rfl f2 hf2) $$ [Hsh2 HO0G HO Ht6 Htr6]
  · isplitl []; · iexact HI2
    isplitl []; · iexact HI3
    isplitl [Hsh2]; · iexact Hsh2
    isplitl [HO0G]; · iexact HO0G
    isplitl [HO]; · iexact HO
    isplitl [Ht6]; · iexact Ht6
    isplitl []; · iexact Hr6
    isplitl [Htr6]; · iexact Htr6
    iexact Hrr6
  iintro ⟨Hc6, HO⟩

  sl_exec
  sl_step
  iintuitionistic Hat3_reached
  rw [sendPay_reduce (F := F) d0 2 3 (by decide)]
  isplitl [Hrest2]
  · unfold partW
    iexists f2
    isplitl [Hrest2]; · iexact Hrest2
    ipureintro; exact hf2
  iframe HO1E HO0E
  isplitl [Hc5 Hat5]
  · iframe Hc5 Hat5
  isplitl [Hc6 Hat6]
  · iframe Hc6 Hat6
  isplitl [Hat3]; · iexact Hat3
  iexact HO

theorem part27 (c : Dev nD) (κ0 κ1 κ2 κ3 κ4 : ℕ) (d0 : Dev nD) (hd : d0 = c) (v79 : BitVec 32)
    (O : CellTallies nD τ sig Unit) (W : Waits sig Unit) :
    iprop(cellInv (ER (F := F)) (cubeRd x w) κ0 (sendCell c 2 5) ∗ cellInv (ER (F := F)) (cubeRd x w) κ1 (recvCell (peer 2 5 c) 2 5)
        ∗ cellInv (ER (F := F)) (cubeRd x w) κ2 (sendCell c 2 6) ∗ cellInv (ER (F := F)) (cubeRd x w) κ3 (recvCell (peer 2 6 c) 2 6)
        ∗ cellInv (ER (F := F)) (cubeRd x w) κ4 (sendCell c 0 4)
        ∗ MayWait (c : Thread nD τ) (.dma (ssem 0 4)) () O
        ∗ partW c 2 (o3 2 c) 256 (hG 2 c) [fullShare.right] (gath x w 2)
        ∗ ownsW (nb 2 1 c) 2 (o2 2 c) 512 (hD 2 c) ∗ ownsW (nb 2 0 c) 2 (o2 2 c) 512 (hD 2 c)
        ∗ sendG (F := F) c 2 5 0 ∗ sendG (F := F) c 2 6 0 ∗ sendG (F := F) c 0 4 1
        ∗ owes (c : Thread nD τ) (O + tallyAt (recvCell (peer 2 6 c) 2 6) () (credOf 2 6) + tallyAt (recvCell (peer 2 5 c) 2 5) () (credOf 2 5)) W)
      ⊢ wp frame (wpE (defs₀ (F := F)) Variants.none (c : Thread nD τ) none) Set.univ
          (withBufs (k0_part27 (F := F)) d0 v79)
          (fun _ => iprop(partW c 2 (o3 2 c) 256 (hG 2 c) [lshr] (gath x w 2)
            ∗ ownsW (nb 2 1 c) 2 (away2 2 c) 256 (hE 2 c) ∗ ownsW (nb 2 0 c) 2 (away2 2 c) 256 (hE 2 c)
            ∗ sendG (F := F) c 2 5 1 ∗ sendG (F := F) c 2 6 1 ∗ sendG (F := F) c 0 4 2
            ∗ lentW c 0 (o3 0 c) 256 (hG 0 c) fullShare.left
            ∗ owes (c : Thread nD τ) O (insert (.dma (ssem 0 4), ()) W))) := by
  subst hd
  simp only [p25_sendG_0, p25_sendG_1, p25_sendG_2]
  iintro ⟨#HI0, #HI1, #HI2, #HI3, #HI4, #Hmw, HG, HO1, HO0, ⟨Ht5, #Hr5, Htr5, #Hrr5, Hat5⟩, ⟨Ht6, #Hr6, Htr6, #Hrr6, Hat6⟩, ⟨Hc4, Hat4⟩, HO⟩
  unfold withBufs; rw [k0_part27_eq_skeleton]; unfold k0_part27_skel
  have eD1 := ownsW_D (F := F) d0 (2 : Fin 3) (nb (2 : Fin 3) (1 : Fin 3) d0)
  have eD0 := ownsW_D (F := F) d0 (2 : Fin 3) (nb (2 : Fin 3) (0 : Fin 3) d0)
  have eS1 := partW_share (F := F) d0 (2 : Fin 3) (hG 2 d0) fullShare.right [] (gath x w 2)
  have eC1 := partW_cons (F := F) d0 (2 : Fin 3) (hG 2 d0) fullShare.right.left [fullShare.right.right] (gath x w 2)
  have eS2 := partW_share (F := F) d0 (2 : Fin 3) (hG 2 d0) fullShare.right.right [] (gath x w 2)
  have eC2 := partW_cons (F := F) d0 (2 : Fin 3) (hG 2 d0) fullShare.right.right.left [fullShare.right.right.right] (gath x w 2)
  ihave HO1' := (eD1.1) $$ HO1
  icases HO1' with ⟨HO1E, HO1G⟩
  ihave HO0' := (eD0.1) $$ HO0
  icases HO0' with ⟨HO0E, HO0G⟩

  ihave HG2 := (eS1.1) $$ HG
  ihave HG3 := (eC1.1) $$ HG2
  icases HG3 with ⟨%f, Hsh, Hrest, %hf⟩
  sl_exec
  iapply (ev_send_share x w d0 2 5 (by decide) (n := 1360) (wd := 256) (off := o3 2 d0) rfl rfl rfl (hG 2 d0)
    (Forms.off_51 d0) (Forms.off_51 d0) rfl rfl (Forms.dev_23 d0) rfl rfl (q := fullShare.right.left) rfl
    (O + tallyAt (recvCell (peer 2 6 d0) 2 6) () (credOf 2 6)) rfl f hf) $$ [Hsh HO1G HO Ht5 Htr5]
  · isplitl []; · iexact HI0
    isplitl []; · iexact HI1
    isplitl [Hsh]; · iexact Hsh
    isplitl [HO1G]; · iexact HO1G
    isplitl [HO]; · iexact HO
    isplitl [Ht5]; · iexact Ht5
    isplitl []; · iexact Hr5
    isplitl [Htr5]; · iexact Htr5
    iexact Hrr5
  iintro ⟨Hc5, HO⟩
  ihave HG4 : partW d0 2 (o3 2 d0) 256 (hG 2 d0) [fullShare.right.right] (gath x w 2) $$ [Hrest]
  · unfold partW
    iexists f
    iframe Hrest
    ipureintro; exact hf

  ihave HG5 := (eS2.1) $$ HG4
  ihave HG6 := (eC2.1) $$ HG5
  icases HG6 with ⟨%f2, Hsh2, Hrest2, %hf2⟩
  sl_exec
  iapply (ev_send_share x w d0 2 6 (by decide) (n := 1360) (wd := 256) (off := o3 2 d0) rfl rfl rfl (hG 2 d0)
    (Forms.off_51 d0) (Forms.off_51 d0) rfl rfl (Forms.dev_24 d0) rfl rfl (q := fullShare.right.right.left) rfl
    O rfl f2 hf2) $$ [Hsh2 HO0G HO Ht6 Htr6]
  · isplitl []; · iexact HI2
    isplitl []; · iexact HI3
    isplitl [Hsh2]; · iexact Hsh2
    isplitl [HO0G]; · iexact HO0G
    isplitl [HO]; · iexact HO
    isplitl [Ht6]; · iexact Ht6
    isplitl []; · iexact Hr6
    isplitl [Htr6]; · iexact Htr6
    iexact Hrr6
  iintro ⟨Hc6, HO⟩

  sl_exec
  sl_step
  iintuitionistic Hat4_reached
  ihave Hback := (Entails.of_eq (sendPay_gather (F := F) d0 0 4 (by decide))) $$ Hat4_pay1
  isplitl [Hrest2]
  · unfold partW
    iexists f2
    isplitl [Hrest2]; · iexact Hrest2
    ipureintro; exact hf2
  iframe HO1E HO0E
  isplitl [Hc5 Hat5]
  · iframe Hc5 Hat5
  isplitl [Hc6 Hat6]
  · iframe Hc6 Hat6
  isplitl [Hat4]; · iexact Hat4
  isplitl [Hback]; · iexact Hback
  iexact HO

end Cert.KernelIdeal.Body

end
-- ==== Proof.Parts26x.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.EvSend
import proofs.«900802_g7700000000000803_dist_gemm_ar_m4096_k4096_n2048_f32_relu_v7x_i8_1_alg».proof.Proof.EvStore
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages

noncomputable section

namespace Cert.KernelIdeal.Body

open Cert.KernelIdeal Cert.KernelIdeal.Gen Cert.KernelIdeal.Spec Cert.KernelIdeal.Reg Cert.KernelIdeal.Proto
open Cert.KernelIdeal.Tables Cert.KernelIdeal.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv

private theorem p26_ret_bind {E : Type → Type} {α β : Type} (a : α) (k : α → Prog E β) : (Prog.ret a).bind k = k a := rfl

private theorem p26_who (p : Fin 3) (c : Dev nD) (q : ℕ) (hq : q < 256) : who p (o3 p c + q) = c := by
  have hk : o3 p c % 256 = 0 := by revert p c; decide
  have h2 : (o3 p c + q) / 256 * 256 = o3 p c := by omega
  unfold who; rw [h2]; exact who_o3 p c

private theorem p26_gath (p : Fin 3) (c : Dev nD) (r q : ℕ) (hq : q < 256) :
    FloatOps.maximumf (FloatOps.addf (Vals.st2 x w p r (o3 p c + q) c) (Vals.st2 x w p r (o3 p c + q) (nb p 2 c)))
        (Scalar.ofBits .f32 0x00000000#32) = gath x w p r (o3 p c + q) := by
  unfold gath; rw [p26_who p c q hq]; rfl

private theorem p26_partW_intro (c : Dev nD) (p : Fin 3) (off wd : ℕ) (h : Inb3 2048 p.val (rowLen p) off wd)
    (qs : List (PosShare TreeShare)) (val : ℕ → ℕ → F .f32)
    (f : Buf (Elt F) ((wbM.access (wbRect p.val (rowLen p) off wd h)).loc (c : Thread nD τ)))
    (hf : ∀ y : (⟨3, ![1, rowLen p, wd]⟩ : Shape).Idx, (wbM.access (wbRect p.val (rowLen p) off wd h)).read (Elt F) f y = val (y 1).val (off + (y 2).val)) :
    (qs.foldr (fun q A => iprop((((wbM.access (wbRect p.val (rowLen p) off wd h)).loc (c : Thread nD τ)) ↦[wbReg c p.val (rowLen p) off wd h]{q} f) ∗ A)) iprop(emp) : sProp 𝕄)
      ⊢ partW c p off wd h qs val := by
  unfold partW
  iintro H
  iexists f
  iframe H
  ipureintro; exact hf

theorem part26 (c : Dev nD) (κ0 κ1 κ2 : ℕ) (d0 : Dev nD) (hd : d0 = c) (v65 v68 v168 : BitVec 32)
    (O : CellTallies nD τ sig Unit) (W : Waits sig Unit) :
    iprop(cellInv (ER (F := F)) (cubeRd x w) κ0 (recvCell c 2 3) ∗ cellInv (ER (F := F)) (cubeRd x w) κ1 (sendCell c 2 4) ∗ cellInv (ER (F := F)) (cubeRd x w) κ2 (recvCell (peer 2 4 c) 2 4)
        ∗ MayWait (c : Thread nD τ) (.dma (rsem 2 3)) () (O + tallyAt (recvCell (peer 2 4 c) 2 4) () (credOf 2 4))
        ∗ holdsW c 2 (o3 2 c) 256 (hG 2 c) (fun r col => Vals.st2 x w 2 r col c)
        ∗ recvG (F := F) c 2 3 0 ∗ sendG (F := F) c 2 4 0
        ∗ owes (c : Thread nD τ) (O + tallyAt (recvCell (peer 2 4 c) 2 4) () (credOf 2 4)) W)
      ⊢ wp frame (wpE (defs₀ (F := F)) Variants.none (c : Thread nD τ) none) Set.univ
          (withBufs (k0_part26 (F := F)) d0 v65 v68 v168)
          (fun _ => iprop(partW c 2 (o3 2 c) 256 (hG 2 c) [fullShare.right] (gath x w 2)
            ∗ holdsR2 c 2 (o3 2 c) (fun r col => Vals.st2 x w 2 r col (nb 2 2 c))
            ∗ recvG (F := F) c 2 3 1 ∗ sendG (F := F) c 2 4 1
            ∗ owes (c : Thread nD τ) O (insert (.dma (rsem 2 3), ()) W))) := by
  subst hd
  simp only [sendG, recvG]
  iintro ⟨#HI1, #HI2, #HI3, #Hmw, HG, ⟨Hrc, Hrat⟩, ⟨Ht1, Hr1, Ht2, Hr2, Hat⟩, HO⟩
  unfold withBufs; rw [k0_part26_eq_skeleton]; unfold k0_part26_skel
  have hdev22 := Forms.dev_22
  sl_exec
  ihave Hpay := (Entails.of_eq (recvPay_r2 x w d0 2)) $$ Hrat_pay1
  icases Hpay with ⟨HR2, HoN⟩
  ihave HR2 := (Entails.of_eq (Pieces.holdsR2_land3 d0 2 _)) $$ HR2
  ihave HoN := (Entails.of_eq (Pieces.ownsW_land3 (F := F) d0 2)) $$ HoN
  iapply (ev_S4 d0 2 (o3 2 d0) (hG 2 d0) _ _ rfl rfl (Forms.off_47 d0) rfl (fun a b y => Pays.pay28_apply a b y)) $$ [HG HR2]
  · iframe HG HR2
  iintro ⟨HG, HR2⟩
  ihave HG := (holdsW_congr d0 2 (o3 2 d0) 256 (hG 2 d0) _ (gath x w 2) (fun r q hq => p26_gath x w 2 d0 r q hq)) $$ HG
  ihave HP := (Pieces.holdsW_partW d0 2 (hG 2 d0) _).1 $$ HG
  ihave HP := (Pieces.partW_share d0 2 (hG 2 d0) fullShare [] _).1 $$ HP
  ihave HP := (Pieces.partW_cons d0 2 (hG 2 d0) fullShare.left [fullShare.right] _).1 $$ HP
  icases HP with ⟨%fs, Hq, Hrest, %hfs⟩
  simp only [p26_ret_bind, Prog.bind_lift]
  iapply (ev_send_share x w d0 2 4 (by decide) rfl rfl rfl (hG 2 d0) (Forms.off_51 d0) (Forms.off_51 d0) rfl rfl (Forms.dev_22 d0) rfl rfl rfl O rfl fs hfs) $$ [Hq HoN HO Ht1 Hr1 Ht2 Hr2]
  · isplitl []; · iexact HI2
    isplitl []; · iexact HI3
    isplitl [Hq]; · iexact Hq
    isplitl [HoN]; · iexact HoN
    isplitl [HO]; · iexact HO
    isplitl [Ht1]; · iexact Ht1
    isplitl [Hr1]; · iexact Hr1
    isplitl [Ht2]; · iexact Ht2
    iexact Hr2
  iintro ⟨Hcr, HO⟩
  ihave HP := (p26_partW_intro d0 2 (o3 2 d0) 256 (hG 2 d0) [fullShare.right] (gath x w 2) fs hfs) $$ Hrest
  sl_step
  isplitl [HP]; · iexact HP
  isplitl [HR2]; · iexact HR2
  isplitl [Hrat]; · iexact Hrat
  isplitl [Hcr Hat]
  · iframe Hcr Hat
  iexact HO

end Cert.KernelIdeal.Body

end
-- ==== Proof.Parts28x.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.EvSend
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages

noncomputable section

namespace Cert.KernelIdeal.Body

open Cert.KernelIdeal Cert.KernelIdeal.Gen Cert.KernelIdeal.Spec Cert.KernelIdeal.Reg Cert.KernelIdeal.Proto
open Cert.KernelIdeal.Stages Cert.KernelIdeal.Tables Cert.KernelIdeal.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

theorem p28x_sendG_0 (c : Dev nD) (p : Fin 3) (i : Fin 10) : (sendG (F := F) c p i 0 : sProp 𝕄) =
    iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
theorem p28x_sendG_1 (c : Dev nD) (p : Fin 3) (i : Fin 10) : (sendG (F := F) c p i 1 : sProp 𝕄) =
    iprop(cred (tallyAt (sendCell c p i) () (credOf p i)) ∗ atPos ER (sendCell c p i) 0 ∅ 0) := rfl
theorem p28x_sendG_2 (c : Dev nD) (p : Fin 3) (i : Fin 10) : (sendG (F := F) c p i 2 : sProp 𝕄) = atPos ER (sendCell c p i) 1 ∅ 0 := rfl
theorem p28x_recvG_0 (c : Dev nD) (p : Fin 3) (i : Fin 10) : (recvG (F := F) c p i 0 : sProp 𝕄) =
    iprop(cred (tallyAt (recvCell c p i) () (credOf p i)) ∗ atPos ER (recvCell c p i) 0 ∅ 0) := rfl
theorem p28x_recvG_1 (c : Dev nD) (p : Fin 3) (i : Fin 10) : (recvG (F := F) c p i 1 : sProp 𝕄) = atPos ER (recvCell c p i) 1 ∅ 0 := rfl
theorem p28x_locG_0 (c : Dev nD) (p : Fin 3) (j : Fin 4) : (locG (F := F) c p j 0 : sProp 𝕄) =
    iprop(dutyTok ER (locCell c p j) 0 0 ∗ reached ER (locCell c p j) 0 ∗ atPos ER (locCell c p j) 0 ∅ 0) := rfl
theorem p28x_locG_1 (c : Dev nD) (p : Fin 3) (j : Fin 4) : (locG (F := F) c p j 1 : sProp 𝕄) =
    iprop(cred (tallyAt (locCell c p j) () (credOut (rowLen p))) ∗ atPos ER (locCell c p j) 0 ∅ 0) := rfl

theorem p28x_partW_one (c : Dev nD) (p : Fin 3) {off wd : ℕ} (h : Inb3 2048 p.val (rowLen p) off wd) (q : PosShare TreeShare)
    (val : ℕ → ℕ → F .f32) :
    (partW c p off wd h [q] val : sProp 𝕄)
      ⊣⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{q} f)
          ∗ ⌜∀ y : (⟨3, ![1, rowLen p, wd]⟩ : Shape).Idx, (wbM.access (wbRect p.val (rowLen p) off wd h)).read (Elt F) f y = val (y 1).val (off + (y 2).val)⌝) := by
  unfold partW
  simp only [List.foldr_cons, List.foldr_nil]
  constructor
  · iintro ⟨%f, ⟨Hf, -⟩, %hf⟩
    iexists f
    iframe Hf
    ipureintro; exact hf
  · iintro ⟨%f, Hf, %hf⟩
    iexists f
    isplitl [Hf]
    · isplitl [Hf]; · iexact Hf
      iempintro
    · ipureintro; exact hf

theorem p28x_share_add (c : Dev nD) (p : Fin 3) {off w₁ w₂ : ℕ} (h : Inb3 2048 p.val (rowLen p) off (w₁ + w₂))
    (q : PosShare TreeShare) (val : ℕ → ℕ → F .f32) :
    (iprop(partW c p off w₁ h.left [q] val ∗ partW c p (off + w₁) w₂ h.right [q] val) : sProp 𝕄)
      ⊢ partW c p off (w₁ + w₂) h [q] val := by
  refine (BIClass.sep_mono (p28x_partW_one c p h.left q val).1 (p28x_partW_one c p h.right q val).1).trans ?_
  refine BIBase.Entails.trans ?_ (p28x_partW_one c p h q val).2
  iintro ⟨⟨%f₁, H1, %hf₁⟩, ⟨%f₂, H2, %hf₂⟩⟩
  have G1 := (wfact_iff c p h.left val f₁).1 hf₁
  have G2 := (wfact_iff c p h.right val f₂).1 hf₂
  ihave Hj := (pointsTo_join (wbReg_disjoint_add c h)) $$ [H1 H2]
  · iframe H1 H2
  iexists ((wbReg c p.val (rowLen p) (off + w₁) w₂ h.right).piecewise f₂ f₁)
  isplitl [Hj]
  · rw [wbReg_add c h]; iexact Hj
  · ipureintro
    refine (wfact_iff c p h val _).2 fun r q => ?_
    by_cases hq : q.val < w₁
    · have hn : at3 h r q ∉ wbReg c p.val (rowLen p) (off + w₁) w₂ h.right := by
        rw [mem_wbReg]; intro hm
        have h2 : off + w₁ ≤ off + q.val := hm.2.2.1
        omega
      rw [Finset.piecewise_eq_of_notMem _ _ _ hn]
      exact G1 r ⟨q.val, hq⟩
    · have hm : at3 h r q ∈ wbReg c p.val (rowLen p) (off + w₁) w₂ h.right := by
        rw [mem_wbReg]
        refine ⟨rfl, r.isLt, ?_, ?_⟩
        · show off + w₁ ≤ off + q.val; omega
        · show off + q.val < off + w₁ + w₂; have := q.isLt; omega
      rw [Finset.piecewise_eq_of_mem _ _ _ hm]
      have e : at3 h r q = at3 h.right r ⟨q.val - w₁, by have := q.isLt; omega⟩ := by
        rw [at3_right]; exact congrArg (at3 h r) (Fin.ext (by show q.val = w₁ + (q.val - w₁); omega))
      rw [e, G2]
      exact congrArg (val r.val) (by show off + w₁ + (q.val - w₁) = off + q.val; omega)

theorem p28x_share_halves (c : Dev nD) (p : Fin 3) {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256)
    (q : PosShare TreeShare) (val : ℕ → ℕ → F .f32) :
    (iprop(partW c p a 256 ha [q] val ∗ partW c p b 256 hb [q] val) : sProp 𝕄) ⊢ partW c p off 512 h [q] val := by
  have h' : Inb3 2048 p.val (rowLen p) off (256 + 256) := h
  have base := p28x_share_add (F := F) c p h' q val
  rcases hab with ⟨rfl, rfl⟩ | ⟨rfl, rfl⟩
  · exact base
  · exact sep_comm.1.trans base

theorem p28x_four (c : Dev nD) (p : Fin 3) {off wd : ℕ} (h : Inb3 2048 p.val (rowLen p) off wd)
    (f : Buf (Elt F) ((wbM.access (wbRect p.val (rowLen p) off wd h)).loc (c : Thread nD τ))) :
    ((((wbM.access (wbRect p.val (rowLen p) off wd h)).loc (c : Thread nD τ)) ↦[wbReg c p.val (rowLen p) off wd h]{fullShare} f) : sProp 𝕄)
      ⊢ iprop((((wbM.access (wbRect p.val (rowLen p) off wd h)).loc (c : Thread nD τ)) ↦[wbReg c p.val (rowLen p) off wd h]{fullShare.left} f)
          ∗ (((wbM.access (wbRect p.val (rowLen p) off wd h)).loc (c : Thread nD τ)) ↦[wbReg c p.val (rowLen p) off wd h]{fullShare.right.left} f)
          ∗ (((wbM.access (wbRect p.val (rowLen p) off wd h)).loc (c : Thread nD τ)) ↦[wbReg c p.val (rowLen p) off wd h]{fullShare.right.right.left} f)
          ∗ (((wbM.access (wbRect p.val (rowLen p) off wd h)).loc (c : Thread nD τ)) ↦[wbReg c p.val (rowLen p) off wd h]{lshr} f)) := by
  iintro Hf
  ihave H1 := (pointsTo_share (PosShare.mem_left_op_right fullShare)).1 $$ Hf
  icases H1 with ⟨Hl, Hr⟩
  ihave H2 := (pointsTo_share (PosShare.mem_left_op_right fullShare.right)).1 $$ Hr
  icases H2 with ⟨Hrl, Hrr⟩
  ihave H3 := (pointsTo_share (PosShare.mem_left_op_right fullShare.right.right)).1 $$ Hrr
  icases H3 with ⟨Hrrl, Hrrr⟩
  isplitl [Hl]; · iexact Hl
  isplitl [Hrl]; · iexact Hrl
  isplitl [Hrrl]; · iexact Hrrl
  iexact Hrrr

theorem p28x_holdsW_four (c : Dev nD) (p : Fin 3) {off wd : ℕ} (h : Inb3 2048 p.val (rowLen p) off wd) (val : ℕ → ℕ → F .f32) :
    (holdsW c p off wd h val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{fullShare.left} f)
          ∗ (((wbM.access (wbRect p.val (rowLen p) off wd h)).loc (c : Thread nD τ)) ↦[wbReg c p.val (rowLen p) off wd h]{fullShare.right.left} f)
          ∗ (((wbM.access (wbRect p.val (rowLen p) off wd h)).loc (c : Thread nD τ)) ↦[wbReg c p.val (rowLen p) off wd h]{fullShare.right.right.left} f)
          ∗ (((wbM.access (wbRect p.val (rowLen p) off wd h)).loc (c : Thread nD τ)) ↦[wbReg c p.val (rowLen p) off wd h]{lshr} f)
          ∗ ⌜∀ y : (⟨3, ![1, rowLen p, wd]⟩ : Shape).Idx, (wbM.access (wbRect p.val (rowLen p) off wd h)).read (Elt F) f y = val (y 1).val (off + (y 2).val)⌝) := by
  unfold holdsW
  iintro ⟨%f, Hf, %hf⟩
  ihave H4 := (p28x_four c p h f) $$ Hf
  icases H4 with ⟨Ha, Hb, Hc, Hd⟩
  iexists f
  iframe Ha Hb Hc Hd
  ipureintro; exact hf

theorem part28 (c : Dev nD) (κ0 κ1 κ2 κ3 κ4 κ5 : ℕ) (d0 : Dev nD) (hd : d0 = c) (v65 v68 : BitVec 32)
    (O : CellTallies nD τ sig Unit) (W : Waits sig Unit) :
    iprop(cellInv (ER (F := F)) (cubeRd x w) κ0 (recvCell c 0 4) ∗ cellInv (ER (F := F)) (cubeRd x w) κ1 (locCell c 0 0)
        ∗ cellInv (ER (F := F)) (cubeRd x w) κ2 (sendCell c 0 7) ∗ cellInv (ER (F := F)) (cubeRd x w) κ3 (recvCell (peer 0 7 c) 0 7)
        ∗ cellInv (ER (F := F)) (cubeRd x w) κ4 (sendCell c 0 8) ∗ cellInv (ER (F := F)) (cubeRd x w) κ5 (recvCell (peer 0 8 c) 0 8)
        ∗ MayWait (c : Thread nD τ) (.dma (rsem 0 4)) () (O + tallyAt (recvCell (peer 0 8 c) 0 8) () (credOf 0 8) + tallyAt (recvCell (peer 0 7 c) 0 7) () (credOf 0 7))
        ∗ partW c 0 (o3 0 c) 256 (hG 0 c) [lshr] (gath x w 0)
        ∗ ownsW (nb 0 1 c) 0 (away2 0 c) 256 (hE 0 c) ∗ ownsW (nb 0 0 c) 0 (away2 0 c) 256 (hE 0 c)
        ∗ ownsOut c 0 (locOff 0 0 c) (inb_out 0 0 c)
        ∗ recvG (F := F) c 0 4 0 ∗ locG (F := F) c 0 0 0 ∗ sendG (F := F) c 0 7 0 ∗ sendG (F := F) c 0 8 0
        ∗ owes (c : Thread nD τ) (O + tallyAt (recvCell (peer 0 8 c) 0 8) () (credOf 0 8) + tallyAt (recvCell (peer 0 7 c) 0 7) () (credOf 0 7)) W)
      ⊢ wp frame (wpE (defs₀ (F := F)) Variants.none (c : Thread nD τ) none) Set.univ
          (withBufs (k0_part28 (F := F)) d0 v65 v68)
          (fun _ => iprop(partW c 0 (away2 0 c) 256 (hE 0 c) [fullShare.right.right.left] (gath x w 0)
            ∗ recvG (F := F) c 0 4 1 ∗ locG (F := F) c 0 0 1 ∗ sendG (F := F) c 0 7 1 ∗ sendG (F := F) c 0 8 1
            ∗ owes (c : Thread nD τ) O (insert (.dma (rsem 0 4), ()) W))) := by
  subst hd
  simp only [p28x_sendG_0, p28x_sendG_1, p28x_recvG_0, p28x_recvG_1, p28x_locG_0, p28x_locG_1]
  iintro ⟨#HI0, #HI1, #HI2, #HI3, #HI4, #HI5, #Hmw0, HG, Hd7, Hd8, HOut, ⟨Hcr4, Hatr4⟩, ⟨Htl, Hrl, Hatl⟩, ⟨Ht7, Hr7, Htr7, Hrr7, Hat7⟩, ⟨Ht8, Hr8, Htr8, Hrr8, Hat8⟩, HO⟩
  unfold withBufs; rw [k0_part28_eq_skeleton]; unfold k0_part28_skel
  sl_exec
  ihave HE := (Entails.of_eq ((recvPay_gather x w d0 0 4 (by decide)).trans (holdsW_land4 d0 0 _))) $$ Hatr4_pay1
  ihave H4 := (p28x_holdsW_four d0 0 (hE 0 d0) (gath x w 0)) $$ HE
  icases H4 with ⟨%f, Hl, Hm, Hn, Hls, %hf⟩
  ihave HE' := (p28x_partW_one d0 0 (hE 0 d0) lshr (gath x w 0)).2 $$ [Hls]
  · iexists f
    iframe Hls
    ipureintro; exact hf
  ihave HD := (p28x_share_halves d0 0 (halvesD 0 d0) (hD 0 d0) (hE 0 d0) (hG 0 d0) lshr (gath x w 0)) $$ [HE' HG]
  · isplitl [HE']; · iexact HE'
    iexact HG
  ihave HD' := (p28x_partW_one d0 0 (hD 0 d0) lshr (gath x w 0)).1 $$ HD
  icases HD' with ⟨%g, Hlsh, %hg⟩
  iapply (ev_local x w d0 0 0 (Forms.off_53 d0) (Forms.off_52 d0) rfl g hg) $$ [Hlsh HOut Htl Hrl]
  · isplitl []; · iexact HI1
    isplitl [Hlsh]; · iexact Hlsh
    isplitl [HOut]; · iexact HOut
    isplitl [Htl]; · iexact Htl
    iexact Hrl
  iintro Hcl
  sl_exec
  iapply (ev_send_share x w d0 0 7 (by decide) (n := 1368) (wd := 256) (off := away2 0 d0) rfl rfl rfl (hE 0 d0)
      (Forms.off_32 d0) (Forms.off_32 d0) rfl rfl (Forms.dev_25 d0) rfl rfl (q := fullShare.left) rfl
      (O + tallyAt (recvCell (peer 0 8 d0) 0 8) () (credOf 0 8)) rfl f hf) $$ [Hl Hd7 HO Ht7 Hr7 Htr7 Hrr7]
  · isplitl []; · iexact HI2
    isplitl []; · iexact HI3
    isplitl [Hl]; · iexact Hl
    isplitl [Hd7]; · iexact Hd7
    isplitl [HO]; · iexact HO
    isplitl [Ht7]; · iexact Ht7
    isplitl [Hr7]; · iexact Hr7
    isplitl [Htr7]; · iexact Htr7
    iexact Hrr7
  iintro ⟨Hc7, HO⟩
  sl_exec
  iapply (ev_send_share x w d0 0 8 (by decide) (n := 1368) (wd := 256) (off := away2 0 d0) rfl rfl rfl (hE 0 d0)
      (Forms.off_32 d0) (Forms.off_32 d0) rfl rfl (Forms.dev_26 d0) rfl rfl (q := fullShare.right.left) rfl
      O rfl f hf) $$ [Hm Hd8 HO Ht8 Hr8 Htr8 Hrr8]
  · isplitl []; · iexact HI4
    isplitl []; · iexact HI5
    isplitl [Hm]; · iexact Hm
    isplitl [Hd8]; · iexact Hd8
    isplitl [HO]; · iexact HO
    isplitl [Ht8]; · iexact Ht8
    isplitl [Hr8]; · iexact Hr8
    isplitl [Htr8]; · iexact Htr8
    iexact Hrr8
  iintro ⟨Hc8, HO⟩
  sl_exec
  sl_step
  isplitl [Hn]
  · unfold partW
    simp only [List.foldr_cons, List.foldr_nil]
    iexists f
    isplitl [Hn]
    · isplitl [Hn]; · iexact Hn
      iempintro
    · ipureintro; exact hf
  iframe Hatr4
  isplitl [Hcl Hatl]
  · iframe Hcl Hatl
  isplitl [Hc7 Hat7]
  · iframe Hc7 Hat7
  isplitl [Hc8 Hat8]
  · iframe Hc8 Hat8
  iexact HO

theorem part29 (c : Dev nD) (κ0 κ1 κ2 : ℕ) (d0 : Dev nD) (hd : d0 = c) (v65 v79 : BitVec 32)
    (O : CellTallies nD τ sig Unit) (W : Waits sig Unit) :
    iprop(cellInv (ER (F := F)) (cubeRd x w) κ0 (sendCell c 1 4) ∗ cellInv (ER (F := F)) (cubeRd x w) κ1 (recvCell c 1 4) ∗ cellInv (ER (F := F)) (cubeRd x w) κ2 (locCell c 1 0)
        ∗ MayWait (c : Thread nD τ) (.dma (ssem 1 4)) () O ∗ MayWait (c : Thread nD τ) (.dma (rsem 1 4)) () O
        ∗ partW c 1 (o3 1 c) 256 (hG 1 c) [lshr] (gath x w 1)
        ∗ ownsOut c 1 (locOff 1 0 c) (inb_out 1 0 c)
        ∗ sendG (F := F) c 1 4 1 ∗ recvG (F := F) c 1 4 0 ∗ locG (F := F) c 1 0 0
        ∗ owes (c : Thread nD τ) O W)
      ⊢ wp frame (wpE (defs₀ (F := F)) Variants.none (c : Thread nD τ) none) Set.univ
          (withBufs (k0_part29 (F := F)) d0 v65 v79)
          (fun _ => iprop(lentW c 1 (o3 1 c) 256 (hG 1 c) fullShare.left
            ∗ partW c 1 (away2 1 c) 256 (hE 1 c) keep3 (gath x w 1)
            ∗ sendG (F := F) c 1 4 2 ∗ recvG (F := F) c 1 4 1 ∗ locG (F := F) c 1 0 1
            ∗ owes (c : Thread nD τ) O (insert (.dma (rsem 1 4), ()) (insert (.dma (ssem 1 4), ()) W)))) := by
  subst hd
  simp only [p28x_sendG_1, p28x_sendG_2, p28x_recvG_0, p28x_recvG_1, p28x_locG_0, p28x_locG_1]
  iintro ⟨#HI0, #HI1, #HI2, #Hmw0, #Hmw1, HG, HOut, ⟨Hc4, Hat4⟩, ⟨Hcr4, Hatr4⟩, ⟨Htl, Hrl, Hatl⟩, HO⟩
  unfold withBufs; rw [k0_part29_eq_skeleton]; unfold k0_part29_skel
  sl_exec
  ihave Hp4 := (Entails.of_eq (sendPay_gather (F := F) d0 1 4 (by decide))) $$ Hat4_pay1
  ihave HE := (Entails.of_eq ((recvPay_gather x w d0 1 4 (by decide)).trans (holdsW_land4 d0 1 _))) $$ Hatr4_pay1
  ihave H4 := (p28x_holdsW_four d0 1 (hE 1 d0) (gath x w 1)) $$ HE
  icases H4 with ⟨%f, Hl, Hm, Hn, Hls, %hf⟩
  ihave HE' := (p28x_partW_one d0 1 (hE 1 d0) lshr (gath x w 1)).2 $$ [Hls]
  · iexists f
    iframe Hls
    ipureintro; exact hf
  ihave HD := (p28x_share_halves d0 1 (halvesD 1 d0) (hD 1 d0) (hE 1 d0) (hG 1 d0) lshr (gath x w 1)) $$ [HE' HG]
  · isplitl [HE']; · iexact HE'
    iexact HG
  ihave HD' := (p28x_partW_one d0 1 (hD 1 d0) lshr (gath x w 1)).1 $$ HD
  icases HD' with ⟨%g, Hlsh, %hg⟩
  iapply (ev_local x w d0 1 0 (Forms.off_55 d0) (Forms.off_54 d0) rfl g hg) $$ [Hlsh HOut Htl Hrl]
  · isplitl []; · iexact HI2
    isplitl [Hlsh]; · iexact Hlsh
    isplitl [HOut]; · iexact HOut
    isplitl [Htl]; · iexact Htl
    iexact Hrl
  iintro Hcl
  sl_exec
  sl_step
  isplitl [Hp4]; · iexact Hp4
  isplitl [Hl Hm Hn]
  · unfold partW keep3
    simp only [List.foldr_cons, List.foldr_nil]
    iexists f
    isplitl [Hl Hm Hn]
    · isplitl [Hl]; · iexact Hl
      isplitl [Hm]; · iexact Hm
      isplitl [Hn]; · iexact Hn
      iempintro
    · ipureintro; exact hf
  iframe Hat4 Hatr4
  isplitl [Hcl Hatl]
  · iframe Hcl Hatl
  iexact HO

end Cert.KernelIdeal.Body

end
-- ==== Proof.Parts30.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.EvSend
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages

noncomputable section

namespace Cert.KernelIdeal.Body

open Cert.KernelIdeal Cert.KernelIdeal.Gen Cert.KernelIdeal.Spec Cert.KernelIdeal.Reg Cert.KernelIdeal.Proto
open Cert.KernelIdeal.Stages Cert.KernelIdeal.Tables Cert.KernelIdeal.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

theorem p30_sendG_0 (c : Dev nD) (p : Fin 3) (i : Fin 10) : (sendG (F := F) c p i 0 : sProp 𝕄) =
    iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
theorem p30_sendG_1 (c : Dev nD) (p : Fin 3) (i : Fin 10) : (sendG (F := F) c p i 1 : sProp 𝕄) =
    iprop(cred (tallyAt (sendCell c p i) () (credOf p i)) ∗ atPos ER (sendCell c p i) 0 ∅ 0) := rfl
theorem p30_sendG_2 (c : Dev nD) (p : Fin 3) (i : Fin 10) : (sendG (F := F) c p i 2 : sProp 𝕄) = atPos ER (sendCell c p i) 1 ∅ 0 := rfl
theorem p30_recvG_0 (c : Dev nD) (p : Fin 3) (i : Fin 10) : (recvG (F := F) c p i 0 : sProp 𝕄) =
    iprop(cred (tallyAt (recvCell c p i) () (credOf p i)) ∗ atPos ER (recvCell c p i) 0 ∅ 0) := rfl
theorem p30_recvG_1 (c : Dev nD) (p : Fin 3) (i : Fin 10) : (recvG (F := F) c p i 1 : sProp 𝕄) = atPos ER (recvCell c p i) 1 ∅ 0 := rfl
theorem p30_locG_0 (c : Dev nD) (p : Fin 3) (j : Fin 4) : (locG (F := F) c p j 0 : sProp 𝕄) =
    iprop(dutyTok ER (locCell c p j) 0 0 ∗ reached ER (locCell c p j) 0 ∗ atPos ER (locCell c p j) 0 ∅ 0) := rfl
theorem p30_locG_1 (c : Dev nD) (p : Fin 3) (j : Fin 4) : (locG (F := F) c p j 1 : sProp 𝕄) =
    iprop(cred (tallyAt (locCell c p j) () (credOut (rowLen p))) ∗ atPos ER (locCell c p j) 0 ∅ 0) := rfl

theorem p30_partW_one (c : Dev nD) (p : Fin 3) {off wd : ℕ} (h : Inb3 2048 p.val (rowLen p) off wd) (q : PosShare TreeShare)
    (val : ℕ → ℕ → F .f32) :
    (partW c p off wd h [q] val : sProp 𝕄)
      ⊣⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{q} f)
          ∗ ⌜∀ y : (⟨3, ![1, rowLen p, wd]⟩ : Shape).Idx, (wbM.access (wbRect p.val (rowLen p) off wd h)).read (Elt F) f y = val (y 1).val (off + (y 2).val)⌝) := by
  unfold partW
  simp only [List.foldr_cons, List.foldr_nil]
  constructor
  · iintro ⟨%f, ⟨Hf, -⟩, %hf⟩
    iexists f
    iframe Hf
    ipureintro; exact hf
  · iintro ⟨%f, Hf, %hf⟩
    iexists f
    isplitl [Hf]
    · isplitl [Hf]; · iexact Hf
      iempintro
    · ipureintro; exact hf

theorem p30_share_add (c : Dev nD) (p : Fin 3) {off w₁ w₂ : ℕ} (h : Inb3 2048 p.val (rowLen p) off (w₁ + w₂))
    (q : PosShare TreeShare) (val : ℕ → ℕ → F .f32) :
    (iprop(partW c p off w₁ h.left [q] val ∗ partW c p (off + w₁) w₂ h.right [q] val) : sProp 𝕄)
      ⊢ partW c p off (w₁ + w₂) h [q] val := by
  refine (BIClass.sep_mono (p30_partW_one c p h.left q val).1 (p30_partW_one c p h.right q val).1).trans ?_
  refine BIBase.Entails.trans ?_ (p30_partW_one c p h q val).2
  iintro ⟨⟨%f₁, H1, %hf₁⟩, ⟨%f₂, H2, %hf₂⟩⟩
  have G1 := (wfact_iff c p h.left val f₁).1 hf₁
  have G2 := (wfact_iff c p h.right val f₂).1 hf₂
  ihave Hj := (pointsTo_join (wbReg_disjoint_add c h)) $$ [H1 H2]
  · iframe H1 H2
  iexists ((wbReg c p.val (rowLen p) (off + w₁) w₂ h.right).piecewise f₂ f₁)
  isplitl [Hj]
  · rw [wbReg_add c h]; iexact Hj
  · ipureintro
    refine (wfact_iff c p h val _).2 fun r q => ?_
    by_cases hq : q.val < w₁
    · have hn : at3 h r q ∉ wbReg c p.val (rowLen p) (off + w₁) w₂ h.right := by
        rw [mem_wbReg]; intro hm
        have h2 : off + w₁ ≤ off + q.val := hm.2.2.1
        omega
      rw [Finset.piecewise_eq_of_notMem _ _ _ hn]
      exact G1 r ⟨q.val, hq⟩
    · have hm : at3 h r q ∈ wbReg c p.val (rowLen p) (off + w₁) w₂ h.right := by
        rw [mem_wbReg]
        refine ⟨rfl, r.isLt, ?_, ?_⟩
        · show off + w₁ ≤ off + q.val; omega
        · show off + q.val < off + w₁ + w₂; have := q.isLt; omega
      rw [Finset.piecewise_eq_of_mem _ _ _ hm]
      have e : at3 h r q = at3 h.right r ⟨q.val - w₁, by have := q.isLt; omega⟩ := by
        rw [at3_right]; exact congrArg (at3 h r) (Fin.ext (by show q.val = w₁ + (q.val - w₁); omega))
      rw [e, G2]
      exact congrArg (val r.val) (by show off + w₁ + (q.val - w₁) = off + q.val; omega)

theorem p30_share_halves (c : Dev nD) (p : Fin 3) {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256)
    (q : PosShare TreeShare) (val : ℕ → ℕ → F .f32) :
    (iprop(partW c p a 256 ha [q] val ∗ partW c p b 256 hb [q] val) : sProp 𝕄) ⊢ partW c p off 512 h [q] val := by
  have h' : Inb3 2048 p.val (rowLen p) off (256 + 256) := h
  have base := p30_share_add (F := F) c p h' q val
  rcases hab with ⟨rfl, rfl⟩ | ⟨rfl, rfl⟩
  · exact base
  · exact sep_comm.1.trans base

theorem p30_four (c : Dev nD) (p : Fin 3) {off wd : ℕ} (h : Inb3 2048 p.val (rowLen p) off wd)
    (f : Buf (Elt F) ((wbM.access (wbRect p.val (rowLen p) off wd h)).loc (c : Thread nD τ))) :
    ((((wbM.access (wbRect p.val (rowLen p) off wd h)).loc (c : Thread nD τ)) ↦[wbReg c p.val (rowLen p) off wd h]{fullShare} f) : sProp 𝕄)
      ⊢ iprop((((wbM.access (wbRect p.val (rowLen p) off wd h)).loc (c : Thread nD τ)) ↦[wbReg c p.val (rowLen p) off wd h]{fullShare.left} f)
          ∗ (((wbM.access (wbRect p.val (rowLen p) off wd h)).loc (c : Thread nD τ)) ↦[wbReg c p.val (rowLen p) off wd h]{fullShare.right.left} f)
          ∗ (((wbM.access (wbRect p.val (rowLen p) off wd h)).loc (c : Thread nD τ)) ↦[wbReg c p.val (rowLen p) off wd h]{fullShare.right.right.left} f)
          ∗ (((wbM.access (wbRect p.val (rowLen p) off wd h)).loc (c : Thread nD τ)) ↦[wbReg c p.val (rowLen p) off wd h]{lshr} f)) := by
  iintro Hf
  ihave H1 := (pointsTo_share (PosShare.mem_left_op_right fullShare)).1 $$ Hf
  icases H1 with ⟨Hl, Hr⟩
  ihave H2 := (pointsTo_share (PosShare.mem_left_op_right fullShare.right)).1 $$ Hr
  icases H2 with ⟨Hrl, Hrr⟩
  ihave H3 := (pointsTo_share (PosShare.mem_left_op_right fullShare.right.right)).1 $$ Hrr
  icases H3 with ⟨Hrrl, Hrrr⟩
  isplitl [Hl]; · iexact Hl
  isplitl [Hrl]; · iexact Hrl
  isplitl [Hrrl]; · iexact Hrrl
  iexact Hrrr

theorem p30_holdsW_four (c : Dev nD) (p : Fin 3) {off wd : ℕ} (h : Inb3 2048 p.val (rowLen p) off wd) (val : ℕ → ℕ → F .f32) :
    (holdsW c p off wd h val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{fullShare.left} f)
          ∗ (((wbM.access (wbRect p.val (rowLen p) off wd h)).loc (c : Thread nD τ)) ↦[wbReg c p.val (rowLen p) off wd h]{fullShare.right.left} f)
          ∗ (((wbM.access (wbRect p.val (rowLen p) off wd h)).loc (c : Thread nD τ)) ↦[wbReg c p.val (rowLen p) off wd h]{fullShare.right.right.left} f)
          ∗ (((wbM.access (wbRect p.val (rowLen p) off wd h)).loc (c : Thread nD τ)) ↦[wbReg c p.val (rowLen p) off wd h]{lshr} f)
          ∗ ⌜∀ y : (⟨3, ![1, rowLen p, wd]⟩ : Shape).Idx, (wbM.access (wbRect p.val (rowLen p) off wd h)).read (Elt F) f y = val (y 1).val (off + (y 2).val)⌝) := by
  unfold holdsW
  iintro ⟨%f, Hf, %hf⟩
  ihave H4 := (p30_four c p h f) $$ Hf
  icases H4 with ⟨Ha, Hb, Hc, Hd⟩
  iexists f
  iframe Ha Hb Hc Hd
  ipureintro; exact hf

theorem part30 (c : Dev nD) (κ0 κ1 κ2 κ3 κ4 κ5 : ℕ) (d0 : Dev nD) (hd : d0 = c) (v68 : BitVec 32)
    (O : CellTallies nD τ sig Unit) (W : Waits sig Unit) :
    iprop(cellInv (ER (F := F)) (cubeRd x w) κ0 (sendCell c 1 7) ∗ cellInv (ER (F := F)) (cubeRd x w) κ1 (recvCell (peer 1 7 c) 1 7)
        ∗ cellInv (ER (F := F)) (cubeRd x w) κ2 (sendCell c 1 8) ∗ cellInv (ER (F := F)) (cubeRd x w) κ3 (recvCell (peer 1 8 c) 1 8)
        ∗ cellInv (ER (F := F)) (cubeRd x w) κ4 (sendCell c 2 4) ∗ cellInv (ER (F := F)) (cubeRd x w) κ5 (recvCell c 2 4)
        ∗ MayWait (c : Thread nD τ) (.dma (ssem 2 4)) () O ∗ MayWait (c : Thread nD τ) (.dma (rsem 2 4)) () O
        ∗ partW c 1 (away2 1 c) 256 (hE 1 c) keep3 (gath x w 1)
        ∗ ownsW (nb 1 1 c) 1 (away2 1 c) 256 (hE 1 c) ∗ ownsW (nb 1 0 c) 1 (away2 1 c) 256 (hE 1 c)
        ∗ sendG (F := F) c 1 7 0 ∗ sendG (F := F) c 1 8 0 ∗ sendG (F := F) c 2 4 1 ∗ recvG (F := F) c 2 4 0
        ∗ owes (c : Thread nD τ) (O + tallyAt (recvCell (peer 1 8 c) 1 8) () (credOf 1 8) + tallyAt (recvCell (peer 1 7 c) 1 7) () (credOf 1 7)) W)
      ⊢ wp frame (wpE (defs₀ (F := F)) Variants.none (c : Thread nD τ) none) Set.univ
          (withBufs (k0_part30 (F := F)) d0 v68)
          (fun _ => iprop(partW c 1 (away2 1 c) 256 (hE 1 c) [fullShare.right.right.left] (gath x w 1)
            ∗ lentW c 2 (o3 2 c) 256 (hG 2 c) fullShare.left ∗ holdsW c 2 (away2 2 c) 256 (hE 2 c) (gath x w 2)
            ∗ sendG (F := F) c 1 7 1 ∗ sendG (F := F) c 1 8 1 ∗ sendG (F := F) c 2 4 2 ∗ recvG (F := F) c 2 4 1
            ∗ owes (c : Thread nD τ) O (insert (SemLoc.dma (rsem 2 4), ()) (insert (SemLoc.dma (ssem 2 4), ()) W)))) := by
  subst hd
  simp only [p30_sendG_0, p30_sendG_1, p30_sendG_2, p30_recvG_0, p30_recvG_1, partW, keep3, List.foldr_cons, List.foldr_nil]
  iintro ⟨#HI0, #HI1, #HI2, #HI3, #HI4, #HI5, #Hmw0, #Hmw1, ⟨%f, ⟨Hq1, Hq2, Hq3, -⟩, %hf⟩, Hd7, Hd8, ⟨Ht7, Hr7, Htr7, Hrr7, Hat7⟩, ⟨Ht8, Hr8, Htr8, Hrr8, Hat8⟩, ⟨Hc4, Hat4⟩, ⟨Hcr4, Hatr4⟩, HO⟩
  unfold withBufs; rw [k0_part30_eq_skeleton]; unfold k0_part30_skel
  sl_exec
  iapply (ev_send_share x w d0 1 7 (by decide) (n := 1368) (wd := 256) (off := away2 1 d0) rfl rfl rfl (hE 1 d0)
      (Forms.off_39 d0) (Forms.off_39 d0) rfl rfl (Forms.dev_27 d0) rfl rfl (q := fullShare.left) rfl
      (O + tallyAt (recvCell (peer 1 8 d0) 1 8) () (credOf 1 8)) rfl f hf) $$ [Hq1 Hd7 HO Ht7 Hr7 Htr7 Hrr7]
  · isplitl []; · iexact HI0
    isplitl []; · iexact HI1
    isplitl [Hq1]; · iexact Hq1
    isplitl [Hd7]; · iexact Hd7
    isplitl [HO]; · iexact HO
    isplitl [Ht7]; · iexact Ht7
    isplitl [Hr7]; · iexact Hr7
    isplitl [Htr7]; · iexact Htr7
    iexact Hrr7
  iintro ⟨Hc7, HO⟩
  sl_exec
  iapply (ev_send_share x w d0 1 8 (by decide) (n := 1368) (wd := 256) (off := away2 1 d0) rfl rfl rfl (hE 1 d0)
      (Forms.off_39 d0) (Forms.off_39 d0) rfl rfl (Forms.dev_28 d0) rfl rfl (q := fullShare.right.left) rfl
      O rfl f hf) $$ [Hq2 Hd8 HO Ht8 Hr8 Htr8 Hrr8]
  · isplitl []; · iexact HI2
    isplitl []; · iexact HI3
    isplitl [Hq2]; · iexact Hq2
    isplitl [Hd8]; · iexact Hd8
    isplitl [HO]; · iexact HO
    isplitl [Ht8]; · iexact Ht8
    isplitl [Hr8]; · iexact Hr8
    isplitl [Htr8]; · iexact Htr8
    iexact Hrr8
  iintro ⟨Hc8, HO⟩
  sl_exec
  sl_step
  ihave Hp4 := (Entails.of_eq (sendPay_gather (F := F) d0 2 4 (by decide))) $$ Hat4_pay1
  ihave Hq4 := (Entails.of_eq ((recvPay_gather x w d0 2 4 (by decide)).trans (holdsW_land4 d0 2 _))) $$ Hatr4_pay1
  isplitl [Hq3]
  · iexists f
    isplitl [Hq3]
    · isplitl [Hq3]; · iexact Hq3
      iempintro
    · ipureintro; exact hf
  isplitl [Hp4]; · iexact Hp4
  isplitl [Hq4]; · iexact Hq4
  isplitl [Hc7 Hat7]
  · iframe Hc7 Hat7
  isplitl [Hc8 Hat8]
  · iframe Hc8 Hat8
  isplitl [Hat4]; · iexact Hat4
  isplitl [Hatr4]; · iexact Hatr4
  iexact HO

theorem part31 (c : Dev nD) (κ0 κ1 κ2 κ3 κ4 : ℕ) (d0 : Dev nD) (hd : d0 = c) (v65 v79 : BitVec 32)
    (O : CellTallies nD τ sig Unit) (W : Waits sig Unit) :
    iprop(cellInv (ER (F := F)) (cubeRd x w) κ0 (locCell c 2 0)
        ∗ cellInv (ER (F := F)) (cubeRd x w) κ1 (sendCell c 2 7) ∗ cellInv (ER (F := F)) (cubeRd x w) κ2 (recvCell (peer 2 7 c) 2 7)
        ∗ cellInv (ER (F := F)) (cubeRd x w) κ3 (sendCell c 2 8) ∗ cellInv (ER (F := F)) (cubeRd x w) κ4 (recvCell (peer 2 8 c) 2 8)
        ∗ partW c 2 (o3 2 c) 256 (hG 2 c) [lshr] (gath x w 2) ∗ holdsW c 2 (away2 2 c) 256 (hE 2 c) (gath x w 2)
        ∗ ownsW (nb 2 1 c) 2 (away2 2 c) 256 (hE 2 c) ∗ ownsW (nb 2 0 c) 2 (away2 2 c) 256 (hE 2 c)
        ∗ ownsOut c 2 (o2 2 c) (by have := inb_out 2 0 c; exact this)
        ∗ locG (F := F) c 2 0 0 ∗ sendG (F := F) c 2 7 0 ∗ sendG (F := F) c 2 8 0
        ∗ owes (c : Thread nD τ) (O + tallyAt (recvCell (peer 2 8 c) 2 8) () (credOf 2 8) + tallyAt (recvCell (peer 2 7 c) 2 7) () (credOf 2 7)) W)
      ⊢ wp frame (wpE (defs₀ (F := F)) Variants.none (c : Thread nD τ) none) Set.univ
          (withBufs (k0_part31 (F := F)) d0 v65 v79)
          (fun _ => iprop(partW c 2 (away2 2 c) 256 (hE 2 c) [fullShare.right.right.left] (gath x w 2)
            ∗ locG (F := F) c 2 0 1 ∗ sendG (F := F) c 2 7 1 ∗ sendG (F := F) c 2 8 1
            ∗ owes (c : Thread nD τ) O W)) := by
  subst hd
  simp only [p30_sendG_0, p30_sendG_1, p30_locG_0, p30_locG_1]
  iintro ⟨#HI0, #HI1, #HI2, #HI3, #HI4, HG, HE, Hd7, Hd8, HOut, ⟨Htl, Hrl, Hatl⟩, ⟨Ht7, Hr7, Htr7, Hrr7, Hat7⟩, ⟨Ht8, Hr8, Htr8, Hrr8, Hat8⟩, HO⟩
  unfold withBufs; rw [k0_part31_eq_skeleton]; unfold k0_part31_skel
  ihave H4 := (p30_holdsW_four d0 2 (hE 2 d0) (gath x w 2)) $$ HE
  icases H4 with ⟨%f, Hl, Hm, Hn, Hls, %hf⟩
  ihave HE' := (p30_partW_one d0 2 (hE 2 d0) lshr (gath x w 2)).2 $$ [Hls]
  · iexists f
    iframe Hls
    ipureintro; exact hf
  ihave HD := (p30_share_halves d0 2 (halvesD 2 d0) (hD 2 d0) (hE 2 d0) (hG 2 d0) lshr (gath x w 2)) $$ [HE' HG]
  · isplitl [HE']; · iexact HE'
    iexact HG
  ihave HD' := (p30_partW_one d0 2 (hD 2 d0) lshr (gath x w 2)).1 $$ HD
  icases HD' with ⟨%g, Hlsh, %hg⟩
  sl_exec
  iapply (ev_local x w d0 2 0 (Forms.off_57 d0) (Forms.off_56 d0) rfl g hg) $$ [Hlsh HOut Htl Hrl]
  · isplitl []; · iexact HI0
    isplitl [Hlsh]; · iexact Hlsh
    isplitl [HOut]; · iexact HOut
    isplitl [Htl]; · iexact Htl
    iexact Hrl
  iintro Hcl
  sl_exec
  iapply (ev_send_share x w d0 2 7 (by decide) (n := 1360) (wd := 256) (off := away2 2 d0) rfl rfl rfl (hE 2 d0)
      (Forms.off_46 d0) (Forms.off_46 d0) rfl rfl (Forms.dev_29 d0) rfl rfl (q := fullShare.left) rfl
      (O + tallyAt (recvCell (peer 2 8 d0) 2 8) () (credOf 2 8)) rfl f hf) $$ [Hl Hd7 HO Ht7 Hr7 Htr7 Hrr7]
  · isplitl []; · iexact HI1
    isplitl []; · iexact HI2
    isplitl [Hl]; · iexact Hl
    isplitl [Hd7]; · iexact Hd7
    isplitl [HO]; · iexact HO
    isplitl [Ht7]; · iexact Ht7
    isplitl [Hr7]; · iexact Hr7
    isplitl [Htr7]; · iexact Htr7
    iexact Hrr7
  iintro ⟨Hc7, HO⟩
  sl_exec
  iapply (ev_send_share x w d0 2 8 (by decide) (n := 1360) (wd := 256) (off := away2 2 d0) rfl rfl rfl (hE 2 d0)
      (Forms.off_46 d0) (Forms.off_46 d0) rfl rfl (Forms.dev_30 d0) rfl rfl (q := fullShare.right.left) rfl
      O rfl f hf) $$ [Hm Hd8 HO Ht8 Hr8 Htr8 Hrr8]
  · isplitl []; · iexact HI3
    isplitl []; · iexact HI4
    isplitl [Hm]; · iexact Hm
    isplitl [Hd8]; · iexact Hd8
    isplitl [HO]; · iexact HO
    isplitl [Ht8]; · iexact Ht8
    isplitl [Hr8]; · iexact Hr8
    isplitl [Htr8]; · iexact Htr8
    iexact Hrr8
  iintro ⟨Hc8, HO⟩
  sl_exec
  sl_step
  isplitl [Hn]
  · unfold partW
    simp only [List.foldr_cons, List.foldr_nil]
    iexists f
    isplitl [Hn]
    · isplitl [Hn]; · iexact Hn
      iempintro
    · ipureintro; exact hf
  isplitl [Hcl Hatl]
  · iframe Hcl Hatl
  isplitl [Hc7 Hat7]
  · iframe Hc7 Hat7
  isplitl [Hc8 Hat8]
  · iframe Hc8 Hat8
  iexact HO

theorem part32 (c : Dev nD) (κ0 κ1 κ2 : ℕ) (d0 : Dev nD) (hd : d0 = c) (v68 : BitVec 32)
    (O : CellTallies nD τ sig Unit) (W : Waits sig Unit) :
    iprop(cellInv (ER (F := F)) (cubeRd x w) κ0 (sendCell c 0 5) ∗ cellInv (ER (F := F)) (cubeRd x w) κ1 (recvCell c 0 5) ∗ cellInv (ER (F := F)) (cubeRd x w) κ2 (sendCell c 0 7)
        ∗ MayWait (c : Thread nD τ) (.dma (ssem 0 5)) () O ∗ MayWait (c : Thread nD τ) (.dma (rsem 0 5)) () O ∗ MayWait (c : Thread nD τ) (.dma (ssem 0 7)) () O
        ∗ sendG (F := F) c 0 5 1 ∗ recvG (F := F) c 0 5 0 ∗ sendG (F := F) c 0 7 1
        ∗ owes (c : Thread nD τ) O W)
      ⊢ wp frame (wpE (defs₀ (F := F)) Variants.none (c : Thread nD τ) none) Set.univ
          (withBufs (k0_part32 (F := F)) d0 v68)
          (fun _ => iprop(lentW c 0 (o3 0 c) 256 (hG 0 c) fullShare.right.left
            ∗ holdsW c 0 (o3 0 (nb 0 1 c)) 256 (hCg 0 c) (gath x w 0)
            ∗ lentW c 0 (away2 0 c) 256 (hE 0 c) fullShare.left
            ∗ sendG (F := F) c 0 5 2 ∗ recvG (F := F) c 0 5 1 ∗ sendG (F := F) c 0 7 2
            ∗ owes (c : Thread nD τ) O (insert (SemLoc.dma (ssem 0 7), ()) (insert (SemLoc.dma (rsem 0 5), ()) (insert (SemLoc.dma (ssem 0 5), ()) W))))) := by
  subst hd
  simp only [p30_sendG_1, p30_sendG_2, p30_recvG_0, p30_recvG_1]
  iintro ⟨#HI0, #HI1, #HI2, #Hmw0, #Hmw1, #Hmw2, ⟨Hc5, Hat5⟩, ⟨Hcr5, Hatr5⟩, ⟨Hc7, Hat7⟩, HO⟩
  unfold withBufs; rw [k0_part32_eq_skeleton]; unfold k0_part32_skel
  sl_exec
  sl_step
  ihave Hp5 := (Entails.of_eq (sendPay_gather (F := F) d0 0 5 (by decide))) $$ Hat5_pay1
  ihave Hq5 := (Entails.of_eq ((recvPay_gather x w d0 0 5 (by decide)).trans (holdsW_land5 d0 0 _))) $$ Hatr5_pay1
  ihave Hp7 := (Entails.of_eq (sendPay_gather (F := F) d0 0 7 (by decide))) $$ Hat7_pay1
  isplitl [Hp5]; · iexact Hp5
  isplitl [Hq5]; · iexact Hq5
  isplitl [Hp7]; · iexact Hp7
  isplitl [Hat5]; · iexact Hat5
  isplitl [Hatr5]; · iexact Hatr5
  isplitl [Hat7]; · iexact Hat7
  iexact HO

theorem part33 (c : Dev nD) (κ0 κ1 κ2 κ3 κ4 : ℕ) (d0 : Dev nD) (hd : d0 = c) (v65 v79 : BitVec 32)
    (O : CellTallies nD τ sig Unit) (W : Waits sig Unit) :
    iprop(cellInv (ER (F := F)) (cubeRd x w) κ0 (recvCell c 0 7) ∗ cellInv (ER (F := F)) (cubeRd x w) κ1 (locCell c 0 1)
        ∗ cellInv (ER (F := F)) (cubeRd x w) κ2 (sendCell c 0 9) ∗ cellInv (ER (F := F)) (cubeRd x w) κ3 (recvCell (peer 0 9 c) 0 9) ∗ cellInv (ER (F := F)) (cubeRd x w) κ4 (sendCell c 1 5)
        ∗ MayWait (c : Thread nD τ) (.dma (rsem 0 7)) () (O + tallyAt (recvCell (peer 0 9 c) 0 9) () (credOf 0 9)) ∗ MayWait (c : Thread nD τ) (.dma (ssem 1 5)) () O
        ∗ holdsW c 0 (o3 0 (nb 0 1 c)) 256 (hCg 0 c) (gath x w 0)
        ∗ ownsW (nb 0 0 c) 0 (away1 0 c) 512 (hC 0 c)
        ∗ ownsOut c 0 (away1 0 c) (by have := inb_out 0 1 c; exact this)
        ∗ recvG (F := F) c 0 7 0 ∗ locG (F := F) c 0 1 0 ∗ sendG (F := F) c 0 9 0 ∗ sendG (F := F) c 1 5 1
        ∗ owes (c : Thread nD τ) (O + tallyAt (recvCell (peer 0 9 c) 0 9) () (credOf 0 9)) W)
      ⊢ wp frame (wpE (defs₀ (F := F)) Variants.none (c : Thread nD τ) none) Set.univ
          (withBufs (k0_part33 (F := F)) d0 v65 v79)
          (fun _ => iprop(partW c 0 (away1 0 c) 512 (hC 0 c) [fullShare.right.left, fullShare.right.right.left] (gath x w 0)
            ∗ lentW c 1 (o3 1 c) 256 (hG 1 c) fullShare.right.left
            ∗ recvG (F := F) c 0 7 1 ∗ locG (F := F) c 0 1 1 ∗ sendG (F := F) c 0 9 1 ∗ sendG (F := F) c 1 5 2
            ∗ owes (c : Thread nD τ) O (insert (SemLoc.dma (ssem 1 5), ()) (insert (SemLoc.dma (rsem 0 7), ()) W)))) := by
  subst hd
  simp only [p30_sendG_0, p30_sendG_1, p30_sendG_2, p30_recvG_0, p30_recvG_1, p30_locG_0, p30_locG_1]
  iintro ⟨#HI0, #HI1, #HI2, #HI3, #HI4, #Hmw0, #Hmw1, HCg, Hd9, HOut, ⟨Hcr7, Hatr7⟩, ⟨Htl, Hrl, Hatl⟩, ⟨Ht9, Hr9, Htr9, Hrr9, Hat9⟩, ⟨Hc5, Hat5⟩, HO⟩
  unfold withBufs; rw [k0_part33_eq_skeleton]; unfold k0_part33_skel
  sl_exec
  ihave HCe := (Entails.of_eq ((recvPay_gather x w d0 0 7 (by decide)).trans (holdsW_land7 d0 0 _))) $$ Hatr7_pay1
  ihave HC := (holdsW_C d0 0 (gath x w 0)).2 $$ [HCg HCe]
  · iframe HCg HCe
  ihave H4 := (p30_holdsW_four d0 0 (hC 0 d0) (gath x w 0)) $$ HC
  icases H4 with ⟨%f, Hl, Hm, Hn, Hlsh, %hf⟩
  iapply (ev_local x w d0 0 1 (Forms.off_21 d0) (Forms.off_58 d0) rfl f hf) $$ [Hlsh HOut Htl Hrl]
  · isplitl []; · iexact HI1
    isplitl [Hlsh]; · iexact Hlsh
    isplitl [HOut]; · iexact HOut
    isplitl [Htl]; · iexact Htl
    iexact Hrl
  iintro Hcl
  sl_exec
  iapply (ev_send_share x w d0 0 9 (by decide) (n := 1368) (wd := 512) (off := away1 0 d0) rfl rfl rfl (hC 0 d0)
      (Forms.off_21 d0) (Forms.off_21 d0) rfl rfl (Forms.dev_31 d0) rfl rfl (q := fullShare.left) rfl
      O rfl f hf) $$ [Hl Hd9 HO Ht9 Hr9 Htr9 Hrr9]
  · isplitl []; · iexact HI2
    isplitl []; · iexact HI3
    isplitl [Hl]; · iexact Hl
    isplitl [Hd9]; · iexact Hd9
    isplitl [HO]; · iexact HO
    isplitl [Ht9]; · iexact Ht9
    isplitl [Hr9]; · iexact Hr9
    isplitl [Htr9]; · iexact Htr9
    iexact Hrr9
  iintro ⟨Hc9, HO⟩
  sl_exec
  sl_step
  ihave Hp5 := (Entails.of_eq (sendPay_gather (F := F) d0 1 5 (by decide))) $$ Hat5_pay1
  isplitl [Hm Hn]
  · unfold partW
    simp only [List.foldr_cons, List.foldr_nil]
    iexists f
    isplitl [Hm Hn]
    · isplitl [Hm]; · iexact Hm
      isplitl [Hn]; · iexact Hn
      iempintro
    · ipureintro; exact hf
  isplitl [Hp5]; · iexact Hp5
  isplitl [Hatr7]; · iexact Hatr7
  isplitl [Hcl Hatl]
  · iframe Hcl Hatl
  isplitl [Hc9 Hat9]
  · iframe Hc9 Hat9
  isplitl [Hat5]; · iexact Hat5
  iexact HO

theorem part34 (c : Dev nD) (κ0 κ1 κ2 κ3 : ℕ) (d0 : Dev nD) (hd : d0 = c) (v79 : BitVec 32)
    (O : CellTallies nD τ sig Unit) (W : Waits sig Unit) :
    iprop(cellInv (ER (F := F)) (cubeRd x w) κ0 (recvCell c 1 5) ∗ cellInv (ER (F := F)) (cubeRd x w) κ1 (sendCell c 1 7) ∗ cellInv (ER (F := F)) (cubeRd x w) κ2 (recvCell c 1 7) ∗ cellInv (ER (F := F)) (cubeRd x w) κ3 (locCell c 1 1)
        ∗ MayWait (c : Thread nD τ) (.dma (rsem 1 5)) () O ∗ MayWait (c : Thread nD τ) (.dma (ssem 1 7)) () O ∗ MayWait (c : Thread nD τ) (.dma (rsem 1 7)) () O
        ∗ ownsOut c 1 (away1 1 c) (by have := inb_out 1 1 c; exact this)
        ∗ recvG (F := F) c 1 5 0 ∗ sendG (F := F) c 1 7 1 ∗ recvG (F := F) c 1 7 0 ∗ locG (F := F) c 1 1 0
        ∗ owes (c : Thread nD τ) O W)
      ⊢ wp frame (wpE (defs₀ (F := F)) Variants.none (c : Thread nD τ) none) Set.univ
          (withBufs (k0_part34 (F := F)) d0 v79)
          (fun _ => iprop(lentW c 1 (away2 1 c) 256 (hE 1 c) fullShare.left
            ∗ partW c 1 (away1 1 c) 512 (hC 1 c) keep3 (gath x w 1)
            ∗ recvG (F := F) c 1 5 1 ∗ sendG (F := F) c 1 7 2 ∗ recvG (F := F) c 1 7 1 ∗ locG (F := F) c 1 1 1
            ∗ owes (c : Thread nD τ) O (insert (SemLoc.dma (rsem 1 7), ()) (insert (SemLoc.dma (ssem 1 7), ()) (insert (SemLoc.dma (rsem 1 5), ()) W))))) := by
  subst hd
  simp only [p30_sendG_1, p30_sendG_2, p30_recvG_0, p30_recvG_1, p30_locG_0, p30_locG_1]
  iintro ⟨#HI0, #HI1, #HI2, #HI3, #Hmw0, #Hmw1, #Hmw2, HOut, ⟨Hcr5, Hatr5⟩, ⟨Hc7, Hat7⟩, ⟨Hcr7, Hatr7⟩, ⟨Htl, Hrl, Hatl⟩, HO⟩
  unfold withBufs; rw [k0_part34_eq_skeleton]; unfold k0_part34_skel
  sl_exec
  ihave HCg := (Entails.of_eq ((recvPay_gather x w d0 1 5 (by decide)).trans (holdsW_land5 d0 1 _))) $$ Hatr5_pay1
  ihave HCe := (Entails.of_eq ((recvPay_gather x w d0 1 7 (by decide)).trans (holdsW_land7 d0 1 _))) $$ Hatr7_pay1
  ihave Hp7 := (Entails.of_eq (sendPay_gather (F := F) d0 1 7 (by decide))) $$ Hat7_pay1
  ihave HC := (holdsW_C d0 1 (gath x w 1)).2 $$ [HCg HCe]
  · iframe HCg HCe
  ihave H4 := (p30_holdsW_four d0 1 (hC 1 d0) (gath x w 1)) $$ HC
  icases H4 with ⟨%f, Hl, Hm, Hn, Hlsh, %hf⟩
  iapply (ev_local x w d0 1 1 (Forms.off_24 d0) (Forms.off_59 d0) rfl f hf) $$ [Hlsh HOut Htl Hrl]
  · isplitl []; · iexact HI3
    isplitl [Hlsh]; · iexact Hlsh
    isplitl [HOut]; · iexact HOut
    isplitl [Htl]; · iexact Htl
    iexact Hrl
  iintro Hcl
  sl_exec
  sl_step
  isplitl [Hp7]; · iexact Hp7
  isplitl [Hl Hm Hn]
  · unfold partW keep3
    simp only [List.foldr_cons, List.foldr_nil]
    iexists f
    isplitl [Hl Hm Hn]
    · isplitl [Hl]; · iexact Hl
      isplitl [Hm]; · iexact Hm
      isplitl [Hn]; · iexact Hn
      iempintro
    · ipureintro; exact hf
  iframe Hatr5 Hat7 Hatr7
  isplitl [Hcl Hatl]
  · iframe Hcl Hatl
  iexact HO

end Cert.KernelIdeal.Body

end
-- ==== Proof.Parts35.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.EvSend
import proofs.«900802_g7700000000000803_dist_gemm_ar_m4096_k4096_n2048_f32_relu_v7x_i8_1_alg».proof.Proof.EvStore
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages

noncomputable section

namespace Cert.KernelIdeal.Body

open Cert.KernelIdeal Cert.KernelIdeal.Gen Cert.KernelIdeal.Spec Cert.KernelIdeal.Reg Cert.KernelIdeal.Proto
open Cert.KernelIdeal.Stages Cert.KernelIdeal.Tables Cert.KernelIdeal.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

private theorem p35_land5 (c : Dev nD) (p : Fin 3) :
    (recvPay x w c p 5 : sProp 𝕄) = holdsW c p (o3 p (nb p 1 c)) 256 (hCg p c) (gath x w p) :=
  (show (recvPay x w c p 5 : sProp 𝕄) = holdsW c p (srcOff p 5 (peer p 5 c)) (wid 5) (inb_src p 5 (peer p 5 c)) (gath x w p) from rfl).trans
    (holdsW_land5 c p _)
private theorem p35_land6 (c : Dev nD) (p : Fin 3) :
    (recvPay x w c p 6 : sProp 𝕄) = holdsW c p (o3 p (nb p 0 c)) 256 (hBg p c) (gath x w p) :=
  (show (recvPay x w c p 6 : sProp 𝕄) = holdsW c p (srcOff p 6 (peer p 6 c)) (wid 6) (inb_src p 6 (peer p 6 c)) (gath x w p) from rfl).trans
    (holdsW_land6 c p _)
private theorem p35_land7 (c : Dev nD) (p : Fin 3) :
    (recvPay x w c p 7 : sProp 𝕄) = holdsW c p (away2 p (nb p 1 c)) 256 (hCe p c) (gath x w p) :=
  (show (recvPay x w c p 7 : sProp 𝕄) = holdsW c p (srcOff p 7 (peer p 7 c)) (wid 7) (inb_src p 7 (peer p 7 c)) (gath x w p) from rfl).trans
    (holdsW_land7 c p _)
private theorem p35_land8 (c : Dev nD) (p : Fin 3) :
    (recvPay x w c p 8 : sProp 𝕄) = holdsW c p (away2 p (nb p 0 c)) 256 (hBe p c) (gath x w p) :=
  (show (recvPay x w c p 8 : sProp 𝕄) = holdsW c p (srcOff p 8 (peer p 8 c)) (wid 8) (inb_src p 8 (peer p 8 c)) (gath x w p) from rfl).trans
    (holdsW_land8 c p _)

private theorem p35_lend (c : Dev nD) (p : Fin 3) {off wd : ℕ} (h : Inb3 2048 p.val (rowLen p) off wd) (val : ℕ → ℕ → F .f32) :
    (holdsW c p off wd h val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{lshr} f)
          ∗ ⌜∀ y : (⟨3, ![1, rowLen p, wd]⟩ : Shape).Idx, (wbM.access (wbRect p.val (rowLen p) off wd h)).read (Elt F) f y = val (y 1).val (off + (y 2).val)⌝
          ∗ partW c p off wd h keep3 val) := by
  unfold holdsW partW keep3 lshr
  simp only [List.foldr_cons, List.foldr_nil]
  iintro ⟨%f, Hf, %hf⟩
  ihave H1 := (pointsTo_share (PosShare.mem_left_op_right fullShare)).1 $$ Hf
  icases H1 with ⟨Hl, Hr⟩
  ihave H2 := (pointsTo_share (PosShare.mem_left_op_right fullShare.right)).1 $$ Hr
  icases H2 with ⟨Hrl, Hrr⟩
  ihave H3 := (pointsTo_share (PosShare.mem_left_op_right fullShare.right.right)).1 $$ Hrr
  icases H3 with ⟨Hrrl, Hrrr⟩
  iexists f
  iframe Hrrr
  isplitr
  · ipureintro; exact hf
  iexists f
  isplitl [Hl Hrl Hrrl]
  · isplitl [Hl]; · iexact Hl
    isplitl [Hrl]; · iexact Hrl
    isplitl [Hrrl]; · iexact Hrrl
    iempintro
  · ipureintro; exact hf

private theorem p35_take (c : Dev nD) (p : Fin 3) {off wd : ℕ} (h : Inb3 2048 p.val (rowLen p) off wd)
    (q : PosShare TreeShare) (qs : List (PosShare TreeShare)) (val : ℕ → ℕ → F .f32) :
    (partW c p off wd h (q :: qs) val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{q} f)
          ∗ ⌜∀ y : (⟨3, ![1, rowLen p, wd]⟩ : Shape).Idx, (wbM.access (wbRect p.val (rowLen p) off wd h)).read (Elt F) f y = val (y 1).val (off + (y 2).val)⌝
          ∗ partW c p off wd h qs val) := by
  unfold partW
  simp only [List.foldr_cons]
  iintro ⟨%f, ⟨Hq, Hr⟩, %hf⟩
  iexists f
  iframe Hq
  isplitr
  · ipureintro; exact hf
  iexists f
  iframe Hr
  ipureintro; exact hf

private theorem p35_take3 (c : Dev nD) (p : Fin 3) {off wd : ℕ} (h : Inb3 2048 p.val (rowLen p) off wd) (val : ℕ → ℕ → F .f32) :
    (partW c p off wd h keep3 val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{fullShare.left} f)
          ∗ ⌜∀ y : (⟨3, ![1, rowLen p, wd]⟩ : Shape).Idx, (wbM.access (wbRect p.val (rowLen p) off wd h)).read (Elt F) f y = val (y 1).val (off + (y 2).val)⌝
          ∗ partW c p off wd h [fullShare.right.left, fullShare.right.right.left] val) :=
  p35_take c p h fullShare.left [fullShare.right.left, fullShare.right.right.left] val

theorem part35 (c : Dev nD) (κ0 κ1 κ2 κ3 : ℕ) (d0 : Dev nD) (hd : d0 = c) (v65 v68 : BitVec 32)
    (O : CellTallies nD τ sig Unit) (W : Waits sig Unit) :
    iprop(cellInv (ER (F := F)) (cubeRd x w) κ0 (sendCell c 1 9) ∗ cellInv (ER (F := F)) (cubeRd x w) κ1 (recvCell (peer 1 9 c) 1 9)
        ∗ cellInv (ER (F := F)) (cubeRd x w) κ2 (sendCell c 2 5) ∗ cellInv (ER (F := F)) (cubeRd x w) κ3 (recvCell c 2 5)
        ∗ MayWait (c : Thread nD τ) (.dma (ssem 2 5)) () O ∗ MayWait (c : Thread nD τ) (.dma (rsem 2 5)) () O
        ∗ partW c 1 (away1 1 c) 512 (hC 1 c) keep3 (gath x w 1)
        ∗ ownsW (nb 1 0 c) 1 (away1 1 c) 512 (hC 1 c)
        ∗ sendG (F := F) c 1 9 0 ∗ sendG (F := F) c 2 5 1 ∗ recvG (F := F) c 2 5 0
        ∗ owes (c : Thread nD τ) (O + tallyAt (recvCell (peer 1 9 c) 1 9) () (credOf 1 9)) W)
      ⊢ wp frame (wpE (defs₀ (F := F)) Variants.none (c : Thread nD τ) none) Set.univ
          (withBufs (k0_part35 (F := F)) d0 v65 v68)
          (fun _ => iprop(partW c 1 (away1 1 c) 512 (hC 1 c) [fullShare.right.left, fullShare.right.right.left] (gath x w 1)
            ∗ lentW c 2 (o3 2 c) 256 (hG 2 c) fullShare.right.left
            ∗ holdsW c 2 (o3 2 (nb 2 1 c)) 256 (hCg 2 c) (gath x w 2)
            ∗ sendG (F := F) c 1 9 1 ∗ sendG (F := F) c 2 5 2 ∗ recvG (F := F) c 2 5 1
            ∗ owes (c : Thread nD τ) O (insert (SemLoc.dma (rsem 2 5), ()) (insert (SemLoc.dma (ssem 2 5), ()) W)))) := by
  subst hd
  simp only [sendG, recvG]
  iintro ⟨#HI0, #HI1, #HI2, #HI3, #Hm0, #Hm1, Hkeep, Hown, ⟨Htok, #Hr, Htok', #Hr', Hat0⟩, ⟨Hc1, Hat1⟩, ⟨Hc2, Hat2⟩, HO⟩
  unfold withBufs; rw [k0_part35_eq_skeleton]; unfold k0_part35_skel
  sl_exec
  ihave HT := (p35_take3 d0 1 (hC 1 d0) (gath x w 1)) $$ Hkeep
  icases HT with ⟨%f, Hsh, %hf, Hrest⟩
  iapply (ev_send_share x w d0 1 9 (by decide) rfl rfl rfl (hC 1 d0) (ho := Forms.off_24 d0) (ho' := Forms.off_24 d0)
    (hsrcE := rfl) (hdstE := rfl) (hc' := Forms.dev_32 d0) (hsS := rfl) (hsR := rfl) (q := fullShare.left) (hq := rfl) O rfl f hf) $$ [Hsh Hown HO Htok Htok']
  · isplitl []; · iexact HI0
    isplitl []; · iexact HI1
    isplitl [Hsh]; · iexact Hsh
    isplitl [Hown]; · iexact Hown
    isplitl [HO]; · iexact HO
    isplitl [Htok]; · iexact Htok
    isplitl []; · iexact Hr
    isplitl [Htok']; · iexact Htok'
    iexact Hr'
  iintro ⟨Hcs, HO⟩
  sl_exec
  sl_step
  iframe Hrest
  isplitl [Hat1_pay1]
  · iapply (Entails.of_eq (show sendPay (F := F) d0 2 5 = lentW d0 2 (o3 2 d0) 256 (hG 2 d0) fullShare.right.left from rfl))
    iexact Hat1_pay1
  isplitl [Hat2_pay1]; · iapply (Entails.of_eq (p35_land5 x w d0 2)); iexact Hat2_pay1
  isplitl [Hcs Hat0]
  · iframe Hcs Hat0
  isplitl [Hat1]; · iexact Hat1
  isplitl [Hat2]; · iexact Hat2
  iexact HO

theorem part36 (c : Dev nD) (κ0 κ1 κ2 κ3 κ4 : ℕ) (d0 : Dev nD) (hd : d0 = c) (v50 v65 v79 : BitVec 32)
    (O : CellTallies nD τ sig Unit) (W : Waits sig Unit) :
    iprop(cellInv (ER (F := F)) (cubeRd x w) κ0 (sendCell c 2 7) ∗ cellInv (ER (F := F)) (cubeRd x w) κ1 (recvCell c 2 7) ∗ cellInv (ER (F := F)) (cubeRd x w) κ2 (locCell c 2 1)
        ∗ cellInv (ER (F := F)) (cubeRd x w) κ3 (sendCell c 2 9) ∗ cellInv (ER (F := F)) (cubeRd x w) κ4 (recvCell (peer 2 9 c) 2 9)
        ∗ MayWait (c : Thread nD τ) (.dma (ssem 2 7)) () (O + tallyAt (recvCell (peer 2 9 c) 2 9) () (credOf 2 9)) ∗ MayWait (c : Thread nD τ) (.dma (rsem 2 7)) () (O + tallyAt (recvCell (peer 2 9 c) 2 9) () (credOf 2 9))
        ∗ holdsW c 2 (o3 2 (nb 2 1 c)) 256 (hCg 2 c) (gath x w 2)
        ∗ ownsW (nb 2 0 c) 2 (away1 2 c) 512 (hC 2 c)
        ∗ ownsOut c 2 (away1 2 c) (by have := inb_out 2 1 c; exact this)
        ∗ sendG (F := F) c 2 7 1 ∗ recvG (F := F) c 2 7 0 ∗ locG (F := F) c 2 1 0 ∗ sendG (F := F) c 2 9 0
        ∗ owes (c : Thread nD τ) (O + tallyAt (recvCell (peer 2 9 c) 2 9) () (credOf 2 9)) W)
      ⊢ wp frame (wpE (defs₀ (F := F)) Variants.none (c : Thread nD τ) none) Set.univ
          (withBufs (k0_part36 (F := F)) d0 v50 v65 v79)
          (fun _ => iprop(lentW c 2 (away2 2 c) 256 (hE 2 c) fullShare.left
            ∗ partW c 2 (away1 2 c) 512 (hC 2 c) [fullShare.right.left, fullShare.right.right.left] (gath x w 2)
            ∗ sendG (F := F) c 2 7 2 ∗ recvG (F := F) c 2 7 1 ∗ locG (F := F) c 2 1 1 ∗ sendG (F := F) c 2 9 1
            ∗ owes (c : Thread nD τ) O (insert (SemLoc.dma (rsem 2 7), ()) (insert (SemLoc.dma (ssem 2 7), ()) W)))) := by
  subst hd
  simp only [sendG, recvG, locG]
  iintro ⟨#HI0, #HI1, #HI2, #HI3, #HI4, #Hm0, #Hm1, HCg, Hown, Hout, ⟨Hc0, Hat0⟩, ⟨Hc1, Hat1⟩, ⟨Htok2, #Hr2, Hat2⟩, ⟨Htok, #Hr, Htok', #Hr', Hat3⟩, HO⟩
  unfold withBufs; rw [k0_part36_eq_skeleton]; unfold k0_part36_skel
  sl_exec
  ihave HCe := (Entails.of_eq (p35_land7 x w d0 2)) $$ Hat1_pay1
  ihave HC := (holdsW_C d0 2 (gath x w 2)).2 $$ [HCg HCe]
  · iframe HCg HCe
  ihave HL := (p35_lend d0 2 (hC 2 d0) (gath x w 2)) $$ HC
  icases HL with ⟨%f, Hsh, %hf, Hkeep⟩
  iapply (ev_local x w d0 2 1 (ho := Forms.off_27 d0) (ho' := Forms.off_60 d0) (hsem := rfl) f hf) $$ [Hsh Hout Htok2]
  · isplitl []; · iexact HI2
    isplitl [Hsh]; · iexact Hsh
    isplitl [Hout]; · iexact Hout
    isplitl [Htok2]; · iexact Htok2
    iexact Hr2
  iintro Hcl
  sl_exec
  ihave HT := (p35_take3 d0 2 (hC 2 d0) (gath x w 2)) $$ Hkeep
  icases HT with ⟨%g, Hsh', %hg, Hrest⟩
  iapply (ev_send_share x w d0 2 9 (by decide) rfl rfl rfl (hC 2 d0) (ho := Forms.off_27 d0) (ho' := Forms.off_27 d0)
    (hsrcE := rfl) (hdstE := rfl) (hc' := Forms.dev_33 d0) (hsS := rfl) (hsR := rfl) (q := fullShare.left) (hq := rfl) O rfl g hg) $$ [Hsh' Hown HO Htok Htok']
  · iframe HI3 HI4
    isplitl [Hsh']; · iexact Hsh'
    isplitl [Hown]; · iexact Hown
    isplitl [HO]; · iexact HO
    isplitl [Htok]; · iexact Htok
    isplitl []; · iexact Hr
    isplitl [Htok']; · iexact Htok'
    iexact Hr'
  iintro ⟨Hcs, HO⟩
  sl_exec
  sl_step
  isplitl [Hat0_pay1]
  · iapply (Entails.of_eq (show sendPay (F := F) d0 2 7 = lentW d0 2 (away2 2 d0) 256 (hE 2 d0) fullShare.left from rfl))
    iexact Hat0_pay1
  iframe Hrest Hat0 Hat1
  isplitl [Hcl Hat2]
  · iframe Hcl Hat2
  isplitl [Hcs Hat3]
  · iframe Hcs Hat3
  iexact HO

theorem part37 (c : Dev nD) (κ0 κ1 κ2 : ℕ) (d0 : Dev nD) (hd : d0 = c) (v19 v33 v65 v88 v118 v148 v1053 : BitVec 32)
    (O : CellTallies nD τ sig Unit) (W : Waits sig Unit) :
    iprop(cellInv (ER (F := F)) (cubeRd x w) κ0 (sendCell c 0 6) ∗ cellInv (ER (F := F)) (cubeRd x w) κ1 (recvCell c 0 6) ∗ cellInv (ER (F := F)) (cubeRd x w) κ2 (sendCell c 0 8)
        ∗ MayWait (c : Thread nD τ) (.dma (ssem 0 6)) () O ∗ MayWait (c : Thread nD τ) (.dma (rsem 0 6)) () O ∗ MayWait (c : Thread nD τ) (.dma (ssem 0 8)) () O
        ∗ sendG (F := F) c 0 6 1 ∗ recvG (F := F) c 0 6 0 ∗ sendG (F := F) c 0 8 1
        ∗ owes (c : Thread nD τ) O W)
      ⊢ wp frame (wpE (defs₀ (F := F)) Variants.none (c : Thread nD τ) none) Set.univ
          (withBufs (k0_part37 (F := F)) d0 v19 v33 v65 v88 v118 v148 v1053)
          (fun _ => iprop(lentW c 0 (o3 0 c) 256 (hG 0 c) fullShare.right.right.left
            ∗ holdsW c 0 (o3 0 (nb 0 0 c)) 256 (hBg 0 c) (gath x w 0)
            ∗ lentW c 0 (away2 0 c) 256 (hE 0 c) fullShare.right.left
            ∗ sendG (F := F) c 0 6 2 ∗ recvG (F := F) c 0 6 1 ∗ sendG (F := F) c 0 8 2
            ∗ owes (c : Thread nD τ) O (insert (SemLoc.dma (ssem 0 8), ()) (insert (SemLoc.dma (rsem 0 6), ()) (insert (SemLoc.dma (ssem 0 6), ()) W))))) := by
  subst hd
  simp only [sendG, recvG]
  iintro ⟨#HI0, #HI1, #HI2, #Hm0, #Hm1, #Hm2, ⟨Hc0, Hat0⟩, ⟨Hc1, Hat1⟩, ⟨Hc2, Hat2⟩, HO⟩
  unfold withBufs; rw [k0_part37_eq_skeleton]; unfold k0_part37_skel
  sl_exec
  sl_step
  isplitl [Hat0_pay1]
  · iapply (Entails.of_eq (show sendPay (F := F) d0 0 6 = lentW d0 0 (o3 0 d0) 256 (hG 0 d0) fullShare.right.right.left from rfl))
    iexact Hat0_pay1
  isplitl [Hat1_pay1]; · iapply (Entails.of_eq (p35_land6 x w d0 0)); iexact Hat1_pay1
  isplitl [Hat2_pay1]
  · iapply (Entails.of_eq (show sendPay (F := F) d0 0 8 = lentW d0 0 (away2 0 d0) 256 (hE 0 d0) fullShare.right.left from rfl))
    iexact Hat2_pay1
  isplitl [Hat0]; · iexact Hat0
  isplitl [Hat1]; · iexact Hat1
  isplitl [Hat2]; · iexact Hat2
  iexact HO

theorem part38 (c : Dev nD) (κ0 κ1 κ2 : ℕ) (d0 : Dev nD) (hd : d0 = c) (v65 v68 : BitVec 32)
    (O : CellTallies nD τ sig Unit) (W : Waits sig Unit) :
    iprop(cellInv (ER (F := F)) (cubeRd x w) κ0 (recvCell c 0 8) ∗ cellInv (ER (F := F)) (cubeRd x w) κ1 (locCell c 0 2) ∗ cellInv (ER (F := F)) (cubeRd x w) κ2 (sendCell c 1 6)
        ∗ MayWait (c : Thread nD τ) (.dma (rsem 0 8)) () O ∗ MayWait (c : Thread nD τ) (.dma (ssem 1 6)) () O
        ∗ holdsW c 0 (o3 0 (nb 0 0 c)) 256 (hBg 0 c) (gath x w 0)
        ∗ ownsOut c 0 (sub2 0 c) (by have := inb_out 0 2 c; exact this)
        ∗ recvG (F := F) c 0 8 0 ∗ locG (F := F) c 0 2 0 ∗ sendG (F := F) c 1 6 1
        ∗ owes (c : Thread nD τ) O W)
      ⊢ wp frame (wpE (defs₀ (F := F)) Variants.none (c : Thread nD τ) none) Set.univ
          (withBufs (k0_part38 (F := F)) d0 v65 v68)
          (fun _ => iprop(partW c 0 (sub2 0 c) 512 (hB 0 c) keep3 (gath x w 0)
            ∗ lentW c 1 (o3 1 c) 256 (hG 1 c) fullShare.right.right.left
            ∗ recvG (F := F) c 0 8 1 ∗ locG (F := F) c 0 2 1 ∗ sendG (F := F) c 1 6 2
            ∗ owes (c : Thread nD τ) O (insert (SemLoc.dma (ssem 1 6), ()) (insert (SemLoc.dma (rsem 0 8), ()) W)))) := by
  subst hd
  simp only [sendG, recvG, locG]
  iintro ⟨#HI0, #HI1, #HI2, #Hm0, #Hm1, HBg, Hout, ⟨Hc0, Hat0⟩, ⟨Htok, #Hr, Hat1⟩, ⟨Hc2, Hat2⟩, HO⟩
  unfold withBufs; rw [k0_part38_eq_skeleton]; unfold k0_part38_skel
  sl_exec
  ihave HBe := (Entails.of_eq (p35_land8 x w d0 0)) $$ Hat0_pay1
  ihave HB := (holdsW_B d0 0 (gath x w 0)).2 $$ [HBg HBe]
  · iframe HBg HBe
  ihave HL := (p35_lend d0 0 (hB 0 d0) (gath x w 0)) $$ HB
  icases HL with ⟨%f, Hsh, %hf, Hkeep⟩
  iapply (ev_local x w d0 0 2 (ho := Forms.off_12 d0) (ho' := Forms.off_61 d0) (hsem := rfl) f hf) $$ [Hsh Hout Htok]
  · isplitl []; · iexact HI1
    isplitl [Hsh]; · iexact Hsh
    isplitl [Hout]; · iexact Hout
    isplitl [Htok]; · iexact Htok
    iexact Hr
  iintro Hcl
  sl_exec
  sl_step
  iframe Hkeep
  isplitl [Hat2_pay1]
  · iapply (Entails.of_eq (show sendPay (F := F) d0 1 6 = lentW d0 1 (o3 1 d0) 256 (hG 1 d0) fullShare.right.right.left from rfl))
    iexact Hat2_pay1
  iframe Hat0
  isplitl [Hcl Hat1]
  · iframe Hcl Hat1
  isplitl [Hat2]; · iexact Hat2
  iexact HO

theorem part39 (c : Dev nD) (κ0 κ1 κ2 κ3 : ℕ) (d0 : Dev nD) (hd : d0 = c) (v68 : BitVec 32)
    (O : CellTallies nD τ sig Unit) (W : Waits sig Unit) :
    iprop(cellInv (ER (F := F)) (cubeRd x w) κ0 (recvCell c 1 6) ∗ cellInv (ER (F := F)) (cubeRd x w) κ1 (sendCell c 1 8) ∗ cellInv (ER (F := F)) (cubeRd x w) κ2 (recvCell c 1 8) ∗ cellInv (ER (F := F)) (cubeRd x w) κ3 (locCell c 1 2)
        ∗ MayWait (c : Thread nD τ) (.dma (rsem 1 6)) () O ∗ MayWait (c : Thread nD τ) (.dma (ssem 1 8)) () O ∗ MayWait (c : Thread nD τ) (.dma (rsem 1 8)) () O
        ∗ ownsOut c 1 (sub2 1 c) (by have := inb_out 1 2 c; exact this)
        ∗ recvG (F := F) c 1 6 0 ∗ sendG (F := F) c 1 8 1 ∗ recvG (F := F) c 1 8 0 ∗ locG (F := F) c 1 2 0
        ∗ owes (c : Thread nD τ) O W)
      ⊢ wp frame (wpE (defs₀ (F := F)) Variants.none (c : Thread nD τ) none) Set.univ
          (withBufs (k0_part39 (F := F)) d0 v68)
          (fun _ => iprop(lentW c 1 (away2 1 c) 256 (hE 1 c) fullShare.right.left
            ∗ partW c 1 (sub2 1 c) 512 (hB 1 c) keep3 (gath x w 1)
            ∗ recvG (F := F) c 1 6 1 ∗ sendG (F := F) c 1 8 2 ∗ recvG (F := F) c 1 8 1 ∗ locG (F := F) c 1 2 1
            ∗ owes (c : Thread nD τ) O (insert (SemLoc.dma (rsem 1 8), ()) (insert (SemLoc.dma (ssem 1 8), ()) (insert (SemLoc.dma (rsem 1 6), ()) W))))) := by
  subst hd
  simp only [sendG, recvG, locG]
  iintro ⟨#HI0, #HI1, #HI2, #HI3, #Hm0, #Hm1, #Hm2, Hout, ⟨Hc0, Hat0⟩, ⟨Hc1, Hat1⟩, ⟨Hc2, Hat2⟩, ⟨Htok, #Hr, Hat3⟩, HO⟩
  unfold withBufs; rw [k0_part39_eq_skeleton]; unfold k0_part39_skel
  sl_exec
  ihave HBg := (Entails.of_eq (p35_land6 x w d0 1)) $$ Hat0_pay1
  ihave HBe := (Entails.of_eq (p35_land8 x w d0 1)) $$ Hat2_pay1
  ihave HB := (holdsW_B d0 1 (gath x w 1)).2 $$ [HBg HBe]
  · iframe HBg HBe
  ihave HL := (p35_lend d0 1 (hB 1 d0) (gath x w 1)) $$ HB
  icases HL with ⟨%f, Hsh, %hf, Hkeep⟩
  iapply (ev_local x w d0 1 2 (ho := Forms.off_15 d0) (ho' := Forms.off_62 d0) (hsem := rfl) f hf) $$ [Hsh Hout Htok]
  · isplitl []; · iexact HI3
    isplitl [Hsh]; · iexact Hsh
    isplitl [Hout]; · iexact Hout
    isplitl [Htok]; · iexact Htok
    iexact Hr
  iintro Hcl
  sl_step
  isplitl [Hat1_pay1]
  · iapply (Entails.of_eq (show sendPay (F := F) d0 1 8 = lentW d0 1 (away2 1 d0) 256 (hE 1 d0) fullShare.right.left from rfl))
    iexact Hat1_pay1
  iframe Hkeep Hat0 Hat1 Hat2
  isplitl [Hcl Hat3]
  · iframe Hcl Hat3
  iexact HO

end Cert.KernelIdeal.Body

end
-- ==== Proof.Parts40.lean ====
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.EvWait
import proofs.«900802_g7700000000000803_dist_gemm_ar_m4096_k4096_n2048_f32_relu_v7x_i8_1_alg».proof.Proof.Pieces
import proofs.«900802_g7700000000000803_dist_gemm_ar_m4096_k4096_n2048_f32_relu_v7x_i8_1_alg».proof.Proof.Stages
import proofs.«900802_g7700000000000803_dist_gemm_ar_m4096_k4096_n2048_f32_relu_v7x_i8_1_alg».proof.Proof.Tables

noncomputable section

namespace Cert.KernelIdeal.Body

open Cert.KernelIdeal Cert.KernelIdeal.Gen Cert.KernelIdeal.Spec Cert.KernelIdeal.Reg Cert.KernelIdeal.Proto
open Cert.KernelIdeal.Tables Cert.KernelIdeal.Stages Cert.KernelIdeal.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

private theorem p40_sendPay6 (c : Dev nD) (p : Fin 3) :
    (sendPay (F := F) c p 6 : sProp 𝕄) = lentW c p (o3 p c) 256 (hG p c) fullShare.right.right.left := rfl
private theorem p40_sendPay8 (c : Dev nD) (p : Fin 3) :
    (sendPay (F := F) c p 8 : sProp 𝕄) = lentW c p (away2 p c) 256 (hE p c) fullShare.right.left := rfl
private theorem p40_sendPay9 (c : Dev nD) (p : Fin 3) :
    (sendPay (F := F) c p 9 : sProp 𝕄) = lentW c p (away1 p c) 512 (hC p c) fullShare.left := rfl
private theorem p40_recvPay6 (c : Dev nD) (p : Fin 3) :
    (recvPay x w c p 6 : sProp 𝕄) = holdsW c p (o3 p (nb p 0 c)) 256 (hBg p c) (gath x w p) := holdsW_land6 c p _
private theorem p40_recvPay8 (c : Dev nD) (p : Fin 3) :
    (recvPay x w c p 8 : sProp 𝕄) = holdsW c p (away2 p (nb p 0 c)) 256 (hBe p c) (gath x w p) := holdsW_land8 c p _
private theorem p40_recvPay9 (c : Dev nD) (p : Fin 3) :
    (recvPay x w c p 9 : sProp 𝕄) = holdsW c p (sub1 p c) 512 (hA p c) (gath x w p) := holdsW_land9 c p _

private theorem p40_lend (c : Dev nD) (p : Fin 3) {off : ℕ} (h : Inb3 2048 p.val (rowLen p) off 512) (val : ℕ → ℕ → F .f32) :
    (holdsW c p off 512 h val : sProp 𝕄)
      ⊢ iprop(∃ f : Buf (Elt F) ((wbM.access (wbRect p.val (rowLen p) off 512 h)).loc (c : Thread nD τ)),
          (((wbM.access (wbRect p.val (rowLen p) off 512 h)).loc (c : Thread nD τ)) ↦[wbReg c p.val (rowLen p) off 512 h]{lshr} f)
          ∗ ⌜∀ y : (⟨3, ![1, rowLen p, 512]⟩ : Shape).Idx, (wbM.access (wbRect p.val (rowLen p) off 512 h)).read (Elt F) f y = val (y 1).val (off + (y 2).val)⌝
          ∗ partW c p off 512 h keep3 val) := by
  unfold holdsW partW keep3 lshr
  simp only [List.foldr_cons, List.foldr_nil]
  iintro ⟨%f, Hf, %hf⟩
  ihave H1 := (pointsTo_share (PosShare.mem_left_op_right fullShare)).1 $$ Hf
  icases H1 with ⟨Hl, Hr⟩
  ihave H2 := (pointsTo_share (PosShare.mem_left_op_right fullShare.right)).1 $$ Hr
  icases H2 with ⟨Hrl, Hrr⟩
  ihave H3 := (pointsTo_share (PosShare.mem_left_op_right fullShare.right.right)).1 $$ Hrr
  icases H3 with ⟨Hrrl, Hrrr⟩
  iexists f
  iframe Hrrr
  isplitr
  · ipureintro; exact hf
  iexists f
  isplitl [Hl Hrl Hrrl]
  · isplitl [Hl]; · iexact Hl
    isplitl [Hrl]; · iexact Hrl
    isplitl [Hrrl]; · iexact Hrrl
    iempintro
  · ipureintro; exact hf

theorem part40 (c : Dev nD) (κs6 κr6 κs8 κr8 : ℕ) (d0 : Dev nD) (hd : d0 = c) (v79 : BitVec 32)
    (O : CellTallies nD τ sig Unit) (W : Waits sig Unit) :
    (iprop(cellInv (ER (F := F)) (cubeRd x w) κs6 (sendCell c 2 6) ∗ cellInv (ER (F := F)) (cubeRd x w) κr6 (recvCell c 2 6)
        ∗ cellInv (ER (F := F)) (cubeRd x w) κs8 (sendCell c 2 8) ∗ cellInv (ER (F := F)) (cubeRd x w) κr8 (recvCell c 2 8)
        ∗ sendG (F := F) c 2 6 1 ∗ recvG (F := F) c 2 6 0 ∗ sendG (F := F) c 2 8 1 ∗ recvG (F := F) c 2 8 0
        ∗ owes (c : Thread nD τ) O W
        ∗ MayWait (c : Thread nD τ) (.dma (ssem 2 6)) () O ∗ MayWait (c : Thread nD τ) (.dma (rsem 2 6)) () O
        ∗ MayWait (c : Thread nD τ) (.dma (ssem 2 8)) () O ∗ MayWait (c : Thread nD τ) (.dma (rsem 2 8)) () O) : sProp 𝕄)
      ⊢ wp frame (wpE (defs₀ (F := F)) Variants.none (c : Thread nD τ) none) Set.univ
          (withBufs (k0_part40 (F := F)) d0 v79)
          (fun _ => iprop(owes (c : Thread nD τ) O (insert (SemLoc.dma (rsem 2 8), ()) (insert (SemLoc.dma (ssem 2 8), ()) (insert (SemLoc.dma (rsem 2 6), ()) (insert (SemLoc.dma (ssem 2 6), ()) W))))
            ∗ sendG (F := F) c 2 6 2 ∗ recvG (F := F) c 2 6 1 ∗ sendG (F := F) c 2 8 2 ∗ recvG (F := F) c 2 8 1
            ∗ lentW (F := F) c 2 (o3 2 c) 256 (hG 2 c) fullShare.right.right.left
            ∗ lentW (F := F) c 2 (away2 2 c) 256 (hE 2 c) fullShare.right.left
            ∗ holdsW c 2 (sub2 2 c) 512 (hB 2 c) (gath x w 2))) := by
  subst hd
  simp only [sendG, recvG]
  iintro ⟨#HIs6, #HIr6, #HIs8, #HIr8, ⟨Hcs6, Has6⟩, ⟨Hcr6, Har6⟩, ⟨Hcs8, Has8⟩, ⟨Hcr8, Har8⟩, HO, #Hms6, #Hmr6, #Hms8, #Hmr8⟩
  unfold withBufs; rw [k0_part40_eq_skeleton]; unfold k0_part40_skel
  sl_exec
  sl_step
  isplitl [HO]; · iexact HO
  isplitl [Has6]; · iexact Has6
  isplitl [Har6]; · iexact Har6
  isplitl [Has8]; · iexact Has8
  isplitl [Har8]; · iexact Har8
  isplitl [Has6_pay1]
  · iapply (Entails.of_eq (p40_sendPay6 d0 2)); iexact Has6_pay1
  isplitl [Has8_pay1]
  · iapply (Entails.of_eq (p40_sendPay8 d0 2)); iexact Has8_pay1
  iapply (holdsW_B d0 2 (gath x w 2)).2
  isplitl [Har6_pay1]
  · iapply (Entails.of_eq (p40_recvPay6 x w d0 2)); iexact Har6_pay1
  · iapply (Entails.of_eq (p40_recvPay8 x w d0 2)); iexact Har8_pay1

theorem part41 (c : Dev nD) (κl22 κs9 κr9 : ℕ) (d0 : Dev nD) (hd : d0 = c) (v50 v65 v88 : BitVec 32)
    (O : CellTallies nD τ sig Unit) (W : Waits sig Unit) :
    (iprop(cellInv (ER (F := F)) (cubeRd x w) κl22 (locCell c 2 2) ∗ cellInv (ER (F := F)) (cubeRd x w) κs9 (sendCell c 0 9) ∗ cellInv (ER (F := F)) (cubeRd x w) κr9 (recvCell c 0 9)
        ∗ locG (F := F) c 2 2 0 ∗ sendG (F := F) c 0 9 1 ∗ recvG (F := F) c 0 9 0
        ∗ holdsW c 2 (sub2 2 c) 512 (hB 2 c) (gath x w 2)
        ∗ ownsOut (F := F) c 2 (sub2 2 c) (by have := inb_out 2 2 c; exact this)
        ∗ owes (c : Thread nD τ) O W
        ∗ MayWait (c : Thread nD τ) (.dma (ssem 0 9)) () O ∗ MayWait (c : Thread nD τ) (.dma (rsem 0 9)) () O) : sProp 𝕄)
      ⊢ wp frame (wpE (defs₀ (F := F)) Variants.none (c : Thread nD τ) none) Set.univ
          (withBufs (k0_part41 (F := F)) d0 v50 v65 v88)
          (fun _ => iprop(owes (c : Thread nD τ) O (insert (SemLoc.dma (rsem 0 9), ()) (insert (SemLoc.dma (ssem 0 9), ()) W))
            ∗ locG (F := F) c 2 2 1 ∗ sendG (F := F) c 0 9 2 ∗ recvG (F := F) c 0 9 1
            ∗ partW c 2 (sub2 2 c) 512 (hB 2 c) keep3 (gath x w 2)
            ∗ lentW (F := F) c 0 (away1 0 c) 512 (hC 0 c) fullShare.left
            ∗ holdsW c 0 (sub1 0 c) 512 (hA 0 c) (gath x w 0))) := by
  subst hd
  simp only [locG, sendG, recvG]
  iintro ⟨#HIl, #HIs, #HIr, ⟨Htok, #Hreach, Hal⟩, ⟨Hcs, Has⟩, ⟨Hcr, Har⟩, HB, Hout, HO, #Hms, #Hmr⟩
  unfold withBufs; rw [k0_part41_eq_skeleton]; unfold k0_part41_skel
  ihave HB' := (p40_lend d0 2 (hB 2 d0) (gath x w 2)) $$ HB
  icases HB' with ⟨%f, Hlsh, %hf, Hkeep⟩
  sl_exec
  iapply (ev_local x w d0 2 2 (ho := Forms.off_18 d0) (ho' := Forms.off_63 d0) (hsem := rfl) f hf) $$ [Hlsh Hout Htok]
  · isplitr [Hlsh Hout Htok]; · iexact HIl
    isplitl [Hlsh]; · iexact Hlsh
    isplitl [Hout]; · iexact Hout
    isplitl [Htok]; · iexact Htok
    iexact Hreach
  iintro Hcl
  sl_exec
  sl_step
  isplitl [HO]; · iexact HO
  isplitl [Hcl Hal]
  · iframe Hcl Hal
  iframe Has Har Hkeep
  isplitl [Has_pay1]
  · iapply (Entails.of_eq (p40_sendPay9 d0 0)); iexact Has_pay1
  iapply (Entails.of_eq (p40_recvPay9 x w d0 0)); iexact Har_pay1

theorem part42 (c : Dev nD) (κl03 κs9 κr9 κl13 : ℕ) (d0 : Dev nD) (hd : d0 = c) (v19 v68 v118 : BitVec 32)
    (O : CellTallies nD τ sig Unit) (W : Waits sig Unit) :
    (iprop(cellInv (ER (F := F)) (cubeRd x w) κl03 (locCell c 0 3) ∗ cellInv (ER (F := F)) (cubeRd x w) κs9 (sendCell c 1 9) ∗ cellInv (ER (F := F)) (cubeRd x w) κr9 (recvCell c 1 9)
        ∗ cellInv (ER (F := F)) (cubeRd x w) κl13 (locCell c 1 3)
        ∗ locG (F := F) c 0 3 0 ∗ sendG (F := F) c 1 9 1 ∗ recvG (F := F) c 1 9 0 ∗ locG (F := F) c 1 3 0
        ∗ holdsW c 0 (sub1 0 c) 512 (hA 0 c) (gath x w 0)
        ∗ ownsOut (F := F) c 0 (sub1 0 c) (by have := inb_out 0 3 c; exact this)
        ∗ ownsOut (F := F) c 1 (sub1 1 c) (by have := inb_out 1 3 c; exact this)
        ∗ owes (c : Thread nD τ) O W
        ∗ MayWait (c : Thread nD τ) (.dma (ssem 1 9)) () O ∗ MayWait (c : Thread nD τ) (.dma (rsem 1 9)) () O) : sProp 𝕄)
      ⊢ wp frame (wpE (defs₀ (F := F)) Variants.none (c : Thread nD τ) none) Set.univ
          (withBufs (k0_part42 (F := F)) d0 v19 v68 v118)
          (fun _ => iprop(owes (c : Thread nD τ) O (insert (SemLoc.dma (rsem 1 9), ()) (insert (SemLoc.dma (ssem 1 9), ()) W))
            ∗ locG (F := F) c 0 3 1 ∗ sendG (F := F) c 1 9 2 ∗ recvG (F := F) c 1 9 1 ∗ locG (F := F) c 1 3 1
            ∗ partW c 0 (sub1 0 c) 512 (hA 0 c) keep3 (gath x w 0)
            ∗ lentW (F := F) c 1 (away1 1 c) 512 (hC 1 c) fullShare.left
            ∗ partW c 1 (sub1 1 c) 512 (hA 1 c) keep3 (gath x w 1))) := by
  subst hd
  simp only [locG, sendG, recvG]
  iintro ⟨#HIl0, #HIs, #HIr, #HIl1, ⟨Htok0, #Hreach0, Hal0⟩, ⟨Hcs, Has⟩, ⟨Hcr, Har⟩, ⟨Htok1, #Hreach1, Hal1⟩, HA, Hout0, Hout1, HO, #Hms, #Hmr⟩
  unfold withBufs; rw [k0_part42_eq_skeleton]; unfold k0_part42_skel
  ihave HA' := (p40_lend d0 0 (hA 0 d0) (gath x w 0)) $$ HA
  icases HA' with ⟨%f0, Hlsh0, %hf0, Hkeep0⟩
  sl_exec
  iapply (ev_local x w d0 0 3 (ho := Forms.off_3 d0) (ho' := Forms.off_64 d0) (hsem := rfl) f0 hf0) $$ [Hlsh0 Hout0 Htok0]
  · isplitr [Hlsh0 Hout0 Htok0]; · iexact HIl0
    isplitl [Hlsh0]; · iexact Hlsh0
    isplitl [Hout0]; · iexact Hout0
    isplitl [Htok0]; · iexact Htok0
    iexact Hreach0
  iintro Hcl0
  sl_exec
  ihave HA1 := (Entails.of_eq (p40_recvPay9 x w d0 1)) $$ Har_pay1
  ihave HA1' := (p40_lend d0 1 (hA 1 d0) (gath x w 1)) $$ HA1
  icases HA1' with ⟨%f1, Hlsh1, %hf1, Hkeep1⟩
  iapply (ev_local x w d0 1 3 (ho := Forms.off_6 d0) (ho' := Forms.off_65 d0) (hsem := rfl) f1 hf1) $$ [Hlsh1 Hout1 Htok1]
  · isplitr [Hlsh1 Hout1 Htok1]; · iexact HIl1
    isplitl [Hlsh1]; · iexact Hlsh1
    isplitl [Hout1]; · iexact Hout1
    isplitl [Htok1]; · iexact Htok1
    iexact Hreach1
  iintro Hcl1
  sl_exec
  sl_step
  isplitl [HO]; · iexact HO
  isplitl [Hcl0 Hal0]
  · iframe Hcl0 Hal0
  iframe Has Har
  isplitl [Hcl1 Hal1]
  · iframe Hcl1 Hal1
  iframe Hkeep0
  isplitl [Has_pay1]
  · iapply (Entails.of_eq (p40_sendPay9 d0 1)); iexact Has_pay1
  iexact Hkeep1

theorem part43 (c : Dev nD) (κs9 κr9 κl23 κl00 : ℕ) (d0 : Dev nD) (hd : d0 = c) (v33 v79 v148 : BitVec 32)
    (O : CellTallies nD τ sig Unit) (W : Waits sig Unit) :
    (iprop(cellInv (ER (F := F)) (cubeRd x w) κs9 (sendCell c 2 9) ∗ cellInv (ER (F := F)) (cubeRd x w) κr9 (recvCell c 2 9)
        ∗ cellInv (ER (F := F)) (cubeRd x w) κl23 (locCell c 2 3) ∗ cellInv (ER (F := F)) (cubeRd x w) κl00 (locCell c 0 0)
        ∗ sendG (F := F) c 2 9 1 ∗ recvG (F := F) c 2 9 0 ∗ locG (F := F) c 2 3 0 ∗ locG (F := F) c 0 0 1
        ∗ ownsOut (F := F) c 2 (sub1 2 c) (by have := inb_out 2 3 c; exact this)
        ∗ owes (c : Thread nD τ) O W
        ∗ MayWait (c : Thread nD τ) (.dma (ssem 2 9)) () O ∗ MayWait (c : Thread nD τ) (.dma (rsem 2 9)) () O
        ∗ MayWait (c : Thread nD τ) (.dma (lsem 0 0)) () O) : sProp 𝕄)
      ⊢ wp frame (wpE (defs₀ (F := F)) Variants.none (c : Thread nD τ) none) Set.univ
          (withBufs (k0_part43 (F := F)) d0 v33 v79 v148)
          (fun _ => iprop(owes (c : Thread nD τ) O (insert (SemLoc.dma (lsem 0 0), ()) (insert (SemLoc.dma (rsem 2 9), ()) (insert (SemLoc.dma (ssem 2 9), ()) W)))
            ∗ sendG (F := F) c 2 9 2 ∗ recvG (F := F) c 2 9 1 ∗ locG (F := F) c 2 3 1 ∗ locG (F := F) c 0 0 2
            ∗ lentW (F := F) c 2 (away1 2 c) 512 (hC 2 c) fullShare.left
            ∗ partW c 2 (sub1 2 c) 512 (hA 2 c) keep3 (gath x w 2)
            ∗ locPay x w c 0 0)) := by
  subst hd
  simp only [locG, sendG, recvG]
  iintro ⟨#HIs, #HIr, #HIl2, #HIl0, ⟨Hcs, Has⟩, ⟨Hcr, Har⟩, ⟨Htok, #Hreach, Hal⟩, ⟨Hcl0, Hal0⟩, Hout, HO, #Hms, #Hmr, #Hml⟩
  unfold withBufs; rw [k0_part43_eq_skeleton]; unfold k0_part43_skel
  sl_exec
  ihave HA := (Entails.of_eq (p40_recvPay9 x w d0 2)) $$ Har_pay1
  ihave HA' := (p40_lend d0 2 (hA 2 d0) (gath x w 2)) $$ HA
  icases HA' with ⟨%f, Hlsh, %hf, Hkeep⟩
  iapply (ev_local x w d0 2 3 (ho := Forms.off_9 d0) (ho' := Forms.off_66 d0) (hsem := rfl) f hf) $$ [Hlsh Hout Htok]
  · isplitr [Hlsh Hout Htok]; · iexact HIl2
    isplitl [Hlsh]; · iexact Hlsh
    isplitl [Hout]; · iexact Hout
    isplitl [Htok]; · iexact Htok
    iexact Hreach
  iintro Hcl
  sl_exec
  sl_step
  isplitl [HO]; · iexact HO
  isplitl [Has]; · iexact Has
  isplitl [Har]; · iexact Har
  isplitl [Hcl Hal]
  · iframe Hcl Hal
  iframe Hal0
  isplitl [Has_pay1]
  · iapply (Entails.of_eq (p40_sendPay9 d0 2)); iexact Has_pay1
  iframe Hkeep Hal0_pay1

theorem part44 (c : Dev nD) (κl01 κl02 κl03 κl10 κl11 κl12 : ℕ) (d0 : Dev nD) (hd : d0 = c)
    (O : CellTallies nD τ sig Unit) (W : Waits sig Unit) :
    (iprop(cellInv (ER (F := F)) (cubeRd x w) κl01 (locCell c 0 1)
        ∗ cellInv (ER (F := F)) (cubeRd x w) κl02 (locCell c 0 2)
        ∗ cellInv (ER (F := F)) (cubeRd x w) κl03 (locCell c 0 3)
        ∗ cellInv (ER (F := F)) (cubeRd x w) κl10 (locCell c 1 0)
        ∗ cellInv (ER (F := F)) (cubeRd x w) κl11 (locCell c 1 1)
        ∗ cellInv (ER (F := F)) (cubeRd x w) κl12 (locCell c 1 2)
        ∗ locG (F := F) c 0 1 1 ∗ locG (F := F) c 0 2 1 ∗ locG (F := F) c 0 3 1 ∗ locG (F := F) c 1 0 1 ∗ locG (F := F) c 1 1 1 ∗ locG (F := F) c 1 2 1
        ∗ owes (c : Thread nD τ) O W
        ∗ MayWait (c : Thread nD τ) (.dma (lsem 0 1)) () O
        ∗ MayWait (c : Thread nD τ) (.dma (lsem 0 2)) () O
        ∗ MayWait (c : Thread nD τ) (.dma (lsem 0 3)) () O
        ∗ MayWait (c : Thread nD τ) (.dma (lsem 1 0)) () O
        ∗ MayWait (c : Thread nD τ) (.dma (lsem 1 1)) () O
        ∗ MayWait (c : Thread nD τ) (.dma (lsem 1 2)) () O) : sProp 𝕄)
      ⊢ wp frame (wpE (defs₀ (F := F)) Variants.none (c : Thread nD τ) none) Set.univ
          (withBufs (k0_part44 (F := F)) d0)
          (fun _ => iprop(owes (c : Thread nD τ) O (insert (SemLoc.dma (lsem 1 2), ()) (insert (SemLoc.dma (lsem 1 1), ()) (insert (SemLoc.dma (lsem 1 0), ()) (insert (SemLoc.dma (lsem 0 3), ()) (insert (SemLoc.dma (lsem 0 2), ()) (insert (SemLoc.dma (lsem 0 1), ()) W))))))
            ∗ locG (F := F) c 0 1 2 ∗ locG (F := F) c 0 2 2 ∗ locG (F := F) c 0 3 2 ∗ locG (F := F) c 1 0 2 ∗ locG (F := F) c 1 1 2 ∗ locG (F := F) c 1 2 2
            ∗ locPay x w c 0 1 ∗ locPay x w c 0 2 ∗ locPay x w c 0 3 ∗ locPay x w c 1 0 ∗ locPay x w c 1 1 ∗ locPay x w c 1 2)) := by
  subst hd
  simp only [locG]
  iintro ⟨#HI01, #HI02, #HI03, #HI10, #HI11, #HI12, ⟨Hc01, Ha01⟩, ⟨Hc02, Ha02⟩, ⟨Hc03, Ha03⟩, ⟨Hc10, Ha10⟩, ⟨Hc11, Ha11⟩, ⟨Hc12, Ha12⟩, HO, #Hm01, #Hm02, #Hm03, #Hm10, #Hm11, #Hm12⟩
  unfold withBufs; rw [k0_part44_eq_skeleton]; unfold k0_part44_skel
  sl_exec
  sl_step
  isplitl [HO]; · iexact HO
  isplitl [Ha01]; · iexact Ha01
  isplitl [Ha02]; · iexact Ha02
  isplitl [Ha03]; · iexact Ha03
  isplitl [Ha10]; · iexact Ha10
  isplitl [Ha11]; · iexact Ha11
  isplitl [Ha12]; · iexact Ha12
  isplitl [Ha01_pay1]; · iexact Ha01_pay1
  isplitl [Ha02_pay1]; · iexact Ha02_pay1
  isplitl [Ha03_pay1]; · iexact Ha03_pay1
  isplitl [Ha10_pay1]; · iexact Ha10_pay1
  isplitl [Ha11_pay1]; · iexact Ha11_pay1
  iexact Ha12_pay1

end Cert.KernelIdeal.Body

end
-- ==== Proof.Body.lean ====
import proofs.«900802_g7700000000000803_dist_gemm_ar_m4096_k4096_n2048_f32_relu_v7x_i8_1_alg».proof.Proof.Launch
import proofs.«900802_g7700000000000803_dist_gemm_ar_m4096_k4096_n2048_f32_relu_v7x_i8_1_alg».proof.Proof.Part3
import proofs.«900802_g7700000000000803_dist_gemm_ar_m4096_k4096_n2048_f32_relu_v7x_i8_1_alg».proof.Proof.Ends
import proofs.«900802_g7700000000000803_dist_gemm_ar_m4096_k4096_n2048_f32_relu_v7x_i8_1_alg».proof.Proof.BodyTail
import proofs.«900802_g7700000000000803_dist_gemm_ar_m4096_k4096_n2048_f32_relu_v7x_i8_1_alg».proof.Proof.Parts5
import proofs.«900802_g7700000000000803_dist_gemm_ar_m4096_k4096_n2048_f32_relu_v7x_i8_1_alg».proof.Proof.Parts10
import proofs.«900802_g7700000000000803_dist_gemm_ar_m4096_k4096_n2048_f32_relu_v7x_i8_1_alg».proof.Proof.Parts15
import proofs.«900802_g7700000000000803_dist_gemm_ar_m4096_k4096_n2048_f32_relu_v7x_i8_1_alg».proof.Proof.Parts20
import proofs.«900802_g7700000000000803_dist_gemm_ar_m4096_k4096_n2048_f32_relu_v7x_i8_1_alg».proof.Proof.Parts25
import proofs.«900802_g7700000000000803_dist_gemm_ar_m4096_k4096_n2048_f32_relu_v7x_i8_1_alg».proof.Proof.Parts26x
import proofs.«900802_g7700000000000803_dist_gemm_ar_m4096_k4096_n2048_f32_relu_v7x_i8_1_alg».proof.Proof.Parts28x
import proofs.«900802_g7700000000000803_dist_gemm_ar_m4096_k4096_n2048_f32_relu_v7x_i8_1_alg».proof.Proof.Parts30
import proofs.«900802_g7700000000000803_dist_gemm_ar_m4096_k4096_n2048_f32_relu_v7x_i8_1_alg».proof.Proof.Parts35
import proofs.«900802_g7700000000000803_dist_gemm_ar_m4096_k4096_n2048_f32_relu_v7x_i8_1_alg».proof.Proof.Parts40

noncomputable section

namespace Cert.KernelIdeal.Body

open Cert.KernelIdeal Cert.KernelIdeal.Gen Cert.KernelIdeal.Spec Cert.KernelIdeal.Reg Cert.KernelIdeal.Proto
open Cert.KernelIdeal.Stages Cert.KernelIdeal.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (m : (ℓ : Loc nD τ sig) → Buf (Elt F) ℓ)

omit [FloatOps F] [Facts] in
theorem owed_start (c : Dev nD) : (Launch.O₀ c : CellTallies nD τ sig Unit) = Launch.owedOf c (Launch.pays.drop 3) + tallyAt (barCell (par 2 c)) () 1 + tallyAt (barCell (par 1 c)) () 1 + tallyAt (barCell (par 0 c)) () 1 := rfl
omit [FloatOps F] [Facts] in
/-- Paying the next copy takes its credit off what is owed. -/
theorem owed_copy (c : Dev nD) (n n' : ℕ) (p : Fin 3) (i : Fin 10) (h : Launch.pays.drop n = .copy p i :: Launch.pays.drop n') :
    (Launch.owedOf c (Launch.pays.drop n) : CellTallies nD τ sig Unit) = Launch.owedOf c (Launch.pays.drop n') + tallyAt (recvCell (peer p i c) p i) () (credOf p i) := by
  rw [h]; rfl
omit [FloatOps F] [Facts] in
theorem owed_end (c : Dev nD) : (Launch.owedOf c (Launch.pays.drop 33) : CellTallies nD τ sig Unit) = 0 := rfl

theorem sendG_intro (K : Dev nD × Launch.CIx → ℕ) (c : Dev nD) (p : Fin 3) (i : Fin 10) :
    (iprop(Launch.records m K ∗ dutyTok ER (sendCell c p i) 0 0 ∗ dutyTok ER (recvCell (peer p i c) p i) 0 0 ∗ atPos ER (sendCell c p i) 0 ∅ 0) : sProp 𝕄)
      ⊢ sendG (F := F) c p i 0 := by
  show _ ⊢ iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0)
  iintro ⟨#HR, H1, H2, H3⟩
  ihave #Hr1 := (Launch.reached_send m K c p i) $$ HR
  ihave #Hr2 := (Launch.reached_recv m K (peer p i c) p i) $$ HR
  iframe H1 Hr1 H2 Hr2 H3

theorem locG_intro (K : Dev nD × Launch.CIx → ℕ) (c : Dev nD) (p : Fin 3) (j : Fin 4) :
    (iprop(Launch.records m K ∗ dutyTok ER (locCell c p j) 0 0 ∗ atPos ER (locCell c p j) 0 ∅ 0) : sProp 𝕄)
      ⊢ locG (F := F) c p j 0 := by
  show _ ⊢ iprop(dutyTok ER (locCell c p j) 0 0 ∗ reached ER (locCell c p j) 0 ∗ atPos ER (locCell c p j) 0 ∅ 0)
  iintro ⟨#HR, H1, H2⟩
  ihave #Hr1 := (Launch.reached_loc m K c p j) $$ HR
  iframe H1 Hr1 H2

theorem recvG_intro (c : Dev nD) (p : Fin 3) (i : Fin 10) :
    (iprop(cred (tallyAt (recvCell c p i) () (credOf p i)) ∗ atPos ER (recvCell c p i) 0 ∅ 0) : sProp 𝕄) ⊢ recvG (F := F) c p i 0 :=
  Entails.rfl

omit [Facts] in
theorem payToks_eq (c : Dev nD) : (Launch.payToks (F := F) c : sProp 𝕄)
    = iprop((dutyTok ER (barCell (par 0 c)) 0 (0 : Fin 3) ∗ dutyTok ER (barCell (par 1 c)) 0 (1 : Fin 3) ∗ dutyTok ER (barCell (par 2 c)) 0 (2 : Fin 3))
      ∗ ((dutyTok ER (sendCell c 0 0) 0 0 ∗ dutyTok ER (recvCell (peer 0 0 c) 0 0) 0 0)
        ∗ (dutyTok ER (sendCell c 1 0) 0 0 ∗ dutyTok ER (recvCell (peer 1 0 c) 1 0) 0 0)
        ∗ (dutyTok ER (sendCell c 2 0) 0 0 ∗ dutyTok ER (recvCell (peer 2 0 c) 2 0) 0 0)
        ∗ (dutyTok ER (sendCell c 0 1) 0 0 ∗ dutyTok ER (recvCell (peer 0 1 c) 0 1) 0 0)
        ∗ (dutyTok ER (sendCell c 1 1) 0 0 ∗ dutyTok ER (recvCell (peer 1 1 c) 1 1) 0 0)
        ∗ (dutyTok ER (sendCell c 2 1) 0 0 ∗ dutyTok ER (recvCell (peer 2 1 c) 2 1) 0 0)
        ∗ (dutyTok ER (sendCell c 0 2) 0 0 ∗ dutyTok ER (recvCell (peer 0 2 c) 0 2) 0 0)
        ∗ (dutyTok ER (sendCell c 1 2) 0 0 ∗ dutyTok ER (recvCell (peer 1 2 c) 1 2) 0 0)
        ∗ (dutyTok ER (sendCell c 2 2) 0 0 ∗ dutyTok ER (recvCell (peer 2 2 c) 2 2) 0 0)
        ∗ (dutyTok ER (sendCell c 0 3) 0 0 ∗ dutyTok ER (recvCell (peer 0 3 c) 0 3) 0 0)
        ∗ (dutyTok ER (sendCell c 1 3) 0 0 ∗ dutyTok ER (recvCell (peer 1 3 c) 1 3) 0 0)
        ∗ (dutyTok ER (sendCell c 2 3) 0 0 ∗ dutyTok ER (recvCell (peer 2 3 c) 2 3) 0 0)
        ∗ (dutyTok ER (sendCell c 0 4) 0 0 ∗ dutyTok ER (recvCell (peer 0 4 c) 0 4) 0 0)
        ∗ (dutyTok ER (sendCell c 0 5) 0 0 ∗ dutyTok ER (recvCell (peer 0 5 c) 0 5) 0 0)
        ∗ (dutyTok ER (sendCell c 0 6) 0 0 ∗ dutyTok ER (recvCell (peer 0 6 c) 0 6) 0 0)
        ∗ (dutyTok ER (sendCell c 1 4) 0 0 ∗ dutyTok ER (recvCell (peer 1 4 c) 1 4) 0 0)
        ∗ (dutyTok ER (sendCell c 1 5) 0 0 ∗ dutyTok ER (recvCell (peer 1 5 c) 1 5) 0 0)
        ∗ (dutyTok ER (sendCell c 1 6) 0 0 ∗ dutyTok ER (recvCell (peer 1 6 c) 1 6) 0 0)
        ∗ (dutyTok ER (sendCell c 2 4) 0 0 ∗ dutyTok ER (recvCell (peer 2 4 c) 2 4) 0 0)
        ∗ (dutyTok ER (sendCell c 2 5) 0 0 ∗ dutyTok ER (recvCell (peer 2 5 c) 2 5) 0 0)
        ∗ (dutyTok ER (sendCell c 2 6) 0 0 ∗ dutyTok ER (recvCell (peer 2 6 c) 2 6) 0 0)
        ∗ (dutyTok ER (sendCell c 0 7) 0 0 ∗ dutyTok ER (recvCell (peer 0 7 c) 0 7) 0 0)
        ∗ (dutyTok ER (sendCell c 0 8) 0 0 ∗ dutyTok ER (recvCell (peer 0 8 c) 0 8) 0 0)
        ∗ (dutyTok ER (sendCell c 1 7) 0 0 ∗ dutyTok ER (recvCell (peer 1 7 c) 1 7) 0 0)
        ∗ (dutyTok ER (sendCell c 1 8) 0 0 ∗ dutyTok ER (recvCell (peer 1 8 c) 1 8) 0 0)
        ∗ (dutyTok ER (sendCell c 2 7) 0 0 ∗ dutyTok ER (recvCell (peer 2 7 c) 2 7) 0 0)
        ∗ (dutyTok ER (sendCell c 2 8) 0 0 ∗ dutyTok ER (recvCell (peer 2 8 c) 2 8) 0 0)
        ∗ (dutyTok ER (sendCell c 0 9) 0 0 ∗ dutyTok ER (recvCell (peer 0 9 c) 0 9) 0 0)
        ∗ (dutyTok ER (sendCell c 1 9) 0 0 ∗ dutyTok ER (recvCell (peer 1 9 c) 1 9) 0 0)
        ∗ (dutyTok ER (sendCell c 2 9) 0 0 ∗ dutyTok ER (recvCell (peer 2 9 c) 2 9) 0 0))
      ∗ (dutyTok ER (locCell c 0 0) 0 0 ∗ dutyTok ER (locCell c 1 0) 0 0 ∗ dutyTok ER (locCell c 2 0) 0 0 ∗ dutyTok ER (locCell c 0 1) 0 0 ∗ dutyTok ER (locCell c 1 1) 0 0 ∗ dutyTok ER (locCell c 2 1) 0 0 ∗ dutyTok ER (locCell c 0 2) 0 0 ∗ dutyTok ER (locCell c 1 2) 0 0 ∗ dutyTok ER (locCell c 2 2) 0 0 ∗ dutyTok ER (locCell c 0 3) 0 0 ∗ dutyTok ER (locCell c 1 3) 0 0 ∗ dutyTok ER (locCell c 2 3) 0 0)) := rfl

omit [Facts] in
theorem waitRes_eq (c : Dev nD) : (Launch.waitRes (F := F) c : sProp 𝕄)
    = iprop((atPos ER (barCell c) 0 ∅ 0 ∗ cred (tallyAt (barCell c) () 3))
      ∗ ((atPos ER (sendCell c 0 0) 0 ∅ 0 ∗ atPos ER (recvCell c 0 0) 0 ∅ 0 ∗ cred (tallyAt (recvCell c 0 0) () (credOf 0 0)))
        ∗ (atPos ER (sendCell c 1 0) 0 ∅ 0 ∗ atPos ER (recvCell c 1 0) 0 ∅ 0 ∗ cred (tallyAt (recvCell c 1 0) () (credOf 1 0)))
        ∗ (atPos ER (sendCell c 2 0) 0 ∅ 0 ∗ atPos ER (recvCell c 2 0) 0 ∅ 0 ∗ cred (tallyAt (recvCell c 2 0) () (credOf 2 0)))
        ∗ (atPos ER (sendCell c 0 1) 0 ∅ 0 ∗ atPos ER (recvCell c 0 1) 0 ∅ 0 ∗ cred (tallyAt (recvCell c 0 1) () (credOf 0 1)))
        ∗ (atPos ER (sendCell c 0 2) 0 ∅ 0 ∗ atPos ER (recvCell c 0 2) 0 ∅ 0 ∗ cred (tallyAt (recvCell c 0 2) () (credOf 0 2)))
        ∗ (atPos ER (sendCell c 1 1) 0 ∅ 0 ∗ atPos ER (recvCell c 1 1) 0 ∅ 0 ∗ cred (tallyAt (recvCell c 1 1) () (credOf 1 1)))
        ∗ (atPos ER (sendCell c 1 2) 0 ∅ 0 ∗ atPos ER (recvCell c 1 2) 0 ∅ 0 ∗ cred (tallyAt (recvCell c 1 2) () (credOf 1 2)))
        ∗ (atPos ER (sendCell c 2 1) 0 ∅ 0 ∗ atPos ER (recvCell c 2 1) 0 ∅ 0 ∗ cred (tallyAt (recvCell c 2 1) () (credOf 2 1)))
        ∗ (atPos ER (sendCell c 2 2) 0 ∅ 0 ∗ atPos ER (recvCell c 2 2) 0 ∅ 0 ∗ cred (tallyAt (recvCell c 2 2) () (credOf 2 2)))
        ∗ (atPos ER (sendCell c 0 3) 0 ∅ 0 ∗ atPos ER (recvCell c 0 3) 0 ∅ 0 ∗ cred (tallyAt (recvCell c 0 3) () (credOf 0 3)))
        ∗ (atPos ER (sendCell c 1 3) 0 ∅ 0 ∗ atPos ER (recvCell c 1 3) 0 ∅ 0 ∗ cred (tallyAt (recvCell c 1 3) () (credOf 1 3)))
        ∗ (atPos ER (sendCell c 2 3) 0 ∅ 0 ∗ atPos ER (recvCell c 2 3) 0 ∅ 0 ∗ cred (tallyAt (recvCell c 2 3) () (credOf 2 3)))
        ∗ (atPos ER (sendCell c 0 4) 0 ∅ 0 ∗ atPos ER (recvCell c 0 4) 0 ∅ 0 ∗ cred (tallyAt (recvCell c 0 4) () (credOf 0 4)))
        ∗ (atPos ER (sendCell c 1 4) 0 ∅ 0 ∗ atPos ER (recvCell c 1 4) 0 ∅ 0 ∗ cred (tallyAt (recvCell c 1 4) () (credOf 1 4)))
        ∗ (atPos ER (sendCell c 2 4) 0 ∅ 0 ∗ atPos ER (recvCell c 2 4) 0 ∅ 0 ∗ cred (tallyAt (recvCell c 2 4) () (credOf 2 4)))
        ∗ (atPos ER (sendCell c 0 5) 0 ∅ 0 ∗ atPos ER (recvCell c 0 5) 0 ∅ 0 ∗ cred (tallyAt (recvCell c 0 5) () (credOf 0 5)))
        ∗ (atPos ER (sendCell c 0 7) 0 ∅ 0 ∗ atPos ER (recvCell c 0 7) 0 ∅ 0 ∗ cred (tallyAt (recvCell c 0 7) () (credOf 0 7)))
        ∗ (atPos ER (sendCell c 1 5) 0 ∅ 0 ∗ atPos ER (recvCell c 1 5) 0 ∅ 0 ∗ cred (tallyAt (recvCell c 1 5) () (credOf 1 5)))
        ∗ (atPos ER (sendCell c 1 7) 0 ∅ 0 ∗ atPos ER (recvCell c 1 7) 0 ∅ 0 ∗ cred (tallyAt (recvCell c 1 7) () (credOf 1 7)))
        ∗ (atPos ER (sendCell c 2 5) 0 ∅ 0 ∗ atPos ER (recvCell c 2 5) 0 ∅ 0 ∗ cred (tallyAt (recvCell c 2 5) () (credOf 2 5)))
        ∗ (atPos ER (sendCell c 2 7) 0 ∅ 0 ∗ atPos ER (recvCell c 2 7) 0 ∅ 0 ∗ cred (tallyAt (recvCell c 2 7) () (credOf 2 7)))
        ∗ (atPos ER (sendCell c 0 6) 0 ∅ 0 ∗ atPos ER (recvCell c 0 6) 0 ∅ 0 ∗ cred (tallyAt (recvCell c 0 6) () (credOf 0 6)))
        ∗ (atPos ER (sendCell c 0 8) 0 ∅ 0 ∗ atPos ER (recvCell c 0 8) 0 ∅ 0 ∗ cred (tallyAt (recvCell c 0 8) () (credOf 0 8)))
        ∗ (atPos ER (sendCell c 1 6) 0 ∅ 0 ∗ atPos ER (recvCell c 1 6) 0 ∅ 0 ∗ cred (tallyAt (recvCell c 1 6) () (credOf 1 6)))
        ∗ (atPos ER (sendCell c 1 8) 0 ∅ 0 ∗ atPos ER (recvCell c 1 8) 0 ∅ 0 ∗ cred (tallyAt (recvCell c 1 8) () (credOf 1 8)))
        ∗ (atPos ER (sendCell c 2 6) 0 ∅ 0 ∗ atPos ER (recvCell c 2 6) 0 ∅ 0 ∗ cred (tallyAt (recvCell c 2 6) () (credOf 2 6)))
        ∗ (atPos ER (sendCell c 2 8) 0 ∅ 0 ∗ atPos ER (recvCell c 2 8) 0 ∅ 0 ∗ cred (tallyAt (recvCell c 2 8) () (credOf 2 8)))
        ∗ (atPos ER (sendCell c 0 9) 0 ∅ 0 ∗ atPos ER (recvCell c 0 9) 0 ∅ 0 ∗ cred (tallyAt (recvCell c 0 9) () (credOf 0 9)))
        ∗ (atPos ER (sendCell c 1 9) 0 ∅ 0 ∗ atPos ER (recvCell c 1 9) 0 ∅ 0 ∗ cred (tallyAt (recvCell c 1 9) () (credOf 1 9)))
        ∗ (atPos ER (sendCell c 2 9) 0 ∅ 0 ∗ atPos ER (recvCell c 2 9) 0 ∅ 0 ∗ cred (tallyAt (recvCell c 2 9) () (credOf 2 9))))
      ∗ (atPos ER (locCell c 0 0) 0 ∅ 0 ∗ atPos ER (locCell c 0 1) 0 ∅ 0 ∗ atPos ER (locCell c 0 2) 0 ∅ 0 ∗ atPos ER (locCell c 0 3) 0 ∅ 0 ∗ atPos ER (locCell c 1 0) 0 ∅ 0 ∗ atPos ER (locCell c 1 1) 0 ∅ 0 ∗ atPos ER (locCell c 1 2) 0 ∅ 0 ∗ atPos ER (locCell c 1 3) 0 ∅ 0 ∗ atPos ER (locCell c 2 0) 0 ∅ 0 ∗ atPos ER (locCell c 2 1) 0 ∅ 0 ∗ atPos ER (locCell c 2 2) 0 ∅ 0 ∗ atPos ER (locCell c 2 3) 0 ∅ 0)) := rfl

/-- What the launch hands over, sorted copy by copy: each copy's tokens, positions and credit. -/
theorem open_ghost (K : Dev nD × Launch.CIx → ℕ) (c : Dev nD) :
    (iprop(Launch.records m K ∗ Launch.payToks c ∗ Launch.waitRes c) : sProp 𝕄)
      ⊢ iprop(dutyTok (ER (F := F)) (barCell (par 0 c)) 0 (0 : Fin 3)
        ∗ dutyTok (ER (F := F)) (barCell (par 1 c)) 0 (1 : Fin 3)
        ∗ dutyTok (ER (F := F)) (barCell (par 2 c)) 0 (2 : Fin 3)
        ∗ atPos (ER (F := F)) (barCell c) 0 ∅ 0
        ∗ cred (tallyAt (barCell c) () 3)
        ∗ sendG (F := F) c 0 0 0
        ∗ recvG (F := F) c 0 0 0
        ∗ sendG (F := F) c 0 1 0
        ∗ recvG (F := F) c 0 1 0
        ∗ sendG (F := F) c 0 2 0
        ∗ recvG (F := F) c 0 2 0
        ∗ sendG (F := F) c 0 3 0
        ∗ recvG (F := F) c 0 3 0
        ∗ sendG (F := F) c 0 4 0
        ∗ recvG (F := F) c 0 4 0
        ∗ sendG (F := F) c 0 5 0
        ∗ recvG (F := F) c 0 5 0
        ∗ sendG (F := F) c 0 6 0
        ∗ recvG (F := F) c 0 6 0
        ∗ sendG (F := F) c 0 7 0
        ∗ recvG (F := F) c 0 7 0
        ∗ sendG (F := F) c 0 8 0
        ∗ recvG (F := F) c 0 8 0
        ∗ sendG (F := F) c 0 9 0
        ∗ recvG (F := F) c 0 9 0
        ∗ sendG (F := F) c 1 0 0
        ∗ recvG (F := F) c 1 0 0
        ∗ sendG (F := F) c 1 1 0
        ∗ recvG (F := F) c 1 1 0
        ∗ sendG (F := F) c 1 2 0
        ∗ recvG (F := F) c 1 2 0
        ∗ sendG (F := F) c 1 3 0
        ∗ recvG (F := F) c 1 3 0
        ∗ sendG (F := F) c 1 4 0
        ∗ recvG (F := F) c 1 4 0
        ∗ sendG (F := F) c 1 5 0
        ∗ recvG (F := F) c 1 5 0
        ∗ sendG (F := F) c 1 6 0
        ∗ recvG (F := F) c 1 6 0
        ∗ sendG (F := F) c 1 7 0
        ∗ recvG (F := F) c 1 7 0
        ∗ sendG (F := F) c 1 8 0
        ∗ recvG (F := F) c 1 8 0
        ∗ sendG (F := F) c 1 9 0
        ∗ recvG (F := F) c 1 9 0
        ∗ sendG (F := F) c 2 0 0
        ∗ recvG (F := F) c 2 0 0
        ∗ sendG (F := F) c 2 1 0
        ∗ recvG (F := F) c 2 1 0
        ∗ sendG (F := F) c 2 2 0
        ∗ recvG (F := F) c 2 2 0
        ∗ sendG (F := F) c 2 3 0
        ∗ recvG (F := F) c 2 3 0
        ∗ sendG (F := F) c 2 4 0
        ∗ recvG (F := F) c 2 4 0
        ∗ sendG (F := F) c 2 5 0
        ∗ recvG (F := F) c 2 5 0
        ∗ sendG (F := F) c 2 6 0
        ∗ recvG (F := F) c 2 6 0
        ∗ sendG (F := F) c 2 7 0
        ∗ recvG (F := F) c 2 7 0
        ∗ sendG (F := F) c 2 8 0
        ∗ recvG (F := F) c 2 8 0
        ∗ sendG (F := F) c 2 9 0
        ∗ recvG (F := F) c 2 9 0
        ∗ locG (F := F) c 0 0 0
        ∗ locG (F := F) c 0 1 0
        ∗ locG (F := F) c 0 2 0
        ∗ locG (F := F) c 0 3 0
        ∗ locG (F := F) c 1 0 0
        ∗ locG (F := F) c 1 1 0
        ∗ locG (F := F) c 1 2 0
        ∗ locG (F := F) c 1 3 0
        ∗ locG (F := F) c 2 0 0
        ∗ locG (F := F) c 2 1 0
        ∗ locG (F := F) c 2 2 0
        ∗ locG (F := F) c 2 3 0) := by
  rw [payToks_eq, waitRes_eq]
  iintro ⟨#HR, ⟨⟨Htb0, Htb1, Htb2⟩, ⟨⟨Hts_0_0, Htr_0_0⟩, ⟨Hts_1_0, Htr_1_0⟩, ⟨Hts_2_0, Htr_2_0⟩, ⟨Hts_0_1, Htr_0_1⟩, ⟨Hts_1_1, Htr_1_1⟩, ⟨Hts_2_1, Htr_2_1⟩, ⟨Hts_0_2, Htr_0_2⟩, ⟨Hts_1_2, Htr_1_2⟩, ⟨Hts_2_2, Htr_2_2⟩, ⟨Hts_0_3, Htr_0_3⟩, ⟨Hts_1_3, Htr_1_3⟩, ⟨Hts_2_3, Htr_2_3⟩, ⟨Hts_0_4, Htr_0_4⟩, ⟨Hts_0_5, Htr_0_5⟩, ⟨Hts_0_6, Htr_0_6⟩, ⟨Hts_1_4, Htr_1_4⟩, ⟨Hts_1_5, Htr_1_5⟩, ⟨Hts_1_6, Htr_1_6⟩, ⟨Hts_2_4, Htr_2_4⟩, ⟨Hts_2_5, Htr_2_5⟩, ⟨Hts_2_6, Htr_2_6⟩, ⟨Hts_0_7, Htr_0_7⟩, ⟨Hts_0_8, Htr_0_8⟩, ⟨Hts_1_7, Htr_1_7⟩, ⟨Hts_1_8, Htr_1_8⟩, ⟨Hts_2_7, Htr_2_7⟩, ⟨Hts_2_8, Htr_2_8⟩, ⟨Hts_0_9, Htr_0_9⟩, ⟨Hts_1_9, Htr_1_9⟩, ⟨Hts_2_9, Htr_2_9⟩⟩, ⟨Htl_0_0, Htl_1_0, Htl_2_0, Htl_0_1, Htl_1_1, Htl_2_1, Htl_0_2, Htl_1_2, Htl_2_2, Htl_0_3, Htl_1_3, Htl_2_3⟩⟩, ⟨⟨Hatb, Hcrb⟩, ⟨⟨Has_0_0, Har_0_0, Hcr_0_0⟩, ⟨Has_1_0, Har_1_0, Hcr_1_0⟩, ⟨Has_2_0, Har_2_0, Hcr_2_0⟩, ⟨Has_0_1, Har_0_1, Hcr_0_1⟩, ⟨Has_0_2, Har_0_2, Hcr_0_2⟩, ⟨Has_1_1, Har_1_1, Hcr_1_1⟩, ⟨Has_1_2, Har_1_2, Hcr_1_2⟩, ⟨Has_2_1, Har_2_1, Hcr_2_1⟩, ⟨Has_2_2, Har_2_2, Hcr_2_2⟩, ⟨Has_0_3, Har_0_3, Hcr_0_3⟩, ⟨Has_1_3, Har_1_3, Hcr_1_3⟩, ⟨Has_2_3, Har_2_3, Hcr_2_3⟩, ⟨Has_0_4, Har_0_4, Hcr_0_4⟩, ⟨Has_1_4, Har_1_4, Hcr_1_4⟩, ⟨Has_2_4, Har_2_4, Hcr_2_4⟩, ⟨Has_0_5, Har_0_5, Hcr_0_5⟩, ⟨Has_0_7, Har_0_7, Hcr_0_7⟩, ⟨Has_1_5, Har_1_5, Hcr_1_5⟩, ⟨Has_1_7, Har_1_7, Hcr_1_7⟩, ⟨Has_2_5, Har_2_5, Hcr_2_5⟩, ⟨Has_2_7, Har_2_7, Hcr_2_7⟩, ⟨Has_0_6, Har_0_6, Hcr_0_6⟩, ⟨Has_0_8, Har_0_8, Hcr_0_8⟩, ⟨Has_1_6, Har_1_6, Hcr_1_6⟩, ⟨Has_1_8, Har_1_8, Hcr_1_8⟩, ⟨Has_2_6, Har_2_6, Hcr_2_6⟩, ⟨Has_2_8, Har_2_8, Hcr_2_8⟩, ⟨Has_0_9, Har_0_9, Hcr_0_9⟩, ⟨Has_1_9, Har_1_9, Hcr_1_9⟩, ⟨Has_2_9, Har_2_9, Hcr_2_9⟩⟩, ⟨Hal_0_0, Hal_0_1, Hal_0_2, Hal_0_3, Hal_1_0, Hal_1_1, Hal_1_2, Hal_1_3, Hal_2_0, Hal_2_1, Hal_2_2, Hal_2_3⟩⟩⟩
  iframe Htb0 Htb1 Htb2 Hatb Hcrb
  isplitl [Hts_0_0 Htr_0_0 Has_0_0]
  · iapply (sendG_intro m K c 0 0); isplitr; · iexact HR
    iframe Hts_0_0 Htr_0_0 Has_0_0
  isplitl [Hcr_0_0 Har_0_0]
  · iapply (recvG_intro (F := F) c 0 0)
    iframe Hcr_0_0 Har_0_0
  isplitl [Hts_0_1 Htr_0_1 Has_0_1]
  · iapply (sendG_intro m K c 0 1); isplitr; · iexact HR
    iframe Hts_0_1 Htr_0_1 Has_0_1
  isplitl [Hcr_0_1 Har_0_1]
  · iapply (recvG_intro (F := F) c 0 1)
    iframe Hcr_0_1 Har_0_1
  isplitl [Hts_0_2 Htr_0_2 Has_0_2]
  · iapply (sendG_intro m K c 0 2); isplitr; · iexact HR
    iframe Hts_0_2 Htr_0_2 Has_0_2
  isplitl [Hcr_0_2 Har_0_2]
  · iapply (recvG_intro (F := F) c 0 2)
    iframe Hcr_0_2 Har_0_2
  isplitl [Hts_0_3 Htr_0_3 Has_0_3]
  · iapply (sendG_intro m K c 0 3); isplitr; · iexact HR
    iframe Hts_0_3 Htr_0_3 Has_0_3
  isplitl [Hcr_0_3 Har_0_3]
  · iapply (recvG_intro (F := F) c 0 3)
    iframe Hcr_0_3 Har_0_3
  isplitl [Hts_0_4 Htr_0_4 Has_0_4]
  · iapply (sendG_intro m K c 0 4); isplitr; · iexact HR
    iframe Hts_0_4 Htr_0_4 Has_0_4
  isplitl [Hcr_0_4 Har_0_4]
  · iapply (recvG_intro (F := F) c 0 4)
    iframe Hcr_0_4 Har_0_4
  isplitl [Hts_0_5 Htr_0_5 Has_0_5]
  · iapply (sendG_intro m K c 0 5); isplitr; · iexact HR
    iframe Hts_0_5 Htr_0_5 Has_0_5
  isplitl [Hcr_0_5 Har_0_5]
  · iapply (recvG_intro (F := F) c 0 5)
    iframe Hcr_0_5 Har_0_5
  isplitl [Hts_0_6 Htr_0_6 Has_0_6]
  · iapply (sendG_intro m K c 0 6); isplitr; · iexact HR
    iframe Hts_0_6 Htr_0_6 Has_0_6
  isplitl [Hcr_0_6 Har_0_6]
  · iapply (recvG_intro (F := F) c 0 6)
    iframe Hcr_0_6 Har_0_6
  isplitl [Hts_0_7 Htr_0_7 Has_0_7]
  · iapply (sendG_intro m K c 0 7); isplitr; · iexact HR
    iframe Hts_0_7 Htr_0_7 Has_0_7
  isplitl [Hcr_0_7 Har_0_7]
  · iapply (recvG_intro (F := F) c 0 7)
    iframe Hcr_0_7 Har_0_7
  isplitl [Hts_0_8 Htr_0_8 Has_0_8]
  · iapply (sendG_intro m K c 0 8); isplitr; · iexact HR
    iframe Hts_0_8 Htr_0_8 Has_0_8
  isplitl [Hcr_0_8 Har_0_8]
  · iapply (recvG_intro (F := F) c 0 8)
    iframe Hcr_0_8 Har_0_8
  isplitl [Hts_0_9 Htr_0_9 Has_0_9]
  · iapply (sendG_intro m K c 0 9); isplitr; · iexact HR
    iframe Hts_0_9 Htr_0_9 Has_0_9
  isplitl [Hcr_0_9 Har_0_9]
  · iapply (recvG_intro (F := F) c 0 9)
    iframe Hcr_0_9 Har_0_9
  isplitl [Hts_1_0 Htr_1_0 Has_1_0]
  · iapply (sendG_intro m K c 1 0); isplitr; · iexact HR
    iframe Hts_1_0 Htr_1_0 Has_1_0
  isplitl [Hcr_1_0 Har_1_0]
  · iapply (recvG_intro (F := F) c 1 0)
    iframe Hcr_1_0 Har_1_0
  isplitl [Hts_1_1 Htr_1_1 Has_1_1]
  · iapply (sendG_intro m K c 1 1); isplitr; · iexact HR
    iframe Hts_1_1 Htr_1_1 Has_1_1
  isplitl [Hcr_1_1 Har_1_1]
  · iapply (recvG_intro (F := F) c 1 1)
    iframe Hcr_1_1 Har_1_1
  isplitl [Hts_1_2 Htr_1_2 Has_1_2]
  · iapply (sendG_intro m K c 1 2); isplitr; · iexact HR
    iframe Hts_1_2 Htr_1_2 Has_1_2
  isplitl [Hcr_1_2 Har_1_2]
  · iapply (recvG_intro (F := F) c 1 2)
    iframe Hcr_1_2 Har_1_2
  isplitl [Hts_1_3 Htr_1_3 Has_1_3]
  · iapply (sendG_intro m K c 1 3); isplitr; · iexact HR
    iframe Hts_1_3 Htr_1_3 Has_1_3
  isplitl [Hcr_1_3 Har_1_3]
  · iapply (recvG_intro (F := F) c 1 3)
    iframe Hcr_1_3 Har_1_3
  isplitl [Hts_1_4 Htr_1_4 Has_1_4]
  · iapply (sendG_intro m K c 1 4); isplitr; · iexact HR
    iframe Hts_1_4 Htr_1_4 Has_1_4
  isplitl [Hcr_1_4 Har_1_4]
  · iapply (recvG_intro (F := F) c 1 4)
    iframe Hcr_1_4 Har_1_4
  isplitl [Hts_1_5 Htr_1_5 Has_1_5]
  · iapply (sendG_intro m K c 1 5); isplitr; · iexact HR
    iframe Hts_1_5 Htr_1_5 Has_1_5
  isplitl [Hcr_1_5 Har_1_5]
  · iapply (recvG_intro (F := F) c 1 5)
    iframe Hcr_1_5 Har_1_5
  isplitl [Hts_1_6 Htr_1_6 Has_1_6]
  · iapply (sendG_intro m K c 1 6); isplitr; · iexact HR
    iframe Hts_1_6 Htr_1_6 Has_1_6
  isplitl [Hcr_1_6 Har_1_6]
  · iapply (recvG_intro (F := F) c 1 6)
    iframe Hcr_1_6 Har_1_6
  isplitl [Hts_1_7 Htr_1_7 Has_1_7]
  · iapply (sendG_intro m K c 1 7); isplitr; · iexact HR
    iframe Hts_1_7 Htr_1_7 Has_1_7
  isplitl [Hcr_1_7 Har_1_7]
  · iapply (recvG_intro (F := F) c 1 7)
    iframe Hcr_1_7 Har_1_7
  isplitl [Hts_1_8 Htr_1_8 Has_1_8]
  · iapply (sendG_intro m K c 1 8); isplitr; · iexact HR
    iframe Hts_1_8 Htr_1_8 Has_1_8
  isplitl [Hcr_1_8 Har_1_8]
  · iapply (recvG_intro (F := F) c 1 8)
    iframe Hcr_1_8 Har_1_8
  isplitl [Hts_1_9 Htr_1_9 Has_1_9]
  · iapply (sendG_intro m K c 1 9); isplitr; · iexact HR
    iframe Hts_1_9 Htr_1_9 Has_1_9
  isplitl [Hcr_1_9 Har_1_9]
  · iapply (recvG_intro (F := F) c 1 9)
    iframe Hcr_1_9 Har_1_9
  isplitl [Hts_2_0 Htr_2_0 Has_2_0]
  · iapply (sendG_intro m K c 2 0); isplitr; · iexact HR
    iframe Hts_2_0 Htr_2_0 Has_2_0
  isplitl [Hcr_2_0 Har_2_0]
  · iapply (recvG_intro (F := F) c 2 0)
    iframe Hcr_2_0 Har_2_0
  isplitl [Hts_2_1 Htr_2_1 Has_2_1]
  · iapply (sendG_intro m K c 2 1); isplitr; · iexact HR
    iframe Hts_2_1 Htr_2_1 Has_2_1
  isplitl [Hcr_2_1 Har_2_1]
  · iapply (recvG_intro (F := F) c 2 1)
    iframe Hcr_2_1 Har_2_1
  isplitl [Hts_2_2 Htr_2_2 Has_2_2]
  · iapply (sendG_intro m K c 2 2); isplitr; · iexact HR
    iframe Hts_2_2 Htr_2_2 Has_2_2
  isplitl [Hcr_2_2 Har_2_2]
  · iapply (recvG_intro (F := F) c 2 2)
    iframe Hcr_2_2 Har_2_2
  isplitl [Hts_2_3 Htr_2_3 Has_2_3]
  · iapply (sendG_intro m K c 2 3); isplitr; · iexact HR
    iframe Hts_2_3 Htr_2_3 Has_2_3
  isplitl [Hcr_2_3 Har_2_3]
  · iapply (recvG_intro (F := F) c 2 3)
    iframe Hcr_2_3 Har_2_3
  isplitl [Hts_2_4 Htr_2_4 Has_2_4]
  · iapply (sendG_intro m K c 2 4); isplitr; · iexact HR
    iframe Hts_2_4 Htr_2_4 Has_2_4
  isplitl [Hcr_2_4 Har_2_4]
  · iapply (recvG_intro (F := F) c 2 4)
    iframe Hcr_2_4 Har_2_4
  isplitl [Hts_2_5 Htr_2_5 Has_2_5]
  · iapply (sendG_intro m K c 2 5); isplitr; · iexact HR
    iframe Hts_2_5 Htr_2_5 Has_2_5
  isplitl [Hcr_2_5 Har_2_5]
  · iapply (recvG_intro (F := F) c 2 5)
    iframe Hcr_2_5 Har_2_5
  isplitl [Hts_2_6 Htr_2_6 Has_2_6]
  · iapply (sendG_intro m K c 2 6); isplitr; · iexact HR
    iframe Hts_2_6 Htr_2_6 Has_2_6
  isplitl [Hcr_2_6 Har_2_6]
  · iapply (recvG_intro (F := F) c 2 6)
    iframe Hcr_2_6 Har_2_6
  isplitl [Hts_2_7 Htr_2_7 Has_2_7]
  · iapply (sendG_intro m K c 2 7); isplitr; · iexact HR
    iframe Hts_2_7 Htr_2_7 Has_2_7
  isplitl [Hcr_2_7 Har_2_7]
  · iapply (recvG_intro (F := F) c 2 7)
    iframe Hcr_2_7 Har_2_7
  isplitl [Hts_2_8 Htr_2_8 Has_2_8]
  · iapply (sendG_intro m K c 2 8); isplitr; · iexact HR
    iframe Hts_2_8 Htr_2_8 Has_2_8
  isplitl [Hcr_2_8 Har_2_8]
  · iapply (recvG_intro (F := F) c 2 8)
    iframe Hcr_2_8 Har_2_8
  isplitl [Hts_2_9 Htr_2_9 Has_2_9]
  · iapply (sendG_intro m K c 2 9); isplitr; · iexact HR
    iframe Hts_2_9 Htr_2_9 Has_2_9
  isplitl [Hcr_2_9 Har_2_9]
  · iapply (recvG_intro (F := F) c 2 9)
    iframe Hcr_2_9 Har_2_9
  isplitl [Htl_0_0 Hal_0_0]
  · iapply (locG_intro m K c 0 0); isplitr; · iexact HR
    iframe Htl_0_0 Hal_0_0
  isplitl [Htl_0_1 Hal_0_1]
  · iapply (locG_intro m K c 0 1); isplitr; · iexact HR
    iframe Htl_0_1 Hal_0_1
  isplitl [Htl_0_2 Hal_0_2]
  · iapply (locG_intro m K c 0 2); isplitr; · iexact HR
    iframe Htl_0_2 Hal_0_2
  isplitl [Htl_0_3 Hal_0_3]
  · iapply (locG_intro m K c 0 3); isplitr; · iexact HR
    iframe Htl_0_3 Hal_0_3
  isplitl [Htl_1_0 Hal_1_0]
  · iapply (locG_intro m K c 1 0); isplitr; · iexact HR
    iframe Htl_1_0 Hal_1_0
  isplitl [Htl_1_1 Hal_1_1]
  · iapply (locG_intro m K c 1 1); isplitr; · iexact HR
    iframe Htl_1_1 Hal_1_1
  isplitl [Htl_1_2 Hal_1_2]
  · iapply (locG_intro m K c 1 2); isplitr; · iexact HR
    iframe Htl_1_2 Hal_1_2
  isplitl [Htl_1_3 Hal_1_3]
  · iapply (locG_intro m K c 1 3); isplitr; · iexact HR
    iframe Htl_1_3 Hal_1_3
  isplitl [Htl_2_0 Hal_2_0]
  · iapply (locG_intro m K c 2 0); isplitr; · iexact HR
    iframe Htl_2_0 Hal_2_0
  isplitl [Htl_2_1 Hal_2_1]
  · iapply (locG_intro m K c 2 1); isplitr; · iexact HR
    iframe Htl_2_1 Hal_2_1
  isplitl [Htl_2_2 Hal_2_2]
  · iapply (locG_intro m K c 2 2); isplitr; · iexact HR
    iframe Htl_2_2 Hal_2_2
  iapply (locG_intro m K c 2 3); isplitr; · iexact HR
  iframe Htl_2_3 Hal_2_3

theorem open_scratch (c : Dev nD) :
    (Launch.scratch (F := F) c : sProp 𝕄)
      ⊢ iprop(barPay (F := F) (par 0 c) 0 ∗ barPay (F := F) (par 1 c) 1 ∗ barPay (F := F) (par 2 c) 2
        ∗ ownsW (F := F) c 0 (sub1 0 c) 512 (hA 0 c) ∗ ownsW (F := F) c 0 (sub2 0 c) 512 (hB 0 c)
        ∗ ownsW (F := F) c 1 (sub1 1 c) 512 (hA 1 c) ∗ ownsW (F := F) c 1 (sub2 1 c) 512 (hB 1 c)
        ∗ ownsW (F := F) c 2 (sub1 2 c) 512 (hA 2 c) ∗ ownsW (F := F) c 2 (sub2 2 c) 512 (hB 2 c)
        ∗ restScr (F := F) c) := by
  unfold Launch.scratch
  refine (Pieces.scratch_split (F := F) c).1.trans ?_
  rw [bigSep_fin3]; unfold slicePieces; simp only [bigSep_fin4]
  iintro ⟨⟨⟨⟨D0, C0, B0, A0⟩, R10, R20⟩, ⟨⟨D1, C1, B1, A1⟩, R11, R21⟩, ⟨⟨D2, C2, B2, A2⟩, R12, R22⟩⟩, Hrest⟩
  isplitl [C0 D0 R12 R21]
  · iapply (Ends.barPay_give (F := F) c 0 2 1 (by decide) (by decide))
    isplitl [C0]; · iexact C0
    isplitl [D0]; · iexact D0
    isplitl [R12]; · iexact R12
    iexact R21
  isplitl [C1 D1 R10 R22]
  · iapply (Ends.barPay_give (F := F) c 1 0 2 (by decide) (by decide))
    isplitl [C1]; · iexact C1
    isplitl [D1]; · iexact D1
    isplitl [R10]; · iexact R10
    iexact R22
  isplitl [C2 D2 R11 R20]
  · iapply (Ends.barPay_give (F := F) c 2 1 0 (by decide) (by decide))
    isplitl [C2]; · iexact C2
    isplitl [D2]; · iexact D2
    isplitl [R11]; · iexact R11
    iexact R20
  isplitl [A0]; · iexact A0
  isplitl [B0]; · iexact B0
  isplitl [A1]; · iexact A1
  isplitl [B1]; · iexact B1
  isplitl [A2]; · iexact A2
  isplitl [B2]; · iexact B2
  iexact Hrest

theorem take_0 (c : Dev nD) : (barPay (F := F) c 0 : sProp 𝕄)
    ⊢ iprop(ownsW (F := F) (nb 0 0 c) 0 (sub1 0 c) 512 (hA 0 c) ∗ ownsW (F := F) (nb 0 0 c) 0 (sub2 0 c) 512 (hB 0 c) ∗ ownsR1 (F := F) (nb 2 1 c) 2 ∗ ownsR2 (F := F) (nb 1 2 c) 1) :=
  Ends.barPay_take (F := F) c 0 2 1 (by decide) (by decide)
theorem take_1 (c : Dev nD) : (barPay (F := F) c 1 : sProp 𝕄)
    ⊢ iprop(ownsW (F := F) (nb 1 0 c) 1 (sub1 1 c) 512 (hA 1 c) ∗ ownsW (F := F) (nb 1 0 c) 1 (sub2 1 c) 512 (hB 1 c) ∗ ownsR1 (F := F) (nb 0 1 c) 0 ∗ ownsR2 (F := F) (nb 2 2 c) 2) :=
  Ends.barPay_take (F := F) c 1 0 2 (by decide) (by decide)
theorem take_2 (c : Dev nD) : (barPay (F := F) c 2 : sProp 𝕄)
    ⊢ iprop(ownsW (F := F) (nb 2 0 c) 2 (sub1 2 c) 512 (hA 2 c) ∗ ownsW (F := F) (nb 2 0 c) 2 (sub2 2 c) 512 (hB 2 c) ∗ ownsR1 (F := F) (nb 1 1 c) 1 ∗ ownsR2 (F := F) (nb 0 2 c) 0) :=
  Ends.barPay_take (F := F) c 2 1 0 (by decide) (by decide)

theorem open_out (c : Dev nD) (V : Buf (Elt F) ((c : Thread nD τ).loc main_v1)) :
    ((((c : Thread nD τ).loc main_v1) ↦{fullShare} V) : sProp 𝕄)
      ⊢ iprop(ownsOut (F := F) c 0 (o2 0 c) (by have := inb_out 0 0 c; exact this)
        ∗ ownsOut (F := F) c 0 (away1 0 c) (by have := inb_out 0 1 c; exact this)
        ∗ ownsOut (F := F) c 0 (sub2 0 c) (by have := inb_out 0 2 c; exact this)
        ∗ ownsOut (F := F) c 0 (sub1 0 c) (by have := inb_out 0 3 c; exact this)
        ∗ ownsOut (F := F) c 1 (o2 1 c) (by have := inb_out 1 0 c; exact this)
        ∗ ownsOut (F := F) c 1 (away1 1 c) (by have := inb_out 1 1 c; exact this)
        ∗ ownsOut (F := F) c 1 (sub2 1 c) (by have := inb_out 1 2 c; exact this)
        ∗ ownsOut (F := F) c 1 (sub1 1 c) (by have := inb_out 1 3 c; exact this)
        ∗ ownsOut (F := F) c 2 (o2 2 c) (by have := inb_out 2 0 c; exact this)
        ∗ ownsOut (F := F) c 2 (away1 2 c) (by have := inb_out 2 1 c; exact this)
        ∗ ownsOut (F := F) c 2 (sub2 2 c) (by have := inb_out 2 2 c; exact this)
        ∗ ownsOut (F := F) c 2 (sub1 2 c) (by have := inb_out 2 3 c; exact this)) := by
  refine (Pieces.out_split (F := F) c V).trans ?_
  rw [bigSep_fin3]; simp only [bigSep_fin4]
  iintro ⟨⟨O00, O01, O02, O03⟩, ⟨O10, O11, O12, O13⟩, ⟨O20, O21, O22, O23⟩⟩
  isplitl [O00]; · iexact O00
  isplitl [O01]; · iexact O01
  isplitl [O02]; · iexact O02
  isplitl [O03]; · iexact O03
  isplitl [O10]; · iexact O10
  isplitl [O11]; · iexact O11
  isplitl [O12]; · iexact O12
  isplitl [O13]; · iexact O13
  isplitl [O20]; · iexact O20
  isplitl [O21]; · iexact O21
  isplitl [O22]; · iexact O22
  iexact O23

theorem inputs_eq (c : Dev nD) : (Launch.inputs m c : sProp 𝕄)
    = iprop((((c : Thread nD τ).loc cc0_stg0_0) ↦{fullShare} Launch.xOf m c) ∗ (((c : Thread nD τ).loc cc0_stg1_0) ↦{fullShare} Launch.wOf m c)) := by
  unfold Launch.inputs; rw [Launch.xstg_eq, Launch.wstg_eq]

set_option maxRecDepth 65536 in
set_option maxHeartbeats 0 in

theorem body : Launch.BodyHyp m := by
  intro K c Kt
  iintro ⟨Hpre, Hk⟩
  unfold Launch.bodyPreK
  rw [inputs_eq m c]
  icases Hpre with ⟨#HR, #Hlev, Htoks, Hwr, ⟨%W0, HO⟩, ⟨Hx, Hw⟩, Hscr, Hout⟩
  ihave Hg := (open_ghost m K c) $$ [Htoks Hwr]
  · iframe HR Htoks Hwr
  icases Hg with ⟨A1, A2, A3, A4, A5, A6, A7, A8, A9, A10, A11, A12, A13, A14, A15, A16, A17, A18, A19, A20, A21, A22, A23, A24, A25, A26, A27, A28, A29, A30, A31, A32, A33, A34, A35, A36, A37, A38, A39, A40, A41, A42, A43, A44, A45, A46, A47, A48, A49, A50, A51, A52, A53, A54, A55, A56, A57, A58, A59, A60, A61, A62, A63, A64, A65, A66, A67, A68, A69, A70, A71, A72, A73, A74, A75, A76, A77⟩
  ihave Hs := (open_scratch (F := F) c) $$ Hscr
  icases Hs with ⟨A78, A79, A80, A81, A82, A83, A84, A85, A86, Hrest⟩
  ihave Ho := (open_out (F := F) c _) $$ Hout
  icases Ho with ⟨A87, A88, A89, A90, A91, A92, A93, A94, A95, A96, A97, A98⟩
  unfold Launch.prog cc0_body
  rw [k0_part45_eq_skeleton]; unfold k0_part45_skel
  simp only [bind_assoc]

  iapply (Idealize.ShloMosaic.exec_cut _ _ _ (part1 (F := F) c (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5)) $$ []
  · iempintro
  iintro %r1 %hq1_1
  obtain ⟨d0, v2, v19, v29, v33, c2_i32_12, v34, v36, v38⟩ := r1
  have hd : d0 = c := hq1_1

  iapply (Idealize.ShloMosaic.exec_cut _ _ _ (part2 (F := F) c (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v2 v19 v29 c2_i32_12 v34 v36 v38)) $$ []
  · iempintro
  iintro %r2 -
  obtain ⟨v50, v65, v68, v71, v72, v73, v76⟩ := r2

  ihave #I_bp_0 := (Launch.inv_bar m K (par 0 c)) $$ HR
  ihave #I_bp_1 := (Launch.inv_bar m K (par 1 c)) $$ HR
  ihave #I_bp_2 := (Launch.inv_bar m K (par 2 c)) $$ HR
  ihave #I_bc := (Launch.inv_bar m K c) $$ HR
  ihave #R_bp_0 := (Launch.reached_bar m K (par 0 c)) $$ HR
  ihave #R_bp_1 := (Launch.reached_bar m K (par 1 c)) $$ HR
  ihave #R_bp_2 := (Launch.reached_bar m K (par 2 c)) $$ HR
  ihave #M_bar := (Launch.mayWait_bar c) $$ Hlev
  rw [owed_start c]
  iapply (Idealize.ShloMosaic.exec_cut _ _ _ (part3 (F := F) (x := Launch.xOf m) (w := Launch.wOf m) c _ _ _ _ (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 d0 hd v19 v33 v50 v65 v68 v71 v72 v73 v76 (Launch.owedOf c (Launch.pays.drop 3)) (W0))) $$ [A1 A2 A3 A78 A79 A80 HO A4 A5]
  · iframe I_bp_0 I_bp_1 I_bp_2 I_bc A1 A2 A3 R_bp_0 R_bp_1 R_bp_2 A78 A79 A80 HO A4 A5 M_bar
  iintro %r3 ⟨HO, A99, A100, A101, A102, A103⟩
  obtain ⟨v79, v88, v89, v92, v94, v97, v99, v104, v106, v107⟩ := r3
  ihave Ht0 := (take_0 (F := F) c) $$ A101
  icases Ht0 with ⟨A104, A105, A106, A107⟩
  ihave Ht1 := (take_1 (F := F) c) $$ A102
  icases Ht1 with ⟨A108, A109, A110, A111⟩
  ihave Ht2 := (take_2 (F := F) c) $$ A103
  icases Ht2 with ⟨A112, A113, A114, A115⟩
  iclear A99 A100

  iapply (Idealize.ShloMosaic.exec_cut _ _ _ (part4 (F := F) c (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v19 v33 v50 v89 v106 v107)) $$ []
  · iempintro
  iintro %r4 -
  obtain ⟨v108, v118, v119, v122, v124, v127, v129, v134, v138, v144⟩ := r4

  iapply (Idealize.ShloMosaic.exec_cut _ _ _ (part5 (F := F) (x := Launch.xOf m) (w := Launch.wOf m) c d0 hd v19 v33 v50 v92 v119 v144)) $$ [Hx Hw]
  · iframe Hx Hw
  iintro %r5 ⟨%hq5_1, %hq5_2, A116, A117⟩
  obtain ⟨v148, v152, v154, v157, v159, v164, v168, v178, v181⟩ := r5
  have h178 := hq5_1
  have h181 := hq5_2

  ihave #I_s_0_0 := (Launch.inv_send m K c 0 0) $$ HR
  ihave #I_rp_0_0 := (Launch.inv_recv m K (peer 0 0 c) 0 0) $$ HR
  rw [owed_copy c 3 4 0 0 rfl]
  iapply (Idealize.ShloMosaic.exec_cut _ _ _ (part6 (F := F) (x := Launch.xOf m) (w := Launch.wOf m) c _ _ d0 hd v65 v68 v92 v122 v178 h178 v181 h181 _ _)) $$ [A81 A104 A6 A83 HO A116 A117]
  · iframe I_s_0_0 I_rp_0_0 A81 A104 A6 A83 HO A116 A117
  iintro %r6 ⟨A118, A119, HO, A120, A121⟩

  ihave #I_s_1_0 := (Launch.inv_send m K c 1 0) $$ HR
  ihave #I_rp_1_0 := (Launch.inv_recv m K (peer 1 0 c) 1 0) $$ HR
  ihave #I_s_2_0 := (Launch.inv_send m K c 2 0) $$ HR
  ihave #I_rp_2_0 := (Launch.inv_recv m K (peer 2 0 c) 2 0) $$ HR
  rw [owed_copy c 4 5 1 0 rfl, owed_copy c 5 6 2 0 rfl]
  iapply (Idealize.ShloMosaic.exec_cut _ _ _ (part7 (F := F) (x := Launch.xOf m) (w := Launch.wOf m) c _ _ _ _ d0 hd v79 v94 v152 _ _)) $$ [A119 A108 A26 A85 A112 A46 A82 HO A120 A121]
  · iframe I_s_1_0 I_rp_1_0 I_s_2_0 I_rp_2_0 A119 A108 A26 A85 A112 A46 A82 HO A120 A121
  iintro %r7 ⟨%hq7_1, A122, A123, A124, HO, A125, A126⟩
  obtain ⟨v242, v244⟩ := r7
  have h242 := hq7_1

  ihave #I_s_0_1 := (Launch.inv_send m K c 0 1) $$ HR
  ihave #I_rp_0_1 := (Launch.inv_recv m K (peer 0 1 c) 0 1) $$ HR
  rw [owed_copy c 6 7 0 1 rfl]
  iapply (Idealize.ShloMosaic.exec_cut _ _ _ (part8 (F := F) (x := Launch.xOf m) (w := Launch.wOf m) c _ _ d0 hd v65 v68 v124 v242 h242 v244 _ _)) $$ [A124 A105 A8 A84 HO A125 A126]
  · iframe I_s_0_1 I_rp_0_1 A124 A105 A8 A84 HO A125 A126
  iintro %r8 ⟨A127, A128, HO, A129, A130⟩

  ihave #I_s_1_1 := (Launch.inv_send m K c 1 1) $$ HR
  ihave #I_rp_1_1 := (Launch.inv_recv m K (peer 1 1 c) 1 1) $$ HR
  ihave #I_s_2_1 := (Launch.inv_send m K c 2 1) $$ HR
  ihave #I_rp_2_1 := (Launch.inv_recv m K (peer 2 1 c) 2 1) $$ HR
  rw [owed_copy c 7 8 1 1 rfl, owed_copy c 8 9 2 1 rfl]
  iapply (Idealize.ShloMosaic.exec_cut _ _ _ (part9 (F := F) (x := Launch.xOf m) (w := Launch.wOf m) (L := Launch.L) (lv := Launch.lv) c _ _ _ _ _ d0 hd v79 v154 (Launch.owedOf c (Launch.pays.drop 9)) _ (Launch.mayWait_send c 0 0 (Launch.pays.drop 9)))) $$ [A128 A109 A28 A86 A113 A48 A118 HO A129 A130]
  · iframe I_s_1_1 I_rp_1_1 I_s_2_1 I_rp_2_1 I_s_0_0 Hlev A128 A109 A28 A86 A113 A48 A118 HO A129 A130
  iintro %r9 ⟨A131, A132, A133, HO, A134, A135⟩

  ihave #I_r_0_0 := (Launch.inv_recv m K c 0 0) $$ HR
  ihave #I_s_0_2 := (Launch.inv_send m K c 0 2) $$ HR
  ihave #I_rp_0_2 := (Launch.inv_recv m K (peer 0 2 c) 0 2) $$ HR
  ihave #M_r_0_0 := (Launch.mayWait_recv c 0 0 (Launch.pays.drop 9) (by decide)) $$ Hlev
  rw [owed_copy c 9 10 0 2 rfl]
  iapply (Idealize.ShloMosaic.exec_cut _ _ _ (part10 (F := F) (x := Launch.xOf m) (w := Launch.wOf m) c _ _ _ d0 hd v65 v68 v97 _ _)) $$ [A7 A10 A110 HO A134 A135]
  · iframe I_r_0_0 I_s_0_2 I_rp_0_2 A7 A10 A110 HO A134 A135 M_r_0_0
  iintro %r10 ⟨A136, A137, A138, HO, A139, A140⟩

  ihave #I_r_1_0 := (Launch.inv_recv m K c 1 0) $$ HR
  ihave #M_s_1_0 := (Launch.mayWait_send c 1 0 (Launch.pays.drop 10)) $$ Hlev
  ihave #M_r_1_0 := (Launch.mayWait_recv c 1 0 (Launch.pays.drop 10) (by decide)) $$ Hlev
  iapply (Idealize.ShloMosaic.exec_cut _ _ _ (part11 (F := F) (x := Launch.xOf m) (w := Launch.wOf m) c _ _ d0 hd v68 v127 _ _)) $$ [A122 A27 HO A139 A140]
  · iframe I_s_1_0 I_r_1_0 A122 A27 HO A139 A140 M_s_1_0 M_r_1_0
  iintro %r11 ⟨A141, A142, A143, A144, HO, A145, A146⟩

  ihave #I_s_1_2 := (Launch.inv_send m K c 1 2) $$ HR
  ihave #I_rp_1_2 := (Launch.inv_recv m K (peer 1 2 c) 1 2) $$ HR
  ihave #I_r_2_0 := (Launch.inv_recv m K c 2 0) $$ HR
  ihave #M_s_2_0 := (Launch.mayWait_send c 2 0 (Launch.pays.drop 11)) $$ Hlev
  ihave #M_r_2_0 := (Launch.mayWait_recv c 2 0 (Launch.pays.drop 11) (by decide)) $$ Hlev
  rw [owed_copy c 10 11 1 2 rfl]
  iapply (Idealize.ShloMosaic.exec_cut _ _ _ (part12 (F := F) (x := Launch.xOf m) (w := Launch.wOf m) c _ _ _ _ d0 hd v79 v157 _ _)) $$ [A30 A123 A47 A143 A114 HO]
  · iframe I_s_1_2 I_rp_1_2 I_s_2_0 I_r_2_0 A30 A123 A47 A143 A114 HO M_s_2_0 M_r_2_0
  iintro %v389 ⟨%hq12_1, A147, A148, A149, A150, A151, HO⟩
  obtain ⟨u, h389, hu⟩ := hq12_1

  ihave #I_s_2_2 := (Launch.inv_send m K c 2 2) $$ HR
  ihave #I_rp_2_2 := (Launch.inv_recv m K (peer 2 2 c) 2 2) $$ HR
  ihave #M_s_0_1 := (Launch.mayWait_send c 0 1 (Launch.pays.drop 12)) $$ Hlev
  rw [owed_copy c 11 12 2 2 rfl]
  iapply (Idealize.ShloMosaic.exec_cut _ _ _ (part13 (F := F) (x := Launch.xOf m) (w := Launch.wOf m) c _ _ _ d0 hd v65 v157 v389 u h389 hu _ _)) $$ [A50 A127 A150 A106 HO A145 A146]
  · iframe I_s_2_2 I_rp_2_2 I_s_0_1 A50 A127 A150 A106 HO A145 A146 M_s_0_1
  iintro %r13 ⟨A152, A153, HO, A154, A155⟩

  ihave #I_r_0_1 := (Launch.inv_recv m K c 0 1) $$ HR
  ihave #M_r_0_1 := (Launch.mayWait_recv c 0 1 (Launch.pays.drop 12) (by decide)) $$ Hlev
  ihave #M_s_0_2 := (Launch.mayWait_send c 0 2 (Launch.pays.drop 12)) $$ Hlev
  iapply (Idealize.ShloMosaic.exec_cut _ _ _ (part14 (F := F) (x := Launch.xOf m) (w := Launch.wOf m) c _ _ d0 hd v65 v99 _ _)) $$ [A9 A137 HO A154 A155]
  · iframe I_r_0_1 I_s_0_2 A9 A137 HO A154 A155 M_r_0_1 M_s_0_2
  iintro %r14 ⟨A156, A157, A158, A159, HO, A160, A161⟩

  ihave #I_r_0_2 := (Launch.inv_recv m K c 0 2) $$ HR
  ihave #I_s_0_3 := (Launch.inv_send m K c 0 3) $$ HR
  ihave #I_rp_0_3 := (Launch.inv_recv m K (peer 0 3 c) 0 3) $$ HR
  ihave #M_r_0_2 := (Launch.mayWait_recv c 0 2 (Launch.pays.drop 12) (by decide)) $$ Hlev
  rw [owed_copy c 12 13 0 3 rfl]
  iapply (Idealize.ShloMosaic.exec_cut _ _ _ (part15 (F := F) (x := Launch.xOf m) (w := Launch.wOf m) c _ _ _ d0 hd v68 v79 v99 v104 v108 _ _)) $$ [A11 A12 A158 A115 HO]
  · iframe I_r_0_2 I_s_0_3 I_rp_0_3 M_r_0_2 A11 A12 A158 A115 HO
  iintro %v476 ⟨%hq15_1, A162, A163, A164, A165, A166, HO⟩
  have h476 := hq15_1

  ihave #I_r_1_1 := (Launch.inv_recv m K c 1 1) $$ HR
  ihave #M_s_1_1 := (Launch.mayWait_send c 1 1 (Launch.pays.drop 13)) $$ Hlev
  ihave #M_r_1_1 := (Launch.mayWait_recv c 1 1 (Launch.pays.drop 13) (by decide)) $$ Hlev
  iapply (Idealize.ShloMosaic.exec_cut _ _ _ (part16 (F := F) (x := Launch.xOf m) (w := Launch.wOf m) c _ _ d0 hd v68 v99 v108 v129 v476 h476 _ _)) $$ [A131 A29 A166 A164 A160 HO]
  · iframe I_s_1_1 I_r_1_1 M_s_1_1 M_r_1_1 A131 A29 A166 A164 A160 HO
  iintro %r16 ⟨%hq16_1, %hq16_2, A167, A168, A169, A170, A171, A172, A173, HO⟩
  obtain ⟨v503, v505⟩ := r16
  obtain ⟨u503, h503, hu503⟩ := hq16_1
  have h505 := hq16_2

  ihave #I_r_1_2 := (Launch.inv_recv m K c 1 2) $$ HR
  ihave #M_s_1_2 := (Launch.mayWait_send c 1 2 (Launch.pays.drop 13)) $$ Hlev
  ihave #M_r_1_2 := (Launch.mayWait_recv c 1 2 (Launch.pays.drop 13) (by decide)) $$ Hlev
  iapply (Idealize.ShloMosaic.exec_cut _ _ _ (part17 (F := F) (x := Launch.xOf m) (w := Launch.wOf m) c _ _ d0 hd v79 v129 v134 v503 u503 h503 hu503 v505 h505 _ _)) $$ [A147 A31 A171 A161 HO]
  · iframe I_s_1_2 I_r_1_2 M_s_1_2 M_r_1_2 A147 A31 A171 A161 HO
  iintro %r17 ⟨%hq17_1, %hq17_2, A174, A175, A176, A177, A178, A179, HO⟩
  obtain ⟨v531, v534⟩ := r17
  obtain ⟨u531, h531, hu531⟩ := hq17_1
  have h534 := hq17_2

  ihave #I_s_1_3 := (Launch.inv_send m K c 1 3) $$ HR
  ihave #I_rp_1_3 := (Launch.inv_recv m K (peer 1 3 c) 1 3) $$ HR
  rw [owed_copy c 13 14 1 3 rfl]
  iapply (Idealize.ShloMosaic.exec_cut _ _ _ (part18 (F := F) (x := Launch.xOf m) (w := Launch.wOf m) c _ _ d0 hd v65 v129 v134 v138 v531 u531 h531 hu531 v534 h534 _ _)) $$ [A32 A176 A177 A107 HO]
  · iframe I_s_1_3 I_rp_1_3 A32 A176 A177 A107 HO
  iintro %r18 ⟨A180, A181, A182, HO⟩

  ihave #I_r_2_1 := (Launch.inv_recv m K c 2 1) $$ HR
  ihave #M_s_2_1 := (Launch.mayWait_send c 2 1 (Launch.pays.drop 14)) $$ Hlev
  ihave #M_r_2_1 := (Launch.mayWait_recv c 2 1 (Launch.pays.drop 14) (by decide)) $$ Hlev
  iapply (Idealize.ShloMosaic.exec_cut _ _ _ (part19 (F := F) (x := Launch.xOf m) (w := Launch.wOf m) c _ _ d0 hd v79 v159 _ _)) $$ [A132 A49 A173 A179 HO]
  · iframe I_s_2_1 I_r_2_1 M_s_2_1 M_r_2_1 A132 A49 A173 A179 HO
  iintro %r19 ⟨A183, A184, A185, A186, A187, A188, HO⟩

  ihave #I_r_2_2 := (Launch.inv_recv m K c 2 2) $$ HR
  ihave #M_s_2_2 := (Launch.mayWait_send c 2 2 (Launch.pays.drop 14)) $$ Hlev
  ihave #M_r_2_2 := (Launch.mayWait_recv c 2 2 (Launch.pays.drop 14) (by decide)) $$ Hlev
  iapply (Idealize.ShloMosaic.exec_cut _ _ _ (part20 (F := F) (x := Launch.xOf m) (w := Launch.wOf m) c _ _ d0 hd v65 v68 v159 v164 _ _)) $$ [A152 A51 A185 HO]
  · iframe I_s_2_2 I_r_2_2 M_s_2_2 M_r_2_2 A152 A51 A185 HO
  iintro %r20 ⟨A189, A190, A191, A192, A193, A194, HO⟩

  ihave #I_s_2_3 := (Launch.inv_send m K c 2 3) $$ HR
  ihave #I_rp_2_3 := (Launch.inv_recv m K (peer 2 3 c) 2 3) $$ HR
  ihave #M_s_0_3 := (Launch.mayWait_send c 0 3 (Launch.pays.drop 15)) $$ Hlev
  rw [owed_copy c 14 15 2 3 rfl]
  iapply (Idealize.ShloMosaic.exec_cut _ _ _ (part21 (F := F) (x := Launch.xOf m) (w := Launch.wOf m) c _ _ _ d0 hd v79 v159 v168 _ _)) $$ [A52 A193 A111 A194 A191 A163 HO]
  · iframe I_s_2_3 I_rp_2_3 I_s_0_3 M_s_0_3 A52 A193 A111 A194 A191 A163 HO
  iintro %r21 ⟨A195, A196, A197, A198, HO⟩

  ihave #I_r_0_3 := (Launch.inv_recv m K c 0 3) $$ HR
  ihave #I_s_0_4 := (Launch.inv_send m K c 0 4) $$ HR
  ihave #I_rp_0_4 := (Launch.inv_recv m K (peer 0 4 c) 0 4) $$ HR
  ihave #M_r_0_3 := (Launch.mayWait_recv c 0 3 (Launch.pays.drop 15) (by decide)) $$ Hlev
  rw [owed_copy c 15 16 0 4 rfl]
  iapply (Idealize.ShloMosaic.exec_cut _ _ _ (part22 (F := F) (x := Launch.xOf m) (w := Launch.wOf m) c _ _ _ d0 hd v68 v79 v108 _ _)) $$ [A13 A169 A14 HO]
  · iframe I_r_0_3 I_s_0_4 I_rp_0_4 M_r_0_3 A13 A169 A14 HO
  iintro %r22 ⟨A199, A200, A201, A202, HO⟩

  ihave #I_s_0_5 := (Launch.inv_send m K c 0 5) $$ HR
  ihave #I_rp_0_5 := (Launch.inv_recv m K (peer 0 5 c) 0 5) $$ HR
  ihave #I_s_0_6 := (Launch.inv_send m K c 0 6) $$ HR
  ihave #I_rp_0_6 := (Launch.inv_recv m K (peer 0 6 c) 0 6) $$ HR
  ihave #M_s_1_3 := (Launch.mayWait_send c 1 3 (Launch.pays.drop 18)) $$ Hlev
  rw [owed_copy c 16 17 0 5 rfl, owed_copy c 17 18 0 6 rfl]
  iapply (Idealize.ShloMosaic.exec_cut _ _ _ (part23 (F := F) (x := Launch.xOf m) (w := Launch.wOf m) c _ _ _ _ _ d0 hd v65 _ _)) $$ [A16 A18 A201 A165 A159 A180 HO]
  · iframe I_s_0_5 I_rp_0_5 I_s_0_6 I_rp_0_6 I_s_1_3 M_s_1_3 A16 A18 A201 A165 A159 A180 HO
  iintro %r23 ⟨A203, A204, A205, A206, A207, A208, HO⟩

  ihave #I_r_1_3 := (Launch.inv_recv m K c 1 3) $$ HR
  ihave #I_s_1_4 := (Launch.inv_send m K c 1 4) $$ HR
  ihave #I_rp_1_4 := (Launch.inv_recv m K (peer 1 4 c) 1 4) $$ HR
  ihave #M_r_1_3 := (Launch.mayWait_recv c 1 3 (Launch.pays.drop 18) (by decide)) $$ Hlev
  rw [owed_copy c 18 19 1 4 rfl]
  iapply (Idealize.ShloMosaic.exec_cut _ _ _ (part24 (F := F) (x := Launch.xOf m) (w := Launch.wOf m) c _ _ _ d0 hd v65 v79 v138 _ _)) $$ [A33 A181 A34 HO]
  · iframe I_r_1_3 I_s_1_4 I_rp_1_4 M_r_1_3 A33 A181 A34 HO
  iintro %r24 ⟨A209, A210, A211, A212, HO⟩

  ihave #I_s_1_5 := (Launch.inv_send m K c 1 5) $$ HR
  ihave #I_rp_1_5 := (Launch.inv_recv m K (peer 1 5 c) 1 5) $$ HR
  ihave #I_s_1_6 := (Launch.inv_send m K c 1 6) $$ HR
  ihave #I_rp_1_6 := (Launch.inv_recv m K (peer 1 6 c) 1 6) $$ HR
  ihave #M_s_2_3 := (Launch.mayWait_send c 2 3 (Launch.pays.drop 21)) $$ Hlev
  rw [owed_copy c 19 20 1 5 rfl, owed_copy c 20 21 1 6 rfl]
  iapply (Idealize.ShloMosaic.exec_cut _ _ _ (part25 (F := F) (x := Launch.xOf m) (w := Launch.wOf m) c _ _ _ _ _ d0 hd v68 _ _)) $$ [A211 A178 A172 A36 A38 A195 HO]
  · iframe I_s_1_5 I_rp_1_5 I_s_1_6 I_rp_1_6 I_s_2_3 M_s_2_3 A211 A178 A172 A36 A38 A195 HO
  iintro %r25 ⟨A213, A214, A215, A216, A217, A218, HO⟩

  ihave #I_r_2_3 := (Launch.inv_recv m K c 2 3) $$ HR
  ihave #I_s_2_4 := (Launch.inv_send m K c 2 4) $$ HR
  ihave #I_rp_2_4 := (Launch.inv_recv m K (peer 2 4 c) 2 4) $$ HR
  ihave #M_r_2_3 := (Launch.mayWait_recv c 2 3 (Launch.pays.drop 21) (by decide)) $$ Hlev
  rw [owed_copy c 21 22 2 4 rfl]
  iapply (Idealize.ShloMosaic.exec_cut _ _ _ (part26 (F := F) (x := Launch.xOf m) (w := Launch.wOf m) c _ _ _ d0 hd v65 v68 v168 _ _)) $$ [A196 A53 A54 HO]
  · iframe I_r_2_3 I_s_2_4 I_rp_2_4 M_r_2_3 A196 A53 A54 HO
  iintro %r26 ⟨A219, A220, A221, A222, HO⟩

  ihave #I_s_2_5 := (Launch.inv_send m K c 2 5) $$ HR
  ihave #I_rp_2_5 := (Launch.inv_recv m K (peer 2 5 c) 2 5) $$ HR
  ihave #I_s_2_6 := (Launch.inv_send m K c 2 6) $$ HR
  ihave #I_rp_2_6 := (Launch.inv_recv m K (peer 2 6 c) 2 6) $$ HR
  ihave #M_s_0_4 := (Launch.mayWait_send c 0 4 (Launch.pays.drop 24)) $$ Hlev
  rw [owed_copy c 22 23 2 5 rfl, owed_copy c 23 24 2 6 rfl]
  iapply (Idealize.ShloMosaic.exec_cut _ _ _ (part27 (F := F) (x := Launch.xOf m) (w := Launch.wOf m) c _ _ _ _ _ d0 hd v79 _ _)) $$ [A219 A192 A186 A56 A58 A202 HO]
  · iframe I_s_2_5 I_rp_2_5 I_s_2_6 I_rp_2_6 I_s_0_4 M_s_0_4 A219 A192 A186 A56 A58 A202 HO
  iintro %r27 ⟨A223, A224, A225, A226, A227, A228, A229, HO⟩

  ihave #I_r_0_4 := (Launch.inv_recv m K c 0 4) $$ HR
  ihave #I_l_0_0 := (Launch.inv_loc m K c 0 0) $$ HR
  ihave #I_s_0_7 := (Launch.inv_send m K c 0 7) $$ HR
  ihave #I_rp_0_7 := (Launch.inv_recv m K (peer 0 7 c) 0 7) $$ HR
  ihave #I_s_0_8 := (Launch.inv_send m K c 0 8) $$ HR
  ihave #I_rp_0_8 := (Launch.inv_recv m K (peer 0 8 c) 0 8) $$ HR
  ihave #M_r_0_4 := (Launch.mayWait_recv c 0 4 (Launch.pays.drop 24) (by decide)) $$ Hlev
  ihave A230 : (ownsOut c 0 (locOff 0 0 c) (inb_out 0 0 c) : sProp 𝕄) $$ [A87]
  · iexact A87
  rw [owed_copy c 24 25 0 7 rfl, owed_copy c 25 26 0 8 rfl]
  iapply (Idealize.ShloMosaic.exec_cut _ _ _ (part28 (F := F) (x := Launch.xOf m) (w := Launch.wOf m) c _ _ _ _ _ _ d0 hd v65 v68 _ _)) $$ [A205 A206 A207 A230 A15 A66 A20 A22 HO]
  · iframe I_r_0_4 I_l_0_0 I_s_0_7 I_rp_0_7 I_s_0_8 I_rp_0_8 M_r_0_4 A205 A206 A207 A230 A15 A66 A20 A22 HO
  iintro %r28 ⟨A231, A232, A233, A234, A235, HO⟩

  ihave #I_r_1_4 := (Launch.inv_recv m K c 1 4) $$ HR
  ihave #I_l_1_0 := (Launch.inv_loc m K c 1 0) $$ HR
  ihave #M_s_1_4 := (Launch.mayWait_send c 1 4 (Launch.pays.drop 26)) $$ Hlev
  ihave #M_r_1_4 := (Launch.mayWait_recv c 1 4 (Launch.pays.drop 26) (by decide)) $$ Hlev
  ihave A236 : (ownsOut c 1 (locOff 1 0 c) (inb_out 1 0 c) : sProp 𝕄) $$ [A91]
  · iexact A91
  iapply (Idealize.ShloMosaic.exec_cut _ _ _ (part29 (F := F) (x := Launch.xOf m) (w := Launch.wOf m) c _ _ _ d0 hd v65 v79 _ _)) $$ [A213 A236 A212 A35 A70 HO]
  · iframe I_s_1_4 I_r_1_4 I_l_1_0 M_s_1_4 M_r_1_4 A213 A236 A212 A35 A70 HO
  iintro %r29 ⟨A237, A238, A239, A240, A241, HO⟩

  ihave #I_s_1_7 := (Launch.inv_send m K c 1 7) $$ HR
  ihave #I_rp_1_7 := (Launch.inv_recv m K (peer 1 7 c) 1 7) $$ HR
  ihave #I_s_1_8 := (Launch.inv_send m K c 1 8) $$ HR
  ihave #I_rp_1_8 := (Launch.inv_recv m K (peer 1 8 c) 1 8) $$ HR
  ihave #I_r_2_4 := (Launch.inv_recv m K c 2 4) $$ HR
  ihave #M_s_2_4 := (Launch.mayWait_send c 2 4 (Launch.pays.drop 28)) $$ Hlev
  ihave #M_r_2_4 := (Launch.mayWait_recv c 2 4 (Launch.pays.drop 28) (by decide)) $$ Hlev
  rw [owed_copy c 26 27 1 7 rfl, owed_copy c 27 28 1 8 rfl]
  iapply (Idealize.ShloMosaic.exec_cut _ _ _ (part30 (F := F) (x := Launch.xOf m) (w := Launch.wOf m) c _ _ _ _ _ _ d0 hd v68 _ _)) $$ [A238 A214 A215 A40 A42 A222 A55 HO]
  · iframe I_s_1_7 I_rp_1_7 I_s_1_8 I_rp_1_8 I_s_2_4 I_r_2_4 M_s_2_4 M_r_2_4 A238 A214 A215 A40 A42 A222 A55 HO
  iintro %r30 ⟨A242, A243, A244, A245, A246, A247, A248, HO⟩

  ihave #I_l_2_0 := (Launch.inv_loc m K c 2 0) $$ HR
  ihave #I_s_2_7 := (Launch.inv_send m K c 2 7) $$ HR
  ihave #I_rp_2_7 := (Launch.inv_recv m K (peer 2 7 c) 2 7) $$ HR
  ihave #I_s_2_8 := (Launch.inv_send m K c 2 8) $$ HR
  ihave #I_rp_2_8 := (Launch.inv_recv m K (peer 2 8 c) 2 8) $$ HR
  rw [owed_copy c 28 29 2 7 rfl, owed_copy c 29 30 2 8 rfl]
  iapply (Idealize.ShloMosaic.exec_cut _ _ _ (part31 (F := F) (x := Launch.xOf m) (w := Launch.wOf m) c _ _ _ _ _ d0 hd v65 v79 _ _)) $$ [A223 A244 A224 A225 A95 A74 A60 A62 HO]
  · iframe I_l_2_0 I_s_2_7 I_rp_2_7 I_s_2_8 I_rp_2_8 A223 A244 A224 A225 A95 A74 A60 A62 HO
  iintro %r31 ⟨A249, A250, A251, A252, HO⟩

  ihave #I_r_0_5 := (Launch.inv_recv m K c 0 5) $$ HR
  ihave #M_s_0_5 := (Launch.mayWait_send c 0 5 (Launch.pays.drop 30)) $$ Hlev
  ihave #M_r_0_5 := (Launch.mayWait_recv c 0 5 (Launch.pays.drop 30) (by decide)) $$ Hlev
  ihave #M_s_0_7 := (Launch.mayWait_send c 0 7 (Launch.pays.drop 30)) $$ Hlev
  iapply (Idealize.ShloMosaic.exec_cut _ _ _ (part32 (F := F) (x := Launch.xOf m) (w := Launch.wOf m) c _ _ _ d0 hd v68 _ _)) $$ [A203 A17 A234 HO]
  · iframe I_s_0_5 I_r_0_5 I_s_0_7 M_s_0_5 M_r_0_5 M_s_0_7 A203 A17 A234 HO
  iintro %r32 ⟨A253, A254, A255, A256, A257, A258, HO⟩

  ihave #I_r_0_7 := (Launch.inv_recv m K c 0 7) $$ HR
  ihave #I_l_0_1 := (Launch.inv_loc m K c 0 1) $$ HR
  ihave #I_s_0_9 := (Launch.inv_send m K c 0 9) $$ HR
  ihave #I_rp_0_9 := (Launch.inv_recv m K (peer 0 9 c) 0 9) $$ HR
  ihave #M_r_0_7 := (Launch.mayWait_recv c 0 7 (Launch.pays.drop 30) (by decide)) $$ Hlev
  ihave #M_s_1_5 := (Launch.mayWait_send c 1 5 (Launch.pays.drop 31)) $$ Hlev
  rw [owed_copy c 30 31 0 9 rfl]
  iapply (Idealize.ShloMosaic.exec_cut _ _ _ (part33 (F := F) (x := Launch.xOf m) (w := Launch.wOf m) c _ _ _ _ _ d0 hd v65 v79 _ _)) $$ [A254 A138 A88 A21 A67 A24 A216 HO]
  · iframe I_r_0_7 I_l_0_1 I_s_0_9 I_rp_0_9 I_s_1_5 M_r_0_7 M_s_1_5 A254 A138 A88 A21 A67 A24 A216 HO
  iintro %r33 ⟨A259, A260, A261, A262, A263, A264, HO⟩

  ihave #I_r_1_5 := (Launch.inv_recv m K c 1 5) $$ HR
  ihave #I_r_1_7 := (Launch.inv_recv m K c 1 7) $$ HR
  ihave #I_l_1_1 := (Launch.inv_loc m K c 1 1) $$ HR
  ihave #M_r_1_5 := (Launch.mayWait_recv c 1 5 (Launch.pays.drop 31) (by decide)) $$ Hlev
  ihave #M_s_1_7 := (Launch.mayWait_send c 1 7 (Launch.pays.drop 31)) $$ Hlev
  ihave #M_r_1_7 := (Launch.mayWait_recv c 1 7 (Launch.pays.drop 31) (by decide)) $$ Hlev
  iapply (Idealize.ShloMosaic.exec_cut _ _ _ (part34 (F := F) (x := Launch.xOf m) (w := Launch.wOf m) c _ _ _ _ d0 hd v79 _ _)) $$ [A92 A37 A245 A41 A71 HO]
  · iframe I_r_1_5 I_s_1_7 I_r_1_7 I_l_1_1 M_r_1_5 M_s_1_7 M_r_1_7 A92 A37 A245 A41 A71 HO
  iintro %r34 ⟨A265, A266, A267, A268, A269, A270, HO⟩

  ihave #I_s_1_9 := (Launch.inv_send m K c 1 9) $$ HR
  ihave #I_rp_1_9 := (Launch.inv_recv m K (peer 1 9 c) 1 9) $$ HR
  ihave #I_r_2_5 := (Launch.inv_recv m K c 2 5) $$ HR
  ihave #M_s_2_5 := (Launch.mayWait_send c 2 5 (Launch.pays.drop 32)) $$ Hlev
  ihave #M_r_2_5 := (Launch.mayWait_recv c 2 5 (Launch.pays.drop 32) (by decide)) $$ Hlev
  rw [owed_copy c 31 32 1 9 rfl]
  iapply (Idealize.ShloMosaic.exec_cut _ _ _ (part35 (F := F) (x := Launch.xOf m) (w := Launch.wOf m) c _ _ _ _ d0 hd v65 v68 _ _)) $$ [A266 A144 A44 A226 A57 HO]
  · iframe I_s_1_9 I_rp_1_9 I_s_2_5 I_r_2_5 M_s_2_5 M_r_2_5 A266 A144 A44 A226 A57 HO
  iintro %r35 ⟨A271, A272, A273, A274, A275, A276, HO⟩

  ihave #I_r_2_7 := (Launch.inv_recv m K c 2 7) $$ HR
  ihave #I_l_2_1 := (Launch.inv_loc m K c 2 1) $$ HR
  ihave #I_s_2_9 := (Launch.inv_send m K c 2 9) $$ HR
  ihave #I_rp_2_9 := (Launch.inv_recv m K (peer 2 9 c) 2 9) $$ HR
  ihave #M_s_2_7 := (Launch.mayWait_send c 2 7 (Launch.pays.drop 32)) $$ Hlev
  ihave #M_r_2_7 := (Launch.mayWait_recv c 2 7 (Launch.pays.drop 32) (by decide)) $$ Hlev
  rw [owed_copy c 32 33 2 9 rfl]
  iapply (Idealize.ShloMosaic.exec_cut _ _ _ (part36 (F := F) (x := Launch.xOf m) (w := Launch.wOf m) c _ _ _ _ _ d0 hd v50 v65 v79 _ _)) $$ [A273 A151 A96 A251 A61 A75 A64 HO]
  · iframe I_s_2_7 I_r_2_7 I_l_2_1 I_s_2_9 I_rp_2_9 M_s_2_7 M_r_2_7 A273 A151 A96 A251 A61 A75 A64 HO
  iintro %v1053 ⟨A277, A278, A279, A280, A281, A282, HO⟩

  ihave #I_r_0_6 := (Launch.inv_recv m K c 0 6) $$ HR
  ihave #M_s_0_6 := (Launch.mayWait_send c 0 6 (Launch.pays.drop 33)) $$ Hlev
  ihave #M_r_0_6 := (Launch.mayWait_recv c 0 6 (Launch.pays.drop 33) (by decide)) $$ Hlev
  ihave #M_s_0_8 := (Launch.mayWait_send c 0 8 (Launch.pays.drop 33)) $$ Hlev
  iapply (Idealize.ShloMosaic.exec_cut _ _ _ (part37 (F := F) (x := Launch.xOf m) (w := Launch.wOf m) c _ _ _ d0 hd v19 v33 v65 v88 v118 v148 v1053 _ _)) $$ [A204 A19 A235 HO]
  · iframe I_s_0_6 I_r_0_6 I_s_0_8 M_s_0_6 M_r_0_6 M_s_0_8 A204 A19 A235 HO
  iintro %r37 ⟨A283, A284, A285, A286, A287, A288, HO⟩

  ihave #I_r_0_8 := (Launch.inv_recv m K c 0 8) $$ HR
  ihave #I_l_0_2 := (Launch.inv_loc m K c 0 2) $$ HR
  ihave #M_r_0_8 := (Launch.mayWait_recv c 0 8 (Launch.pays.drop 33) (by decide)) $$ Hlev
  ihave #M_s_1_6 := (Launch.mayWait_send c 1 6 (Launch.pays.drop 33)) $$ Hlev
  iapply (Idealize.ShloMosaic.exec_cut _ _ _ (part38 (F := F) (x := Launch.xOf m) (w := Launch.wOf m) c _ _ _ d0 hd v65 v68 _ _)) $$ [A284 A89 A23 A68 A217 HO]
  · iframe I_r_0_8 I_l_0_2 I_s_1_6 M_r_0_8 M_s_1_6 A284 A89 A23 A68 A217 HO
  iintro %r38 ⟨A289, A290, A291, A292, A293, HO⟩

  ihave #I_r_1_6 := (Launch.inv_recv m K c 1 6) $$ HR
  ihave #I_r_1_8 := (Launch.inv_recv m K c 1 8) $$ HR
  ihave #I_l_1_2 := (Launch.inv_loc m K c 1 2) $$ HR
  ihave #M_r_1_6 := (Launch.mayWait_recv c 1 6 (Launch.pays.drop 33) (by decide)) $$ Hlev
  ihave #M_s_1_8 := (Launch.mayWait_send c 1 8 (Launch.pays.drop 33)) $$ Hlev
  ihave #M_r_1_8 := (Launch.mayWait_recv c 1 8 (Launch.pays.drop 33) (by decide)) $$ Hlev
  iapply (Idealize.ShloMosaic.exec_cut _ _ _ (part39 (F := F) (x := Launch.xOf m) (w := Launch.wOf m) c _ _ _ _ d0 hd v68 _ _)) $$ [A93 A39 A246 A43 A72 HO]
  · iframe I_r_1_6 I_s_1_8 I_r_1_8 I_l_1_2 M_r_1_6 M_s_1_8 M_r_1_8 A93 A39 A246 A43 A72 HO
  iintro %r39 ⟨A294, A295, A296, A297, A298, A299, HO⟩

  ihave #I_r_2_6 := (Launch.inv_recv m K c 2 6) $$ HR
  ihave #I_r_2_8 := (Launch.inv_recv m K c 2 8) $$ HR
  ihave #M_s_2_6 := (Launch.mayWait_send c 2 6 (Launch.pays.drop 33)) $$ Hlev
  ihave #M_r_2_6 := (Launch.mayWait_recv c 2 6 (Launch.pays.drop 33) (by decide)) $$ Hlev
  ihave #M_s_2_8 := (Launch.mayWait_send c 2 8 (Launch.pays.drop 33)) $$ Hlev
  ihave #M_r_2_8 := (Launch.mayWait_recv c 2 8 (Launch.pays.drop 33) (by decide)) $$ Hlev
  iapply (Idealize.ShloMosaic.exec_cut _ _ _ (part40 (F := F) (x := Launch.xOf m) (w := Launch.wOf m) c _ _ _ _ d0 hd v79 _ _)) $$ [A227 A59 A252 A63 HO]
  · iframe I_s_2_6 I_r_2_6 I_s_2_8 I_r_2_8 A227 A59 A252 A63 HO M_s_2_6 M_r_2_6 M_s_2_8 M_r_2_8
  iintro %r40 ⟨HO, A300, A301, A302, A303, A304, A305, A306⟩

  ihave #I_l_2_2 := (Launch.inv_loc m K c 2 2) $$ HR
  ihave #I_r_0_9 := (Launch.inv_recv m K c 0 9) $$ HR
  ihave #M_s_0_9 := (Launch.mayWait_send c 0 9 (Launch.pays.drop 33)) $$ Hlev
  ihave #M_r_0_9 := (Launch.mayWait_recv c 0 9 (Launch.pays.drop 33) (by decide)) $$ Hlev
  iapply (Idealize.ShloMosaic.exec_cut _ _ _ (part41 (F := F) (x := Launch.xOf m) (w := Launch.wOf m) c _ _ _ d0 hd v50 v65 v88 _ _)) $$ [A76 A263 A25 A306 A97 HO]
  · iframe I_l_2_2 I_s_0_9 I_r_0_9 A76 A263 A25 A306 A97 HO M_s_0_9 M_r_0_9
  iintro %r41 ⟨HO, A307, A308, A309, A310, A311, A312⟩

  ihave #I_l_0_3 := (Launch.inv_loc m K c 0 3) $$ HR
  ihave #I_r_1_9 := (Launch.inv_recv m K c 1 9) $$ HR
  ihave #I_l_1_3 := (Launch.inv_loc m K c 1 3) $$ HR
  ihave #M_s_1_9 := (Launch.mayWait_send c 1 9 (Launch.pays.drop 33)) $$ Hlev
  ihave #M_r_1_9 := (Launch.mayWait_recv c 1 9 (Launch.pays.drop 33) (by decide)) $$ Hlev
  iapply (Idealize.ShloMosaic.exec_cut _ _ _ (part42 (F := F) (x := Launch.xOf m) (w := Launch.wOf m) c _ _ _ _ d0 hd v19 v68 v118 _ _)) $$ [A69 A274 A45 A73 A312 A90 A94 HO]
  · iframe I_l_0_3 I_s_1_9 I_r_1_9 I_l_1_3 A69 A274 A45 A73 A312 A90 A94 HO M_s_1_9 M_r_1_9
  iintro %r42 ⟨HO, A313, A314, A315, A316, A317, A318, A319⟩

  ihave #I_r_2_9 := (Launch.inv_recv m K c 2 9) $$ HR
  ihave #I_l_2_3 := (Launch.inv_loc m K c 2 3) $$ HR
  ihave #M_s_2_9 := (Launch.mayWait_send c 2 9 (Launch.pays.drop 33)) $$ Hlev
  ihave #M_r_2_9 := (Launch.mayWait_recv c 2 9 (Launch.pays.drop 33) (by decide)) $$ Hlev
  ihave #M_l_0_0 := (Launch.mayWait_loc c 0 0 (Launch.pays.drop 33)) $$ Hlev
  iapply (Idealize.ShloMosaic.exec_cut _ _ _ (part43 (F := F) (x := Launch.xOf m) (w := Launch.wOf m) c _ _ _ _ d0 hd v33 v79 v148 _ _)) $$ [A282 A65 A77 A233 A98 HO]
  · iframe I_s_2_9 I_r_2_9 I_l_2_3 I_l_0_0 A282 A65 A77 A233 A98 HO M_s_2_9 M_r_2_9 M_l_0_0
  iintro %r43 ⟨HO, A320, A321, A322, A323, A324, A325, A326⟩

  ihave #M_l_0_1 := (Launch.mayWait_loc c 0 1 (Launch.pays.drop 33)) $$ Hlev
  ihave #M_l_0_2 := (Launch.mayWait_loc c 0 2 (Launch.pays.drop 33)) $$ Hlev
  ihave #M_l_0_3 := (Launch.mayWait_loc c 0 3 (Launch.pays.drop 33)) $$ Hlev
  ihave #M_l_1_0 := (Launch.mayWait_loc c 1 0 (Launch.pays.drop 33)) $$ Hlev
  ihave #M_l_1_1 := (Launch.mayWait_loc c 1 1 (Launch.pays.drop 33)) $$ Hlev
  ihave #M_l_1_2 := (Launch.mayWait_loc c 1 2 (Launch.pays.drop 33)) $$ Hlev
  iapply (Idealize.ShloMosaic.exec_cut _ _ _ (part44 (F := F) (x := Launch.xOf m) (w := Launch.wOf m) c _ _ _ _ _ _ d0 hd _ _)) $$ [A262 A292 A313 A241 A270 A299 HO]
  · iframe I_l_0_1 I_l_0_2 I_l_0_3 I_l_1_0 I_l_1_1 I_l_1_2 A262 A292 A313 A241 A270 A299 HO M_l_0_1 M_l_0_2 M_l_0_3 M_l_1_0 M_l_1_1 M_l_1_2
  iintro %r44 ⟨HO, A327, A328, A329, A330, A331, A332, A333, A334, A335, A336, A337, A338⟩

  ihave #M_l_1_3 := (Launch.mayWait_loc c 1 3 (Launch.pays.drop 33)) $$ Hlev
  iapply (tail_1_3 (F := F) (x := Launch.xOf m) (w := Launch.wOf m) c _ d0 hd _ _) $$ [A316 HO]
  · iframe I_l_1_3 M_l_1_3 A316 HO
  iintro ⟨A339, A340, HO⟩
  simp only [pure_bind]
  ihave #M_l_2_0 := (Launch.mayWait_loc c 2 0 (Launch.pays.drop 33)) $$ Hlev
  iapply (tail_2_0 (F := F) (x := Launch.xOf m) (w := Launch.wOf m) c _ d0 hd _ _) $$ [A250 HO]
  · iframe I_l_2_0 M_l_2_0 A250 HO
  iintro ⟨A341, A342, HO⟩
  ihave #M_l_2_1 := (Launch.mayWait_loc c 2 1 (Launch.pays.drop 33)) $$ Hlev
  iapply (tail_2_1 (F := F) (x := Launch.xOf m) (w := Launch.wOf m) c _ d0 hd _ _) $$ [A281 HO]
  · iframe I_l_2_1 M_l_2_1 A281 HO
  iintro ⟨A343, A344, HO⟩
  ihave #M_l_2_2 := (Launch.mayWait_loc c 2 2 (Launch.pays.drop 33)) $$ Hlev
  iapply (tail_2_2 (F := F) (x := Launch.xOf m) (w := Launch.wOf m) c _ d0 hd _ _) $$ [A307 HO]
  · iframe I_l_2_2 M_l_2_2 A307 HO
  iintro ⟨A345, A346, HO⟩
  ihave #M_l_2_3 := (Launch.mayWait_loc c 2 3 (Launch.pays.drop 33)) $$ Hlev
  iapply (tail_2_3 (F := F) (x := Launch.xOf m) (w := Launch.wOf m) c _ d0 hd _ _) $$ [A322 HO]
  · iframe I_l_2_3 M_l_2_3 A322 HO
  iintro ⟨A347, A348, HO⟩
  rw [owed_end c]
  ihave Hin : (Launch.inputs m c : sProp 𝕄) $$ [A187 A188]
  · rw [inputs_eq m c]; iframe A187 A188
  ihave HOe : (iprop(∃ W : Waits sig Unit, owes (c : Thread nD τ) 0 W) : sProp 𝕄) $$ [HO]
  · iexists _; iexact HO
  ihave Hc := (Ends.close_post m K c) $$ [A317 A289 A259 A231 A170 A200 A229 A253 A283 A255 A285 A311 A326 A333 A334 A335 A133 A153 A157 A198 A228 A256 A286 A258 A288 A308 A136 A156 A162 A199 A232 A257 A287 A261 A291 A309 A323 A327 A328 A329 A319 A295 A271 A242 A182 A210 A237 A260 A290 A265 A294 A318 A336 A337 A338 A339 A141 A167 A174 A208 A239 A264 A293 A268 A297 A314 A142 A168 A175 A209 A240 A267 A296 A269 A298 A315 A330 A331 A332 A340 A325 A310 A278 A249 A197 A220 A243 A272 A304 A277 A305 A324 A341 A343 A345 A347 A148 A183 A189 A218 A247 A275 A300 A279 A302 A320 A149 A184 A190 A221 A248 A276 A301 A280 A303 A321 A342 A344 A346 A348 Hrest Hin HOe]
  · unfold Ends.sliceEnd
    iframe HR A317 A289 A259 A231 A170 A200 A229 A253 A283 A255 A285 A311 A326 A333 A334 A335 A133 A153 A157 A198 A228 A256 A286 A258 A288 A308 A136 A156 A162 A199 A232 A257 A287 A261 A291 A309 A323 A327 A328 A329 A319 A295 A271 A242 A182 A210 A237 A260 A290 A265 A294 A318 A336 A337 A338 A339 A141 A167 A174 A208 A239 A264 A293 A268 A297 A314 A142 A168 A175 A209 A240 A267 A296 A269 A298 A315 A330 A331 A332 A340 A325 A310 A278 A249 A197 A220 A243 A272 A304 A277 A305 A324 A341 A343 A345 A347 A148 A183 A189 A218 A247 A275 A300 A279 A302 A320 A149 A184 A190 A221 A248 A276 A301 A280 A303 A321 A342 A344 A346 A348 Hrest Hin HOe
  beta_reduce
  rw [Idealize.SL.Sem.wp_pure]
  imod Hc
  imodintro
  iapply Hk
  iexact Hc

end Cert.KernelIdeal.Body

end
-- ==== Proof.K.Spec.lean ====
import proofs.«900802_g7700000000000803_dist_gemm_ar_m4096_k4096_n2048_f32_relu_v7x_i8_1_alg».proof.Kernel

namespace Cert.Kernel.Spec

open Idealize.ShloMosaic

def zb (c : Dev nD) : ℕ := c.val / 4

def qq (c : Dev nD) : ℕ := c.val % 4

def bit (k : Fin 3) (c : Dev nD) : ℕ :=
  match k with
  | 0 => if qq c = 1 ∨ qq c = 2 then 1 else 0
  | 1 => qq c / 2
  | 2 => zb c

def par (k : Fin 3) (c : Dev nD) : Dev nD :=
  match k with
  | 0 => ⟨(zb c * 4 + qq c + 1 - 2 * (qq c % 2)) % 8, Nat.mod_lt _ (by decide)⟩
  | 1 => ⟨(zb c * 4 + 3 - qq c) % 8, Nat.mod_lt _ (by decide)⟩
  | 2 => ⟨(c.val + 4) % 8, Nat.mod_lt _ (by decide)⟩

theorem par_par (k : Fin 3) (c : Dev nD) : par k (par k c) = c := by revert k c; decide
def axis (p j : Fin 3) : Fin 3 := ⟨(p.val + j.val) % 3, Nat.mod_lt _ (by decide)⟩

def b (p j : Fin 3) (c : Dev nD) : ℕ := bit (axis p j) c

def rowStart (p : Fin 3) : ℕ := ![0, 1368, 2736] p
def rowLen (p : Fin 3) : ℕ := ![1368, 1368, 1360] p

def away0 (p : Fin 3) (c : Dev nD) : ℕ := (1 - b p 0 c) * 1024

def o1 (p : Fin 3) (c : Dev nD) : ℕ := b p 0 c * 1024

def sub1 (p : Fin 3) (c : Dev nD) : ℕ := away0 p c + (1 - b p 1 c) * 512
def sub2 (p : Fin 3) (c : Dev nD) : ℕ := away0 p c + b p 1 c * 512

def away1 (p : Fin 3) (c : Dev nD) : ℕ := o1 p c + (1 - b p 1 c) * 512
def o2 (p : Fin 3) (c : Dev nD) : ℕ := o1 p c + b p 1 c * 512

def away2 (p : Fin 3) (c : Dev nD) : ℕ := o2 p c + (1 - b p 2 c) * 256
def o3 (p : Fin 3) (c : Dev nD) : ℕ := o2 p c + b p 2 c * 256

end Cert.Kernel.Spec
-- ==== Proof.K.Tree.lean ====
import proofs.«900802_g7700000000000803_dist_gemm_ar_m4096_k4096_n2048_f32_relu_v7x_i8_1_alg».proof.Proof.K.Spec

namespace Cert.Kernel.Spec

open Idealize.ShloMosaic

variable {α : Type} [Add α]

def red1 (P : Dev nD → α) (p : Fin 3) (c : Dev nD) : α := P (par (axis p 0) c) + P c

def red2 (P : Dev nD → α) (p : Fin 3) (c : Dev nD) : α := red1 P p c + red1 P p (par (axis p 1) c)

def red3 (P : Dev nD → α) (p : Fin 3) (c : Dev nD) : α := red2 P p c + red2 P p (par (axis p 2) c)

end Cert.Kernel.Spec
-- ==== Proof.K.Vals.lean ====
import proofs.«900802_g7700000000000803_dist_gemm_ar_m4096_k4096_n2048_f32_relu_v7x_i8_1_alg».proof.Proof.K.Tree
import proofs.«900802_g7700000000000803_dist_gemm_ar_m4096_k4096_n2048_f32_relu_v7x_i8_1_alg».proof.Proof.Gen.Kernel.Skeleton
import Idealize.ShloMosaic.Lib.ValueIdx

noncomputable section

namespace Cert.Kernel.Vals

open Idealize.ShloMosaic Cert.Kernel.Spec Cert.Kernel.Gen
open Idealize.ShloMosaic.ValueIdx

variable {F : FTy → Type} [FloatOps F]

local instance : Add (F .f32) := ⟨FloatOps.addf⟩

def junk : F .f32 := FloatOps.ofBits .f32 0x00000000#32

variable (x : Dev nD → Vec F S4096x512 .f32) (w : Dev nD → Vec F S512x2048 .f32)

def xrowsA (d : Dev nD) (r0 : ℕ) (h : r0 + 1368 ≤ 4096) : Vec F S1368x512 .f32 :=
  fun y => x d (ix2 ⟨r0 + (y 0).val, by have h0 : (y 0).val < 1368 := (y 0).isLt; show r0 + (y 0).val < 4096; omega⟩ (y 1))

def xrowsB (d : Dev nD) : Vec F S1360x512 .f32 :=
  fun y => x d (ix2 ⟨2736 + (y 0).val, by have h0 : (y 0).val < 1360 := (y 0).isLt; show 2736 + (y 0).val < 4096; omega⟩ (y 1))

def wcols (d : Dev nD) (t : Fin 4) : Vec F S512x512 .f32 :=
  fun y => w d (ix2 (y 0) ⟨512 * t.val + (y 1).val, by have h1 : (y 1).val < 512 := (y 1).isLt; have := t.isLt; show 512 * t.val + (y 1).val < 2048; omega⟩)

def mmA (a : Vec F S1368x512 .f32) (bm : Vec F S512x512 .f32) : FVec F S1368x512 .f32 :=
  matmul dot_S1368x512_S512x512_S1368x512_1_0_0_1_n_n none (shapeCast S1368x512 a shapeCasts_S1368x512_S1368x512)
    (shapeCast S512x512 bm shapeCasts_S512x512_S512x512) (constant S1368x512 .f32 0x00000000#32)
def mmB (a : Vec F S1360x512 .f32) (bm : Vec F S512x512 .f32) : FVec F S1360x512 .f32 :=
  matmul dot_S1360x512_S512x512_S1360x512_1_0_0_1_n_n none (shapeCast S1360x512 a shapeCasts_S1360x512_S1360x512)
    (shapeCast S512x512 bm shapeCasts_S512x512_S512x512) (constant S1360x512 .f32 0x00000000#32)

def own (p : Fin 3) (r col : ℕ) (d : Dev nD) : F .f32 :=
  if hc : col < 2048 then
    match p with
    | 0 => if hr : r < 1368 then mmA (xrowsA x d 0 (by omega)) (wcols w d ⟨col / 512, by omega⟩) (ix2 ⟨r, hr⟩ ⟨col % 512, Nat.mod_lt _ (by omega)⟩) else junk
    | 1 => if hr : r < 1368 then mmA (xrowsA x d 1368 (by omega)) (wcols w d ⟨col / 512, by omega⟩) (ix2 ⟨r, hr⟩ ⟨col % 512, Nat.mod_lt _ (by omega)⟩) else junk
    | 2 => if hr : r < 1360 then mmB (xrowsB x d) (wcols w d ⟨col / 512, by omega⟩) (ix2 ⟨r, hr⟩ ⟨col % 512, Nat.mod_lt _ (by omega)⟩) else junk
  else junk

def st1 (p : Fin 3) (r col : ℕ) (c : Dev nD) : F .f32 := red1 (own x w p r col) p c
def st2 (p : Fin 3) (r col : ℕ) (c : Dev nD) : F .f32 := red2 (own x w p r col) p c
def st3 (p : Fin 3) (r col : ℕ) (c : Dev nD) : F .f32 := red3 (own x w p r col) p c

def fin (p : Fin 3) (r col : ℕ) (c : Dev nD) : F .f32 :=
  FloatOps.maximumf (st3 x w p r col c) (Scalar.ofBits .f32 0x00000000#32)

end Cert.Kernel.Vals

end
-- ==== Proof.K.Regions.lean ====
import proofs.«900802_g7700000000000803_dist_gemm_ar_m4096_k4096_n2048_f32_relu_v7x_i8_1_alg».proof.Proof.K.Spec
import proofs.«900802_g7700000000000803_dist_gemm_ar_m4096_k4096_n2048_f32_relu_v7x_i8_1_alg».proof.Proof.Gen.Kernel
import Idealize.ShloMosaic.Lib.ValueIdx

noncomputable section

namespace Cert.Kernel.Reg

open Idealize.ShloMosaic Idealize.ShloMosaic.TcCoe Cert.Kernel.Spec

abbrev wbM : Memref sig .tc .vmem S3x1368x2048 .f32 := Memref.whole cc0_scratch0
abbrev r1M : Memref sig .tc .vmem S3x1368x512 .f32 := Memref.whole cc0_scratch1
abbrev r2M : Memref sig .tc .vmem S3x1368x256 .f32 := Memref.whole cc0_scratch2
abbrev outM : Memref sig .tc .hbm S4096x2048 .f32 := Memref.whole main_v1

def Inb3 (W p n off wd : ℕ) : Prop := p + 1 ≤ 3 ∧ n ≤ 1368 ∧ off + wd ≤ W

theorem inb3 {W p n off wd : ℕ} (h : Inb3 W p n off wd) :
    ∀ a, (![p, 0, off] : Fin 3 → Nat) a + (![1, n, wd] : Fin 3 → Nat) a ≤ (⟨3, ![3, 1368, W]⟩ : Shape).size a := by
  intro a; obtain ⟨h0, h1, h2⟩ := h
  fin_cases a
  · show p + 1 ≤ 3; exact h0
  · show 0 + n ≤ 1368; omega
  · show off + wd ≤ W; exact h2

def wbRect (p n off wd : ℕ) (h : Inb3 2048 p n off wd) : Rect S3x1368x2048 :=
  Rect.unit (s := S3x1368x2048) ![p, 0, off] ![1, n, wd] (inb3 h)
def r1Rect (p n off wd : ℕ) (h : Inb3 512 p n off wd) : Rect S3x1368x512 :=
  Rect.unit (s := S3x1368x512) ![p, 0, off] ![1, n, wd] (inb3 h)
def r2Rect (p n off wd : ℕ) (h : Inb3 256 p n off wd) : Rect S3x1368x256 :=
  Rect.unit (s := S3x1368x256) ![p, 0, off] ![1, n, wd] (inb3 h)

def Inb2 (r0 n off wd : ℕ) : Prop := r0 + n ≤ 4096 ∧ off + wd ≤ 2048
theorem inb2 {r0 n off wd : ℕ} (h : Inb2 r0 n off wd) :
    ∀ a, (![r0, off] : Fin 2 → Nat) a + (![n, wd] : Fin 2 → Nat) a ≤ S4096x2048.size a := by
  intro a; obtain ⟨h0, h1⟩ := h
  fin_cases a
  · show r0 + n ≤ 4096; exact h0
  · show off + wd ≤ 2048; exact h1
def outRect (r0 n off wd : ℕ) (h : Inb2 r0 n off wd) : Rect S4096x2048 :=
  Rect.unit (s := S4096x2048) ![r0, off] ![n, wd] (inb2 h)

variable (c : Dev nD)

def wbReg (p n off wd : ℕ) (h : Inb3 2048 p n off wd) : Finset (Idx ((wbM.access (wbRect p n off wd h)).loc (c : Thread nD τ))) :=
  (wbM.access (wbRect p n off wd h)).set
def r1Reg (p n off wd : ℕ) (h : Inb3 512 p n off wd) : Finset (Idx ((r1M.access (r1Rect p n off wd h)).loc (c : Thread nD τ))) :=
  (r1M.access (r1Rect p n off wd h)).set
def r2Reg (p n off wd : ℕ) (h : Inb3 256 p n off wd) : Finset (Idx ((r2M.access (r2Rect p n off wd h)).loc (c : Thread nD τ))) :=
  (r2M.access (r2Rect p n off wd h)).set
def outReg (r0 n off wd : ℕ) (h : Inb2 r0 n off wd) : Finset (Idx ((outM.access (outRect r0 n off wd h)).loc (c : Thread nD τ))) :=
  (outM.access (outRect r0 n off wd h)).set

end Cert.Kernel.Reg

end
-- ==== Proof.K.Proto.lean ====
import proofs.«900802_g7700000000000803_dist_gemm_ar_m4096_k4096_n2048_f32_relu_v7x_i8_1_alg».proof.Proof.K.Vals
import proofs.«900802_g7700000000000803_dist_gemm_ar_m4096_k4096_n2048_f32_relu_v7x_i8_1_alg».proof.Proof.K.Regions
import proofs.«900802_g7700000000000803_dist_gemm_ar_m4096_k4096_n2048_f32_relu_v7x_i8_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Spec Cert.Kernel.Reg

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem

def ssem (p : Fin 3) (i : Fin 10) : DmaSem sig := ⟨2 + 10 * p.val + i.val, by have := p.isLt; have := i.isLt; show _ < 74; omega⟩
def rsem (p : Fin 3) (i : Fin 10) : DmaSem sig := ⟨32 + 10 * p.val + i.val, by have := p.isLt; have := i.isLt; show _ < 74; omega⟩
def lsem (p : Fin 3) (j : Fin 4) : DmaSem sig := ⟨62 + 4 * p.val + j.val, by have := p.isLt; have := j.isLt; show _ < 74; omega⟩

abbrev barCell (c : Dev nD) : GSem nD τ sig := ((c : Thread nD τ), .reg barS)
abbrev sendCell (c : Dev nD) (p : Fin 3) (i : Fin 10) : GSem nD τ sig := ((c : Thread nD τ), .dma (ssem p i))
abbrev recvCell (c : Dev nD) (p : Fin 3) (i : Fin 10) : GSem nD τ sig := ((c : Thread nD τ), .dma (rsem p i))
abbrev locCell (c : Dev nD) (p : Fin 3) (j : Fin 4) : GSem nD τ sig := ((c : Thread nD τ), .dma (lsem p j))

def cut (i : Fin 10) : Fin 3 := ![0, 0, 1, 2, 2, 1, 0, 1, 0, 0] i

def wid (i : Fin 10) : ℕ := ![512, 512, 512, 256, 256, 256, 256, 256, 256, 512] i

def peer (p : Fin 3) (i : Fin 10) (c : Dev nD) : Dev nD := par (axis p (cut i)) c

def srcOff (p : Fin 3) (i : Fin 10) (c : Dev nD) : ℕ :=
  ![sub1 p c, sub2 p c, away1 p c, away2 p c, o3 p c, o3 p c, o3 p c, away2 p c, away2 p c, away1 p c] i

theorem peer_peer (p : Fin 3) (i : Fin 10) (c : Dev nD) : peer p i (peer p i c) = c := par_par _ _

instance (W p n off wd : ℕ) : Decidable (Inb3 W p n off wd) := by unfold Inb3; infer_instance

theorem inb_src (p : Fin 3) (i : Fin 10) (c : Dev nD) : Inb3 2048 p.val (rowLen p) (srcOff p i c) (wid i) := by
  revert p i c; decide
theorem inb_r1 (p : Fin 3) : Inb3 512 p.val (rowLen p) 0 512 := by revert p; decide
theorem inb_r2 (p : Fin 3) : Inb3 256 p.val (rowLen p) 0 256 := by revert p; decide

variable (x : Dev nD → Vec F S4096x512 .f32) (w : Dev nD → Vec F S512x2048 .f32)

def holdsW (c : Dev nD) (p : Fin 3) (off wd : ℕ) (h : Inb3 2048 p.val (rowLen p) off wd) (val : ℕ → ℕ → F .f32) : sProp 𝕄 :=
  iprop(∃ f : Buf (Elt F) ((wbM.access (wbRect p.val (rowLen p) off wd h)).loc (c : Thread nD τ)),
    (((wbM.access (wbRect p.val (rowLen p) off wd h)).loc (c : Thread nD τ)) ↦[wbReg c p.val (rowLen p) off wd h]{fullShare} f)
    ∗ ⌜∀ y : (⟨3, ![1, rowLen p, wd]⟩ : Shape).Idx, (wbM.access (wbRect p.val (rowLen p) off wd h)).read (Elt F) f y = val (y 1).val (off + (y 2).val)⌝)

def ownsW (c : Dev nD) (p : Fin 3) (off wd : ℕ) (h : Inb3 2048 p.val (rowLen p) off wd) : sProp 𝕄 :=
  iprop(∃ f : Buf (Elt F) ((wbM.access (wbRect p.val (rowLen p) off wd h)).loc (c : Thread nD τ)),
    (((wbM.access (wbRect p.val (rowLen p) off wd h)).loc (c : Thread nD τ)) ↦[wbReg c p.val (rowLen p) off wd h]{fullShare} f))

def holdsR1 (c : Dev nD) (p : Fin 3) (base : ℕ) (val : ℕ → ℕ → F .f32) : sProp 𝕄 :=
  iprop(∃ f : Buf (Elt F) ((r1M.access (r1Rect p.val (rowLen p) 0 512 (inb_r1 p))).loc (c : Thread nD τ)),
    (((r1M.access (r1Rect p.val (rowLen p) 0 512 (inb_r1 p))).loc (c : Thread nD τ)) ↦[r1Reg c p.val (rowLen p) 0 512 (inb_r1 p)]{fullShare} f)
    ∗ ⌜∀ y : (⟨3, ![1, rowLen p, 512]⟩ : Shape).Idx, (r1M.access (r1Rect p.val (rowLen p) 0 512 (inb_r1 p))).read (Elt F) f y = val (y 1).val (base + (y 2).val)⌝)
def ownsR1 (c : Dev nD) (p : Fin 3) : sProp 𝕄 :=
  iprop(∃ f : Buf (Elt F) ((r1M.access (r1Rect p.val (rowLen p) 0 512 (inb_r1 p))).loc (c : Thread nD τ)),
    (((r1M.access (r1Rect p.val (rowLen p) 0 512 (inb_r1 p))).loc (c : Thread nD τ)) ↦[r1Reg c p.val (rowLen p) 0 512 (inb_r1 p)]{fullShare} f))
def holdsR2 (c : Dev nD) (p : Fin 3) (base : ℕ) (val : ℕ → ℕ → F .f32) : sProp 𝕄 :=
  iprop(∃ f : Buf (Elt F) ((r2M.access (r2Rect p.val (rowLen p) 0 256 (inb_r2 p))).loc (c : Thread nD τ)),
    (((r2M.access (r2Rect p.val (rowLen p) 0 256 (inb_r2 p))).loc (c : Thread nD τ)) ↦[r2Reg c p.val (rowLen p) 0 256 (inb_r2 p)]{fullShare} f)
    ∗ ⌜∀ y : (⟨3, ![1, rowLen p, 256]⟩ : Shape).Idx, (r2M.access (r2Rect p.val (rowLen p) 0 256 (inb_r2 p))).read (Elt F) f y = val (y 1).val (base + (y 2).val)⌝)
def ownsR2 (c : Dev nD) (p : Fin 3) : sProp 𝕄 :=
  iprop(∃ f : Buf (Elt F) ((r2M.access (r2Rect p.val (rowLen p) 0 256 (inb_r2 p))).loc (c : Thread nD τ)),
    (((r2M.access (r2Rect p.val (rowLen p) 0 256 (inb_r2 p))).loc (c : Thread nD τ)) ↦[r2Reg c p.val (rowLen p) 0 256 (inb_r2 p)]{fullShare} f))

def who (p : Fin 3) (col : ℕ) : Dev nD :=
  ((List.finRange 8).find? (fun d : Dev nD => decide (o3 p d = col / 256 * 256))).getD 0
theorem who_o3 (p : Fin 3) (d : Dev nD) : ((List.finRange 8).find? (fun d' : Dev nD => decide (o3 p d' = o3 p d))).getD 0 = d := by
  revert p d; decide

def gath (p : Fin 3) (r col : ℕ) : F .f32 := Vals.fin x w p r col (who p col)

def locOff (p : Fin 3) (j : Fin 4) (c : Dev nD) : ℕ := ![o2 p c, away1 p c, sub2 p c, sub1 p c] j
theorem inb_loc (p : Fin 3) (j : Fin 4) (c : Dev nD) : Inb3 2048 p.val (rowLen p) (locOff p j c) 512 := by revert p j c; decide
theorem inb_out (p : Fin 3) (j : Fin 4) (c : Dev nD) : Inb2 (rowStart p) (rowLen p) (locOff p j c) 512 := by
  revert p j c; unfold Inb2; decide

def holdsOut (c : Dev nD) (p : Fin 3) (off : ℕ) (h : Inb2 (rowStart p) (rowLen p) off 512) (val : ℕ → ℕ → F .f32) : sProp 𝕄 :=
  iprop(∃ f : Buf (Elt F) ((outM.access (outRect (rowStart p) (rowLen p) off 512 h)).loc (c : Thread nD τ)),
    (((outM.access (outRect (rowStart p) (rowLen p) off 512 h)).loc (c : Thread nD τ)) ↦[outReg c (rowStart p) (rowLen p) off 512 h]{fullShare} f)
    ∗ ⌜∀ y : (⟨2, ![rowLen p, 512]⟩ : Shape).Idx, (outM.access (outRect (rowStart p) (rowLen p) off 512 h)).read (Elt F) f y = val (y 0).val (off + (y 1).val)⌝)
def ownsOut (c : Dev nD) (p : Fin 3) (off : ℕ) (h : Inb2 (rowStart p) (rowLen p) off 512) : sProp 𝕄 :=
  iprop(∃ f : Buf (Elt F) ((outM.access (outRect (rowStart p) (rowLen p) off 512 h)).loc (c : Thread nD τ)),
    (((outM.access (outRect (rowStart p) (rowLen p) off 512 h)).loc (c : Thread nD τ)) ↦[outReg c (rowStart p) (rowLen p) off 512 h]{fullShare} f))

def shr (i : Fin 10) : PosShare TreeShare :=
  ![fullShare, fullShare, fullShare, fullShare,
    fullShare.left, fullShare.right.left, fullShare.right.right.left,
    fullShare.left, fullShare.right.left, fullShare.left] i

def lshr : PosShare TreeShare := fullShare.right.right.right

def lentW (c : Dev nD) (p : Fin 3) (off wd : ℕ) (h : Inb3 2048 p.val (rowLen p) off wd) (q : PosShare TreeShare) : sProp 𝕄 :=
  iprop(∃ f : Buf (Elt F) ((wbM.access (wbRect p.val (rowLen p) off wd h)).loc (c : Thread nD τ)),
    (((wbM.access (wbRect p.val (rowLen p) off wd h)).loc (c : Thread nD τ)) ↦[wbReg c p.val (rowLen p) off wd h]{q} f))

def barPay (c : Dev nD) (k : Fin 3) : sProp 𝕄 :=
  iprop(ownsW (par k c) k (srcOff k 2 (par k c)) 512 (inb_src k 2 (par k c))
    ∗ ownsW (par k c) k (o2 k (par k c)) 512 (by have := inb_loc k 0 (par k c); exact this)
    ∗ ownsR1 (par k c) ⟨(k.val + 2) % 3, Nat.mod_lt _ (by decide)⟩
    ∗ ownsR2 (par k c) ⟨(k.val + 1) % 3, Nat.mod_lt _ (by decide)⟩)

def recvPay (c : Dev nD) (p : Fin 3) (i : Fin 10) : sProp 𝕄 :=
  match i with
  | ⟨0, _⟩ => iprop(holdsW c p (srcOff p 0 (peer p 0 c)) 512 (inb_src p 0 (peer p 0 c)) (fun r col => Vals.own x w p r col (peer p 0 c))
      ∗ ownsW (peer p 0 c) p (srcOff p 0 (peer p 0 c)) 512 (inb_src p 0 (peer p 0 c)))
  | ⟨1, _⟩ => iprop(holdsW c p (srcOff p 1 (peer p 1 c)) 512 (inb_src p 1 (peer p 1 c)) (fun r col => Vals.own x w p r col (peer p 1 c))
      ∗ ownsW (peer p 1 c) p (srcOff p 1 (peer p 1 c)) 512 (inb_src p 1 (peer p 1 c)))
  | ⟨2, _⟩ => iprop(holdsR1 c p (srcOff p 2 (peer p 2 c)) (fun r col => Vals.st1 x w p r col (peer p 2 c))
      ∗ ownsW (peer p 2 c) p (srcOff p 2 (peer p 2 c)) 512 (inb_src p 2 (peer p 2 c)))
  | ⟨3, _⟩ => iprop(holdsR2 c p (srcOff p 3 (peer p 3 c)) (fun r col => Vals.st2 x w p r col (peer p 3 c))
      ∗ ownsW (peer p 3 c) p (srcOff p 3 (peer p 3 c)) 256 (inb_src p 3 (peer p 3 c)))
  | ⟨n + 4, hn⟩ => holdsW c p (srcOff p ⟨n + 4, hn⟩ (peer p ⟨n + 4, hn⟩ c)) (wid ⟨n + 4, hn⟩) (inb_src p ⟨n + 4, hn⟩ (peer p ⟨n + 4, hn⟩ c)) (gath x w p)

def sendPay (c : Dev nD) (p : Fin 3) (i : Fin 10) : sProp 𝕄 :=
  if i.val < 4 then iprop(emp) else lentW c p (srcOff p i c) (wid i) (inb_src p i c) (shr i)

def locPay (c : Dev nD) (p : Fin 3) (j : Fin 4) : sProp 𝕄 :=
  iprop(holdsOut c p (locOff p j c) (inb_out p j c) (gath x w p) ∗ lentW c p (locOff p j c) 512 (inb_loc p j c) lshr)

def credW (n wd : ℕ) : ℕ := sig.dmaCredit .tc (Kind.tc.table .vmem) (wbM : Memref sig .tc .vmem S3x1368x2048 .f32).view.buf ⟨2, ![n, wd]⟩ .f32
def credR1 (n : ℕ) : ℕ := sig.dmaCredit .tc (Kind.tc.table .vmem) (r1M : Memref sig .tc .vmem S3x1368x512 .f32).view.buf ⟨2, ![n, 512]⟩ .f32
def credR2 (n : ℕ) : ℕ := sig.dmaCredit .tc (Kind.tc.table .vmem) (r2M : Memref sig .tc .vmem S3x1368x256 .f32).view.buf ⟨2, ![n, 256]⟩ .f32
def credOut (n : ℕ) : ℕ := sig.dmaCredit .tc (Kind.tc.table .hbm) (outM : Memref sig .tc .hbm S4096x2048 .f32).view.buf ⟨2, ![n, 512]⟩ .f32

def credOf (p : Fin 3) (i : Fin 10) : ℕ :=
  if i.val = 2 then credR1 (rowLen p) else if i.val = 3 then credR2 (rowLen p) else credW (rowLen p) (wid i)

theorem numel_pos (p : Fin 3) (wd : ℕ) (h : 0 < wd) : 0 < (⟨2, ![rowLen p, wd]⟩ : Shape).numel := by
  have hr : 0 < rowLen p := by revert p; decide
  show 0 < ∏ a : Fin 2, (![rowLen p, wd] : Fin 2 → ℕ) a
  rw [Fin.prod_univ_two]; exact Nat.mul_pos hr h
theorem credOf_pos (p : Fin 3) (i : Fin 10) : 0 < credOf p i := by
  unfold credOf credR1 credR2 credW
  split_ifs
  · exact sig.dmaCredit_pos _ _ _ _ _ (numel_pos p 512 (by decide))
  · exact sig.dmaCredit_pos _ _ _ _ _ (numel_pos p 256 (by decide))
  · exact sig.dmaCredit_pos _ _ _ _ _ (numel_pos p (wid i) (by revert i; decide))
theorem credOut_pos (p : Fin 3) : 0 < credOut (rowLen p) := sig.dmaCredit_pos _ _ _ _ _ (numel_pos p 512 (by decide))

inductive Role | stage | send (p : Fin 3) (i : Fin 10) | recv (p : Fin 3) (i : Fin 10) | loc (p : Fin 3) (j : Fin 4)
  deriving DecidableEq
def roleOf (q : DmaSem sig) : Role :=
  if h : q.val < 2 then .stage
  else if h1 : q.val < 32 then .send ⟨(q.val - 2) / 10, by omega⟩ ⟨(q.val - 2) % 10, Nat.mod_lt _ (by decide)⟩
  else if h2 : q.val < 62 then .recv ⟨(q.val - 32) / 10, by omega⟩ ⟨(q.val - 32) % 10, Nat.mod_lt _ (by decide)⟩
  else .loc ⟨(q.val - 62) / 4, by have hq : q.val < 74 := q.isLt; omega⟩ ⟨(q.val - 62) % 4, Nat.mod_lt _ (by decide)⟩

theorem roleOf_ssem (p : Fin 3) (i : Fin 10) : roleOf (ssem p i) = .send p i := by revert p i; decide
theorem roleOf_rsem (p : Fin 3) (i : Fin 10) : roleOf (rsem p i) = .recv p i := by revert p i; decide
theorem roleOf_lsem (p : Fin 3) (j : Fin 4) : roleOf (lsem p j) = .loc p j := by revert p j; decide

def cubeRd : Rounds.Schedule (GSem nD τ sig) (Fin 3) 𝕄 where
  duties g r :=
    if r = 0 ∧ g.1.2 = .tc then
      match g.2 with
      | .reg s => if s = barS then Finset.univ else ∅
      | .dma q => match roleOf q with | .stage => ∅ | _ => {0}
    else ∅
  amount g _ _ :=
    match g.2 with
    | .reg _ => 1
    | .dma q => match roleOf q with
      | .stage => 1
      | .send p i => credOf p i
      | .recv p i => credOf p i
      | .loc p _ => credOut (rowLen p)
  payload g _ d :=
    match g.2 with
    | .reg s => if s = barS then barPay g.1.1 d else iprop(emp)
    | .dma q => match roleOf q with
      | .stage => iprop(emp)
      | .send p i => sendPay g.1.1 p i
      | .recv p i => recvPay x w g.1.1 p i
      | .loc p j => locPay x w g.1.1 p j
  amount_pos g _ _ _ := by
    obtain ⟨t, s | q⟩ := g
    · exact Nat.one_pos
    · show 0 < (match roleOf q with
        | .stage => 1 | .send p i => credOf p i | .recv p i => credOf p i | .loc p _ => credOut (rowLen p))
      cases roleOf q with
      | stage => exact Nat.one_pos
      | send p i => exact credOf_pos p i
      | recv p i => exact credOf_pos p i
      | loc p j => exact credOut_pos p

/-- Names the nine buffers once, so that no part's statement repeats them. -/
abbrev withBufs {β : Sort _} (f : (a0 : Memref sig .tc .vmem S4096x512 .f32) → a0.IsWhole → (a1 : Memref sig .tc .vmem S512x2048 .f32) → a1.IsWhole
    → (a2 : Memref sig .tc .hbm S4096x2048 .f32) → a2.IsWhole → (a3 : Memref sig .tc .vmem S3x1368x2048 .f32) → a3.IsWhole
    → (a4 : Memref sig .tc .vmem S3x1368x512 .f32) → a4.IsWhole → (a5 : Memref sig .tc .vmem S3x1368x256 .f32) → a5.IsWhole
    → DmaSems sig S3x10 → DmaSems sig S3x10 → DmaSems sig S3x4 → β) : β :=
  f (Memref.whole cc0_stg0_0) (Memref.isWhole_whole _) (Memref.whole cc0_stg1_0) (Memref.isWhole_whole _) (Memref.whole main_v1)
    (Memref.isWhole_whole _) (Memref.whole cc0_scratch0) (Memref.isWhole_whole _) (Memref.whole cc0_scratch1) (Memref.isWhole_whole _)
    (Memref.whole cc0_scratch2) (Memref.isWhole_whole _) cc0_scratch3 cc0_scratch4 cc0_scratch5

end Cert.Kernel.Proto

end
-- ==== Proof.K.Launch.lean ====
import proofs.«900802_g7700000000000803_dist_gemm_ar_m4096_k4096_n2048_f32_relu_v7x_i8_1_alg».proof.Proof.K.Proto
import proofs.«900802_g7700000000000803_dist_gemm_ar_m4096_k4096_n2048_f32_relu_v7x_i8_1_alg».proof.Proof.Gen.Kernel.Points
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Spec Cert.Kernel.Reg Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def xOf (c : Dev nD) : Vec F S4096x512 .f32 := m ((c : Thread nD τ).loc main_arg0)
def wOf (c : Dev nD) : Vec F S512x2048 .f32 := m ((c : Thread nD τ).loc main_arg1)

abbrev PI : Type := Fin 3 × Fin 10
abbrev PJ : Type := Fin 3 × Fin 4

abbrev OIx : Type := PI ⊕ PI ⊕ PJ

abbrev CIx : Type := Unit ⊕ OIx

instance : DecidableEq OIx := inferInstance
instance : DecidableEq CIx := inferInstance
instance : DecidableEq (Dev nD × CIx) := inferInstance

def osem : OIx → SemLoc sig
  | .inl pi => .dma (ssem pi.1 pi.2)
  | .inr (.inl pi) => .dma (rsem pi.1 pi.2)
  | .inr (.inr pj) => .dma (lsem pj.1 pj.2)
def csem : CIx → SemLoc sig
  | .inl _ => .reg barS
  | .inr k => osem k
abbrev kcell (ck : Dev nD × CIx) : GSem nD τ sig := ((ck.1 : Thread nD τ), csem ck.2)

def sendOrder : List PI :=
  [(0,0),(1,0),(2,0),(0,1),(1,1),(2,1),(0,2),(1,2),(2,2),(0,3),(1,3),(2,3),(0,4),(0,5),(0,6),(1,4),(1,5),(1,6),
   (2,4),(2,5),(2,6),(0,7),(0,8),(1,7),(1,8),(2,7),(2,8),(0,9),(1,9),(2,9)]

def waitOrder : List PI :=
  [(0,0),(1,0),(2,0),(0,1),(0,2),(1,1),(1,2),(2,1),(2,2),(0,3),(1,3),(2,3),(0,4),(1,4),(2,4),(0,5),(0,7),(1,5),
   (1,7),(2,5),(2,7),(0,6),(0,8),(1,6),(1,8),(2,6),(2,8),(0,9),(1,9),(2,9)]

def locOrder : List PJ := [(0,0),(1,0),(2,0),(0,1),(1,1),(2,1),(0,2),(1,2),(2,2),(0,3),(1,3),(2,3)]
def locWaitOrder : List PJ := [(0,0),(0,1),(0,2),(0,3),(1,0),(1,1),(1,2),(1,3),(2,0),(2,1),(2,2),(2,3)]

theorem sendOrder_univ : (Finset.univ : Finset PI) = sendOrder.toFinset := by decide
theorem sendOrder_nodup : sendOrder.Nodup := by decide
theorem waitOrder_univ : (Finset.univ : Finset PI) = waitOrder.toFinset := by decide
theorem waitOrder_nodup : waitOrder.Nodup := by decide
theorem locOrder_univ : (Finset.univ : Finset PJ) = locOrder.toFinset := by decide
theorem locOrder_nodup : locOrder.Nodup := by decide
theorem locWaitOrder_univ : (Finset.univ : Finset PJ) = locWaitOrder.toFinset := by decide
theorem locWaitOrder_nodup : locWaitOrder.Nodup := by decide

inductive Pay | bar (k : Fin 3) | copy (p : Fin 3) (i : Fin 10)
  deriving DecidableEq

def payDev (c : Dev nD) : Pay → Dev nD
  | .bar k => par k c
  | .copy p i => peer p i c
def paySem : Pay → SemLoc sig
  | .bar _ => .reg barS
  | .copy p i => .dma (rsem p i)
def payAmt : Pay → ℕ
  | .bar _ => 1
  | .copy p i => credOf p i
abbrev payCell (c : Dev nD) (a : Pay) : GSem nD τ sig := ((payDev c a : Thread nD τ), paySem a)

def pays : List Pay :=
  [.bar 0, .bar 1, .bar 2,
   .copy 0 0, .copy 1 0, .copy 2 0, .copy 0 1, .copy 1 1, .copy 2 1, .copy 0 2, .copy 1 2, .copy 2 2,
   .copy 0 3, .copy 1 3, .copy 2 3, .copy 0 4, .copy 0 5, .copy 0 6, .copy 1 4, .copy 1 5, .copy 1 6,
   .copy 2 4, .copy 2 5, .copy 2 6, .copy 0 7, .copy 0 8, .copy 1 7, .copy 1 8, .copy 2 7, .copy 2 8,
   .copy 0 9, .copy 1 9, .copy 2 9]

def owedOf (c : Dev nD) (l : List Pay) : CellTallies nD τ sig Unit :=
  l.foldr (fun a O => O + tallyAt (payCell c a) () (payAmt a)) 0

theorem owedOf_cons (c : Dev nD) (a : Pay) (l : List Pay) :
    owedOf c (a :: l) = owedOf c l + tallyAt (payCell c a) () (payAmt a) := rfl

def O₀ (c : Dev nD) : CellTallies nD τ sig Unit := owedOf c pays

def wpos (p : Fin 3) (i : Fin 10) : ℕ := waitOrder.idxOf (p, i)

def L (g : GSem nD τ sig) : Finset Unit := if g.1.2 = .tc then {()} else ∅

def lv (g : GSem nD τ sig) (_ : Unit) : ℕ :=
  match g.2 with
  | .reg _ => 1
  | .dma q => match roleOf q with
    | .recv p i => 2 + wpos p i
    | _ => 0

def payLv : Pay → ℕ
  | .bar _ => 1
  | .copy p i => 2 + wpos p i

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (p : Fin 3) (i : Fin 10) : lv (recvCell c p i) () = 2 + wpos p i := by
  show (match roleOf (rsem p i) with | .recv p i => 2 + wpos p i | _ => 0) = 2 + wpos p i; rw [roleOf_rsem]
theorem lv_payCell (c : Dev nD) (a : Pay) : lv (payCell c a) () = payLv a := by
  cases a with
  | bar k => rfl
  | copy p i => exact lv_recv _ p i
theorem payLv_pos (a : Pay) : 0 < payLv a := by cases a <;> simp [payLv]

theorem owedOf_pos {c : Dev nD} {l : List Pay} {g : GSem nD τ sig} {u : Unit} (h : 0 < owedOf c l g u) : ∃ a ∈ l, g = payCell c a := by
  induction l with
  | nil => exact absurd h (Nat.lt_irrefl 0)
  | cons a l ih =>
    rw [owedOf_cons] at h
    rcases Pipeline.add_pos_cases h with h1 | h2
    · obtain ⟨b, hb, rfl⟩ := ih h1; exact ⟨b, List.mem_cons_of_mem _ hb, rfl⟩
    · exact ⟨a, List.mem_cons_self, (Pipeline.tallyAt_pos h2).1⟩

omit [FloatOps F] in

theorem mayWait_of_lt (c : Dev nD) (s : SemLoc sig) (l : List Pay) (h : ∀ a ∈ l, lv ((c : Thread nD τ), s) () < payLv a) :
    (levAts L lv : sProp 𝕄) ⊢ MayWait (c : Thread nD τ) s () (owedOf c l) :=
  Pipeline.mayWait_of_levAts (L := L) (lev := lv) (by rw [L_tc]; exact Finset.mem_singleton_self _) fun g u hg => by
    obtain ⟨a, ha, rfl⟩ := owedOf_pos hg
    exact ⟨by rw [L_tc]; exact Finset.mem_singleton_self _, by rw [lv_payCell]; exact h a ha⟩

omit [FloatOps F] in

theorem mayWait_bar (c : Dev nD) :
    (levAts L lv : sProp 𝕄) ⊢ MayWait (c : Thread nD τ) (.reg barS) () (owedOf c (pays.drop 3)) :=
  mayWait_of_lt c _ _ (by rw [lv_bar]; decide)
omit [FloatOps F] in

theorem mayWait_recv (c : Dev nD) (p : Fin 3) (i : Fin 10) (l : List Pay) (h : ∀ a ∈ l, 2 + wpos p i < payLv a) :
    (levAts L lv : sProp 𝕄) ⊢ MayWait (c : Thread nD τ) (.dma (rsem p i)) () (owedOf c l) :=
  mayWait_of_lt c _ _ (by rw [lv_recv]; exact h)
omit [FloatOps F] in

theorem mayWait_low (c : Dev nD) (q : DmaSem sig) (hq : ∀ p i, roleOf q ≠ .recv p i) (l : List Pay) :
    (levAts L lv : sProp 𝕄) ⊢ MayWait (c : Thread nD τ) (.dma q) () (owedOf c l) :=
  mayWait_of_lt c _ _ fun a _ => by
    have h0 : lv ((c : Thread nD τ), SemLoc.dma q) () = 0 := by
      show (match roleOf q with | .recv p i => 2 + wpos p i | _ => 0) = 0
      cases hr : roleOf q <;> first | rfl | exact absurd hr (hq _ _)
    rw [h0]; exact payLv_pos a
omit [FloatOps F] in
theorem mayWait_send (c : Dev nD) (p : Fin 3) (i : Fin 10) (l : List Pay) :
    (levAts L lv : sProp 𝕄) ⊢ MayWait (c : Thread nD τ) (.dma (ssem p i)) () (owedOf c l) :=
  mayWait_low c _ (fun p' i' h => by rw [roleOf_ssem] at h; cases h) l
omit [FloatOps F] in
theorem mayWait_loc (c : Dev nD) (p : Fin 3) (j : Fin 4) (l : List Pay) :
    (levAts L lv : sProp 𝕄) ⊢ MayWait (c : Thread nD τ) (.dma (lsem p j)) () (owedOf c l) :=
  mayWait_low c _ (fun p' i' h => by rw [roleOf_lsem] at h; cases h) l

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def xstg (c : Dev nD) : (cc0_stg0_0 : Ref sig .tc).ty.Contents (Elt F) :=
  (win0_0.blk t₀).view.read (Elt F) (m ((c : Thread nD τ).loc main_arg0))
def wstg (c : Dev nD) : (cc0_stg1_0 : Ref sig .tc).ty.Contents (Elt F) :=
  (win0_1.blk t₀).view.read (Elt F) (m ((c : Thread nD τ).loc main_arg1))

def sliceOf (r : ℕ) : Fin 3 := if r < 1368 then 0 else if r < 2736 then 1 else 2

theorem row_lt (p : Fin 3) {r : ℕ} (hr : r < rowLen p) : rowStart p + r < 4096 := by
  revert r; revert p; decide

def resArr : Vec F S4096x2048 .f32 := fun y =>
  gath (xOf m) (wOf m) (sliceOf (y 0).val) ((y 0).val - rowStart (sliceOf (y 0).val)) (y 1).val

def IsRes (res : Vec F S4096x2048 .f32) : Prop :=
  ∀ (p : Fin 3) (r col : ℕ) (hr : r < rowLen p) (hc : col < 2048),
    res (ValueIdx.ix2 ⟨rowStart p + r, row_lt p hr⟩ ⟨col, hc⟩) = gath (xOf m) (wOf m) p r col

theorem sliceOf_spec (r : ℕ) (h : r < 4096) : rowStart (sliceOf r) ≤ r ∧ r - rowStart (sliceOf r) < rowLen (sliceOf r) := by
  unfold sliceOf
  split_ifs with h1 h2
  · exact ⟨Nat.zero_le _, by show r - 0 < 1368; omega⟩
  · exact ⟨by show 1368 ≤ r; omega, by show r - 1368 < 1368; omega⟩
  · exact ⟨by show 2736 ≤ r; omega, by show r - 2736 < 1360; omega⟩

theorem eq_resArr {res : Vec F S4096x2048 .f32} (h : IsRes m res) : res = resArr m := by
  funext y
  obtain ⟨a, b, rfl⟩ : ∃ a b, y = ValueIdx.ix2 a b := ⟨_, _, ValueIdx.eq_ix2 y⟩
  obtain ⟨h1, h2⟩ := sliceOf_spec a.val a.isLt
  have := h (sliceOf a.val) (a.val - rowStart (sliceOf a.val)) b.val h2 b.isLt
  unfold resArr
  rw [← this]
  congr 1
  exact congrArg (fun t => ValueIdx.ix2 t b) (Fin.ext (by show a.val = rowStart (sliceOf a.val) + (a.val - rowStart (sliceOf a.val)); omega))

abbrev Rd : Rounds.Schedule (GSem nD τ sig) (Fin 3) 𝕄 := cubeRd (xOf m) (wOf m)

set_option synthInstance.maxHeartbeats 2000000 in
set_option maxHeartbeats 2000000 in
instance Rd_payload_storable (g : GSem nD τ sig) (r : ℕ) (d : Fin 3) :
    BI.Storable (upEmb : UEmb _ 𝕄) ((Rd m).payload g r d) := by
  obtain ⟨t, s | q⟩ := g
  · show BI.Storable upEmb (if s = barS then barPay t.1 d else iprop(emp))
    unfold barPay ownsW ownsR1 ownsR2
    split <;> infer_instance
  · show BI.Storable upEmb (match roleOf q with
      | .stage => iprop(emp) | .send p i => sendPay t.1 p i | .recv p i => recvPay (xOf m) (wOf m) t.1 p i | .loc p j => locPay (xOf m) (wOf m) t.1 p j)
    cases roleOf q <;> dsimp only
    · infer_instance
    · unfold sendPay lentW; split <;> infer_instance
    · unfold recvPay holdsW ownsW holdsR1 holdsR2; split <;> infer_instance
    · unfold locPay holdsOut lentW; infer_instance

def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

theorem inv_at (K : Dev nD × CIx → ℕ) (ck : Dev nD × CIx) : records m K ⊢ cellInv ER (Rd m) (K ck) (kcell ck) :=
  sep_elim_left.trans (bigSep_elim (Finset.mem_univ ck))
theorem reached_at (K : Dev nD × CIx → ℕ) (ck : Dev nD × CIx) : records m K ⊢ reached ER (kcell ck) 0 :=
  sep_elim_right.trans (bigSep_elim (Finset.mem_univ ck))

abbrev kBar (d : Dev nD) : Dev nD × CIx := (d, .inl ())
abbrev kSend (d : Dev nD) (p : Fin 3) (i : Fin 10) : Dev nD × CIx := (d, .inr (.inl (p, i)))
abbrev kRecv (d : Dev nD) (p : Fin 3) (i : Fin 10) : Dev nD × CIx := (d, .inr (.inr (.inl (p, i))))
abbrev kLoc (d : Dev nD) (p : Fin 3) (j : Fin 4) : Dev nD × CIx := (d, .inr (.inr (.inr (p, j))))

theorem inv_bar (K : Dev nD × CIx → ℕ) (d : Dev nD) : records m K ⊢ cellInv ER (Rd m) (K (kBar d)) (barCell d) := inv_at m K (kBar d)
theorem inv_send (K : Dev nD × CIx → ℕ) (d : Dev nD) (p : Fin 3) (i : Fin 10) : records m K ⊢ cellInv ER (Rd m) (K (kSend d p i)) (sendCell d p i) := inv_at m K (kSend d p i)
theorem inv_recv (K : Dev nD × CIx → ℕ) (d : Dev nD) (p : Fin 3) (i : Fin 10) : records m K ⊢ cellInv ER (Rd m) (K (kRecv d p i)) (recvCell d p i) := inv_at m K (kRecv d p i)
theorem inv_loc (K : Dev nD × CIx → ℕ) (d : Dev nD) (p : Fin 3) (j : Fin 4) : records m K ⊢ cellInv ER (Rd m) (K (kLoc d p j)) (locCell d p j) := inv_at m K (kLoc d p j)
theorem reached_bar (K : Dev nD × CIx → ℕ) (d : Dev nD) : records m K ⊢ reached ER (barCell d) 0 := reached_at m K (kBar d)
theorem reached_send (K : Dev nD × CIx → ℕ) (d : Dev nD) (p : Fin 3) (i : Fin 10) : records m K ⊢ reached ER (sendCell d p i) 0 := reached_at m K (kSend d p i)
theorem reached_recv (K : Dev nD × CIx → ℕ) (d : Dev nD) (p : Fin 3) (i : Fin 10) : records m K ⊢ reached ER (recvCell d p i) 0 := reached_at m K (kRecv d p i)
theorem reached_loc (K : Dev nD × CIx → ℕ) (d : Dev nD) (p : Fin 3) (j : Fin 4) : records m K ⊢ reached ER (locCell d p j) 0 := reached_at m K (kLoc d p j)

def payToks (c : Dev nD) : sProp 𝕄 :=
  iprop(bigSepL [(0 : Fin 3), 1, 2] (fun k => dutyTok ER (barCell (par k c)) 0 k)
    ∗ bigSepL sendOrder (fun pi => iprop(dutyTok ER (sendCell c pi.1 pi.2) 0 0 ∗ dutyTok ER (recvCell (peer pi.1 pi.2 c) pi.1 pi.2) 0 0))
    ∗ bigSepL locOrder (fun pj => dutyTok ER (locCell c pj.1 pj.2) 0 0))

def waitRes (c : Dev nD) : sProp 𝕄 :=
  iprop((atPos ER (barCell c) 0 ∅ 0 ∗ cred (tallyAt (barCell c) () 3))
    ∗ bigSepL waitOrder (fun pi => iprop(atPos ER (sendCell c pi.1 pi.2) 0 ∅ 0 ∗ atPos ER (recvCell c pi.1 pi.2) 0 ∅ 0
        ∗ cred (tallyAt (recvCell c pi.1 pi.2) () (credOf pi.1 pi.2))))
    ∗ bigSepL locWaitOrder (fun pj => atPos ER (locCell c pj.1 pj.2) 0 ∅ 0))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def inputs (c : Dev nD) : sProp 𝕄 :=
  iprop((((c : Thread nD τ).loc cc0_stg0_0) ↦{fullShare} xstg m c) ∗ (((c : Thread nD τ).loc cc0_stg1_0) ↦{fullShare} wstg m c))

def bodyPreK (K : Dev nD × CIx → ℕ) (c : Dev nD) : sProp 𝕄 :=
  iprop(records m K ∗ levAts L lv ∗ payToks c ∗ waitRes c
    ∗ (∃ W : Waits sig Unit, owes (c : Thread nD τ) (O₀ c) W)
    ∗ inputs m c ∗ scratch c
    ∗ (((c : Thread nD τ).loc main_v1) ↦{fullShare} m ((c : Thread nD τ).loc main_v1)))

def closedCells (c : Dev nD) : sProp 𝕄 :=
  iprop(bigSepL waitOrder (fun pi => iprop(semVal (sendCell c pi.1 pi.2) 0 ∗ semVal (recvCell c pi.1 pi.2) 0))
    ∗ bigSepL locWaitOrder (fun pj => semVal (locCell c pj.1 pj.2) 0))

def resultAt (c : Dev nD) : sProp 𝕄 :=
  iprop(∃ res : Buf (Elt F) ((c : Thread nD τ).loc main_v1), ⌜IsRes m res⌝ ∗ (((c : Thread nD τ).loc main_v1) ↦{fullShare} res))

def bodyPost (c : Dev nD) : sProp 𝕄 :=
  iprop(resultAt m c ∗ scratch c ∗ inputs m c ∗ closedCells c ∗ (∃ W : Waits sig Unit, owes (c : Thread nD τ) 0 W))

abbrev crRecv (c : Dev nD) (pi : PI) : sProp 𝕄 := cred (tallyAt (recvCell c pi.1 pi.2) () (credOf pi.1 pi.2))

def payToksU (c : Dev nD) : sProp 𝕄 :=
  iprop(bigSep Finset.univ (fun k : Fin 3 => dutyTok ER (barCell (par k c)) 0 k)
    ∗ bigSep Finset.univ (fun pi : PI => dutyTok ER (sendCell c pi.1 pi.2) 0 0)
    ∗ bigSep Finset.univ (fun pi : PI => dutyTok ER (recvCell (peer pi.1 pi.2 c) pi.1 pi.2) 0 0)
    ∗ bigSep Finset.univ (fun pj : PJ => dutyTok ER (locCell c pj.1 pj.2) 0 0))
def posnsU (c : Dev nD) : sProp 𝕄 :=
  iprop(atPos ER (barCell c) 0 ∅ 0 ∗ bigSep Finset.univ (fun pi : PI => atPos ER (sendCell c pi.1 pi.2) 0 ∅ 0)
    ∗ bigSep Finset.univ (fun pi : PI => atPos ER (recvCell c pi.1 pi.2) 0 ∅ 0)
    ∗ bigSep Finset.univ (fun pj : PJ => atPos ER (locCell c pj.1 pj.2) 0 ∅ 0))
def credsU (c : Dev nD) : sProp 𝕄 :=
  iprop(cred (tallyAt (barCell c) () 3) ∗ bigSep Finset.univ (crRecv c))

omit [FloatOps F] in
theorem payToks_intro (c : Dev nD) : (payToksU c : sProp 𝕄) ⊢ payToks c := by
  unfold payToksU payToks
  rw [← bigSep_univ_eq_bigSepL [(0 : Fin 3), 1, 2] (by decide) (by decide), ← bigSep_univ_eq_bigSepL sendOrder sendOrder_univ sendOrder_nodup,
    ← bigSep_univ_eq_bigSepL locOrder locOrder_univ locOrder_nodup, bigSep_sep']
  iintro ⟨H1, H2, H3, H4⟩
  iframe

omit [FloatOps F] in
theorem waitRes_intro (c : Dev nD) : iprop(posnsU c ∗ credsU c) ⊢ (waitRes c : sProp 𝕄) := by
  unfold posnsU credsU waitRes
  rw [← bigSep_univ_eq_bigSepL waitOrder waitOrder_univ waitOrder_nodup, ← bigSep_univ_eq_bigSepL locWaitOrder locWaitOrder_univ locWaitOrder_nodup,
    bigSep_sep', bigSep_sep']
  iintro ⟨⟨HaB, HaS, HaR, HaL⟩, HcB, HcR⟩
  iframe

omit [FloatOps F] in

theorem closedCells_elim (c : Dev nD) : (closedCells c : sProp 𝕄) ⊢ Pipeline.ownSems0 osem c := by
  unfold closedCells Pipeline.ownSems0
  rw [← bigSep_univ_eq_bigSepL waitOrder waitOrder_univ waitOrder_nodup, ← bigSep_univ_eq_bigSepL locWaitOrder locWaitOrder_univ locWaitOrder_nodup,
    bigSep_sep' Finset.univ (fun pi : PI => semVal (sendCell c pi.1 pi.2) 0) (fun pi : PI => semVal (recvCell c pi.1 pi.2) 0),
    bigSep_univ_sum, bigSep_univ_sum]
  exact sep_assoc.1

def start (c : Dev nD) : sProp 𝕄 :=
  iprop((∃ K, records m K) ∗ payToksU c ∗ posnsU c ∗ credsU c ∗ levAts L lv
    ∗ (((c : Thread nD τ).loc main_v1) ↦{fullShare} m ((c : Thread nD τ).loc main_v1)))

def Φ₀ (c : Dev nD) : sProp 𝕄 := iprop(start m c ∗ scratch c)
def Φ₁ (c : Dev nD) : sProp 𝕄 := iprop(resultAt m c ∗ scratch c ∗ closedCells c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem owns_whole' (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole (c : Thread nD τ) b fullShare X

abbrev prog : Prog (TpuEff nD τ sig (Elt F) Λ₀ .tc) PUnit :=
  cc0_body (Memref.whole cc0_stg0_0) (Memref.isWhole_whole _) (Memref.whole cc0_stg1_0) (Memref.isWhole_whole _)
    (Memref.whole main_v1) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5

set_option maxRecDepth 4000 in
def oblPre (c : Dev nD) : sProp 𝕄 :=
  iprop(Φ₀ m c ∗ (dats m 0 c).owesAt () t₀.castSucc
    ∗ (∃ d, ((c : Thread nD τ).loc cc0_stg0_0) ↦{fullShare} (dats m 0 c).before (0 : Fin 2) t₀ d)
    ∗ (∃ d, ((c : Thread nD τ).loc cc0_stg1_0) ↦{fullShare} (dats m 0 c).before (1 : Fin 2) t₀ d))

def oblPost (c : Dev nD) : sProp 𝕄 := iprop(Φ₁ m c ∗ (dats m 0 c).owesAt () t₀.succ ∗ inputs m c)

theorem fetch_0 (t : Fin cfg0.N) : (cfg0.win (0 : Fin 2)).fetch t = true := fetch0_0 t
theorem fetch_1 (t : Fin cfg0.N) : (cfg0.win (1 : Fin 2)).fetch t = true := fetch0_1 t

abbrev BodyHyp : Prop :=
  ∀ (K : Dev nD × CIx → ℕ) (c : Dev nD) (Kt : PUnit → sProp 𝕄),
    iprop(bodyPreK m K c ∗ (bodyPost m c -∗ Kt ⟨⟩)) ⊢ wp frame (wpE (defs₀ (F := F)) 𝒱₀ c none) Set.univ (prog (F := F)) Kt

set_option maxRecDepth 40000 in

theorem body_obligation (hbody : BodyHyp m) (c : Dev nD) : BodyObligation (dats (F := F) m 0 c) (defs₀ (F := F)) 𝒱₀ () Set.univ := fun t => by
  rw [fin_N t]
  rw [bigSep_W0, bigSep_W0]
  simp only [owns_whole']
  show oblPre m c ⊢ wp frame (wpE (defs₀ (F := F)) 𝒱₀ c none) Set.univ (prog (F := F)) (fun _ => oblPost m c)
  unfold oblPre Φ₀ start
  iintro ⟨⟨⟨⟨%K, #HR⟩, Htk, Hat, Hcr, #Hlev, Hout⟩, Hscr⟩, Ho, ⟨%d0, Hx⟩, ⟨%d1, Hw⟩⟩
  rw [show (dats m 0 c).before (0 : Fin 2) t₀ d0 = xstg m c from by unfold Dat.before; rw [if_pos (fetch_0 t₀)]; rfl,
    show (dats m 0 c).before (1 : Fin 2) t₀ d1 = wstg m c from by unfold Dat.before; rw [if_pos (fetch_1 t₀)]; rfl]
  unfold Dat.owesAt Pipeline.owesWithin
  icases Ho with ⟨%W, %hW, HO⟩
  rw [show (dats m 0 c).owed t₀.castSucc = O₀ c from rfl]
  iapply (hbody K c fun _ => oblPost m c)
  isplitl
  · unfold bodyPreK inputs
    iframe HR Hlev Hx Hw Hscr Hout
    isplitl [Htk]; · iapply (payToks_intro c); iexact Htk
    isplitl [Hat Hcr]
    · iapply (waitRes_intro c); iframe Hat Hcr
    iexists W; iexact HO
  · unfold bodyPost oblPost Φ₁ Dat.owesAt Pipeline.owesWithin
    rw [show (dats m 0 c).owed t₀.succ = 0 from rfl]
    iintro ⟨Hres, Hscr, Hin, Hcl, ⟨%W', HO⟩⟩
    iframe Hres Hscr Hcl Hin
    iexists W'; iframe HO
    ipureintro; exact fun _ _ => Or.inl trivial

theorem share_eq (c : Dev nD) (w : Fin cfg0.W) : (dats m 0 c).share w = fullShare := by unfold Dat.share; split <;> rfl

def ixOf : SemLoc sig → CIx
  | .reg _ => .inl ()
  | .dma q => match roleOf q with
    | .stage => .inl ()
    | .send p i => .inr (.inl (p, i))
    | .recv p i => .inr (.inr (.inl (p, i)))
    | .loc p j => .inr (.inr (.inr (p, j)))

theorem ixOf_csem (k : CIx) : ixOf (csem k) = k := by
  rcases k with u | ⟨p, i⟩ | ⟨p, i⟩ | ⟨p, j⟩
  · rfl
  all_goals simp only [csem, osem, ixOf, roleOf_ssem, roleOf_rsem, roleOf_lsem]

theorem csem_injective : Function.Injective csem := Function.LeftInverse.injective ixOf_csem
theorem osem_injective : Function.Injective osem := fun a b h => Sum.inr_injective (csem_injective (show csem (.inr a) = csem (.inr b) from h))

theorem kcell_injective : Function.Injective (kcell : Dev nD × CIx → GSem nD τ sig) := by
  rintro ⟨c, k⟩ ⟨c', k'⟩ h
  obtain rfl : c = c' := congrArg (fun g : GSem nD τ sig => g.1.1) h
  obtain rfl : k = k' := csem_injective (congrArg Prod.snd h)
  rfl
def cubeCells : Finset (GSem nD τ sig) := Finset.univ.map ⟨kcell, kcell_injective⟩

abbrev TIx : Type := Fin 3 ⊕ OIx

def tokOf (cj : Dev nD × TIx) : GSem nD τ sig × ℕ × Fin 3 := match cj.2 with
  | .inl k => (barCell cj.1, 0, k)
  | .inr o => (((cj.1 : Thread nD τ), osem o), 0, 0)
def tixOf (x : GSem nD τ sig × ℕ × Fin 3) : TIx := match ixOf x.1.2 with
  | .inl _ => .inl x.2.2
  | .inr o => .inr o
theorem tixOf_tokOf (cj : Dev nD × TIx) : tixOf (tokOf cj) = cj.2 := by
  obtain ⟨c, k | o⟩ := cj
  · rfl
  · show (match ixOf (csem (.inr o)) with | .inl _ => (Sum.inl 0 : TIx) | .inr o => .inr o) = .inr o
    rw [ixOf_csem]
theorem tokOf_injective : Function.Injective (tokOf : Dev nD × TIx → GSem nD τ sig × ℕ × Fin 3) := by
  rintro ⟨c, j⟩ ⟨c', j'⟩ h
  have h1 : c = c' := by
    have := congrArg (fun x : GSem nD τ sig × ℕ × Fin 3 => x.1.1.1) h
    rcases j with k | o <;> rcases j' with k' | o' <;> exact this
  have h2 : j = j' := by have := congrArg tixOf h; rwa [tixOf_tokOf, tixOf_tokOf] at this
  rw [h1, h2]
def cubeToks : Finset (GSem nD τ sig × ℕ × Fin 3) := Finset.univ.map ⟨tokOf, tokOf_injective⟩

def u₀ : UU :=
  (initOf (Pipeline.cells cfgs cellOf_inj) (Pipeline.launchToks cfgs cellOf_inj), initOf cubeCells cubeToks)

def toks (c : Dev nD) : sProp 𝕄 :=
  bigSep Finset.univ fun j : TIx => dutyTok ER (tokOf (c, j)).1 (tokOf (c, j)).2.1 (tokOf (c, j)).2.2

omit [FloatOps F] in
theorem toks_eq (c : Dev nD) : (toks c : sProp 𝕄)
    = iprop(bigSep Finset.univ (fun k : Fin 3 => dutyTok ER (barCell c) 0 k) ∗ bigSep Finset.univ (fun pi : PI => dutyTok ER (sendCell c pi.1 pi.2) 0 0)
      ∗ bigSep Finset.univ (fun pi : PI => dutyTok ER (recvCell c pi.1 pi.2) 0 0) ∗ bigSep Finset.univ (fun pj : PJ => dutyTok ER (locCell c pj.1 pj.2) 0 0)) := by
  unfold toks; rw [bigSep_univ_sum, bigSep_univ_sum, bigSep_univ_sum]; rfl

def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks c)

def G' (c : Dev nD) : sProp 𝕄 := iprop(∃ K, records m K ∗ payToksU c ∗ posnsU c)

theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun k : CIx => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]; rfl
  iintro HX
  imod (Rounds.fund ER (Rd m) cubeCells cubeToks) $$ HX with ⟨Hst, Hr, Hat, Htok⟩
  imodintro
  unfold G; simp only [hX, hT, bigSep_sep']
  iframe

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_univ_sum, bigSep_univ_of_subsingleton ()]
  exact sep_comm.1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · iframe Hos Hus
  imod (show iprop((bigSep Finset.univ fun k : CIx => semVal (kcell (c, k)) 0) ∗ bigSep Finset.univ fun k : CIx => roundState ER (Rd m) (kcell (c, k)) 0)
      ⊢ (|={Set.univ}=> bigSep Finset.univ fun k : CIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe Hv Hst
  imodintro
  iframe Hinv Hat Htok

omit [FloatOps F] in

theorem bigSep_shuffle {J : Type} [Fintype J] (e : J → Dev nD ≃ Dev nD) (T : Dev nD → J → sProp 𝕄) :
    (bigSep Finset.univ fun c => bigSep Finset.univ fun j => T c j) = bigSep Finset.univ fun c => bigSep Finset.univ fun j => T (e j c) j := by
  rw [bigSep_univ_comm T, bigSep_univ_comm (fun c j => T (e j c) j)]
  exact bigSep_congr fun j _ => bigSep_univ_equiv (e j) (fun c => T c j)

def parE (k : Fin 3) : Dev nD ≃ Dev nD := ⟨par k, par k, par_par k, par_par k⟩
def peerE (pi : PI) : Dev nD ≃ Dev nD := ⟨peer pi.1 pi.2, peer pi.1 pi.2, peer_peer pi.1 pi.2, peer_peer pi.1 pi.2⟩

omit [FloatOps F] in

theorem toks_around : (bigSep Finset.univ fun c : Dev nD => (toks c : sProp 𝕄)) ⊢ bigSep Finset.univ fun c : Dev nD => payToksU c := by
  rw [bigSep_congr (s := Finset.univ) (fun (c : Dev nD) _ => toks_eq c)]
  unfold payToksU
  rw [bigSep_sep', bigSep_sep', bigSep_sep', bigSep_sep', bigSep_sep', bigSep_sep',
    bigSep_shuffle parE (fun c k => dutyTok ER (barCell c) 0 k), bigSep_shuffle peerE (fun c pi => dutyTok ER (recvCell c pi.1 pi.2) 0 0)]
  exact .rfl

def linear (c : Dev nD) : sProp 𝕄 := iprop(posnsU c ∗ payToksU c)

theorem ghost_intro (K : Dev nD × CIx → ℕ) (c : Dev nD) : iprop(records m K ∗ linear c) ⊢ G' m c := by
  unfold linear G'
  iintro ⟨#HR, Hp, Ht⟩
  iexists K
  iframe HR Ht Hp

theorem regroup :
    (bigSep Finset.univ fun c : Dev nD => iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; iframe HI HR
  · iapply ((Entails.of_eq (bigSep_sep' Finset.univ (fun c : Dev nD => bigSep Finset.univ fun k : CIx => (atPos ER (kcell (c, k)) 0 ∅ 0 : sProp 𝕄)) payToksU).symm).trans
      (bigSep_mono fun c _ => show _ ⊢ linear c from Entails.of_eq (by unfold linear posnsU; rw [bigSep_univ_sum, bigSep_univ_sum, bigSep_univ_sum, bigSep_univ_of_subsingleton ()]; rfl)))
    iframe Hat Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem payDev_invol (c : Dev nD) (a : Pay) : payDev (payDev c a) a = c := by
  cases a with
  | bar k => exact par_par k c
  | copy p i => exact peer_peer p i c

omit [FloatOps F] in

theorem launchCred_owedOf (l : List Pay) (c : Dev nD) :
    (Pipeline.launchCred (fun d => owedOf d l) c : sProp 𝕄) ⊢ bigSepL l fun a => cred (tallyAt ((c : Thread nD τ), paySem a) () (payAmt a)) := by
  induction l with
  | nil => exact Entails.of_eq (Pipeline.launchCred_zero c)
  | cons a l ih =>
    rw [show (fun d : Dev nD => owedOf d (a :: l)) = fun d => owedOf d l + tallyAt (payCell d a) () (payAmt a) from rfl,
      Pipeline.launchCred_add (fun d => owedOf d l) (fun d => tallyAt (payCell d a) () (payAmt a)) c, bigSepL_cons]
    exact sep_comm.1.trans ((sep_mono_left (Pipeline.launchCred_tallyAt (paySem a) (fun d => payDev d a) (fun d => payDev d a)
      (fun c => payDev_invol c a) (fun c => payDev_invol c a) () (payAmt a) c)).trans (sep_mono_right ih))

omit [FloatOps F] in
theorem creds (c : Dev nD) : (Pipeline.launchCred O₀ c : sProp 𝕄) ⊢ credsU c := by
  refine (launchCred_owedOf pays c).trans ?_
  unfold credsU
  rw [bigSep_univ_eq_bigSepL sendOrder sendOrder_univ sendOrder_nodup,
    show (tallyAt (barCell c) () 3 : CellTallies nD τ sig Unit) = tallyAt (barCell c) () 1 + (tallyAt (barCell c) () 1 + tallyAt (barCell c) () 1) from by
      rw [tallyAt_add, tallyAt_add]]
  show iprop(cred (tallyAt (barCell c) () 1) ∗ cred (tallyAt (barCell c) () 1) ∗ cred (tallyAt (barCell c) () 1) ∗ bigSepL sendOrder (crRecv c)) ⊢ _
  iintro ⟨H1, H2, H3, Hr⟩
  iframe Hr
  iapply (cred_add _ _).2
  iframe H1
  iapply (cred_add _ _).2
  iframe H2 H3

theorem ownSemFacts : Pipeline.OwnSemFacts cfg0.spec osem := ⟨by decide, osem_injective, by decide⟩

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hout, Hlev, Hcr, -, HG⟩
  ihave Hc := (creds (F := F) c) $$ Hcr
  imodintro
  unfold start G'
  icases HG with ⟨%K, HR, Htk, Hat⟩
  iframe Htk Hat Hc Hlev Hout
  iexists K; iexact HR

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  iframe Hs Hr

theorem phi1_exit (c : Dev nD) :
    (dats m 0 c).Φ (Fin.last cfg0.N) ⊢ iprop(resultAt m c ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hr, Hs, Hc⟩
  iframe Hr Hs
  iapply (closedCells_elim c); iexact Hc

theorem waits (c : Dev nD) : (levAts L lv : sProp 𝕄) ⊢ Pipeline.cellsWaits cfgs (dats m) () 0 c :=
  Pipeline.cellsWaits_intro cfgs (dats m) () 0 c fun w s t => by
    have hq : ∀ p i, roleOf ((cfg0.win w).sem s) ≠ .recv p i := by fin_cases w <;> fin_cases s <;> decide
    rcases t with ⟨_ | _, ht⟩
    · exact mayWait_low c _ hq pays
    · exact mayWait_low c _ hq []

set_option maxRecDepth 40000 in

theorem launch (hbody : BodyHyp m) :
    θ_run defs (onTc (τ := τ) (main (F := F))) ⟨m, fun _ => 0, ρ⟩
      (fun r => ∀ c : Dev nD, r.2.mem ((c : Thread nD τ).loc main_v1) = resArr m
        ∧ r.2.mem ((c : Thread nD τ).loc main_arg0) = m ((c : Thread nD τ).loc main_arg0)
        ∧ r.2.mem ((c : Thread nD τ).loc main_arg1) = m ((c : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cube m) $$ HX with HG
      imodintro
      iframe HP HG)
    (hglob := glob m)
    (hA := fun _ _ => rfl) (hpf := fun _ k => k.elim0)
    (X := start m) (Y := resultAt m) (Z := fun _ => iprop(emp))
    (hX := start_intro m ρ) (hin := phi0_intro m) (hout := phi1_exit m)
    (QY := fun c s => s.mem ((c : Thread nD τ).loc main_v1) = resArr m)
    (hY := fun c s' => by
      unfold resultAt
      iintro ⟨⟨%res, %hres, Hpt⟩, -, HSI⟩
      icombine HSI Hpt gives %hx
      imodintro
      isplitr; · ipureintro; exact (Buf.eq_of_forall_mem_univ hx).trans (eq_resArr m hres)
      iexact HSI)
    (hQ := fun s h c => ⟨(h c).2.2, ((h c).1 0).trans ((dats m 0 c).arrAt_in 0 rfl _), ((h c).1 1).trans ((dats m 0 c).arrAt_in 1 rfl _)⟩)

omit [FloatOps F] in
theorem xstg_eq (c : Dev nD) : xstg m c = xOf m c :=
  Memref.read_access_unit_zero (Elt F) main_arg0 (off := fun a => win0_0.index t₀ a * win0_0.size a)
    (funext fun a => by fin_cases a <;> rfl) _ (m ((c : Thread nD τ).loc main_arg0))
omit [FloatOps F] in
theorem wstg_eq (c : Dev nD) : wstg m c = wOf m c :=
  Memref.read_access_unit_zero (Elt F) main_arg1 (off := fun a => win0_1.index t₀ a * win0_1.size a)
    (funext fun a => by fin_cases a <;> rfl) _ (m ((c : Thread nD τ).loc main_arg1))

end Cert.Kernel.Launch

end
-- ==== Proof.K.EvBarrier.lean ====
import proofs.«900802_g7700000000000803_dist_gemm_ar_m4096_k4096_n2048_f32_relu_v7x_i8_1_alg».proof.Proof.K.Proto
import proofs.«900802_g7700000000000803_dist_gemm_ar_m4096_k4096_n2048_f32_relu_v7x_i8_1_alg».proof.Proof.Gen.Kernel.Skeleton
import Idealize.ShloMosaic.Lib.Tactic

noncomputable section

namespace Cert.Kernel.Body

open Cert.Kernel Cert.Kernel.Gen Cert.Kernel.Spec Cert.Kernel.Reg Cert.Kernel.Proto

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

variable (x : Dev nD → Vec F S4096x512 .f32) (w : Dev nD → Vec F S512x2048 .f32)

theorem duties_bar (c : Dev nD) : (cubeRd x w).duties (barCell c) 0 = Finset.univ := rfl
theorem amount_bar (c : Dev nD) (k : Fin 3) : (cubeRd x w).amount (barCell c) 0 k = 1 := rfl
theorem payload_bar (c : Dev nD) (k : Fin 3) : (cubeRd x w).payload (barCell c) 0 k = barPay (F := F) c k := rfl
theorem expect_bar (c : Dev nD) : (cubeRd x w).expect (barCell c) 0 = 3 := rfl

theorem bigSep_fin_three {M : Type} [URA M] (Φ : Fin 3 → sProp M) :
    bigSep Finset.univ Φ = iprop(Φ 0 ∗ Φ 1 ∗ Φ 2) := by
  rw [show (Finset.univ : Finset (Fin 3)) = {0, 1, 2} from by decide, bigSep_insert (by decide),
    bigSep_insert (by decide), bigSep_singleton]
  rfl

end Cert.Kernel.Body

end
-- ==== Proof.K.Forms.lean ====
import proofs.«900802_g7700000000000803_dist_gemm_ar_m4096_k4096_n2048_f32_relu_v7x_i8_1_alg».proof.Proof.K.Spec
import proofs.«900802_g7700000000000803_dist_gemm_ar_m4096_k4096_n2048_f32_relu_v7x_i8_1_alg».proof.Proof.Gen.Kernel

namespace Cert.Kernel.Forms

open Idealize.ShloMosaic
open Cert.Kernel Cert.Kernel.Spec

variable [Facts]
open Facts₀ Facts

theorem dev_1 (c : Dev nD) : (⟨k0_dev1 c, k0_dev1_lt c⟩ : Dev nD) = par 0 c := by revert c; decide +kernel
theorem dev_2 (c : Dev nD) : (⟨k0_dev2 c, k0_dev2_lt c⟩ : Dev nD) = par 1 c := by revert c; decide +kernel
theorem dev_3 (c : Dev nD) : (⟨k0_dev3 c, k0_dev3_lt c⟩ : Dev nD) = par 2 c := by revert c; decide +kernel

theorem off_1 (c : Dev nD) : k0_off1 c = ![0, sub1 0 c] := by revert c; decide +kernel
theorem off_2 (c : Dev nD) : k0_off2 c = ![0, 0, sub1 0 c] := by revert c; decide +kernel
theorem off_3 (c : Dev nD) : k0_off3 c = ![0, 0, sub1 0 c] := by revert c; decide +kernel
theorem dev_4 (c : Dev nD) : (⟨k0_dev4 c, k0_dev4_lt c⟩ : Dev nD) = par (axis 0 0) c := by revert c; decide +kernel
theorem off_4 (c : Dev nD) : k0_off4 c = ![0, sub1 1 c] := by revert c; decide +kernel
theorem off_5 (c : Dev nD) : k0_off5 c = ![1, 0, sub1 1 c] := by revert c; decide +kernel
theorem off_6 (c : Dev nD) : k0_off6 c = ![1, 0, sub1 1 c] := by revert c; decide +kernel
theorem dev_5 (c : Dev nD) : (⟨k0_dev5 c, k0_dev5_lt c⟩ : Dev nD) = par (axis 1 0) c := by revert c; decide +kernel
theorem off_7 (c : Dev nD) : k0_off7 c = ![0, sub1 2 c] := by revert c; decide +kernel
theorem off_8 (c : Dev nD) : k0_off8 c = ![2, 0, sub1 2 c] := by revert c; decide +kernel
theorem off_9 (c : Dev nD) : k0_off9 c = ![2, 0, sub1 2 c] := by revert c; decide +kernel
theorem dev_6 (c : Dev nD) : (⟨k0_dev6 c, k0_dev6_lt c⟩ : Dev nD) = par (axis 2 0) c := by revert c; decide +kernel

theorem off_10 (c : Dev nD) : k0_off10 c = ![0, sub2 0 c] := by revert c; decide +kernel
theorem off_11 (c : Dev nD) : k0_off11 c = ![0, 0, sub2 0 c] := by revert c; decide +kernel
theorem off_12 (c : Dev nD) : k0_off12 c = ![0, 0, sub2 0 c] := by revert c; decide +kernel
theorem dev_7 (c : Dev nD) : (⟨k0_dev7 c, k0_dev7_lt c⟩ : Dev nD) = par (axis 0 0) c := by revert c; decide +kernel
theorem off_13 (c : Dev nD) : k0_off13 c = ![0, sub2 1 c] := by revert c; decide +kernel
theorem off_14 (c : Dev nD) : k0_off14 c = ![1, 0, sub2 1 c] := by revert c; decide +kernel
theorem off_15 (c : Dev nD) : k0_off15 c = ![1, 0, sub2 1 c] := by revert c; decide +kernel
theorem dev_8 (c : Dev nD) : (⟨k0_dev8 c, k0_dev8_lt c⟩ : Dev nD) = par (axis 1 0) c := by revert c; decide +kernel
theorem off_16 (c : Dev nD) : k0_off16 c = ![0, sub2 2 c] := by revert c; decide +kernel
theorem off_17 (c : Dev nD) : k0_off17 c = ![2, 0, sub2 2 c] := by revert c; decide +kernel
theorem off_18 (c : Dev nD) : k0_off18 c = ![2, 0, sub2 2 c] := by revert c; decide +kernel
theorem dev_9 (c : Dev nD) : (⟨k0_dev9 c, k0_dev9_lt c⟩ : Dev nD) = par (axis 2 0) c := by revert c; decide +kernel

theorem off_19 (c : Dev nD) : k0_off19 c = ![0, 0, away1 0 c] := by revert c; decide +kernel
theorem off_20 (c : Dev nD) : k0_off20 c = ![0, away1 0 c] := by revert c; decide +kernel
theorem off_21 (c : Dev nD) : k0_off21 c = ![0, 0, away1 0 c] := by revert c; decide +kernel
theorem dev_10 (c : Dev nD) : (⟨k0_dev10 c, k0_dev10_lt c⟩ : Dev nD) = par (axis 0 1) c := by revert c; decide +kernel
theorem off_22 (c : Dev nD) : k0_off22 c = ![1, 0, away1 1 c] := by revert c; decide +kernel
theorem off_23 (c : Dev nD) : k0_off23 c = ![0, away1 1 c] := by revert c; decide +kernel
theorem off_24 (c : Dev nD) : k0_off24 c = ![1, 0, away1 1 c] := by revert c; decide +kernel
theorem dev_11 (c : Dev nD) : (⟨k0_dev11 c, k0_dev11_lt c⟩ : Dev nD) = par (axis 1 1) c := by revert c; decide +kernel
theorem off_25 (c : Dev nD) : k0_off25 c = ![2, 0, away1 2 c] := by revert c; decide +kernel
theorem off_26 (c : Dev nD) : k0_off26 c = ![0, away1 2 c] := by revert c; decide +kernel
theorem off_27 (c : Dev nD) : k0_off27 c = ![2, 0, away1 2 c] := by revert c; decide +kernel
theorem dev_12 (c : Dev nD) : (⟨k0_dev12 c, k0_dev12_lt c⟩ : Dev nD) = par (axis 2 1) c := by revert c; decide +kernel

theorem off_28 (c : Dev nD) : k0_off28 c = ![0, 0, o2 0 c] := by revert c; decide +kernel
theorem off_29 (c : Dev nD) : k0_off29 c = ![0, o2 0 c] := by revert c; decide +kernel
theorem off_30 (c : Dev nD) : k0_off30 c = ![0, 0, away2 0 c] := by revert c; decide +kernel
theorem off_31 (c : Dev nD) : k0_off31 c = ![0, 0, away2 0 c - o2 0 c] := by revert c; decide +kernel
theorem off_32 (c : Dev nD) : k0_off32 c = ![0, 0, away2 0 c] := by revert c; decide +kernel
theorem dev_13 (c : Dev nD) : (⟨k0_dev13 c, k0_dev13_lt c⟩ : Dev nD) = par (axis 0 2) c := by revert c; decide +kernel
theorem off_33 (c : Dev nD) : k0_off33 c = ![0, 0, o3 0 c] := by revert c; decide +kernel
theorem off_34 (c : Dev nD) : k0_off34 c = ![0, 0, o3 0 c - o2 0 c] := by revert c; decide +kernel

theorem off_35 (c : Dev nD) : k0_off35 c = ![1, 0, o2 1 c] := by revert c; decide +kernel
theorem off_36 (c : Dev nD) : k0_off36 c = ![0, o2 1 c] := by revert c; decide +kernel
theorem off_37 (c : Dev nD) : k0_off37 c = ![1, 0, away2 1 c] := by revert c; decide +kernel
theorem off_38 (c : Dev nD) : k0_off38 c = ![1, 0, away2 1 c - o2 1 c] := by revert c; decide +kernel
theorem off_39 (c : Dev nD) : k0_off39 c = ![1, 0, away2 1 c] := by revert c; decide +kernel
theorem dev_14 (c : Dev nD) : (⟨k0_dev14 c, k0_dev14_lt c⟩ : Dev nD) = par (axis 1 2) c := by revert c; decide +kernel
theorem off_40 (c : Dev nD) : k0_off40 c = ![1, 0, o3 1 c] := by revert c; decide +kernel
theorem off_41 (c : Dev nD) : k0_off41 c = ![1, 0, o3 1 c - o2 1 c] := by revert c; decide +kernel

theorem off_42 (c : Dev nD) : k0_off42 c = ![2, 0, o2 2 c] := by revert c; decide +kernel
theorem off_43 (c : Dev nD) : k0_off43 c = ![0, o2 2 c] := by revert c; decide +kernel
theorem off_44 (c : Dev nD) : k0_off44 c = ![2, 0, away2 2 c] := by revert c; decide +kernel
theorem off_45 (c : Dev nD) : k0_off45 c = ![2, 0, away2 2 c - o2 2 c] := by revert c; decide +kernel
theorem off_46 (c : Dev nD) : k0_off46 c = ![2, 0, away2 2 c] := by revert c; decide +kernel
theorem dev_15 (c : Dev nD) : (⟨k0_dev15 c, k0_dev15_lt c⟩ : Dev nD) = par (axis 2 2) c := by revert c; decide +kernel
theorem off_47 (c : Dev nD) : k0_off47 c = ![2, 0, o3 2 c] := by revert c; decide +kernel
theorem off_48 (c : Dev nD) : k0_off48 c = ![2, 0, o3 2 c - o2 2 c] := by revert c; decide +kernel

theorem off_49 (c : Dev nD) : k0_off49 c = ![0, 0, o3 0 c] := by revert c; decide +kernel
theorem dev_16 (c : Dev nD) : (⟨k0_dev16 c, k0_dev16_lt c⟩ : Dev nD) = par (axis 0 2) c := by revert c; decide +kernel
theorem dev_17 (c : Dev nD) : (⟨k0_dev17 c, k0_dev17_lt c⟩ : Dev nD) = par (axis 0 1) c := by revert c; decide +kernel
theorem dev_18 (c : Dev nD) : (⟨k0_dev18 c, k0_dev18_lt c⟩ : Dev nD) = par (axis 0 0) c := by revert c; decide +kernel
theorem off_50 (c : Dev nD) : k0_off50 c = ![1, 0, o3 1 c] := by revert c; decide +kernel
theorem dev_19 (c : Dev nD) : (⟨k0_dev19 c, k0_dev19_lt c⟩ : Dev nD) = par (axis 1 2) c := by revert c; decide +kernel
theorem dev_20 (c : Dev nD) : (⟨k0_dev20 c, k0_dev20_lt c⟩ : Dev nD) = par (axis 1 1) c := by revert c; decide +kernel
theorem dev_21 (c : Dev nD) : (⟨k0_dev21 c, k0_dev21_lt c⟩ : Dev nD) = par (axis 1 0) c := by revert c; decide +kernel
theorem off_51 (c : Dev nD) : k0_off51 c = ![2, 0, o3 2 c] := by revert c; decide +kernel
theorem dev_22 (c : Dev nD) : (⟨k0_dev22 c, k0_dev22_lt c⟩ : Dev nD) = par (axis 2 2) c := by revert c; decide +kernel
theorem dev_23 (c : Dev nD) : (⟨k0_dev23 c, k0_dev23_lt c⟩ : Dev nD) = par (axis 2 1) c := by revert c; decide +kernel
theorem dev_24 (c : Dev nD) : (⟨k0_dev24 c, k0_dev24_lt c⟩ : Dev nD) = par (axis 2 0) c := by revert c; decide +kernel

theorem off_52 (c : Dev nD) : k0_off52 c = ![rowStart 0, o2 0 c] := by revert c; decide +kernel
theorem off_53 (c : Dev nD) : k0_off53 c = ![0, 0, o2 0 c] := by revert c; decide +kernel
theorem dev_25 (c : Dev nD) : (⟨k0_dev25 c, k0_dev25_lt c⟩ : Dev nD) = par (axis 0 1) c := by revert c; decide +kernel
theorem dev_26 (c : Dev nD) : (⟨k0_dev26 c, k0_dev26_lt c⟩ : Dev nD) = par (axis 0 0) c := by revert c; decide +kernel
theorem off_54 (c : Dev nD) : k0_off54 c = ![rowStart 1, o2 1 c] := by revert c; decide +kernel
theorem off_55 (c : Dev nD) : k0_off55 c = ![1, 0, o2 1 c] := by revert c; decide +kernel
theorem dev_27 (c : Dev nD) : (⟨k0_dev27 c, k0_dev27_lt c⟩ : Dev nD) = par (axis 1 1) c := by revert c; decide +kernel
theorem dev_28 (c : Dev nD) : (⟨k0_dev28 c, k0_dev28_lt c⟩ : Dev nD) = par (axis 1 0) c := by revert c; decide +kernel
theorem off_56 (c : Dev nD) : k0_off56 c = ![rowStart 2, o2 2 c] := by revert c; decide +kernel
theorem off_57 (c : Dev nD) : k0_off57 c = ![2, 0, o2 2 c] := by revert c; decide +kernel
theorem dev_29 (c : Dev nD) : (⟨k0_dev29 c, k0_dev29_lt c⟩ : Dev nD) = par (axis 2 1) c := by revert c; decide +kernel
theorem dev_30 (c : Dev nD) : (⟨k0_dev30 c, k0_dev30_lt c⟩ : Dev nD) = par (axis 2 0) c := by revert c; decide +kernel

theorem off_58 (c : Dev nD) : k0_off58 c = ![rowStart 0, away1 0 c] := by revert c; decide +kernel
theorem dev_31 (c : Dev nD) : (⟨k0_dev31 c, k0_dev31_lt c⟩ : Dev nD) = par (axis 0 0) c := by revert c; decide +kernel
theorem off_59 (c : Dev nD) : k0_off59 c = ![rowStart 1, away1 1 c] := by revert c; decide +kernel
theorem dev_32 (c : Dev nD) : (⟨k0_dev32 c, k0_dev32_lt c⟩ : Dev nD) = par (axis 1 0) c := by revert c; decide +kernel
theorem off_60 (c : Dev nD) : k0_off60 c = ![rowStart 2, away1 2 c] := by revert c; decide +kernel
theorem dev_33 (c : Dev nD) : (⟨k0_dev33 c, k0_dev33_lt c⟩ : Dev nD) = par (axis 2 0) c := by revert c; decide +kernel

theorem off_61 (c : Dev nD) : k0_off61 c = ![rowStart 0, sub2 0 c] := by revert c; decide +kernel
theorem off_62 (c : Dev nD) : k0_off62 c = ![rowStart 1, sub2 1 c] := by revert c; decide +kernel
theorem off_63 (c : Dev nD) : k0_off63 c = ![rowStart 2, sub2 2 c] := by revert c; decide +kernel
theorem off_64 (c : Dev nD) : k0_off64 c = ![rowStart 0, sub1 0 c] := by revert c; decide +kernel
theorem off_65 (c : Dev nD) : k0_off65 c = ![rowStart 1, sub1 1 c] := by revert c; decide +kernel
theorem off_66 (c : Dev nD) : k0_off66 c = ![rowStart 2, sub1 2 c] := by revert c; decide +kernel

end Cert.Kernel.Forms
-- ==== Proof.K.Part3.lean ====
import proofs.«900802_g7700000000000803_dist_gemm_ar_m4096_k4096_n2048_f32_relu_v7x_i8_1_alg».proof.Proof.K.EvBarrier
import proofs.«900802_g7700000000000803_dist_gemm_ar_m4096_k4096_n2048_f32_relu_v7x_i8_1_alg».proof.Proof.K.Forms

noncomputable section

namespace Cert.Kernel.Body

open Cert.Kernel Cert.Kernel.Gen Cert.Kernel.Spec Cert.Kernel.Reg Cert.Kernel.Proto

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_bar amount_bar payload_bar expect_bar

theorem part1 (c : Dev nD) (arg0 : Memref sig .tc .vmem S4096x512 .f32) (harg0 : arg0.IsWhole) (arg1 : Memref sig .tc .vmem S512x2048 .f32) (harg1 : arg1.IsWhole) (arg2 : Memref sig .tc .hbm S4096x2048 .f32) (harg2 : arg2.IsWhole) (arg3 : Memref sig .tc .vmem S3x1368x2048 .f32) (harg3 : arg3.IsWhole) (arg4 : Memref sig .tc .vmem S3x1368x512 .f32) (harg4 : arg4.IsWhole) (arg5 : Memref sig .tc .vmem S3x1368x256 .f32) (harg5 : arg5.IsWhole) (arg6 : DmaSems sig S3x10) (arg7 : DmaSems sig S3x10) (arg8 : DmaSems sig S3x4) :
    (iprop(emp) : sProp 𝕄)
      ⊢ wp frame (wpE (defs₀ (F := F)) Variants.none (c : Thread nD τ) none) Set.univ
          (k0_part1 (F := F) arg0 harg0 arg1 harg1 arg2 harg2 arg3 harg3 arg4 harg4 arg5 harg5 arg6 arg7 arg8)
          (fun res => iprop(⌜res.1 = c⌝)) := by
  iintro Hemp
  rw [k0_part1_eq_skeleton]; unfold k0_part1_skel
  sl_exec
  sl_step
  ipureintro; rfl

theorem part2 (c : Dev nD) (arg0 : Memref sig .tc .vmem S4096x512 .f32) (harg0 : arg0.IsWhole) (arg1 : Memref sig .tc .vmem S512x2048 .f32) (harg1 : arg1.IsWhole) (arg2 : Memref sig .tc .hbm S4096x2048 .f32) (harg2 : arg2.IsWhole) (arg3 : Memref sig .tc .vmem S3x1368x2048 .f32) (harg3 : arg3.IsWhole) (arg4 : Memref sig .tc .vmem S3x1368x512 .f32) (harg4 : arg4.IsWhole) (arg5 : Memref sig .tc .vmem S3x1368x256 .f32) (harg5 : arg5.IsWhole) (arg6 : DmaSems sig S3x10) (arg7 : DmaSems sig S3x10) (arg8 : DmaSems sig S3x4)
    (v2 v19 v29 c2_i32_12 v34 v36 v38 : BitVec 32) :
    (iprop(emp) : sProp 𝕄)
      ⊢ wp frame (wpE (defs₀ (F := F)) Variants.none (c : Thread nD τ) none) Set.univ
          (k0_part2 (F := F) arg0 harg0 arg1 harg1 arg2 harg2 arg3 harg3 arg4 harg4 arg5 harg5 arg6 arg7 arg8 v2 v19 v29 c2_i32_12 v34 v36 v38)
          (fun _ => iprop(emp)) := by
  iintro Hemp
  rw [k0_part2_eq_skeleton]; unfold k0_part2_skel
  sl_exec
  sl_step
  iexact Hemp

theorem part4 (c : Dev nD) (arg0 : Memref sig .tc .vmem S4096x512 .f32) (harg0 : arg0.IsWhole) (arg1 : Memref sig .tc .vmem S512x2048 .f32) (harg1 : arg1.IsWhole) (arg2 : Memref sig .tc .hbm S4096x2048 .f32) (harg2 : arg2.IsWhole) (arg3 : Memref sig .tc .vmem S3x1368x2048 .f32) (harg3 : arg3.IsWhole) (arg4 : Memref sig .tc .vmem S3x1368x512 .f32) (harg4 : arg4.IsWhole) (arg5 : Memref sig .tc .vmem S3x1368x256 .f32) (harg5 : arg5.IsWhole) (arg6 : DmaSems sig S3x10) (arg7 : DmaSems sig S3x10) (arg8 : DmaSems sig S3x4)
    (v19 v33 v50 v89 v106 v107 : BitVec 32) :
    (iprop(emp) : sProp 𝕄)
      ⊢ wp frame (wpE (defs₀ (F := F)) Variants.none (c : Thread nD τ) none) Set.univ
          (k0_part4 (F := F) arg0 harg0 arg1 harg1 arg2 harg2 arg3 harg3 arg4 harg4 arg5 harg5 arg6 arg7 arg8 v19 v33 v50 v89 v106 v107)
          (fun _ => iprop(emp)) := by
  iintro Hemp
  rw [k0_part4_eq_skeleton]; unfold k0_part4_skel
  sl_exec
  sl_step
  iexact Hemp

theorem part3 (c : Dev nD) (κ0 κ1 κ2 κc : ℕ) (arg0 : Memref sig .tc .vmem S4096x512 .f32) (harg0 : arg0.IsWhole) (arg1 : Memref sig .tc .vmem S512x2048 .f32) (harg1 : arg1.IsWhole) (arg2 : Memref sig .tc .hbm S4096x2048 .f32) (harg2 : arg2.IsWhole) (arg3 : Memref sig .tc .vmem S3x1368x2048 .f32) (harg3 : arg3.IsWhole) (arg4 : Memref sig .tc .vmem S3x1368x512 .f32) (harg4 : arg4.IsWhole) (arg5 : Memref sig .tc .vmem S3x1368x256 .f32) (harg5 : arg5.IsWhole) (arg6 : DmaSems sig S3x10) (arg7 : DmaSems sig S3x10) (arg8 : DmaSems sig S3x4) (d0 : Dev nD) (hd : d0 = c)
    (v19 v33 v50 v65 v68 v71 v72 : BitVec 32) (v73 v76 : BitVec 1)
    (O : CellTallies nD τ sig Unit) (W : Waits sig Unit) :
    iprop(cellInv (ER (F := F)) (cubeRd x w) κ0 (barCell (par 0 c))
        ∗ cellInv (ER (F := F)) (cubeRd x w) κ1 (barCell (par 1 c))
        ∗ cellInv (ER (F := F)) (cubeRd x w) κ2 (barCell (par 2 c))
        ∗ cellInv (ER (F := F)) (cubeRd x w) κc (barCell c)
        ∗ dutyTok (ER (F := F)) (barCell (par 0 c)) 0 (0 : Fin 3) ∗ dutyTok (ER (F := F)) (barCell (par 1 c)) 0 (1 : Fin 3)
        ∗ dutyTok (ER (F := F)) (barCell (par 2 c)) 0 (2 : Fin 3)
        ∗ reached (ER (F := F)) (barCell (par 0 c)) 0 ∗ reached (ER (F := F)) (barCell (par 1 c)) 0
        ∗ reached (ER (F := F)) (barCell (par 2 c)) 0
        ∗ barPay (F := F) (par 0 c) 0 ∗ barPay (F := F) (par 1 c) 1 ∗ barPay (F := F) (par 2 c) 2
        ∗ owes (c : Thread nD τ) (O + tallyAt (barCell (par 2 c)) () 1 + tallyAt (barCell (par 1 c)) () 1
            + tallyAt (barCell (par 0 c)) () 1) W
        ∗ atPos (ER (F := F)) (barCell c) 0 ∅ 0 ∗ cred (tallyAt (barCell c) () 3)
        ∗ MayWait (c : Thread nD τ) (.reg barS) () O)
      ⊢ wp frame (wpE (defs₀ (F := F)) Variants.none (c : Thread nD τ) none) Set.univ
          (k0_part3 (F := F) arg0 harg0 arg1 harg1 arg2 harg2 arg3 harg3 arg4 harg4 arg5 harg5 arg6 arg7 arg8 d0 v19 v33 v50 v65 v68 v71 v72 v73 v76)
          (fun _ => iprop(owes (c : Thread nD τ) O (insert (.reg barS, ()) W) ∗ atPos (ER (F := F)) (barCell c) 1 ∅ 0
            ∗ reached (ER (F := F)) (barCell c) 1 ∗ barPay (F := F) c 0 ∗ barPay (F := F) c 1 ∗ barPay (F := F) c 2)) := by
  subst hd
  iintro ⟨#HI0, #HI1, #HI2, #HIc, Ht0, Ht1, Ht2, #Hr0, #Hr1, #Hr2, Hp0, Hp1, Hp2, HO, Hat, Hcr, #Hmw⟩
  rw [k0_part3_eq_skeleton]; unfold k0_part3_skel
  have hdev1 := Forms.dev_1
  have hdev2 := Forms.dev_2
  have hdev3 := Forms.dev_3
  sl_exec
  sl_step
  ihave Hp := (Entails.of_eq (bigSep_fin_three (fun d => barPay (F := F) d0 d))) $$ Hat_pay1
  icases Hp with ⟨Hq0, Hq1, Hq2⟩
  iframe HO Hat Hat_reached Hq0 Hq1 Hq2

end Cert.Kernel.Body

end
-- ==== Proof.K.Stages.lean ====
import proofs.«900802_g7700000000000803_dist_gemm_ar_m4096_k4096_n2048_f32_relu_v7x_i8_1_alg».proof.Proof.K.Proto

noncomputable section

namespace Cert.Kernel.Stages

open Cert.Kernel Cert.Kernel.Gen Cert.Kernel.Spec Cert.Kernel.Reg Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

local instance : Add (F .f32) := ⟨FloatOps.addf⟩

variable (x : Dev nD → Vec F S4096x512 .f32) (w : Dev nD → Vec F S512x2048 .f32)

abbrev nb (p : Fin 3) (j : Fin 3) (c : Dev nD) : Dev nD := par (axis p j) c

def during (lo hi d : ℕ) (A : sProp 𝕄) : sProp 𝕄 := if lo ≤ d ∧ d < hi then A else iprop(emp)

def since (lo d : ℕ) (A : sProp 𝕄) : sProp 𝕄 := if lo ≤ d then A else iprop(emp)

def partW (c : Dev nD) (p : Fin 3) (off wd : ℕ) (h : Inb3 2048 p.val (rowLen p) off wd) (qs : List (PosShare TreeShare))
    (val : ℕ → ℕ → F .f32) : sProp 𝕄 :=
  iprop(∃ f : Buf (Elt F) ((wbM.access (wbRect p.val (rowLen p) off wd h)).loc (c : Thread nD τ)),
    (qs.foldr (fun q A => iprop((((wbM.access (wbRect p.val (rowLen p) off wd h)).loc (c : Thread nD τ)) ↦[wbReg c p.val (rowLen p) off wd h]{q} f) ∗ A)) iprop(emp))
    ∗ ⌜∀ y : (⟨3, ![1, rowLen p, wd]⟩ : Shape).Idx, (wbM.access (wbRect p.val (rowLen p) off wd h)).read (Elt F) f y = val (y 1).val (off + (y 2).val)⌝)

theorem hA (p : Fin 3) (c : Dev nD) : Inb3 2048 p.val (rowLen p) (sub1 p c) 512 := by revert p c; decide
theorem hB (p : Fin 3) (c : Dev nD) : Inb3 2048 p.val (rowLen p) (sub2 p c) 512 := by revert p c; decide
theorem hC (p : Fin 3) (c : Dev nD) : Inb3 2048 p.val (rowLen p) (away1 p c) 512 := by revert p c; decide
theorem hD (p : Fin 3) (c : Dev nD) : Inb3 2048 p.val (rowLen p) (o2 p c) 512 := by revert p c; decide
theorem hE (p : Fin 3) (c : Dev nD) : Inb3 2048 p.val (rowLen p) (away2 p c) 256 := by revert p c; decide
theorem hG (p : Fin 3) (c : Dev nD) : Inb3 2048 p.val (rowLen p) (o3 p c) 256 := by revert p c; decide

theorem hCg (p : Fin 3) (c : Dev nD) : Inb3 2048 p.val (rowLen p) (o3 p (nb p 1 c)) 256 := hG p _
theorem hCe (p : Fin 3) (c : Dev nD) : Inb3 2048 p.val (rowLen p) (away2 p (nb p 1 c)) 256 := hE p _

theorem hBg (p : Fin 3) (c : Dev nD) : Inb3 2048 p.val (rowLen p) (o3 p (nb p 0 c)) 256 := hG p _
theorem hBe (p : Fin 3) (c : Dev nD) : Inb3 2048 p.val (rowLen p) (away2 p (nb p 0 c)) 256 := hE p _

def keep3 : List (PosShare TreeShare) := [fullShare.left, fullShare.right.left, fullShare.right.right.left]

def dataSl (c : Dev nD) (p : Fin 3) (d : ℕ) : sProp 𝕄 :=
  iprop(

    during 0 1 d (ownsW c p (sub1 p c) 512 (hA p c))
    ∗ during 1 2 d (holdsW c p (sub1 p c) 512 (hA p c) (fun r col => Vals.own x w p r col c))
    ∗ during 36 37 d (holdsW c p (sub1 p c) 512 (hA p c) (gath x w p))
    ∗ since 37 d (partW c p (sub1 p c) 512 (hA p c) keep3 (gath x w p))

    ∗ during 0 3 d (ownsW c p (sub2 p c) 512 (hB p c))
    ∗ during 3 4 d (holdsW c p (sub2 p c) 512 (hB p c) (fun r col => Vals.own x w p r col c))
    ∗ during 31 33 d (holdsW c p (o3 p (nb p 0 c)) 256 (hBg p c) (gath x w p))
    ∗ during 33 34 d (holdsW c p (sub2 p c) 512 (hB p c) (gath x w p))
    ∗ since 34 d (partW c p (sub2 p c) 512 (hB p c) keep3 (gath x w p))

    ∗ during 5 6 d (holdsW c p (away1 p c) 512 (hC p c) (fun r col => Vals.own x w p r col (nb p 0 c)))
    ∗ during 6 7 d (holdsW c p (away1 p c) 512 (hC p c) (fun r col => Vals.st1 x w p r col c))
    ∗ during 25 27 d (holdsW c p (o3 p (nb p 1 c)) 256 (hCg p c) (gath x w p))
    ∗ during 27 28 d (holdsW c p (away1 p c) 512 (hC p c) (gath x w p))
    ∗ during 28 29 d (partW c p (away1 p c) 512 (hC p c) keep3 (gath x w p))
    ∗ since 29 d (partW c p (away1 p c) 512 (hC p c) [fullShare.right.left, fullShare.right.right.left] (gath x w p))

    ∗ during 8 9 d (holdsW c p (o2 p c) 512 (hD p c) (fun r col => Vals.own x w p r col (nb p 0 c)))
    ∗ during 9 11 d (holdsW c p (o2 p c) 512 (hD p c) (fun r col => Vals.st1 x w p r col c))
    ∗ during 11 12 d (holdsW c p (away2 p c) 256 (hE p c) (fun r col => Vals.st2 x w p r col c))
    ∗ during 11 13 d (holdsW c p (o3 p c) 256 (hG p c) (fun r col => Vals.st1 x w p r col c))
    ∗ during 13 15 d (holdsW c p (o3 p c) 256 (hG p c) (fun r col => Vals.st2 x w p r col c))
    ∗ during 15 16 d (holdsW c p (o3 p c) 256 (hG p c) (gath x w p))
    ∗ during 16 17 d (partW c p (o3 p c) 256 (hG p c) [fullShare.right] (gath x w p))
    ∗ during 17 18 d (partW c p (o3 p c) 256 (hG p c) [fullShare.right.right] (gath x w p))
    ∗ during 18 21 d (partW c p (o3 p c) 256 (hG p c) [lshr] (gath x w p))
    ∗ during 20 21 d (holdsW c p (away2 p c) 256 (hE p c) (gath x w p))
    ∗ during 21 22 d (partW c p (away2 p c) 256 (hE p c) keep3 (gath x w p))
    ∗ during 22 23 d (partW c p (away2 p c) 256 (hE p c) [fullShare.right.left, fullShare.right.right.left] (gath x w p))
    ∗ since 23 d (partW c p (away2 p c) 256 (hE p c) [fullShare.right.right.left] (gath x w p))

    ∗ since 10 d (holdsR1 c p (o2 p c) (fun r col => Vals.st1 x w p r col (nb p 1 c)))
    ∗ since 14 d (holdsR2 c p (o3 p c) (fun r col => Vals.st2 x w p r col (nb p 2 c)))

    ∗ during 0 2 d (ownsW (nb p 0 c) p (sub1 p c) 512 (hA p c))
    ∗ during 0 4 d (ownsW (nb p 0 c) p (sub2 p c) 512 (hB p c))
    ∗ during 0 7 d (ownsR1 (nb p 1 c) p)
    ∗ during 0 12 d (ownsR2 (nb p 2 c) p)
    ∗ during 5 29 d (ownsW (nb p 0 c) p (away1 p c) 512 (hC p c))
    ∗ during 8 18 d (ownsW (nb p 0 c) p (o2 p c) 512 (hD p c))
    ∗ during 18 23 d (ownsW (nb p 0 c) p (away2 p c) 256 (hE p c))
    ∗ during 10 17 d (ownsW (nb p 1 c) p (o2 p c) 512 (hD p c))
    ∗ during 17 22 d (ownsW (nb p 1 c) p (away2 p c) 256 (hE p c))
    ∗ during 14 16 d (ownsW (nb p 2 c) p (o3 p c) 256 (hG p c))

    ∗ since 19 d (lentW c p (o3 p c) 256 (hG p c) fullShare.left)
    ∗ since 24 d (lentW c p (o3 p c) 256 (hG p c) fullShare.right.left)
    ∗ since 30 d (lentW c p (o3 p c) 256 (hG p c) fullShare.right.right.left)
    ∗ since 26 d (lentW c p (away2 p c) 256 (hE p c) fullShare.left)
    ∗ since 32 d (lentW c p (away2 p c) 256 (hE p c) fullShare.right.left)
    ∗ since 35 d (lentW c p (away1 p c) 512 (hC p c) fullShare.left)

    ∗ during 0 21 d (ownsOut c p (o2 p c) (by have := inb_out p 0 c; exact this))
    ∗ during 0 28 d (ownsOut c p (away1 p c) (by have := inb_out p 1 c; exact this))
    ∗ during 0 34 d (ownsOut c p (sub2 p c) (by have := inb_out p 2 c; exact this))
    ∗ during 0 37 d (ownsOut c p (sub1 p c) (by have := inb_out p 3 c; exact this))
    ∗ since 38 d (locPay x w c p 0) ∗ since 39 d (locPay x w c p 1) ∗ since 40 d (locPay x w c p 2) ∗ since 41 d (locPay x w c p 3))

def sendG (c : Dev nD) (p : Fin 3) (i : Fin 10) (ph : ℕ) : sProp 𝕄 :=
  match ph with
  | 0 => iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0)
  | 1 => iprop(cred (tallyAt (sendCell c p i) () (credOf p i)) ∗ atPos ER (sendCell c p i) 0 ∅ 0)
  | _ => atPos ER (sendCell c p i) 1 ∅ 0

def recvG (c : Dev nD) (p : Fin 3) (i : Fin 10) (ph : ℕ) : sProp 𝕄 :=
  match ph with
  | 0 => iprop(cred (tallyAt (recvCell c p i) () (credOf p i)) ∗ atPos ER (recvCell c p i) 0 ∅ 0)
  | _ => atPos ER (recvCell c p i) 1 ∅ 0

def locG (c : Dev nD) (p : Fin 3) (j : Fin 4) (ph : ℕ) : sProp 𝕄 :=
  match ph with
  | 0 => iprop(dutyTok ER (locCell c p j) 0 0 ∗ reached ER (locCell c p j) 0 ∗ atPos ER (locCell c p j) 0 ∅ 0)
  | 1 => iprop(cred (tallyAt (locCell c p j) () (credOut (rowLen p))) ∗ atPos ER (locCell c p j) 0 ∅ 0)
  | _ => atPos ER (locCell c p j) 1 ∅ 0

end Cert.Kernel.Stages

end
-- ==== Proof.K.Views.lean ====
import proofs.«900802_g7700000000000803_dist_gemm_ar_m4096_k4096_n2048_f32_relu_v7x_i8_1_alg».proof.Proof.K.Regions
import Idealize.ShloMosaic.Lib.Pipeline.Value
import Idealize.ShloMosaic.Lib.ValueIdx
import Idealize.ShloMosaic.Rules.PointsTo

noncomputable section

namespace Cert.Kernel.Reg

open Idealize.ShloMosaic Idealize.ShloMosaic.TcCoe Idealize.ShloMosaic.ValueIdx Cert.Kernel.Spec

section Rank3

variable {W p n off wd : ℕ}

theorem Inb3.slice_lt (h : Inb3 W p n off wd) : p < 3 := by obtain ⟨h0, _, _⟩ := h; omega
theorem Inb3.row_lt (h : Inb3 W p n off wd) {r : ℕ} (hr : r < n) : r < 1368 := by obtain ⟨_, h1, _⟩ := h; omega
theorem Inb3.col_lt (h : Inb3 W p n off wd) {q : ℕ} (hq : q < wd) : off + q < W := by obtain ⟨_, _, h2⟩ := h; omega

abbrev rect3 (h : Inb3 W p n off wd) : Rect (⟨3, ![3, 1368, W]⟩ : Shape) :=
  Rect.unit (s := ⟨3, ![3, 1368, W]⟩) ![p, 0, off] ![1, n, wd] (inb3 h)

abbrev at3 (h : Inb3 W p n off wd) (r : Fin n) (q : Fin wd) : (⟨3, ![3, 1368, W]⟩ : Shape).Idx :=
  ix3 ⟨p, h.slice_lt⟩ ⟨r.val, h.row_lt r.isLt⟩ ⟨off + q.val, h.col_lt q.isLt⟩

theorem mem_rect3 (h : Inb3 W p n off wd) (i : (⟨3, ![3, 1368, W]⟩ : Shape).Idx) :
    i ∈ (rect3 h).set ↔ (i 0).val = p ∧ (i 1).val < n ∧ off ≤ (i 2).val ∧ (i 2).val < off + wd := by
  refine (Rect.mem_set_unit.trans <| Fin.forall_fin_succ.trans <| and_congr_right' Fin.forall_fin_two).trans ?_
  show (p ≤ (i 0).val ∧ (i 0).val < p + 1) ∧ (0 ≤ (i 1).val ∧ (i 1).val < 0 + n) ∧
    off ≤ (i 2).val ∧ (i 2).val < off + wd ↔ _
  omega

theorem emb_rect3 (h : Inb3 W p n off wd) (y : (⟨3, ![1, n, wd]⟩ : Shape).Idx) :
    (rect3 h).emb y = at3 h (y 1) (y 2) := by
  funext a; apply Fin.ext
  match a with
  | ⟨0, _⟩ =>
    show p + 1 * (y 0).val = p
    have : (y 0).val < 1 := (y 0).isLt
    omega
  | ⟨1, _⟩ => show 0 + 1 * (y 1).val = (y 1).val; omega
  | ⟨2, _⟩ => show off + 1 * (y 2).val = off + (y 2).val; omega

theorem squeeze_idx (hn : (⟨2, ![n, wd]⟩ : Shape).numel = (⟨3, ![1, n, wd]⟩ : Shape).numel)
    (y : (⟨2, ![n, wd]⟩ : Shape).Idx) :
    Shape.reshapeEquiv hn y = ix3 ⟨0, Nat.one_pos⟩ (y 0) (y 1) := by
  rw [Shape.reshapeEquiv_cons_one (n := 2) (d := ![n, wd]) hn y]
  funext a
  match a with
  | ⟨0, _⟩ => rfl
  | ⟨1, _⟩ => rfl
  | ⟨2, _⟩ => rfl

end Rank3

section View3

variable {W p n off wd : ℕ} {κ : Kind} {sp : Space} {e : EltTy} {Val : EltTy → Type}

theorem read_slice3 (v : View sig κ sp ⟨3, ![3, 1368, W]⟩ e) (h : Inb3 W p n off wd) (f : v.ty.Contents Val)
    (y : (⟨3, ![1, n, wd]⟩ : Shape).Idx) :
    (v.slice (rect3 h)).read Val f y = v.read Val f (at3 h (y 1) (y 2)) := by
  rw [← emb_rect3 h y]; rfl

theorem read_squeeze3 (v : View sig κ sp ⟨3, ![3, 1368, W]⟩ e) (h : Inb3 W p n off wd)
    (hn : (⟨2, ![n, wd]⟩ : Shape).numel = (⟨3, ![1, n, wd]⟩ : Shape).numel) (f : v.ty.Contents Val)
    (y : (⟨2, ![n, wd]⟩ : Shape).Idx) :
    ((v.slice (rect3 h)).reshape ⟨2, ![n, wd]⟩ hn).read Val f y = v.read Val f (at3 h (y 0) (y 1)) :=
  congrArg (v.read Val f) ((congrArg _ (squeeze_idx hn y)).trans (emb_rect3 h _))

end View3

section Local3

variable {W p n off wd : ℕ}

abbrev loc2 (x : (⟨3, ![3, 1368, W]⟩ : Shape).Idx) (h1 : (x 1).val < n) (h2 : off ≤ (x 2).val)
    (h3 : (x 2).val < off + wd) : (⟨2, ![n, wd]⟩ : Shape).Idx :=
  ix2 ⟨(x 1).val, h1⟩ ⟨(x 2).val - off, by omega⟩

theorem at3_sub (h : Inb3 W p n off wd) (x : (⟨3, ![3, 1368, W]⟩ : Shape).Idx) (h0 : (x 0).val = p)
    (h1 : (x 1).val < n) (h2 : off ≤ (x 2).val) (h3 : (x 2).val < off + wd) :
    at3 h ⟨(x 1).val, h1⟩ ⟨(x 2).val - off, by omega⟩ = x := by
  funext a; apply Fin.ext
  match a with
  | ⟨0, _⟩ => exact h0.symm
  | ⟨1, _⟩ => rfl
  | ⟨2, _⟩ => show off + ((x 2).val - off) = (x 2).val; omega

end Local3

section Write3

variable {W p n off wd : ℕ} {κ : Kind} {sp : Space} {e : EltTy} {Val : EltTy → Type}

theorem write_squeeze3_in (v : View sig κ sp ⟨3, ![3, 1368, W]⟩ e) (h : Inb3 W p n off wd)
    (hn : (⟨2, ![n, wd]⟩ : Shape).numel = (⟨3, ![1, n, wd]⟩ : Shape).numel) (f : v.ty.Contents Val)
    (w : (⟨2, ![n, wd]⟩ : Shape).Idx → Val e) (x : (⟨3, ![3, 1368, W]⟩ : Shape).Idx) (h0 : (x 0).val = p)
    (h1 : (x 1).val < n) (h2 : off ≤ (x 2).val) (h3 : (x 2).val < off + wd) :
    v.read Val (((v.slice (rect3 h)).reshape ⟨2, ![n, wd]⟩ hn).write Val f w Finset.univ) x = w (loc2 x h1 h2 h3) :=
  ((congrArg _ (at3_sub h x h0 h1 h2 h3).symm).trans (read_squeeze3 v h hn _ (loc2 x h1 h2 h3)).symm).trans
    (View.read_write_of_mem (v := (v.slice (rect3 h)).reshape ⟨2, ![n, wd]⟩ hn) f w (Finset.mem_univ _))

end Write3

section Cut3

variable {W p n off wd p' n' off' wd' w₁ w₂ : ℕ}

theorem Inb3.left (h : Inb3 W p n off (w₁ + w₂)) : Inb3 W p n off w₁ := by
  obtain ⟨h0, h1, h2⟩ := h; exact ⟨h0, h1, by omega⟩
theorem Inb3.right (h : Inb3 W p n off (w₁ + w₂)) : Inb3 W p n (off + w₁) w₂ := by
  obtain ⟨h0, h1, h2⟩ := h; exact ⟨h0, h1, by omega⟩

theorem rect3_set_add (h : Inb3 W p n off (w₁ + w₂)) :
    (rect3 h).set = (rect3 h.left).set ∪ (rect3 h.right).set := by
  ext i
  rw [Finset.mem_union, mem_rect3, mem_rect3, mem_rect3]
  omega

theorem rect3_disjoint (h : Inb3 W p n off wd) (h' : Inb3 W p' n' off' wd')
    (hd : p ≠ p' ∨ off + wd ≤ off' ∨ off' + wd' ≤ off) : Disjoint (rect3 h).set (rect3 h').set := by
  rw [Finset.disjoint_left]
  intro i hi hi'
  rw [mem_rect3] at hi hi'
  omega

end Cut3

section Scratch

open Idealize.SL Idealize.SL.RA Idealize.SL.ProofMode
open Idealize.SL.BI (sProp)
open scoped Idealize.SL.BI
open Idealize.SL.BI.BIBase Idealize.SL.BI.Laws

open Lean in
set_option hygiene false in

local macro "scratch_views " pre:ident M:ident R:ident G:ident b:ident S:ident Wd:num : command => do
  let nm (s : String) : Ident := mkIdent (Name.mkSimple (s.replace "□" pre.getId.toString))
  `(

  theorem $(nm "□Reg_eq") (c : Dev nD) {p n off wd : ℕ} (h : Inb3 $Wd p n off wd) :
      ($G c p n off wd h : Finset (Shape.Idx $S)) = (rect3 h).set := by
    unfold $G; exact View.set_slice_whole $b _

  theorem $(nm "mem_□Reg") (c : Dev nD) {p n off wd : ℕ} (h : Inb3 $Wd p n off wd) (i : Shape.Idx $S) :
      i ∈ $G c p n off wd h ↔ (i 0).val = p ∧ (i 1).val < n ∧ off ≤ (i 2).val ∧ (i 2).val < off + wd := by
    rw [$(nm "□Reg_eq"):ident]; exact mem_rect3 h i

  theorem $(nm "set_□_squeeze") (c : Dev nD) {p n off wd : ℕ} (h : Inb3 $Wd p n off wd)
      (hsq : (⟨3, ![1, n, wd]⟩ : Shape).Squeezes ⟨2, ![n, wd]⟩) :
      ((Memref.slice $M ($R p n off wd h) (fun _ => rfl)).squeeze ⟨2, ![n, wd]⟩ hsq).view.set = $G c p n off wd h :=
    View.set_reshape _ _

  theorem $(nm "read_□_access") (c : Dev nD) {p n off wd : ℕ} {Val : EltTy → Type} (h : Inb3 $Wd p n off wd)
      (f : Buf Val ((Memref.access $M ($R p n off wd h)).loc (c : Thread nD τ)))
      (y : (⟨3, ![1, n, wd]⟩ : Shape).Idx) :
      (Memref.access $M ($R p n off wd h)).read Val f y = f (at3 h (y 1) (y 2)) :=
    read_slice3 (Memref.view $M) h f y

  theorem $(nm "read_□_squeeze") (c : Dev nD) {p n off wd : ℕ} {Val : EltTy → Type} (h : Inb3 $Wd p n off wd)
      (hsq : (⟨3, ![1, n, wd]⟩ : Shape).Squeezes ⟨2, ![n, wd]⟩)
      (f : Buf Val ((Memref.access $M ($R p n off wd h)).loc (c : Thread nD τ)))
      (y : (⟨2, ![n, wd]⟩ : Shape).Idx) :
      ((Memref.slice $M ($R p n off wd h) (fun _ => rfl)).squeeze ⟨2, ![n, wd]⟩ hsq).view.read Val f y
        = f (at3 h (y 0) (y 1)) :=
    read_squeeze3 (Memref.view $M) h hsq.numel_eq f y

  theorem $(nm "□Reg_add") (c : Dev nD) {p n off w₁ w₂ : ℕ} (h : Inb3 $Wd p n off (w₁ + w₂)) :
      ($G c p n off (w₁ + w₂) h : Finset (Shape.Idx $S))
        = $G c p n off w₁ h.left ∪ $G c p n (off + w₁) w₂ h.right := by
    rw [$(nm "□Reg_eq"):ident, $(nm "□Reg_eq"):ident, $(nm "□Reg_eq"):ident]; exact rect3_set_add h

  theorem $(nm "□Reg_disjoint") (c : Dev nD) {p n off wd p' n' off' wd' : ℕ} (h : Inb3 $Wd p n off wd)
      (h' : Inb3 $Wd p' n' off' wd') (hd : p ≠ p' ∨ off + wd ≤ off' ∨ off' + wd' ≤ off) :
      Disjoint ($G c p n off wd h : Finset (Shape.Idx $S)) ($G c p' n' off' wd' h') := by
    rw [$(nm "□Reg_eq"):ident, $(nm "□Reg_eq"):ident]; exact rect3_disjoint h h' hd

  theorem $(nm "□Reg_disjoint_add") (c : Dev nD) {p n off w₁ w₂ : ℕ} (h : Inb3 $Wd p n off (w₁ + w₂)) :
      Disjoint ($G c p n off w₁ h.left : Finset (Shape.Idx $S)) ($G c p n (off + w₁) w₂ h.right) :=
    $(nm "□Reg_disjoint") c h.left h.right (Or.inr (Or.inl (Nat.le_refl _)))

  theorem $(nm "pointsTo_□_add") {Ix : Type} [DecidableEq Ix] {Val : EltTy → Type} {Name : Type} [DecidableEq Name]
      {U : Type} [URA U] {Lvl : Type} (c : Dev nD) {p n off w₁ w₂ : ℕ} (h : Inb3 $Wd p n off (w₁ + w₂))
      (q : PosShare TreeShare) (f : Buf Val ((c : Thread nD τ).loc $b)) :
      (((c : Thread nD τ).loc $b) ↦[$G c p n off (w₁ + w₂) h]{q} f : sProp (MT nD τ sig Ix Val Name U Lvl))
        ⊣⊢ iprop((((c : Thread nD τ).loc $b) ↦[$G c p n off w₁ h.left]{q} f)
            ∗ ((c : Thread nD τ).loc $b) ↦[$G c p n (off + w₁) w₂ h.right]{q} f) := by
    rw [$(nm "□Reg_add") c h]; exact pointsTo_union ($(nm "□Reg_disjoint_add") c h)
  )

scratch_views wb wbM wbRect wbReg cc0_scratch0 S3x1368x2048 2048
scratch_views r1 r1M r1Rect r1Reg cc0_scratch1 S3x1368x512 512
scratch_views r2 r2M r2Rect r2Reg cc0_scratch2 S3x1368x256 256

end Scratch

section Rank2

variable {r0 n off wd : ℕ}

abbrev rect2 (h : Inb2 r0 n off wd) : Rect (⟨2, ![4096, 2048]⟩ : Shape) :=
  Rect.unit (s := ⟨2, ![4096, 2048]⟩) ![r0, off] ![n, wd] (inb2 h)

theorem mem_rect2 (h : Inb2 r0 n off wd) (i : (⟨2, ![4096, 2048]⟩ : Shape).Idx) :
    i ∈ (rect2 h).set ↔ r0 ≤ (i 0).val ∧ (i 0).val < r0 + n ∧ off ≤ (i 1).val ∧ (i 1).val < off + wd :=
  Rect.mem_set_unit.trans (Fin.forall_fin_two.trans and_assoc)

end Rank2

section Result

variable (c : Dev nD) {r0 n off wd : ℕ}

theorem mem_outReg (h : Inb2 r0 n off wd) (i : S4096x2048.Idx) :
    i ∈ outReg c r0 n off wd h ↔ r0 ≤ (i 0).val ∧ (i 0).val < r0 + n ∧ off ≤ (i 1).val ∧ (i 1).val < off + wd := by
  unfold outReg
  rw [show (outM.access (outRect r0 n off wd h)).set = (rect2 h).set from View.set_slice_whole main_v1 _]
  exact mem_rect2 h i

end Result

end Cert.Kernel.Reg

end
-- ==== Proof.K.Pieces.lean ====
import proofs.«900802_g7700000000000803_dist_gemm_ar_m4096_k4096_n2048_f32_relu_v7x_i8_1_alg».proof.Proof.K.Stages
import proofs.«900802_g7700000000000803_dist_gemm_ar_m4096_k4096_n2048_f32_relu_v7x_i8_1_alg».proof.Proof.K.Views

noncomputable section

namespace Cert.Kernel.Pieces

open Cert.Kernel Cert.Kernel.Gen Cert.Kernel.Spec Cert.Kernel.Reg Cert.Kernel.Proto Cert.Kernel.Stages

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

theorem holdsW_congr (c : Dev nD) (p : Fin 3) {off off' wd wd' : ℕ} (e : off = off') (ew : wd = wd')
    (h : Inb3 2048 p.val (rowLen p) off wd) (h' : Inb3 2048 p.val (rowLen p) off' wd') (val : ℕ → ℕ → F .f32) :
    (holdsW c p off wd h val : sProp 𝕄) = holdsW c p off' wd' h' val := by subst e; subst ew; rfl
theorem ownsW_congr (c : Dev nD) (p : Fin 3) {off off' wd wd' : ℕ} (e : off = off') (ew : wd = wd')
    (h : Inb3 2048 p.val (rowLen p) off wd) (h' : Inb3 2048 p.val (rowLen p) off' wd') :
    (ownsW c p off wd h : sProp 𝕄) = ownsW c p off' wd' h' := by subst e; subst ew; rfl
theorem srcOff0_peer (p : Fin 3) (c : Dev nD) : srcOff p 0 (peer p 0 c) = away1 p c := by revert p c; decide
theorem srcOff1_peer (p : Fin 3) (c : Dev nD) : srcOff p 1 (peer p 1 c) = o2 p c := by revert p c; decide
theorem srcOff2_peer (p : Fin 3) (c : Dev nD) : srcOff p 2 (peer p 2 c) = o2 p c := by revert p c; decide
theorem srcOff3_peer (p : Fin 3) (c : Dev nD) : srcOff p 3 (peer p 3 c) = o3 p c := by revert p c; decide

theorem holdsW_land0 (c : Dev nD) (p : Fin 3) (val : ℕ → ℕ → F .f32) :
    (holdsW c p (srcOff p 0 (peer p 0 c)) 512 (inb_src p 0 (peer p 0 c)) val : sProp 𝕄) = holdsW c p (away1 p c) 512 (hC p c) val :=
  holdsW_congr c p (srcOff0_peer p c) rfl _ _ val
theorem holdsW_land1 (c : Dev nD) (p : Fin 3) (val : ℕ → ℕ → F .f32) :
    (holdsW c p (srcOff p 1 (peer p 1 c)) 512 (inb_src p 1 (peer p 1 c)) val : sProp 𝕄) = holdsW c p (o2 p c) 512 (hD p c) val :=
  holdsW_congr c p (srcOff1_peer p c) rfl _ _ val
theorem holdsR1_land2 (c : Dev nD) (p : Fin 3) (val : ℕ → ℕ → F .f32) :
    (holdsR1 c p (srcOff p 2 (peer p 2 c)) val : sProp 𝕄) = holdsR1 c p (o2 p c) val := by rw [srcOff2_peer]
theorem holdsR2_land3 (c : Dev nD) (p : Fin 3) (val : ℕ → ℕ → F .f32) :
    (holdsR2 c p (srcOff p 3 (peer p 3 c)) val : sProp 𝕄) = holdsR2 c p (o3 p c) val := by rw [srcOff3_peer]
theorem holdsW_land4 (c : Dev nD) (p : Fin 3) (val : ℕ → ℕ → F .f32) :
    (holdsW c p (srcOff p 4 (peer p 4 c)) (wid 4) (inb_src p 4 (peer p 4 c)) val : sProp 𝕄) = holdsW c p (away2 p c) 256 (hE p c) val :=
  holdsW_congr c p (by revert p c; decide) rfl _ _ val
theorem holdsW_land5 (c : Dev nD) (p : Fin 3) (val : ℕ → ℕ → F .f32) :
    (holdsW c p (srcOff p 5 (peer p 5 c)) (wid 5) (inb_src p 5 (peer p 5 c)) val : sProp 𝕄) = holdsW c p (o3 p (nb p 1 c)) 256 (hCg p c) val :=
  holdsW_congr c p (by revert p c; decide) rfl _ _ val
theorem holdsW_land6 (c : Dev nD) (p : Fin 3) (val : ℕ → ℕ → F .f32) :
    (holdsW c p (srcOff p 6 (peer p 6 c)) (wid 6) (inb_src p 6 (peer p 6 c)) val : sProp 𝕄) = holdsW c p (o3 p (nb p 0 c)) 256 (hBg p c) val :=
  holdsW_congr c p (by revert p c; decide) rfl _ _ val
theorem holdsW_land7 (c : Dev nD) (p : Fin 3) (val : ℕ → ℕ → F .f32) :
    (holdsW c p (srcOff p 7 (peer p 7 c)) (wid 7) (inb_src p 7 (peer p 7 c)) val : sProp 𝕄) = holdsW c p (away2 p (nb p 1 c)) 256 (hCe p c) val :=
  holdsW_congr c p (by revert p c; decide) rfl _ _ val
theorem holdsW_land8 (c : Dev nD) (p : Fin 3) (val : ℕ → ℕ → F .f32) :
    (holdsW c p (srcOff p 8 (peer p 8 c)) (wid 8) (inb_src p 8 (peer p 8 c)) val : sProp 𝕄) = holdsW c p (away2 p (nb p 0 c)) 256 (hBe p c) val :=
  holdsW_congr c p (by revert p c; decide) rfl _ _ val
theorem holdsW_land9 (c : Dev nD) (p : Fin 3) (val : ℕ → ℕ → F .f32) :
    (holdsW c p (srcOff p 9 (peer p 9 c)) (wid 9) (inb_src p 9 (peer p 9 c)) val : sProp 𝕄) = holdsW c p (sub1 p c) 512 (hA p c) val :=
  holdsW_congr c p (by revert p c; decide) rfl _ _ val

theorem ownsW_land0 (c : Dev nD) (p : Fin 3) :
    (ownsW (peer p 0 c) p (srcOff p 0 (peer p 0 c)) 512 (inb_src p 0 (peer p 0 c)) : sProp 𝕄) = ownsW (nb p 0 c) p (away1 p c) 512 (hC p c) :=
  ownsW_congr _ p (srcOff0_peer p c) rfl _ _
theorem ownsW_land1 (c : Dev nD) (p : Fin 3) :
    (ownsW (peer p 1 c) p (srcOff p 1 (peer p 1 c)) 512 (inb_src p 1 (peer p 1 c)) : sProp 𝕄) = ownsW (nb p 0 c) p (o2 p c) 512 (hD p c) :=
  ownsW_congr _ p (srcOff1_peer p c) rfl _ _
theorem ownsW_land2 (c : Dev nD) (p : Fin 3) :
    (ownsW (peer p 2 c) p (srcOff p 2 (peer p 2 c)) 512 (inb_src p 2 (peer p 2 c)) : sProp 𝕄) = ownsW (nb p 1 c) p (o2 p c) 512 (hD p c) :=
  ownsW_congr _ p (srcOff2_peer p c) rfl _ _
theorem ownsW_land3 (c : Dev nD) (p : Fin 3) :
    (ownsW (peer p 3 c) p (srcOff p 3 (peer p 3 c)) 256 (inb_src p 3 (peer p 3 c)) : sProp 𝕄) = ownsW (nb p 2 c) p (o3 p c) 256 (hG p c) :=
  ownsW_congr _ p (srcOff3_peer p c) rfl _ _

section Cut
variable (c : Dev nD) (p : Fin 3) {off wd w₁ w₂ : ℕ}

theorem wfact_iff (h : Inb3 2048 p.val (rowLen p) off wd) (val : ℕ → ℕ → F .f32)
    (f : Buf (Elt F) ((wbM.access (wbRect p.val (rowLen p) off wd h)).loc (c : Thread nD τ))) :
    (∀ y : (⟨3, ![1, rowLen p, wd]⟩ : Shape).Idx,
        (wbM.access (wbRect p.val (rowLen p) off wd h)).read (Elt F) f y = val (y 1).val (off + (y 2).val))
      ↔ ∀ (r : Fin (rowLen p)) (q : Fin wd), f (at3 h r q) = val r.val (off + q.val) := by
  constructor
  · intro H r q
    have := H (ix3 ⟨0, Nat.one_pos⟩ r q)
    rwa [read_wb_access c h f] at this
  · intro H y
    rw [read_wb_access c h f]
    exact H (y 1) (y 2)

theorem at3_right (h : Inb3 2048 p.val (rowLen p) off (w₁ + w₂)) (r : Fin (rowLen p)) (q : Fin w₂) :
    at3 h.right r q = at3 h r ⟨w₁ + q.val, by have := q.isLt; omega⟩ := by
  funext a; apply Fin.ext
  match a with
  | ⟨0, _⟩ => rfl
  | ⟨1, _⟩ => rfl
  | ⟨2, _⟩ => show off + w₁ + q.val = off + (w₁ + q.val); omega

theorem holdsW_add (h : Inb3 2048 p.val (rowLen p) off (w₁ + w₂)) (val : ℕ → ℕ → F .f32) :
    (holdsW c p off (w₁ + w₂) h val : sProp 𝕄)
      ⊣⊢ iprop(holdsW c p off w₁ h.left val ∗ holdsW c p (off + w₁) w₂ h.right val) := by
  unfold holdsW
  constructor
  · iintro ⟨%f, Hf, %hf⟩
    have H := (wfact_iff c p h val f).1 hf
    ihave Hs := (pointsTo_wb_add c h fullShare f).1 $$ Hf
    icases Hs with ⟨H1, H2⟩
    isplitl [H1]
    · iexists f
      iframe H1
      ipureintro
      exact (wfact_iff c p h.left val f).2 fun r q => H r ⟨q.val, by have := q.isLt; omega⟩
    · iexists f
      iframe H2
      ipureintro
      refine (wfact_iff c p h.right val f).2 fun r q => ?_
      rw [at3_right p h r q, H, Nat.add_assoc]
  · iintro ⟨⟨%f₁, H1, %hf₁⟩, ⟨%f₂, H2, %hf₂⟩⟩
    have G1 := (wfact_iff c p h.left val f₁).1 hf₁
    have G2 := (wfact_iff c p h.right val f₂).1 hf₂
    ihave Hj := (pointsTo_join (wbReg_disjoint_add c h)) $$ [H1 H2]
    · iframe H1 H2
    iexists ((wbReg c p.val (rowLen p) (off + w₁) w₂ h.right).piecewise f₂ f₁)
    isplitl [Hj]
    · rw [wbReg_add c h]; iexact Hj
    · ipureintro
      refine (wfact_iff c p h val _).2 fun r q => ?_
      by_cases hq : q.val < w₁
      · have hn : at3 h r q ∉ wbReg c p.val (rowLen p) (off + w₁) w₂ h.right := by
          rw [mem_wbReg]; intro hm
          have h2 : off + w₁ ≤ off + q.val := hm.2.2.1
          omega
        rw [Finset.piecewise_eq_of_notMem _ _ _ hn]
        exact G1 r ⟨q.val, hq⟩
      · have hm : at3 h r q ∈ wbReg c p.val (rowLen p) (off + w₁) w₂ h.right := by
          rw [mem_wbReg]
          refine ⟨rfl, r.isLt, ?_, ?_⟩
          · show off + w₁ ≤ off + q.val; omega
          · show off + q.val < off + w₁ + w₂; have := q.isLt; omega
        rw [Finset.piecewise_eq_of_mem _ _ _ hm]
        have e : at3 h r q = at3 h.right r ⟨q.val - w₁, by have := q.isLt; omega⟩ := by
          rw [at3_right]; exact congrArg (at3 h r) (Fin.ext (by show q.val = w₁ + (q.val - w₁); omega))
        rw [e, G2]
        exact congrArg (val r.val) (by show off + w₁ + (q.val - w₁) = off + q.val; omega)

theorem ownsW_add (h : Inb3 2048 p.val (rowLen p) off (w₁ + w₂)) :
    (ownsW c p off (w₁ + w₂) h : sProp 𝕄)
      ⊣⊢ iprop(ownsW c p off w₁ h.left ∗ ownsW c p (off + w₁) w₂ h.right) := by
  unfold ownsW
  constructor
  · iintro ⟨%f, Hf⟩
    ihave Hs := (pointsTo_wb_add c h fullShare f).1 $$ Hf
    icases Hs with ⟨H1, H2⟩
    isplitl [H1]
    · iexists f; iexact H1
    · iexists f; iexact H2
  · iintro ⟨⟨%f₁, H1⟩, ⟨%f₂, H2⟩⟩
    ihave Hj := (pointsTo_join (wbReg_disjoint_add c h)) $$ [H1 H2]
    · iframe H1 H2
    iexists ((wbReg c p.val (rowLen p) (off + w₁) w₂ h.right).piecewise f₂ f₁)
    rw [wbReg_add c h]; iexact Hj

end Cut

section Halves
variable (c : Dev nD) (p : Fin 3)

theorem holdsW_halves {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256)
    (val : ℕ → ℕ → F .f32) :
    (holdsW c p off 512 h val : sProp 𝕄) ⊣⊢ iprop(holdsW c p a 256 ha val ∗ holdsW c p b 256 hb val) := by
  have base := holdsW_add c p (w₁ := 256) (w₂ := 256) h val
  rcases hab with ⟨rfl, rfl⟩ | ⟨rfl, rfl⟩
  · exact base
  · exact ⟨base.1.trans sep_comm.1, sep_comm.1.trans base.2⟩

theorem ownsW_halves {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256) :
    (ownsW c p off 512 h : sProp 𝕄) ⊣⊢ iprop(ownsW c p a 256 ha ∗ ownsW c p b 256 hb) := by
  have base := ownsW_add (F := F) c p (w₁ := 256) (w₂ := 256) h
  rcases hab with ⟨rfl, rfl⟩ | ⟨rfl, rfl⟩
  · exact base
  · exact ⟨base.1.trans sep_comm.1, sep_comm.1.trans base.2⟩

theorem halvesD (p : Fin 3) (c : Dev nD) :
    (away2 p c = o2 p c ∧ o3 p c = o2 p c + 256) ∨ (o3 p c = o2 p c ∧ away2 p c = o2 p c + 256) := by revert p c; decide
theorem halvesB (p : Fin 3) (c : Dev nD) :
    (o3 p (nb p 0 c) = sub2 p c ∧ away2 p (nb p 0 c) = sub2 p c + 256) ∨ (away2 p (nb p 0 c) = sub2 p c ∧ o3 p (nb p 0 c) = sub2 p c + 256) := by
  revert p c; decide
theorem halvesC (p : Fin 3) (c : Dev nD) :
    (o3 p (nb p 1 c) = away1 p c ∧ away2 p (nb p 1 c) = away1 p c + 256) ∨ (away2 p (nb p 1 c) = away1 p c ∧ o3 p (nb p 1 c) = away1 p c + 256) := by
  revert p c; decide

theorem holdsW_D (val : ℕ → ℕ → F .f32) :
    (holdsW c p (o2 p c) 512 (hD p c) val : sProp 𝕄)
      ⊣⊢ iprop(holdsW c p (away2 p c) 256 (hE p c) val ∗ holdsW c p (o3 p c) 256 (hG p c) val) :=
  holdsW_halves c p (halvesD p c) _ _ _ val

theorem ownsW_D (d : Dev nD) :
    (ownsW d p (o2 p c) 512 (hD p c) : sProp 𝕄)
      ⊣⊢ iprop(ownsW d p (away2 p c) 256 (hE p c) ∗ ownsW d p (o3 p c) 256 (hG p c)) :=
  ownsW_halves d p (halvesD p c) _ _ _

theorem holdsW_B (val : ℕ → ℕ → F .f32) :
    (holdsW c p (sub2 p c) 512 (hB p c) val : sProp 𝕄)
      ⊣⊢ iprop(holdsW c p (o3 p (nb p 0 c)) 256 (hBg p c) val ∗ holdsW c p (away2 p (nb p 0 c)) 256 (hBe p c) val) :=
  holdsW_halves c p (halvesB p c) _ _ _ val

theorem holdsW_C (val : ℕ → ℕ → F .f32) :
    (holdsW c p (away1 p c) 512 (hC p c) val : sProp 𝕄)
      ⊣⊢ iprop(holdsW c p (o3 p (nb p 1 c)) 256 (hCg p c) val ∗ holdsW c p (away2 p (nb p 1 c)) 256 (hCe p c) val) :=
  holdsW_halves c p (halvesC p c) _ _ _ val

end Halves

section Shares
variable (c : Dev nD) (p : Fin 3) {off wd : ℕ} (h : Inb3 2048 p.val (rowLen p) off wd)

theorem holdsW_partW (val : ℕ → ℕ → F .f32) :
    (holdsW c p off wd h val : sProp 𝕄) ⊣⊢ partW c p off wd h [fullShare] val := by
  unfold holdsW partW
  simp only [List.foldr_cons, List.foldr_nil]
  constructor
  · iintro ⟨%f, Hf, %hf⟩
    iexists f
    iframe Hf
    ipureintro; exact hf
  · iintro ⟨%f, ⟨Hf, -⟩, %hf⟩
    iexists f
    iframe Hf
    ipureintro; exact hf

theorem partW_share (q : PosShare TreeShare) (qs : List (PosShare TreeShare)) (val : ℕ → ℕ → F .f32) :
    (partW c p off wd h (q :: qs) val : sProp 𝕄) ⊣⊢ partW c p off wd h (q.left :: q.right :: qs) val := by
  unfold partW
  simp only [List.foldr_cons]
  constructor
  · iintro ⟨%f, ⟨Hq, Hr⟩, %hf⟩
    ihave Hq' := (pointsTo_share (PosShare.mem_left_op_right q)).1 $$ Hq
    icases Hq' with ⟨Hl, Hrr⟩
    iexists f
    iframe Hl Hrr Hr
    ipureintro; exact hf
  · iintro ⟨%f, ⟨Hl, Hrr, Hr⟩, %hf⟩
    iexists f
    isplitl [Hl Hrr Hr]
    · isplitl [Hl Hrr]
      · iapply (pointsTo_share (PosShare.mem_left_op_right q)).2
        iframe Hl Hrr
      · iexact Hr
    · ipureintro; exact hf

theorem partW_cons (q : PosShare TreeShare) (qs : List (PosShare TreeShare)) (val : ℕ → ℕ → F .f32) :
    (partW c p off wd h (q :: qs) val : sProp 𝕄)
      ⊣⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{q} f)
          ∗ (qs.foldr (fun q A => iprop((((wbM.access (wbRect p.val (rowLen p) off wd h)).loc (c : Thread nD τ)) ↦[wbReg c p.val (rowLen p) off wd h]{q} f) ∗ A)) iprop(emp))
          ∗ ⌜∀ y : (⟨3, ![1, rowLen p, wd]⟩ : Shape).Idx, (wbM.access (wbRect p.val (rowLen p) off wd h)).read (Elt F) f y = val (y 1).val (off + (y 2).val)⌝) := by
  unfold partW
  simp only [List.foldr_cons]
  constructor
  · iintro ⟨%f, ⟨Hq, Hr⟩, %hf⟩
    iexists f
    iframe Hq Hr
    ipureintro; exact hf
  · iintro ⟨%f, Hq, Hr, %hf⟩
    iexists f
    iframe Hq Hr
    ipureintro; exact hf

end Shares

theorem bigSep_fin3 (Φ : Fin 3 → sProp 𝕄) : (bigSep Finset.univ Φ : sProp 𝕄) = iprop(Φ 0 ∗ Φ 1 ∗ Φ 2) :=
  bigSep_univ_eq_bigSepL [0, 1, 2] (by decide) (by decide) Φ
theorem bigSep_fin4 (Φ : Fin 4 → sProp 𝕄) : (bigSep Finset.univ Φ : sProp 𝕄) = iprop(Φ 0 ∗ Φ 1 ∗ Φ 2 ∗ Φ 3) :=
  bigSep_univ_eq_bigSepL [0, 1, 2, 3] (by decide) (by decide) Φ

section Out
variable (c : Dev nD)

theorem row_lt : ∀ (p : Fin 3) (r : ℕ), r < rowLen p → rowStart p + r < 4096
  | 0, r, hr => by have h : r < 1368 := hr; show 0 + r < 4096; omega
  | 1, r, hr => by have h : r < 1368 := hr; show 1368 + r < 4096; omega
  | 2, r, hr => by have h : r < 1360 := hr; show 2736 + r < 4096; omega

theorem mem_outReg {r0 n off wd : ℕ} (h : Inb2 r0 n off wd) (i : S4096x2048.Idx) :
    i ∈ outReg c r0 n off wd h ↔ r0 ≤ (i 0).val ∧ (i 0).val < r0 + n ∧ off ≤ (i 1).val ∧ (i 1).val < off + wd := by
  unfold outReg
  rw [show (outM.access (outRect r0 n off wd h)).set = (outRect r0 n off wd h).set from View.set_slice_whole main_v1 _]
  unfold outRect
  rw [Rect.mem_set_unit]
  exact ⟨fun H => ⟨(H 0).1, (H 0).2, (H 1).1, (H 1).2⟩, fun ⟨a0, a1, b0, b1⟩ a =>
    match a with
    | ⟨0, _⟩ => ⟨a0, a1⟩
    | ⟨1, _⟩ => ⟨b0, b1⟩⟩

theorem read_out_access {r0 n off wd : ℕ} (h : Inb2 r0 n off wd)
    (f : Buf (Elt F) ((outM.access (outRect r0 n off wd h)).loc (c : Thread nD τ))) (y : (⟨2, ![n, wd]⟩ : Shape).Idx) :
    (outM.access (outRect r0 n off wd h)).read (Elt F) f y
      = f (ix2 (⟨r0 + (y 0).val, by have := (y 0).isLt; have hh : (y 0).val < n := this; obtain ⟨h0, _⟩ := h; omega⟩ : Fin 4096)
            (⟨off + (y 1).val, by have := (y 1).isLt; have hh : (y 1).val < wd := this; obtain ⟨_, h1⟩ := h; omega⟩ : Fin 2048)) := by
  show f ((outRect r0 n off wd h).emb y) = _
  refine congrArg f (funext fun a => Fin.ext ?_)
  match a with
  | ⟨0, _⟩ => show r0 + 1 * (y 0).val = r0 + (y 0).val; omega
  | ⟨1, _⟩ => show off + 1 * (y 1).val = off + (y 1).val; omega

theorem rows_sep (p p' : Fin 3) (hp : p ≠ p') :
    rowStart p + rowLen p ≤ rowStart p' ∨ rowStart p' + rowLen p' ≤ rowStart p := by revert p p'; decide
theorem cols_sep (p : Fin 3) (c : Dev nD) (j j' : Fin 4) (hj : j ≠ j') :
    locOff p j c + 512 ≤ locOff p j' c ∨ locOff p j' c + 512 ≤ locOff p j c := by revert p c j j'; decide
theorem cols_cover (p : Fin 3) (c : Dev nD) (col : ℕ) (hc : col < 2048) :
    ∃ j : Fin 4, locOff p j c ≤ col ∧ col < locOff p j c + 512 := by
  obtain ⟨j, hj⟩ := (by decide : ∀ (p : Fin 3) (c : Dev nD) (t : Fin 4), ∃ j : Fin 4, locOff p j c = 512 * t.val) p c ⟨col / 512, by omega⟩
  exact ⟨j, by rw [hj]; show 512 * (col / 512) ≤ col; omega, by rw [hj]; show col < 512 * (col / 512) + 512; omega⟩
theorem rows_cover (r : ℕ) (hr : r < 4096) : ∃ p : Fin 3, rowStart p ≤ r ∧ r < rowStart p + rowLen p := by
  by_cases h1 : r < 1368
  · exact ⟨0, Nat.zero_le _, by show r < 0 + 1368; omega⟩
  · by_cases h2 : r < 2736
    · exact ⟨1, by show 1368 ≤ r; omega, by show r < 1368 + 1368; omega⟩
    · exact ⟨2, by show 2736 ≤ r; omega, by show r < 2736 + 1360; omega⟩

abbrev outPiece (pj : Fin 3 × Fin 4) : Finset (Idx ((c : Thread nD τ).loc main_v1)) :=
  outReg c (rowStart pj.1) (rowLen pj.1) (locOff pj.1 pj.2 c) 512 (inb_out pj.1 pj.2 c)

theorem mem_outPiece (pj : Fin 3 × Fin 4) (i : S4096x2048.Idx) :
    i ∈ outPiece c pj ↔ rowStart pj.1 ≤ (i 0).val ∧ (i 0).val < rowStart pj.1 + rowLen pj.1
      ∧ locOff pj.1 pj.2 c ≤ (i 1).val ∧ (i 1).val < locOff pj.1 pj.2 c + 512 := mem_outReg c _ i

theorem outPiece_disjoint (pj pj' : Fin 3 × Fin 4) (hne : pj ≠ pj') : Disjoint (outPiece c pj) (outPiece c pj') := by
  rw [Finset.disjoint_left]
  intro i hi hi'
  rw [mem_outPiece] at hi hi'
  obtain ⟨p, j⟩ := pj; obtain ⟨p', j'⟩ := pj'
  by_cases hp : p = p'
  · subst hp
    have hj : j ≠ j' := fun e => hne (by rw [e])
    have := cols_sep p c j j' hj
    simp only at hi hi'
    omega
  · have := rows_sep p p' hp
    simp only at hi hi'
    omega

theorem outPiece_cover : Finset.univ.biUnion (outPiece c) = Finset.univ := by
  ext i
  simp only [Finset.mem_biUnion, Finset.mem_univ, true_and, iff_true]
  have hi0 : (i 0).val < 4096 := (i 0).isLt
  have hi1 : (i 1).val < 2048 := (i 1).isLt
  obtain ⟨p, hp0, hp1⟩ := rows_cover (i 0).val hi0
  obtain ⟨j, hlo, hhi⟩ := cols_cover p c (i 1).val hi1
  exact ⟨(p, j), (mem_outPiece c (p, j) i).mpr ⟨hp0, hp1, hlo, hhi⟩⟩

theorem out_split (V : Buf (Elt F) ((c : Thread nD τ).loc main_v1)) :
    ((((c : Thread nD τ).loc main_v1) ↦{fullShare} V) : sProp 𝕄)
      ⊢ bigSep Finset.univ (fun p : Fin 3 => bigSep Finset.univ (fun j : Fin 4 => ownsOut c p (locOff p j c) (inb_out p j c))) := by
  have e := pointsTo_biUnion (Ix := Unit) (Val := Elt F) (Name := ℕ) (U := UU) (Lvl := ℕ) (q := fullShare) (f := V)
    Finset.univ (outPiece c) (fun t _ t' _ hne => outPiece_disjoint c t t' hne)
  rw [outPiece_cover c] at e
  refine (Entails.of_eq e).trans ?_
  rw [bigSep_univ_prod]
  refine bigSep_mono fun p _ => bigSep_mono fun j _ => ?_
  exact exists_intro (PROP := sProp 𝕄) V

end Out

section OutJoin
variable (c : Dev nD)

theorem out_join (x : Dev nD → Vec F S4096x512 .f32) (w : Dev nD → Vec F S512x2048 .f32) :
    (bigSep Finset.univ (fun p : Fin 3 => bigSep Finset.univ (fun j : Fin 4 =>
        holdsOut c p (locOff p j c) (inb_out p j c) (gath x w p))) : sProp 𝕄)
      ⊢ iprop(∃ res : Buf (Elt F) ((c : Thread nD τ).loc main_v1), ((((c : Thread nD τ).loc main_v1) ↦{fullShare} res)
          ∗ ⌜∀ (p : Fin 3) (r col : ℕ) (hr : r < rowLen p) (hc : col < 2048),
              res (ix2 (⟨rowStart p + r, row_lt p r hr⟩ : Fin 4096) (⟨col, hc⟩ : Fin 2048)) = gath x w p r col⌝)) := by
  rw [← bigSep_univ_prod (fun pj : Fin 3 × Fin 4 => holdsOut c pj.1 (locOff pj.1 pj.2 c) (inb_out pj.1 pj.2 c) (gath x w pj.1))]
  unfold holdsOut
  haveI : Nonempty (Buf (Elt F) ((c : Thread nD τ).loc main_v1)) := ⟨fun _ => (FloatOps.ofBits .f32 0x00000000#32 : F .f32)⟩
  refine (bigSep_exists_pi Finset.univ _).trans ?_
  have J := pointsTo_biUnion_join (q := fullShare) (Ix := Unit) (Val := Elt F) (Name := ℕ) (U := UU) (Lvl := ℕ)
    (ℓ := (c : Thread nD τ).loc main_v1) Finset.univ (outPiece c)
  rw [outPiece_cover c] at J
  refine (exists_mono fun fs => (bigSep_mono fun _ _ => BI.sep_comm).trans (bigSep_pure_sep Finset.univ _ _)).trans ?_
  iintro ⟨%fs, %hf, Hp⟩
  ihave Hj := (J fs (fs (0, 0)) (fun t _ t' _ hne => outPiece_disjoint c t t' hne)) $$ Hp
  icases Hj with ⟨%g, %hg, Hg⟩
  iexists g
  iframe Hg
  ipureintro
  intro p r col hr hc
  obtain ⟨j, hlo, hhi⟩ := cols_cover p c col hc
  have hi : (ix2 (⟨rowStart p + r, row_lt p r hr⟩ : Fin 4096) (⟨col, hc⟩ : Fin 2048) : S4096x2048.Idx) ∈ outPiece c (p, j) :=
    (mem_outPiece c (p, j) _).mpr ⟨Nat.le_add_right _ _, Nat.add_lt_add_left hr _, hlo, hhi⟩
  rw [hg (p, j) (Finset.mem_univ _) _ hi]
  obtain ⟨k, rfl⟩ : ∃ k, col = locOff p j c + k := ⟨col - locOff p j c, by omega⟩
  have := hf (p, j) (Finset.mem_univ _) (ix2 ⟨r, hr⟩ ⟨k, by omega⟩)
  rwa [read_out_access] at this

end OutJoin

section Scratch

theorem whole_split {ℓ : Loc nD τ sig} {B : Type} [Fintype B] [DecidableEq B] (K : B → Finset (Idx ℓ))
    (hd : ∀ b b', b ≠ b' → Disjoint (K b) (K b')) (f₀ : Buf (Elt F) ℓ) :
    (iprop(∃ f : Buf (Elt F) ℓ, ℓ ↦{fullShare} f) : sProp 𝕄)
      ⊣⊢ iprop((bigSep Finset.univ fun b : B => (iprop(∃ f : Buf (Elt F) ℓ, ℓ ↦[K b]{fullShare} f) : sProp 𝕄))
          ∗ ∃ f : Buf (Elt F) ℓ, ℓ ↦[Finset.univ \ Finset.univ.biUnion K]{fullShare} f) := by
  haveI : Nonempty (Buf (Elt F) ℓ) := ⟨f₀⟩
  have eU : Finset.univ.biUnion K ∪ (Finset.univ \ Finset.univ.biUnion K) = (Finset.univ : Finset (Idx ℓ)) :=
    Finset.union_sdiff_of_subset (Finset.subset_univ _)
  constructor
  · iintro ⟨%f, Hf⟩
    ihave Hs := (pointsTo_split_subset (I := Finset.univ.biUnion K) (Finset.subset_univ _)).1 $$ Hf
    icases Hs with ⟨HU, HR⟩
    isplitl [HU]
    · have M : ((ℓ ↦[Finset.univ.biUnion K]{fullShare} f) : sProp 𝕄)
          ⊢ bigSep Finset.univ fun b : B => (iprop(∃ f : Buf (Elt F) ℓ, ℓ ↦[K b]{fullShare} f) : sProp 𝕄) :=
        (Entails.of_eq (pointsTo_biUnion (q := fullShare) (f := f) Finset.univ K (fun t _ t' _ hne => hd t t' hne))).trans
          (bigSep_mono fun b _ => exists_intro (PROP := sProp 𝕄) f)
      iapply M; iexact HU
    · iexists f; iexact HR
  · iintro ⟨HB, ⟨%fr, HR⟩⟩
    ihave HB' := (bigSep_exists_pi Finset.univ (fun (b : B) (f : Buf (Elt F) ℓ) => ((ℓ ↦[K b]{fullShare} f) : sProp 𝕄))) $$ HB
    icases HB' with ⟨%fs, HB'⟩
    ihave HU := (pointsTo_biUnion_join (q := fullShare) Finset.univ K fs f₀ (fun t _ t' _ hne => hd t t' hne)) $$ HB'
    icases HU with ⟨%g, -, HU⟩
    ihave HJ := (pointsTo_join (Finset.disjoint_sdiff)) $$ [HU HR]
    · iframe HU HR
    iexists ((Finset.univ \ Finset.univ.biUnion K).piecewise fr g)
    have J' : ((ℓ ↦[Finset.univ.biUnion K ∪ (Finset.univ \ Finset.univ.biUnion K)]{fullShare} ((Finset.univ \ Finset.univ.biUnion K).piecewise fr g)) : sProp 𝕄)
        ⊢ (ℓ ↦{fullShare} ((Finset.univ \ Finset.univ.biUnion K).piecewise fr g)) := Entails.of_eq (by rw [eU])
    iapply J'; iexact HJ

end Scratch

section ScratchPieces
variable (c : Dev nD)

def wPiece (pj : Fin 3 × Fin 4) : Finset (Idx ((c : Thread nD τ).loc cc0_scratch0)) :=
  wbReg c pj.1.val (rowLen pj.1) (locOff pj.1 pj.2 c) 512 (inb_loc pj.1 pj.2 c)
def r1Piece (p : Fin 3) : Finset (Idx ((c : Thread nD τ).loc cc0_scratch1)) := r1Reg c p.val (rowLen p) 0 512 (inb_r1 p)
def r2Piece (p : Fin 3) : Finset (Idx ((c : Thread nD τ).loc cc0_scratch2)) := r2Reg c p.val (rowLen p) 0 256 (inb_r2 p)

theorem wPiece_disjoint (pj pj' : Fin 3 × Fin 4) (hne : pj ≠ pj') : Disjoint (wPiece c pj) (wPiece c pj') := by
  obtain ⟨p, j⟩ := pj; obtain ⟨p', j'⟩ := pj'
  refine wbReg_disjoint c _ _ ?_
  by_cases hp : p = p'
  · subst hp; right; exact cols_sep p c j j' (fun e => hne (by rw [e]))
  · left; exact fun e => hp (Fin.ext e)

def restScr : sProp 𝕄 :=
  iprop((∃ f : Buf (Elt F) ((c : Thread nD τ).loc cc0_scratch0),
      ((c : Thread nD τ).loc cc0_scratch0) ↦[Finset.univ \ Finset.univ.biUnion (wPiece c)]{fullShare} f)
    ∗ (∃ f : Buf (Elt F) ((c : Thread nD τ).loc cc0_scratch1),
      ((c : Thread nD τ).loc cc0_scratch1) ↦[Finset.univ \ Finset.univ.biUnion (r1Piece c)]{fullShare} f)
    ∗ (∃ f : Buf (Elt F) ((c : Thread nD τ).loc cc0_scratch2),
      ((c : Thread nD τ).loc cc0_scratch2) ↦[Finset.univ \ Finset.univ.biUnion (r2Piece c)]{fullShare} f))

def slicePieces (p : Fin 3) : sProp 𝕄 :=
  iprop((bigSep Finset.univ fun j : Fin 4 => (ownsW c p (locOff p j c) 512 (inb_loc p j c) : sProp 𝕄)) ∗ ownsR1 c p ∗ ownsR2 c p)

theorem scratch_split :
    (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)) : sProp 𝕄)
      ⊣⊢ iprop((bigSep Finset.univ fun p : Fin 3 => (slicePieces c p : sProp 𝕄)) ∗ restScr c) := by
  have z : F .f32 := FloatOps.ofBits .f32 0x00000000#32
  have e0 := whole_split (F := F) (wPiece c) (wPiece_disjoint c) (fun _ => z)
  have e1 := whole_split (F := F) (r1Piece c) (fun _ _ hne => r1Reg_disjoint c _ _ (Or.inl fun e => hne (Fin.ext e))) (fun _ => z)
  have e2 := whole_split (F := F) (r2Piece c) (fun _ _ hne => r2Reg_disjoint c _ _ (Or.inl fun e => hne (Fin.ext e))) (fun _ => z)
  rw [bigSep_univ_prod] at e0
  rw [show (bigSep Finset.univ fun p : Fin 3 => (slicePieces c p : sProp 𝕄)) = _ from
    (bigSep_sep' Finset.univ _ _).trans (congrArg (BIBase.sep _) (bigSep_sep' Finset.univ _ _))]
  unfold restScr
  constructor
  · iintro ⟨H0, H1, H2⟩
    ihave H0' := e0.1 $$ H0
    ihave H1' := e1.1 $$ H1
    ihave H2' := e2.1 $$ H2
    icases H0' with ⟨W, RW⟩
    icases H1' with ⟨R1, RR1⟩
    icases H2' with ⟨R2, RR2⟩
    iframe RW RR1 RR2
    isplitl [W]; · iexact W
    isplitl [R1]; · iexact R1
    iexact R2
  · iintro ⟨⟨W, R1, R2⟩, ⟨RW, RR1, RR2⟩⟩
    isplitl [W RW]
    · iapply e0.2; iframe RW; iexact W
    isplitl [R1 RR1]
    · iapply e1.2; iframe RR1; iexact R1
    · iapply e2.2; iframe RR2; iexact R2

end ScratchPieces

end Cert.Kernel.Pieces

end
-- ==== Proof.K.Ends.lean ====
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages
import proofs.«900802_g7700000000000803_dist_gemm_ar_m4096_k4096_n2048_f32_relu_v7x_i8_1_alg».proof.Proof.K.Launch

noncomputable section

namespace Cert.Kernel.Ends

open Cert.Kernel Cert.Kernel.Gen Cert.Kernel.Spec Cert.Kernel.Reg Cert.Kernel.Proto
open Cert.Kernel.Stages (nb hA hB hC hD hE hG dataSl partW keep3 during since sendG recvG locG)
open Cert.Kernel.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem away1_nb (k : Fin 3) (c : Dev nD) : away1 k (par k c) = sub1 k c := by revert k c; decide
theorem o2_nb (k : Fin 3) (c : Dev nD) : o2 k (par k c) = sub2 k c := by revert k c; decide

theorem barPay_eq (d e : Dev nD) (k p1 p2 : Fin 3) (he : par k d = e) (h1 : p1.val = (k.val + 2) % 3) (h2 : p2.val = (k.val + 1) % 3) :
    (barPay (F := F) d k : sProp 𝕄)
      = iprop(ownsW e k (away1 k e) 512 (hC k e) ∗ ownsW e k (o2 k e) 512 (hD k e) ∗ ownsR1 e p1 ∗ ownsR2 e p2) := by
  obtain rfl : p1 = ⟨(k.val + 2) % 3, Nat.mod_lt _ (by decide)⟩ := Fin.ext h1
  obtain rfl : p2 = ⟨(k.val + 1) % 3, Nat.mod_lt _ (by decide)⟩ := Fin.ext h2
  subst he; rfl

theorem barPay_give (c : Dev nD) (k p1 p2 : Fin 3) (h1 : p1.val = (k.val + 2) % 3) (h2 : p2.val = (k.val + 1) % 3) :
    (iprop(ownsW c k (away1 k c) 512 (hC k c) ∗ ownsW c k (o2 k c) 512 (hD k c) ∗ ownsR1 c p1 ∗ ownsR2 c p2) : sProp 𝕄)
      ⊢ (barPay (F := F) (par k c) k : sProp 𝕄) :=
  Entails.of_eq (barPay_eq (par k c) c k p1 p2 (par_par k c) h1 h2).symm

theorem barPay_take (c : Dev nD) (k p1 p2 : Fin 3) (h1 : p1.val = (k.val + 2) % 3) (h2 : p2.val = (k.val + 1) % 3) :
    (barPay (F := F) c k : sProp 𝕄)
      ⊢ iprop(ownsW (par k c) k (sub1 k c) 512 (hA k c) ∗ ownsW (par k c) k (sub2 k c) 512 (hB k c)
          ∗ ownsR1 (par k c) p1 ∗ ownsR2 (par k c) p2) := by
  rw [barPay_eq c (par k c) k p1 p2 rfl h1 h2,
    ownsW_congr (F := F) (par k c) k (wd := 512) (wd' := 512) (away1_nb k c) rfl (hC k (par k c)) (hA k c),
    ownsW_congr (F := F) (par k c) k (wd := 512) (wd' := 512) (o2_nb k c) rfl (hD k (par k c)) (hB k c)]

section Shares
variable (c : Dev nD) (p : Fin 3) {off wd : ℕ} (h : Inb3 2048 p.val (rowLen p) off wd)

def sharesW (qs : List (PosShare TreeShare)) : sProp 𝕄 :=
  iprop(∃ f : Buf (Elt F) ((wbM.access (wbRect p.val (rowLen p) off wd h)).loc (c : Thread nD τ)),
    qs.foldr (fun q A => iprop((((wbM.access (wbRect p.val (rowLen p) off wd h)).loc (c : Thread nD τ)) ↦[wbReg c p.val (rowLen p) off wd h]{q} f) ∗ A)) iprop(emp))

theorem partW_sharesW (qs : List (PosShare TreeShare)) (val : ℕ → ℕ → F .f32) :
    (partW c p off wd h qs val : sProp 𝕄) ⊢ sharesW c p h qs := by
  unfold partW sharesW
  iintro ⟨%f, H, -⟩
  iexists f
  iexact H

theorem lentW_sharesW (q : PosShare TreeShare) : (lentW c p off wd h q : sProp 𝕄) ⊢ sharesW c p h [q] := by
  unfold lentW sharesW
  simp only [List.foldr_cons, List.foldr_nil]
  iintro ⟨%f, H⟩
  iexists f
  iframe H

theorem sharesW_return (q q' : PosShare TreeShare) (qs : List (PosShare TreeShare)) :
    (iprop(lentW c p off wd h q ∗ sharesW c p h (q' :: qs)) : sProp 𝕄) ⊢ sharesW c p h (q :: q' :: qs) := by
  unfold lentW sharesW
  simp only [List.foldr_cons]
  iintro ⟨⟨%g, Hg⟩, ⟨%f, Hq', Hr⟩⟩
  icombine Hg Hq' as H2
  ihave %hag := BI.Region.is_agree $$ H2
  icases H2 with ⟨Hg, Hq'⟩
  ihave Hg' := (Entails.of_eq (pointsTo_congr (f := g) (g := f) fun i hi => (hag i (Finset.mem_inter.mpr ⟨hi, hi⟩)).1)) $$ Hg
  iexists f
  iframe Hg' Hq' Hr

theorem sharesW_whole :
    (sharesW c p h [fullShare.right.right.right, fullShare.left, fullShare.right.left, fullShare.right.right.left] : sProp 𝕄)
      ⊢ ownsW c p off wd h := by
  unfold sharesW ownsW
  simp only [List.foldr_cons, List.foldr_nil]
  iintro ⟨%f, H4, H1, H2, H3, -⟩
  iexists f
  iapply (pointsTo_share (PosShare.mem_left_op_right fullShare)).2
  iframe H1
  iapply (pointsTo_share (PosShare.mem_left_op_right fullShare.right)).2
  iframe H2
  iapply (pointsTo_share (PosShare.mem_left_op_right fullShare.right.right)).2
  iframe H3 H4

theorem whole3 {X : sProp 𝕄} (hX : X ⊢ sharesW c p h keep3) : (iprop(lentW c p off wd h lshr ∗ X) : sProp 𝕄) ⊢ ownsW c p off wd h :=
  (sep_mono_right hX).trans ((sharesW_return c p h _ _ _).trans (sharesW_whole c p h))

theorem whole2 {X : sProp 𝕄} (hX : X ⊢ sharesW c p h [fullShare.right.left, fullShare.right.right.left]) :
    (iprop(lentW c p off wd h lshr ∗ lentW c p off wd h fullShare.left ∗ X) : sProp 𝕄) ⊢ ownsW c p off wd h :=
  whole3 c p h ((sep_mono_right hX).trans (sharesW_return c p h _ _ _))

theorem whole1 {X : sProp 𝕄} (hX : X ⊢ sharesW c p h [fullShare.right.right.left]) :
    (iprop(lentW c p off wd h lshr ∗ lentW c p off wd h fullShare.left ∗ lentW c p off wd h fullShare.right.left ∗ X) : sProp 𝕄)
      ⊢ ownsW c p off wd h :=
  whole2 c p h ((sep_mono_right hX).trans (sharesW_return c p h _ _ _))

end Shares

section LentCut
variable (c : Dev nD) (p : Fin 3)

theorem lentW_add {off w₁ w₂ : ℕ} (h : Inb3 2048 p.val (rowLen p) off (w₁ + w₂)) (q : PosShare TreeShare) :
    (lentW c p off (w₁ + w₂) h q : sProp 𝕄) ⊢ iprop(lentW c p off w₁ h.left q ∗ lentW c p (off + w₁) w₂ h.right q) := by
  unfold lentW
  iintro ⟨%f, Hf⟩
  ihave Hs := (pointsTo_wb_add c h q f).1 $$ Hf
  icases Hs with ⟨H1, H2⟩
  isplitl [H1]
  · iexists f; iexact H1
  · iexists f; iexact H2

theorem lentW_halves {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256)
    (q : PosShare TreeShare) :
    (lentW c p off 512 h q : sProp 𝕄) ⊢ iprop(lentW c p a 256 ha q ∗ lentW c p b 256 hb q) := by
  have h' : Inb3 2048 p.val (rowLen p) off (256 + 256) := h
  have base := lentW_add (F := F) c p h' q
  rcases hab with ⟨rfl, rfl⟩ | ⟨rfl, rfl⟩
  · exact base
  · exact base.trans sep_comm.1

theorem lentW_D (q : PosShare TreeShare) :
    (lentW c p (o2 p c) 512 (hD p c) q : sProp 𝕄)
      ⊢ iprop(lentW c p (away2 p c) 256 (hE p c) q ∗ lentW c p (o3 p c) 256 (hG p c) q) :=
  lentW_halves c p (halvesD p c) _ _ _ q

end LentCut

theorem bigSep_fin10 (Φ : Fin 10 → sProp 𝕄) :
    (bigSep Finset.univ Φ : sProp 𝕄) = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

section End
variable (x : Dev nD → Vec F S4096x512 .f32) (w : Dev nD → Vec F S512x2048 .f32)

theorem holdsR1_owns (c : Dev nD) (p : Fin 3) (base : ℕ) (val : ℕ → ℕ → F .f32) :
    (holdsR1 c p base val : sProp 𝕄) ⊢ ownsR1 c p := by
  unfold holdsR1 ownsR1
  iintro ⟨%f, H, -⟩
  iexists f
  iexact H
theorem holdsR2_owns (c : Dev nD) (p : Fin 3) (base : ℕ) (val : ℕ → ℕ → F .f32) :
    (holdsR2 c p base val : sProp 𝕄) ⊢ ownsR2 c p := by
  unfold holdsR2 ownsR2
  iintro ⟨%f, H, -⟩
  iexists f
  iexact H

def sliceEnd (c : Dev nD) (p : Fin 3) : sProp 𝕄 :=
  iprop(partW c p (sub1 p c) 512 (hA p c) keep3 (gath x w p)
    ∗ partW c p (sub2 p c) 512 (hB p c) keep3 (gath x w p)
    ∗ partW c p (away1 p c) 512 (hC p c) [fullShare.right.left, fullShare.right.right.left] (gath x w p)
    ∗ partW c p (away2 p c) 256 (hE p c) [fullShare.right.right.left] (gath x w p)
    ∗ holdsR1 c p (o2 p c) (fun r col => Vals.st1 x w p r col (nb p 1 c))
    ∗ holdsR2 c p (o3 p c) (fun r col => Vals.st2 x w p r col (nb p 2 c))
    ∗ lentW c p (o3 p c) 256 (hG p c) fullShare.left
    ∗ lentW c p (o3 p c) 256 (hG p c) fullShare.right.left
    ∗ lentW c p (o3 p c) 256 (hG p c) fullShare.right.right.left
    ∗ lentW c p (away2 p c) 256 (hE p c) fullShare.left
    ∗ lentW c p (away2 p c) 256 (hE p c) fullShare.right.left
    ∗ lentW c p (away1 p c) 512 (hC p c) fullShare.left
    ∗ locPay x w c p 0 ∗ locPay x w c p 1 ∗ locPay x w c p 2 ∗ locPay x w c p 3
    ∗ sendG c p 0 2 ∗ sendG c p 1 2 ∗ sendG c p 2 2 ∗ sendG c p 3 2 ∗ sendG c p 4 2 ∗ sendG c p 5 2 ∗ sendG c p 6 2 ∗ sendG c p 7 2 ∗ sendG c p 8 2 ∗ sendG c p 9 2
    ∗ recvG c p 0 1 ∗ recvG c p 1 1 ∗ recvG c p 2 1 ∗ recvG c p 3 1 ∗ recvG c p 4 1 ∗ recvG c p 5 1 ∗ recvG c p 6 1 ∗ recvG c p 7 1 ∗ recvG c p 8 1 ∗ recvG c p 9 1
    ∗ locG c p 0 2 ∗ locG c p 1 2 ∗ locG c p 2 2 ∗ locG c p 3 2)

def ghostEnd (c : Dev nD) (p : Fin 3) : sProp 𝕄 :=
  iprop((bigSep Finset.univ fun i : Fin 10 => (atPos (ER (F := F)) (sendCell c p i) 1 ∅ 0 : sProp 𝕄))
    ∗ (bigSep Finset.univ fun i : Fin 10 => (atPos (ER (F := F)) (recvCell c p i) 1 ∅ 0 : sProp 𝕄))
    ∗ (bigSep Finset.univ fun j : Fin 4 => (atPos (ER (F := F)) (locCell c p j) 1 ∅ 0 : sProp 𝕄)))

theorem sendG_two (c : Dev nD) (p : Fin 3) (i : Fin 10) :
    (sendG (F := F) c p i 2 : sProp 𝕄) = atPos (ER (F := F)) (sendCell c p i) 1 ∅ 0 := rfl
theorem recvG_one (c : Dev nD) (p : Fin 3) (i : Fin 10) :
    (recvG (F := F) c p i 1 : sProp 𝕄) = atPos (ER (F := F)) (recvCell c p i) 1 ∅ 0 := rfl
theorem locG_two (c : Dev nD) (p : Fin 3) (j : Fin 4) :
    (locG (F := F) c p j 2 : sProp 𝕄) = atPos (ER (F := F)) (locCell c p j) 1 ∅ 0 := rfl

theorem slicePieces_eq (c : Dev nD) (p : Fin 3) : (slicePieces (F := F) c p : sProp 𝕄)
    = iprop((ownsW c p (o2 p c) 512 (hD p c) ∗ ownsW c p (away1 p c) 512 (hC p c) ∗ ownsW c p (sub2 p c) 512 (hB p c)
        ∗ ownsW c p (sub1 p c) 512 (hA p c)) ∗ ownsR1 c p ∗ ownsR2 c p) := by
  unfold slicePieces
  rw [bigSep_fin4]
  rfl

theorem slice_close (c : Dev nD) (p : Fin 3) :
    (sliceEnd x w c p : sProp 𝕄)
      ⊢ iprop((bigSep Finset.univ fun j : Fin 4 => (holdsOut c p (locOff p j c) (inb_out p j c) (gath x w p) : sProp 𝕄))
          ∗ slicePieces c p ∗ ghostEnd c p) := by
  unfold sliceEnd ghostEnd
  rw [slicePieces_eq, bigSep_fin4, bigSep_fin4, bigSep_fin10, bigSep_fin10]
  simp only [locPay, locOff, Matrix.cons_val, sendG_two, recvG_one, locG_two]
  iintro ⟨PA, PB, PC, PE, R1, R2, G1, G2, G3, E1, E2, C1, ⟨O0, L0⟩, ⟨O1, L1⟩, ⟨O2, L2⟩, ⟨O3, L3⟩, S0, S1, S2, S3, S4, S5, S6, S7, S8, S9, Q0, Q1, Q2, Q3, Q4, Q5, Q6, Q7, Q8, Q9, T0, T1, T2, T3⟩
  iframe O0 O1 O2 O3 S0 S1 S2 S3 S4 S5 S6 S7 S8 S9 Q0 Q1 Q2 Q3 Q4 Q5 Q6 Q7 Q8 Q9 T0 T1 T2 T3
  isplitr [R1 R2]
  · isplitl [PE G1 G2 G3 E1 E2 L0]
    · ihave L0' := (lentW_D c p lshr) $$ L0
      icases L0' with ⟨LE, LG⟩
      iapply (ownsW_D c p c).2
      isplitl [LE E1 E2 PE]
      · iapply (whole1 c p (hE p c) (partW_sharesW c p _ _ (gath x w p))); iframe LE E1 E2 PE
      · iapply (whole1 c p (hG p c) (lentW_sharesW c p _ fullShare.right.right.left)); iframe LG G1 G2 G3
    isplitl [PC C1 L1]
    · iapply (whole2 c p (hC p c) (partW_sharesW c p _ _ (gath x w p))); iframe L1 C1 PC
    isplitl [PB L2]
    · iapply (whole3 c p (hB p c) (partW_sharesW c p _ _ (gath x w p))); iframe L2 PB
    · iapply (whole3 c p (hA p c) (partW_sharesW c p _ _ (gath x w p))); iframe L3 PA
  isplitl [R1]
  · iapply (holdsR1_owns c p _ _); iexact R1
  · iapply (holdsR2_owns c p _ _); iexact R2

end End

section Close
variable (m : (ℓ : Loc nD τ sig) → Buf (Elt F) ℓ) (K : Dev nD × Launch.CIx → ℕ)

theorem duties_later (g : GSem nD τ sig) (r : ℕ) (hr : 1 ≤ r) : (Launch.Rd m).duties g r = ∅ :=
  if_neg (fun h => by omega)

theorem close_cell (ck : Dev nD × Launch.CIx) :
    (iprop(Launch.records m K ∗ atPos (ER (F := F)) (Launch.kcell ck) 1 ∅ 0) : sProp 𝕄)
      ⊢ iprop(|={Set.univ}=> semVal (Launch.kcell ck) 0) := by
  iintro ⟨#HR, Hat⟩
  ihave HI := (Launch.inv_at m K ck) $$ HR
  iapply (cell_close (ER (F := F)) (Launch.Rd m) (Set.mem_univ (K ck)) (fun h => h)
    (fun r hr => duties_later m (Launch.kcell ck) r hr))
  iframe HI Hat

theorem bigSep_insert' {I : Type} [DecidableEq I] {s : Finset I} {i : I} (hi : i ∉ s) (Φ : I → sProp 𝕄) :
    (bigSep (insert i s) Φ : sProp 𝕄) = iprop(Φ i ∗ bigSep s Φ) := bigSep_insert hi

theorem close_all {I : Type} [DecidableEq I] (S : Finset I) (g : I → GSem nD τ sig) (ck : I → Dev nD × Launch.CIx)
    (hg : ∀ i, Launch.kcell (ck i) = g i) :
    (iprop(Launch.records m K ∗ bigSep S (fun i => (atPos (ER (F := F)) (g i) 1 ∅ 0 : sProp 𝕄))) : sProp 𝕄)
      ⊢ iprop(|={Set.univ}=> bigSep S (fun i => (semVal (g i) 0 : sProp 𝕄))) := by
  obtain rfl : g = fun i => Launch.kcell (ck i) := funext fun i => (hg i).symm
  induction S using Finset.induction_on with
  | empty =>
    rw [bigSep_empty, bigSep_empty]
    iintro ⟨-, H⟩
    imodintro
    iexact H
  | insert i s hi ih =>
    rw [bigSep_insert' hi, bigSep_insert' hi]
    iintro ⟨#HR, Hi, Hs⟩
    ihave Hi' := (close_cell m K (ck i)) $$ [Hi]
    · iframe HR Hi
    ihave Hs' := ih $$ [Hs]
    · iframe HR Hs
    imod Hi'
    imod Hs'
    imodintro
    iframe Hi' Hs'

theorem closedCells_eq (c : Dev nD) :
    (Launch.closedCells (F := F) c : sProp 𝕄)
      = iprop(((bigSep Finset.univ fun pi : Launch.PI => (semVal (sendCell c pi.1 pi.2) 0 : sProp 𝕄))
          ∗ (bigSep Finset.univ fun pi : Launch.PI => (semVal (recvCell c pi.1 pi.2) 0 : sProp 𝕄)))
          ∗ (bigSep Finset.univ fun pj : Launch.PJ => (semVal (locCell c pj.1 pj.2) 0 : sProp 𝕄))) := by
  unfold Launch.closedCells
  rw [← bigSep_univ_eq_bigSepL Launch.waitOrder Launch.waitOrder_univ Launch.waitOrder_nodup,
    ← bigSep_univ_eq_bigSepL Launch.locWaitOrder Launch.locWaitOrder_univ Launch.locWaitOrder_nodup,
    bigSep_sep' Finset.univ (fun pi : Launch.PI => (semVal (sendCell c pi.1 pi.2) 0 : sProp 𝕄))
      (fun pi : Launch.PI => (semVal (recvCell c pi.1 pi.2) 0 : sProp 𝕄))]

theorem cells_close (c : Dev nD) :
    (iprop(Launch.records m K ∗ ghostEnd (F := F) c 0 ∗ ghostEnd (F := F) c 1 ∗ ghostEnd (F := F) c 2) : sProp 𝕄)
      ⊢ iprop(|={Set.univ}=> Launch.closedCells (F := F) c) := by
  unfold ghostEnd
  iintro ⟨#HR, ⟨S0, R0, L0⟩, ⟨S1, R1, L1⟩, ⟨S2, R2, L2⟩⟩
  ihave HS := (close_all m K Finset.univ (fun pi : Launch.PI => sendCell c pi.1 pi.2) (fun pi => Launch.kSend c pi.1 pi.2) (fun _ => rfl)) $$ [S0 S1 S2]
  · rw [bigSep_univ_prod, bigSep_fin3]; iframe HR S0 S1 S2
  ihave HQ := (close_all m K Finset.univ (fun pi : Launch.PI => recvCell c pi.1 pi.2) (fun pi => Launch.kRecv c pi.1 pi.2) (fun _ => rfl)) $$ [R0 R1 R2]
  · rw [bigSep_univ_prod, bigSep_fin3]; iframe HR R0 R1 R2
  ihave HL := (close_all m K Finset.univ (fun pj : Launch.PJ => locCell c pj.1 pj.2) (fun pj => Launch.kLoc c pj.1 pj.2) (fun _ => rfl)) $$ [L0 L1 L2]
  · rw [bigSep_univ_prod, bigSep_fin3]; iframe HR L0 L1 L2
  imod HS
  imod HQ
  imod HL
  imodintro
  rw [closedCells_eq]
  iframe HS HQ HL

theorem result_join (c : Dev nD) :
    (iprop((bigSep Finset.univ fun j : Fin 4 => (holdsOut c 0 (locOff 0 j c) (inb_out 0 j c) (gath (Launch.xOf m) (Launch.wOf m) 0) : sProp 𝕄))
        ∗ (bigSep Finset.univ fun j : Fin 4 => (holdsOut c 1 (locOff 1 j c) (inb_out 1 j c) (gath (Launch.xOf m) (Launch.wOf m) 1) : sProp 𝕄))
        ∗ (bigSep Finset.univ fun j : Fin 4 => (holdsOut c 2 (locOff 2 j c) (inb_out 2 j c) (gath (Launch.xOf m) (Launch.wOf m) 2) : sProp 𝕄))) : sProp 𝕄)
      ⊢ Launch.resultAt m c := by
  have hj := out_join (F := F) c (Launch.xOf m) (Launch.wOf m)
  rw [bigSep_fin3] at hj
  refine hj.trans ?_
  unfold Launch.resultAt
  iintro ⟨%res, H, %hres⟩
  iexists res
  iframe H
  ipureintro
  exact hres

theorem scratch_join (c : Dev nD) :
    (iprop((slicePieces (F := F) c 0 ∗ slicePieces (F := F) c 1 ∗ slicePieces (F := F) c 2) ∗ restScr (F := F) c) : sProp 𝕄)
      ⊢ Launch.scratch (F := F) c := by
  have hs := (scratch_split (F := F) c).2
  rw [bigSep_fin3] at hs
  unfold Launch.scratch
  exact hs

theorem close_post (c : Dev nD) :
    (iprop(Launch.records m K ∗ sliceEnd (Launch.xOf m) (Launch.wOf m) c 0 ∗ sliceEnd (Launch.xOf m) (Launch.wOf m) c 1
        ∗ sliceEnd (Launch.xOf m) (Launch.wOf m) c 2 ∗ restScr c ∗ Launch.inputs m c
        ∗ (∃ W : Waits sig Unit, owes (c : Thread nD τ) 0 W)) : sProp 𝕄)
      ⊢ iprop(|={Set.univ}=> Launch.bodyPost m c) := by
  iintro ⟨#HR, E0, E1, E2, Hrest, Hin, HO⟩
  ihave E0' := (slice_close (Launch.xOf m) (Launch.wOf m) c 0) $$ E0
  ihave E1' := (slice_close (Launch.xOf m) (Launch.wOf m) c 1) $$ E1
  ihave E2' := (slice_close (Launch.xOf m) (Launch.wOf m) c 2) $$ E2
  icases E0' with ⟨O0, P0, G0⟩
  icases E1' with ⟨O1, P1, G1⟩
  icases E2' with ⟨O2, P2, G2⟩
  ihave HC := (cells_close m K c) $$ [G0 G1 G2]
  · iframe HR G0 G1 G2
  imod HC
  imodintro
  unfold Launch.bodyPost
  iframe Hin HC HO
  isplitl [O0 O1 O2]
  · iapply (result_join m c); iframe O0 O1 O2
  · iapply (scratch_join c); iframe P0 P1 P2 Hrest

end Close

end Cert.Kernel.Ends

end
-- ==== Proof.K.Tables.lean ====
import proofs.«900802_g7700000000000803_dist_gemm_ar_m4096_k4096_n2048_f32_relu_v7x_i8_1_alg».proof.Proof.K.Proto

noncomputable section

namespace Cert.Kernel.Tables

open Cert.Kernel Cert.Kernel.Gen Cert.Kernel.Spec Cert.Kernel.Reg Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x512 .f32) (w : Dev nD → Vec F S512x2048 .f32)

theorem duties_send (c : Dev nD) (p : Fin 3) (i : Fin 10) : (cubeRd x w).duties (sendCell c p i) 0 = {0} := by
  simp [cubeRd, roleOf_ssem]
theorem amount_send (c : Dev nD) (p : Fin 3) (i : Fin 10) (d : Fin 3) : (cubeRd x w).amount (sendCell c p i) 0 d = credOf p i := by
  simp [cubeRd, roleOf_ssem]
theorem payload_send (c : Dev nD) (p : Fin 3) (i : Fin 10) (d : Fin 3) :
    (cubeRd x w).payload (sendCell c p i) 0 d = sendPay (F := F) c p i := by
  simp [cubeRd, roleOf_ssem]
theorem expect_send (c : Dev nD) (p : Fin 3) (i : Fin 10) : (cubeRd x w).expect (sendCell c p i) 0 = credOf p i := by
  unfold Schedule.expect Schedule.amountOf
  rw [duties_send, Finset.sum_singleton, amount_send]
theorem mem_duties_send (c : Dev nD) (p : Fin 3) (i : Fin 10) : (0 : Fin 3) ∈ (cubeRd x w).duties (sendCell c p i) 0 := by
  rw [duties_send]; exact Finset.mem_singleton_self _

theorem rest_send (c : Dev nD) (p : Fin 3) (i : Fin 10) :
    bigSep ((cubeRd x w).duties (sendCell c p i) 0 \ ∅) (fun d => (cubeRd x w).payload (sendCell c p i) 0 d)
      = sendPay (F := F) c p i := by
  rw [Finset.sdiff_empty, duties_send, bigSep_singleton, payload_send]

theorem duties_recv (c : Dev nD) (p : Fin 3) (i : Fin 10) : (cubeRd x w).duties (recvCell c p i) 0 = {0} := by
  simp [cubeRd, roleOf_rsem]
theorem amount_recv (c : Dev nD) (p : Fin 3) (i : Fin 10) (d : Fin 3) : (cubeRd x w).amount (recvCell c p i) 0 d = credOf p i := by
  simp [cubeRd, roleOf_rsem]
theorem payload_recv (c : Dev nD) (p : Fin 3) (i : Fin 10) (d : Fin 3) :
    (cubeRd x w).payload (recvCell c p i) 0 d = recvPay x w c p i := by
  simp [cubeRd, roleOf_rsem]
theorem expect_recv (c : Dev nD) (p : Fin 3) (i : Fin 10) : (cubeRd x w).expect (recvCell c p i) 0 = credOf p i := by
  unfold Schedule.expect Schedule.amountOf
  rw [duties_recv, Finset.sum_singleton, amount_recv]
theorem mem_duties_recv (c : Dev nD) (p : Fin 3) (i : Fin 10) : (0 : Fin 3) ∈ (cubeRd x w).duties (recvCell c p i) 0 := by
  rw [duties_recv]; exact Finset.mem_singleton_self _

theorem rest_recv (c : Dev nD) (p : Fin 3) (i : Fin 10) :
    bigSep ((cubeRd x w).duties (recvCell c p i) 0 \ ∅) (fun d => (cubeRd x w).payload (recvCell c p i) 0 d)
      = recvPay x w c p i := by
  rw [Finset.sdiff_empty, duties_recv, bigSep_singleton, payload_recv]

theorem duties_loc (c : Dev nD) (p : Fin 3) (j : Fin 4) : (cubeRd x w).duties (locCell c p j) 0 = {0} := by
  simp [cubeRd, roleOf_lsem]
theorem amount_loc (c : Dev nD) (p : Fin 3) (j : Fin 4) (d : Fin 3) : (cubeRd x w).amount (locCell c p j) 0 d = credOut (rowLen p) := by
  simp [cubeRd, roleOf_lsem]
theorem payload_loc (c : Dev nD) (p : Fin 3) (j : Fin 4) (d : Fin 3) :
    (cubeRd x w).payload (locCell c p j) 0 d = locPay x w c p j := by
  simp [cubeRd, roleOf_lsem]
theorem expect_loc (c : Dev nD) (p : Fin 3) (j : Fin 4) : (cubeRd x w).expect (locCell c p j) 0 = credOut (rowLen p) := by
  unfold Schedule.expect Schedule.amountOf
  rw [duties_loc, Finset.sum_singleton, amount_loc]
theorem rest_loc (c : Dev nD) (p : Fin 3) (j : Fin 4) :
    bigSep ((cubeRd x w).duties (locCell c p j) 0 \ ∅) (fun d => (cubeRd x w).payload (locCell c p j) 0 d)
      = locPay x w c p j := by
  rw [Finset.sdiff_empty, duties_loc, bigSep_singleton, payload_loc]

end Cert.Kernel.Tables

end
-- ==== Proof.K.EvWait.lean ====
import proofs.«900802_g7700000000000803_dist_gemm_ar_m4096_k4096_n2048_f32_relu_v7x_i8_1_alg».proof.Proof.K.Proto
import proofs.«900802_g7700000000000803_dist_gemm_ar_m4096_k4096_n2048_f32_relu_v7x_i8_1_alg».proof.Proof.K.Views
import proofs.«900802_g7700000000000803_dist_gemm_ar_m4096_k4096_n2048_f32_relu_v7x_i8_1_alg».proof.Proof.K.Tables

noncomputable section

namespace Cert.Kernel.Body

open Cert.Kernel Cert.Kernel.Gen Cert.Kernel.Spec Cert.Kernel.Reg Cert.Kernel.Proto
open Cert.Kernel.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

local notation "𝒱₀" => Variants.none

variable (x : Dev nD → Vec F S4096x512 .f32) (w : Dev nD → Vec F S512x2048 .f32)

section Waits

variable (c : Dev nD) (p : Fin 3) (i : Fin 10) (j : Fin 4)
variable {L : GSem nD τ sig → Finset Unit} {lv : GSem nD τ sig → Unit → ℕ}

-- A wait that closes round 0 of a cell hands back the round's payload and moves the cell to round 1.
theorem ev_wait_cell {g : GSem nD τ sig} {sm : DmaSem sig} (hg : g = ((c : Thread nD τ), .dma sm)) {n κ : ℕ} {P : sProp 𝕄}
    {sp sp' : Space} {s s' : Shape} {e e' : EltTy} {κd : Kind}
    {src : Memref sig .tc sp' s' e'} {dst : Memref sig κd sp s e}
    {hsrc : src.view.WordExact} {hdst : dst.view.WordExact}
    (hcr : dst.view.dmaCredit = n) (hn : (cubeRd x w).expect g 0 = n)
    (hP : bigSep ((cubeRd x w).duties g 0 \ ∅) (fun d => (cubeRd x w).payload g 0 d) = P)
    {O : CellTallies nD τ sig Unit} {W : Waits sig Unit}
    {α : Type} {Q : α → sProp 𝕄} {k : PUnit → Prog (TpuEff nD τ sig (Elt F) Λ₀ .tc) α} :
    iprop(cellInv ER (cubeRd x w) κ g ∗ atPos ER g 0 ∅ 0
        ∗ cred (tallyAt g () n) ∗ owes (c : Thread nD τ) O W ∗ MayWait (c : Thread nD τ) (.dma sm) () O)
      ⊢ iprop(((P ∗ atPos ER g 1 ∅ 0 ∗ reached ER g 1
              ∗ owes (c : Thread nD τ) O (insert (SemLoc.dma sm, ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm src dst hsrc hdst) k) Q) := by
  subst hg hcr hP
  have R := Rounds.wp_wait_rest_token (defs := defs₀ (F := F)) 𝒱₀ ER (cubeRd x w) (c : Thread nD τ) none (κ := κ) (Q := Q) (k := k)
      (w := .waitDma2 sm src dst hsrc hdst)
      (wpE_waitDma2_eq (defs := defs₀ (F := F)) 𝒱₀ (c : Thread nD τ) none Set.univ) (Set.mem_univ _) () (O := O) (W := W) (R := 0) (m := 0) (T := ∅)
      ((Nat.zero_add _).trans hn.symm)
  iintro ⟨Hg, Hat, Hc, HL, Hlev⟩ Hk
  iapply R $$ [Hg Hc HL Hlev Hat]
  · iframe Hg Hc HL Hlev Hat
  iintro ⟨HL, Hat, Hr, Hpay⟩
  iapply Hk
  iframe Hpay Hat Hr HL

theorem ev_wait_send_mw {κ : ℕ} {sp sp' : Space} {s s' : Shape} {e e' : EltTy} {κd : Kind}
    {sem : DmaSem sig} {src : Memref sig .tc sp' s' e'} {dst : Memref sig κd sp s e}
    {hsrc : src.view.WordExact} {hdst : dst.view.WordExact}
    (hsem : sem = ssem p i) (hcr : dst.view.dmaCredit = credOf p i)
    {O : CellTallies nD τ sig Unit} {W : Waits sig Unit}
    {α : Type} {Q : α → sProp 𝕄} {k : PUnit → Prog (TpuEff nD τ sig (Elt F) Λ₀ .tc) α} :
    iprop(cellInv ER (cubeRd x w) κ (sendCell c p i) ∗ atPos ER (sendCell c p i) 0 ∅ 0
        ∗ cred (tallyAt (sendCell c p i) () (credOf p i)) ∗ owes (c : Thread nD τ) O W ∗ MayWait (c : Thread nD τ) (.dma (ssem p i)) () O)
      ⊢ iprop(((sendPay c p i ∗ atPos ER (sendCell c p i) 1 ∅ 0 ∗ reached ER (sendCell c p i) 1
              ∗ owes (c : Thread nD τ) O (insert (SemLoc.dma (ssem p i), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem; exact ev_wait_cell x w c rfl hcr (by rw [expect_send]) (by rw [rest_send])

theorem ev_wait_send {κ : ℕ} {sp sp' : Space} {s s' : Shape} {e e' : EltTy} {κd : Kind}
    {sem : DmaSem sig} {src : Memref sig .tc sp' s' e'} {dst : Memref sig κd sp s e}
    {hsrc : src.view.WordExact} {hdst : dst.view.WordExact}
    (hsem : sem = ssem p i) (hcr : dst.view.dmaCredit = credOf p i)
    {O : CellTallies nD τ sig Unit} {W : Waits sig Unit}
    (hmw : (levAts L lv : sProp 𝕄) ⊢ MayWait (c : Thread nD τ) (.dma (ssem p i)) () O)
    {α : Type} {Q : α → sProp 𝕄} {k : PUnit → Prog (TpuEff nD τ sig (Elt F) Λ₀ .tc) α} :
    iprop(cellInv ER (cubeRd x w) κ (sendCell c p i) ∗ atPos ER (sendCell c p i) 0 ∅ 0
        ∗ cred (tallyAt (sendCell c p i) () (credOf p i)) ∗ owes (c : Thread nD τ) O W ∗ levAts L lv)
      ⊢ iprop(((sendPay c p i ∗ atPos ER (sendCell c p i) 1 ∅ 0 ∗ reached ER (sendCell c p i) 1
              ∗ owes (c : Thread nD τ) O (insert (SemLoc.dma (ssem p i), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) :=
  (sep_mono_r <| sep_mono_r <| sep_mono_r <| sep_mono_r hmw).trans (ev_wait_send_mw x w c p i hsem hcr)

theorem ev_wait_recv_mw {κ : ℕ} {sp sp' : Space} {s s' : Shape} {e e' : EltTy} {κd : Kind}
    {sem : DmaSem sig} {src : Memref sig .tc sp' s' e'} {dst : Memref sig κd sp s e}
    {hsrc : src.view.WordExact} {hdst : dst.view.WordExact}
    (hsem : sem = rsem p i) (hcr : dst.view.dmaCredit = credOf p i)
    {O : CellTallies nD τ sig Unit} {W : Waits sig Unit}
    {α : Type} {Q : α → sProp 𝕄} {k : PUnit → Prog (TpuEff nD τ sig (Elt F) Λ₀ .tc) α} :
    iprop(cellInv ER (cubeRd x w) κ (recvCell c p i) ∗ atPos ER (recvCell c p i) 0 ∅ 0
        ∗ cred (tallyAt (recvCell c p i) () (credOf p i)) ∗ owes (c : Thread nD τ) O W ∗ MayWait (c : Thread nD τ) (.dma (rsem p i)) () O)
      ⊢ iprop(((recvPay x w c p i ∗ atPos ER (recvCell c p i) 1 ∅ 0 ∗ reached ER (recvCell c p i) 1
              ∗ owes (c : Thread nD τ) O (insert (SemLoc.dma (rsem p i), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem; exact ev_wait_cell x w c rfl hcr (by rw [expect_recv]) (by rw [rest_recv])

theorem ev_wait_local_mw {κ : ℕ} {sp sp' : Space} {s s' : Shape} {e e' : EltTy} {κd : Kind}
    {sem : DmaSem sig} {src : Memref sig .tc sp' s' e'} {dst : Memref sig κd sp s e}
    {hsrc : src.view.WordExact} {hdst : dst.view.WordExact}
    (hsem : sem = lsem p j) (hcr : dst.view.dmaCredit = credOut (rowLen p))
    {O : CellTallies nD τ sig Unit} {W : Waits sig Unit}
    {α : Type} {Q : α → sProp 𝕄} {k : PUnit → Prog (TpuEff nD τ sig (Elt F) Λ₀ .tc) α} :
    iprop(cellInv ER (cubeRd x w) κ (locCell c p j) ∗ atPos ER (locCell c p j) 0 ∅ 0
        ∗ cred (tallyAt (locCell c p j) () (credOut (rowLen p))) ∗ owes (c : Thread nD τ) O W ∗ MayWait (c : Thread nD τ) (.dma (lsem p j)) () O)
      ⊢ iprop(((locPay x w c p j ∗ atPos ER (locCell c p j) 1 ∅ 0 ∗ reached ER (locCell c p j) 1
              ∗ owes (c : Thread nD τ) O (insert (SemLoc.dma (lsem p j), ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src dst hsrc hdst) k) Q) := by
  subst hsem; exact ev_wait_cell x w c rfl hcr (by rw [expect_loc]) (by rw [rest_loc])

end Waits

section Local

variable (c : Dev nD) (p : Fin 3) (j : Fin 4)

theorem ev_local {κ : ℕ}
    {o : Fin 3 → ℕ} (ho : o = ![p.val, 0, locOff p j c])
    {hinb : ∀ a, o a + (![1, rowLen p, 512] : Fin 3 → ℕ) a ≤ S3x1368x2048.size a}
    {hsq : (⟨3, ![1, rowLen p, 512]⟩ : Shape).Squeezes ⟨2, ![rowLen p, 512]⟩}
    {o' : Fin 2 → ℕ} (ho' : o' = ![rowStart p, locOff p j c])
    {hinb' : ∀ a, o' a + (![rowLen p, 512] : Fin 2 → ℕ) a ≤ S4096x2048.size a}
    {sem : DmaSem sig} (hsem : sem = lsem p j)
    {hsrc : ((wbM.slice (Rect.unit (s := S3x1368x2048) o ![1, rowLen p, 512] hinb) (fun _ => rfl)).squeeze ⟨2, ![rowLen p, 512]⟩ hsq).view.WordExact} {hdst : (outM.slice (Rect.unit (s := S4096x2048) o' ![rowLen p, 512] hinb') (fun _ => rfl)).view.WordExact}
    {hty : DmaTarget.Typed (nD := nD) .vmem (.dma sem) (DmaTarget.here (outM.slice (Rect.unit (s := S4096x2048) o' ![rowLen p, 512] hinb') (fun _ => rfl)) : DmaTarget nD τ sig Proc.tc Space.hbm ⟨2, ![rowLen p, 512]⟩ .f32)}
    (fs : Buf (Elt F) ((wbM.access (wbRect p.val (rowLen p) (locOff p j c) 512 (inb_loc p j c))).loc (c : Thread nD τ)))
    (hfs : ∀ y : (⟨3, ![1, rowLen p, 512]⟩ : Shape).Idx,
      (wbM.access (wbRect p.val (rowLen p) (locOff p j c) 512 (inb_loc p j c))).read (Elt F) fs y = gath x w p (y 1).val (locOff p j c + (y 2).val))
    {α : Type} {Q : α → sProp 𝕄} {k : PUnit → Prog (TpuEff nD τ sig (Elt F) Λ₀ .tc) α} :
    iprop(cellInv ER (cubeRd x w) κ (locCell c p j)
        ∗ (((wbM.access (wbRect p.val (rowLen p) (locOff p j c) 512 (inb_loc p j c))).loc (c : Thread nD τ)) ↦[wbReg c p.val (rowLen p) (locOff p j c) 512 (inb_loc p j c)]{lshr} fs)
        ∗ ownsOut c p (locOff p j c) (inb_out p j c)
        ∗ dutyTok ER (locCell c p j) 0 0 ∗ reached ER (locCell c p j) 0)
      ⊢ iprop((cred (tallyAt (locCell c p j) () (credOut (rowLen p)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((wbM.slice (Rect.unit (s := S3x1368x2048) o ![1, rowLen p, 512] hinb) (fun _ => rfl)).squeeze ⟨2, ![rowLen p, 512]⟩ hsq) (DmaTarget.here (outM.slice (Rect.unit (s := S4096x2048) o' ![rowLen p, 512] hinb') (fun _ => rfl)) : DmaTarget nD τ sig Proc.tc Space.hbm ⟨2, ![rowLen p, 512]⟩ .f32) (.dma sem) hsrc hdst hty) k) Q) := by
  subst ho; subst ho'; subst hsem
  unfold ownsOut
  let S := (wbM.slice (Rect.unit (s := S3x1368x2048) ![p.val, 0, locOff p j c] ![1, rowLen p, 512] hinb) (fun _ => rfl)).squeeze ⟨2, ![rowLen p, 512]⟩ hsq
  let D := outM.slice (Rect.unit (s := S4096x2048) ![rowStart p, locOff p j c] ![rowLen p, 512] hinb') (fun _ => rfl)
  iintro ⟨Hg, Hsrc, ⟨%fd, Hdst⟩, Htok, Hr⟩ Hk
  have hset : S.view.set = wbReg c p.val (rowLen p) (locOff p j c) 512 (inb_loc p j c) :=
    set_wb_squeeze c (inb_loc p j c) hsq
  have hpay : iprop((D.view.loc (c : Thread nD τ) ↦[D.view.set]{fullShare}
          (D.view.write (Elt F) fd (S.view.read (Elt F) fs) Finset.univ))
        ∗ (S.view.loc (c : Thread nD τ) ↦[S.view.set]{lshr} fs))
      ⊢ (cubeRd x w).payload (locCell c p j) 0 0 := by
    rw [payload_loc]
    unfold locPay holdsOut lentW
    iintro ⟨Hd, Hs⟩
    isplitl [Hd]
    · iexists _
      isplitl [Hd]
      · iexact Hd
      ipureintro
      exact fun y => ((View.read_write_of_mem (v := D.view) fd _ (Finset.mem_univ y)).trans
        (read_wb_squeeze c (inb_loc p j c) hsq fs y)).trans
        ((read_wb_access c (inb_loc p j c) fs _).symm.trans (hfs (ix3 ⟨0, Nat.one_pos⟩ (y 0) (y 1))))
    · iexists fs
      rw [hset]
      iexact Hs
  have R := Rounds.wp_copy_pointsTo (defs := defs₀ (F := F)) 𝒱₀ ER (cubeRd x w) (c : Thread nD τ) none
      (src := S) (dst := D) (sem := .dma (lsem p j)) (hsrc := hsrc) (hdst := hdst) (hsem := hty)
      (k := k) (Q := Q) (q := lshr) (fs := fs) (fd := fd) (r := 0) (d := 0) (κ := κ) (Es := Set.univ) (Γ := PendingWaitsCtx.empty)
      (by rw [duties_loc]; exact Finset.mem_singleton_self _) () (credOut (rowLen p)) rfl (amount_loc x w c p j 0) hpay
  rw [hset] at R
  iapply R $$ [Hg Hsrc Hdst Htok Hr]
  · iframe Hg Hsrc Htok Hr
    iexact Hdst
  iexact Hk

end Local

end Cert.Kernel.Body

end
-- ==== Proof.K.BodyTail.lean ====
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.Forms
import proofs.«900802_g7700000000000803_dist_gemm_ar_m4096_k4096_n2048_f32_relu_v7x_i8_1_alg».proof.Proof.K.Stages
import proofs.«900802_g7700000000000803_dist_gemm_ar_m4096_k4096_n2048_f32_relu_v7x_i8_1_alg».proof.Proof.K.Tables

noncomputable section

namespace Cert.Kernel.Body

open Cert.Kernel Cert.Kernel.Gen Cert.Kernel.Spec Cert.Kernel.Reg Cert.Kernel.Proto
open Cert.Kernel.Tables Cert.Kernel.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

theorem tail_1_3 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off6 d0) S1x1368x512.size (Gen.k0_off6_inb d0)) (fun _ => rfl)).squeeze S1368x512 Gen.squeezes_S1x1368x512_S1368x512).view.WordExact}
    {hdst : ((Memref.whole main_v1).slice (Rect.unit (s := S4096x2048) (k0_off65 d0) S1368x512.size (Gen.k0_off65_inb d0)) (fun _ => rfl)).view.WordExact} :
    (iprop(cellInv (ER (F := F)) (cubeRd x w) κ (locCell c 1 3) ∗ MayWait (c : Thread nD τ) (.dma (lsem 1 3)) () O
        ∗ locG (F := F) c 1 3 1 ∗ owes (c : Thread nD τ) O W) : sProp 𝕄)
      ⊢ iprop(((locPay x w c 1 3 ∗ locG (F := F) c 1 3 2 ∗ owes (c : Thread nD τ) O (insert (SemLoc.dma (lsem 1 3), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![1, 3] S1x1.size Gen.inb_S3x4_S1x1_1_3)).squeeze S_ Gen.squeezes_S1x1_S_).sem
                  (((Memref.whole cc0_scratch0).slice (Rect.unit (s := S3x1368x2048) (k0_off6 d0) S1x1368x512.size (Gen.k0_off6_inb d0)) (fun _ => rfl)).squeeze S1368x512 Gen.squeezes_S1x1368x512_S1368x512)
                  ((Memref.whole main_v1).slice (Rect.unit (s := S4096x2048) (k0_off65 d0) S1368x512.size (Gen.k0_off65_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 1 3 (hsem := rfl) (hcr := rfl)) $$ [Hc Hat HO]
  · isplitr [Hc Hat HO]; · iexact HI
    iframe Hat Hc HO Hmw
  iintro ⟨Hpay, Hat, Hr, HO⟩
  iapply Hk
  iframe Hpay Hat HO

theorem tail_2_0 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off57 d0) S1x1360x512.size (Gen.k0_off57_inb d0)) (fun _ => rfl)).squeeze S1360x512 Gen.squeezes_S1x1360x512_S1360x512).view.WordExact}
    {hdst : ((Memref.whole main_v1).slice (Rect.unit (s := S4096x2048) (k0_off56 d0) S1360x512.size (Gen.k0_off56_inb d0)) (fun _ => rfl)).view.WordExact} :
    (iprop(cellInv (ER (F := F)) (cubeRd x w) κ (locCell c 2 0) ∗ MayWait (c : Thread nD τ) (.dma (lsem 2 0)) () O
        ∗ locG (F := F) c 2 0 1 ∗ owes (c : Thread nD τ) O W) : sProp 𝕄)
      ⊢ iprop(((locPay x w c 2 0 ∗ locG (F := F) c 2 0 2 ∗ owes (c : Thread nD τ) O (insert (SemLoc.dma (lsem 2 0), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![2, 0] S1x1.size Gen.inb_S3x4_S1x1_2_0)).squeeze S_ Gen.squeezes_S1x1_S_).sem
                  (((Memref.whole cc0_scratch0).slice (Rect.unit (s := S3x1368x2048) (k0_off57 d0) S1x1360x512.size (Gen.k0_off57_inb d0)) (fun _ => rfl)).squeeze S1360x512 Gen.squeezes_S1x1360x512_S1360x512)
                  ((Memref.whole main_v1).slice (Rect.unit (s := S4096x2048) (k0_off56 d0) S1360x512.size (Gen.k0_off56_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 2 0 (hsem := rfl) (hcr := rfl)) $$ [Hc Hat HO]
  · isplitr [Hc Hat HO]; · iexact HI
    iframe Hat Hc HO Hmw
  iintro ⟨Hpay, Hat, Hr, HO⟩
  iapply Hk
  iframe Hpay Hat HO

theorem tail_2_1 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off27 d0) S1x1360x512.size (Gen.k0_off27_inb d0)) (fun _ => rfl)).squeeze S1360x512 Gen.squeezes_S1x1360x512_S1360x512).view.WordExact}
    {hdst : ((Memref.whole main_v1).slice (Rect.unit (s := S4096x2048) (k0_off60 d0) S1360x512.size (Gen.k0_off60_inb d0)) (fun _ => rfl)).view.WordExact} :
    (iprop(cellInv (ER (F := F)) (cubeRd x w) κ (locCell c 2 1) ∗ MayWait (c : Thread nD τ) (.dma (lsem 2 1)) () O
        ∗ locG (F := F) c 2 1 1 ∗ owes (c : Thread nD τ) O W) : sProp 𝕄)
      ⊢ iprop(((locPay x w c 2 1 ∗ locG (F := F) c 2 1 2 ∗ owes (c : Thread nD τ) O (insert (SemLoc.dma (lsem 2 1), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![2, 1] S1x1.size Gen.inb_S3x4_S1x1_2_1)).squeeze S_ Gen.squeezes_S1x1_S_).sem
                  (((Memref.whole cc0_scratch0).slice (Rect.unit (s := S3x1368x2048) (k0_off27 d0) S1x1360x512.size (Gen.k0_off27_inb d0)) (fun _ => rfl)).squeeze S1360x512 Gen.squeezes_S1x1360x512_S1360x512)
                  ((Memref.whole main_v1).slice (Rect.unit (s := S4096x2048) (k0_off60 d0) S1360x512.size (Gen.k0_off60_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 2 1 (hsem := rfl) (hcr := rfl)) $$ [Hc Hat HO]
  · isplitr [Hc Hat HO]; · iexact HI
    iframe Hat Hc HO Hmw
  iintro ⟨Hpay, Hat, Hr, HO⟩
  iapply Hk
  iframe Hpay Hat HO

theorem tail_2_2 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off18 d0) S1x1360x512.size (Gen.k0_off18_inb d0)) (fun _ => rfl)).squeeze S1360x512 Gen.squeezes_S1x1360x512_S1360x512).view.WordExact}
    {hdst : ((Memref.whole main_v1).slice (Rect.unit (s := S4096x2048) (k0_off63 d0) S1360x512.size (Gen.k0_off63_inb d0)) (fun _ => rfl)).view.WordExact} :
    (iprop(cellInv (ER (F := F)) (cubeRd x w) κ (locCell c 2 2) ∗ MayWait (c : Thread nD τ) (.dma (lsem 2 2)) () O
        ∗ locG (F := F) c 2 2 1 ∗ owes (c : Thread nD τ) O W) : sProp 𝕄)
      ⊢ iprop(((locPay x w c 2 2 ∗ locG (F := F) c 2 2 2 ∗ owes (c : Thread nD τ) O (insert (SemLoc.dma (lsem 2 2), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![2, 2] S1x1.size Gen.inb_S3x4_S1x1_2_2)).squeeze S_ Gen.squeezes_S1x1_S_).sem
                  (((Memref.whole cc0_scratch0).slice (Rect.unit (s := S3x1368x2048) (k0_off18 d0) S1x1360x512.size (Gen.k0_off18_inb d0)) (fun _ => rfl)).squeeze S1360x512 Gen.squeezes_S1x1360x512_S1360x512)
                  ((Memref.whole main_v1).slice (Rect.unit (s := S4096x2048) (k0_off63 d0) S1360x512.size (Gen.k0_off63_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 2 2 (hsem := rfl) (hcr := rfl)) $$ [Hc Hat HO]
  · isplitr [Hc Hat HO]; · iexact HI
    iframe Hat Hc HO Hmw
  iintro ⟨Hpay, Hat, Hr, HO⟩
  iapply Hk
  iframe Hpay Hat HO

theorem tail_2_3 (c : Dev nD) (κ : ℕ) (d0 : Dev nD) (hd : d0 = c) (O : CellTallies nD τ sig Unit) (W : Waits sig Unit)
    {α : Type} {Q : α → sProp 𝕄} {k : PUnit → Prog (TpuEff nD τ sig (Elt F) Λ₀ .tc) α}
    {hsrc : (((Memref.whole cc0_scratch0).slice (Rect.unit (s := S3x1368x2048) (k0_off9 d0) S1x1360x512.size (Gen.k0_off9_inb d0)) (fun _ => rfl)).squeeze S1360x512 Gen.squeezes_S1x1360x512_S1360x512).view.WordExact}
    {hdst : ((Memref.whole main_v1).slice (Rect.unit (s := S4096x2048) (k0_off66 d0) S1360x512.size (Gen.k0_off66_inb d0)) (fun _ => rfl)).view.WordExact} :
    (iprop(cellInv (ER (F := F)) (cubeRd x w) κ (locCell c 2 3) ∗ MayWait (c : Thread nD τ) (.dma (lsem 2 3)) () O
        ∗ locG (F := F) c 2 3 1 ∗ owes (c : Thread nD τ) O W) : sProp 𝕄)
      ⊢ iprop(((locPay x w c 2 3 ∗ locG (F := F) c 2 3 2 ∗ owes (c : Thread nD τ) O (insert (SemLoc.dma (lsem 2 3), ()) W))
            -∗ wp frame (wpE (defs₀ (F := F)) Variants.none (c : Thread nD τ) none) Set.univ (k ⟨⟩) Q)
          -∗ wp frame (wpE (defs₀ (F := F)) Variants.none (c : Thread nD τ) none) Set.univ
              (Prog.lift (.waitDma2 ((cc0_scratch5.slice (Rect.unit (s := S3x4) ![2, 3] S1x1.size Gen.inb_S3x4_S1x1_2_3)).squeeze S_ Gen.squeezes_S1x1_S_).sem
                  (((Memref.whole cc0_scratch0).slice (Rect.unit (s := S3x1368x2048) (k0_off9 d0) S1x1360x512.size (Gen.k0_off9_inb d0)) (fun _ => rfl)).squeeze S1360x512 Gen.squeezes_S1x1360x512_S1360x512)
                  ((Memref.whole main_v1).slice (Rect.unit (s := S4096x2048) (k0_off66 d0) S1360x512.size (Gen.k0_off66_inb d0)) (fun _ => rfl))
                  hsrc hdst) >>= k) Q) := by
  subst hd
  rw [Prog.bind_lift]
  simp only [locG]
  iintro ⟨#HI, #Hmw, ⟨Hc, Hat⟩, HO⟩ Hk
  iapply (ev_wait_local_mw x w d0 2 3 (hsem := rfl) (hcr := rfl)) $$ [Hc Hat HO]
  · isplitr [Hc Hat HO]; · iexact HI
    iframe Hat Hc HO Hmw
  iintro ⟨Hpay, Hat, Hr, HO⟩
  iapply Hk
  iframe Hpay Hat HO

end Cert.Kernel.Body

end
-- ==== Proof.K.EvSend.lean ====
import proofs.«900802_g7700000000000803_dist_gemm_ar_m4096_k4096_n2048_f32_relu_v7x_i8_1_alg».proof.Proof.K.Proto
import proofs.«900802_g7700000000000803_dist_gemm_ar_m4096_k4096_n2048_f32_relu_v7x_i8_1_alg».proof.Proof.K.Views
import proofs.«900802_g7700000000000803_dist_gemm_ar_m4096_k4096_n2048_f32_relu_v7x_i8_1_alg».proof.Proof.K.Tables

noncomputable section

namespace Cert.Kernel.Body

open Cert.Kernel Cert.Kernel.Gen Cert.Kernel.Spec Cert.Kernel.Reg Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (x : Dev nD → Vec F S4096x512 .f32) (w : Dev nD → Vec F S512x2048 .f32)

section Land

variable {W W' p p' n off off' wd : ℕ} {κ κ' : Kind} {sp sp' : Space} {e : EltTy} {Val : EltTy → Type}

theorem read_landed3 (v : View sig κ sp ⟨3, ![3, 1368, W]⟩ e) (v' : View sig κ' sp' ⟨3, ![3, 1368, W']⟩ e)
    (h : Inb3 W p n off wd) (h' : Inb3 W' p' n off' wd)
    (hn : (⟨2, ![n, wd]⟩ : Shape).numel = (⟨3, ![1, n, wd]⟩ : Shape).numel)
    (fs : v.ty.Contents Val) (fd : v'.ty.Contents Val) (y : (⟨3, ![1, n, wd]⟩ : Shape).Idx) :
    (v'.slice (rect3 h')).read Val
        (((v'.slice (rect3 h')).reshape ⟨2, ![n, wd]⟩ hn).write Val fd
          (((v.slice (rect3 h)).reshape ⟨2, ![n, wd]⟩ hn).read Val fs) Finset.univ) y
      = (v.slice (rect3 h)).read Val fs y := by
  rw [read_slice3 v' h' _ y, write_squeeze3_in v' h' hn fd _ (at3 h' (y 1) (y 2)) rfl (y 1).isLt (Nat.le_add_right _ _)
      (Nat.add_lt_add_left (y 2).isLt _), read_squeeze3 v h hn fs _, read_slice3 v h fs y]
  congr 1
  show at3 h ⟨(y 1).val, _⟩ ⟨off' + (y 2).val - off', _⟩ = at3 h (y 1) (y 2)
  congr 1
  exact Fin.ext (Nat.add_sub_cancel_left ..)

end Land

abbrev wbPiece (o : Fin 3 → ℕ) (n wd : ℕ) (hin : ∀ a, o a + (![1, n, wd] : Fin 3 → ℕ) a ≤ S3x1368x2048.size a)
    (hsq : (⟨3, ![1, n, wd]⟩ : Shape).Squeezes ⟨2, ![n, wd]⟩) : Memref sig .tc .vmem ⟨2, ![n, wd]⟩ .f32 :=
  (wbM.slice (Rect.unit (s := S3x1368x2048) o ![1, n, wd] hin) (fun _ => rfl)).squeeze ⟨2, ![n, wd]⟩ hsq

abbrev r1Piece (o : Fin 3 → ℕ) (n : ℕ) (hin : ∀ a, o a + (![1, n, 512] : Fin 3 → ℕ) a ≤ S3x1368x512.size a)
    (hsq : (⟨3, ![1, n, 512]⟩ : Shape).Squeezes ⟨2, ![n, 512]⟩) : Memref sig .tc .vmem ⟨2, ![n, 512]⟩ .f32 :=
  (r1M.slice (Rect.unit (s := S3x1368x512) o ![1, n, 512] hin) (fun _ => rfl)).squeeze ⟨2, ![n, 512]⟩ hsq

abbrev r2Piece (o : Fin 3 → ℕ) (n : ℕ) (hin : ∀ a, o a + (![1, n, 256] : Fin 3 → ℕ) a ≤ S3x1368x256.size a)
    (hsq : (⟨3, ![1, n, 256]⟩ : Shape).Squeezes ⟨2, ![n, 256]⟩) : Memref sig .tc .vmem ⟨2, ![n, 256]⟩ .f32 :=
  (r2M.slice (Rect.unit (s := S3x1368x256) o ![1, n, 256] hin) (fun _ => rfl)).squeeze ⟨2, ![n, 256]⟩ hsq

theorem set_wbPiece (c : Dev nD) {p n off wd : ℕ} (h : Inb3 2048 p n off wd)
    (hin : ∀ a, (![p, 0, off] : Fin 3 → ℕ) a + (![1, n, wd] : Fin 3 → ℕ) a ≤ S3x1368x2048.size a)
    (hsq : (⟨3, ![1, n, wd]⟩ : Shape).Squeezes ⟨2, ![n, wd]⟩) :
    (wbPiece ![p, 0, off] n wd hin hsq).view.set = wbReg c p n off wd h :=
  View.set_reshape _ _

theorem recvPay_gather (c : Dev nD) (p : Fin 3) (i : Fin 10) (hi : 4 ≤ i.val) :
    recvPay x w c p i = holdsW c p (srcOff p i (peer p i c)) (wid i) (inb_src p i (peer p i c)) (gath x w p) := by
  obtain ⟨k, hk⟩ := i
  match k, hk, hi with
  | n + 4, hk, _ => rfl

theorem recvPay_own (c : Dev nD) (p : Fin 3) (i : Fin 10) (hi : i.val < 2) :
    recvPay x w c p i
      = iprop(holdsW c p (srcOff p i (peer p i c)) (wid i) (inb_src p i (peer p i c)) (fun r col => Vals.own x w p r col (peer p i c))
          ∗ ownsW (peer p i c) p (srcOff p i (peer p i c)) (wid i) (inb_src p i (peer p i c))) := by
  obtain ⟨k, hk⟩ := i
  match k, hk, hi with
  | 0, _, _ => rfl
  | 1, _, _ => rfl

theorem sendPay_gather (c : Dev nD) (p : Fin 3) (i : Fin 10) (hi : 4 ≤ i.val) :
    sendPay (F := F) c p i = lentW c p (srcOff p i c) (wid i) (inb_src p i c) (shr i) := by
  unfold sendPay; rw [if_neg (by omega)]
theorem sendPay_reduce (c : Dev nD) (p : Fin 3) (i : Fin 10) (hi : i.val < 4) :
    sendPay (F := F) c p i = iprop(emp) := by
  unfold sendPay; rw [if_pos hi]

theorem recvPay_r1 (c : Dev nD) (p : Fin 3) :
    recvPay x w c p 2
      = iprop(holdsR1 c p (srcOff p 2 (peer p 2 c)) (fun r col => Vals.st1 x w p r col (peer p 2 c))
          ∗ ownsW (peer p 2 c) p (srcOff p 2 (peer p 2 c)) 512 (inb_src p 2 (peer p 2 c))) := rfl

theorem recvPay_r2 (c : Dev nD) (p : Fin 3) :
    recvPay x w c p 3
      = iprop(holdsR2 c p (srcOff p 3 (peer p 3 c)) (fun r col => Vals.st2 x w p r col (peer p 3 c))
          ∗ ownsW (peer p 3 c) p (srcOff p 3 (peer p 3 c)) 256 (inb_src p 3 (peer p 3 c))) := rfl

theorem ev_send_share {α : Type} {Q : α → sProp 𝕄} (c : Dev nD) (p : Fin 3) (i : Fin 10) (hi : 4 ≤ i.val)
    {n wd off : ℕ} (hn : n = rowLen p) (hwd : wd = wid i) (hoff : off = srcOff p i c)
    (h : Inb3 2048 p.val (rowLen p) off wd)
    {o o' : Fin 3 → ℕ} (ho : o = ![p.val, 0, off]) (ho' : o' = ![p.val, 0, off])
    {hin : ∀ a, o a + (![1, n, wd] : Fin 3 → ℕ) a ≤ S3x1368x2048.size a}
    {hin' : ∀ a, o' a + (![1, n, wd] : Fin 3 → ℕ) a ≤ S3x1368x2048.size a}
    {hsq hsq' : (⟨3, ![1, n, wd]⟩ : Shape).Squeezes ⟨2, ![n, wd]⟩}
    {src dst : Memref sig .tc .vmem ⟨2, ![n, wd]⟩ .f32}
    (hsrcE : src = wbPiece o n wd hin hsq) (hdstE : dst = wbPiece o' n wd hin' hsq')
    {c' : Dev nD} (hc' : c' = peer p i c)
    {sS sR : DmaSem sig} (hsS : sS = ssem p i) (hsR : sR = rsem p i)
    {q : PosShare TreeShare} (hq : q = shr i)
    {hsc : dst.view.ref.isScScratch = false} {hsrc : src.view.WordExact} {hdst : dst.view.WordExact}
    {hsem : DmaTarget.Typed (nD := nD) (τ := τ) .vmem (.dma sR) (.remote (Dev.tc c') dst (.dma sS) hsc)}
    {k : PUnit → Prog (TpuEff nD τ sig (Elt F) Λ₀ .tc) α}
    {κ₁ κ₂ : ℕ} {O₀ : CellTallies nD τ sig Unit} (O : CellTallies nD τ sig Unit)
    (hO : O₀ = O + tallyAt (recvCell (peer p i c) p i) () (credOf p i)) {W : Waits sig Unit}
    (fs : Buf (Elt F) ((wbM.access (wbRect p.val (rowLen p) off wd h)).loc (c : Thread nD τ)))
    (hfs : ∀ y : (⟨3, ![1, rowLen p, wd]⟩ : Shape).Idx,
      (wbM.access (wbRect p.val (rowLen p) off wd h)).read (Elt F) fs y = gath x w p (y 1).val (off + (y 2).val)) :
    iprop(cellInv ER (cubeRd x w) κ₁ (sendCell c p i) ∗ cellInv ER (cubeRd x w) κ₂ (recvCell (peer p i c) p i)
        ∗ (((wbM.access (wbRect p.val (rowLen p) off wd h)).loc (c : Thread nD τ)) ↦[wbReg c p.val (rowLen p) off wd h]{q} fs)
        ∗ ownsW (peer p i c) p off wd h
        ∗ owes (c : Thread nD τ) O₀ W
        ∗ dutyTok ER (sendCell c p i) 0 0 ∗ reached ER (sendCell c p i) 0
        ∗ dutyTok ER (recvCell (peer p i c) p i) 0 0 ∗ reached ER (recvCell (peer p i c) p i) 0)
      ⊢ iprop(((cred (tallyAt (sendCell c p i) () (credOf p i)) ∗ owes (c : Thread nD τ) O W)
            -∗ wp Idealize.ShloMosaic.frame (wpE (defs₀ (F := F)) Variants.none (c : Thread nD τ) none) Set.univ (k ⟨⟩) Q)
          -∗ wp Idealize.ShloMosaic.frame (wpE (defs₀ (F := F)) Variants.none (c : Thread nD τ) none) Set.univ
            (.op (.enqueueDma src (.remote (Dev.tc c') dst (.dma sS) hsc) (.dma sR) hsrc hdst hsem) k) Q) := by
  subst hn hwd hoff ho ho' hsrcE hdstE hc' hsS hsR hq
  have hsetS := set_wbPiece c h hin hsq
  have hsetD := set_wbPiece (peer p i c) h hin' hsq'
  unfold ownsW
  rw [← hsetS, ← hsetD]
  iintro ⟨Hg₁, Hg₂, Hsrc, ⟨%fd, Hdst⟩, HL, Htok₁, Hr₁, Htok₂, Hr₂⟩
  iapply (Rounds.wp_send_pointsTo (defs := defs₀ (F := F)) Variants.none ER (cubeRd x w) c.tc none
      (c' := (peer p i c).tc)
      (src := wbPiece ![p.val, 0, srcOff p i c] (rowLen p) (wid i) hin hsq)
      (dst := wbPiece ![p.val, 0, srcOff p i c] (rowLen p) (wid i) hin' hsq')
      (q := shr i) (fs := fs) (fd := fd) (κ₁ := κ₁) (κ₂ := κ₂) (W := W)
      (Tables.mem_duties_send x w c p i) (Tables.mem_duties_recv x w (peer p i c) p i) () () (credOf p i) (by unfold credOf; rw [if_neg (by omega), if_neg (by omega)]; rfl)
      (Tables.amount_send x w c p i 0) (Tables.amount_recv x w (peer p i c) p i 0) O hO
      (by
        rw [Tables.payload_send, sendPay_gather c p i hi, hsetS]
        exact exists_intro (PROP := sProp 𝕄) fs)
      (by
        rw [Tables.payload_recv, recvPay_gather x w _ p i hi, peer_peer, hsetD]
        unfold holdsW
        iintro H
        iexists _
        isplitl [H]
        · iexact H
        · ipureintro
          exact fun y => (read_landed3 wbM.view wbM.view h h hsq.numel_eq fs fd y).trans (hfs y))
      (by routes))
    $$ [Hg₁ Hg₂ Hsrc Hdst HL Htok₁ Hr₁ Htok₂ Hr₂]
  iframe

theorem ev_send_handoff {α : Type} {Q : α → sProp 𝕄} (c : Dev nD) (p : Fin 3) (i : Fin 10) (hi : i.val < 2)
    {n wd off : ℕ} (hn : n = rowLen p) (hwd : wd = wid i) (hoff : off = srcOff p i c)
    (h : Inb3 2048 p.val (rowLen p) off wd)
    {o o' : Fin 3 → ℕ} (ho : o = ![p.val, 0, off]) (ho' : o' = ![p.val, 0, off])
    {hin : ∀ a, o a + (![1, n, wd] : Fin 3 → ℕ) a ≤ S3x1368x2048.size a}
    {hin' : ∀ a, o' a + (![1, n, wd] : Fin 3 → ℕ) a ≤ S3x1368x2048.size a}
    {hsq hsq' : (⟨3, ![1, n, wd]⟩ : Shape).Squeezes ⟨2, ![n, wd]⟩}
    {src dst : Memref sig .tc .vmem ⟨2, ![n, wd]⟩ .f32}
    (hsrcE : src = wbPiece o n wd hin hsq) (hdstE : dst = wbPiece o' n wd hin' hsq')
    {c' : Dev nD} (hc' : c' = peer p i c)
    {sS sR : DmaSem sig} (hsS : sS = ssem p i) (hsR : sR = rsem p i)
    {val : ℕ → ℕ → F .f32} (hval : val = fun r col => Vals.own x w p r col c)
    {hsc : dst.view.ref.isScScratch = false} {hsrc : src.view.WordExact} {hdst : dst.view.WordExact}
    {hsem : DmaTarget.Typed (nD := nD) (τ := τ) .vmem (.dma sR) (.remote (Dev.tc c') dst (.dma sS) hsc)}
    {k : PUnit → Prog (TpuEff nD τ sig (Elt F) Λ₀ .tc) α}
    {κ₁ κ₂ : ℕ} {O₀ : CellTallies nD τ sig Unit} (O : CellTallies nD τ sig Unit)
    (hO : O₀ = O + tallyAt (recvCell (peer p i c) p i) () (credOf p i)) {W : Waits sig Unit} :
    iprop(cellInv ER (cubeRd x w) κ₁ (sendCell c p i) ∗ cellInv ER (cubeRd x w) κ₂ (recvCell (peer p i c) p i)
        ∗ holdsW c p off wd h val
        ∗ ownsW (peer p i c) p off wd h
        ∗ owes (c : Thread nD τ) O₀ W
        ∗ dutyTok ER (sendCell c p i) 0 0 ∗ reached ER (sendCell c p i) 0
        ∗ dutyTok ER (recvCell (peer p i c) p i) 0 0 ∗ reached ER (recvCell (peer p i c) p i) 0)
      ⊢ iprop(((cred (tallyAt (sendCell c p i) () (credOf p i)) ∗ owes (c : Thread nD τ) O W)
            -∗ wp Idealize.ShloMosaic.frame (wpE (defs₀ (F := F)) Variants.none (c : Thread nD τ) none) Set.univ (k ⟨⟩) Q)
          -∗ wp Idealize.ShloMosaic.frame (wpE (defs₀ (F := F)) Variants.none (c : Thread nD τ) none) Set.univ
            (.op (.enqueueDma src (.remote (Dev.tc c') dst (.dma sS) hsc) (.dma sR) hsrc hdst hsem) k) Q) := by
  subst hn hwd hoff ho ho' hsrcE hdstE hc' hsS hsR hval
  have hsetS := set_wbPiece c h hin hsq
  have hsetD := set_wbPiece (peer p i c) h hin' hsq'
  unfold holdsW ownsW
  rw [← hsetS, ← hsetD]
  iintro ⟨Hg₁, Hg₂, ⟨%fs, Hsrc, %hfs⟩, ⟨%fd, Hdst⟩, HL, Htok₁, Hr₁, Htok₂, Hr₂⟩
  iapply (Rounds.wp_send_landing_pointsTo (defs := defs₀ (F := F)) Variants.none ER (cubeRd x w) c.tc none
      (c' := (peer p i c).tc)
      (src := wbPiece ![p.val, 0, srcOff p i c] (rowLen p) (wid i) hin hsq)
      (dst := wbPiece ![p.val, 0, srcOff p i c] (rowLen p) (wid i) hin' hsq')
      (q := fullShare) (fs := fs) (fd := fd) (κ₁ := κ₁) (κ₂ := κ₂) (W := W)
      (Tables.mem_duties_send x w c p i) (Tables.mem_duties_recv x w (peer p i c) p i) () () (credOf p i) (by unfold credOf; rw [if_neg (by omega), if_neg (by omega)]; rfl)
      (Tables.amount_send x w c p i 0) (Tables.amount_recv x w (peer p i c) p i 0) O hO (by rw [Tables.payload_send, sendPay_reduce c p i (by omega)])
      (by
        rw [Tables.payload_recv, recvPay_own x w _ p i hi, peer_peer, hsetS]
        unfold holdsW ownsW
        iintro ⟨Hd, Hs⟩
        isplitl [Hd]
        · iexists _
          isplitl [Hd]
          · iexact Hd
          · ipureintro
            exact fun y => (read_landed3 wbM.view wbM.view h h hsq.numel_eq fs fd y).trans (hfs y)
        · iexists fs
          iexact Hs)
      (by routes))
    $$ [Hg₁ Hg₂ Hsrc Hdst HL Htok₁ Hr₁ Htok₂ Hr₂]
  iframe

theorem ev_send_handoff_r1 {α : Type} {Q : α → sProp 𝕄} (c : Dev nD) (p : Fin 3)
    {n off : ℕ} (hn : n = rowLen p) (hoff : off = srcOff p 2 c)
    (h : Inb3 2048 p.val (rowLen p) off 512)
    {o o' : Fin 3 → ℕ} (ho : o = ![p.val, 0, off]) (ho' : o' = ![p.val, 0, 0])
    {hin : ∀ a, o a + (![1, n, 512] : Fin 3 → ℕ) a ≤ S3x1368x2048.size a}
    {hin' : ∀ a, o' a + (![1, n, 512] : Fin 3 → ℕ) a ≤ S3x1368x512.size a}
    {hsq hsq' : (⟨3, ![1, n, 512]⟩ : Shape).Squeezes ⟨2, ![n, 512]⟩}
    {src dst : Memref sig .tc .vmem ⟨2, ![n, 512]⟩ .f32}
    (hsrcE : src = wbPiece o n 512 hin hsq) (hdstE : dst = r1Piece o' n hin' hsq')
    {c' : Dev nD} (hc' : c' = peer p 2 c)
    {sS sR : DmaSem sig} (hsS : sS = ssem p 2) (hsR : sR = rsem p 2)
    {val : ℕ → ℕ → F .f32} (hval : val = fun r col => Vals.st1 x w p r col c)
    {hsc : dst.view.ref.isScScratch = false} {hsrc : src.view.WordExact} {hdst : dst.view.WordExact}
    {hsem : DmaTarget.Typed (nD := nD) (τ := τ) .vmem (.dma sR) (.remote (Dev.tc c') dst (.dma sS) hsc)}
    {k : PUnit → Prog (TpuEff nD τ sig (Elt F) Λ₀ .tc) α}
    {κ₁ κ₂ : ℕ} {O₀ : CellTallies nD τ sig Unit} (O : CellTallies nD τ sig Unit)
    (hO : O₀ = O + tallyAt (recvCell (peer p 2 c) p 2) () (credOf p 2)) {W : Waits sig Unit} :
    iprop(cellInv ER (cubeRd x w) κ₁ (sendCell c p 2) ∗ cellInv ER (cubeRd x w) κ₂ (recvCell (peer p 2 c) p 2)
        ∗ holdsW c p off 512 h val
        ∗ ownsR1 (peer p 2 c) p
        ∗ owes (c : Thread nD τ) O₀ W
        ∗ dutyTok ER (sendCell c p 2) 0 0 ∗ reached ER (sendCell c p 2) 0
        ∗ dutyTok ER (recvCell (peer p 2 c) p 2) 0 0 ∗ reached ER (recvCell (peer p 2 c) p 2) 0)
      ⊢ iprop(((cred (tallyAt (sendCell c p 2) () (credOf p 2)) ∗ owes (c : Thread nD τ) O W)
            -∗ wp Idealize.ShloMosaic.frame (wpE (defs₀ (F := F)) Variants.none (c : Thread nD τ) none) Set.univ (k ⟨⟩) Q)
          -∗ wp Idealize.ShloMosaic.frame (wpE (defs₀ (F := F)) Variants.none (c : Thread nD τ) none) Set.univ
            (.op (.enqueueDma src (.remote (Dev.tc c') dst (.dma sS) hsc) (.dma sR) hsrc hdst hsem) k) Q) := by
  subst hn hoff ho ho' hsrcE hdstE hc' hsS hsR hval
  have hsetS := set_wbPiece c h hin hsq
  have hsetD : (r1Piece ![p.val, 0, 0] (rowLen p) hin' hsq').view.set = r1Reg (peer p 2 c) p.val (rowLen p) 0 512 (inb_r1 p) :=
    View.set_reshape _ _
  unfold holdsW ownsR1
  iintro ⟨Hg₁, Hg₂, ⟨%fs, Hsrc, %hfs⟩, ⟨%fd, Hdst⟩, HL, Htok₁, Hr₁, Htok₂, Hr₂⟩
  iapply (Rounds.wp_send_landing_pointsTo (defs := defs₀ (F := F)) Variants.none ER (cubeRd x w) c.tc none
      (c' := (peer p 2 c).tc)
      (src := wbPiece ![p.val, 0, srcOff p 2 c] (rowLen p) 512 hin hsq)
      (dst := r1Piece ![p.val, 0, 0] (rowLen p) hin' hsq')
      (q := fullShare) (fs := fs) (fd := fd) (κ₁ := κ₁) (κ₂ := κ₂) (W := W)
      (Tables.mem_duties_send x w c p 2) (Tables.mem_duties_recv x w (peer p 2 c) p 2) () () (credOf p 2) (by unfold credOf; rw [if_pos (by decide)]; rfl)
      (Tables.amount_send x w c p 2 0) (Tables.amount_recv x w (peer p 2 c) p 2 0) O hO (by rw [Tables.payload_send, sendPay_reduce c p 2 (by decide)])
      (by
        rw [Tables.payload_recv, recvPay_r1 x w _ p, peer_peer, hsetS, hsetD]
        unfold holdsR1 ownsW
        iintro ⟨Hd, Hs⟩
        isplitl [Hd]
        · iexists _
          isplitl [Hd]
          · iexact Hd
          · ipureintro
            exact fun y => (read_landed3 wbM.view r1M.view h (inb_r1 p) hsq.numel_eq fs fd y).trans (hfs y)
        · iexists fs
          iexact Hs)
      (by routes))
    $$ [Hg₁ Hg₂ Hsrc Hdst HL Htok₁ Hr₁ Htok₂ Hr₂]
  rw [hsetS, hsetD]
  iframe

theorem ev_send_handoff_r2 {α : Type} {Q : α → sProp 𝕄} (c : Dev nD) (p : Fin 3)
    {n off : ℕ} (hn : n = rowLen p) (hoff : off = srcOff p 3 c)
    (h : Inb3 2048 p.val (rowLen p) off 256)
    {o o' : Fin 3 → ℕ} (ho : o = ![p.val, 0, off]) (ho' : o' = ![p.val, 0, 0])
    {hin : ∀ a, o a + (![1, n, 256] : Fin 3 → ℕ) a ≤ S3x1368x2048.size a}
    {hin' : ∀ a, o' a + (![1, n, 256] : Fin 3 → ℕ) a ≤ S3x1368x256.size a}
    {hsq hsq' : (⟨3, ![1, n, 256]⟩ : Shape).Squeezes ⟨2, ![n, 256]⟩}
    {src dst : Memref sig .tc .vmem ⟨2, ![n, 256]⟩ .f32}
    (hsrcE : src = wbPiece o n 256 hin hsq) (hdstE : dst = r2Piece o' n hin' hsq')
    {c' : Dev nD} (hc' : c' = peer p 3 c)
    {sS sR : DmaSem sig} (hsS : sS = ssem p 3) (hsR : sR = rsem p 3)
    {val : ℕ → ℕ → F .f32} (hval : val = fun r col => Vals.st2 x w p r col c)
    {hsc : dst.view.ref.isScScratch = false} {hsrc : src.view.WordExact} {hdst : dst.view.WordExact}
    {hsem : DmaTarget.Typed (nD := nD) (τ := τ) .vmem (.dma sR) (.remote (Dev.tc c') dst (.dma sS) hsc)}
    {k : PUnit → Prog (TpuEff nD τ sig (Elt F) Λ₀ .tc) α}
    {κ₁ κ₂ : ℕ} {O₀ : CellTallies nD τ sig Unit} (O : CellTallies nD τ sig Unit)
    (hO : O₀ = O + tallyAt (recvCell (peer p 3 c) p 3) () (credOf p 3)) {W : Waits sig Unit} :
    iprop(cellInv ER (cubeRd x w) κ₁ (sendCell c p 3) ∗ cellInv ER (cubeRd x w) κ₂ (recvCell (peer p 3 c) p 3)
        ∗ holdsW c p off 256 h val
        ∗ ownsR2 (peer p 3 c) p
        ∗ owes (c : Thread nD τ) O₀ W
        ∗ dutyTok ER (sendCell c p 3) 0 0 ∗ reached ER (sendCell c p 3) 0
        ∗ dutyTok ER (recvCell (peer p 3 c) p 3) 0 0 ∗ reached ER (recvCell (peer p 3 c) p 3) 0)
      ⊢ iprop(((cred (tallyAt (sendCell c p 3) () (credOf p 3)) ∗ owes (c : Thread nD τ) O W)
            -∗ wp Idealize.ShloMosaic.frame (wpE (defs₀ (F := F)) Variants.none (c : Thread nD τ) none) Set.univ (k ⟨⟩) Q)
          -∗ wp Idealize.ShloMosaic.frame (wpE (defs₀ (F := F)) Variants.none (c : Thread nD τ) none) Set.univ
            (.op (.enqueueDma src (.remote (Dev.tc c') dst (.dma sS) hsc) (.dma sR) hsrc hdst hsem) k) Q) := by
  subst hn hoff ho ho' hsrcE hdstE hc' hsS hsR hval
  have hsetS := set_wbPiece c h hin hsq
  have hsetD : (r2Piece ![p.val, 0, 0] (rowLen p) hin' hsq').view.set = r2Reg (peer p 3 c) p.val (rowLen p) 0 256 (inb_r2 p) :=
    View.set_reshape _ _
  unfold holdsW ownsR2
  iintro ⟨Hg₁, Hg₂, ⟨%fs, Hsrc, %hfs⟩, ⟨%fd, Hdst⟩, HL, Htok₁, Hr₁, Htok₂, Hr₂⟩
  iapply (Rounds.wp_send_landing_pointsTo (defs := defs₀ (F := F)) Variants.none ER (cubeRd x w) c.tc none
      (c' := (peer p 3 c).tc)
      (src := wbPiece ![p.val, 0, srcOff p 3 c] (rowLen p) 256 hin hsq)
      (dst := r2Piece ![p.val, 0, 0] (rowLen p) hin' hsq')
      (q := fullShare) (fs := fs) (fd := fd) (κ₁ := κ₁) (κ₂ := κ₂) (W := W)
      (Tables.mem_duties_send x w c p 3) (Tables.mem_duties_recv x w (peer p 3 c) p 3) () () (credOf p 3) (by unfold credOf; rw [if_neg (by decide), if_pos (by decide)]; rfl)
      (Tables.amount_send x w c p 3 0) (Tables.amount_recv x w (peer p 3 c) p 3 0) O hO (by rw [Tables.payload_send, sendPay_reduce c p 3 (by decide)])
      (by
        rw [Tables.payload_recv, recvPay_r2 x w _ p, peer_peer, hsetS, hsetD]
        unfold holdsR2 ownsW
        iintro ⟨Hd, Hs⟩
        isplitl [Hd]
        · iexists _
          isplitl [Hd]
          · iexact Hd
          · ipureintro
            exact fun y => (read_landed3 wbM.view r2M.view h (inb_r2 p) hsq.numel_eq fs fd y).trans (hfs y)
        · iexists fs
          iexact Hs)
      (by routes))
    $$ [Hg₁ Hg₂ Hsrc Hdst HL Htok₁ Hr₁ Htok₂ Hr₂]
  rw [hsetS, hsetD]
  iframe

end Cert.Kernel.Body

end
-- ==== Proof.K.Pays.lean ====
import proofs.«900802_g7700000000000803_dist_gemm_ar_m4096_k4096_n2048_f32_relu_v7x_i8_1_alg».proof.Proof.K.Vals
import proofs.«900802_g7700000000000803_dist_gemm_ar_m4096_k4096_n2048_f32_relu_v7x_i8_1_alg».proof.Proof.Gen.Kernel.Skeleton
import Idealize.ShloMosaic.Lib.Pipeline.Value
import Idealize.ShloMosaic.Lib.ValueLayout
import Idealize.ShloMosaic.Lib.ValueIdx

noncomputable section

namespace Cert.Kernel.Pays

open Idealize.ShloMosaic Idealize.ShloMosaic.ValueIdx Cert.Kernel Cert.Kernel.Gen Cert.Kernel.Spec

section Casts
variable {α : Type} {n wd : ℕ}

abbrev inner (y : (⟨3, ![1, n, wd]⟩ : Shape).Idx) : (⟨2, ![n, wd]⟩ : Shape).Idx :=
  ix2 (⟨(y 1).val, (y 1).isLt⟩ : Fin n) (⟨(y 2).val, (y 2).isLt⟩ : Fin wd)

theorem cast_add_apply (v : (⟨2, ![n, wd]⟩ : Shape).Idx → α) (h : (⟨2, ![n, wd]⟩ : Shape).ShapeCasts ⟨3, ![1, n, wd]⟩)
    (y : (⟨3, ![1, n, wd]⟩ : Shape).Idx) : shapeCast ⟨3, ![1, n, wd]⟩ v h y = v (inner y) := by
  obtain ⟨u, r, q, rfl⟩ : ∃ (u : Fin 1) (r : Fin n) (q : Fin wd), y = ix3 u r q := ⟨y 0, y 1, y 2, eq_ix3 y⟩
  exact shapeCast_ab_1ab_apply v h u r q

theorem cast_drop_apply (v : (⟨3, ![1, n, wd]⟩ : Shape).Idx → α) (h : (⟨3, ![1, n, wd]⟩ : Shape).ShapeCasts ⟨2, ![n, wd]⟩)
    (y : (⟨3, ![1, n, wd]⟩ : Shape).Idx) : shapeCast ⟨2, ![n, wd]⟩ v h (inner y) = v y := by
  obtain ⟨u, r, q, rfl⟩ : ∃ (u : Fin 1) (r : Fin n) (q : Fin wd), y = ix3 u r q := ⟨y 0, y 1, y 2, eq_ix3 y⟩
  have hu : u = 0 := Subsingleton.elim _ _
  subst hu
  exact shapeCast_1ab_ab_apply v h r q

end Casts

variable {F : FTy → Type} [FloatOps F]

section Shapes
variable {n wd : ℕ}

theorem add_cast_apply (u : (⟨3, ![1, n, wd]⟩ : Shape).Idx → F .f32) (g : (⟨2, ![n, wd]⟩ : Shape).Idx → F .f32)
    (h : (⟨3, ![1, n, wd]⟩ : Shape).ShapeCasts ⟨2, ![n, wd]⟩) (h' : (⟨2, ![n, wd]⟩ : Shape).ShapeCasts ⟨3, ![1, n, wd]⟩)
    (y : (⟨3, ![1, n, wd]⟩ : Shape).Idx) :
    shapeCast ⟨3, ![1, n, wd]⟩ (addf (shapeCast ⟨2, ![n, wd]⟩ u h) g) h' y = FloatOps.addf (u y) (g (inner y)) :=
  (cast_add_apply _ h' y).trans (congrArg (FloatOps.addf · _) (cast_drop_apply u h y))

theorem add_cast_cast_apply (u v : (⟨3, ![1, n, wd]⟩ : Shape).Idx → F .f32)
    (h₁ h₂ : (⟨3, ![1, n, wd]⟩ : Shape).ShapeCasts ⟨2, ![n, wd]⟩) (h' : (⟨2, ![n, wd]⟩ : Shape).ShapeCasts ⟨3, ![1, n, wd]⟩)
    (y : (⟨3, ![1, n, wd]⟩ : Shape).Idx) :
    shapeCast ⟨3, ![1, n, wd]⟩ (addf (shapeCast ⟨2, ![n, wd]⟩ u h₁) (shapeCast ⟨2, ![n, wd]⟩ v h₂)) h' y
      = FloatOps.addf (u y) (v y) := by
  rw [add_cast_apply, cast_drop_apply]

theorem max_add_cast_cast_apply (u v : (⟨3, ![1, n, wd]⟩ : Shape).Idx → F .f32) (z : F .f32)
    (h₁ h₂ : (⟨3, ![1, n, wd]⟩ : Shape).ShapeCasts ⟨2, ![n, wd]⟩) (h' : (⟨2, ![n, wd]⟩ : Shape).ShapeCasts ⟨3, ![1, n, wd]⟩)
    (y : (⟨3, ![1, n, wd]⟩ : Shape).Idx) :
    shapeCast ⟨3, ![1, n, wd]⟩ (maximumf (addf (shapeCast ⟨2, ![n, wd]⟩ u h₁) (shapeCast ⟨2, ![n, wd]⟩ v h₂)) (broadcast ⟨2, ![n, wd]⟩ z)) h' y
      = FloatOps.maximumf (FloatOps.addf (u y) (v y)) z :=
  (cast_add_apply _ h' y).trans
    (congrArg₂ (fun a b => FloatOps.maximumf (FloatOps.addf a b) z) (cast_drop_apply u h₁ y) (cast_drop_apply v h₂ y))

end Shapes

theorem pay3_apply (a : Vec F S1368x512 .f32) (bm : Vec F S512x512 .f32) (y : S1x1368x512.Idx) :
    k0_pay3 (k0_pay1 a) (k0_pay2 bm) y = Vals.mmA a bm (inner y) :=
  cast_add_apply (Vals.mmA a bm) _ y
theorem pay4_apply (a : Vec F S1368x512 .f32) (bm : Vec F S512x512 .f32) (y : S1x1368x512.Idx) :
    k0_pay4 a bm y = Vals.mmA a bm (inner y) :=
  cast_add_apply (Vals.mmA a bm) _ y
theorem pay5_apply (a : Vec F S1360x512 .f32) (bm : Vec F S512x512 .f32) (y : S1x1360x512.Idx) :
    k0_pay5 a bm y = Vals.mmB a bm (inner y) :=
  cast_add_apply (Vals.mmB a bm) _ y
theorem pay7_apply (a : Vec F S1368x512 .f32) (bm : Vec F S512x512 .f32) (y : S1x1368x512.Idx) :
    k0_pay7 (k0_pay6 a bm) y = Vals.mmA a bm (inner y) :=
  cast_add_apply (Vals.mmA a bm) _ y
theorem pay8_apply (a : Vec F S1368x512 .f32) (bm : Vec F S512x512 .f32) (y : S1x1368x512.Idx) :
    k0_pay8 a bm y = Vals.mmA a bm (inner y) :=
  cast_add_apply (Vals.mmA a bm) _ y
theorem pay9_apply (a : Vec F S1360x512 .f32) (bm : Vec F S512x512 .f32) (y : S1x1360x512.Idx) :
    k0_pay9 a bm y = Vals.mmB a bm (inner y) :=
  cast_add_apply (Vals.mmB a bm) _ y

theorem pay10_apply (v : Vec F S1x1368x512 .f32) (a : Vec F S1368x512 .f32) (bm : Vec F S512x512 .f32) (y : S1x1368x512.Idx) :
    k0_pay10 v a bm y = FloatOps.addf (v y) (Vals.mmA a bm (inner y)) :=
  add_cast_apply v (Vals.mmA a bm) _ _ y
theorem pay11_apply (v : Vec F S1x1368x512 .f32) (a : Vec F S1368x512 .f32) (bm : Vec F S512x512 .f32) (y : S1x1368x512.Idx) :
    k0_pay11 v a bm y = FloatOps.addf (v y) (Vals.mmA a bm (inner y)) :=
  add_cast_apply v (Vals.mmA a bm) _ _ y
theorem pay13_apply (v : Vec F S1x1360x512 .f32) (a : Vec F S1360x512 .f32) (bm : Vec F S512x512 .f32) (y : S1x1360x512.Idx) :
    k0_pay13 (k0_pay12 v) a bm y = FloatOps.addf (v y) (Vals.mmB a bm (inner y)) :=
  add_cast_apply v (Vals.mmB a bm) _ _ y
theorem pay14_apply (v : Vec F S1x1368x512 .f32) (a : Vec F S1368x512 .f32) (bm : Vec F S512x512 .f32) (y : S1x1368x512.Idx) :
    k0_pay14 v a bm y = FloatOps.addf (v y) (Vals.mmA a bm (inner y)) :=
  add_cast_apply v (Vals.mmA a bm) _ _ y
theorem pay19_apply (v : Vec F S1x1368x512 .f32) (a : Vec F S1368x512 .f32) (bm : Vec F S512x512 .f32) (y : S1x1368x512.Idx) :
    k0_pay19 (k0_pay17 v) (k0_pay18 a) bm y = FloatOps.addf (v y) (Vals.mmA a bm (inner y)) :=
  add_cast_apply v (Vals.mmA a bm) _ _ y
theorem pay23_apply (v : Vec F S1x1360x512 .f32) (a : Vec F S1360x512 .f32) (bm : Vec F S512x512 .f32) (y : S1x1360x512.Idx) :
    k0_pay23 v a bm y = FloatOps.addf (v y) (Vals.mmB a bm (inner y)) :=
  add_cast_apply v (Vals.mmB a bm) _ _ y

theorem pay15_apply (u v : Vec F S1x1368x256 .f32) (y : S1x1368x256.Idx) : k0_pay15 u v y = FloatOps.addf (u y) (v y) :=
  add_cast_cast_apply u v _ _ _ y
theorem pay16_apply (u v : Vec F S1x1368x256 .f32) (y : S1x1368x256.Idx) : k0_pay16 u v y = FloatOps.addf (u y) (v y) :=
  add_cast_cast_apply u v _ _ _ y
theorem pay21_apply (u v : Vec F S1x1368x256 .f32) (y : S1x1368x256.Idx) : k0_pay21 (k0_pay20 u) v y = FloatOps.addf (u y) (v y) :=
  add_cast_cast_apply u v _ _ _ y
theorem pay22_apply (u v : Vec F S1x1368x256 .f32) (y : S1x1368x256.Idx) : k0_pay22 u v y = FloatOps.addf (u y) (v y) :=
  add_cast_cast_apply u v _ _ _ y
theorem pay24_apply (u v : Vec F S1x1360x256 .f32) (y : S1x1360x256.Idx) : k0_pay24 u v y = FloatOps.addf (u y) (v y) :=
  add_cast_cast_apply u v _ _ _ y
theorem pay25_apply (u v : Vec F S1x1360x256 .f32) (y : S1x1360x256.Idx) : k0_pay25 u v y = FloatOps.addf (u y) (v y) :=
  add_cast_cast_apply u v _ _ _ y

theorem pay26_apply (u v : Vec F S1x1368x256 .f32) (y : S1x1368x256.Idx) :
    k0_pay26 u v y = FloatOps.maximumf (FloatOps.addf (u y) (v y)) (Scalar.ofBits .f32 0x00000000#32) :=
  max_add_cast_cast_apply u v _ _ _ _ y
theorem pay27_apply (u v : Vec F S1x1368x256 .f32) (y : S1x1368x256.Idx) :
    k0_pay27 u v y = FloatOps.maximumf (FloatOps.addf (u y) (v y)) (Scalar.ofBits .f32 0x00000000#32) :=
  max_add_cast_cast_apply u v _ _ _ _ y
theorem pay28_apply (u v : Vec F S1x1360x256 .f32) (y : S1x1360x256.Idx) :
    k0_pay28 u v y = FloatOps.maximumf (FloatOps.addf (u y) (v y)) (Scalar.ofBits .f32 0x00000000#32) :=
  max_add_cast_cast_apply u v _ _ _ _ y

-- a rectangle of consecutive coordinates sends `y` to its first coordinate plus `y` on every axis
private theorem unit_idx_val {s : Shape} {o sz : Fin s.rank → ℕ} (hb : ∀ a, o a + sz a ≤ s.size a)
    (y : (Rect.unit o sz hb).toLoadRect.shape.Idx) (a : Fin s.rank) :
    ((Rect.unit o sz hb).toLoadRect.idx y a).val = o a + (y a).val :=
  congrArg (o a + ·) (Nat.one_mul _)

theorem rowsA_readAt (x : Dev nD → Vec F S4096x512 .f32) (d : Dev nD) (o : Fin 2 → ℕ) (r0 : ℕ) (h0 : o 0 = r0) (h1 : o 1 = 0)
    (hb : ∀ a, o a + S1368x512.size a ≤ S4096x512.size a) (hr : r0 + 1368 ≤ 4096) :
    (Memref.whole cc0_stg0_0 : Memref sig .tc .vmem S4096x512 .f32).view.readAt (Elt F)
        (Rect.unit (s := S4096x512) o S1368x512.size hb).toLoadRect (x d)
      = Vals.xrowsA x d r0 hr :=
  funext fun y => congrArg (x d) <| funext fun a => Fin.ext <| (unit_idx_val hb y a).trans <| by
    match a with
    | ⟨0, _⟩ => exact congrArg (· + _) h0
    | ⟨1, _⟩ => exact (congrArg (· + _) h1).trans (Nat.zero_add _)

theorem rowsB_readAt (x : Dev nD → Vec F S4096x512 .f32) (d : Dev nD) (o : Fin 2 → ℕ) (h0 : o 0 = 2736) (h1 : o 1 = 0)
    (hb : ∀ a, o a + S1360x512.size a ≤ S4096x512.size a) :
    (Memref.whole cc0_stg0_0 : Memref sig .tc .vmem S4096x512 .f32).view.readAt (Elt F)
        (Rect.unit (s := S4096x512) o S1360x512.size hb).toLoadRect (x d)
      = Vals.xrowsB x d :=
  funext fun y => congrArg (x d) <| funext fun a => Fin.ext <| (unit_idx_val hb y a).trans <| by
    match a with
    | ⟨0, _⟩ => exact congrArg (· + _) h0
    | ⟨1, _⟩ => exact (congrArg (· + _) h1).trans (Nat.zero_add _)

theorem cols_readAt (w : Dev nD → Vec F S512x2048 .f32) (d : Dev nD) (o : Fin 2 → ℕ) (t : Fin 4) (h0 : o 0 = 0) (h1 : o 1 = 512 * t.val)
    (hb : ∀ a, o a + S512x512.size a ≤ S512x2048.size a) :
    (Memref.whole cc0_stg1_0 : Memref sig .tc .vmem S512x2048 .f32).view.readAt (Elt F)
        (Rect.unit (s := S512x2048) o S512x512.size hb).toLoadRect (w d)
      = Vals.wcols w d t :=
  funext fun y => congrArg (w d) <| funext fun a => Fin.ext <| (unit_idx_val hb y a).trans <| by
    match a with
    | ⟨0, _⟩ => exact (congrArg (· + _) h0).trans (Nat.zero_add _)
    | ⟨1, _⟩ => exact congrArg (· + _) h1

theorem wcols_congr (w : Dev nD → Vec F S512x2048 .f32) (d : Dev nD) (t t' : Fin 4) (h : t.val = t'.val) :
    Vals.wcols w d t = Vals.wcols w d t' := by cases Fin.ext h; rfl

theorem col_split (t : Fin 4) (q : Fin 512) :
    512 * t.val + q.val < 2048 ∧ (512 * t.val + q.val) / 512 = t.val ∧ (512 * t.val + q.val) % 512 = q.val := by
  have ht := t.isLt; have hq := q.isLt
  refine ⟨by omega, ?_, ?_⟩
  · rw [Nat.mul_add_div (by decide : 0 < 512), Nat.div_eq_of_lt hq, Nat.add_zero]
  · rw [Nat.mul_add_mod, Nat.mod_eq_of_lt hq]

theorem mmA_own0 (x : Dev nD → Vec F S4096x512 .f32) (w : Dev nD → Vec F S512x2048 .f32) (c : Dev nD)
    (hr0 : 0 + 1368 ≤ 4096) (t : Fin 4) (r : Fin 1368) (q : Fin 512) :
    Vals.mmA (Vals.xrowsA x c 0 hr0) (Vals.wcols w c t) (ix2 r q) = Vals.own x w 0 r.val (512 * t.val + q.val) c := by
  obtain ⟨hc, hd, hm⟩ := col_split t q
  unfold Vals.own
  rw [dif_pos hc]
  show _ = (if hr : r.val < 1368 then _ else _)
  rw [dif_pos r.isLt]
  rw [wcols_congr w c ⟨(512 * t.val + q.val) / 512, _⟩ t hd]
  exact congrArg (Vals.mmA (Vals.xrowsA x c 0 hr0) (Vals.wcols w c t)) (congrArg (ix2 r) (Fin.ext hm.symm))

theorem mmA_own1 (x : Dev nD → Vec F S4096x512 .f32) (w : Dev nD → Vec F S512x2048 .f32) (c : Dev nD)
    (hr0 : 1368 + 1368 ≤ 4096) (t : Fin 4) (r : Fin 1368) (q : Fin 512) :
    Vals.mmA (Vals.xrowsA x c 1368 hr0) (Vals.wcols w c t) (ix2 r q) = Vals.own x w 1 r.val (512 * t.val + q.val) c := by
  obtain ⟨hc, hd, hm⟩ := col_split t q
  unfold Vals.own
  rw [dif_pos hc]
  show _ = (if hr : r.val < 1368 then _ else _)
  rw [dif_pos r.isLt]
  rw [wcols_congr w c ⟨(512 * t.val + q.val) / 512, _⟩ t hd]
  exact congrArg (Vals.mmA (Vals.xrowsA x c 1368 hr0) (Vals.wcols w c t)) (congrArg (ix2 r) (Fin.ext hm.symm))

theorem mmB_own2 (x : Dev nD → Vec F S4096x512 .f32) (w : Dev nD → Vec F S512x2048 .f32) (c : Dev nD)
    (t : Fin 4) (r : Fin 1360) (q : Fin 512) :
    Vals.mmB (Vals.xrowsB x c) (Vals.wcols w c t) (ix2 r q) = Vals.own x w 2 r.val (512 * t.val + q.val) c := by
  obtain ⟨hc, hd, hm⟩ := col_split t q
  unfold Vals.own
  rw [dif_pos hc]
  show _ = (if hr : r.val < 1360 then _ else _)
  rw [dif_pos r.isLt]
  rw [wcols_congr w c ⟨(512 * t.val + q.val) / 512, _⟩ t hd]
  exact congrArg (Vals.mmB (Vals.xrowsB x c) (Vals.wcols w c t)) (congrArg (ix2 r) (Fin.ext hm.symm))

end Cert.Kernel.Pays

end
-- ==== Proof.K.EvStore.lean ====
import proofs.«900802_g7700000000000803_dist_gemm_ar_m4096_k4096_n2048_f32_relu_v7x_i8_1_alg».proof.Proof.K.Proto
import proofs.«900802_g7700000000000803_dist_gemm_ar_m4096_k4096_n2048_f32_relu_v7x_i8_1_alg».proof.Proof.K.Forms
import proofs.«900802_g7700000000000803_dist_gemm_ar_m4096_k4096_n2048_f32_relu_v7x_i8_1_alg».proof.Proof.K.Pays
import Idealize.ShloMosaic.Lib.Tactic

noncomputable section

namespace Cert.Kernel.Body

open Cert.Kernel Cert.Kernel.Gen Cert.Kernel.Spec Cert.Kernel.Reg Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

local notation "𝒱₀" => Variants.none

section Ops

variable (c : Dev nD) (p : Fin 3) (off wd : ℕ) (h : Inb3 2048 p.val (rowLen p) off wd)

theorem wp_Swb {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    {pl : (⟨3, ![1, rowLen p, wd]⟩ : Shape).Idx → Elt F .f32} (val : ℕ → ℕ → F .f32)
    (hpl : ∀ y, pl y = val (y 1).val (off + (y 2).val))
    {hx : (mW.access (Rect.unit (s := S3x1368x2048) o ![1, rowLen p, wd] hb)).Stores Finset.univ}
    {hm : (Finset.univ : Finset (Rect.unit (s := S3x1368x2048) o ![1, rowLen p, wd] hb).shape.Idx) = Finset.univ ∨ ∀ a, (Rect.unit (s := S3x1368x2048) o ![1, rowLen p, wd] hb).stride a = 1}
    {k : PUnit → Prog (TpuEff nD τ sig (Elt F) Λ₀ .tc) PUnit} {Q : PUnit → sProp 𝕄} :
    ownsW (F := F) c p off wd h
      ⊢ iprop((holdsW c p off wd h val -∗ wp frame (wpE (defs₀ (F := F)) 𝒱₀ c none) Set.univ (k ⟨⟩) Q)
        -∗ wp frame (wpE (defs₀ (F := F)) 𝒱₀ c none) Set.univ
            (.op (.store mW (Rect.unit (s := S3x1368x2048) o ![1, rowLen p, wd] hb) pl Finset.univ hx hm) k) Q) := by
  subst hmW; subst ho
  unfold ownsW holdsW
  iintro ⟨%f, Hf⟩ Hk
  iapply (wp_store 𝒱₀ (c : Thread nD τ) none Set.univ (m := wbM) (r := wbRect p.val (rowLen p) off wd h) (Mk := Finset.univ) (S := wbReg c p.val (rowLen p) off wd h) (Finset.Subset.refl _)) $$ Hf
  iintro Hf
  iapply Hk
  iexists _; isplitl
  · iexact Hf
  ipureintro
  intro y
  exact (View.read_write_of_mem (v := wbM.access (wbRect p.val (rowLen p) off wd h)) f pl (Finset.mem_univ y)).trans (hpl y)

theorem wp_Lwb {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    (val : ℕ → ℕ → F .f32)
    {hl : mW.view.LoadsAt (Rect.unit (s := S3x1368x2048) o ![1, rowLen p, wd] hb).toLoadRect}
    {α : Type} {k : ((⟨3, ![1, rowLen p, wd]⟩ : Shape).Idx → Elt F .f32) → Prog (TpuEff nD τ sig (Elt F) Λ₀ .tc) α} {Q : α → sProp 𝕄} :
    holdsW c p off wd h val
      ⊢ iprop((∀ u : (⟨3, ![1, rowLen p, wd]⟩ : Shape).Idx → Elt F .f32, ⌜∀ y, u y = val (y 1).val (off + (y 2).val)⌝
            -∗ holdsW c p off wd h val -∗ wp frame (wpE (defs₀ (F := F)) 𝒱₀ c none) Set.univ (k u) Q)
        -∗ wp frame (wpE (defs₀ (F := F)) 𝒱₀ c none) Set.univ
            (.op (.load mW (Rect.unit (s := S3x1368x2048) o ![1, rowLen p, wd] hb).toLoadRect hl) k) Q) := by
  subst hmW; subst ho
  unfold holdsW
  iintro ⟨%f, Hf, %hf⟩ Hk
  iapply (wp_load_rect 𝒱₀ (c : Thread nD τ) none Set.univ (m := wbM) (r := wbRect p.val (rowLen p) off wd h) (S := wbReg c p.val (rowLen p) off wd h) (Finset.Subset.refl _)) $$ Hf
  iintro Hf
  iapply Hk $$ %_ %hf
  iexists f; isplitl
  · iexact Hf
  ipureintro; exact hf

theorem wp_Lwb_owns {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    {hl : mW.view.LoadsAt (Rect.unit (s := S3x1368x2048) o ![1, rowLen p, wd] hb).toLoadRect}
    {α : Type} {k : ((⟨3, ![1, rowLen p, wd]⟩ : Shape).Idx → Elt F .f32) → Prog (TpuEff nD τ sig (Elt F) Λ₀ .tc) α} {Q : α → sProp 𝕄} :
    ownsW (F := F) c p off wd h
      ⊢ iprop((∀ u : (⟨3, ![1, rowLen p, wd]⟩ : Shape).Idx → Elt F .f32,
            ownsW c p off wd h -∗ wp frame (wpE (defs₀ (F := F)) 𝒱₀ c none) Set.univ (k u) Q)
        -∗ wp frame (wpE (defs₀ (F := F)) 𝒱₀ c none) Set.univ
            (.op (.load mW (Rect.unit (s := S3x1368x2048) o ![1, rowLen p, wd] hb).toLoadRect hl) k) Q) := by
  subst hmW; subst ho
  unfold ownsW
  iintro ⟨%f, Hf⟩ Hk
  iapply (wp_load_rect 𝒱₀ (c : Thread nD τ) none Set.univ (m := wbM) (r := wbRect p.val (rowLen p) off wd h) (S := wbReg c p.val (rowLen p) off wd h) (Finset.Subset.refl _)) $$ Hf
  iintro Hf
  iapply Hk $$ %_
  iexists f; iexact Hf

end Ops

section Recv

variable (c : Dev nD) (p : Fin 3)

theorem r1_sub (q0 : ℕ) (hq : Inb3 512 p.val (rowLen p) q0 256) :
    (r1M.access (r1Rect p.val (rowLen p) q0 256 hq)).set ⊆ r1Reg c p.val (rowLen p) 0 512 (inb_r1 p) := by
  unfold r1Reg
  intro i hi
  rw [show (r1M.access _).set = _ from View.set_slice_whole cc0_scratch1 _] at hi ⊢
  unfold r1Rect at hi ⊢
  rw [Rect.mem_set_unit] at hi ⊢
  intro a
  have h2 : q0 ≤ (i 2).val ∧ (i 2).val < q0 + 256 := hi 2
  obtain ⟨_, _, hq2⟩ := hq
  match a with
  | ⟨0, _⟩ => exact hi 0
  | ⟨1, _⟩ => exact hi 1
  | ⟨2, _⟩ => show 0 ≤ (i 2).val ∧ (i 2).val < 0 + 512; omega

theorem r1_read (base q0 : ℕ) (hq : Inb3 512 p.val (rowLen p) q0 256) (val : ℕ → ℕ → F .f32)
    (f : Buf (Elt F) ((r1M.access (r1Rect p.val (rowLen p) 0 512 (inb_r1 p))).loc (c : Thread nD τ)))
    (hf : ∀ y : (⟨3, ![1, rowLen p, 512]⟩ : Shape).Idx, (r1M.access (r1Rect p.val (rowLen p) 0 512 (inb_r1 p))).read (Elt F) f y = val (y 1).val (base + (y 2).val))
    (y : (⟨3, ![1, rowLen p, 256]⟩ : Shape).Idx) :
    (r1M.access (r1Rect p.val (rowLen p) q0 256 hq)).read (Elt F) f y = val (y 1).val (base + (q0 + (y 2).val)) := by
  have hlt : q0 + (y 2).val < 512 := by
    obtain ⟨_, _, h2⟩ := hq; have h' : (y 2).val < 256 := (y 2).isLt; omega
  have ea : (r1Rect p.val (rowLen p) q0 256 hq).emb y
      = (r1Rect p.val (rowLen p) 0 512 (inb_r1 p)).emb (ix3 ⟨0, Nat.one_pos⟩ (y 1) ⟨q0 + (y 2).val, hlt⟩) := by
    funext a; apply Fin.ext
    match a with
    | ⟨0, _⟩ =>
      show p.val + 1 * (y 0).val = p.val + 1 * 0
      have : (y 0).val < 1 := (y 0).isLt
      omega
    | ⟨1, _⟩ => rfl
    | ⟨2, _⟩ => show q0 + 1 * (y 2).val = 0 + 1 * (q0 + (y 2).val); omega
  exact (congrArg (r1M.view.read (Elt F) f) ea).trans (hf _)

theorem wp_Lr1 (base q0 : ℕ) (hq : Inb3 512 p.val (rowLen p) q0 256) (val : ℕ → ℕ → F .f32)
    {mR : Memref sig .tc .vmem S3x1368x512 .f32} (hmR : mR = r1M)
    {o : Fin 3 → ℕ} (ho : o = ![p.val, 0, q0])
    {hb : ∀ a, o a + (![1, rowLen p, 256] : Fin 3 → ℕ) a ≤ S3x1368x512.size a}
    {hl : mR.view.LoadsAt (Rect.unit (s := S3x1368x512) o ![1, rowLen p, 256] hb).toLoadRect}
    {α : Type} {k : ((⟨3, ![1, rowLen p, 256]⟩ : Shape).Idx → Elt F .f32) → Prog (TpuEff nD τ sig (Elt F) Λ₀ .tc) α} {Q : α → sProp 𝕄} :
    holdsR1 c p base val
      ⊢ iprop((∀ u : (⟨3, ![1, rowLen p, 256]⟩ : Shape).Idx → Elt F .f32, ⌜∀ y, u y = val (y 1).val (base + (q0 + (y 2).val))⌝
            -∗ holdsR1 c p base val -∗ wp frame (wpE (defs₀ (F := F)) 𝒱₀ c none) Set.univ (k u) Q)
        -∗ wp frame (wpE (defs₀ (F := F)) 𝒱₀ c none) Set.univ
            (.op (.load mR (Rect.unit (s := S3x1368x512) o ![1, rowLen p, 256] hb).toLoadRect hl) k) Q) := by
  subst hmR; subst ho
  unfold holdsR1
  iintro ⟨%f, Hf, %hf⟩ Hk
  iapply (wp_load_rect 𝒱₀ (c : Thread nD τ) none Set.univ (m := r1M) (r := r1Rect p.val (rowLen p) q0 256 hq) (S := r1Reg c p.val (rowLen p) 0 512 (inb_r1 p)) (r1_sub c p q0 hq)) $$ Hf
  iintro Hf
  iapply Hk $$ %_ %(r1_read c p base q0 hq val f hf)
  iexists f; isplitl
  · iexact Hf
  ipureintro; exact hf

theorem wp_Lr2 (base : ℕ) (val : ℕ → ℕ → F .f32)
    {mR : Memref sig .tc .vmem S3x1368x256 .f32} (hmR : mR = r2M)
    {o : Fin 3 → ℕ} (ho : o = ![p.val, 0, 0])
    {hb : ∀ a, o a + (![1, rowLen p, 256] : Fin 3 → ℕ) a ≤ S3x1368x256.size a}
    {hl : mR.view.LoadsAt (Rect.unit (s := S3x1368x256) o ![1, rowLen p, 256] hb).toLoadRect}
    {α : Type} {k : ((⟨3, ![1, rowLen p, 256]⟩ : Shape).Idx → Elt F .f32) → Prog (TpuEff nD τ sig (Elt F) Λ₀ .tc) α} {Q : α → sProp 𝕄} :
    holdsR2 c p base val
      ⊢ iprop((∀ u : (⟨3, ![1, rowLen p, 256]⟩ : Shape).Idx → Elt F .f32, ⌜∀ y, u y = val (y 1).val (base + (y 2).val)⌝
            -∗ holdsR2 c p base val -∗ wp frame (wpE (defs₀ (F := F)) 𝒱₀ c none) Set.univ (k u) Q)
        -∗ wp frame (wpE (defs₀ (F := F)) 𝒱₀ c none) Set.univ
            (.op (.load mR (Rect.unit (s := S3x1368x256) o ![1, rowLen p, 256] hb).toLoadRect hl) k) Q) := by
  subst hmR; subst ho
  unfold holdsR2
  iintro ⟨%f, Hf, %hf⟩ Hk
  iapply (wp_load_rect 𝒱₀ (c : Thread nD τ) none Set.univ (m := r2M) (r := r2Rect p.val (rowLen p) 0 256 (inb_r2 p)) (S := r2Reg c p.val (rowLen p) 0 256 (inb_r2 p)) (Finset.Subset.refl _)) $$ Hf
  iintro Hf
  iapply Hk $$ %_ %hf
  iexists f; isplitl
  · iexact Hf
  ipureintro; exact hf

end Recv

section Staged

variable (c : Dev nD)

abbrev xM : Memref sig .tc .vmem S4096x512 .f32 := Memref.whole cc0_stg0_0
abbrev wM : Memref sig .tc .vmem S512x2048 .f32 := Memref.whole cc0_stg1_0

theorem wp_Lstg0 {lr : LoadRect S4096x512} {hl : (xM : Memref sig .tc .vmem S4096x512 .f32).view.LoadsAt lr} {q : PosShare TreeShare} (fx : Vec F S4096x512 .f32)
    {α : Type} {k : (lr.shape.Idx → Elt F .f32) → Prog (TpuEff nD τ sig (Elt F) Λ₀ .tc) α} {Q : α → sProp 𝕄} :
    (((c : Thread nD τ).loc cc0_stg0_0) ↦{q} fx : sProp 𝕄)
      ⊢ iprop(((((c : Thread nD τ).loc cc0_stg0_0) ↦{q} fx) -∗ wp frame (wpE (defs₀ (F := F)) 𝒱₀ c none) Set.univ (k ((xM : Memref sig .tc .vmem S4096x512 .f32).view.readAt (Elt F) lr fx)) Q)
        -∗ wp frame (wpE (defs₀ (F := F)) 𝒱₀ c none) Set.univ (.op (.load xM lr hl) k) Q) :=
  wp_load 𝒱₀ (c : Thread nD τ) none Set.univ (m := (xM : Memref sig .tc .vmem S4096x512 .f32)) (S := Finset.univ) (Finset.subset_univ _)

theorem wp_Lstg1 {lr : LoadRect S512x2048} {hl : (wM : Memref sig .tc .vmem S512x2048 .f32).view.LoadsAt lr} {q : PosShare TreeShare} (fw : Vec F S512x2048 .f32)
    {α : Type} {k : (lr.shape.Idx → Elt F .f32) → Prog (TpuEff nD τ sig (Elt F) Λ₀ .tc) α} {Q : α → sProp 𝕄} :
    (((c : Thread nD τ).loc cc0_stg1_0) ↦{q} fw : sProp 𝕄)
      ⊢ iprop(((((c : Thread nD τ).loc cc0_stg1_0) ↦{q} fw) -∗ wp frame (wpE (defs₀ (F := F)) 𝒱₀ c none) Set.univ (k ((wM : Memref sig .tc .vmem S512x2048 .f32).view.readAt (Elt F) lr fw)) Q)
        -∗ wp frame (wpE (defs₀ (F := F)) 𝒱₀ c none) Set.univ (.op (.load wM lr hl) k) Q) :=
  wp_load 𝒱₀ (c : Thread nD τ) none Set.univ (m := (wM : Memref sig .tc .vmem S512x2048 .f32)) (S := Finset.univ) (Finset.subset_univ _)

end Staged

section Holds

variable (c : Dev nD) (p : Fin 3) (off wd : ℕ) (h : Inb3 2048 p.val (rowLen p) off wd)

theorem holdsW_owns (val : ℕ → ℕ → F .f32) : holdsW c p off wd h val ⊢ ownsW c p off wd h := by
  unfold holdsW ownsW
  iintro ⟨%f, Hf, -⟩
  iexists f; iexact Hf

theorem holdsW_congr (val val' : ℕ → ℕ → F .f32) (hv : ∀ r q, q < wd → val r (off + q) = val' r (off + q)) :
    holdsW c p off wd h val ⊢ holdsW c p off wd h val' := by
  unfold holdsW
  iintro ⟨%f, Hf, %hf⟩
  iexists f; isplitl
  · iexact Hf
  ipureintro; intro y
  rw [hf y]; exact hv _ _ (y 2).isLt

end Holds

section Events

variable (c : Dev nD) (p : Fin 3) (x : Dev nD → Vec F S4096x512 .f32) (w : Dev nD → Vec F S512x2048 .f32)

theorem ev_S1 (off : ℕ) (h : Inb3 2048 p.val (rowLen p) off 512)
    {mW : Memref sig .tc .vmem S3x1368x2048 .f32} (hmW : mW = wbM)
    {ox : Fin 2 → ℕ} {hbx : ∀ a, ox a + (![rowLen p, 512] : Fin 2 → ℕ) a ≤ S4096x512.size a}
    {hlx : (xM : Memref sig .tc .vmem S4096x512 .f32).view.LoadsAt (Rect.unit (s := S4096x512) ox ![rowLen p, 512] hbx).toLoadRect}
    {ow : Fin 2 → ℕ} {hbw : ∀ a, ow a + (![512, 512] : Fin 2 → ℕ) a ≤ S512x2048.size a}
    {hlw : (wM : Memref sig .tc .vmem S512x2048 .f32).view.LoadsAt (Rect.unit (s := S512x2048) ow ![512, 512] hbw).toLoadRect}
    {o : Fin 3 → ℕ} (ho : o = ![p.val, 0, off])
    {hb : ∀ a, o a + (![1, rowLen p, 512] : Fin 3 → ℕ) a ≤ S3x1368x2048.size a}
    {hl : mW.view.LoadsAt (Rect.unit (s := S3x1368x2048) o ![1, rowLen p, 512] hb).toLoadRect}
    {hx : (mW.access (Rect.unit (s := S3x1368x2048) o ![1, rowLen p, 512] hb)).Stores Finset.univ}
    {hm : (Finset.univ : Finset (Rect.unit (s := S3x1368x2048) o ![1, rowLen p, 512] hb).shape.Idx) = Finset.univ ∨ ∀ a, (Rect.unit (s := S3x1368x2048) o ![1, rowLen p, 512] hb).stride a = 1}
    {pl : ((⟨2, ![rowLen p, 512]⟩ : Shape).Idx → Elt F .f32) → ((⟨2, ![512, 512]⟩ : Shape).Idx → Elt F .f32) → (⟨3, ![1, rowLen p, 512]⟩ : Shape).Idx → Elt F .f32}
    (hpl : ∀ y, pl ((xM : Memref sig .tc .vmem S4096x512 .f32).view.readAt (Elt F) (Rect.unit (s := S4096x512) ox ![rowLen p, 512] hbx).toLoadRect (x c)) ((wM : Memref sig .tc .vmem S512x2048 .f32).view.readAt (Elt F) (Rect.unit (s := S512x2048) ow ![512, 512] hbw).toLoadRect (w c)) y
      = Vals.own x w p (y 1).val (off + (y 2).val) c)
    {q0 q1 : PosShare TreeShare}
    {k : PUnit → Prog (TpuEff nD τ sig (Elt F) Λ₀ .tc) PUnit} {Q : PUnit → sProp 𝕄} :
    iprop(ownsW (F := F) c p off 512 h ∗ (((c : Thread nD τ).loc cc0_stg0_0) ↦{q0} x c) ∗ (((c : Thread nD τ).loc cc0_stg1_0) ↦{q1} w c))
      ⊢ iprop(((holdsW c p off 512 h (fun r col => Vals.own x w p r col c) ∗ (((c : Thread nD τ).loc cc0_stg0_0) ↦{q0} x c) ∗ (((c : Thread nD τ).loc cc0_stg1_0) ↦{q1} w c))
            -∗ wp frame (wpE (defs₀ (F := F)) 𝒱₀ c none) Set.univ (k ⟨⟩) Q)
        -∗ wp frame (wpE (defs₀ (F := F)) 𝒱₀ c none) Set.univ
            (.op (.load xM (Rect.unit (s := S4096x512) ox ![rowLen p, 512] hbx).toLoadRect hlx) fun vx =>
              .op (.load wM (Rect.unit (s := S512x2048) ow ![512, 512] hbw).toLoadRect hlw) fun vw =>
              .op (.load mW (Rect.unit (s := S3x1368x2048) o ![1, rowLen p, 512] hb).toLoadRect hl) fun _ =>
              .op (.store mW (Rect.unit (s := S3x1368x2048) o ![1, rowLen p, 512] hb) (pl vx vw) Finset.univ hx hm) k) Q) := by
  iintro ⟨Hw, Hx, Ht⟩ Hk
  iapply (wp_Lstg0 c (x c)) $$ Hx; iintro Hx
  iapply (wp_Lstg1 c (w c)) $$ Ht; iintro Ht
  iapply (wp_Lwb_owns c p off 512 h hmW ho) $$ Hw; iintro %u Hw
  iapply (wp_Swb c p off 512 h hmW ho (fun r col => Vals.own x w p r col c) hpl) $$ Hw; iintro Hw
  iapply Hk
  iframe Hw Hx Ht

theorem ev_S2 (off : ℕ) (h : Inb3 2048 p.val (rowLen p) off 512) (v : ℕ → ℕ → F .f32)
    {mW : Memref sig .tc .vmem S3x1368x2048 .f32} (hmW : mW = wbM)
    {ox : Fin 2 → ℕ} {hbx : ∀ a, ox a + (![rowLen p, 512] : Fin 2 → ℕ) a ≤ S4096x512.size a}
    {hlx : (xM : Memref sig .tc .vmem S4096x512 .f32).view.LoadsAt (Rect.unit (s := S4096x512) ox ![rowLen p, 512] hbx).toLoadRect}
    {ow : Fin 2 → ℕ} {hbw : ∀ a, ow a + (![512, 512] : Fin 2 → ℕ) a ≤ S512x2048.size a}
    {hlw : (wM : Memref sig .tc .vmem S512x2048 .f32).view.LoadsAt (Rect.unit (s := S512x2048) ow ![512, 512] hbw).toLoadRect}
    {o : Fin 3 → ℕ} (ho : o = ![p.val, 0, off])
    {hb : ∀ a, o a + (![1, rowLen p, 512] : Fin 3 → ℕ) a ≤ S3x1368x2048.size a}
    {hl1 hl2 : mW.view.LoadsAt (Rect.unit (s := S3x1368x2048) o ![1, rowLen p, 512] hb).toLoadRect}
    {hx : (mW.access (Rect.unit (s := S3x1368x2048) o ![1, rowLen p, 512] hb)).Stores Finset.univ}
    {hm : (Finset.univ : Finset (Rect.unit (s := S3x1368x2048) o ![1, rowLen p, 512] hb).shape.Idx) = Finset.univ ∨ ∀ a, (Rect.unit (s := S3x1368x2048) o ![1, rowLen p, 512] hb).stride a = 1}
    {pl : ((⟨3, ![1, rowLen p, 512]⟩ : Shape).Idx → Elt F .f32) → ((⟨2, ![rowLen p, 512]⟩ : Shape).Idx → Elt F .f32) → ((⟨2, ![512, 512]⟩ : Shape).Idx → Elt F .f32) → (⟨3, ![1, rowLen p, 512]⟩ : Shape).Idx → Elt F .f32}
    (hpl : ∀ u y, pl u ((xM : Memref sig .tc .vmem S4096x512 .f32).view.readAt (Elt F) (Rect.unit (s := S4096x512) ox ![rowLen p, 512] hbx).toLoadRect (x c)) ((wM : Memref sig .tc .vmem S512x2048 .f32).view.readAt (Elt F) (Rect.unit (s := S512x2048) ow ![512, 512] hbw).toLoadRect (w c)) y
      = FloatOps.addf (u y) (Vals.own x w p (y 1).val (off + (y 2).val) c))
    {q0 q1 : PosShare TreeShare}
    {k : PUnit → Prog (TpuEff nD τ sig (Elt F) Λ₀ .tc) PUnit} {Q : PUnit → sProp 𝕄} :
    iprop(holdsW c p off 512 h v ∗ (((c : Thread nD τ).loc cc0_stg0_0) ↦{q0} x c) ∗ (((c : Thread nD τ).loc cc0_stg1_0) ↦{q1} w c))
      ⊢ iprop(((holdsW c p off 512 h (fun r col => FloatOps.addf (v r col) (Vals.own x w p r col c)) ∗ (((c : Thread nD τ).loc cc0_stg0_0) ↦{q0} x c) ∗ (((c : Thread nD τ).loc cc0_stg1_0) ↦{q1} w c))
            -∗ wp frame (wpE (defs₀ (F := F)) 𝒱₀ c none) Set.univ (k ⟨⟩) Q)
        -∗ wp frame (wpE (defs₀ (F := F)) 𝒱₀ c none) Set.univ
            (.op (.load mW (Rect.unit (s := S3x1368x2048) o ![1, rowLen p, 512] hb).toLoadRect hl1) fun u =>
              .op (.load xM (Rect.unit (s := S4096x512) ox ![rowLen p, 512] hbx).toLoadRect hlx) fun vx =>
              .op (.load wM (Rect.unit (s := S512x2048) ow ![512, 512] hbw).toLoadRect hlw) fun vw =>
              .op (.load mW (Rect.unit (s := S3x1368x2048) o ![1, rowLen p, 512] hb).toLoadRect hl2) fun _ =>
              .op (.store mW (Rect.unit (s := S3x1368x2048) o ![1, rowLen p, 512] hb) (pl u vx vw) Finset.univ hx hm) k) Q) := by
  iintro ⟨Hw, Hx, Ht⟩ Hk
  iapply (wp_Lwb c p off 512 h hmW ho v) $$ Hw; iintro %u %hu Hw
  iapply (wp_Lstg0 c (x c)) $$ Hx; iintro Hx
  iapply (wp_Lstg1 c (w c)) $$ Ht; iintro Ht
  iapply (wp_Lwb c p off 512 h hmW ho v) $$ Hw; iintro %u' %hu' Hw
  ihave Hw := (holdsW_owns c p off 512 h v) $$ Hw
  iapply (wp_Swb c p off 512 h hmW ho (fun r col => FloatOps.addf (v r col) (Vals.own x w p r col c))
    (fun y => (hpl u y).trans (by rw [hu y]))) $$ Hw; iintro Hw
  iapply Hk
  iframe Hw Hx Ht

theorem ev_S3 (off base : ℕ) (h : Inb3 2048 p.val (rowLen p) off 256) (hbase : base ≤ off) (hq : Inb3 512 p.val (rowLen p) (off - base) 256)
    (u v : ℕ → ℕ → F .f32)
    {mW : Memref sig .tc .vmem S3x1368x2048 .f32} (hmW : mW = wbM)
    {mR : Memref sig .tc .vmem S3x1368x512 .f32} (hmR : mR = r1M)
    {o : Fin 3 → ℕ} (ho : o = ![p.val, 0, off])
    {hb : ∀ a, o a + (![1, rowLen p, 256] : Fin 3 → ℕ) a ≤ S3x1368x2048.size a}
    {oR : Fin 3 → ℕ} (hoR : oR = ![p.val, 0, off - base])
    {hbR : ∀ a, oR a + (![1, rowLen p, 256] : Fin 3 → ℕ) a ≤ S3x1368x512.size a}
    {hl1 hl2 : mW.view.LoadsAt (Rect.unit (s := S3x1368x2048) o ![1, rowLen p, 256] hb).toLoadRect}
    {hlR : mR.view.LoadsAt (Rect.unit (s := S3x1368x512) oR ![1, rowLen p, 256] hbR).toLoadRect}
    {hx : (mW.access (Rect.unit (s := S3x1368x2048) o ![1, rowLen p, 256] hb)).Stores Finset.univ}
    {hm : (Finset.univ : Finset (Rect.unit (s := S3x1368x2048) o ![1, rowLen p, 256] hb).shape.Idx) = Finset.univ ∨ ∀ a, (Rect.unit (s := S3x1368x2048) o ![1, rowLen p, 256] hb).stride a = 1}
    {pl : ((⟨3, ![1, rowLen p, 256]⟩ : Shape).Idx → Elt F .f32) → ((⟨3, ![1, rowLen p, 256]⟩ : Shape).Idx → Elt F .f32) → (⟨3, ![1, rowLen p, 256]⟩ : Shape).Idx → Elt F .f32}
    (hpl : ∀ a b y, pl a b y = FloatOps.addf (a y) (b y))
    {k : PUnit → Prog (TpuEff nD τ sig (Elt F) Λ₀ .tc) PUnit} {Q : PUnit → sProp 𝕄} :
    iprop(holdsW c p off 256 h u ∗ holdsR1 c p base v)
      ⊢ iprop(((holdsW c p off 256 h (fun r col => FloatOps.addf (u r col) (v r col)) ∗ holdsR1 c p base v)
            -∗ wp frame (wpE (defs₀ (F := F)) 𝒱₀ c none) Set.univ (k ⟨⟩) Q)
        -∗ wp frame (wpE (defs₀ (F := F)) 𝒱₀ c none) Set.univ
            (.op (.load mW (Rect.unit (s := S3x1368x2048) o ![1, rowLen p, 256] hb).toLoadRect hl1) fun a =>
              .op (.load mR (Rect.unit (s := S3x1368x512) oR ![1, rowLen p, 256] hbR).toLoadRect hlR) fun b =>
              .op (.load mW (Rect.unit (s := S3x1368x2048) o ![1, rowLen p, 256] hb).toLoadRect hl2) fun _ =>
              .op (.store mW (Rect.unit (s := S3x1368x2048) o ![1, rowLen p, 256] hb) (pl a b) Finset.univ hx hm) k) Q) := by
  iintro ⟨Hw, Hr⟩ Hk
  iapply (wp_Lwb c p off 256 h hmW ho u) $$ Hw; iintro %a %ha Hw
  iapply (wp_Lr1 c p base (off - base) hq v hmR hoR) $$ Hr; iintro %b %hbv Hr
  iapply (wp_Lwb c p off 256 h hmW ho u) $$ Hw; iintro %a' %ha' Hw
  ihave Hw := (holdsW_owns c p off 256 h u) $$ Hw
  iapply (wp_Swb c p off 256 h hmW ho (fun r col => FloatOps.addf (u r col) (v r col))
    (fun y => by rw [hpl a b y, ha y, hbv y, show base + (off - base + (y 2).val) = off + (y 2).val by omega])) $$ Hw; iintro Hw
  iapply Hk
  iframe Hw Hr

theorem ev_S4 (off : ℕ) (h : Inb3 2048 p.val (rowLen p) off 256) (u v : ℕ → ℕ → F .f32)
    {mW : Memref sig .tc .vmem S3x1368x2048 .f32} (hmW : mW = wbM)
    {mR : Memref sig .tc .vmem S3x1368x256 .f32} (hmR : mR = r2M)
    {o : Fin 3 → ℕ} (ho : o = ![p.val, 0, off])
    {hb : ∀ a, o a + (![1, rowLen p, 256] : Fin 3 → ℕ) a ≤ S3x1368x2048.size a}
    {oR : Fin 3 → ℕ} (hoR : oR = ![p.val, 0, 0])
    {hbR : ∀ a, oR a + (![1, rowLen p, 256] : Fin 3 → ℕ) a ≤ S3x1368x256.size a}
    {hl1 hl2 : mW.view.LoadsAt (Rect.unit (s := S3x1368x2048) o ![1, rowLen p, 256] hb).toLoadRect}
    {hlR : mR.view.LoadsAt (Rect.unit (s := S3x1368x256) oR ![1, rowLen p, 256] hbR).toLoadRect}
    {hx : (mW.access (Rect.unit (s := S3x1368x2048) o ![1, rowLen p, 256] hb)).Stores Finset.univ}
    {hm : (Finset.univ : Finset (Rect.unit (s := S3x1368x2048) o ![1, rowLen p, 256] hb).shape.Idx) = Finset.univ ∨ ∀ a, (Rect.unit (s := S3x1368x2048) o ![1, rowLen p, 256] hb).stride a = 1}
    {pl : ((⟨3, ![1, rowLen p, 256]⟩ : Shape).Idx → Elt F .f32) → ((⟨3, ![1, rowLen p, 256]⟩ : Shape).Idx → Elt F .f32) → (⟨3, ![1, rowLen p, 256]⟩ : Shape).Idx → Elt F .f32}
    (hpl : ∀ a b y, pl a b y = FloatOps.maximumf (FloatOps.addf (a y) (b y)) (Scalar.ofBits .f32 0x00000000#32))
    {k : PUnit → Prog (TpuEff nD τ sig (Elt F) Λ₀ .tc) PUnit} {Q : PUnit → sProp 𝕄} :
    iprop(holdsW c p off 256 h u ∗ holdsR2 c p off v)
      ⊢ iprop(((holdsW c p off 256 h (fun r col => FloatOps.maximumf (FloatOps.addf (u r col) (v r col)) (Scalar.ofBits .f32 0x00000000#32)) ∗ holdsR2 c p off v)
            -∗ wp frame (wpE (defs₀ (F := F)) 𝒱₀ c none) Set.univ (k ⟨⟩) Q)
        -∗ wp frame (wpE (defs₀ (F := F)) 𝒱₀ c none) Set.univ
            (.op (.load mW (Rect.unit (s := S3x1368x2048) o ![1, rowLen p, 256] hb).toLoadRect hl1) fun a =>
              .op (.load mR (Rect.unit (s := S3x1368x256) oR ![1, rowLen p, 256] hbR).toLoadRect hlR) fun b =>
              .op (.load mW (Rect.unit (s := S3x1368x2048) o ![1, rowLen p, 256] hb).toLoadRect hl2) fun _ =>
              .op (.store mW (Rect.unit (s := S3x1368x2048) o ![1, rowLen p, 256] hb) (pl a b) Finset.univ hx hm) k) Q) := by
  iintro ⟨Hw, Hr⟩ Hk
  iapply (wp_Lwb c p off 256 h hmW ho u) $$ Hw; iintro %a %ha Hw
  iapply (wp_Lr2 c p off v hmR hoR) $$ Hr; iintro %b %hbv Hr
  iapply (wp_Lwb c p off 256 h hmW ho u) $$ Hw; iintro %a' %ha' Hw
  ihave Hw := (holdsW_owns c p off 256 h u) $$ Hw
  iapply (wp_Swb c p off 256 h hmW ho (fun r col => FloatOps.maximumf (FloatOps.addf (u r col) (v r col)) (Scalar.ofBits .f32 0x00000000#32))
    (fun y => by rw [hpl a b y, ha y, hbv y])) $$ Hw; iintro Hw
  iapply Hk
  iframe Hw Hr

end Events

end Cert.Kernel.Body

end
-- ==== Proof.K.Parts5.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.EvSend
import proofs.«900802_g7700000000000803_dist_gemm_ar_m4096_k4096_n2048_f32_relu_v7x_i8_1_alg».proof.Proof.K.EvStore
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages
import proofs.«900802_g7700000000000803_dist_gemm_ar_m4096_k4096_n2048_f32_relu_v7x_i8_1_alg».proof.Proof.K.Tables
import proofs.«900802_g7700000000000803_dist_gemm_ar_m4096_k4096_n2048_f32_relu_v7x_i8_1_alg».proof.Proof.K.Pays

noncomputable section

namespace Cert.Kernel.Body

open Cert.Kernel Cert.Kernel.Gen Cert.Kernel.Spec Cert.Kernel.Reg Cert.Kernel.Proto
open Cert.Kernel.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

def p5_colA (p : Fin 3) (c : Dev nD) : Fin 4 := ⟨sub1 p c / 512, by revert p c; decide⟩

def p5_colB (p : Fin 3) (c : Dev nD) : Fin 4 := ⟨sub2 p c / 512, by revert p c; decide⟩

theorem p5_sub1_colA (p : Fin 3) (c : Dev nD) : sub1 p c = 512 * (p5_colA p c).val := by revert p c; decide
theorem p5_sub2_colB (p : Fin 3) (c : Dev nD) : sub2 p c = 512 * (p5_colB p c).val := by revert p c; decide

private theorem p5_own0 (c : Dev nD) (t : Fin 4) (off : ℕ) (ht : off = 512 * t.val) (y : S1x1368x512.Idx) :
    Vals.mmA (Vals.xrowsA x c 0 (by decide)) (Vals.wcols w c t) (Pays.inner y)
      = Vals.own x w 0 (y 1).val (off + (y 2).val) c := by
  subst ht
  exact Pays.mmA_own0 x w c _ t ⟨(y 1).val, (y 1).isLt⟩ ⟨(y 2).val, (y 2).isLt⟩

private theorem p5_own1 (c : Dev nD) (t : Fin 4) (off : ℕ) (ht : off = 512 * t.val) (y : S1x1368x512.Idx) :
    Vals.mmA (Vals.xrowsA x c 1368 (by decide)) (Vals.wcols w c t) (Pays.inner y)
      = Vals.own x w 1 (y 1).val (off + (y 2).val) c := by
  subst ht
  exact Pays.mmA_own1 x w c _ t ⟨(y 1).val, (y 1).isLt⟩ ⟨(y 2).val, (y 2).isLt⟩

private theorem p5_own2 (c : Dev nD) (t : Fin 4) (off : ℕ) (ht : off = 512 * t.val) (y : S1x1360x512.Idx) :
    Vals.mmB (Vals.xrowsB x c) (Vals.wcols w c t) (Pays.inner y)
      = Vals.own x w 2 (y 1).val (off + (y 2).val) c := by
  subst ht
  exact Pays.mmB_own2 x w c t ⟨(y 1).val, (y 1).isLt⟩ ⟨(y 2).val, (y 2).isLt⟩

private theorem p5_pl3 (c : Dev nD) (y : S1x1368x512.Idx) :
    k0_pay3 (k0_pay1 (Vals.xrowsA x c 0 (by decide))) (k0_pay2 (Vals.wcols w c (p5_colA 0 c))) y
      = Vals.own x w 0 (y 1).val (sub1 0 c + (y 2).val) c :=
  (Pays.pay3_apply _ _ y).trans (p5_own0 x w c (p5_colA 0 c) (sub1 0 c) (p5_sub1_colA 0 c) y)

private theorem p5_pl7 (c : Dev nD) (y : S1x1368x512.Idx) :
    k0_pay7 (k0_pay6 (Vals.xrowsA x c 0 (by decide)) (Vals.wcols w c (p5_colB 0 c))) y
      = Vals.own x w 0 (y 1).val (sub2 0 c + (y 2).val) c :=
  (Pays.pay7_apply _ _ y).trans (p5_own0 x w c (p5_colB 0 c) (sub2 0 c) (p5_sub2_colB 0 c) y)

private theorem p5_plS1 (c : Dev nD) (t : Fin 4) (off : ℕ) (ht : off = 512 * t.val)
    (pl : Vec F S1368x512 .f32 → Vec F S512x512 .f32 → FVec F S1x1368x512 .f32)
    (hpl : ∀ a bm y, pl a bm y = Vals.mmA a bm (Pays.inner y))
    (ow : Fin 2 → ℕ) (h0 : ow 0 = 0) (h1 : ow 1 = off)
    {hbx : ∀ a, (![1368, 0] : Fin 2 → ℕ) a + S1368x512.size a ≤ S4096x512.size a}
    {hbw : ∀ a, ow a + S512x512.size a ≤ S512x2048.size a} (y : S1x1368x512.Idx) :
    pl ((Memref.whole cc0_stg0_0 : Memref sig .tc .vmem S4096x512 .f32).view.readAt (Elt F) (Rect.unit (s := S4096x512) ![1368, 0] S1368x512.size hbx).toLoadRect (x c))
       ((Memref.whole cc0_stg1_0 : Memref sig .tc .vmem S512x2048 .f32).view.readAt (Elt F) (Rect.unit (s := S512x2048) ow S512x512.size hbw).toLoadRect (w c)) y
      = Vals.own x w 1 (y 1).val (off + (y 2).val) c := by
  rw [Pays.rowsA_readAt x c ![1368, 0] 1368 rfl rfl hbx (by decide), Pays.cols_readAt w c ow t h0 (h1.trans ht) hbw, hpl]
  exact p5_own1 x w c t off ht y

private theorem p5_plS2 (c : Dev nD) (t : Fin 4) (off : ℕ) (ht : off = 512 * t.val)
    (pl : Vec F S1360x512 .f32 → Vec F S512x512 .f32 → FVec F S1x1360x512 .f32)
    (hpl : ∀ a bm y, pl a bm y = Vals.mmB a bm (Pays.inner y))
    (ow : Fin 2 → ℕ) (h0 : ow 0 = 0) (h1 : ow 1 = off)
    {hbx : ∀ a, (![2736, 0] : Fin 2 → ℕ) a + S1360x512.size a ≤ S4096x512.size a}
    {hbw : ∀ a, ow a + S512x512.size a ≤ S512x2048.size a} (y : S1x1360x512.Idx) :
    pl ((Memref.whole cc0_stg0_0 : Memref sig .tc .vmem S4096x512 .f32).view.readAt (Elt F) (Rect.unit (s := S4096x512) ![2736, 0] S1360x512.size hbx).toLoadRect (x c))
       ((Memref.whole cc0_stg1_0 : Memref sig .tc .vmem S512x2048 .f32).view.readAt (Elt F) (Rect.unit (s := S512x2048) ow S512x512.size hbw).toLoadRect (w c)) y
      = Vals.own x w 2 (y 1).val (off + (y 2).val) c := by
  rw [Pays.rowsB_readAt x c ![2736, 0] rfl rfl hbx, Pays.cols_readAt w c ow t h0 (h1.trans ht) hbw, hpl]
  exact p5_own2 x w c t off ht y

private theorem p5_sendG0 (c : Dev nD) (p : Fin 3) (i : Fin 10) :
    sendG (F := F) c p i 0 = iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
private theorem p5_sendG1 (c : Dev nD) (p : Fin 3) (i : Fin 10) :
    sendG (F := F) c p i 1 = iprop(cred (tallyAt (sendCell c p i) () (credOf p i)) ∗ atPos ER (sendCell c p i) 0 ∅ 0) := rfl
private theorem p5_sendG2 (c : Dev nD) (p : Fin 3) (i : Fin 10) :
    sendG (F := F) c p i 2 = atPos ER (sendCell c p i) 1 ∅ 0 := rfl

private theorem p5_Swb (c : Dev nD) (p : Fin 3) (off wd : ℕ) (h : Inb3 2048 p.val (rowLen p) off wd)
    {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    {pl : (⟨3, ![1, rowLen p, wd]⟩ : Shape).Idx → Elt F .f32} (val : ℕ → ℕ → F .f32)
    (hpl : ∀ y, pl y = val (y 1).val (off + (y 2).val))
    {hx : (mW.access (Rect.unit (s := S3x1368x2048) o ![1, rowLen p, wd] hb)).Stores Finset.univ}
    {hm : (Finset.univ : Finset (Rect.unit (s := S3x1368x2048) o ![1, rowLen p, wd] hb).shape.Idx) = Finset.univ ∨ ∀ a, (Rect.unit (s := S3x1368x2048) o ![1, rowLen p, wd] hb).stride a = 1}
    {α : Type} {k : PUnit → Prog (TpuEff nD τ sig (Elt F) Λ₀ .tc) α} {Q : α → sProp 𝕄} :
    ownsW (F := F) c p off wd h
      ⊢ iprop((holdsW c p off wd h val -∗ wp frame (wpE (defs₀ (F := F)) Variants.none c none) Set.univ (k ⟨⟩) Q)
        -∗ wp frame (wpE (defs₀ (F := F)) Variants.none c none) Set.univ
            (.op (.store mW (Rect.unit (s := S3x1368x2048) o ![1, rowLen p, wd] hb) pl Finset.univ hx hm) k) Q) := by
  subst hmW; subst ho
  unfold ownsW holdsW
  iintro ⟨%f, Hf⟩ Hk
  iapply (wp_store Variants.none (c : Thread nD τ) none Set.univ (m := wbM) (r := wbRect p.val (rowLen p) off wd h) (Mk := Finset.univ) (S := wbReg c p.val (rowLen p) off wd h) (Finset.Subset.refl _)) $$ Hf
  iintro Hf
  iapply Hk
  iexists _; isplitl
  · iexact Hf
  ipureintro
  intro y
  exact (View.read_write_of_mem (v := wbM.access (wbRect p.val (rowLen p) off wd h)) f pl (Finset.mem_univ y)).trans (hpl y)

private theorem p5_S1 (c : Dev nD) (p : Fin 3) (off : ℕ) (h : Inb3 2048 p.val (rowLen p) off 512)
    {mW : Memref sig .tc .vmem S3x1368x2048 .f32} (hmW : mW = wbM)
    {ox : Fin 2 → ℕ} {hbx : ∀ a, ox a + (![rowLen p, 512] : Fin 2 → ℕ) a ≤ S4096x512.size a}
    {hlx : (xM : Memref sig .tc .vmem S4096x512 .f32).view.LoadsAt (Rect.unit (s := S4096x512) ox ![rowLen p, 512] hbx).toLoadRect}
    {ow : Fin 2 → ℕ} {hbw : ∀ a, ow a + (![512, 512] : Fin 2 → ℕ) a ≤ S512x2048.size a}
    {hlw : (wM : Memref sig .tc .vmem S512x2048 .f32).view.LoadsAt (Rect.unit (s := S512x2048) ow ![512, 512] hbw).toLoadRect}
    {o : Fin 3 → ℕ} (ho : o = ![p.val, 0, off])
    {hb : ∀ a, o a + (![1, rowLen p, 512] : Fin 3 → ℕ) a ≤ S3x1368x2048.size a}
    {hl : mW.view.LoadsAt (Rect.unit (s := S3x1368x2048) o ![1, rowLen p, 512] hb).toLoadRect}
    {hx : (mW.access (Rect.unit (s := S3x1368x2048) o ![1, rowLen p, 512] hb)).Stores Finset.univ}
    {hm : (Finset.univ : Finset (Rect.unit (s := S3x1368x2048) o ![1, rowLen p, 512] hb).shape.Idx) = Finset.univ ∨ ∀ a, (Rect.unit (s := S3x1368x2048) o ![1, rowLen p, 512] hb).stride a = 1}
    {pl : ((⟨2, ![rowLen p, 512]⟩ : Shape).Idx → Elt F .f32) → ((⟨2, ![512, 512]⟩ : Shape).Idx → Elt F .f32) → (⟨3, ![1, rowLen p, 512]⟩ : Shape).Idx → Elt F .f32}
    (hpl : ∀ y, pl ((xM : Memref sig .tc .vmem S4096x512 .f32).view.readAt (Elt F) (Rect.unit (s := S4096x512) ox ![rowLen p, 512] hbx).toLoadRect (x c)) ((wM : Memref sig .tc .vmem S512x2048 .f32).view.readAt (Elt F) (Rect.unit (s := S512x2048) ow ![512, 512] hbw).toLoadRect (w c)) y
      = Vals.own x w p (y 1).val (off + (y 2).val) c)
    {q0 q1 : PosShare TreeShare}
    {α : Type} {k : PUnit → Prog (TpuEff nD τ sig (Elt F) Λ₀ .tc) α} {Q : α → sProp 𝕄} :
    iprop(ownsW (F := F) c p off 512 h ∗ (((c : Thread nD τ).loc cc0_stg0_0) ↦{q0} x c) ∗ (((c : Thread nD τ).loc cc0_stg1_0) ↦{q1} w c))
      ⊢ iprop(((holdsW c p off 512 h (fun r col => Vals.own x w p r col c) ∗ (((c : Thread nD τ).loc cc0_stg0_0) ↦{q0} x c) ∗ (((c : Thread nD τ).loc cc0_stg1_0) ↦{q1} w c))
            -∗ wp frame (wpE (defs₀ (F := F)) Variants.none c none) Set.univ (k ⟨⟩) Q)
        -∗ wp frame (wpE (defs₀ (F := F)) Variants.none c none) Set.univ
            (.op (.load xM (Rect.unit (s := S4096x512) ox ![rowLen p, 512] hbx).toLoadRect hlx) fun vx =>
              .op (.load wM (Rect.unit (s := S512x2048) ow ![512, 512] hbw).toLoadRect hlw) fun vw =>
              .op (.load mW (Rect.unit (s := S3x1368x2048) o ![1, rowLen p, 512] hb).toLoadRect hl) fun _ =>
              .op (.store mW (Rect.unit (s := S3x1368x2048) o ![1, rowLen p, 512] hb) (pl vx vw) Finset.univ hx hm) k) Q) := by
  iintro ⟨Hw, Hx, Ht⟩ Hk
  iapply (wp_Lstg0 c (x c)) $$ Hx; iintro Hx
  iapply (wp_Lstg1 c (w c)) $$ Ht; iintro Ht
  iapply (wp_Lwb_owns c p off 512 h hmW ho) $$ Hw; iintro %u Hw
  iapply (p5_Swb c p off 512 h hmW ho (fun r col => Vals.own x w p r col c) hpl) $$ Hw; iintro Hw
  iapply Hk
  iframe Hw Hx Ht

theorem part5 (c : Dev nD) (d0 : Dev nD) (hd : d0 = c) (v19 v33 v50 v92 v119 v144 : BitVec 32) :
    (iprop((((c : Thread nD τ).loc cc0_stg0_0) ↦{fullShare} x c) ∗ (((c : Thread nD τ).loc cc0_stg1_0) ↦{fullShare} w c)) : sProp 𝕄)
      ⊢ wp frame (wpE (defs₀ (F := F)) Variants.none (c : Thread nD τ) none) Set.univ
          (withBufs (k0_part5 (F := F)) d0 v19 v33 v50 v92 v119 v144)
          (fun res => iprop(⌜res.2.2.2.2.2.2.2.1 = k0_pay1 (Vals.xrowsA x c 0 (by decide))⌝
            ∗ ⌜res.2.2.2.2.2.2.2.2 = k0_pay2 (Vals.wcols w c (p5_colA 0 c))⌝
            ∗ (((c : Thread nD τ).loc cc0_stg0_0) ↦{fullShare} x c) ∗ (((c : Thread nD τ).loc cc0_stg1_0) ↦{fullShare} w c))) := by
  subst hd
  iintro ⟨Hx, Hw⟩
  unfold withBufs; rw [k0_part5_eq_skeleton]; unfold k0_part5_skel
  iapply (wp_Lstg0 d0 (x d0)) $$ Hx; iintro Hx
  iapply (wp_Lstg1 d0 (w d0)) $$ Hw; iintro Hw
  iapply (Idealize.SL.Sem.le_wp_ret _ _)
  isplitl []
  · ipureintro
    exact congrArg k0_pay1 (Pays.rowsA_readAt x d0 ![0, 0] 0 rfl rfl _ _)
  isplitl []
  · ipureintro
    exact congrArg k0_pay2 (Pays.cols_readAt w d0 (k0_off1 d0) (p5_colA 0 d0) (by rw [Forms.off_1]; rfl)
      (by rw [Forms.off_1]; exact p5_sub1_colA 0 d0) _)
  iframe Hx Hw

theorem part6 (c : Dev nD) (κs κr : ℕ) (d0 : Dev nD) (hd : d0 = c) (v65 v68 v92 v122 : BitVec 32)
    (v178 : FVec F S1368x512 .f32) (h178 : v178 = k0_pay1 (Vals.xrowsA x c 0 (by decide)))
    (v181 : FVec F S512x512 .f32) (h181 : v181 = k0_pay2 (Vals.wcols w c (p5_colA 0 c)))
    (O : CellTallies nD τ sig Unit) (W : Waits sig Unit) :
    iprop(cellInv (ER (F := F)) (cubeRd x w) κs (sendCell c 0 0)
        ∗ cellInv (ER (F := F)) (cubeRd x w) κr (recvCell (peer 0 0 c) 0 0)
        ∗ ownsW (F := F) c 0 (sub1 0 c) 512 (hA 0 c)
        ∗ ownsW (F := F) (nb 0 0 c) 0 (sub1 0 c) 512 (hA 0 c)
        ∗ sendG (F := F) c 0 0 0
        ∗ ownsW (F := F) c 1 (sub1 1 c) 512 (hA 1 c)
        ∗ owes (c : Thread nD τ) (O + tallyAt (recvCell (peer 0 0 c) 0 0) () (credOf 0 0)) W
        ∗ (((c : Thread nD τ).loc cc0_stg0_0) ↦{fullShare} x c) ∗ (((c : Thread nD τ).loc cc0_stg1_0) ↦{fullShare} w c))
      ⊢ wp frame (wpE (defs₀ (F := F)) Variants.none (c : Thread nD τ) none) Set.univ
          (withBufs (k0_part6 (F := F)) d0 v65 v68 v92 v122 v178 v181)
          (fun _ => iprop(sendG (F := F) c 0 0 1
            ∗ holdsW c 1 (sub1 1 c) 512 (hA 1 c) (fun r col => Vals.own x w 1 r col c)
            ∗ owes (c : Thread nD τ) O W
            ∗ (((c : Thread nD τ).loc cc0_stg0_0) ↦{fullShare} x c) ∗ (((c : Thread nD τ).loc cc0_stg1_0) ↦{fullShare} w c))) := by
  subst hd; subst h178; subst h181
  iintro ⟨#HIsX, #HIrX, HA0, HnA0, Hg, HA1, HO, Hx, Hw⟩
  unfold withBufs; rw [k0_part6_eq_skeleton]; unfold k0_part6_skel
  iapply (wp_Lwb_owns d0 0 (sub1 0 d0) 512 (hA 0 d0) rfl (Forms.off_2 d0)) $$ HA0
  iintro %u HA0
  iapply (wp_Swb d0 0 (sub1 0 d0) 512 (hA 0 d0) rfl (Forms.off_2 d0) (pl := k0_pay3 _ _)
    (fun r col => Vals.own x w 0 r col d0) (p5_pl3 x w d0)) $$ HA0
  iintro HA0
  ihave Hg := (Entails.of_eq (p5_sendG0 (F := F) d0 0 0)) $$ Hg
  icases Hg with ⟨HtXa, HrXa, HtXb, HrXb, HatX⟩
  iapply (ev_send_handoff x w d0 0 0 (by decide) (n := 1368) (wd := 512) (off := sub1 0 d0) rfl rfl rfl (hA 0 d0) (Forms.off_3 d0) (Forms.off_3 d0) rfl rfl (Forms.dev_4 d0) rfl rfl rfl O rfl) $$ [HA0 HnA0 HO HtXa HrXa HtXb HrXb]
  · isplitl []; · iexact HIsX
    isplitl []; · iexact HIrX
    isplitl [HA0]; · iexact HA0
    isplitl [HnA0]; · iexact HnA0
    isplitl [HO]; · iexact HO
    isplitl [HtXa]; · iexact HtXa
    isplitl [HrXa]; · iexact HrXa
    isplitl [HtXb]; · iexact HtXb
    iexact HrXb
  iintro ⟨HcrX, HO⟩
  have h0 : k0_off4 d0 0 = 0 := by rw [Forms.off_4]; rfl
  have h1 : k0_off4 d0 1 = sub1 1 d0 := by rw [Forms.off_4]; rfl
  iapply (ev_S1 d0 1 x w (sub1 1 d0) (hA 1 d0) rfl (ox := ![1368, 0]) (ow := k0_off4 d0) (Forms.off_5 d0)
    (pl := fun vx vw => k0_pay4 vx vw)
    (p5_plS1 x w d0 (p5_colA 1 d0) (sub1 1 d0) (p5_sub1_colA 1 d0) (fun vx vw => k0_pay4 vx vw) Pays.pay4_apply (k0_off4 d0) h0 h1)) $$ [HA1 Hx Hw]
  · iframe HA1 Hx Hw
  iintro ⟨HA1, Hx, Hw⟩
  iapply (Idealize.SL.Sem.le_wp_ret _ _)
  isplitl [HcrX HatX]
  · iapply (Entails.of_eq (p5_sendG1 (F := F) d0 0 0).symm)
    iframe HcrX HatX
  iframe HA1 HO Hx Hw

theorem part7 (c : Dev nD) (κs1 κr1 κs2 κr2 : ℕ) (d0 : Dev nD) (hd : d0 = c) (v79 v94 v152 : BitVec 32)
    (O : CellTallies nD τ sig Unit) (W : Waits sig Unit) :
    iprop(cellInv (ER (F := F)) (cubeRd x w) κs1 (sendCell c 1 0)
        ∗ cellInv (ER (F := F)) (cubeRd x w) κr1 (recvCell (peer 1 0 c) 1 0)
        ∗ cellInv (ER (F := F)) (cubeRd x w) κs2 (sendCell c 2 0)
        ∗ cellInv (ER (F := F)) (cubeRd x w) κr2 (recvCell (peer 2 0 c) 2 0)
        ∗ holdsW c 1 (sub1 1 c) 512 (hA 1 c) (fun r col => Vals.own x w 1 r col c)
        ∗ ownsW (F := F) (nb 1 0 c) 1 (sub1 1 c) 512 (hA 1 c)
        ∗ sendG (F := F) c 1 0 0
        ∗ ownsW (F := F) c 2 (sub1 2 c) 512 (hA 2 c)
        ∗ ownsW (F := F) (nb 2 0 c) 2 (sub1 2 c) 512 (hA 2 c)
        ∗ sendG (F := F) c 2 0 0
        ∗ ownsW (F := F) c 0 (sub2 0 c) 512 (hB 0 c)
        ∗ owes (c : Thread nD τ) (O + tallyAt (recvCell (peer 2 0 c) 2 0) () (credOf 2 0) + tallyAt (recvCell (peer 1 0 c) 1 0) () (credOf 1 0)) W
        ∗ (((c : Thread nD τ).loc cc0_stg0_0) ↦{fullShare} x c) ∗ (((c : Thread nD τ).loc cc0_stg1_0) ↦{fullShare} w c))
      ⊢ wp frame (wpE (defs₀ (F := F)) Variants.none (c : Thread nD τ) none) Set.univ
          (withBufs (k0_part7 (F := F)) d0 v79 v94 v152)
          (fun res => iprop(⌜res.1 = k0_pay6 (Vals.xrowsA x c 0 (by decide)) (Vals.wcols w c (p5_colB 0 c))⌝
            ∗ sendG (F := F) c 1 0 1
            ∗ sendG (F := F) c 2 0 1
            ∗ ownsW (F := F) c 0 (sub2 0 c) 512 (hB 0 c)
            ∗ owes (c : Thread nD τ) O W
            ∗ (((c : Thread nD τ).loc cc0_stg0_0) ↦{fullShare} x c) ∗ (((c : Thread nD τ).loc cc0_stg1_0) ↦{fullShare} w c))) := by
  subst hd
  iintro ⟨#HIsP, #HIrP, #HIsQ, #HIrQ, HA1, HnA1, HgP, HA2, HnA2, HgQ, HB0, HO, Hx, Hw⟩
  unfold withBufs; rw [k0_part7_eq_skeleton]; unfold k0_part7_skel
  ihave HgP := (Entails.of_eq (p5_sendG0 (F := F) d0 1 0)) $$ HgP
  icases HgP with ⟨HtPa, HrPa, HtPb, HrPb, HatP⟩
  iapply (ev_send_handoff x w d0 1 0 (by decide) (n := 1368) (wd := 512) (off := sub1 1 d0) rfl rfl rfl (hA 1 d0) (Forms.off_6 d0) (Forms.off_6 d0) rfl rfl (Forms.dev_5 d0) rfl rfl rfl (O + tallyAt (recvCell (peer 2 0 d0) 2 0) () (credOf 2 0)) rfl) $$ [HA1 HnA1 HO HtPa HrPa HtPb HrPb]
  · isplitl []; · iexact HIsP
    isplitl []; · iexact HIrP
    isplitl [HA1]; · iexact HA1
    isplitl [HnA1]; · iexact HnA1
    isplitl [HO]; · iexact HO
    isplitl [HtPa]; · iexact HtPa
    isplitl [HrPa]; · iexact HrPa
    isplitl [HtPb]; · iexact HtPb
    iexact HrPb
  iintro ⟨HcrP, HO⟩
  have h0 : k0_off7 d0 0 = 0 := by rw [Forms.off_7]; rfl
  have h1 : k0_off7 d0 1 = sub1 2 d0 := by rw [Forms.off_7]; rfl
  iapply (p5_S1 x w d0 2 (sub1 2 d0) (hA 2 d0) rfl (ox := ![2736, 0]) (ow := k0_off7 d0) (Forms.off_8 d0)
    (pl := fun vx vw => k0_pay5 vx vw)
    (p5_plS2 x w d0 (p5_colA 2 d0) (sub1 2 d0) (p5_sub1_colA 2 d0) (fun vx vw => k0_pay5 vx vw) Pays.pay5_apply (k0_off7 d0) h0 h1)) $$ [HA2 Hx Hw]
  · iframe HA2 Hx Hw
  iintro ⟨HA2, Hx, Hw⟩
  ihave HgQ := (Entails.of_eq (p5_sendG0 (F := F) d0 2 0)) $$ HgQ
  icases HgQ with ⟨HtQa, HrQa, HtQb, HrQb, HatQ⟩
  iapply (ev_send_handoff x w d0 2 0 (by decide) (n := 1360) (wd := 512) (off := sub1 2 d0) rfl rfl rfl (hA 2 d0) (Forms.off_9 d0) (Forms.off_9 d0) rfl rfl (Forms.dev_6 d0) rfl rfl rfl (O) rfl) $$ [HA2 HnA2 HO HtQa HrQa HtQb HrQb]
  · isplitl []; · iexact HIsQ
    isplitl []; · iexact HIrQ
    isplitl [HA2]; · iexact HA2
    isplitl [HnA2]; · iexact HnA2
    isplitl [HO]; · iexact HO
    isplitl [HtQa]; · iexact HtQa
    isplitl [HrQa]; · iexact HrQa
    isplitl [HtQb]; · iexact HtQb
    iexact HrQb
  iintro ⟨HcrQ, HO⟩
  iapply (wp_Lstg0 d0 (x d0)) $$ Hx; iintro Hx
  iapply (wp_Lstg1 d0 (w d0)) $$ Hw; iintro Hw
  iapply (wp_Lwb_owns d0 0 (sub2 0 d0) 512 (hB 0 d0) rfl (Forms.off_11 d0)) $$ HB0
  iintro %u HB0
  iapply (Idealize.SL.Sem.le_wp_ret _ _)
  isplitl []
  · ipureintro
    exact congrArg₂ k0_pay6 (Pays.rowsA_readAt x d0 ![0, 0] 0 rfl rfl _ _)
      (Pays.cols_readAt w d0 (k0_off10 d0) (p5_colB 0 d0) (by rw [Forms.off_10]; rfl)
        (by rw [Forms.off_10]; exact p5_sub2_colB 0 d0) _)
  isplitl [HcrP HatP]
  · iapply (Entails.of_eq (p5_sendG1 (F := F) d0 1 0).symm)
    iframe HcrP HatP
  isplitl [HcrQ HatQ]
  · iapply (Entails.of_eq (p5_sendG1 (F := F) d0 2 0).symm)
    iframe HcrQ HatQ
  iframe HB0 HO Hx Hw

theorem part8 (c : Dev nD) (κs κr : ℕ) (d0 : Dev nD) (hd : d0 = c) (v65 v68 v124 : BitVec 32)
    (v242 : FVec F S1368x512 .f32) (h242 : v242 = k0_pay6 (Vals.xrowsA x c 0 (by decide)) (Vals.wcols w c (p5_colB 0 c)))
    (v244 : Vec F S1x1368x512 .f32)
    (O : CellTallies nD τ sig Unit) (W : Waits sig Unit) :
    iprop(cellInv (ER (F := F)) (cubeRd x w) κs (sendCell c 0 1)
        ∗ cellInv (ER (F := F)) (cubeRd x w) κr (recvCell (peer 0 1 c) 0 1)
        ∗ ownsW (F := F) c 0 (sub2 0 c) 512 (hB 0 c)
        ∗ ownsW (F := F) (nb 0 0 c) 0 (sub2 0 c) 512 (hB 0 c)
        ∗ sendG (F := F) c 0 1 0
        ∗ ownsW (F := F) c 1 (sub2 1 c) 512 (hB 1 c)
        ∗ owes (c : Thread nD τ) (O + tallyAt (recvCell (peer 0 1 c) 0 1) () (credOf 0 1)) W
        ∗ (((c : Thread nD τ).loc cc0_stg0_0) ↦{fullShare} x c) ∗ (((c : Thread nD τ).loc cc0_stg1_0) ↦{fullShare} w c))
      ⊢ wp frame (wpE (defs₀ (F := F)) Variants.none (c : Thread nD τ) none) Set.univ
          (withBufs (k0_part8 (F := F)) d0 v65 v68 v124 v242 v244)
          (fun _ => iprop(sendG (F := F) c 0 1 1
            ∗ holdsW c 1 (sub2 1 c) 512 (hB 1 c) (fun r col => Vals.own x w 1 r col c)
            ∗ owes (c : Thread nD τ) O W
            ∗ (((c : Thread nD τ).loc cc0_stg0_0) ↦{fullShare} x c) ∗ (((c : Thread nD τ).loc cc0_stg1_0) ↦{fullShare} w c))) := by
  subst hd; subst h242
  iintro ⟨#HIsX, #HIrX, HB0, HnB0, Hg, HB1, HO, Hx, Hw⟩
  unfold withBufs; rw [k0_part8_eq_skeleton]; unfold k0_part8_skel
  iapply (wp_Swb d0 0 (sub2 0 d0) 512 (hB 0 d0) rfl (Forms.off_11 d0) (pl := k0_pay7 _)
    (fun r col => Vals.own x w 0 r col d0) (p5_pl7 x w d0)) $$ HB0
  iintro HB0
  ihave Hg := (Entails.of_eq (p5_sendG0 (F := F) d0 0 1)) $$ Hg
  icases Hg with ⟨HtXa, HrXa, HtXb, HrXb, HatX⟩
  iapply (ev_send_handoff x w d0 0 1 (by decide) (n := 1368) (wd := 512) (off := sub2 0 d0) rfl rfl rfl (hB 0 d0) (Forms.off_12 d0) (Forms.off_12 d0) rfl rfl (Forms.dev_7 d0) rfl rfl rfl (O) rfl) $$ [HB0 HnB0 HO HtXa HrXa HtXb HrXb]
  · isplitl []; · iexact HIsX
    isplitl []; · iexact HIrX
    isplitl [HB0]; · iexact HB0
    isplitl [HnB0]; · iexact HnB0
    isplitl [HO]; · iexact HO
    isplitl [HtXa]; · iexact HtXa
    isplitl [HrXa]; · iexact HrXa
    isplitl [HtXb]; · iexact HtXb
    iexact HrXb
  iintro ⟨HcrX, HO⟩
  have h0 : k0_off13 d0 0 = 0 := by rw [Forms.off_13]; rfl
  have h1 : k0_off13 d0 1 = sub2 1 d0 := by rw [Forms.off_13]; rfl
  iapply (ev_S1 d0 1 x w (sub2 1 d0) (hB 1 d0) rfl (ox := ![1368, 0]) (ow := k0_off13 d0) (Forms.off_14 d0)
    (pl := fun vx vw => k0_pay8 vx vw)
    (p5_plS1 x w d0 (p5_colB 1 d0) (sub2 1 d0) (p5_sub2_colB 1 d0) (fun vx vw => k0_pay8 vx vw) Pays.pay8_apply (k0_off13 d0) h0 h1)) $$ [HB1 Hx Hw]
  · iframe HB1 Hx Hw
  iintro ⟨HB1, Hx, Hw⟩
  iapply (Idealize.SL.Sem.le_wp_ret _ _)
  isplitl [HcrX HatX]
  · iapply (Entails.of_eq (p5_sendG1 (F := F) d0 0 1).symm)
    iframe HcrX HatX
  iframe HB1 HO Hx Hw

theorem part9 (c : Dev nD) (κs1 κr1 κs2 κr2 κw : ℕ) (d0 : Dev nD) (hd : d0 = c) (v79 v154 : BitVec 32)
    (O : CellTallies nD τ sig Unit) (W : Waits sig Unit)
    {L : GSem nD τ sig → Finset Unit} {lv : GSem nD τ sig → Unit → ℕ}
    (hmw : (levAts L lv : sProp 𝕄) ⊢ MayWait (c : Thread nD τ) (.dma (ssem 0 0)) () O) :
    iprop(cellInv (ER (F := F)) (cubeRd x w) κs1 (sendCell c 1 1)
        ∗ cellInv (ER (F := F)) (cubeRd x w) κr1 (recvCell (peer 1 1 c) 1 1)
        ∗ cellInv (ER (F := F)) (cubeRd x w) κs2 (sendCell c 2 1)
        ∗ cellInv (ER (F := F)) (cubeRd x w) κr2 (recvCell (peer 2 1 c) 2 1)
        ∗ cellInv (ER (F := F)) (cubeRd x w) κw (sendCell c 0 0)
        ∗ levAts L lv
        ∗ holdsW c 1 (sub2 1 c) 512 (hB 1 c) (fun r col => Vals.own x w 1 r col c)
        ∗ ownsW (F := F) (nb 1 0 c) 1 (sub2 1 c) 512 (hB 1 c)
        ∗ sendG (F := F) c 1 1 0
        ∗ ownsW (F := F) c 2 (sub2 2 c) 512 (hB 2 c)
        ∗ ownsW (F := F) (nb 2 0 c) 2 (sub2 2 c) 512 (hB 2 c)
        ∗ sendG (F := F) c 2 1 0
        ∗ sendG (F := F) c 0 0 1
        ∗ owes (c : Thread nD τ) (O + tallyAt (recvCell (peer 2 1 c) 2 1) () (credOf 2 1) + tallyAt (recvCell (peer 1 1 c) 1 1) () (credOf 1 1)) W
        ∗ (((c : Thread nD τ).loc cc0_stg0_0) ↦{fullShare} x c) ∗ (((c : Thread nD τ).loc cc0_stg1_0) ↦{fullShare} w c))
      ⊢ wp frame (wpE (defs₀ (F := F)) Variants.none (c : Thread nD τ) none) Set.univ
          (withBufs (k0_part9 (F := F)) d0 v79 v154)
          (fun _ => iprop(sendG (F := F) c 1 1 1
            ∗ sendG (F := F) c 2 1 1
            ∗ sendG (F := F) c 0 0 2
            ∗ owes (c : Thread nD τ) O (insert (SemLoc.dma (ssem 0 0), ()) W)
            ∗ (((c : Thread nD τ).loc cc0_stg0_0) ↦{fullShare} x c) ∗ (((c : Thread nD τ).loc cc0_stg1_0) ↦{fullShare} w c))) := by
  subst hd
  iintro ⟨#HIsP, #HIrP, #HIsQ, #HIrQ, #HIw, #Hlev, HB1, HnB1, HgP, HB2, HnB2, HgQ, HgW, HO, Hx, Hw⟩
  unfold withBufs; rw [k0_part9_eq_skeleton]; unfold k0_part9_skel
  ihave HgP := (Entails.of_eq (p5_sendG0 (F := F) d0 1 1)) $$ HgP
  icases HgP with ⟨HtPa, HrPa, HtPb, HrPb, HatP⟩
  iapply (ev_send_handoff x w d0 1 1 (by decide) (n := 1368) (wd := 512) (off := sub2 1 d0) rfl rfl rfl (hB 1 d0) (Forms.off_15 d0) (Forms.off_15 d0) rfl rfl (Forms.dev_8 d0) rfl rfl rfl (O + tallyAt (recvCell (peer 2 1 d0) 2 1) () (credOf 2 1)) rfl) $$ [HB1 HnB1 HO HtPa HrPa HtPb HrPb]
  · isplitl []; · iexact HIsP
    isplitl []; · iexact HIrP
    isplitl [HB1]; · iexact HB1
    isplitl [HnB1]; · iexact HnB1
    isplitl [HO]; · iexact HO
    isplitl [HtPa]; · iexact HtPa
    isplitl [HrPa]; · iexact HrPa
    isplitl [HtPb]; · iexact HtPb
    iexact HrPb
  iintro ⟨HcrP, HO⟩
  have h0 : k0_off16 d0 0 = 0 := by rw [Forms.off_16]; rfl
  have h1 : k0_off16 d0 1 = sub2 2 d0 := by rw [Forms.off_16]; rfl
  iapply (ev_S1 d0 2 x w (sub2 2 d0) (hB 2 d0) rfl (ox := ![2736, 0]) (ow := k0_off16 d0) (Forms.off_17 d0)
    (pl := fun vx vw => k0_pay9 vx vw)
    (p5_plS2 x w d0 (p5_colB 2 d0) (sub2 2 d0) (p5_sub2_colB 2 d0) (fun vx vw => k0_pay9 vx vw) Pays.pay9_apply (k0_off16 d0) h0 h1)) $$ [HB2 Hx Hw]
  · iframe HB2 Hx Hw
  iintro ⟨HB2, Hx, Hw⟩
  ihave HgQ := (Entails.of_eq (p5_sendG0 (F := F) d0 2 1)) $$ HgQ
  icases HgQ with ⟨HtQa, HrQa, HtQb, HrQb, HatQ⟩
  iapply (ev_send_handoff x w d0 2 1 (by decide) (n := 1360) (wd := 512) (off := sub2 2 d0) rfl rfl rfl (hB 2 d0) (Forms.off_18 d0) (Forms.off_18 d0) rfl rfl (Forms.dev_9 d0) rfl rfl rfl (O) rfl) $$ [HB2 HnB2 HO HtQa HrQa HtQb HrQb]
  · isplitl []; · iexact HIsQ
    isplitl []; · iexact HIrQ
    isplitl [HB2]; · iexact HB2
    isplitl [HnB2]; · iexact HnB2
    isplitl [HO]; · iexact HO
    isplitl [HtQa]; · iexact HtQa
    isplitl [HrQa]; · iexact HrQa
    isplitl [HtQb]; · iexact HtQb
    iexact HrQb
  iintro ⟨HcrQ, HO⟩
  ihave HgW := (Entails.of_eq (p5_sendG1 (F := F) d0 0 0)) $$ HgW
  icases HgW with ⟨HcrW, HatW⟩
  have hcr : ∀ (o : Fin 3 → ℕ) (hin : ∀ a, o a + S1x1368x512.size a ≤ S3x1368x2048.size a)
      (hsq : S1x1368x512.Squeezes S1368x512),
      ((wbM.slice (Rect.unit (s := S3x1368x2048) o S1x1368x512.size hin) (fun _ => rfl)).squeeze S1368x512 hsq).view.dmaCredit
        = credOf 0 0 := fun _ _ _ => rfl
  iapply (ev_wait_send x w d0 0 0 rfl (hcr _ _ _) hmw) $$ [HatW HcrW HO]
  · iframe HIw HatW HcrW HO Hlev
  iintro ⟨Hpay, HatW, HrW, HO⟩
  iclear Hpay
  iclear HrW
  iapply (Idealize.SL.Sem.le_wp_ret _ _)
  isplitl [HcrP HatP]
  · iapply (Entails.of_eq (p5_sendG1 (F := F) d0 1 1).symm)
    iframe HcrP HatP
  isplitl [HcrQ HatQ]
  · iapply (Entails.of_eq (p5_sendG1 (F := F) d0 2 1).symm)
    iframe HcrQ HatQ
  isplitl [HatW]
  · iapply (Entails.of_eq (p5_sendG2 (F := F) d0 0 0).symm)
    iexact HatW
  iframe HO Hx Hw

end Cert.Kernel.Body

end
-- ==== Proof.K.Parts10.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.EvSend
import proofs.«900802_g7700000000000803_dist_gemm_ar_m4096_k4096_n2048_f32_relu_v7x_i8_1_alg».proof.Proof.K.EvStore
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages

noncomputable section

namespace Cert.Kernel.Body

open Cert.Kernel Cert.Kernel.Gen Cert.Kernel.Spec Cert.Kernel.Reg Cert.Kernel.Proto
open Cert.Kernel.Tables Cert.Kernel.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv

local instance p10_i3 (c : Dev nD) : ClosedOff (k0_off3 c) := ⟨![0, 0, sub1 0 c], Forms.off_3 c⟩
local instance p10_i6 (c : Dev nD) : ClosedOff (k0_off6 c) := ⟨![1, 0, sub1 1 c], Forms.off_6 c⟩
local instance p10_i9 (c : Dev nD) : ClosedOff (k0_off9 c) := ⟨![2, 0, sub1 2 c], Forms.off_9 c⟩
local instance p10_i12 (c : Dev nD) : ClosedOff (k0_off12 c) := ⟨![0, 0, sub2 0 c], Forms.off_12 c⟩
local instance p10_i19 (c : Dev nD) : ClosedOff (k0_off19 c) := ⟨![0, 0, away1 0 c], Forms.off_19 c⟩
local instance p10_i20 (c : Dev nD) : ClosedOff (k0_off20 c) := ⟨![0, away1 0 c], Forms.off_20 c⟩
local instance p10_i21 (c : Dev nD) : ClosedOff (k0_off21 c) := ⟨![0, 0, away1 0 c], Forms.off_21 c⟩
local instance p10_i22 (c : Dev nD) : ClosedOff (k0_off22 c) := ⟨![1, 0, away1 1 c], Forms.off_22 c⟩
local instance p10_i23 (c : Dev nD) : ClosedOff (k0_off23 c) := ⟨![0, away1 1 c], Forms.off_23 c⟩
local instance p10_i24 (c : Dev nD) : ClosedOff (k0_off24 c) := ⟨![1, 0, away1 1 c], Forms.off_24 c⟩
local instance p10_i25 (c : Dev nD) : ClosedOff (k0_off25 c) := ⟨![2, 0, away1 2 c], Forms.off_25 c⟩
local instance p10_i26 (c : Dev nD) : ClosedOff (k0_off26 c) := ⟨![0, away1 2 c], Forms.off_26 c⟩
local instance p10_i27 (c : Dev nD) : ClosedOff (k0_off27 c) := ⟨![2, 0, away1 2 c], Forms.off_27 c⟩
local instance p10_i28 (c : Dev nD) : ClosedOff (k0_off28 c) := ⟨![0, 0, o2 0 c], Forms.off_28 c⟩
local instance p10_i29 (c : Dev nD) : ClosedOff (k0_off29 c) := ⟨![0, o2 0 c], Forms.off_29 c⟩

private theorem p10_colC (p : Fin 3) (c : Dev nD) : ∃ t : Fin 4, away1 p c = 512 * t.val := by revert p c; decide
private theorem p10_colD (p : Fin 3) (c : Dev nD) : ∃ t : Fin 4, o2 p c = 512 * t.val := by revert p c; decide

private theorem p10_recvPay0 (c : Dev nD) (p : Fin 3) :
    recvPay x w c p 0 = iprop(holdsW c p (away1 p c) 512 (hC p c) (fun r col => Vals.own x w p r col (nb p 0 c))
      ∗ ownsW (F := F) (nb p 0 c) p (away1 p c) 512 (hC p c)) :=
  (recvPay_own x w c p 0 (by decide)).trans
    (congrArg₂ (fun A B : sProp 𝕄 => iprop(A ∗ B)) (Pieces.holdsW_land0 c p _) (Pieces.ownsW_land0 (F := F) c p))

private theorem p10_recvPay1 (c : Dev nD) (p : Fin 3) :
    recvPay x w c p 1 = iprop(holdsW c p (o2 p c) 512 (hD p c) (fun r col => Vals.own x w p r col (nb p 0 c))
      ∗ ownsW (F := F) (nb p 0 c) p (o2 p c) 512 (hD p c)) :=
  (recvPay_own x w c p 1 (by decide)).trans
    (congrArg₂ (fun A B : sProp 𝕄 => iprop(A ∗ B)) (Pieces.holdsW_land1 c p _) (Pieces.ownsW_land1 (F := F) c p))

private theorem p10_hpl10 (c : Dev nD) (t : Fin 4) (ht : away1 0 c = 512 * t.val)
    {hbx : ∀ a, (![0, 0] : Fin 2 → ℕ) a + S1368x512.size a ≤ S4096x512.size a}
    {hbw : ∀ a, k0_off20 c a + S512x512.size a ≤ S512x2048.size a}
    (u : Vec F S1x1368x512 .f32) (y : S1x1368x512.Idx) :
    k0_pay10 u ((Memref.whole cc0_stg0_0 : Memref sig .tc .vmem S4096x512 .f32).view.readAt (Elt F)
          (Rect.unit (s := S4096x512) ![0, 0] S1368x512.size hbx).toLoadRect (x c))
        ((Memref.whole cc0_stg1_0 : Memref sig .tc .vmem S512x2048 .f32).view.readAt (Elt F)
          (Rect.unit (s := S512x2048) (k0_off20 c) S512x512.size hbw).toLoadRect (w c)) y
      = FloatOps.addf (u y) (Vals.own x w 0 (y 1).val (away1 0 c + (y 2).val) c) := by
  rw [Pays.pay10_apply, Pays.rowsA_readAt x c _ 0 rfl rfl _ (by decide),
    Pays.cols_readAt w c _ t (congrFun (Forms.off_20 c) 0) ((congrFun (Forms.off_20 c) 1).trans ht)]
  show FloatOps.addf (u y) (Vals.mmA _ _ (ix2 _ _)) = _
  rw [Pays.mmA_own0 x w c (by decide) t, ht]

private theorem p10_hpl11 (c : Dev nD) (t : Fin 4) (ht : away1 1 c = 512 * t.val)
    {hbx : ∀ a, (![1368, 0] : Fin 2 → ℕ) a + S1368x512.size a ≤ S4096x512.size a}
    {hbw : ∀ a, k0_off23 c a + S512x512.size a ≤ S512x2048.size a}
    (u : Vec F S1x1368x512 .f32) (y : S1x1368x512.Idx) :
    k0_pay11 u ((Memref.whole cc0_stg0_0 : Memref sig .tc .vmem S4096x512 .f32).view.readAt (Elt F)
          (Rect.unit (s := S4096x512) ![1368, 0] S1368x512.size hbx).toLoadRect (x c))
        ((Memref.whole cc0_stg1_0 : Memref sig .tc .vmem S512x2048 .f32).view.readAt (Elt F)
          (Rect.unit (s := S512x2048) (k0_off23 c) S512x512.size hbw).toLoadRect (w c)) y
      = FloatOps.addf (u y) (Vals.own x w 1 (y 1).val (away1 1 c + (y 2).val) c) := by
  rw [Pays.pay11_apply, Pays.rowsA_readAt x c _ 1368 rfl rfl _ (by decide),
    Pays.cols_readAt w c _ t (congrFun (Forms.off_23 c) 0) ((congrFun (Forms.off_23 c) 1).trans ht)]
  show FloatOps.addf (u y) (Vals.mmA _ _ (ix2 _ _)) = _
  rw [Pays.mmA_own1 x w c (by decide) t, ht]

private theorem p10_hpl14 (c : Dev nD) (t : Fin 4) (ht : o2 0 c = 512 * t.val)
    {hbx : ∀ a, (![0, 0] : Fin 2 → ℕ) a + S1368x512.size a ≤ S4096x512.size a}
    {hbw : ∀ a, k0_off29 c a + S512x512.size a ≤ S512x2048.size a}
    (u : Vec F S1x1368x512 .f32) (y : S1x1368x512.Idx) :
    k0_pay14 u ((Memref.whole cc0_stg0_0 : Memref sig .tc .vmem S4096x512 .f32).view.readAt (Elt F)
          (Rect.unit (s := S4096x512) ![0, 0] S1368x512.size hbx).toLoadRect (x c))
        ((Memref.whole cc0_stg1_0 : Memref sig .tc .vmem S512x2048 .f32).view.readAt (Elt F)
          (Rect.unit (s := S512x2048) (k0_off29 c) S512x512.size hbw).toLoadRect (w c)) y
      = FloatOps.addf (u y) (Vals.own x w 0 (y 1).val (o2 0 c + (y 2).val) c) := by
  rw [Pays.pay14_apply, Pays.rowsA_readAt x c _ 0 rfl rfl _ (by decide),
    Pays.cols_readAt w c _ t (congrFun (Forms.off_29 c) 0) ((congrFun (Forms.off_29 c) 1).trans ht)]
  show FloatOps.addf (u y) (Vals.mmA _ _ (ix2 _ _)) = _
  rw [Pays.mmA_own0 x w c (by decide) t, ht]

private theorem p10_hpl13 (c : Dev nD) (t : Fin 4) (ht : away1 2 c = 512 * t.val)
    {hbx : ∀ a, (![2736, 0] : Fin 2 → ℕ) a + S1360x512.size a ≤ S4096x512.size a}
    {hbw : ∀ a, k0_off26 c a + S512x512.size a ≤ S512x2048.size a}
    (u : Vec F S1x1360x512 .f32)
    (hu : ∀ y : S1x1360x512.Idx, u y = Vals.own x w 2 (y 1).val (away1 2 c + (y 2).val) (nb 2 0 c))
    (y : S1x1360x512.Idx) :
    k0_pay13 (k0_pay12 u) ((Memref.whole cc0_stg0_0 : Memref sig .tc .vmem S4096x512 .f32).view.readAt (Elt F)
          (Rect.unit (s := S4096x512) ![2736, 0] S1360x512.size hbx).toLoadRect (x c))
        ((Memref.whole cc0_stg1_0 : Memref sig .tc .vmem S512x2048 .f32).view.readAt (Elt F)
          (Rect.unit (s := S512x2048) (k0_off26 c) S512x512.size hbw).toLoadRect (w c)) y
      = Vals.st1 x w 2 (y 1).val (away1 2 c + (y 2).val) c := by
  rw [Pays.pay13_apply, Pays.rowsB_readAt x c _ rfl rfl _,
    Pays.cols_readAt w c _ t (congrFun (Forms.off_26 c) 0) ((congrFun (Forms.off_26 c) 1).trans ht), hu y]
  show FloatOps.addf _ (Vals.mmB _ _ (ix2 _ _)) = _
  rw [Pays.mmB_own2 x w c t, ht]
  all_goals rfl

theorem part10 (c : Dev nD) (κr κs κd : ℕ) (d0 : Dev nD) (hd : d0 = c) (v65 v68 v97 : BitVec 32)
    (O : CellTallies nD τ sig Unit) (W : Waits sig Unit) :
    iprop(cellInv (ER (F := F)) (cubeRd x w) κr (recvCell c 0 0) ∗ cellInv (ER (F := F)) (cubeRd x w) κs (sendCell c 0 2)
        ∗ cellInv (ER (F := F)) (cubeRd x w) κd (recvCell (peer 0 2 c) 0 2)
        ∗ recvG (F := F) c 0 0 0 ∗ sendG (F := F) c 0 2 0
        ∗ ownsR1 (F := F) (nb 0 1 c) 0
        ∗ owes (c : Thread nD τ) (O + tallyAt (recvCell (peer 0 2 c) 0 2) () (credOf 0 2)) W
        ∗ (((c : Thread nD τ).loc cc0_stg0_0) ↦{fullShare} x c) ∗ (((c : Thread nD τ).loc cc0_stg1_0) ↦{fullShare} w c)
        ∗ MayWait (c : Thread nD τ) (.dma (rsem 0 0)) () (O + tallyAt (recvCell (peer 0 2 c) 0 2) () (credOf 0 2)))
      ⊢ wp frame (wpE (defs₀ (F := F)) Variants.none (c : Thread nD τ) none) Set.univ
          (withBufs (k0_part10 (F := F)) d0 v65 v68 v97)
          (fun _ => iprop(recvG (F := F) c 0 0 1 ∗ sendG (F := F) c 0 2 1
            ∗ ownsW (F := F) (nb 0 0 c) 0 (away1 0 c) 512 (hC 0 c)
            ∗ owes (c : Thread nD τ) O (insert (SemLoc.dma (rsem 0 0), ()) W)
            ∗ (((c : Thread nD τ).loc cc0_stg0_0) ↦{fullShare} x c) ∗ (((c : Thread nD τ).loc cc0_stg1_0) ↦{fullShare} w c))) := by
  subst hd
  simp only [sendG, recvG]
  iintro ⟨#HIr, #HIs, #HId, ⟨Hcr, Hatr⟩, Hsg, HR1, HO, Hx, Hw, #Hmw⟩
  unfold withBufs; rw [k0_part10_eq_skeleton]; unfold k0_part10_skel
  sl_exec
  ihave Hp := (Entails.of_eq (p10_recvPay0 x w d0 0)) $$ Hatr_pay1
  icases Hp with ⟨Hh, Hn⟩
  obtain ⟨t, ht⟩ := p10_colC 0 d0
  iapply (ev_S2 d0 0 x w (away1 0 d0) (hC 0 d0) (fun r col => Vals.own x w 0 r col (nb 0 0 d0)) (hmW := rfl)
    (ho := Forms.off_19 d0) (pl := k0_pay10) (hpl := fun u y => p10_hpl10 x w d0 t ht u y)) $$ [Hh Hx Hw]
  · iframe Hh Hx Hw
  iintro ⟨Hh, Hx, Hw⟩
  icases Hsg with ⟨Ht1, Hr1, Ht2, Hr2, Hat2⟩
  iapply (ev_send_handoff_r1 x w d0 0 (hn := rfl) (hoff := rfl) (hC 0 d0) (ho := Forms.off_21 d0) (ho' := rfl)
    (hsrcE := rfl) (hdstE := rfl) (hc' := Forms.dev_10 d0) (hsS := rfl) (hsR := rfl) (hval := rfl) O rfl) $$ [Hh HR1 HO Ht1 Hr1 Ht2 Hr2]
  · isplitr [Hh HR1 HO Ht1 Hr1 Ht2 Hr2]; · iexact HIs
    isplitr [Hh HR1 HO Ht1 Hr1 Ht2 Hr2]; · iexact HId
    isplitl [Hh]; · iexact Hh
    isplitl [HR1]; · iexact HR1
    isplitl [HO]; · iexact HO
    isplitl [Ht1]; · iexact Ht1
    isplitl [Hr1]; · iexact Hr1
    isplitl [Ht2]; · iexact Ht2
    iexact Hr2
  iintro ⟨Hcs2, HO⟩
  iapply (le_wp_ret _ _ _ PUnit.unit _)
  iframe Hatr
  isplitl [Hcs2 Hat2]
  · iframe Hcs2 Hat2
  isplitl [Hn]; · iexact Hn
  isplitl [HO]; · iexact HO
  isplitl [Hx]; · iexact Hx
  iexact Hw

theorem part11 (c : Dev nD) (κs κr : ℕ) (d0 : Dev nD) (hd : d0 = c) (v68 v127 : BitVec 32)
    (O : CellTallies nD τ sig Unit) (W : Waits sig Unit) :
    iprop(cellInv (ER (F := F)) (cubeRd x w) κs (sendCell c 1 0) ∗ cellInv (ER (F := F)) (cubeRd x w) κr (recvCell c 1 0)
        ∗ sendG (F := F) c 1 0 1 ∗ recvG (F := F) c 1 0 0
        ∗ owes (c : Thread nD τ) O W
        ∗ (((c : Thread nD τ).loc cc0_stg0_0) ↦{fullShare} x c) ∗ (((c : Thread nD τ).loc cc0_stg1_0) ↦{fullShare} w c)
        ∗ MayWait (c : Thread nD τ) (.dma (ssem 1 0)) () (O) ∗ MayWait (c : Thread nD τ) (.dma (rsem 1 0)) () (O))
      ⊢ wp frame (wpE (defs₀ (F := F)) Variants.none (c : Thread nD τ) none) Set.univ
          (withBufs (k0_part11 (F := F)) d0 v68 v127)
          (fun _ => iprop(sendG (F := F) c 1 0 2 ∗ recvG (F := F) c 1 0 1
            ∗ holdsW c 1 (away1 1 c) 512 (hC 1 c) (fun r col => Vals.st1 x w 1 r col c)
            ∗ ownsW (F := F) (nb 1 0 c) 1 (away1 1 c) 512 (hC 1 c)
            ∗ owes (c : Thread nD τ) O (insert (SemLoc.dma (rsem 1 0), ()) (insert (SemLoc.dma (ssem 1 0), ()) W))
            ∗ (((c : Thread nD τ).loc cc0_stg0_0) ↦{fullShare} x c) ∗ (((c : Thread nD τ).loc cc0_stg1_0) ↦{fullShare} w c))) := by
  subst hd
  simp only [sendG, recvG]
  iintro ⟨#HIs, #HIr, ⟨Hcs, Hats⟩, ⟨Hcr, Hatr⟩, HO, Hx, Hw, #Hmws, #Hmwr⟩
  unfold withBufs; rw [k0_part11_eq_skeleton]; unfold k0_part11_skel
  sl_exec
  ihave Hp := (Entails.of_eq (p10_recvPay0 x w d0 1)) $$ Hatr_pay1
  icases Hp with ⟨Hh, Hn⟩
  obtain ⟨t, ht⟩ := p10_colC 1 d0
  iapply (ev_S2 d0 1 x w (away1 1 d0) (hC 1 d0) (fun r col => Vals.own x w 1 r col (nb 1 0 d0)) (hmW := rfl)
    (ho := Forms.off_22 d0) (pl := k0_pay11) (hpl := fun u y => p10_hpl11 x w d0 t ht u y)) $$ [Hh Hx Hw]
  · iframe Hh Hx Hw
  iintro ⟨Hh, Hx, Hw⟩
  iapply (le_wp_ret _ _ _ PUnit.unit _)
  isplitl [Hats]; · iexact Hats
  isplitl [Hatr]; · iexact Hatr
  isplitl [Hh]; · iexact Hh
  isplitl [Hn]; · iexact Hn
  isplitl [HO]; · iexact HO
  isplitl [Hx]; · iexact Hx
  iexact Hw

theorem part12 (c : Dev nD) (κs2 κd2 κs κr : ℕ) (d0 : Dev nD) (hd : d0 = c) (v79 v157 : BitVec 32)
    (O : CellTallies nD τ sig Unit) (W : Waits sig Unit) :
    iprop(cellInv (ER (F := F)) (cubeRd x w) κs2 (sendCell c 1 2) ∗ cellInv (ER (F := F)) (cubeRd x w) κd2 (recvCell (peer 1 2 c) 1 2)
        ∗ cellInv (ER (F := F)) (cubeRd x w) κs (sendCell c 2 0) ∗ cellInv (ER (F := F)) (cubeRd x w) κr (recvCell c 2 0)
        ∗ sendG (F := F) c 1 2 0 ∗ sendG (F := F) c 2 0 1 ∗ recvG (F := F) c 2 0 0
        ∗ holdsW c 1 (away1 1 c) 512 (hC 1 c) (fun r col => Vals.st1 x w 1 r col c)
        ∗ ownsR1 (F := F) (nb 1 1 c) 1
        ∗ owes (c : Thread nD τ) (O + tallyAt (recvCell (peer 1 2 c) 1 2) () (credOf 1 2)) W
        ∗ MayWait (c : Thread nD τ) (.dma (ssem 2 0)) () (O) ∗ MayWait (c : Thread nD τ) (.dma (rsem 2 0)) () (O))
      ⊢ wp frame (wpE (defs₀ (F := F)) Variants.none (c : Thread nD τ) none) Set.univ
          (withBufs (k0_part12 (F := F)) d0 v79 v157)
          (fun res => iprop(⌜∃ u : Vec F S1x1360x512 .f32, res = k0_pay12 u
                ∧ ∀ y : S1x1360x512.Idx, u y = Vals.own x w 2 (y 1).val (away1 2 c + (y 2).val) (nb 2 0 c)⌝
            ∗ sendG (F := F) c 1 2 1 ∗ sendG (F := F) c 2 0 2 ∗ recvG (F := F) c 2 0 1
            ∗ holdsW c 2 (away1 2 c) 512 (hC 2 c) (fun r col => Vals.own x w 2 r col (nb 2 0 c))
            ∗ ownsW (F := F) (nb 2 0 c) 2 (away1 2 c) 512 (hC 2 c)
            ∗ owes (c : Thread nD τ) O (insert (SemLoc.dma (rsem 2 0), ()) (insert (SemLoc.dma (ssem 2 0), ()) W)))) := by
  subst hd
  simp only [sendG, recvG]
  iintro ⟨#HIs2, #HId2, #HIs, #HIr, Hsg, ⟨Hcs, Hats⟩, ⟨Hcr, Hatr⟩, Hh, HR1, HO, #Hmws, #Hmwr⟩
  unfold withBufs; rw [k0_part12_eq_skeleton]; unfold k0_part12_skel
  icases Hsg with ⟨Ht1, Hr1, Ht2, Hr2, Hat2⟩
  iapply (ev_send_handoff_r1 x w d0 1 (hn := rfl) (hoff := rfl) (hC 1 d0) (ho := Forms.off_24 d0) (ho' := rfl)
    (hsrcE := rfl) (hdstE := rfl) (hc' := Forms.dev_11 d0) (hsS := rfl) (hsR := rfl) (hval := rfl) O rfl) $$ [Hh HR1 HO Ht1 Hr1 Ht2 Hr2]
  · isplitr [Hh HR1 HO Ht1 Hr1 Ht2 Hr2]; · iexact HIs2
    isplitr [Hh HR1 HO Ht1 Hr1 Ht2 Hr2]; · iexact HId2
    isplitl [Hh]; · iexact Hh
    isplitl [HR1]; · iexact HR1
    isplitl [HO]; · iexact HO
    isplitl [Ht1]; · iexact Ht1
    isplitl [Hr1]; · iexact Hr1
    isplitl [Ht2]; · iexact Ht2
    iexact Hr2
  iintro ⟨Hcs2, HO⟩
  iapply (ev_wait_send_mw x w d0 2 0 rfl rfl) $$ [Hats Hcs HO]
  · isplitr [Hats Hcs HO]; · iexact HIs
    iframe Hats Hcs HO Hmws
  iintro ⟨Hsp_20, Hats, Hrs_20, HO⟩
  iapply (ev_wait_recv_mw x w d0 2 0 rfl rfl) $$ [Hatr Hcr HO]
  · isplitr [Hatr Hcr HO]; · iexact HIr
    iframe Hatr Hcr HO Hmwr
  iintro ⟨Hrp_20, Hatr, Hrr_20, HO⟩
  ihave Hp := (Entails.of_eq (p10_recvPay0 x w d0 2)) $$ Hrp_20
  icases Hp with ⟨Hh2, Hn⟩
  iapply (wp_Lwb d0 2 (away1 2 d0) 512 (hC 2 d0) (hmW := rfl) (ho := Forms.off_25 d0)
    (fun r col => Vals.own x w 2 r col (nb 2 0 d0))) $$ [Hh2]
  · iexact Hh2
  iintro %u %hu Hh2
  iapply (le_wp_ret _ _ _ (k0_pay12 u) _)
  isplitr [Hcs2 Hat2 Hats Hatr Hh2 Hn HO]
  · ipureintro; exact ⟨u, rfl, hu⟩
  isplitl [Hcs2 Hat2]
  · iframe Hcs2 Hat2
  iframe Hats Hatr Hh2 Hn HO

theorem part13 (c : Dev nD) (κs2 κd2 κs : ℕ) (d0 : Dev nD) (hd : d0 = c) (v65 v157 : BitVec 32)
    (v389 : FVec F S1360x512 .f32) (u : Vec F S1x1360x512 .f32) (h389 : v389 = k0_pay12 u)
    (hu : ∀ y : S1x1360x512.Idx, u y = Vals.own x w 2 (y 1).val (away1 2 c + (y 2).val) (nb 2 0 c))
    (O : CellTallies nD τ sig Unit) (W : Waits sig Unit) :
    iprop(cellInv (ER (F := F)) (cubeRd x w) κs2 (sendCell c 2 2) ∗ cellInv (ER (F := F)) (cubeRd x w) κd2 (recvCell (peer 2 2 c) 2 2)
        ∗ cellInv (ER (F := F)) (cubeRd x w) κs (sendCell c 0 1)
        ∗ sendG (F := F) c 2 2 0 ∗ sendG (F := F) c 0 1 1
        ∗ holdsW c 2 (away1 2 c) 512 (hC 2 c) (fun r col => Vals.own x w 2 r col (nb 2 0 c))
        ∗ ownsR1 (F := F) (nb 2 1 c) 2
        ∗ owes (c : Thread nD τ) (O + tallyAt (recvCell (peer 2 2 c) 2 2) () (credOf 2 2)) W
        ∗ (((c : Thread nD τ).loc cc0_stg0_0) ↦{fullShare} x c) ∗ (((c : Thread nD τ).loc cc0_stg1_0) ↦{fullShare} w c)
        ∗ MayWait (c : Thread nD τ) (.dma (ssem 0 1)) () (O))
      ⊢ wp frame (wpE (defs₀ (F := F)) Variants.none (c : Thread nD τ) none) Set.univ
          (withBufs (k0_part13 (F := F)) d0 v65 v157 v389)
          (fun _ => iprop(sendG (F := F) c 2 2 1 ∗ sendG (F := F) c 0 1 2
            ∗ owes (c : Thread nD τ) O (insert (SemLoc.dma (ssem 0 1), ()) W)
            ∗ (((c : Thread nD τ).loc cc0_stg0_0) ↦{fullShare} x c) ∗ (((c : Thread nD τ).loc cc0_stg1_0) ↦{fullShare} w c))) := by
  subst hd; subst h389
  simp only [sendG]
  iintro ⟨#HIs2, #HId2, #HIs, Hsg, ⟨Hcs, Hats⟩, Hh, HR1, HO, Hx, Hw, #Hmws⟩
  unfold withBufs; rw [k0_part13_eq_skeleton]; unfold k0_part13_skel
  iapply (wp_Lstg0 d0 (x d0)) $$ [Hx]
  · iexact Hx
  iintro Hx
  iapply (wp_Lstg1 d0 (w d0)) $$ [Hw]
  · iexact Hw
  iintro Hw
  iapply (wp_Lwb d0 2 (away1 2 d0) 512 (hC 2 d0) (hmW := rfl) (ho := Forms.off_25 d0)
    (fun r col => Vals.own x w 2 r col (nb 2 0 d0))) $$ [Hh]
  · iexact Hh
  iintro %u' %hu' Hh
  ihave Hown := (holdsW_owns d0 2 (away1 2 d0) 512 (hC 2 d0) _) $$ Hh
  obtain ⟨t, ht⟩ := p10_colC 2 d0
  iapply (wp_Swb d0 2 (away1 2 d0) 512 (hC 2 d0) (hmW := rfl) (ho := Forms.off_25 d0)
    (fun r col => Vals.st1 x w 2 r col d0) (hpl := fun y => p10_hpl13 x w d0 t ht u hu y)) $$ [Hown]
  · iexact Hown
  iintro Hh
  icases Hsg with ⟨Ht1, Hr1, Ht2, Hr2, Hat2⟩
  iapply (ev_send_handoff_r1 x w d0 2 (hn := rfl) (hoff := rfl) (hC 2 d0) (ho := Forms.off_27 d0) (ho' := rfl)
    (hsrcE := rfl) (hdstE := rfl) (hc' := Forms.dev_12 d0) (hsS := rfl) (hsR := rfl) (hval := rfl) O rfl) $$ [Hh HR1 HO Ht1 Hr1 Ht2 Hr2]
  · isplitr [Hh HR1 HO Ht1 Hr1 Ht2 Hr2]; · iexact HIs2
    isplitr [Hh HR1 HO Ht1 Hr1 Ht2 Hr2]; · iexact HId2
    isplitl [Hh]; · iexact Hh
    isplitl [HR1]; · iexact HR1
    isplitl [HO]; · iexact HO
    isplitl [Ht1]; · iexact Ht1
    isplitl [Hr1]; · iexact Hr1
    isplitl [Ht2]; · iexact Ht2
    iexact Hr2
  iintro ⟨Hcs2, HO⟩
  iapply (ev_wait_send_mw x w d0 0 1 rfl rfl) $$ [Hats Hcs HO]
  · isplitr [Hats Hcs HO]; · iexact HIs
    iframe Hats Hcs HO Hmws
  iintro ⟨Hsp_01, Hats, Hrs_01, HO⟩
  iapply (le_wp_ret _ _ _ PUnit.unit _)
  isplitl [Hcs2 Hat2]
  · iframe Hcs2 Hat2
  iframe Hats HO Hx Hw

theorem part14 (c : Dev nD) (κr κs : ℕ) (d0 : Dev nD) (hd : d0 = c) (v65 v99 : BitVec 32)
    (O : CellTallies nD τ sig Unit) (W : Waits sig Unit) :
    iprop(cellInv (ER (F := F)) (cubeRd x w) κr (recvCell c 0 1) ∗ cellInv (ER (F := F)) (cubeRd x w) κs (sendCell c 0 2)
        ∗ recvG (F := F) c 0 1 0 ∗ sendG (F := F) c 0 2 1
        ∗ owes (c : Thread nD τ) O W
        ∗ (((c : Thread nD τ).loc cc0_stg0_0) ↦{fullShare} x c) ∗ (((c : Thread nD τ).loc cc0_stg1_0) ↦{fullShare} w c)
        ∗ MayWait (c : Thread nD τ) (.dma (rsem 0 1)) () (O) ∗ MayWait (c : Thread nD τ) (.dma (ssem 0 2)) () (O))
      ⊢ wp frame (wpE (defs₀ (F := F)) Variants.none (c : Thread nD τ) none) Set.univ
          (withBufs (k0_part14 (F := F)) d0 v65 v99)
          (fun _ => iprop(recvG (F := F) c 0 1 1 ∗ sendG (F := F) c 0 2 2
            ∗ holdsW c 0 (o2 0 c) 512 (hD 0 c) (fun r col => Vals.st1 x w 0 r col c)
            ∗ ownsW (F := F) (nb 0 0 c) 0 (o2 0 c) 512 (hD 0 c)
            ∗ owes (c : Thread nD τ) O (insert (SemLoc.dma (ssem 0 2), ()) (insert (SemLoc.dma (rsem 0 1), ()) W))
            ∗ (((c : Thread nD τ).loc cc0_stg0_0) ↦{fullShare} x c) ∗ (((c : Thread nD τ).loc cc0_stg1_0) ↦{fullShare} w c))) := by
  subst hd
  simp only [sendG, recvG]
  iintro ⟨#HIr, #HIs, ⟨Hcr, Hatr⟩, ⟨Hcs, Hats⟩, HO, Hx, Hw, #Hmwr, #Hmws⟩
  unfold withBufs; rw [k0_part14_eq_skeleton]; unfold k0_part14_skel
  sl_exec
  ihave Hp := (Entails.of_eq (p10_recvPay1 x w d0 0)) $$ Hatr_pay1
  icases Hp with ⟨Hh, Hn⟩
  obtain ⟨t, ht⟩ := p10_colD 0 d0
  iapply (ev_S2 d0 0 x w (o2 0 d0) (hD 0 d0) (fun r col => Vals.own x w 0 r col (nb 0 0 d0)) (hmW := rfl)
    (ho := Forms.off_28 d0) (pl := k0_pay14) (hpl := fun u y => p10_hpl14 x w d0 t ht u y)) $$ [Hh Hx Hw]
  · iframe Hh Hx Hw
  iintro ⟨Hh, Hx, Hw⟩
  iapply (ev_wait_send_mw x w d0 0 2 rfl rfl) $$ [Hats Hcs HO]
  · isplitr [Hats Hcs HO]; · iexact HIs
    iframe Hats Hcs HO Hmws
  iintro ⟨Hsp_02, Hats, Hrs_02, HO⟩
  iapply (le_wp_ret _ _ _ PUnit.unit _)
  isplitl [Hatr]; · iexact Hatr
  isplitl [Hats]; · iexact Hats
  isplitl [Hh]; · iexact Hh
  isplitl [Hn]; · iexact Hn
  isplitl [HO]; · iexact HO
  isplitl [Hx]; · iexact Hx
  iexact Hw

end Cert.Kernel.Body

end
-- ==== Proof.K.Parts15.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.EvSend
import proofs.«900802_g7700000000000803_dist_gemm_ar_m4096_k4096_n2048_f32_relu_v7x_i8_1_alg».proof.Proof.K.EvStore
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages

noncomputable section

namespace Cert.Kernel.Body

open Cert.Kernel Cert.Kernel.Gen Cert.Kernel.Spec Cert.Kernel.Reg Cert.Kernel.Proto
open Cert.Kernel.Tables Cert.Kernel.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

private theorem p15_sendG0 (c : Dev nD) (p : Fin 3) (i : Fin 10) :
    sendG (F := F) c p i 0 = iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
private theorem p15_sendG1 (c : Dev nD) (p : Fin 3) (i : Fin 10) :
    sendG (F := F) c p i 1 = iprop(cred (tallyAt (sendCell c p i) () (credOf p i)) ∗ atPos ER (sendCell c p i) 0 ∅ 0) := rfl
private theorem p15_sendG2 (c : Dev nD) (p : Fin 3) (i : Fin 10) :
    sendG (F := F) c p i 2 = atPos ER (sendCell c p i) 1 ∅ 0 := rfl
private theorem p15_recvG0 (c : Dev nD) (p : Fin 3) (i : Fin 10) :
    recvG (F := F) c p i 0 = iprop(cred (tallyAt (recvCell c p i) () (credOf p i)) ∗ atPos ER (recvCell c p i) 0 ∅ 0) := rfl
private theorem p15_recvG1 (c : Dev nD) (p : Fin 3) (i : Fin 10) :
    recvG (F := F) c p i 1 = atPos ER (recvCell c p i) 1 ∅ 0 := rfl

private theorem p15_o2_block (p : Fin 3) (c : Dev nD) : ∃ t : Fin 4, o2 p c = 512 * t.val := by revert p c; decide

private theorem p15_recvPay1 (c : Dev nD) (p : Fin 3) :
    recvPay x w c p 1 = iprop(holdsW c p (o2 p c) 512 (hD p c) (fun r col => Vals.own x w p r col (nb p 0 c))
      ∗ ownsW (nb p 0 c) p (o2 p c) 512 (hD p c)) := by
  show iprop(holdsW c p (srcOff p 1 (peer p 1 c)) 512 (inb_src p 1 (peer p 1 c)) (fun r col => Vals.own x w p r col (peer p 1 c))
      ∗ ownsW (peer p 1 c) p (srcOff p 1 (peer p 1 c)) 512 (inb_src p 1 (peer p 1 c))) = _
  rw [Pieces.holdsW_land1, Pieces.ownsW_land1]
  rfl
private theorem p15_recvPay2 (c : Dev nD) (p : Fin 3) :
    recvPay x w c p 2 = iprop(holdsR1 c p (o2 p c) (fun r col => Vals.st1 x w p r col (nb p 1 c))
      ∗ ownsW (nb p 1 c) p (o2 p c) 512 (hD p c)) := by
  rw [recvPay_r1, Pieces.holdsR1_land2, Pieces.ownsW_land2]
  rfl

private theorem p15_hq3 (p : Fin 3) (c : Dev nD) : Inb3 512 p.val (rowLen p) (o3 p c - o2 p c) 256 := by revert p c; decide
private theorem p15_hq2 (p : Fin 3) (c : Dev nD) : Inb3 512 p.val (rowLen p) (away2 p c - o2 p c) 256 := by revert p c; decide
private theorem p15_le3 (p : Fin 3) (c : Dev nD) : o2 p c ≤ o3 p c := by revert p c; decide
private theorem p15_le2 (p : Fin 3) (c : Dev nD) : o2 p c ≤ away2 p c := by revert p c; decide

private theorem p15_Swb (c : Dev nD) (p : Fin 3) (off wd : ℕ) (h : Inb3 2048 p.val (rowLen p) off wd)
    {mW : Memref sig .tc .vmem S3x1368x2048 .f32} (hmW : mW = wbM)
    {o : Fin 3 → ℕ} (ho : o = ![p.val, 0, off])
    {hb : ∀ a, o a + (![1, rowLen p, wd] : Fin 3 → ℕ) a ≤ S3x1368x2048.size a}
    {pl : (⟨3, ![1, rowLen p, wd]⟩ : Shape).Idx → Elt F .f32} (val : ℕ → ℕ → F .f32)
    (hpl : ∀ y, pl y = val (y 1).val (off + (y 2).val))
    {hx : (mW.access (Rect.unit (s := S3x1368x2048) o ![1, rowLen p, wd] hb)).Stores Finset.univ}
    {hm : (Finset.univ : Finset (Rect.unit (s := S3x1368x2048) o ![1, rowLen p, wd] hb).shape.Idx) = Finset.univ ∨ ∀ a, (Rect.unit (s := S3x1368x2048) o ![1, rowLen p, wd] hb).stride a = 1}
    {α : Type} {k : PUnit → Prog (TpuEff nD τ sig (Elt F) Λ₀ .tc) α} {Q : α → sProp 𝕄} :
    ownsW (F := F) c p off wd h
      ⊢ iprop((holdsW c p off wd h val -∗ wp frame (wpE (defs₀ (F := F)) Variants.none c none) Set.univ (k ⟨⟩) Q)
        -∗ wp frame (wpE (defs₀ (F := F)) Variants.none c none) Set.univ
            (.op (.store mW (Rect.unit (s := S3x1368x2048) o ![1, rowLen p, wd] hb) pl Finset.univ hx hm) k) Q) := by
  subst hmW; subst ho
  unfold ownsW holdsW
  iintro ⟨%f, Hf⟩ Hk
  iapply (wp_store Variants.none (c : Thread nD τ) none Set.univ (m := wbM) (r := wbRect p.val (rowLen p) off wd h) (Mk := Finset.univ) (S := wbReg c p.val (rowLen p) off wd h) (Finset.Subset.refl _)) $$ Hf
  iintro Hf
  iapply Hk
  iexists _; isplitl
  · iexact Hf
  ipureintro
  intro y
  exact (View.read_write_of_mem (v := wbM.access (wbRect p.val (rowLen p) off wd h)) f pl (Finset.mem_univ y)).trans (hpl y)

theorem part15 (c : Dev nD) (κr κs κq : ℕ) (d0 : Dev nD) (hd : d0 = c)
    (v68 v79 v99 v104 v108 : BitVec 32)
    (O : CellTallies nD τ sig Unit) (W : Waits sig Unit) :
    iprop(cellInv (ER (F := F)) (cubeRd x w) κr (recvCell c 0 2)
        ∗ cellInv (ER (F := F)) (cubeRd x w) κs (sendCell c 0 3)
        ∗ cellInv (ER (F := F)) (cubeRd x w) κq (recvCell (peer 0 3 c) 0 3)
        ∗ MayWait (c : Thread nD τ) (.dma (rsem 0 2)) () (O + tallyAt (recvCell (peer 0 3 c) 0 3) () (credOf 0 3))
        ∗ recvG (F := F) c 0 2 0 ∗ sendG (F := F) c 0 3 0
        ∗ holdsW c 0 (o2 0 c) 512 (hD 0 c) (fun r col => Vals.st1 x w 0 r col c)
        ∗ ownsR2 (F := F) (nb 0 2 c) 0
        ∗ owes (c : Thread nD τ) (O + tallyAt (recvCell (peer 0 3 c) 0 3) () (credOf 0 3)) W)
      ⊢ wp frame (wpE (defs₀ (F := F)) Variants.none (c : Thread nD τ) none) Set.univ
          (withBufs (k0_part15 (F := F)) d0 v68 v79 v99 v104 v108)
          (fun res => iprop(⌜∀ y : S1x1368x256.Idx, res y = Vals.st1 x w 0 (y 1).val (o3 0 c + (y 2).val) c⌝
            ∗ recvG (F := F) c 0 2 1 ∗ sendG (F := F) c 0 3 1
            ∗ holdsR1 c 0 (o2 0 c) (fun r col => Vals.st1 x w 0 r col (nb 0 1 c))
            ∗ ownsW (F := F) (nb 0 1 c) 0 (o2 0 c) 512 (hD 0 c)
            ∗ holdsW c 0 (o3 0 c) 256 (hG 0 c) (fun r col => Vals.st1 x w 0 r col c)
            ∗ owes (c : Thread nD τ) O (insert (SemLoc.dma (rsem 0 2), ()) W))) := by
  subst hd
  rw [p15_recvG0, p15_recvG1, p15_sendG0, p15_sendG1]
  iintro ⟨#HIr, #HIs, #HIq, #Hmwr, ⟨Hcr, Hatr⟩, ⟨Hts, Hrs, Htr, Hrr, Hats⟩, Hd, HR2, HO⟩
  unfold withBufs; rw [k0_part15_eq_skeleton]; unfold k0_part15_skel
  iapply (ev_wait_recv_mw x w d0 0 2 rfl rfl) $$ [Hatr Hcr HO]
  · iframe HIr Hatr Hcr HO Hmwr
  rw [p15_recvPay2]
  iintro ⟨⟨HR, Hn⟩, Hatr, #Hrr1, HO⟩
  ihave HD := (Pieces.holdsW_D d0 0 (fun r col => Vals.st1 x w 0 r col d0)).1 $$ Hd
  icases HD with ⟨HE, HG⟩
  iapply (wp_Lwb d0 0 (away2 0 d0) 256 (hE 0 d0) rfl (Forms.off_30 d0) (fun r col => Vals.st1 x w 0 r col d0)) $$ HE
  iintro %a %ha HE
  iapply (wp_Lr1 d0 0 (o2 0 d0) (away2 0 d0 - o2 0 d0) (p15_hq2 0 d0) (fun r col => Vals.st1 x w 0 r col (nb 0 1 d0)) rfl (Forms.off_31 d0)) $$ HR
  iintro %b %hb HR
  iapply (wp_Lwb d0 0 (away2 0 d0) 256 (hE 0 d0) rfl (Forms.off_30 d0) (fun r col => Vals.st1 x w 0 r col d0)) $$ HE
  iintro %a' %ha' HE
  ihave HE := (holdsW_owns d0 0 (away2 0 d0) 256 (hE 0 d0) (fun r col => Vals.st1 x w 0 r col d0)) $$ HE
  have hplE : ∀ y : S1x1368x256.Idx, k0_pay15 a b y = Vals.st2 x w 0 (y 1).val (away2 0 d0 + (y 2).val) d0 := by
    intro y
    refine (Pays.pay15_apply a b y).trans ?_
    rw [ha y, hb y, show o2 0 d0 + (away2 0 d0 - o2 0 d0 + (y 2).val) = away2 0 d0 + (y 2).val from by have := p15_le2 0 d0; omega]
    rfl
  iapply (p15_Swb d0 0 (away2 0 d0) 256 (hE 0 d0) rfl (Forms.off_30 d0) (fun r col => Vals.st2 x w 0 r col d0) hplE) $$ HE
  iintro HE
  iapply (ev_send_handoff_r2 x w d0 0 rfl rfl (hE 0 d0) (Forms.off_32 d0) rfl rfl rfl (Forms.dev_13 d0) rfl rfl rfl O rfl) $$ [HE HR2 HO Hts Hrs Htr Hrr]
  · isplitl []; · iexact HIs
    isplitl []; · iexact HIq
    isplitl [HE]; · iexact HE
    isplitl [HR2]; · iexact HR2
    isplitl [HO]; · iexact HO
    isplitl [Hts]; · iexact Hts
    isplitl [Hrs]; · iexact Hrs
    isplitl [Htr]; · iexact Htr
    iexact Hrr
  iintro ⟨Hcs, HO⟩
  iapply (wp_Lwb d0 0 (o3 0 d0) 256 (hG 0 d0) rfl (Forms.off_33 d0) (fun r col => Vals.st1 x w 0 r col d0)) $$ HG
  iintro %g %hg HG
  iapply (le_wp_ret (Fr := Idealize.ShloMosaic.frame) (wpE := wpE (defs₀ (F := F)) Variants.none (d0 : Thread nD τ) none) (E := Set.univ) _ _)
  isplitl []; · ipureintro; exact hg
  iframe Hatr
  isplitl [Hcs Hats]
  · iframe Hcs Hats
  iframe HR Hn HG HO

theorem part16 (c : Dev nD) (κs κr : ℕ) (d0 : Dev nD) (hd : d0 = c)
    (v68 v99 v108 v129 : BitVec 32)
    (v476 : Vec F S1x1368x256 .f32) (h476 : ∀ y : S1x1368x256.Idx, v476 y = Vals.st1 x w 0 (y 1).val (o3 0 c + (y 2).val) c)
    (O : CellTallies nD τ sig Unit) (W : Waits sig Unit) :
    iprop(cellInv (ER (F := F)) (cubeRd x w) κs (sendCell c 1 1)
        ∗ cellInv (ER (F := F)) (cubeRd x w) κr (recvCell c 1 1)
        ∗ MayWait (c : Thread nD τ) (.dma (ssem 1 1)) () O
        ∗ MayWait (c : Thread nD τ) (.dma (rsem 1 1)) () O
        ∗ sendG (F := F) c 1 1 1 ∗ recvG (F := F) c 1 1 0
        ∗ holdsW c 0 (o3 0 c) 256 (hG 0 c) (fun r col => Vals.st1 x w 0 r col c)
        ∗ holdsR1 c 0 (o2 0 c) (fun r col => Vals.st1 x w 0 r col (nb 0 1 c))
        ∗ (((c : Thread nD τ).loc cc0_stg0_0) ↦{fullShare} x c)
        ∗ owes (c : Thread nD τ) O W)
      ⊢ wp frame (wpE (defs₀ (F := F)) Variants.none (c : Thread nD τ) none) Set.univ
          (withBufs (k0_part16 (F := F)) d0 v68 v99 v108 v129 v476)
          (fun res => iprop(⌜∃ u : Vec F S1x1368x512 .f32, res.1 = k0_pay17 u
                ∧ ∀ y : S1x1368x512.Idx, u y = Vals.own x w 1 (y 1).val (o2 1 c + (y 2).val) (nb 1 0 c)⌝
            ∗ ⌜res.2 = k0_pay18 (Vals.xrowsA x c 1368 (by decide))⌝
            ∗ sendG (F := F) c 1 1 2 ∗ recvG (F := F) c 1 1 1
            ∗ holdsW c 0 (o3 0 c) 256 (hG 0 c) (fun r col => Vals.st2 x w 0 r col c)
            ∗ holdsR1 c 0 (o2 0 c) (fun r col => Vals.st1 x w 0 r col (nb 0 1 c))
            ∗ holdsW c 1 (o2 1 c) 512 (hD 1 c) (fun r col => Vals.own x w 1 r col (nb 1 0 c))
            ∗ ownsW (F := F) (nb 1 0 c) 1 (o2 1 c) 512 (hD 1 c)
            ∗ (((c : Thread nD τ).loc cc0_stg0_0) ↦{fullShare} x c)
            ∗ owes (c : Thread nD τ) O (insert (SemLoc.dma (rsem 1 1), ()) (insert (SemLoc.dma (ssem 1 1), ()) W)))) := by
  subst hd
  rw [p15_sendG1, p15_recvG0, p15_sendG2, p15_recvG1]
  iintro ⟨#HIs, #HIr, #Hmws, #Hmwr, ⟨Hcs, Hats⟩, ⟨Hcr, Hatr⟩, HG, HR, Hx, HO⟩
  unfold withBufs; rw [k0_part16_eq_skeleton]; unfold k0_part16_skel
  iapply (wp_Lr1 d0 0 (o2 0 d0) (o3 0 d0 - o2 0 d0) (p15_hq3 0 d0) (fun r col => Vals.st1 x w 0 r col (nb 0 1 d0)) rfl (Forms.off_34 d0)) $$ HR
  iintro %b %hb HR
  iapply (wp_Lwb d0 0 (o3 0 d0) 256 (hG 0 d0) rfl (Forms.off_33 d0) (fun r col => Vals.st1 x w 0 r col d0)) $$ HG
  iintro %a' %ha' HG
  ihave HG := (holdsW_owns d0 0 (o3 0 d0) 256 (hG 0 d0) (fun r col => Vals.st1 x w 0 r col d0)) $$ HG
  have hpl : ∀ y : S1x1368x256.Idx, k0_pay16 v476 b y = Vals.st2 x w 0 (y 1).val (o3 0 d0 + (y 2).val) d0 := by
    intro y
    refine (Pays.pay16_apply v476 b y).trans ?_
    rw [h476 y, hb y, show o2 0 d0 + (o3 0 d0 - o2 0 d0 + (y 2).val) = o3 0 d0 + (y 2).val from by have := p15_le3 0 d0; omega]
    rfl
  iapply (p15_Swb d0 0 (o3 0 d0) 256 (hG 0 d0) rfl (Forms.off_33 d0) (fun r col => Vals.st2 x w 0 r col d0) hpl) $$ HG
  iintro HG
  iapply (ev_wait_send_mw x w d0 1 1 rfl rfl) $$ [Hats Hcs HO]
  · iframe HIs Hats Hcs HO Hmws
  rw [sendPay_reduce d0 1 1 (by decide)]
  iintro ⟨-, Hats, #Hrs, HO⟩
  iapply (ev_wait_recv_mw x w d0 1 1 rfl rfl) $$ [Hatr Hcr HO]
  · iframe HIr Hatr Hcr HO Hmwr
  rw [p15_recvPay1]
  iintro ⟨⟨Hd, Hn⟩, Hatr, #Hrr, HO⟩
  iapply (wp_Lwb d0 1 (o2 1 d0) 512 (hD 1 d0) rfl (Forms.off_35 d0) (fun r col => Vals.own x w 1 r col (nb 1 0 d0))) $$ Hd
  iintro %u %hu Hd
  iapply (wp_Lstg0 d0 (x d0)) $$ Hx
  iintro Hx
  iapply (le_wp_ret (Fr := Idealize.ShloMosaic.frame) (wpE := wpE (defs₀ (F := F)) Variants.none (d0 : Thread nD τ) none) (E := Set.univ) _ _)
  isplitl []; · ipureintro; exact ⟨u, rfl, hu⟩
  isplitl []; · ipureintro; exact congrArg k0_pay18 (Pays.rowsA_readAt x d0 _ 1368 rfl rfl _ _)
  iframe Hats Hatr HG HR Hd Hn Hx HO

theorem part17 (c : Dev nD) (κs κr : ℕ) (d0 : Dev nD) (hd : d0 = c)
    (v79 v129 v134 : BitVec 32)
    (v503 : FVec F S1368x512 .f32) (u503 : Vec F S1x1368x512 .f32) (h503 : v503 = k0_pay17 u503)
    (hu503 : ∀ y : S1x1368x512.Idx, u503 y = Vals.own x w 1 (y 1).val (o2 1 c + (y 2).val) (nb 1 0 c))
    (v505 : FVec F S1368x512 .f32) (h505 : v505 = k0_pay18 (Vals.xrowsA x c 1368 (by decide)))
    (O : CellTallies nD τ sig Unit) (W : Waits sig Unit) :
    iprop(cellInv (ER (F := F)) (cubeRd x w) κs (sendCell c 1 2)
        ∗ cellInv (ER (F := F)) (cubeRd x w) κr (recvCell c 1 2)
        ∗ MayWait (c : Thread nD τ) (.dma (ssem 1 2)) () O
        ∗ MayWait (c : Thread nD τ) (.dma (rsem 1 2)) () O
        ∗ sendG (F := F) c 1 2 1 ∗ recvG (F := F) c 1 2 0
        ∗ holdsW c 1 (o2 1 c) 512 (hD 1 c) (fun r col => Vals.own x w 1 r col (nb 1 0 c))
        ∗ (((c : Thread nD τ).loc cc0_stg1_0) ↦{fullShare} w c)
        ∗ owes (c : Thread nD τ) O W)
      ⊢ wp frame (wpE (defs₀ (F := F)) Variants.none (c : Thread nD τ) none) Set.univ
          (withBufs (k0_part17 (F := F)) d0 v79 v129 v134 v503 v505)
          (fun res => iprop(⌜∃ u : Vec F S1x1368x256 .f32, res.1 = k0_pay20 u
                ∧ ∀ y : S1x1368x256.Idx, u y = Vals.st1 x w 1 (y 1).val (away2 1 c + (y 2).val) c⌝
            ∗ ⌜∀ y : S1x1368x256.Idx, res.2 y = Vals.st1 x w 1 (y 1).val (away2 1 c + (y 2).val) (nb 1 1 c)⌝
            ∗ sendG (F := F) c 1 2 2 ∗ recvG (F := F) c 1 2 1
            ∗ holdsW c 1 (o2 1 c) 512 (hD 1 c) (fun r col => Vals.st1 x w 1 r col c)
            ∗ holdsR1 c 1 (o2 1 c) (fun r col => Vals.st1 x w 1 r col (nb 1 1 c))
            ∗ ownsW (F := F) (nb 1 1 c) 1 (o2 1 c) 512 (hD 1 c)
            ∗ (((c : Thread nD τ).loc cc0_stg1_0) ↦{fullShare} w c)
            ∗ owes (c : Thread nD τ) O (insert (SemLoc.dma (rsem 1 2), ()) (insert (SemLoc.dma (ssem 1 2), ()) W)))) := by
  subst hd
  subst h503 h505
  rw [p15_sendG1, p15_recvG0, p15_sendG2, p15_recvG1]
  iintro ⟨#HIs, #HIr, #Hmws, #Hmwr, ⟨Hcs, Hats⟩, ⟨Hcr, Hatr⟩, Hd, Hw, HO⟩
  unfold withBufs; rw [k0_part17_eq_skeleton]; unfold k0_part17_skel
  have hoff36 := Forms.off_36 d0
  iapply (wp_Lstg1 d0 (w d0)) $$ Hw
  iintro Hw
  iapply (wp_Lwb d0 1 (o2 1 d0) 512 (hD 1 d0) rfl (Forms.off_35 d0) (fun r col => Vals.own x w 1 r col (nb 1 0 d0))) $$ Hd
  iintro %a' %ha' Hd
  ihave Hd := (holdsW_owns d0 1 (o2 1 d0) 512 (hD 1 d0) (fun r col => Vals.own x w 1 r col (nb 1 0 d0))) $$ Hd
  have hpl : ∀ y : S1x1368x512.Idx,
      k0_pay19 (k0_pay17 u503) (k0_pay18 (Vals.xrowsA x d0 1368 (by decide)))
        ((Memref.whole cc0_stg1_0 : Memref sig .tc .vmem S512x2048 .f32).view.readAt (Elt F) (Rect.unit (s := S512x2048) (k0_off36 d0) S512x512.size (Gen.k0_off36_inb d0)).toLoadRect (w d0)) y
      = Vals.st1 x w 1 (y 1).val (o2 1 d0 + (y 2).val) d0 := by
    intro y
    obtain ⟨t, ht⟩ := p15_o2_block 1 d0
    refine (Pays.pay19_apply u503 _ _ y).trans ?_
    rw [hu503 y, Pays.cols_readAt w d0 _ t (by rw [hoff36]; rfl) (by rw [hoff36]; exact ht), ht]
    exact congrArg _ (Pays.mmA_own1 x w d0 (by decide) t (y 1) (y 2))
  iapply (p15_Swb d0 1 (o2 1 d0) 512 (hD 1 d0) rfl (Forms.off_35 d0) (fun r col => Vals.st1 x w 1 r col d0) hpl) $$ Hd
  iintro Hd
  iapply (ev_wait_send_mw x w d0 1 2 rfl rfl) $$ [Hats Hcs HO]
  · iframe HIs Hats Hcs HO Hmws
  rw [sendPay_reduce d0 1 2 (by decide)]
  iintro ⟨-, Hats, #Hrs, HO⟩
  iapply (ev_wait_recv_mw x w d0 1 2 rfl rfl) $$ [Hatr Hcr HO]
  · iframe HIr Hatr Hcr HO Hmwr
  rw [p15_recvPay2]
  iintro ⟨⟨HR, Hn⟩, Hatr, #Hrr, HO⟩
  ihave HD := (Pieces.holdsW_D d0 1 (fun r col => Vals.st1 x w 1 r col d0)).1 $$ Hd
  icases HD with ⟨HE, HGp⟩
  iapply (wp_Lwb d0 1 (away2 1 d0) 256 (hE 1 d0) rfl (Forms.off_37 d0) (fun r col => Vals.st1 x w 1 r col d0)) $$ HE
  iintro %u %hu HE
  iapply (wp_Lr1 d0 1 (o2 1 d0) (away2 1 d0 - o2 1 d0) (p15_hq2 1 d0) (fun r col => Vals.st1 x w 1 r col (nb 1 1 d0)) rfl (Forms.off_38 d0)) $$ HR
  iintro %b %hb HR
  ihave Hd := (Pieces.holdsW_D d0 1 (fun r col => Vals.st1 x w 1 r col d0)).2 $$ [HE HGp]
  · iframe HE HGp
  iapply (le_wp_ret (Fr := Idealize.ShloMosaic.frame) (wpE := wpE (defs₀ (F := F)) Variants.none (d0 : Thread nD τ) none) (E := Set.univ) _ _)
  isplitl []; · ipureintro; exact ⟨u, rfl, hu⟩
  isplitl []
  · ipureintro
    intro y
    refine (hb y).trans ?_
    rw [show o2 1 d0 + (away2 1 d0 - o2 1 d0 + (y 2).val) = away2 1 d0 + (y 2).val from by have := p15_le2 1 d0; omega]
  iframe Hats Hatr Hd HR Hn Hw HO

theorem part18 (c : Dev nD) (κs κq : ℕ) (d0 : Dev nD) (hd : d0 = c)
    (v65 v129 v134 v138 : BitVec 32)
    (v531 : FVec F S1368x256 .f32) (u531 : Vec F S1x1368x256 .f32) (h531 : v531 = k0_pay20 u531)
    (hu531 : ∀ y : S1x1368x256.Idx, u531 y = Vals.st1 x w 1 (y 1).val (away2 1 c + (y 2).val) c)
    (v534 : Vec F S1x1368x256 .f32)
    (h534 : ∀ y : S1x1368x256.Idx, v534 y = Vals.st1 x w 1 (y 1).val (away2 1 c + (y 2).val) (nb 1 1 c))
    (O : CellTallies nD τ sig Unit) (W : Waits sig Unit) :
    iprop(cellInv (ER (F := F)) (cubeRd x w) κs (sendCell c 1 3)
        ∗ cellInv (ER (F := F)) (cubeRd x w) κq (recvCell (peer 1 3 c) 1 3)
        ∗ sendG (F := F) c 1 3 0
        ∗ holdsW c 1 (o2 1 c) 512 (hD 1 c) (fun r col => Vals.st1 x w 1 r col c)
        ∗ holdsR1 c 1 (o2 1 c) (fun r col => Vals.st1 x w 1 r col (nb 1 1 c))
        ∗ ownsR2 (F := F) (nb 1 2 c) 1
        ∗ owes (c : Thread nD τ) (O + tallyAt (recvCell (peer 1 3 c) 1 3) () (credOf 1 3)) W)
      ⊢ wp frame (wpE (defs₀ (F := F)) Variants.none (c : Thread nD τ) none) Set.univ
          (withBufs (k0_part18 (F := F)) d0 v65 v129 v134 v138 v531 v534)
          (fun _ => iprop(sendG (F := F) c 1 3 1
            ∗ holdsW c 1 (o3 1 c) 256 (hG 1 c) (fun r col => Vals.st2 x w 1 r col c)
            ∗ holdsR1 c 1 (o2 1 c) (fun r col => Vals.st1 x w 1 r col (nb 1 1 c))
            ∗ owes (c : Thread nD τ) O W)) := by
  subst hd
  subst h531
  rw [p15_sendG0, p15_sendG1]
  iintro ⟨#HIs, #HIq, ⟨Hts, Hrs, Htr, Hrr, Hats⟩, Hd, HR, HR2, HO⟩
  unfold withBufs; rw [k0_part18_eq_skeleton]; unfold k0_part18_skel
  ihave HD := (Pieces.holdsW_D d0 1 (fun r col => Vals.st1 x w 1 r col d0)).1 $$ Hd
  icases HD with ⟨HE, HG⟩
  iapply (wp_Lwb d0 1 (away2 1 d0) 256 (hE 1 d0) rfl (Forms.off_37 d0) (fun r col => Vals.st1 x w 1 r col d0)) $$ HE
  iintro %e' %he' HE
  ihave HE := (holdsW_owns d0 1 (away2 1 d0) 256 (hE 1 d0) (fun r col => Vals.st1 x w 1 r col d0)) $$ HE
  have hplE : ∀ y : S1x1368x256.Idx, k0_pay21 (k0_pay20 u531) v534 y = Vals.st2 x w 1 (y 1).val (away2 1 d0 + (y 2).val) d0 := by
    intro y
    refine (Pays.pay21_apply u531 v534 y).trans ?_
    rw [hu531 y, h534 y]
    rfl
  iapply (p15_Swb d0 1 (away2 1 d0) 256 (hE 1 d0) rfl (Forms.off_37 d0) (fun r col => Vals.st2 x w 1 r col d0) hplE) $$ HE
  iintro HE
  iapply (ev_send_handoff_r2 x w d0 1 rfl rfl (hE 1 d0) (Forms.off_39 d0) rfl rfl rfl (Forms.dev_14 d0) rfl rfl rfl O rfl) $$ [HE HR2 HO Hts Hrs Htr Hrr]
  · isplitl []; · iexact HIs
    isplitl []; · iexact HIq
    isplitl [HE]; · iexact HE
    isplitl [HR2]; · iexact HR2
    isplitl [HO]; · iexact HO
    isplitl [Hts]; · iexact Hts
    isplitl [Hrs]; · iexact Hrs
    isplitl [Htr]; · iexact Htr
    iexact Hrr
  iintro ⟨Hcs, HO⟩
  iapply (wp_Lwb d0 1 (o3 1 d0) 256 (hG 1 d0) rfl (Forms.off_40 d0) (fun r col => Vals.st1 x w 1 r col d0)) $$ HG
  iintro %a %ha HG
  iapply (wp_Lr1 d0 1 (o2 1 d0) (o3 1 d0 - o2 1 d0) (p15_hq3 1 d0) (fun r col => Vals.st1 x w 1 r col (nb 1 1 d0)) rfl (Forms.off_41 d0)) $$ HR
  iintro %b %hb HR
  iapply (wp_Lwb d0 1 (o3 1 d0) 256 (hG 1 d0) rfl (Forms.off_40 d0) (fun r col => Vals.st1 x w 1 r col d0)) $$ HG
  iintro %a' %ha' HG
  ihave HG := (holdsW_owns d0 1 (o3 1 d0) 256 (hG 1 d0) (fun r col => Vals.st1 x w 1 r col d0)) $$ HG
  have hplG : ∀ y : S1x1368x256.Idx, k0_pay22 a b y = Vals.st2 x w 1 (y 1).val (o3 1 d0 + (y 2).val) d0 := by
    intro y
    refine (Pays.pay22_apply a b y).trans ?_
    rw [ha y, hb y, show o2 1 d0 + (o3 1 d0 - o2 1 d0 + (y 2).val) = o3 1 d0 + (y 2).val from by have := p15_le3 1 d0; omega]
    rfl
  iapply (p15_Swb d0 1 (o3 1 d0) 256 (hG 1 d0) rfl (Forms.off_40 d0) (fun r col => Vals.st2 x w 1 r col d0) hplG) $$ HG
  iintro HG
  iapply (le_wp_ret (Fr := Idealize.ShloMosaic.frame) (wpE := wpE (defs₀ (F := F)) Variants.none (d0 : Thread nD τ) none) (E := Set.univ) PUnit.unit _)
  isplitl [Hcs Hats]
  · iframe Hcs Hats
  iframe HG HR HO

theorem part19 (c : Dev nD) (κs κr : ℕ) (d0 : Dev nD) (hd : d0 = c)
    (v79 v159 : BitVec 32)
    (O : CellTallies nD τ sig Unit) (W : Waits sig Unit) :
    iprop(cellInv (ER (F := F)) (cubeRd x w) κs (sendCell c 2 1)
        ∗ cellInv (ER (F := F)) (cubeRd x w) κr (recvCell c 2 1)
        ∗ MayWait (c : Thread nD τ) (.dma (ssem 2 1)) () O
        ∗ MayWait (c : Thread nD τ) (.dma (rsem 2 1)) () O
        ∗ sendG (F := F) c 2 1 1 ∗ recvG (F := F) c 2 1 0
        ∗ (((c : Thread nD τ).loc cc0_stg0_0) ↦{fullShare} x c)
        ∗ (((c : Thread nD τ).loc cc0_stg1_0) ↦{fullShare} w c)
        ∗ owes (c : Thread nD τ) O W)
      ⊢ wp frame (wpE (defs₀ (F := F)) Variants.none (c : Thread nD τ) none) Set.univ
          (withBufs (k0_part19 (F := F)) d0 v79 v159)
          (fun _ => iprop(sendG (F := F) c 2 1 2 ∗ recvG (F := F) c 2 1 1
            ∗ holdsW c 2 (o2 2 c) 512 (hD 2 c) (fun r col => Vals.st1 x w 2 r col c)
            ∗ ownsW (F := F) (nb 2 0 c) 2 (o2 2 c) 512 (hD 2 c)
            ∗ (((c : Thread nD τ).loc cc0_stg0_0) ↦{fullShare} x c)
            ∗ (((c : Thread nD τ).loc cc0_stg1_0) ↦{fullShare} w c)
            ∗ owes (c : Thread nD τ) O (insert (SemLoc.dma (rsem 2 1), ()) (insert (SemLoc.dma (ssem 2 1), ()) W)))) := by
  subst hd
  rw [p15_sendG1, p15_recvG0, p15_sendG2, p15_recvG1]
  iintro ⟨#HIs, #HIr, #Hmws, #Hmwr, ⟨Hcs, Hats⟩, ⟨Hcr, Hatr⟩, Hx, Hw, HO⟩
  unfold withBufs; rw [k0_part19_eq_skeleton]; unfold k0_part19_skel
  have hoff42 := Forms.off_42 d0
  have hoff43 := Forms.off_43 d0
  iapply (ev_wait_send_mw x w d0 2 1 rfl rfl) $$ [Hats Hcs HO]
  · iframe HIs Hats Hcs HO Hmws
  rw [sendPay_reduce d0 2 1 (by decide)]
  iintro ⟨-, Hats, #Hrs, HO⟩
  iapply (ev_wait_recv_mw x w d0 2 1 rfl rfl) $$ [Hatr Hcr HO]
  · iframe HIr Hatr Hcr HO Hmwr
  rw [p15_recvPay1]
  iintro ⟨⟨Hd, Hn⟩, Hatr, #Hrr, HO⟩
  have hpl : ∀ (u : Vec F S1x1360x512 .f32) (y : S1x1360x512.Idx),
      k0_pay23 u ((Memref.whole cc0_stg0_0 : Memref sig .tc .vmem S4096x512 .f32).view.readAt (Elt F) (Rect.unit (s := S4096x512) ![2736, 0] S1360x512.size Gen.inb_S4096x512_S1360x512_2736_0).toLoadRect (x d0))
        ((Memref.whole cc0_stg1_0 : Memref sig .tc .vmem S512x2048 .f32).view.readAt (Elt F) (Rect.unit (s := S512x2048) (k0_off43 d0) S512x512.size (Gen.k0_off43_inb d0)).toLoadRect (w d0)) y
      = FloatOps.addf (u y) (Vals.own x w 2 (y 1).val (o2 2 d0 + (y 2).val) d0) := by
    intro u y
    obtain ⟨t, ht⟩ := p15_o2_block 2 d0
    rw [Pays.pay23_apply, Pays.rowsB_readAt x d0 _ rfl rfl, Pays.cols_readAt w d0 _ t (by rw [hoff43]; rfl) (by rw [hoff43]; exact ht), ht]
    exact congrArg _ (Pays.mmB_own2 x w d0 t (y 1) (y 2))
  iapply (ev_S2 d0 2 x w (o2 2 d0) (hD 2 d0) (fun r col => Vals.own x w 2 r col (nb 2 0 d0)) rfl hoff42 hpl) $$ [Hd Hx Hw]
  · iframe Hd Hx Hw
  iintro ⟨Hd, Hx, Hw⟩
  iapply (le_wp_ret (Fr := Idealize.ShloMosaic.frame) (wpE := wpE (defs₀ (F := F)) Variants.none (d0 : Thread nD τ) none) (E := Set.univ) PUnit.unit _)
  isplitl [Hats]; · iexact Hats
  isplitl [Hatr]; · iexact Hatr
  isplitl [Hd]; · iexact Hd
  isplitl [Hn]; · iexact Hn
  isplitl [Hx]; · iexact Hx
  isplitl [Hw]; · iexact Hw
  iexact HO

end Cert.Kernel.Body

end
-- ==== Proof.K.Parts20.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.EvSend
import proofs.«900802_g7700000000000803_dist_gemm_ar_m4096_k4096_n2048_f32_relu_v7x_i8_1_alg».proof.Proof.K.EvStore
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages

noncomputable section

namespace Cert.Kernel.Body

open Cert.Kernel Cert.Kernel.Gen Cert.Kernel.Spec Cert.Kernel.Reg Cert.Kernel.Proto
open Cert.Kernel.Tables Cert.Kernel.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv

private theorem p20_ret_bind {E : Type → Type} {α β : Type} (a : α) (k : α → Prog E β) : (Prog.ret a).bind k = k a := rfl

private theorem p20_who (p : Fin 3) (c : Dev nD) (q : ℕ) (hq : q < 256) : who p (o3 p c + q) = c := by
  have hk : o3 p c % 256 = 0 := by revert p c; decide
  have h2 : (o3 p c + q) / 256 * 256 = o3 p c := by omega
  unfold who; rw [h2]; exact who_o3 p c

private theorem p20_gath (p : Fin 3) (c : Dev nD) (r q : ℕ) (hq : q < 256) :
    FloatOps.maximumf (FloatOps.addf (Vals.st2 x w p r (o3 p c + q) c) (Vals.st2 x w p r (o3 p c + q) (nb p 2 c)))
        (Scalar.ofBits .f32 0x00000000#32) = gath x w p r (o3 p c + q) := by
  unfold gath; rw [p20_who p c q hq]; rfl

private theorem p20_partW_intro (c : Dev nD) (p : Fin 3) (off wd : ℕ) (h : Inb3 2048 p.val (rowLen p) off wd)
    (qs : List (PosShare TreeShare)) (val : ℕ → ℕ → F .f32)
    (f : Buf (Elt F) ((wbM.access (wbRect p.val (rowLen p) off wd h)).loc (c : Thread nD τ)))
    (hf : ∀ y : (⟨3, ![1, rowLen p, wd]⟩ : Shape).Idx, (wbM.access (wbRect p.val (rowLen p) off wd h)).read (Elt F) f y = val (y 1).val (off + (y 2).val)) :
    (qs.foldr (fun q A => iprop((((wbM.access (wbRect p.val (rowLen p) off wd h)).loc (c : Thread nD τ)) ↦[wbReg c p.val (rowLen p) off wd h]{q} f) ∗ A)) iprop(emp) : sProp 𝕄)
      ⊢ partW c p off wd h qs val := by
  unfold partW
  iintro H
  iexists f
  iframe H
  ipureintro; exact hf

theorem part20 (c : Dev nD) (κ1 κ2 : ℕ) (d0 : Dev nD) (hd : d0 = c)
    (v65 v68 v159 v164 : BitVec 32)
    (O : CellTallies nD τ sig Unit) (W : Waits sig Unit) :
    iprop(cellInv (ER (F := F)) (cubeRd x w) κ1 (sendCell c 2 2)
        ∗ cellInv (ER (F := F)) (cubeRd x w) κ2 (recvCell c 2 2)
        ∗ MayWait (c : Thread nD τ) (.dma (ssem 2 2)) () O
        ∗ MayWait (c : Thread nD τ) (.dma (rsem 2 2)) () O
        ∗ sendG (F := F) c 2 2 1 ∗ recvG (F := F) c 2 2 0
        ∗ holdsW c 2 (o2 2 c) 512 (hD 2 c) (fun r col => Vals.st1 x w 2 r col c)
        ∗ owes (c : Thread nD τ) O W)
      ⊢ wp frame (wpE (defs₀ (F := F)) Variants.none (c : Thread nD τ) none) Set.univ
          (withBufs (k0_part20 (F := F)) d0 v65 v68 v159 v164)
          (fun _ => iprop(sendG (F := F) c 2 2 2 ∗ recvG (F := F) c 2 2 1
            ∗ holdsR1 c 2 (o2 2 c) (fun r col => Vals.st1 x w 2 r col (nb 2 1 c))
            ∗ ownsW (F := F) (nb 2 1 c) 2 (o2 2 c) 512 (hD 2 c)
            ∗ holdsW c 2 (away2 2 c) 256 (hE 2 c) (fun r col => Vals.st2 x w 2 r col c)
            ∗ holdsW c 2 (o3 2 c) 256 (hG 2 c) (fun r col => Vals.st1 x w 2 r col c)
            ∗ owes (c : Thread nD τ) O (insert (SemLoc.dma (rsem 2 2), ()) (insert (SemLoc.dma (ssem 2 2), ()) W)))) := by
  subst hd
  simp only [sendG, recvG]
  iintro ⟨#HI1, #HI2, #Hmw1, #Hmw2, ⟨Hsc, Hsat⟩, ⟨Hrc, Hrat⟩, HD, HO⟩
  unfold withBufs; rw [k0_part20_eq_skeleton]; unfold k0_part20_skel
  sl_exec
  ihave Hpay := (Entails.of_eq (recvPay_r1 x w d0 2)) $$ Hrat_pay1
  icases Hpay with ⟨HR1, HoN⟩
  ihave HR1 := (Entails.of_eq (Pieces.holdsR1_land2 d0 2 _)) $$ HR1
  ihave HoN := (Entails.of_eq (Pieces.ownsW_land2 (F := F) d0 2)) $$ HoN
  ihave HDs := (Pieces.holdsW_D d0 2 _).1 $$ HD
  icases HDs with ⟨HE, HG⟩
  have hbase : o2 2 d0 ≤ away2 2 d0 := by revert d0; decide
  have hq : Inb3 512 (2 : Fin 3).val (rowLen 2) (away2 2 d0 - o2 2 d0) 256 := by revert d0; decide
  iapply (ev_S3 d0 2 (away2 2 d0) (o2 2 d0) (hE 2 d0) hbase hq _ _ rfl rfl (Forms.off_44 d0) (Forms.off_45 d0) (fun a b y => Pays.pay24_apply a b y)) $$ [HE HR1]
  · iframe HE HR1
  iintro ⟨HE, HR1⟩
  simp only [p20_ret_bind]
  sl_step
  isplitl [Hsat]; · iexact Hsat
  isplitl [Hrat]; · iexact Hrat
  isplitl [HR1]; · iexact HR1
  isplitl [HoN]; · iexact HoN
  isplitl [HE]; · iexact HE
  isplitl [HG]; · iexact HG
  iexact HO

theorem part21 (c : Dev nD) (κ1 κ2 κ3 : ℕ) (d0 : Dev nD) (hd : d0 = c)
    (v79 v159 v168 : BitVec 32)
    (O : CellTallies nD τ sig Unit) (W : Waits sig Unit) :
    iprop(cellInv (ER (F := F)) (cubeRd x w) κ1 (sendCell c 2 3)
        ∗ cellInv (ER (F := F)) (cubeRd x w) κ2 (recvCell (peer 2 3 c) 2 3)
        ∗ cellInv (ER (F := F)) (cubeRd x w) κ3 (sendCell c 0 3)
        ∗ MayWait (c : Thread nD τ) (.dma (ssem 0 3)) () O
        ∗ sendG (F := F) c 2 3 0
        ∗ holdsW c 2 (away2 2 c) 256 (hE 2 c) (fun r col => Vals.st2 x w 2 r col c)
        ∗ ownsR2 (F := F) (nb 2 2 c) 2
        ∗ holdsW c 2 (o3 2 c) 256 (hG 2 c) (fun r col => Vals.st1 x w 2 r col c)
        ∗ holdsR1 c 2 (o2 2 c) (fun r col => Vals.st1 x w 2 r col (nb 2 1 c))
        ∗ sendG (F := F) c 0 3 1
        ∗ owes (c : Thread nD τ) (O + tallyAt (recvCell (peer 2 3 c) 2 3) () (credOf 2 3)) W)
      ⊢ wp frame (wpE (defs₀ (F := F)) Variants.none (c : Thread nD τ) none) Set.univ
          (withBufs (k0_part21 (F := F)) d0 v79 v159 v168)
          (fun _ => iprop(sendG (F := F) c 2 3 1
            ∗ holdsW c 2 (o3 2 c) 256 (hG 2 c) (fun r col => Vals.st2 x w 2 r col c)
            ∗ holdsR1 c 2 (o2 2 c) (fun r col => Vals.st1 x w 2 r col (nb 2 1 c))
            ∗ sendG (F := F) c 0 3 2
            ∗ owes (c : Thread nD τ) O (insert (SemLoc.dma (ssem 0 3), ()) W))) := by
  subst hd
  simp only [sendG, recvG]
  iintro ⟨#HI1, #HI2, #HI3, #Hmw, ⟨Ht1, Hr1, Ht2, Hr2, Hat⟩, HE, HoR2, HG, HR1, ⟨Hc03, Hat03⟩, HO⟩
  unfold withBufs; rw [k0_part21_eq_skeleton]; unfold k0_part21_skel
  have hdev15 := Forms.dev_15
  iapply (ev_send_handoff_r2 x w d0 2 rfl rfl (hE 2 d0) (Forms.off_46 d0) rfl rfl rfl (Forms.dev_15 d0) rfl rfl rfl O rfl) $$ [HE HoR2 HO Ht1 Hr1 Ht2 Hr2]
  · isplitl []; · iexact HI1
    isplitl []; · iexact HI2
    isplitl [HE]; · iexact HE
    isplitl [HoR2]; · iexact HoR2
    isplitl [HO]; · iexact HO
    isplitl [Ht1]; · iexact Ht1
    isplitl [Hr1]; · iexact Hr1
    isplitl [Ht2]; · iexact Ht2
    iexact Hr2
  iintro ⟨Hcr, HO⟩
  simp only [p20_ret_bind, Prog.bind_lift]
  have hbase : o2 2 d0 ≤ o3 2 d0 := by revert d0; decide
  have hq : Inb3 512 (2 : Fin 3).val (rowLen 2) (o3 2 d0 - o2 2 d0) 256 := by revert d0; decide
  iapply (ev_S3 d0 2 (o3 2 d0) (o2 2 d0) (hG 2 d0) hbase hq _ _ rfl rfl (Forms.off_47 d0) (Forms.off_48 d0) (fun a b y => Pays.pay25_apply a b y)) $$ [HG HR1]
  · iframe HG HR1
  iintro ⟨HG, HR1⟩
  sl_exec
  sl_step
  isplitl [Hcr Hat]
  · iframe Hcr Hat
  isplitl [HG]; · iexact HG
  isplitl [HR1]; · iexact HR1
  isplitl [Hat03]; · iexact Hat03
  iexact HO

theorem part22 (c : Dev nD) (κ1 κ2 κ3 : ℕ) (d0 : Dev nD) (hd : d0 = c)
    (v68 v79 v108 : BitVec 32)
    (O : CellTallies nD τ sig Unit) (W : Waits sig Unit) :
    iprop(cellInv (ER (F := F)) (cubeRd x w) κ1 (recvCell c 0 3)
        ∗ cellInv (ER (F := F)) (cubeRd x w) κ2 (sendCell c 0 4)
        ∗ cellInv (ER (F := F)) (cubeRd x w) κ3 (recvCell (peer 0 4 c) 0 4)
        ∗ MayWait (c : Thread nD τ) (.dma (rsem 0 3)) () (O + tallyAt (recvCell (peer 0 4 c) 0 4) () (credOf 0 4))
        ∗ recvG (F := F) c 0 3 0
        ∗ holdsW c 0 (o3 0 c) 256 (hG 0 c) (fun r col => Vals.st2 x w 0 r col c)
        ∗ sendG (F := F) c 0 4 0
        ∗ owes (c : Thread nD τ) (O + tallyAt (recvCell (peer 0 4 c) 0 4) () (credOf 0 4)) W)
      ⊢ wp frame (wpE (defs₀ (F := F)) Variants.none (c : Thread nD τ) none) Set.univ
          (withBufs (k0_part22 (F := F)) d0 v68 v79 v108)
          (fun _ => iprop(recvG (F := F) c 0 3 1
            ∗ holdsR2 c 0 (o3 0 c) (fun r col => Vals.st2 x w 0 r col (nb 0 2 c))
            ∗ partW c 0 (o3 0 c) 256 (hG 0 c) [fullShare.right] (gath x w 0)
            ∗ sendG (F := F) c 0 4 1
            ∗ owes (c : Thread nD τ) O (insert (SemLoc.dma (rsem 0 3), ()) W))) := by
  subst hd
  simp only [sendG, recvG]
  iintro ⟨#HI1, #HI2, #HI3, #Hmw, ⟨Hrc, Hrat⟩, HG, ⟨Ht1, Hr1, Ht2, Hr2, Hat⟩, HO⟩
  unfold withBufs; rw [k0_part22_eq_skeleton]; unfold k0_part22_skel
  have hdev16 := Forms.dev_16
  sl_exec
  ihave Hpay := (Entails.of_eq (recvPay_r2 x w d0 0)) $$ Hrat_pay1
  icases Hpay with ⟨HR2, HoN⟩
  ihave HR2 := (Entails.of_eq (Pieces.holdsR2_land3 d0 0 _)) $$ HR2
  ihave HoN := (Entails.of_eq (Pieces.ownsW_land3 (F := F) d0 0)) $$ HoN
  iapply (ev_S4 d0 0 (o3 0 d0) (hG 0 d0) _ _ rfl rfl (Forms.off_33 d0) rfl (fun a b y => Pays.pay26_apply a b y)) $$ [HG HR2]
  · iframe HG HR2
  iintro ⟨HG, HR2⟩
  ihave HG := (holdsW_congr d0 0 (o3 0 d0) 256 (hG 0 d0) _ (gath x w 0) (fun r q hq => p20_gath x w 0 d0 r q hq)) $$ HG
  ihave HP := (Pieces.holdsW_partW d0 0 (hG 0 d0) _).1 $$ HG
  ihave HP := (Pieces.partW_share d0 0 (hG 0 d0) fullShare [] _).1 $$ HP
  ihave HP := (Pieces.partW_cons d0 0 (hG 0 d0) fullShare.left [fullShare.right] _).1 $$ HP
  icases HP with ⟨%fs, Hq, Hrest, %hfs⟩
  simp only [p20_ret_bind, Prog.bind_lift]
  iapply (ev_send_share x w d0 0 4 (by decide) rfl rfl rfl (hG 0 d0) (Forms.off_49 d0) (Forms.off_49 d0) rfl rfl (Forms.dev_16 d0) rfl rfl rfl O rfl fs hfs) $$ [Hq HoN HO Ht1 Hr1 Ht2 Hr2]
  · isplitl []; · iexact HI2
    isplitl []; · iexact HI3
    isplitl [Hq]; · iexact Hq
    isplitl [HoN]; · iexact HoN
    isplitl [HO]; · iexact HO
    isplitl [Ht1]; · iexact Ht1
    isplitl [Hr1]; · iexact Hr1
    isplitl [Ht2]; · iexact Ht2
    iexact Hr2
  iintro ⟨Hcr, HO⟩
  ihave HP := (p20_partW_intro d0 0 (o3 0 d0) 256 (hG 0 d0) [fullShare.right] (gath x w 0) fs hfs) $$ Hrest
  sl_step
  isplitl [Hrat]; · iexact Hrat
  isplitl [HR2]; · iexact HR2
  isplitl [HP]; · iexact HP
  isplitl [Hcr Hat]
  · iframe Hcr Hat
  iexact HO

theorem part23 (c : Dev nD) (κ1 κ2 κ3 κ4 κ5 : ℕ) (d0 : Dev nD) (hd : d0 = c)
    (v65 : BitVec 32)
    (O : CellTallies nD τ sig Unit) (W : Waits sig Unit) :
    iprop(cellInv (ER (F := F)) (cubeRd x w) κ1 (sendCell c 0 5)
        ∗ cellInv (ER (F := F)) (cubeRd x w) κ2 (recvCell (peer 0 5 c) 0 5)
        ∗ cellInv (ER (F := F)) (cubeRd x w) κ3 (sendCell c 0 6)
        ∗ cellInv (ER (F := F)) (cubeRd x w) κ4 (recvCell (peer 0 6 c) 0 6)
        ∗ cellInv (ER (F := F)) (cubeRd x w) κ5 (sendCell c 1 3)
        ∗ MayWait (c : Thread nD τ) (.dma (ssem 1 3)) () O
        ∗ sendG (F := F) c 0 5 0 ∗ sendG (F := F) c 0 6 0
        ∗ partW c 0 (o3 0 c) 256 (hG 0 c) [fullShare.right] (gath x w 0)
        ∗ ownsW (F := F) (nb 0 1 c) 0 (o2 0 c) 512 (hD 0 c)
        ∗ ownsW (F := F) (nb 0 0 c) 0 (o2 0 c) 512 (hD 0 c)
        ∗ sendG (F := F) c 1 3 1
        ∗ owes (c : Thread nD τ) (O + tallyAt (recvCell (peer 0 6 c) 0 6) () (credOf 0 6)
            + tallyAt (recvCell (peer 0 5 c) 0 5) () (credOf 0 5)) W)
      ⊢ wp frame (wpE (defs₀ (F := F)) Variants.none (c : Thread nD τ) none) Set.univ
          (withBufs (k0_part23 (F := F)) d0 v65)
          (fun _ => iprop(sendG (F := F) c 0 5 1 ∗ sendG (F := F) c 0 6 1
            ∗ partW c 0 (o3 0 c) 256 (hG 0 c) [lshr] (gath x w 0)
            ∗ ownsW (F := F) (nb 0 1 c) 0 (away2 0 c) 256 (hE 0 c)
            ∗ ownsW (F := F) (nb 0 0 c) 0 (away2 0 c) 256 (hE 0 c)
            ∗ sendG (F := F) c 1 3 2
            ∗ owes (c : Thread nD τ) O (insert (SemLoc.dma (ssem 1 3), ()) W))) := by
  subst hd
  simp only [sendG, recvG]
  iintro ⟨#HI1, #HI2, #HI3, #HI4, #HI5, #Hmw, ⟨Ht51, Hr51, Ht52, Hr52, Hat5⟩, ⟨Ht61, Hr61, Ht62, Hr62, Hat6⟩, HP, Ho1, Ho0, ⟨Hc13, Hat13⟩, HO⟩
  unfold withBufs; rw [k0_part23_eq_skeleton]; unfold k0_part23_skel
  have hdev17 := Forms.dev_17
  have hdev18 := Forms.dev_18
  ihave Ho1 := (Pieces.ownsW_D (F := F) d0 0 (nb 0 1 d0)).1 $$ Ho1
  icases Ho1 with ⟨Ho1E, Ho1G⟩
  ihave Ho0 := (Pieces.ownsW_D (F := F) d0 0 (nb 0 0 d0)).1 $$ Ho0
  icases Ho0 with ⟨Ho0E, Ho0G⟩
  ihave HP := (Pieces.partW_share d0 0 (hG 0 d0) fullShare.right [] _).1 $$ HP
  ihave HP := (Pieces.partW_cons d0 0 (hG 0 d0) fullShare.right.left [fullShare.right.right] _).1 $$ HP
  icases HP with ⟨%fs, Hq5, Hrest, %hfs⟩
  iapply (ev_send_share x w d0 0 5 (by decide) rfl rfl rfl (hG 0 d0) (Forms.off_49 d0) (Forms.off_49 d0) rfl rfl (Forms.dev_17 d0) rfl rfl rfl (O + tallyAt (recvCell (peer 0 6 d0) 0 6) () (credOf 0 6)) rfl fs hfs) $$ [Hq5 Ho1G HO Ht51 Hr51 Ht52 Hr52]
  · isplitl []; · iexact HI1
    isplitl []; · iexact HI2
    isplitl [Hq5]; · iexact Hq5
    isplitl [Ho1G]; · iexact Ho1G
    isplitl [HO]; · iexact HO
    isplitl [Ht51]; · iexact Ht51
    isplitl [Hr51]; · iexact Hr51
    isplitl [Ht52]; · iexact Ht52
    iexact Hr52
  iintro ⟨Hcr5, HO⟩
  ihave HP := (p20_partW_intro d0 0 (o3 0 d0) 256 (hG 0 d0) [fullShare.right.right] (gath x w 0) fs hfs) $$ Hrest
  ihave HP := (Pieces.partW_share d0 0 (hG 0 d0) fullShare.right.right [] _).1 $$ HP
  ihave HP := (Pieces.partW_cons d0 0 (hG 0 d0) fullShare.right.right.left [fullShare.right.right.right] _).1 $$ HP
  icases HP with ⟨%fs6, Hq6, Hrest6, %hfs6⟩
  simp only [p20_ret_bind, Prog.bind_lift]
  iapply (ev_send_share x w d0 0 6 (by decide) rfl rfl rfl (hG 0 d0) (Forms.off_49 d0) (Forms.off_49 d0) rfl rfl (Forms.dev_18 d0) rfl rfl rfl O rfl fs6 hfs6) $$ [Hq6 Ho0G HO Ht61 Hr61 Ht62 Hr62]
  · isplitl []; · iexact HI3
    isplitl []; · iexact HI4
    isplitl [Hq6]; · iexact Hq6
    isplitl [Ho0G]; · iexact Ho0G
    isplitl [HO]; · iexact HO
    isplitl [Ht61]; · iexact Ht61
    isplitl [Hr61]; · iexact Hr61
    isplitl [Ht62]; · iexact Ht62
    iexact Hr62
  iintro ⟨Hcr6, HO⟩
  ihave HP := (p20_partW_intro d0 0 (o3 0 d0) 256 (hG 0 d0) [fullShare.right.right.right] (gath x w 0) fs6 hfs6) $$ Hrest6
  simp only [p20_ret_bind, Prog.bind_lift]
  sl_exec
  sl_step
  isplitl [Hcr5 Hat5]
  · iframe Hcr5 Hat5
  isplitl [Hcr6 Hat6]
  · iframe Hcr6 Hat6
  isplitl [HP]; · iexact HP
  isplitl [Ho1E]; · iexact Ho1E
  isplitl [Ho0E]; · iexact Ho0E
  isplitl [Hat13]; · iexact Hat13
  iexact HO

theorem part24 (c : Dev nD) (κ1 κ2 κ3 : ℕ) (d0 : Dev nD) (hd : d0 = c)
    (v65 v79 v138 : BitVec 32)
    (O : CellTallies nD τ sig Unit) (W : Waits sig Unit) :
    iprop(cellInv (ER (F := F)) (cubeRd x w) κ1 (recvCell c 1 3)
        ∗ cellInv (ER (F := F)) (cubeRd x w) κ2 (sendCell c 1 4)
        ∗ cellInv (ER (F := F)) (cubeRd x w) κ3 (recvCell (peer 1 4 c) 1 4)
        ∗ MayWait (c : Thread nD τ) (.dma (rsem 1 3)) () (O + tallyAt (recvCell (peer 1 4 c) 1 4) () (credOf 1 4))
        ∗ recvG (F := F) c 1 3 0
        ∗ holdsW c 1 (o3 1 c) 256 (hG 1 c) (fun r col => Vals.st2 x w 1 r col c)
        ∗ sendG (F := F) c 1 4 0
        ∗ owes (c : Thread nD τ) (O + tallyAt (recvCell (peer 1 4 c) 1 4) () (credOf 1 4)) W)
      ⊢ wp frame (wpE (defs₀ (F := F)) Variants.none (c : Thread nD τ) none) Set.univ
          (withBufs (k0_part24 (F := F)) d0 v65 v79 v138)
          (fun _ => iprop(recvG (F := F) c 1 3 1
            ∗ holdsR2 c 1 (o3 1 c) (fun r col => Vals.st2 x w 1 r col (nb 1 2 c))
            ∗ partW c 1 (o3 1 c) 256 (hG 1 c) [fullShare.right] (gath x w 1)
            ∗ sendG (F := F) c 1 4 1
            ∗ owes (c : Thread nD τ) O (insert (SemLoc.dma (rsem 1 3), ()) W))) := by
  subst hd
  simp only [sendG, recvG]
  iintro ⟨#HI1, #HI2, #HI3, #Hmw, ⟨Hrc, Hrat⟩, HG, ⟨Ht1, Hr1, Ht2, Hr2, Hat⟩, HO⟩
  unfold withBufs; rw [k0_part24_eq_skeleton]; unfold k0_part24_skel
  have hdev19 := Forms.dev_19
  sl_exec
  ihave Hpay := (Entails.of_eq (recvPay_r2 x w d0 1)) $$ Hrat_pay1
  icases Hpay with ⟨HR2, HoN⟩
  ihave HR2 := (Entails.of_eq (Pieces.holdsR2_land3 d0 1 _)) $$ HR2
  ihave HoN := (Entails.of_eq (Pieces.ownsW_land3 (F := F) d0 1)) $$ HoN
  iapply (ev_S4 d0 1 (o3 1 d0) (hG 1 d0) _ _ rfl rfl (Forms.off_40 d0) rfl (fun a b y => Pays.pay27_apply a b y)) $$ [HG HR2]
  · iframe HG HR2
  iintro ⟨HG, HR2⟩
  ihave HG := (holdsW_congr d0 1 (o3 1 d0) 256 (hG 1 d0) _ (gath x w 1) (fun r q hq => p20_gath x w 1 d0 r q hq)) $$ HG
  ihave HP := (Pieces.holdsW_partW d0 1 (hG 1 d0) _).1 $$ HG
  ihave HP := (Pieces.partW_share d0 1 (hG 1 d0) fullShare [] _).1 $$ HP
  ihave HP := (Pieces.partW_cons d0 1 (hG 1 d0) fullShare.left [fullShare.right] _).1 $$ HP
  icases HP with ⟨%fs, Hq, Hrest, %hfs⟩
  simp only [p20_ret_bind, Prog.bind_lift]
  iapply (ev_send_share x w d0 1 4 (by decide) rfl rfl rfl (hG 1 d0) (Forms.off_50 d0) (Forms.off_50 d0) rfl rfl (Forms.dev_19 d0) rfl rfl rfl O rfl fs hfs) $$ [Hq HoN HO Ht1 Hr1 Ht2 Hr2]
  · isplitl []; · iexact HI2
    isplitl []; · iexact HI3
    isplitl [Hq]; · iexact Hq
    isplitl [HoN]; · iexact HoN
    isplitl [HO]; · iexact HO
    isplitl [Ht1]; · iexact Ht1
    isplitl [Hr1]; · iexact Hr1
    isplitl [Ht2]; · iexact Ht2
    iexact Hr2
  iintro ⟨Hcr, HO⟩
  ihave HP := (p20_partW_intro d0 1 (o3 1 d0) 256 (hG 1 d0) [fullShare.right] (gath x w 1) fs hfs) $$ Hrest
  sl_step
  isplitl [Hrat]; · iexact Hrat
  isplitl [HR2]; · iexact HR2
  isplitl [HP]; · iexact HP
  isplitl [Hcr Hat]
  · iframe Hcr Hat
  iexact HO

end Cert.Kernel.Body

end
-- ==== Proof.K.Parts25.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.EvSend
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages

noncomputable section

namespace Cert.Kernel.Body

open Cert.Kernel Cert.Kernel.Gen Cert.Kernel.Spec Cert.Kernel.Reg Cert.Kernel.Proto
open Cert.Kernel.Stages Cert.Kernel.Tables Cert.Kernel.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

private theorem p25_sendG_0 (c : Dev nD) (p : Fin 3) (i : Fin 10) : (sendG (F := F) c p i 0 : sProp 𝕄) =
    iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
private theorem p25_sendG_1 (c : Dev nD) (p : Fin 3) (i : Fin 10) : (sendG (F := F) c p i 1 : sProp 𝕄) =
    iprop(cred (tallyAt (sendCell c p i) () (credOf p i)) ∗ atPos ER (sendCell c p i) 0 ∅ 0) := rfl
private theorem p25_sendG_2 (c : Dev nD) (p : Fin 3) (i : Fin 10) : (sendG (F := F) c p i 2 : sProp 𝕄) = atPos ER (sendCell c p i) 1 ∅ 0 := rfl

theorem part25 (c : Dev nD) (κ0 κ1 κ2 κ3 κ4 : ℕ) (d0 : Dev nD) (hd : d0 = c) (v68 : BitVec 32)
    (O : CellTallies nD τ sig Unit) (W : Waits sig Unit) :
    iprop(cellInv (ER (F := F)) (cubeRd x w) κ0 (sendCell c 1 5) ∗ cellInv (ER (F := F)) (cubeRd x w) κ1 (recvCell (peer 1 5 c) 1 5)
        ∗ cellInv (ER (F := F)) (cubeRd x w) κ2 (sendCell c 1 6) ∗ cellInv (ER (F := F)) (cubeRd x w) κ3 (recvCell (peer 1 6 c) 1 6)
        ∗ cellInv (ER (F := F)) (cubeRd x w) κ4 (sendCell c 2 3)
        ∗ MayWait (c : Thread nD τ) (.dma (ssem 2 3)) () O
        ∗ partW c 1 (o3 1 c) 256 (hG 1 c) [fullShare.right] (gath x w 1)
        ∗ ownsW (nb 1 1 c) 1 (o2 1 c) 512 (hD 1 c) ∗ ownsW (nb 1 0 c) 1 (o2 1 c) 512 (hD 1 c)
        ∗ sendG (F := F) c 1 5 0 ∗ sendG (F := F) c 1 6 0 ∗ sendG (F := F) c 2 3 1
        ∗ owes (c : Thread nD τ) (O + tallyAt (recvCell (peer 1 6 c) 1 6) () (credOf 1 6) + tallyAt (recvCell (peer 1 5 c) 1 5) () (credOf 1 5)) W)
      ⊢ wp frame (wpE (defs₀ (F := F)) Variants.none (c : Thread nD τ) none) Set.univ
          (withBufs (k0_part25 (F := F)) d0 v68)
          (fun _ => iprop(partW c 1 (o3 1 c) 256 (hG 1 c) [lshr] (gath x w 1)
            ∗ ownsW (nb 1 1 c) 1 (away2 1 c) 256 (hE 1 c) ∗ ownsW (nb 1 0 c) 1 (away2 1 c) 256 (hE 1 c)
            ∗ sendG (F := F) c 1 5 1 ∗ sendG (F := F) c 1 6 1 ∗ sendG (F := F) c 2 3 2
            ∗ owes (c : Thread nD τ) O (insert (.dma (ssem 2 3), ()) W))) := by
  subst hd
  simp only [p25_sendG_0, p25_sendG_1, p25_sendG_2]
  iintro ⟨#HI0, #HI1, #HI2, #HI3, #HI4, #Hmw, HG, HO1, HO0, ⟨Ht5, #Hr5, Htr5, #Hrr5, Hat5⟩, ⟨Ht6, #Hr6, Htr6, #Hrr6, Hat6⟩, ⟨Hc3, Hat3⟩, HO⟩
  unfold withBufs; rw [k0_part25_eq_skeleton]; unfold k0_part25_skel
  have eD1 := ownsW_D (F := F) d0 (1 : Fin 3) (nb (1 : Fin 3) (1 : Fin 3) d0)
  have eD0 := ownsW_D (F := F) d0 (1 : Fin 3) (nb (1 : Fin 3) (0 : Fin 3) d0)
  have eS1 := partW_share (F := F) d0 (1 : Fin 3) (hG 1 d0) fullShare.right [] (gath x w 1)
  have eC1 := partW_cons (F := F) d0 (1 : Fin 3) (hG 1 d0) fullShare.right.left [fullShare.right.right] (gath x w 1)
  have eS2 := partW_share (F := F) d0 (1 : Fin 3) (hG 1 d0) fullShare.right.right [] (gath x w 1)
  have eC2 := partW_cons (F := F) d0 (1 : Fin 3) (hG 1 d0) fullShare.right.right.left [fullShare.right.right.right] (gath x w 1)
  ihave HO1' := (eD1.1) $$ HO1
  icases HO1' with ⟨HO1E, HO1G⟩
  ihave HO0' := (eD0.1) $$ HO0
  icases HO0' with ⟨HO0E, HO0G⟩

  ihave HG2 := (eS1.1) $$ HG
  ihave HG3 := (eC1.1) $$ HG2
  icases HG3 with ⟨%f, Hsh, Hrest, %hf⟩
  sl_exec
  iapply (ev_send_share x w d0 1 5 (by decide) rfl rfl rfl (hG 1 d0) (Forms.off_50 d0) (Forms.off_50 d0) rfl rfl (Forms.dev_20 d0) rfl rfl rfl
    (O + tallyAt (recvCell (peer 1 6 d0) 1 6) () (credOf 1 6)) rfl f hf) $$ [Hsh HO1G HO Ht5 Htr5]
  · isplitl []; · iexact HI0
    isplitl []; · iexact HI1
    isplitl [Hsh]; · iexact Hsh
    isplitl [HO1G]; · iexact HO1G
    isplitl [HO]; · iexact HO
    isplitl [Ht5]; · iexact Ht5
    isplitl []; · iexact Hr5
    isplitl [Htr5]; · iexact Htr5
    iexact Hrr5
  iintro ⟨Hc5, HO⟩
  ihave HG4 : partW d0 1 (o3 1 d0) 256 (hG 1 d0) [fullShare.right.right] (gath x w 1) $$ [Hrest]
  · unfold partW
    iexists f
    iframe Hrest
    ipureintro; exact hf

  ihave HG5 := (eS2.1) $$ HG4
  ihave HG6 := (eC2.1) $$ HG5
  icases HG6 with ⟨%f2, Hsh2, Hrest2, %hf2⟩
  sl_exec
  iapply (ev_send_share x w d0 1 6 (by decide) rfl rfl rfl (hG 1 d0) (Forms.off_50 d0) (Forms.off_50 d0) rfl rfl (Forms.dev_21 d0) rfl rfl rfl
    O rfl f2 hf2) $$ [Hsh2 HO0G HO Ht6 Htr6]
  · isplitl []; · iexact HI2
    isplitl []; · iexact HI3
    isplitl [Hsh2]; · iexact Hsh2
    isplitl [HO0G]; · iexact HO0G
    isplitl [HO]; · iexact HO
    isplitl [Ht6]; · iexact Ht6
    isplitl []; · iexact Hr6
    isplitl [Htr6]; · iexact Htr6
    iexact Hrr6
  iintro ⟨Hc6, HO⟩

  sl_exec
  sl_step
  iintuitionistic Hat3_reached
  rw [sendPay_reduce (F := F) d0 2 3 (by decide)]
  isplitl [Hrest2]
  · unfold partW
    iexists f2
    isplitl [Hrest2]; · iexact Hrest2
    ipureintro; exact hf2
  iframe HO1E HO0E
  isplitl [Hc5 Hat5]
  · iframe Hc5 Hat5
  isplitl [Hc6 Hat6]
  · iframe Hc6 Hat6
  isplitl [Hat3]; · iexact Hat3
  iexact HO

theorem part27 (c : Dev nD) (κ0 κ1 κ2 κ3 κ4 : ℕ) (d0 : Dev nD) (hd : d0 = c) (v79 : BitVec 32)
    (O : CellTallies nD τ sig Unit) (W : Waits sig Unit) :
    iprop(cellInv (ER (F := F)) (cubeRd x w) κ0 (sendCell c 2 5) ∗ cellInv (ER (F := F)) (cubeRd x w) κ1 (recvCell (peer 2 5 c) 2 5)
        ∗ cellInv (ER (F := F)) (cubeRd x w) κ2 (sendCell c 2 6) ∗ cellInv (ER (F := F)) (cubeRd x w) κ3 (recvCell (peer 2 6 c) 2 6)
        ∗ cellInv (ER (F := F)) (cubeRd x w) κ4 (sendCell c 0 4)
        ∗ MayWait (c : Thread nD τ) (.dma (ssem 0 4)) () O
        ∗ partW c 2 (o3 2 c) 256 (hG 2 c) [fullShare.right] (gath x w 2)
        ∗ ownsW (nb 2 1 c) 2 (o2 2 c) 512 (hD 2 c) ∗ ownsW (nb 2 0 c) 2 (o2 2 c) 512 (hD 2 c)
        ∗ sendG (F := F) c 2 5 0 ∗ sendG (F := F) c 2 6 0 ∗ sendG (F := F) c 0 4 1
        ∗ owes (c : Thread nD τ) (O + tallyAt (recvCell (peer 2 6 c) 2 6) () (credOf 2 6) + tallyAt (recvCell (peer 2 5 c) 2 5) () (credOf 2 5)) W)
      ⊢ wp frame (wpE (defs₀ (F := F)) Variants.none (c : Thread nD τ) none) Set.univ
          (withBufs (k0_part27 (F := F)) d0 v79)
          (fun _ => iprop(partW c 2 (o3 2 c) 256 (hG 2 c) [lshr] (gath x w 2)
            ∗ ownsW (nb 2 1 c) 2 (away2 2 c) 256 (hE 2 c) ∗ ownsW (nb 2 0 c) 2 (away2 2 c) 256 (hE 2 c)
            ∗ sendG (F := F) c 2 5 1 ∗ sendG (F := F) c 2 6 1 ∗ sendG (F := F) c 0 4 2
            ∗ lentW c 0 (o3 0 c) 256 (hG 0 c) fullShare.left
            ∗ owes (c : Thread nD τ) O (insert (.dma (ssem 0 4), ()) W))) := by
  subst hd
  simp only [p25_sendG_0, p25_sendG_1, p25_sendG_2]
  iintro ⟨#HI0, #HI1, #HI2, #HI3, #HI4, #Hmw, HG, HO1, HO0, ⟨Ht5, #Hr5, Htr5, #Hrr5, Hat5⟩, ⟨Ht6, #Hr6, Htr6, #Hrr6, Hat6⟩, ⟨Hc4, Hat4⟩, HO⟩
  unfold withBufs; rw [k0_part27_eq_skeleton]; unfold k0_part27_skel
  have eD1 := ownsW_D (F := F) d0 (2 : Fin 3) (nb (2 : Fin 3) (1 : Fin 3) d0)
  have eD0 := ownsW_D (F := F) d0 (2 : Fin 3) (nb (2 : Fin 3) (0 : Fin 3) d0)
  have eS1 := partW_share (F := F) d0 (2 : Fin 3) (hG 2 d0) fullShare.right [] (gath x w 2)
  have eC1 := partW_cons (F := F) d0 (2 : Fin 3) (hG 2 d0) fullShare.right.left [fullShare.right.right] (gath x w 2)
  have eS2 := partW_share (F := F) d0 (2 : Fin 3) (hG 2 d0) fullShare.right.right [] (gath x w 2)
  have eC2 := partW_cons (F := F) d0 (2 : Fin 3) (hG 2 d0) fullShare.right.right.left [fullShare.right.right.right] (gath x w 2)
  ihave HO1' := (eD1.1) $$ HO1
  icases HO1' with ⟨HO1E, HO1G⟩
  ihave HO0' := (eD0.1) $$ HO0
  icases HO0' with ⟨HO0E, HO0G⟩

  ihave HG2 := (eS1.1) $$ HG
  ihave HG3 := (eC1.1) $$ HG2
  icases HG3 with ⟨%f, Hsh, Hrest, %hf⟩
  sl_exec
  iapply (ev_send_share x w d0 2 5 (by decide) (n := 1360) (wd := 256) (off := o3 2 d0) rfl rfl rfl (hG 2 d0)
    (Forms.off_51 d0) (Forms.off_51 d0) rfl rfl (Forms.dev_23 d0) rfl rfl (q := fullShare.right.left) rfl
    (O + tallyAt (recvCell (peer 2 6 d0) 2 6) () (credOf 2 6)) rfl f hf) $$ [Hsh HO1G HO Ht5 Htr5]
  · isplitl []; · iexact HI0
    isplitl []; · iexact HI1
    isplitl [Hsh]; · iexact Hsh
    isplitl [HO1G]; · iexact HO1G
    isplitl [HO]; · iexact HO
    isplitl [Ht5]; · iexact Ht5
    isplitl []; · iexact Hr5
    isplitl [Htr5]; · iexact Htr5
    iexact Hrr5
  iintro ⟨Hc5, HO⟩
  ihave HG4 : partW d0 2 (o3 2 d0) 256 (hG 2 d0) [fullShare.right.right] (gath x w 2) $$ [Hrest]
  · unfold partW
    iexists f
    iframe Hrest
    ipureintro; exact hf

  ihave HG5 := (eS2.1) $$ HG4
  ihave HG6 := (eC2.1) $$ HG5
  icases HG6 with ⟨%f2, Hsh2, Hrest2, %hf2⟩
  sl_exec
  iapply (ev_send_share x w d0 2 6 (by decide) (n := 1360) (wd := 256) (off := o3 2 d0) rfl rfl rfl (hG 2 d0)
    (Forms.off_51 d0) (Forms.off_51 d0) rfl rfl (Forms.dev_24 d0) rfl rfl (q := fullShare.right.right.left) rfl
    O rfl f2 hf2) $$ [Hsh2 HO0G HO Ht6 Htr6]
  · isplitl []; · iexact HI2
    isplitl []; · iexact HI3
    isplitl [Hsh2]; · iexact Hsh2
    isplitl [HO0G]; · iexact HO0G
    isplitl [HO]; · iexact HO
    isplitl [Ht6]; · iexact Ht6
    isplitl []; · iexact Hr6
    isplitl [Htr6]; · iexact Htr6
    iexact Hrr6
  iintro ⟨Hc6, HO⟩

  sl_exec
  sl_step
  iintuitionistic Hat4_reached
  ihave Hback := (Entails.of_eq (sendPay_gather (F := F) d0 0 4 (by decide))) $$ Hat4_pay1
  isplitl [Hrest2]
  · unfold partW
    iexists f2
    isplitl [Hrest2]; · iexact Hrest2
    ipureintro; exact hf2
  iframe HO1E HO0E
  isplitl [Hc5 Hat5]
  · iframe Hc5 Hat5
  isplitl [Hc6 Hat6]
  · iframe Hc6 Hat6
  isplitl [Hat4]; · iexact Hat4
  isplitl [Hback]; · iexact Hback
  iexact HO

end Cert.Kernel.Body

end
-- ==== Proof.K.Parts26x.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.EvSend
import proofs.«900802_g7700000000000803_dist_gemm_ar_m4096_k4096_n2048_f32_relu_v7x_i8_1_alg».proof.Proof.K.EvStore
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages

noncomputable section

namespace Cert.Kernel.Body

open Cert.Kernel Cert.Kernel.Gen Cert.Kernel.Spec Cert.Kernel.Reg Cert.Kernel.Proto
open Cert.Kernel.Tables Cert.Kernel.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv

private theorem p26_ret_bind {E : Type → Type} {α β : Type} (a : α) (k : α → Prog E β) : (Prog.ret a).bind k = k a := rfl

private theorem p26_who (p : Fin 3) (c : Dev nD) (q : ℕ) (hq : q < 256) : who p (o3 p c + q) = c := by
  have hk : o3 p c % 256 = 0 := by revert p c; decide
  have h2 : (o3 p c + q) / 256 * 256 = o3 p c := by omega
  unfold who; rw [h2]; exact who_o3 p c

private theorem p26_gath (p : Fin 3) (c : Dev nD) (r q : ℕ) (hq : q < 256) :
    FloatOps.maximumf (FloatOps.addf (Vals.st2 x w p r (o3 p c + q) c) (Vals.st2 x w p r (o3 p c + q) (nb p 2 c)))
        (Scalar.ofBits .f32 0x00000000#32) = gath x w p r (o3 p c + q) := by
  unfold gath; rw [p26_who p c q hq]; rfl

private theorem p26_partW_intro (c : Dev nD) (p : Fin 3) (off wd : ℕ) (h : Inb3 2048 p.val (rowLen p) off wd)
    (qs : List (PosShare TreeShare)) (val : ℕ → ℕ → F .f32)
    (f : Buf (Elt F) ((wbM.access (wbRect p.val (rowLen p) off wd h)).loc (c : Thread nD τ)))
    (hf : ∀ y : (⟨3, ![1, rowLen p, wd]⟩ : Shape).Idx, (wbM.access (wbRect p.val (rowLen p) off wd h)).read (Elt F) f y = val (y 1).val (off + (y 2).val)) :
    (qs.foldr (fun q A => iprop((((wbM.access (wbRect p.val (rowLen p) off wd h)).loc (c : Thread nD τ)) ↦[wbReg c p.val (rowLen p) off wd h]{q} f) ∗ A)) iprop(emp) : sProp 𝕄)
      ⊢ partW c p off wd h qs val := by
  unfold partW
  iintro H
  iexists f
  iframe H
  ipureintro; exact hf

theorem part26 (c : Dev nD) (κ0 κ1 κ2 : ℕ) (d0 : Dev nD) (hd : d0 = c) (v65 v68 v168 : BitVec 32)
    (O : CellTallies nD τ sig Unit) (W : Waits sig Unit) :
    iprop(cellInv (ER (F := F)) (cubeRd x w) κ0 (recvCell c 2 3) ∗ cellInv (ER (F := F)) (cubeRd x w) κ1 (sendCell c 2 4) ∗ cellInv (ER (F := F)) (cubeRd x w) κ2 (recvCell (peer 2 4 c) 2 4)
        ∗ MayWait (c : Thread nD τ) (.dma (rsem 2 3)) () (O + tallyAt (recvCell (peer 2 4 c) 2 4) () (credOf 2 4))
        ∗ holdsW c 2 (o3 2 c) 256 (hG 2 c) (fun r col => Vals.st2 x w 2 r col c)
        ∗ recvG (F := F) c 2 3 0 ∗ sendG (F := F) c 2 4 0
        ∗ owes (c : Thread nD τ) (O + tallyAt (recvCell (peer 2 4 c) 2 4) () (credOf 2 4)) W)
      ⊢ wp frame (wpE (defs₀ (F := F)) Variants.none (c : Thread nD τ) none) Set.univ
          (withBufs (k0_part26 (F := F)) d0 v65 v68 v168)
          (fun _ => iprop(partW c 2 (o3 2 c) 256 (hG 2 c) [fullShare.right] (gath x w 2)
            ∗ holdsR2 c 2 (o3 2 c) (fun r col => Vals.st2 x w 2 r col (nb 2 2 c))
            ∗ recvG (F := F) c 2 3 1 ∗ sendG (F := F) c 2 4 1
            ∗ owes (c : Thread nD τ) O (insert (.dma (rsem 2 3), ()) W))) := by
  subst hd
  simp only [sendG, recvG]
  iintro ⟨#HI1, #HI2, #HI3, #Hmw, HG, ⟨Hrc, Hrat⟩, ⟨Ht1, Hr1, Ht2, Hr2, Hat⟩, HO⟩
  unfold withBufs; rw [k0_part26_eq_skeleton]; unfold k0_part26_skel
  have hdev22 := Forms.dev_22
  sl_exec
  ihave Hpay := (Entails.of_eq (recvPay_r2 x w d0 2)) $$ Hrat_pay1
  icases Hpay with ⟨HR2, HoN⟩
  ihave HR2 := (Entails.of_eq (Pieces.holdsR2_land3 d0 2 _)) $$ HR2
  ihave HoN := (Entails.of_eq (Pieces.ownsW_land3 (F := F) d0 2)) $$ HoN
  iapply (ev_S4 d0 2 (o3 2 d0) (hG 2 d0) _ _ rfl rfl (Forms.off_47 d0) rfl (fun a b y => Pays.pay28_apply a b y)) $$ [HG HR2]
  · iframe HG HR2
  iintro ⟨HG, HR2⟩
  ihave HG := (holdsW_congr d0 2 (o3 2 d0) 256 (hG 2 d0) _ (gath x w 2) (fun r q hq => p26_gath x w 2 d0 r q hq)) $$ HG
  ihave HP := (Pieces.holdsW_partW d0 2 (hG 2 d0) _).1 $$ HG
  ihave HP := (Pieces.partW_share d0 2 (hG 2 d0) fullShare [] _).1 $$ HP
  ihave HP := (Pieces.partW_cons d0 2 (hG 2 d0) fullShare.left [fullShare.right] _).1 $$ HP
  icases HP with ⟨%fs, Hq, Hrest, %hfs⟩
  simp only [p26_ret_bind, Prog.bind_lift]
  iapply (ev_send_share x w d0 2 4 (by decide) rfl rfl rfl (hG 2 d0) (Forms.off_51 d0) (Forms.off_51 d0) rfl rfl (Forms.dev_22 d0) rfl rfl rfl O rfl fs hfs) $$ [Hq HoN HO Ht1 Hr1 Ht2 Hr2]
  · isplitl []; · iexact HI2
    isplitl []; · iexact HI3
    isplitl [Hq]; · iexact Hq
    isplitl [HoN]; · iexact HoN
    isplitl [HO]; · iexact HO
    isplitl [Ht1]; · iexact Ht1
    isplitl [Hr1]; · iexact Hr1
    isplitl [Ht2]; · iexact Ht2
    iexact Hr2
  iintro ⟨Hcr, HO⟩
  ihave HP := (p26_partW_intro d0 2 (o3 2 d0) 256 (hG 2 d0) [fullShare.right] (gath x w 2) fs hfs) $$ Hrest
  sl_step
  isplitl [HP]; · iexact HP
  isplitl [HR2]; · iexact HR2
  isplitl [Hrat]; · iexact Hrat
  isplitl [Hcr Hat]
  · iframe Hcr Hat
  iexact HO

end Cert.Kernel.Body

end
-- ==== Proof.K.Parts28x.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.EvSend
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages

noncomputable section

namespace Cert.Kernel.Body

open Cert.Kernel Cert.Kernel.Gen Cert.Kernel.Spec Cert.Kernel.Reg Cert.Kernel.Proto
open Cert.Kernel.Stages Cert.Kernel.Tables Cert.Kernel.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

theorem p28x_sendG_0 (c : Dev nD) (p : Fin 3) (i : Fin 10) : (sendG (F := F) c p i 0 : sProp 𝕄) =
    iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
theorem p28x_sendG_1 (c : Dev nD) (p : Fin 3) (i : Fin 10) : (sendG (F := F) c p i 1 : sProp 𝕄) =
    iprop(cred (tallyAt (sendCell c p i) () (credOf p i)) ∗ atPos ER (sendCell c p i) 0 ∅ 0) := rfl
theorem p28x_sendG_2 (c : Dev nD) (p : Fin 3) (i : Fin 10) : (sendG (F := F) c p i 2 : sProp 𝕄) = atPos ER (sendCell c p i) 1 ∅ 0 := rfl
theorem p28x_recvG_0 (c : Dev nD) (p : Fin 3) (i : Fin 10) : (recvG (F := F) c p i 0 : sProp 𝕄) =
    iprop(cred (tallyAt (recvCell c p i) () (credOf p i)) ∗ atPos ER (recvCell c p i) 0 ∅ 0) := rfl
theorem p28x_recvG_1 (c : Dev nD) (p : Fin 3) (i : Fin 10) : (recvG (F := F) c p i 1 : sProp 𝕄) = atPos ER (recvCell c p i) 1 ∅ 0 := rfl
theorem p28x_locG_0 (c : Dev nD) (p : Fin 3) (j : Fin 4) : (locG (F := F) c p j 0 : sProp 𝕄) =
    iprop(dutyTok ER (locCell c p j) 0 0 ∗ reached ER (locCell c p j) 0 ∗ atPos ER (locCell c p j) 0 ∅ 0) := rfl
theorem p28x_locG_1 (c : Dev nD) (p : Fin 3) (j : Fin 4) : (locG (F := F) c p j 1 : sProp 𝕄) =
    iprop(cred (tallyAt (locCell c p j) () (credOut (rowLen p))) ∗ atPos ER (locCell c p j) 0 ∅ 0) := rfl

theorem p28x_partW_one (c : Dev nD) (p : Fin 3) {off wd : ℕ} (h : Inb3 2048 p.val (rowLen p) off wd) (q : PosShare TreeShare)
    (val : ℕ → ℕ → F .f32) :
    (partW c p off wd h [q] val : sProp 𝕄)
      ⊣⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{q} f)
          ∗ ⌜∀ y : (⟨3, ![1, rowLen p, wd]⟩ : Shape).Idx, (wbM.access (wbRect p.val (rowLen p) off wd h)).read (Elt F) f y = val (y 1).val (off + (y 2).val)⌝) := by
  unfold partW
  simp only [List.foldr_cons, List.foldr_nil]
  constructor
  · iintro ⟨%f, ⟨Hf, -⟩, %hf⟩
    iexists f
    iframe Hf
    ipureintro; exact hf
  · iintro ⟨%f, Hf, %hf⟩
    iexists f
    isplitl [Hf]
    · isplitl [Hf]; · iexact Hf
      iempintro
    · ipureintro; exact hf

theorem p28x_share_add (c : Dev nD) (p : Fin 3) {off w₁ w₂ : ℕ} (h : Inb3 2048 p.val (rowLen p) off (w₁ + w₂))
    (q : PosShare TreeShare) (val : ℕ → ℕ → F .f32) :
    (iprop(partW c p off w₁ h.left [q] val ∗ partW c p (off + w₁) w₂ h.right [q] val) : sProp 𝕄)
      ⊢ partW c p off (w₁ + w₂) h [q] val := by
  refine (BIClass.sep_mono (p28x_partW_one c p h.left q val).1 (p28x_partW_one c p h.right q val).1).trans ?_
  refine BIBase.Entails.trans ?_ (p28x_partW_one c p h q val).2
  iintro ⟨⟨%f₁, H1, %hf₁⟩, ⟨%f₂, H2, %hf₂⟩⟩
  have G1 := (wfact_iff c p h.left val f₁).1 hf₁
  have G2 := (wfact_iff c p h.right val f₂).1 hf₂
  ihave Hj := (pointsTo_join (wbReg_disjoint_add c h)) $$ [H1 H2]
  · iframe H1 H2
  iexists ((wbReg c p.val (rowLen p) (off + w₁) w₂ h.right).piecewise f₂ f₁)
  isplitl [Hj]
  · rw [wbReg_add c h]; iexact Hj
  · ipureintro
    refine (wfact_iff c p h val _).2 fun r q => ?_
    by_cases hq : q.val < w₁
    · have hn : at3 h r q ∉ wbReg c p.val (rowLen p) (off + w₁) w₂ h.right := by
        rw [mem_wbReg]; intro hm
        have h2 : off + w₁ ≤ off + q.val := hm.2.2.1
        omega
      rw [Finset.piecewise_eq_of_notMem _ _ _ hn]
      exact G1 r ⟨q.val, hq⟩
    · have hm : at3 h r q ∈ wbReg c p.val (rowLen p) (off + w₁) w₂ h.right := by
        rw [mem_wbReg]
        refine ⟨rfl, r.isLt, ?_, ?_⟩
        · show off + w₁ ≤ off + q.val; omega
        · show off + q.val < off + w₁ + w₂; have := q.isLt; omega
      rw [Finset.piecewise_eq_of_mem _ _ _ hm]
      have e : at3 h r q = at3 h.right r ⟨q.val - w₁, by have := q.isLt; omega⟩ := by
        rw [at3_right]; exact congrArg (at3 h r) (Fin.ext (by show q.val = w₁ + (q.val - w₁); omega))
      rw [e, G2]
      exact congrArg (val r.val) (by show off + w₁ + (q.val - w₁) = off + q.val; omega)

theorem p28x_share_halves (c : Dev nD) (p : Fin 3) {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256)
    (q : PosShare TreeShare) (val : ℕ → ℕ → F .f32) :
    (iprop(partW c p a 256 ha [q] val ∗ partW c p b 256 hb [q] val) : sProp 𝕄) ⊢ partW c p off 512 h [q] val := by
  have h' : Inb3 2048 p.val (rowLen p) off (256 + 256) := h
  have base := p28x_share_add (F := F) c p h' q val
  rcases hab with ⟨rfl, rfl⟩ | ⟨rfl, rfl⟩
  · exact base
  · exact sep_comm.1.trans base

theorem p28x_four (c : Dev nD) (p : Fin 3) {off wd : ℕ} (h : Inb3 2048 p.val (rowLen p) off wd)
    (f : Buf (Elt F) ((wbM.access (wbRect p.val (rowLen p) off wd h)).loc (c : Thread nD τ))) :
    ((((wbM.access (wbRect p.val (rowLen p) off wd h)).loc (c : Thread nD τ)) ↦[wbReg c p.val (rowLen p) off wd h]{fullShare} f) : sProp 𝕄)
      ⊢ iprop((((wbM.access (wbRect p.val (rowLen p) off wd h)).loc (c : Thread nD τ)) ↦[wbReg c p.val (rowLen p) off wd h]{fullShare.left} f)
          ∗ (((wbM.access (wbRect p.val (rowLen p) off wd h)).loc (c : Thread nD τ)) ↦[wbReg c p.val (rowLen p) off wd h]{fullShare.right.left} f)
          ∗ (((wbM.access (wbRect p.val (rowLen p) off wd h)).loc (c : Thread nD τ)) ↦[wbReg c p.val (rowLen p) off wd h]{fullShare.right.right.left} f)
          ∗ (((wbM.access (wbRect p.val (rowLen p) off wd h)).loc (c : Thread nD τ)) ↦[wbReg c p.val (rowLen p) off wd h]{lshr} f)) := by
  iintro Hf
  ihave H1 := (pointsTo_share (PosShare.mem_left_op_right fullShare)).1 $$ Hf
  icases H1 with ⟨Hl, Hr⟩
  ihave H2 := (pointsTo_share (PosShare.mem_left_op_right fullShare.right)).1 $$ Hr
  icases H2 with ⟨Hrl, Hrr⟩
  ihave H3 := (pointsTo_share (PosShare.mem_left_op_right fullShare.right.right)).1 $$ Hrr
  icases H3 with ⟨Hrrl, Hrrr⟩
  isplitl [Hl]; · iexact Hl
  isplitl [Hrl]; · iexact Hrl
  isplitl [Hrrl]; · iexact Hrrl
  iexact Hrrr

theorem p28x_holdsW_four (c : Dev nD) (p : Fin 3) {off wd : ℕ} (h : Inb3 2048 p.val (rowLen p) off wd) (val : ℕ → ℕ → F .f32) :
    (holdsW c p off wd h val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{fullShare.left} f)
          ∗ (((wbM.access (wbRect p.val (rowLen p) off wd h)).loc (c : Thread nD τ)) ↦[wbReg c p.val (rowLen p) off wd h]{fullShare.right.left} f)
          ∗ (((wbM.access (wbRect p.val (rowLen p) off wd h)).loc (c : Thread nD τ)) ↦[wbReg c p.val (rowLen p) off wd h]{fullShare.right.right.left} f)
          ∗ (((wbM.access (wbRect p.val (rowLen p) off wd h)).loc (c : Thread nD τ)) ↦[wbReg c p.val (rowLen p) off wd h]{lshr} f)
          ∗ ⌜∀ y : (⟨3, ![1, rowLen p, wd]⟩ : Shape).Idx, (wbM.access (wbRect p.val (rowLen p) off wd h)).read (Elt F) f y = val (y 1).val (off + (y 2).val)⌝) := by
  unfold holdsW
  iintro ⟨%f, Hf, %hf⟩
  ihave H4 := (p28x_four c p h f) $$ Hf
  icases H4 with ⟨Ha, Hb, Hc, Hd⟩
  iexists f
  iframe Ha Hb Hc Hd
  ipureintro; exact hf

theorem part28 (c : Dev nD) (κ0 κ1 κ2 κ3 κ4 κ5 : ℕ) (d0 : Dev nD) (hd : d0 = c) (v65 v68 : BitVec 32)
    (O : CellTallies nD τ sig Unit) (W : Waits sig Unit) :
    iprop(cellInv (ER (F := F)) (cubeRd x w) κ0 (recvCell c 0 4) ∗ cellInv (ER (F := F)) (cubeRd x w) κ1 (locCell c 0 0)
        ∗ cellInv (ER (F := F)) (cubeRd x w) κ2 (sendCell c 0 7) ∗ cellInv (ER (F := F)) (cubeRd x w) κ3 (recvCell (peer 0 7 c) 0 7)
        ∗ cellInv (ER (F := F)) (cubeRd x w) κ4 (sendCell c 0 8) ∗ cellInv (ER (F := F)) (cubeRd x w) κ5 (recvCell (peer 0 8 c) 0 8)
        ∗ MayWait (c : Thread nD τ) (.dma (rsem 0 4)) () (O + tallyAt (recvCell (peer 0 8 c) 0 8) () (credOf 0 8) + tallyAt (recvCell (peer 0 7 c) 0 7) () (credOf 0 7))
        ∗ partW c 0 (o3 0 c) 256 (hG 0 c) [lshr] (gath x w 0)
        ∗ ownsW (nb 0 1 c) 0 (away2 0 c) 256 (hE 0 c) ∗ ownsW (nb 0 0 c) 0 (away2 0 c) 256 (hE 0 c)
        ∗ ownsOut c 0 (locOff 0 0 c) (inb_out 0 0 c)
        ∗ recvG (F := F) c 0 4 0 ∗ locG (F := F) c 0 0 0 ∗ sendG (F := F) c 0 7 0 ∗ sendG (F := F) c 0 8 0
        ∗ owes (c : Thread nD τ) (O + tallyAt (recvCell (peer 0 8 c) 0 8) () (credOf 0 8) + tallyAt (recvCell (peer 0 7 c) 0 7) () (credOf 0 7)) W)
      ⊢ wp frame (wpE (defs₀ (F := F)) Variants.none (c : Thread nD τ) none) Set.univ
          (withBufs (k0_part28 (F := F)) d0 v65 v68)
          (fun _ => iprop(partW c 0 (away2 0 c) 256 (hE 0 c) [fullShare.right.right.left] (gath x w 0)
            ∗ recvG (F := F) c 0 4 1 ∗ locG (F := F) c 0 0 1 ∗ sendG (F := F) c 0 7 1 ∗ sendG (F := F) c 0 8 1
            ∗ owes (c : Thread nD τ) O (insert (.dma (rsem 0 4), ()) W))) := by
  subst hd
  simp only [p28x_sendG_0, p28x_sendG_1, p28x_recvG_0, p28x_recvG_1, p28x_locG_0, p28x_locG_1]
  iintro ⟨#HI0, #HI1, #HI2, #HI3, #HI4, #HI5, #Hmw0, HG, Hd7, Hd8, HOut, ⟨Hcr4, Hatr4⟩, ⟨Htl, Hrl, Hatl⟩, ⟨Ht7, Hr7, Htr7, Hrr7, Hat7⟩, ⟨Ht8, Hr8, Htr8, Hrr8, Hat8⟩, HO⟩
  unfold withBufs; rw [k0_part28_eq_skeleton]; unfold k0_part28_skel
  sl_exec
  ihave HE := (Entails.of_eq ((recvPay_gather x w d0 0 4 (by decide)).trans (holdsW_land4 d0 0 _))) $$ Hatr4_pay1
  ihave H4 := (p28x_holdsW_four d0 0 (hE 0 d0) (gath x w 0)) $$ HE
  icases H4 with ⟨%f, Hl, Hm, Hn, Hls, %hf⟩
  ihave HE' := (p28x_partW_one d0 0 (hE 0 d0) lshr (gath x w 0)).2 $$ [Hls]
  · iexists f
    iframe Hls
    ipureintro; exact hf
  ihave HD := (p28x_share_halves d0 0 (halvesD 0 d0) (hD 0 d0) (hE 0 d0) (hG 0 d0) lshr (gath x w 0)) $$ [HE' HG]
  · isplitl [HE']; · iexact HE'
    iexact HG
  ihave HD' := (p28x_partW_one d0 0 (hD 0 d0) lshr (gath x w 0)).1 $$ HD
  icases HD' with ⟨%g, Hlsh, %hg⟩
  iapply (ev_local x w d0 0 0 (Forms.off_53 d0) (Forms.off_52 d0) rfl g hg) $$ [Hlsh HOut Htl Hrl]
  · isplitl []; · iexact HI1
    isplitl [Hlsh]; · iexact Hlsh
    isplitl [HOut]; · iexact HOut
    isplitl [Htl]; · iexact Htl
    iexact Hrl
  iintro Hcl
  sl_exec
  iapply (ev_send_share x w d0 0 7 (by decide) (n := 1368) (wd := 256) (off := away2 0 d0) rfl rfl rfl (hE 0 d0)
      (Forms.off_32 d0) (Forms.off_32 d0) rfl rfl (Forms.dev_25 d0) rfl rfl (q := fullShare.left) rfl
      (O + tallyAt (recvCell (peer 0 8 d0) 0 8) () (credOf 0 8)) rfl f hf) $$ [Hl Hd7 HO Ht7 Hr7 Htr7 Hrr7]
  · isplitl []; · iexact HI2
    isplitl []; · iexact HI3
    isplitl [Hl]; · iexact Hl
    isplitl [Hd7]; · iexact Hd7
    isplitl [HO]; · iexact HO
    isplitl [Ht7]; · iexact Ht7
    isplitl [Hr7]; · iexact Hr7
    isplitl [Htr7]; · iexact Htr7
    iexact Hrr7
  iintro ⟨Hc7, HO⟩
  sl_exec
  iapply (ev_send_share x w d0 0 8 (by decide) (n := 1368) (wd := 256) (off := away2 0 d0) rfl rfl rfl (hE 0 d0)
      (Forms.off_32 d0) (Forms.off_32 d0) rfl rfl (Forms.dev_26 d0) rfl rfl (q := fullShare.right.left) rfl
      O rfl f hf) $$ [Hm Hd8 HO Ht8 Hr8 Htr8 Hrr8]
  · isplitl []; · iexact HI4
    isplitl []; · iexact HI5
    isplitl [Hm]; · iexact Hm
    isplitl [Hd8]; · iexact Hd8
    isplitl [HO]; · iexact HO
    isplitl [Ht8]; · iexact Ht8
    isplitl [Hr8]; · iexact Hr8
    isplitl [Htr8]; · iexact Htr8
    iexact Hrr8
  iintro ⟨Hc8, HO⟩
  sl_exec
  sl_step
  isplitl [Hn]
  · unfold partW
    simp only [List.foldr_cons, List.foldr_nil]
    iexists f
    isplitl [Hn]
    · isplitl [Hn]; · iexact Hn
      iempintro
    · ipureintro; exact hf
  iframe Hatr4
  isplitl [Hcl Hatl]
  · iframe Hcl Hatl
  isplitl [Hc7 Hat7]
  · iframe Hc7 Hat7
  isplitl [Hc8 Hat8]
  · iframe Hc8 Hat8
  iexact HO

theorem part29 (c : Dev nD) (κ0 κ1 κ2 : ℕ) (d0 : Dev nD) (hd : d0 = c) (v65 v79 : BitVec 32)
    (O : CellTallies nD τ sig Unit) (W : Waits sig Unit) :
    iprop(cellInv (ER (F := F)) (cubeRd x w) κ0 (sendCell c 1 4) ∗ cellInv (ER (F := F)) (cubeRd x w) κ1 (recvCell c 1 4) ∗ cellInv (ER (F := F)) (cubeRd x w) κ2 (locCell c 1 0)
        ∗ MayWait (c : Thread nD τ) (.dma (ssem 1 4)) () O ∗ MayWait (c : Thread nD τ) (.dma (rsem 1 4)) () O
        ∗ partW c 1 (o3 1 c) 256 (hG 1 c) [lshr] (gath x w 1)
        ∗ ownsOut c 1 (locOff 1 0 c) (inb_out 1 0 c)
        ∗ sendG (F := F) c 1 4 1 ∗ recvG (F := F) c 1 4 0 ∗ locG (F := F) c 1 0 0
        ∗ owes (c : Thread nD τ) O W)
      ⊢ wp frame (wpE (defs₀ (F := F)) Variants.none (c : Thread nD τ) none) Set.univ
          (withBufs (k0_part29 (F := F)) d0 v65 v79)
          (fun _ => iprop(lentW c 1 (o3 1 c) 256 (hG 1 c) fullShare.left
            ∗ partW c 1 (away2 1 c) 256 (hE 1 c) keep3 (gath x w 1)
            ∗ sendG (F := F) c 1 4 2 ∗ recvG (F := F) c 1 4 1 ∗ locG (F := F) c 1 0 1
            ∗ owes (c : Thread nD τ) O (insert (.dma (rsem 1 4), ()) (insert (.dma (ssem 1 4), ()) W)))) := by
  subst hd
  simp only [p28x_sendG_1, p28x_sendG_2, p28x_recvG_0, p28x_recvG_1, p28x_locG_0, p28x_locG_1]
  iintro ⟨#HI0, #HI1, #HI2, #Hmw0, #Hmw1, HG, HOut, ⟨Hc4, Hat4⟩, ⟨Hcr4, Hatr4⟩, ⟨Htl, Hrl, Hatl⟩, HO⟩
  unfold withBufs; rw [k0_part29_eq_skeleton]; unfold k0_part29_skel
  sl_exec
  ihave Hp4 := (Entails.of_eq (sendPay_gather (F := F) d0 1 4 (by decide))) $$ Hat4_pay1
  ihave HE := (Entails.of_eq ((recvPay_gather x w d0 1 4 (by decide)).trans (holdsW_land4 d0 1 _))) $$ Hatr4_pay1
  ihave H4 := (p28x_holdsW_four d0 1 (hE 1 d0) (gath x w 1)) $$ HE
  icases H4 with ⟨%f, Hl, Hm, Hn, Hls, %hf⟩
  ihave HE' := (p28x_partW_one d0 1 (hE 1 d0) lshr (gath x w 1)).2 $$ [Hls]
  · iexists f
    iframe Hls
    ipureintro; exact hf
  ihave HD := (p28x_share_halves d0 1 (halvesD 1 d0) (hD 1 d0) (hE 1 d0) (hG 1 d0) lshr (gath x w 1)) $$ [HE' HG]
  · isplitl [HE']; · iexact HE'
    iexact HG
  ihave HD' := (p28x_partW_one d0 1 (hD 1 d0) lshr (gath x w 1)).1 $$ HD
  icases HD' with ⟨%g, Hlsh, %hg⟩
  iapply (ev_local x w d0 1 0 (Forms.off_55 d0) (Forms.off_54 d0) rfl g hg) $$ [Hlsh HOut Htl Hrl]
  · isplitl []; · iexact HI2
    isplitl [Hlsh]; · iexact Hlsh
    isplitl [HOut]; · iexact HOut
    isplitl [Htl]; · iexact Htl
    iexact Hrl
  iintro Hcl
  sl_exec
  sl_step
  isplitl [Hp4]; · iexact Hp4
  isplitl [Hl Hm Hn]
  · unfold partW keep3
    simp only [List.foldr_cons, List.foldr_nil]
    iexists f
    isplitl [Hl Hm Hn]
    · isplitl [Hl]; · iexact Hl
      isplitl [Hm]; · iexact Hm
      isplitl [Hn]; · iexact Hn
      iempintro
    · ipureintro; exact hf
  iframe Hat4 Hatr4
  isplitl [Hcl Hatl]
  · iframe Hcl Hatl
  iexact HO

end Cert.Kernel.Body

end
-- ==== Proof.K.Parts30.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.EvSend
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages

noncomputable section

namespace Cert.Kernel.Body

open Cert.Kernel Cert.Kernel.Gen Cert.Kernel.Spec Cert.Kernel.Reg Cert.Kernel.Proto
open Cert.Kernel.Stages Cert.Kernel.Tables Cert.Kernel.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

theorem p30_sendG_0 (c : Dev nD) (p : Fin 3) (i : Fin 10) : (sendG (F := F) c p i 0 : sProp 𝕄) =
    iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0) := rfl
theorem p30_sendG_1 (c : Dev nD) (p : Fin 3) (i : Fin 10) : (sendG (F := F) c p i 1 : sProp 𝕄) =
    iprop(cred (tallyAt (sendCell c p i) () (credOf p i)) ∗ atPos ER (sendCell c p i) 0 ∅ 0) := rfl
theorem p30_sendG_2 (c : Dev nD) (p : Fin 3) (i : Fin 10) : (sendG (F := F) c p i 2 : sProp 𝕄) = atPos ER (sendCell c p i) 1 ∅ 0 := rfl
theorem p30_recvG_0 (c : Dev nD) (p : Fin 3) (i : Fin 10) : (recvG (F := F) c p i 0 : sProp 𝕄) =
    iprop(cred (tallyAt (recvCell c p i) () (credOf p i)) ∗ atPos ER (recvCell c p i) 0 ∅ 0) := rfl
theorem p30_recvG_1 (c : Dev nD) (p : Fin 3) (i : Fin 10) : (recvG (F := F) c p i 1 : sProp 𝕄) = atPos ER (recvCell c p i) 1 ∅ 0 := rfl
theorem p30_locG_0 (c : Dev nD) (p : Fin 3) (j : Fin 4) : (locG (F := F) c p j 0 : sProp 𝕄) =
    iprop(dutyTok ER (locCell c p j) 0 0 ∗ reached ER (locCell c p j) 0 ∗ atPos ER (locCell c p j) 0 ∅ 0) := rfl
theorem p30_locG_1 (c : Dev nD) (p : Fin 3) (j : Fin 4) : (locG (F := F) c p j 1 : sProp 𝕄) =
    iprop(cred (tallyAt (locCell c p j) () (credOut (rowLen p))) ∗ atPos ER (locCell c p j) 0 ∅ 0) := rfl

theorem p30_partW_one (c : Dev nD) (p : Fin 3) {off wd : ℕ} (h : Inb3 2048 p.val (rowLen p) off wd) (q : PosShare TreeShare)
    (val : ℕ → ℕ → F .f32) :
    (partW c p off wd h [q] val : sProp 𝕄)
      ⊣⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{q} f)
          ∗ ⌜∀ y : (⟨3, ![1, rowLen p, wd]⟩ : Shape).Idx, (wbM.access (wbRect p.val (rowLen p) off wd h)).read (Elt F) f y = val (y 1).val (off + (y 2).val)⌝) := by
  unfold partW
  simp only [List.foldr_cons, List.foldr_nil]
  constructor
  · iintro ⟨%f, ⟨Hf, -⟩, %hf⟩
    iexists f
    iframe Hf
    ipureintro; exact hf
  · iintro ⟨%f, Hf, %hf⟩
    iexists f
    isplitl [Hf]
    · isplitl [Hf]; · iexact Hf
      iempintro
    · ipureintro; exact hf

theorem p30_share_add (c : Dev nD) (p : Fin 3) {off w₁ w₂ : ℕ} (h : Inb3 2048 p.val (rowLen p) off (w₁ + w₂))
    (q : PosShare TreeShare) (val : ℕ → ℕ → F .f32) :
    (iprop(partW c p off w₁ h.left [q] val ∗ partW c p (off + w₁) w₂ h.right [q] val) : sProp 𝕄)
      ⊢ partW c p off (w₁ + w₂) h [q] val := by
  refine (BIClass.sep_mono (p30_partW_one c p h.left q val).1 (p30_partW_one c p h.right q val).1).trans ?_
  refine BIBase.Entails.trans ?_ (p30_partW_one c p h q val).2
  iintro ⟨⟨%f₁, H1, %hf₁⟩, ⟨%f₂, H2, %hf₂⟩⟩
  have G1 := (wfact_iff c p h.left val f₁).1 hf₁
  have G2 := (wfact_iff c p h.right val f₂).1 hf₂
  ihave Hj := (pointsTo_join (wbReg_disjoint_add c h)) $$ [H1 H2]
  · iframe H1 H2
  iexists ((wbReg c p.val (rowLen p) (off + w₁) w₂ h.right).piecewise f₂ f₁)
  isplitl [Hj]
  · rw [wbReg_add c h]; iexact Hj
  · ipureintro
    refine (wfact_iff c p h val _).2 fun r q => ?_
    by_cases hq : q.val < w₁
    · have hn : at3 h r q ∉ wbReg c p.val (rowLen p) (off + w₁) w₂ h.right := by
        rw [mem_wbReg]; intro hm
        have h2 : off + w₁ ≤ off + q.val := hm.2.2.1
        omega
      rw [Finset.piecewise_eq_of_notMem _ _ _ hn]
      exact G1 r ⟨q.val, hq⟩
    · have hm : at3 h r q ∈ wbReg c p.val (rowLen p) (off + w₁) w₂ h.right := by
        rw [mem_wbReg]
        refine ⟨rfl, r.isLt, ?_, ?_⟩
        · show off + w₁ ≤ off + q.val; omega
        · show off + q.val < off + w₁ + w₂; have := q.isLt; omega
      rw [Finset.piecewise_eq_of_mem _ _ _ hm]
      have e : at3 h r q = at3 h.right r ⟨q.val - w₁, by have := q.isLt; omega⟩ := by
        rw [at3_right]; exact congrArg (at3 h r) (Fin.ext (by show q.val = w₁ + (q.val - w₁); omega))
      rw [e, G2]
      exact congrArg (val r.val) (by show off + w₁ + (q.val - w₁) = off + q.val; omega)

theorem p30_share_halves (c : Dev nD) (p : Fin 3) {off a b : ℕ} (hab : (a = off ∧ b = off + 256) ∨ (b = off ∧ a = off + 256))
    (h : Inb3 2048 p.val (rowLen p) off 512) (ha : Inb3 2048 p.val (rowLen p) a 256) (hb : Inb3 2048 p.val (rowLen p) b 256)
    (q : PosShare TreeShare) (val : ℕ → ℕ → F .f32) :
    (iprop(partW c p a 256 ha [q] val ∗ partW c p b 256 hb [q] val) : sProp 𝕄) ⊢ partW c p off 512 h [q] val := by
  have h' : Inb3 2048 p.val (rowLen p) off (256 + 256) := h
  have base := p30_share_add (F := F) c p h' q val
  rcases hab with ⟨rfl, rfl⟩ | ⟨rfl, rfl⟩
  · exact base
  · exact sep_comm.1.trans base

theorem p30_four (c : Dev nD) (p : Fin 3) {off wd : ℕ} (h : Inb3 2048 p.val (rowLen p) off wd)
    (f : Buf (Elt F) ((wbM.access (wbRect p.val (rowLen p) off wd h)).loc (c : Thread nD τ))) :
    ((((wbM.access (wbRect p.val (rowLen p) off wd h)).loc (c : Thread nD τ)) ↦[wbReg c p.val (rowLen p) off wd h]{fullShare} f) : sProp 𝕄)
      ⊢ iprop((((wbM.access (wbRect p.val (rowLen p) off wd h)).loc (c : Thread nD τ)) ↦[wbReg c p.val (rowLen p) off wd h]{fullShare.left} f)
          ∗ (((wbM.access (wbRect p.val (rowLen p) off wd h)).loc (c : Thread nD τ)) ↦[wbReg c p.val (rowLen p) off wd h]{fullShare.right.left} f)
          ∗ (((wbM.access (wbRect p.val (rowLen p) off wd h)).loc (c : Thread nD τ)) ↦[wbReg c p.val (rowLen p) off wd h]{fullShare.right.right.left} f)
          ∗ (((wbM.access (wbRect p.val (rowLen p) off wd h)).loc (c : Thread nD τ)) ↦[wbReg c p.val (rowLen p) off wd h]{lshr} f)) := by
  iintro Hf
  ihave H1 := (pointsTo_share (PosShare.mem_left_op_right fullShare)).1 $$ Hf
  icases H1 with ⟨Hl, Hr⟩
  ihave H2 := (pointsTo_share (PosShare.mem_left_op_right fullShare.right)).1 $$ Hr
  icases H2 with ⟨Hrl, Hrr⟩
  ihave H3 := (pointsTo_share (PosShare.mem_left_op_right fullShare.right.right)).1 $$ Hrr
  icases H3 with ⟨Hrrl, Hrrr⟩
  isplitl [Hl]; · iexact Hl
  isplitl [Hrl]; · iexact Hrl
  isplitl [Hrrl]; · iexact Hrrl
  iexact Hrrr

theorem p30_holdsW_four (c : Dev nD) (p : Fin 3) {off wd : ℕ} (h : Inb3 2048 p.val (rowLen p) off wd) (val : ℕ → ℕ → F .f32) :
    (holdsW c p off wd h val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{fullShare.left} f)
          ∗ (((wbM.access (wbRect p.val (rowLen p) off wd h)).loc (c : Thread nD τ)) ↦[wbReg c p.val (rowLen p) off wd h]{fullShare.right.left} f)
          ∗ (((wbM.access (wbRect p.val (rowLen p) off wd h)).loc (c : Thread nD τ)) ↦[wbReg c p.val (rowLen p) off wd h]{fullShare.right.right.left} f)
          ∗ (((wbM.access (wbRect p.val (rowLen p) off wd h)).loc (c : Thread nD τ)) ↦[wbReg c p.val (rowLen p) off wd h]{lshr} f)
          ∗ ⌜∀ y : (⟨3, ![1, rowLen p, wd]⟩ : Shape).Idx, (wbM.access (wbRect p.val (rowLen p) off wd h)).read (Elt F) f y = val (y 1).val (off + (y 2).val)⌝) := by
  unfold holdsW
  iintro ⟨%f, Hf, %hf⟩
  ihave H4 := (p30_four c p h f) $$ Hf
  icases H4 with ⟨Ha, Hb, Hc, Hd⟩
  iexists f
  iframe Ha Hb Hc Hd
  ipureintro; exact hf

theorem part30 (c : Dev nD) (κ0 κ1 κ2 κ3 κ4 κ5 : ℕ) (d0 : Dev nD) (hd : d0 = c) (v68 : BitVec 32)
    (O : CellTallies nD τ sig Unit) (W : Waits sig Unit) :
    iprop(cellInv (ER (F := F)) (cubeRd x w) κ0 (sendCell c 1 7) ∗ cellInv (ER (F := F)) (cubeRd x w) κ1 (recvCell (peer 1 7 c) 1 7)
        ∗ cellInv (ER (F := F)) (cubeRd x w) κ2 (sendCell c 1 8) ∗ cellInv (ER (F := F)) (cubeRd x w) κ3 (recvCell (peer 1 8 c) 1 8)
        ∗ cellInv (ER (F := F)) (cubeRd x w) κ4 (sendCell c 2 4) ∗ cellInv (ER (F := F)) (cubeRd x w) κ5 (recvCell c 2 4)
        ∗ MayWait (c : Thread nD τ) (.dma (ssem 2 4)) () O ∗ MayWait (c : Thread nD τ) (.dma (rsem 2 4)) () O
        ∗ partW c 1 (away2 1 c) 256 (hE 1 c) keep3 (gath x w 1)
        ∗ ownsW (nb 1 1 c) 1 (away2 1 c) 256 (hE 1 c) ∗ ownsW (nb 1 0 c) 1 (away2 1 c) 256 (hE 1 c)
        ∗ sendG (F := F) c 1 7 0 ∗ sendG (F := F) c 1 8 0 ∗ sendG (F := F) c 2 4 1 ∗ recvG (F := F) c 2 4 0
        ∗ owes (c : Thread nD τ) (O + tallyAt (recvCell (peer 1 8 c) 1 8) () (credOf 1 8) + tallyAt (recvCell (peer 1 7 c) 1 7) () (credOf 1 7)) W)
      ⊢ wp frame (wpE (defs₀ (F := F)) Variants.none (c : Thread nD τ) none) Set.univ
          (withBufs (k0_part30 (F := F)) d0 v68)
          (fun _ => iprop(partW c 1 (away2 1 c) 256 (hE 1 c) [fullShare.right.right.left] (gath x w 1)
            ∗ lentW c 2 (o3 2 c) 256 (hG 2 c) fullShare.left ∗ holdsW c 2 (away2 2 c) 256 (hE 2 c) (gath x w 2)
            ∗ sendG (F := F) c 1 7 1 ∗ sendG (F := F) c 1 8 1 ∗ sendG (F := F) c 2 4 2 ∗ recvG (F := F) c 2 4 1
            ∗ owes (c : Thread nD τ) O (insert (SemLoc.dma (rsem 2 4), ()) (insert (SemLoc.dma (ssem 2 4), ()) W)))) := by
  subst hd
  simp only [p30_sendG_0, p30_sendG_1, p30_sendG_2, p30_recvG_0, p30_recvG_1, partW, keep3, List.foldr_cons, List.foldr_nil]
  iintro ⟨#HI0, #HI1, #HI2, #HI3, #HI4, #HI5, #Hmw0, #Hmw1, ⟨%f, ⟨Hq1, Hq2, Hq3, -⟩, %hf⟩, Hd7, Hd8, ⟨Ht7, Hr7, Htr7, Hrr7, Hat7⟩, ⟨Ht8, Hr8, Htr8, Hrr8, Hat8⟩, ⟨Hc4, Hat4⟩, ⟨Hcr4, Hatr4⟩, HO⟩
  unfold withBufs; rw [k0_part30_eq_skeleton]; unfold k0_part30_skel
  sl_exec
  iapply (ev_send_share x w d0 1 7 (by decide) (n := 1368) (wd := 256) (off := away2 1 d0) rfl rfl rfl (hE 1 d0)
      (Forms.off_39 d0) (Forms.off_39 d0) rfl rfl (Forms.dev_27 d0) rfl rfl (q := fullShare.left) rfl
      (O + tallyAt (recvCell (peer 1 8 d0) 1 8) () (credOf 1 8)) rfl f hf) $$ [Hq1 Hd7 HO Ht7 Hr7 Htr7 Hrr7]
  · isplitl []; · iexact HI0
    isplitl []; · iexact HI1
    isplitl [Hq1]; · iexact Hq1
    isplitl [Hd7]; · iexact Hd7
    isplitl [HO]; · iexact HO
    isplitl [Ht7]; · iexact Ht7
    isplitl [Hr7]; · iexact Hr7
    isplitl [Htr7]; · iexact Htr7
    iexact Hrr7
  iintro ⟨Hc7, HO⟩
  sl_exec
  iapply (ev_send_share x w d0 1 8 (by decide) (n := 1368) (wd := 256) (off := away2 1 d0) rfl rfl rfl (hE 1 d0)
      (Forms.off_39 d0) (Forms.off_39 d0) rfl rfl (Forms.dev_28 d0) rfl rfl (q := fullShare.right.left) rfl
      O rfl f hf) $$ [Hq2 Hd8 HO Ht8 Hr8 Htr8 Hrr8]
  · isplitl []; · iexact HI2
    isplitl []; · iexact HI3
    isplitl [Hq2]; · iexact Hq2
    isplitl [Hd8]; · iexact Hd8
    isplitl [HO]; · iexact HO
    isplitl [Ht8]; · iexact Ht8
    isplitl [Hr8]; · iexact Hr8
    isplitl [Htr8]; · iexact Htr8
    iexact Hrr8
  iintro ⟨Hc8, HO⟩
  sl_exec
  sl_step
  ihave Hp4 := (Entails.of_eq (sendPay_gather (F := F) d0 2 4 (by decide))) $$ Hat4_pay1
  ihave Hq4 := (Entails.of_eq ((recvPay_gather x w d0 2 4 (by decide)).trans (holdsW_land4 d0 2 _))) $$ Hatr4_pay1
  isplitl [Hq3]
  · iexists f
    isplitl [Hq3]
    · isplitl [Hq3]; · iexact Hq3
      iempintro
    · ipureintro; exact hf
  isplitl [Hp4]; · iexact Hp4
  isplitl [Hq4]; · iexact Hq4
  isplitl [Hc7 Hat7]
  · iframe Hc7 Hat7
  isplitl [Hc8 Hat8]
  · iframe Hc8 Hat8
  isplitl [Hat4]; · iexact Hat4
  isplitl [Hatr4]; · iexact Hatr4
  iexact HO

theorem part31 (c : Dev nD) (κ0 κ1 κ2 κ3 κ4 : ℕ) (d0 : Dev nD) (hd : d0 = c) (v65 v79 : BitVec 32)
    (O : CellTallies nD τ sig Unit) (W : Waits sig Unit) :
    iprop(cellInv (ER (F := F)) (cubeRd x w) κ0 (locCell c 2 0)
        ∗ cellInv (ER (F := F)) (cubeRd x w) κ1 (sendCell c 2 7) ∗ cellInv (ER (F := F)) (cubeRd x w) κ2 (recvCell (peer 2 7 c) 2 7)
        ∗ cellInv (ER (F := F)) (cubeRd x w) κ3 (sendCell c 2 8) ∗ cellInv (ER (F := F)) (cubeRd x w) κ4 (recvCell (peer 2 8 c) 2 8)
        ∗ partW c 2 (o3 2 c) 256 (hG 2 c) [lshr] (gath x w 2) ∗ holdsW c 2 (away2 2 c) 256 (hE 2 c) (gath x w 2)
        ∗ ownsW (nb 2 1 c) 2 (away2 2 c) 256 (hE 2 c) ∗ ownsW (nb 2 0 c) 2 (away2 2 c) 256 (hE 2 c)
        ∗ ownsOut c 2 (o2 2 c) (by have := inb_out 2 0 c; exact this)
        ∗ locG (F := F) c 2 0 0 ∗ sendG (F := F) c 2 7 0 ∗ sendG (F := F) c 2 8 0
        ∗ owes (c : Thread nD τ) (O + tallyAt (recvCell (peer 2 8 c) 2 8) () (credOf 2 8) + tallyAt (recvCell (peer 2 7 c) 2 7) () (credOf 2 7)) W)
      ⊢ wp frame (wpE (defs₀ (F := F)) Variants.none (c : Thread nD τ) none) Set.univ
          (withBufs (k0_part31 (F := F)) d0 v65 v79)
          (fun _ => iprop(partW c 2 (away2 2 c) 256 (hE 2 c) [fullShare.right.right.left] (gath x w 2)
            ∗ locG (F := F) c 2 0 1 ∗ sendG (F := F) c 2 7 1 ∗ sendG (F := F) c 2 8 1
            ∗ owes (c : Thread nD τ) O W)) := by
  subst hd
  simp only [p30_sendG_0, p30_sendG_1, p30_locG_0, p30_locG_1]
  iintro ⟨#HI0, #HI1, #HI2, #HI3, #HI4, HG, HE, Hd7, Hd8, HOut, ⟨Htl, Hrl, Hatl⟩, ⟨Ht7, Hr7, Htr7, Hrr7, Hat7⟩, ⟨Ht8, Hr8, Htr8, Hrr8, Hat8⟩, HO⟩
  unfold withBufs; rw [k0_part31_eq_skeleton]; unfold k0_part31_skel
  ihave H4 := (p30_holdsW_four d0 2 (hE 2 d0) (gath x w 2)) $$ HE
  icases H4 with ⟨%f, Hl, Hm, Hn, Hls, %hf⟩
  ihave HE' := (p30_partW_one d0 2 (hE 2 d0) lshr (gath x w 2)).2 $$ [Hls]
  · iexists f
    iframe Hls
    ipureintro; exact hf
  ihave HD := (p30_share_halves d0 2 (halvesD 2 d0) (hD 2 d0) (hE 2 d0) (hG 2 d0) lshr (gath x w 2)) $$ [HE' HG]
  · isplitl [HE']; · iexact HE'
    iexact HG
  ihave HD' := (p30_partW_one d0 2 (hD 2 d0) lshr (gath x w 2)).1 $$ HD
  icases HD' with ⟨%g, Hlsh, %hg⟩
  sl_exec
  iapply (ev_local x w d0 2 0 (Forms.off_57 d0) (Forms.off_56 d0) rfl g hg) $$ [Hlsh HOut Htl Hrl]
  · isplitl []; · iexact HI0
    isplitl [Hlsh]; · iexact Hlsh
    isplitl [HOut]; · iexact HOut
    isplitl [Htl]; · iexact Htl
    iexact Hrl
  iintro Hcl
  sl_exec
  iapply (ev_send_share x w d0 2 7 (by decide) (n := 1360) (wd := 256) (off := away2 2 d0) rfl rfl rfl (hE 2 d0)
      (Forms.off_46 d0) (Forms.off_46 d0) rfl rfl (Forms.dev_29 d0) rfl rfl (q := fullShare.left) rfl
      (O + tallyAt (recvCell (peer 2 8 d0) 2 8) () (credOf 2 8)) rfl f hf) $$ [Hl Hd7 HO Ht7 Hr7 Htr7 Hrr7]
  · isplitl []; · iexact HI1
    isplitl []; · iexact HI2
    isplitl [Hl]; · iexact Hl
    isplitl [Hd7]; · iexact Hd7
    isplitl [HO]; · iexact HO
    isplitl [Ht7]; · iexact Ht7
    isplitl [Hr7]; · iexact Hr7
    isplitl [Htr7]; · iexact Htr7
    iexact Hrr7
  iintro ⟨Hc7, HO⟩
  sl_exec
  iapply (ev_send_share x w d0 2 8 (by decide) (n := 1360) (wd := 256) (off := away2 2 d0) rfl rfl rfl (hE 2 d0)
      (Forms.off_46 d0) (Forms.off_46 d0) rfl rfl (Forms.dev_30 d0) rfl rfl (q := fullShare.right.left) rfl
      O rfl f hf) $$ [Hm Hd8 HO Ht8 Hr8 Htr8 Hrr8]
  · isplitl []; · iexact HI3
    isplitl []; · iexact HI4
    isplitl [Hm]; · iexact Hm
    isplitl [Hd8]; · iexact Hd8
    isplitl [HO]; · iexact HO
    isplitl [Ht8]; · iexact Ht8
    isplitl [Hr8]; · iexact Hr8
    isplitl [Htr8]; · iexact Htr8
    iexact Hrr8
  iintro ⟨Hc8, HO⟩
  sl_exec
  sl_step
  isplitl [Hn]
  · unfold partW
    simp only [List.foldr_cons, List.foldr_nil]
    iexists f
    isplitl [Hn]
    · isplitl [Hn]; · iexact Hn
      iempintro
    · ipureintro; exact hf
  isplitl [Hcl Hatl]
  · iframe Hcl Hatl
  isplitl [Hc7 Hat7]
  · iframe Hc7 Hat7
  isplitl [Hc8 Hat8]
  · iframe Hc8 Hat8
  iexact HO

theorem part32 (c : Dev nD) (κ0 κ1 κ2 : ℕ) (d0 : Dev nD) (hd : d0 = c) (v68 : BitVec 32)
    (O : CellTallies nD τ sig Unit) (W : Waits sig Unit) :
    iprop(cellInv (ER (F := F)) (cubeRd x w) κ0 (sendCell c 0 5) ∗ cellInv (ER (F := F)) (cubeRd x w) κ1 (recvCell c 0 5) ∗ cellInv (ER (F := F)) (cubeRd x w) κ2 (sendCell c 0 7)
        ∗ MayWait (c : Thread nD τ) (.dma (ssem 0 5)) () O ∗ MayWait (c : Thread nD τ) (.dma (rsem 0 5)) () O ∗ MayWait (c : Thread nD τ) (.dma (ssem 0 7)) () O
        ∗ sendG (F := F) c 0 5 1 ∗ recvG (F := F) c 0 5 0 ∗ sendG (F := F) c 0 7 1
        ∗ owes (c : Thread nD τ) O W)
      ⊢ wp frame (wpE (defs₀ (F := F)) Variants.none (c : Thread nD τ) none) Set.univ
          (withBufs (k0_part32 (F := F)) d0 v68)
          (fun _ => iprop(lentW c 0 (o3 0 c) 256 (hG 0 c) fullShare.right.left
            ∗ holdsW c 0 (o3 0 (nb 0 1 c)) 256 (hCg 0 c) (gath x w 0)
            ∗ lentW c 0 (away2 0 c) 256 (hE 0 c) fullShare.left
            ∗ sendG (F := F) c 0 5 2 ∗ recvG (F := F) c 0 5 1 ∗ sendG (F := F) c 0 7 2
            ∗ owes (c : Thread nD τ) O (insert (SemLoc.dma (ssem 0 7), ()) (insert (SemLoc.dma (rsem 0 5), ()) (insert (SemLoc.dma (ssem 0 5), ()) W))))) := by
  subst hd
  simp only [p30_sendG_1, p30_sendG_2, p30_recvG_0, p30_recvG_1]
  iintro ⟨#HI0, #HI1, #HI2, #Hmw0, #Hmw1, #Hmw2, ⟨Hc5, Hat5⟩, ⟨Hcr5, Hatr5⟩, ⟨Hc7, Hat7⟩, HO⟩
  unfold withBufs; rw [k0_part32_eq_skeleton]; unfold k0_part32_skel
  sl_exec
  sl_step
  ihave Hp5 := (Entails.of_eq (sendPay_gather (F := F) d0 0 5 (by decide))) $$ Hat5_pay1
  ihave Hq5 := (Entails.of_eq ((recvPay_gather x w d0 0 5 (by decide)).trans (holdsW_land5 d0 0 _))) $$ Hatr5_pay1
  ihave Hp7 := (Entails.of_eq (sendPay_gather (F := F) d0 0 7 (by decide))) $$ Hat7_pay1
  isplitl [Hp5]; · iexact Hp5
  isplitl [Hq5]; · iexact Hq5
  isplitl [Hp7]; · iexact Hp7
  isplitl [Hat5]; · iexact Hat5
  isplitl [Hatr5]; · iexact Hatr5
  isplitl [Hat7]; · iexact Hat7
  iexact HO

theorem part33 (c : Dev nD) (κ0 κ1 κ2 κ3 κ4 : ℕ) (d0 : Dev nD) (hd : d0 = c) (v65 v79 : BitVec 32)
    (O : CellTallies nD τ sig Unit) (W : Waits sig Unit) :
    iprop(cellInv (ER (F := F)) (cubeRd x w) κ0 (recvCell c 0 7) ∗ cellInv (ER (F := F)) (cubeRd x w) κ1 (locCell c 0 1)
        ∗ cellInv (ER (F := F)) (cubeRd x w) κ2 (sendCell c 0 9) ∗ cellInv (ER (F := F)) (cubeRd x w) κ3 (recvCell (peer 0 9 c) 0 9) ∗ cellInv (ER (F := F)) (cubeRd x w) κ4 (sendCell c 1 5)
        ∗ MayWait (c : Thread nD τ) (.dma (rsem 0 7)) () (O + tallyAt (recvCell (peer 0 9 c) 0 9) () (credOf 0 9)) ∗ MayWait (c : Thread nD τ) (.dma (ssem 1 5)) () O
        ∗ holdsW c 0 (o3 0 (nb 0 1 c)) 256 (hCg 0 c) (gath x w 0)
        ∗ ownsW (nb 0 0 c) 0 (away1 0 c) 512 (hC 0 c)
        ∗ ownsOut c 0 (away1 0 c) (by have := inb_out 0 1 c; exact this)
        ∗ recvG (F := F) c 0 7 0 ∗ locG (F := F) c 0 1 0 ∗ sendG (F := F) c 0 9 0 ∗ sendG (F := F) c 1 5 1
        ∗ owes (c : Thread nD τ) (O + tallyAt (recvCell (peer 0 9 c) 0 9) () (credOf 0 9)) W)
      ⊢ wp frame (wpE (defs₀ (F := F)) Variants.none (c : Thread nD τ) none) Set.univ
          (withBufs (k0_part33 (F := F)) d0 v65 v79)
          (fun _ => iprop(partW c 0 (away1 0 c) 512 (hC 0 c) [fullShare.right.left, fullShare.right.right.left] (gath x w 0)
            ∗ lentW c 1 (o3 1 c) 256 (hG 1 c) fullShare.right.left
            ∗ recvG (F := F) c 0 7 1 ∗ locG (F := F) c 0 1 1 ∗ sendG (F := F) c 0 9 1 ∗ sendG (F := F) c 1 5 2
            ∗ owes (c : Thread nD τ) O (insert (SemLoc.dma (ssem 1 5), ()) (insert (SemLoc.dma (rsem 0 7), ()) W)))) := by
  subst hd
  simp only [p30_sendG_0, p30_sendG_1, p30_sendG_2, p30_recvG_0, p30_recvG_1, p30_locG_0, p30_locG_1]
  iintro ⟨#HI0, #HI1, #HI2, #HI3, #HI4, #Hmw0, #Hmw1, HCg, Hd9, HOut, ⟨Hcr7, Hatr7⟩, ⟨Htl, Hrl, Hatl⟩, ⟨Ht9, Hr9, Htr9, Hrr9, Hat9⟩, ⟨Hc5, Hat5⟩, HO⟩
  unfold withBufs; rw [k0_part33_eq_skeleton]; unfold k0_part33_skel
  sl_exec
  ihave HCe := (Entails.of_eq ((recvPay_gather x w d0 0 7 (by decide)).trans (holdsW_land7 d0 0 _))) $$ Hatr7_pay1
  ihave HC := (holdsW_C d0 0 (gath x w 0)).2 $$ [HCg HCe]
  · iframe HCg HCe
  ihave H4 := (p30_holdsW_four d0 0 (hC 0 d0) (gath x w 0)) $$ HC
  icases H4 with ⟨%f, Hl, Hm, Hn, Hlsh, %hf⟩
  iapply (ev_local x w d0 0 1 (Forms.off_21 d0) (Forms.off_58 d0) rfl f hf) $$ [Hlsh HOut Htl Hrl]
  · isplitl []; · iexact HI1
    isplitl [Hlsh]; · iexact Hlsh
    isplitl [HOut]; · iexact HOut
    isplitl [Htl]; · iexact Htl
    iexact Hrl
  iintro Hcl
  sl_exec
  iapply (ev_send_share x w d0 0 9 (by decide) (n := 1368) (wd := 512) (off := away1 0 d0) rfl rfl rfl (hC 0 d0)
      (Forms.off_21 d0) (Forms.off_21 d0) rfl rfl (Forms.dev_31 d0) rfl rfl (q := fullShare.left) rfl
      O rfl f hf) $$ [Hl Hd9 HO Ht9 Hr9 Htr9 Hrr9]
  · isplitl []; · iexact HI2
    isplitl []; · iexact HI3
    isplitl [Hl]; · iexact Hl
    isplitl [Hd9]; · iexact Hd9
    isplitl [HO]; · iexact HO
    isplitl [Ht9]; · iexact Ht9
    isplitl [Hr9]; · iexact Hr9
    isplitl [Htr9]; · iexact Htr9
    iexact Hrr9
  iintro ⟨Hc9, HO⟩
  sl_exec
  sl_step
  ihave Hp5 := (Entails.of_eq (sendPay_gather (F := F) d0 1 5 (by decide))) $$ Hat5_pay1
  isplitl [Hm Hn]
  · unfold partW
    simp only [List.foldr_cons, List.foldr_nil]
    iexists f
    isplitl [Hm Hn]
    · isplitl [Hm]; · iexact Hm
      isplitl [Hn]; · iexact Hn
      iempintro
    · ipureintro; exact hf
  isplitl [Hp5]; · iexact Hp5
  isplitl [Hatr7]; · iexact Hatr7
  isplitl [Hcl Hatl]
  · iframe Hcl Hatl
  isplitl [Hc9 Hat9]
  · iframe Hc9 Hat9
  isplitl [Hat5]; · iexact Hat5
  iexact HO

theorem part34 (c : Dev nD) (κ0 κ1 κ2 κ3 : ℕ) (d0 : Dev nD) (hd : d0 = c) (v79 : BitVec 32)
    (O : CellTallies nD τ sig Unit) (W : Waits sig Unit) :
    iprop(cellInv (ER (F := F)) (cubeRd x w) κ0 (recvCell c 1 5) ∗ cellInv (ER (F := F)) (cubeRd x w) κ1 (sendCell c 1 7) ∗ cellInv (ER (F := F)) (cubeRd x w) κ2 (recvCell c 1 7) ∗ cellInv (ER (F := F)) (cubeRd x w) κ3 (locCell c 1 1)
        ∗ MayWait (c : Thread nD τ) (.dma (rsem 1 5)) () O ∗ MayWait (c : Thread nD τ) (.dma (ssem 1 7)) () O ∗ MayWait (c : Thread nD τ) (.dma (rsem 1 7)) () O
        ∗ ownsOut c 1 (away1 1 c) (by have := inb_out 1 1 c; exact this)
        ∗ recvG (F := F) c 1 5 0 ∗ sendG (F := F) c 1 7 1 ∗ recvG (F := F) c 1 7 0 ∗ locG (F := F) c 1 1 0
        ∗ owes (c : Thread nD τ) O W)
      ⊢ wp frame (wpE (defs₀ (F := F)) Variants.none (c : Thread nD τ) none) Set.univ
          (withBufs (k0_part34 (F := F)) d0 v79)
          (fun _ => iprop(lentW c 1 (away2 1 c) 256 (hE 1 c) fullShare.left
            ∗ partW c 1 (away1 1 c) 512 (hC 1 c) keep3 (gath x w 1)
            ∗ recvG (F := F) c 1 5 1 ∗ sendG (F := F) c 1 7 2 ∗ recvG (F := F) c 1 7 1 ∗ locG (F := F) c 1 1 1
            ∗ owes (c : Thread nD τ) O (insert (SemLoc.dma (rsem 1 7), ()) (insert (SemLoc.dma (ssem 1 7), ()) (insert (SemLoc.dma (rsem 1 5), ()) W))))) := by
  subst hd
  simp only [p30_sendG_1, p30_sendG_2, p30_recvG_0, p30_recvG_1, p30_locG_0, p30_locG_1]
  iintro ⟨#HI0, #HI1, #HI2, #HI3, #Hmw0, #Hmw1, #Hmw2, HOut, ⟨Hcr5, Hatr5⟩, ⟨Hc7, Hat7⟩, ⟨Hcr7, Hatr7⟩, ⟨Htl, Hrl, Hatl⟩, HO⟩
  unfold withBufs; rw [k0_part34_eq_skeleton]; unfold k0_part34_skel
  sl_exec
  ihave HCg := (Entails.of_eq ((recvPay_gather x w d0 1 5 (by decide)).trans (holdsW_land5 d0 1 _))) $$ Hatr5_pay1
  ihave HCe := (Entails.of_eq ((recvPay_gather x w d0 1 7 (by decide)).trans (holdsW_land7 d0 1 _))) $$ Hatr7_pay1
  ihave Hp7 := (Entails.of_eq (sendPay_gather (F := F) d0 1 7 (by decide))) $$ Hat7_pay1
  ihave HC := (holdsW_C d0 1 (gath x w 1)).2 $$ [HCg HCe]
  · iframe HCg HCe
  ihave H4 := (p30_holdsW_four d0 1 (hC 1 d0) (gath x w 1)) $$ HC
  icases H4 with ⟨%f, Hl, Hm, Hn, Hlsh, %hf⟩
  iapply (ev_local x w d0 1 1 (Forms.off_24 d0) (Forms.off_59 d0) rfl f hf) $$ [Hlsh HOut Htl Hrl]
  · isplitl []; · iexact HI3
    isplitl [Hlsh]; · iexact Hlsh
    isplitl [HOut]; · iexact HOut
    isplitl [Htl]; · iexact Htl
    iexact Hrl
  iintro Hcl
  sl_exec
  sl_step
  isplitl [Hp7]; · iexact Hp7
  isplitl [Hl Hm Hn]
  · unfold partW keep3
    simp only [List.foldr_cons, List.foldr_nil]
    iexists f
    isplitl [Hl Hm Hn]
    · isplitl [Hl]; · iexact Hl
      isplitl [Hm]; · iexact Hm
      isplitl [Hn]; · iexact Hn
      iempintro
    · ipureintro; exact hf
  iframe Hatr5 Hat7 Hatr7
  isplitl [Hcl Hatl]
  · iframe Hcl Hatl
  iexact HO

end Cert.Kernel.Body

end
-- ==== Proof.K.Parts35.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.EvSend
import proofs.«900802_g7700000000000803_dist_gemm_ar_m4096_k4096_n2048_f32_relu_v7x_i8_1_alg».proof.Proof.K.EvStore
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages

noncomputable section

namespace Cert.Kernel.Body

open Cert.Kernel Cert.Kernel.Gen Cert.Kernel.Spec Cert.Kernel.Reg Cert.Kernel.Proto
open Cert.Kernel.Stages Cert.Kernel.Tables Cert.Kernel.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

private theorem p35_land5 (c : Dev nD) (p : Fin 3) :
    (recvPay x w c p 5 : sProp 𝕄) = holdsW c p (o3 p (nb p 1 c)) 256 (hCg p c) (gath x w p) :=
  (show (recvPay x w c p 5 : sProp 𝕄) = holdsW c p (srcOff p 5 (peer p 5 c)) (wid 5) (inb_src p 5 (peer p 5 c)) (gath x w p) from rfl).trans
    (holdsW_land5 c p _)
private theorem p35_land6 (c : Dev nD) (p : Fin 3) :
    (recvPay x w c p 6 : sProp 𝕄) = holdsW c p (o3 p (nb p 0 c)) 256 (hBg p c) (gath x w p) :=
  (show (recvPay x w c p 6 : sProp 𝕄) = holdsW c p (srcOff p 6 (peer p 6 c)) (wid 6) (inb_src p 6 (peer p 6 c)) (gath x w p) from rfl).trans
    (holdsW_land6 c p _)
private theorem p35_land7 (c : Dev nD) (p : Fin 3) :
    (recvPay x w c p 7 : sProp 𝕄) = holdsW c p (away2 p (nb p 1 c)) 256 (hCe p c) (gath x w p) :=
  (show (recvPay x w c p 7 : sProp 𝕄) = holdsW c p (srcOff p 7 (peer p 7 c)) (wid 7) (inb_src p 7 (peer p 7 c)) (gath x w p) from rfl).trans
    (holdsW_land7 c p _)
private theorem p35_land8 (c : Dev nD) (p : Fin 3) :
    (recvPay x w c p 8 : sProp 𝕄) = holdsW c p (away2 p (nb p 0 c)) 256 (hBe p c) (gath x w p) :=
  (show (recvPay x w c p 8 : sProp 𝕄) = holdsW c p (srcOff p 8 (peer p 8 c)) (wid 8) (inb_src p 8 (peer p 8 c)) (gath x w p) from rfl).trans
    (holdsW_land8 c p _)

private theorem p35_lend (c : Dev nD) (p : Fin 3) {off wd : ℕ} (h : Inb3 2048 p.val (rowLen p) off wd) (val : ℕ → ℕ → F .f32) :
    (holdsW c p off wd h val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{lshr} f)
          ∗ ⌜∀ y : (⟨3, ![1, rowLen p, wd]⟩ : Shape).Idx, (wbM.access (wbRect p.val (rowLen p) off wd h)).read (Elt F) f y = val (y 1).val (off + (y 2).val)⌝
          ∗ partW c p off wd h keep3 val) := by
  unfold holdsW partW keep3 lshr
  simp only [List.foldr_cons, List.foldr_nil]
  iintro ⟨%f, Hf, %hf⟩
  ihave H1 := (pointsTo_share (PosShare.mem_left_op_right fullShare)).1 $$ Hf
  icases H1 with ⟨Hl, Hr⟩
  ihave H2 := (pointsTo_share (PosShare.mem_left_op_right fullShare.right)).1 $$ Hr
  icases H2 with ⟨Hrl, Hrr⟩
  ihave H3 := (pointsTo_share (PosShare.mem_left_op_right fullShare.right.right)).1 $$ Hrr
  icases H3 with ⟨Hrrl, Hrrr⟩
  iexists f
  iframe Hrrr
  isplitr
  · ipureintro; exact hf
  iexists f
  isplitl [Hl Hrl Hrrl]
  · isplitl [Hl]; · iexact Hl
    isplitl [Hrl]; · iexact Hrl
    isplitl [Hrrl]; · iexact Hrrl
    iempintro
  · ipureintro; exact hf

private theorem p35_take (c : Dev nD) (p : Fin 3) {off wd : ℕ} (h : Inb3 2048 p.val (rowLen p) off wd)
    (q : PosShare TreeShare) (qs : List (PosShare TreeShare)) (val : ℕ → ℕ → F .f32) :
    (partW c p off wd h (q :: qs) val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{q} f)
          ∗ ⌜∀ y : (⟨3, ![1, rowLen p, wd]⟩ : Shape).Idx, (wbM.access (wbRect p.val (rowLen p) off wd h)).read (Elt F) f y = val (y 1).val (off + (y 2).val)⌝
          ∗ partW c p off wd h qs val) := by
  unfold partW
  simp only [List.foldr_cons]
  iintro ⟨%f, ⟨Hq, Hr⟩, %hf⟩
  iexists f
  iframe Hq
  isplitr
  · ipureintro; exact hf
  iexists f
  iframe Hr
  ipureintro; exact hf

private theorem p35_take3 (c : Dev nD) (p : Fin 3) {off wd : ℕ} (h : Inb3 2048 p.val (rowLen p) off wd) (val : ℕ → ℕ → F .f32) :
    (partW c p off wd h keep3 val : sProp 𝕄)
      ⊢ iprop(∃ f : Buf (Elt F) ((wbM.access (wbRect p.val (rowLen p) off wd h)).loc (c : Thread nD τ)),
          (((wbM.access (wbRect p.val (rowLen p) off wd h)).loc (c : Thread nD τ)) ↦[wbReg c p.val (rowLen p) off wd h]{fullShare.left} f)
          ∗ ⌜∀ y : (⟨3, ![1, rowLen p, wd]⟩ : Shape).Idx, (wbM.access (wbRect p.val (rowLen p) off wd h)).read (Elt F) f y = val (y 1).val (off + (y 2).val)⌝
          ∗ partW c p off wd h [fullShare.right.left, fullShare.right.right.left] val) :=
  p35_take c p h fullShare.left [fullShare.right.left, fullShare.right.right.left] val

theorem part35 (c : Dev nD) (κ0 κ1 κ2 κ3 : ℕ) (d0 : Dev nD) (hd : d0 = c) (v65 v68 : BitVec 32)
    (O : CellTallies nD τ sig Unit) (W : Waits sig Unit) :
    iprop(cellInv (ER (F := F)) (cubeRd x w) κ0 (sendCell c 1 9) ∗ cellInv (ER (F := F)) (cubeRd x w) κ1 (recvCell (peer 1 9 c) 1 9)
        ∗ cellInv (ER (F := F)) (cubeRd x w) κ2 (sendCell c 2 5) ∗ cellInv (ER (F := F)) (cubeRd x w) κ3 (recvCell c 2 5)
        ∗ MayWait (c : Thread nD τ) (.dma (ssem 2 5)) () O ∗ MayWait (c : Thread nD τ) (.dma (rsem 2 5)) () O
        ∗ partW c 1 (away1 1 c) 512 (hC 1 c) keep3 (gath x w 1)
        ∗ ownsW (nb 1 0 c) 1 (away1 1 c) 512 (hC 1 c)
        ∗ sendG (F := F) c 1 9 0 ∗ sendG (F := F) c 2 5 1 ∗ recvG (F := F) c 2 5 0
        ∗ owes (c : Thread nD τ) (O + tallyAt (recvCell (peer 1 9 c) 1 9) () (credOf 1 9)) W)
      ⊢ wp frame (wpE (defs₀ (F := F)) Variants.none (c : Thread nD τ) none) Set.univ
          (withBufs (k0_part35 (F := F)) d0 v65 v68)
          (fun _ => iprop(partW c 1 (away1 1 c) 512 (hC 1 c) [fullShare.right.left, fullShare.right.right.left] (gath x w 1)
            ∗ lentW c 2 (o3 2 c) 256 (hG 2 c) fullShare.right.left
            ∗ holdsW c 2 (o3 2 (nb 2 1 c)) 256 (hCg 2 c) (gath x w 2)
            ∗ sendG (F := F) c 1 9 1 ∗ sendG (F := F) c 2 5 2 ∗ recvG (F := F) c 2 5 1
            ∗ owes (c : Thread nD τ) O (insert (SemLoc.dma (rsem 2 5), ()) (insert (SemLoc.dma (ssem 2 5), ()) W)))) := by
  subst hd
  simp only [sendG, recvG]
  iintro ⟨#HI0, #HI1, #HI2, #HI3, #Hm0, #Hm1, Hkeep, Hown, ⟨Htok, #Hr, Htok', #Hr', Hat0⟩, ⟨Hc1, Hat1⟩, ⟨Hc2, Hat2⟩, HO⟩
  unfold withBufs; rw [k0_part35_eq_skeleton]; unfold k0_part35_skel
  sl_exec
  ihave HT := (p35_take3 d0 1 (hC 1 d0) (gath x w 1)) $$ Hkeep
  icases HT with ⟨%f, Hsh, %hf, Hrest⟩
  iapply (ev_send_share x w d0 1 9 (by decide) rfl rfl rfl (hC 1 d0) (ho := Forms.off_24 d0) (ho' := Forms.off_24 d0)
    (hsrcE := rfl) (hdstE := rfl) (hc' := Forms.dev_32 d0) (hsS := rfl) (hsR := rfl) (q := fullShare.left) (hq := rfl) O rfl f hf) $$ [Hsh Hown HO Htok Htok']
  · isplitl []; · iexact HI0
    isplitl []; · iexact HI1
    isplitl [Hsh]; · iexact Hsh
    isplitl [Hown]; · iexact Hown
    isplitl [HO]; · iexact HO
    isplitl [Htok]; · iexact Htok
    isplitl []; · iexact Hr
    isplitl [Htok']; · iexact Htok'
    iexact Hr'
  iintro ⟨Hcs, HO⟩
  sl_exec
  sl_step
  iframe Hrest
  isplitl [Hat1_pay1]
  · iapply (Entails.of_eq (show sendPay (F := F) d0 2 5 = lentW d0 2 (o3 2 d0) 256 (hG 2 d0) fullShare.right.left from rfl))
    iexact Hat1_pay1
  isplitl [Hat2_pay1]; · iapply (Entails.of_eq (p35_land5 x w d0 2)); iexact Hat2_pay1
  isplitl [Hcs Hat0]
  · iframe Hcs Hat0
  isplitl [Hat1]; · iexact Hat1
  isplitl [Hat2]; · iexact Hat2
  iexact HO

theorem part36 (c : Dev nD) (κ0 κ1 κ2 κ3 κ4 : ℕ) (d0 : Dev nD) (hd : d0 = c) (v50 v65 v79 : BitVec 32)
    (O : CellTallies nD τ sig Unit) (W : Waits sig Unit) :
    iprop(cellInv (ER (F := F)) (cubeRd x w) κ0 (sendCell c 2 7) ∗ cellInv (ER (F := F)) (cubeRd x w) κ1 (recvCell c 2 7) ∗ cellInv (ER (F := F)) (cubeRd x w) κ2 (locCell c 2 1)
        ∗ cellInv (ER (F := F)) (cubeRd x w) κ3 (sendCell c 2 9) ∗ cellInv (ER (F := F)) (cubeRd x w) κ4 (recvCell (peer 2 9 c) 2 9)
        ∗ MayWait (c : Thread nD τ) (.dma (ssem 2 7)) () (O + tallyAt (recvCell (peer 2 9 c) 2 9) () (credOf 2 9)) ∗ MayWait (c : Thread nD τ) (.dma (rsem 2 7)) () (O + tallyAt (recvCell (peer 2 9 c) 2 9) () (credOf 2 9))
        ∗ holdsW c 2 (o3 2 (nb 2 1 c)) 256 (hCg 2 c) (gath x w 2)
        ∗ ownsW (nb 2 0 c) 2 (away1 2 c) 512 (hC 2 c)
        ∗ ownsOut c 2 (away1 2 c) (by have := inb_out 2 1 c; exact this)
        ∗ sendG (F := F) c 2 7 1 ∗ recvG (F := F) c 2 7 0 ∗ locG (F := F) c 2 1 0 ∗ sendG (F := F) c 2 9 0
        ∗ owes (c : Thread nD τ) (O + tallyAt (recvCell (peer 2 9 c) 2 9) () (credOf 2 9)) W)
      ⊢ wp frame (wpE (defs₀ (F := F)) Variants.none (c : Thread nD τ) none) Set.univ
          (withBufs (k0_part36 (F := F)) d0 v50 v65 v79)
          (fun _ => iprop(lentW c 2 (away2 2 c) 256 (hE 2 c) fullShare.left
            ∗ partW c 2 (away1 2 c) 512 (hC 2 c) [fullShare.right.left, fullShare.right.right.left] (gath x w 2)
            ∗ sendG (F := F) c 2 7 2 ∗ recvG (F := F) c 2 7 1 ∗ locG (F := F) c 2 1 1 ∗ sendG (F := F) c 2 9 1
            ∗ owes (c : Thread nD τ) O (insert (SemLoc.dma (rsem 2 7), ()) (insert (SemLoc.dma (ssem 2 7), ()) W)))) := by
  subst hd
  simp only [sendG, recvG, locG]
  iintro ⟨#HI0, #HI1, #HI2, #HI3, #HI4, #Hm0, #Hm1, HCg, Hown, Hout, ⟨Hc0, Hat0⟩, ⟨Hc1, Hat1⟩, ⟨Htok2, #Hr2, Hat2⟩, ⟨Htok, #Hr, Htok', #Hr', Hat3⟩, HO⟩
  unfold withBufs; rw [k0_part36_eq_skeleton]; unfold k0_part36_skel
  sl_exec
  ihave HCe := (Entails.of_eq (p35_land7 x w d0 2)) $$ Hat1_pay1
  ihave HC := (holdsW_C d0 2 (gath x w 2)).2 $$ [HCg HCe]
  · iframe HCg HCe
  ihave HL := (p35_lend d0 2 (hC 2 d0) (gath x w 2)) $$ HC
  icases HL with ⟨%f, Hsh, %hf, Hkeep⟩
  iapply (ev_local x w d0 2 1 (ho := Forms.off_27 d0) (ho' := Forms.off_60 d0) (hsem := rfl) f hf) $$ [Hsh Hout Htok2]
  · isplitl []; · iexact HI2
    isplitl [Hsh]; · iexact Hsh
    isplitl [Hout]; · iexact Hout
    isplitl [Htok2]; · iexact Htok2
    iexact Hr2
  iintro Hcl
  sl_exec
  ihave HT := (p35_take3 d0 2 (hC 2 d0) (gath x w 2)) $$ Hkeep
  icases HT with ⟨%g, Hsh', %hg, Hrest⟩
  iapply (ev_send_share x w d0 2 9 (by decide) rfl rfl rfl (hC 2 d0) (ho := Forms.off_27 d0) (ho' := Forms.off_27 d0)
    (hsrcE := rfl) (hdstE := rfl) (hc' := Forms.dev_33 d0) (hsS := rfl) (hsR := rfl) (q := fullShare.left) (hq := rfl) O rfl g hg) $$ [Hsh' Hown HO Htok Htok']
  · iframe HI3 HI4
    isplitl [Hsh']; · iexact Hsh'
    isplitl [Hown]; · iexact Hown
    isplitl [HO]; · iexact HO
    isplitl [Htok]; · iexact Htok
    isplitl []; · iexact Hr
    isplitl [Htok']; · iexact Htok'
    iexact Hr'
  iintro ⟨Hcs, HO⟩
  sl_exec
  sl_step
  isplitl [Hat0_pay1]
  · iapply (Entails.of_eq (show sendPay (F := F) d0 2 7 = lentW d0 2 (away2 2 d0) 256 (hE 2 d0) fullShare.left from rfl))
    iexact Hat0_pay1
  iframe Hrest Hat0 Hat1
  isplitl [Hcl Hat2]
  · iframe Hcl Hat2
  isplitl [Hcs Hat3]
  · iframe Hcs Hat3
  iexact HO

theorem part37 (c : Dev nD) (κ0 κ1 κ2 : ℕ) (d0 : Dev nD) (hd : d0 = c) (v19 v33 v65 v88 v118 v148 v1053 : BitVec 32)
    (O : CellTallies nD τ sig Unit) (W : Waits sig Unit) :
    iprop(cellInv (ER (F := F)) (cubeRd x w) κ0 (sendCell c 0 6) ∗ cellInv (ER (F := F)) (cubeRd x w) κ1 (recvCell c 0 6) ∗ cellInv (ER (F := F)) (cubeRd x w) κ2 (sendCell c 0 8)
        ∗ MayWait (c : Thread nD τ) (.dma (ssem 0 6)) () O ∗ MayWait (c : Thread nD τ) (.dma (rsem 0 6)) () O ∗ MayWait (c : Thread nD τ) (.dma (ssem 0 8)) () O
        ∗ sendG (F := F) c 0 6 1 ∗ recvG (F := F) c 0 6 0 ∗ sendG (F := F) c 0 8 1
        ∗ owes (c : Thread nD τ) O W)
      ⊢ wp frame (wpE (defs₀ (F := F)) Variants.none (c : Thread nD τ) none) Set.univ
          (withBufs (k0_part37 (F := F)) d0 v19 v33 v65 v88 v118 v148 v1053)
          (fun _ => iprop(lentW c 0 (o3 0 c) 256 (hG 0 c) fullShare.right.right.left
            ∗ holdsW c 0 (o3 0 (nb 0 0 c)) 256 (hBg 0 c) (gath x w 0)
            ∗ lentW c 0 (away2 0 c) 256 (hE 0 c) fullShare.right.left
            ∗ sendG (F := F) c 0 6 2 ∗ recvG (F := F) c 0 6 1 ∗ sendG (F := F) c 0 8 2
            ∗ owes (c : Thread nD τ) O (insert (SemLoc.dma (ssem 0 8), ()) (insert (SemLoc.dma (rsem 0 6), ()) (insert (SemLoc.dma (ssem 0 6), ()) W))))) := by
  subst hd
  simp only [sendG, recvG]
  iintro ⟨#HI0, #HI1, #HI2, #Hm0, #Hm1, #Hm2, ⟨Hc0, Hat0⟩, ⟨Hc1, Hat1⟩, ⟨Hc2, Hat2⟩, HO⟩
  unfold withBufs; rw [k0_part37_eq_skeleton]; unfold k0_part37_skel
  sl_exec
  sl_step
  isplitl [Hat0_pay1]
  · iapply (Entails.of_eq (show sendPay (F := F) d0 0 6 = lentW d0 0 (o3 0 d0) 256 (hG 0 d0) fullShare.right.right.left from rfl))
    iexact Hat0_pay1
  isplitl [Hat1_pay1]; · iapply (Entails.of_eq (p35_land6 x w d0 0)); iexact Hat1_pay1
  isplitl [Hat2_pay1]
  · iapply (Entails.of_eq (show sendPay (F := F) d0 0 8 = lentW d0 0 (away2 0 d0) 256 (hE 0 d0) fullShare.right.left from rfl))
    iexact Hat2_pay1
  isplitl [Hat0]; · iexact Hat0
  isplitl [Hat1]; · iexact Hat1
  isplitl [Hat2]; · iexact Hat2
  iexact HO

theorem part38 (c : Dev nD) (κ0 κ1 κ2 : ℕ) (d0 : Dev nD) (hd : d0 = c) (v65 v68 : BitVec 32)
    (O : CellTallies nD τ sig Unit) (W : Waits sig Unit) :
    iprop(cellInv (ER (F := F)) (cubeRd x w) κ0 (recvCell c 0 8) ∗ cellInv (ER (F := F)) (cubeRd x w) κ1 (locCell c 0 2) ∗ cellInv (ER (F := F)) (cubeRd x w) κ2 (sendCell c 1 6)
        ∗ MayWait (c : Thread nD τ) (.dma (rsem 0 8)) () O ∗ MayWait (c : Thread nD τ) (.dma (ssem 1 6)) () O
        ∗ holdsW c 0 (o3 0 (nb 0 0 c)) 256 (hBg 0 c) (gath x w 0)
        ∗ ownsOut c 0 (sub2 0 c) (by have := inb_out 0 2 c; exact this)
        ∗ recvG (F := F) c 0 8 0 ∗ locG (F := F) c 0 2 0 ∗ sendG (F := F) c 1 6 1
        ∗ owes (c : Thread nD τ) O W)
      ⊢ wp frame (wpE (defs₀ (F := F)) Variants.none (c : Thread nD τ) none) Set.univ
          (withBufs (k0_part38 (F := F)) d0 v65 v68)
          (fun _ => iprop(partW c 0 (sub2 0 c) 512 (hB 0 c) keep3 (gath x w 0)
            ∗ lentW c 1 (o3 1 c) 256 (hG 1 c) fullShare.right.right.left
            ∗ recvG (F := F) c 0 8 1 ∗ locG (F := F) c 0 2 1 ∗ sendG (F := F) c 1 6 2
            ∗ owes (c : Thread nD τ) O (insert (SemLoc.dma (ssem 1 6), ()) (insert (SemLoc.dma (rsem 0 8), ()) W)))) := by
  subst hd
  simp only [sendG, recvG, locG]
  iintro ⟨#HI0, #HI1, #HI2, #Hm0, #Hm1, HBg, Hout, ⟨Hc0, Hat0⟩, ⟨Htok, #Hr, Hat1⟩, ⟨Hc2, Hat2⟩, HO⟩
  unfold withBufs; rw [k0_part38_eq_skeleton]; unfold k0_part38_skel
  sl_exec
  ihave HBe := (Entails.of_eq (p35_land8 x w d0 0)) $$ Hat0_pay1
  ihave HB := (holdsW_B d0 0 (gath x w 0)).2 $$ [HBg HBe]
  · iframe HBg HBe
  ihave HL := (p35_lend d0 0 (hB 0 d0) (gath x w 0)) $$ HB
  icases HL with ⟨%f, Hsh, %hf, Hkeep⟩
  iapply (ev_local x w d0 0 2 (ho := Forms.off_12 d0) (ho' := Forms.off_61 d0) (hsem := rfl) f hf) $$ [Hsh Hout Htok]
  · isplitl []; · iexact HI1
    isplitl [Hsh]; · iexact Hsh
    isplitl [Hout]; · iexact Hout
    isplitl [Htok]; · iexact Htok
    iexact Hr
  iintro Hcl
  sl_exec
  sl_step
  iframe Hkeep
  isplitl [Hat2_pay1]
  · iapply (Entails.of_eq (show sendPay (F := F) d0 1 6 = lentW d0 1 (o3 1 d0) 256 (hG 1 d0) fullShare.right.right.left from rfl))
    iexact Hat2_pay1
  iframe Hat0
  isplitl [Hcl Hat1]
  · iframe Hcl Hat1
  isplitl [Hat2]; · iexact Hat2
  iexact HO

theorem part39 (c : Dev nD) (κ0 κ1 κ2 κ3 : ℕ) (d0 : Dev nD) (hd : d0 = c) (v68 : BitVec 32)
    (O : CellTallies nD τ sig Unit) (W : Waits sig Unit) :
    iprop(cellInv (ER (F := F)) (cubeRd x w) κ0 (recvCell c 1 6) ∗ cellInv (ER (F := F)) (cubeRd x w) κ1 (sendCell c 1 8) ∗ cellInv (ER (F := F)) (cubeRd x w) κ2 (recvCell c 1 8) ∗ cellInv (ER (F := F)) (cubeRd x w) κ3 (locCell c 1 2)
        ∗ MayWait (c : Thread nD τ) (.dma (rsem 1 6)) () O ∗ MayWait (c : Thread nD τ) (.dma (ssem 1 8)) () O ∗ MayWait (c : Thread nD τ) (.dma (rsem 1 8)) () O
        ∗ ownsOut c 1 (sub2 1 c) (by have := inb_out 1 2 c; exact this)
        ∗ recvG (F := F) c 1 6 0 ∗ sendG (F := F) c 1 8 1 ∗ recvG (F := F) c 1 8 0 ∗ locG (F := F) c 1 2 0
        ∗ owes (c : Thread nD τ) O W)
      ⊢ wp frame (wpE (defs₀ (F := F)) Variants.none (c : Thread nD τ) none) Set.univ
          (withBufs (k0_part39 (F := F)) d0 v68)
          (fun _ => iprop(lentW c 1 (away2 1 c) 256 (hE 1 c) fullShare.right.left
            ∗ partW c 1 (sub2 1 c) 512 (hB 1 c) keep3 (gath x w 1)
            ∗ recvG (F := F) c 1 6 1 ∗ sendG (F := F) c 1 8 2 ∗ recvG (F := F) c 1 8 1 ∗ locG (F := F) c 1 2 1
            ∗ owes (c : Thread nD τ) O (insert (SemLoc.dma (rsem 1 8), ()) (insert (SemLoc.dma (ssem 1 8), ()) (insert (SemLoc.dma (rsem 1 6), ()) W))))) := by
  subst hd
  simp only [sendG, recvG, locG]
  iintro ⟨#HI0, #HI1, #HI2, #HI3, #Hm0, #Hm1, #Hm2, Hout, ⟨Hc0, Hat0⟩, ⟨Hc1, Hat1⟩, ⟨Hc2, Hat2⟩, ⟨Htok, #Hr, Hat3⟩, HO⟩
  unfold withBufs; rw [k0_part39_eq_skeleton]; unfold k0_part39_skel
  sl_exec
  ihave HBg := (Entails.of_eq (p35_land6 x w d0 1)) $$ Hat0_pay1
  ihave HBe := (Entails.of_eq (p35_land8 x w d0 1)) $$ Hat2_pay1
  ihave HB := (holdsW_B d0 1 (gath x w 1)).2 $$ [HBg HBe]
  · iframe HBg HBe
  ihave HL := (p35_lend d0 1 (hB 1 d0) (gath x w 1)) $$ HB
  icases HL with ⟨%f, Hsh, %hf, Hkeep⟩
  iapply (ev_local x w d0 1 2 (ho := Forms.off_15 d0) (ho' := Forms.off_62 d0) (hsem := rfl) f hf) $$ [Hsh Hout Htok]
  · isplitl []; · iexact HI3
    isplitl [Hsh]; · iexact Hsh
    isplitl [Hout]; · iexact Hout
    isplitl [Htok]; · iexact Htok
    iexact Hr
  iintro Hcl
  sl_step
  isplitl [Hat1_pay1]
  · iapply (Entails.of_eq (show sendPay (F := F) d0 1 8 = lentW d0 1 (away2 1 d0) 256 (hE 1 d0) fullShare.right.left from rfl))
    iexact Hat1_pay1
  iframe Hkeep Hat0 Hat1 Hat2
  isplitl [Hcl Hat3]
  · iframe Hcl Hat3
  iexact HO

end Cert.Kernel.Body

end
-- ==== Proof.K.Parts40.lean ====
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.EvWait
import proofs.«900802_g7700000000000803_dist_gemm_ar_m4096_k4096_n2048_f32_relu_v7x_i8_1_alg».proof.Proof.K.Pieces
import proofs.«900802_g7700000000000803_dist_gemm_ar_m4096_k4096_n2048_f32_relu_v7x_i8_1_alg».proof.Proof.K.Stages
import proofs.«900802_g7700000000000803_dist_gemm_ar_m4096_k4096_n2048_f32_relu_v7x_i8_1_alg».proof.Proof.K.Tables

noncomputable section

namespace Cert.Kernel.Body

open Cert.Kernel Cert.Kernel.Gen Cert.Kernel.Spec Cert.Kernel.Reg Cert.Kernel.Proto
open Cert.Kernel.Tables Cert.Kernel.Stages Cert.Kernel.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (x : Dev nD → Vec F S4096x512 .f32) (w : Dev nD → Vec F S512x2048 .f32)

attribute [local sl_rounds] duties_send amount_send payload_send expect_send duties_recv amount_recv payload_recv expect_recv
  duties_loc amount_loc payload_loc expect_loc

private theorem p40_sendPay6 (c : Dev nD) (p : Fin 3) :
    (sendPay (F := F) c p 6 : sProp 𝕄) = lentW c p (o3 p c) 256 (hG p c) fullShare.right.right.left := rfl
private theorem p40_sendPay8 (c : Dev nD) (p : Fin 3) :
    (sendPay (F := F) c p 8 : sProp 𝕄) = lentW c p (away2 p c) 256 (hE p c) fullShare.right.left := rfl
private theorem p40_sendPay9 (c : Dev nD) (p : Fin 3) :
    (sendPay (F := F) c p 9 : sProp 𝕄) = lentW c p (away1 p c) 512 (hC p c) fullShare.left := rfl
private theorem p40_recvPay6 (c : Dev nD) (p : Fin 3) :
    (recvPay x w c p 6 : sProp 𝕄) = holdsW c p (o3 p (nb p 0 c)) 256 (hBg p c) (gath x w p) := holdsW_land6 c p _
private theorem p40_recvPay8 (c : Dev nD) (p : Fin 3) :
    (recvPay x w c p 8 : sProp 𝕄) = holdsW c p (away2 p (nb p 0 c)) 256 (hBe p c) (gath x w p) := holdsW_land8 c p _
private theorem p40_recvPay9 (c : Dev nD) (p : Fin 3) :
    (recvPay x w c p 9 : sProp 𝕄) = holdsW c p (sub1 p c) 512 (hA p c) (gath x w p) := holdsW_land9 c p _

private theorem p40_lend (c : Dev nD) (p : Fin 3) {off : ℕ} (h : Inb3 2048 p.val (rowLen p) off 512) (val : ℕ → ℕ → F .f32) :
    (holdsW c p off 512 h val : sProp 𝕄)
      ⊢ iprop(∃ f : Buf (Elt F) ((wbM.access (wbRect p.val (rowLen p) off 512 h)).loc (c : Thread nD τ)),
          (((wbM.access (wbRect p.val (rowLen p) off 512 h)).loc (c : Thread nD τ)) ↦[wbReg c p.val (rowLen p) off 512 h]{lshr} f)
          ∗ ⌜∀ y : (⟨3, ![1, rowLen p, 512]⟩ : Shape).Idx, (wbM.access (wbRect p.val (rowLen p) off 512 h)).read (Elt F) f y = val (y 1).val (off + (y 2).val)⌝
          ∗ partW c p off 512 h keep3 val) := by
  unfold holdsW partW keep3 lshr
  simp only [List.foldr_cons, List.foldr_nil]
  iintro ⟨%f, Hf, %hf⟩
  ihave H1 := (pointsTo_share (PosShare.mem_left_op_right fullShare)).1 $$ Hf
  icases H1 with ⟨Hl, Hr⟩
  ihave H2 := (pointsTo_share (PosShare.mem_left_op_right fullShare.right)).1 $$ Hr
  icases H2 with ⟨Hrl, Hrr⟩
  ihave H3 := (pointsTo_share (PosShare.mem_left_op_right fullShare.right.right)).1 $$ Hrr
  icases H3 with ⟨Hrrl, Hrrr⟩
  iexists f
  iframe Hrrr
  isplitr
  · ipureintro; exact hf
  iexists f
  isplitl [Hl Hrl Hrrl]
  · isplitl [Hl]; · iexact Hl
    isplitl [Hrl]; · iexact Hrl
    isplitl [Hrrl]; · iexact Hrrl
    iempintro
  · ipureintro; exact hf

theorem part40 (c : Dev nD) (κs6 κr6 κs8 κr8 : ℕ) (d0 : Dev nD) (hd : d0 = c) (v79 : BitVec 32)
    (O : CellTallies nD τ sig Unit) (W : Waits sig Unit) :
    (iprop(cellInv (ER (F := F)) (cubeRd x w) κs6 (sendCell c 2 6) ∗ cellInv (ER (F := F)) (cubeRd x w) κr6 (recvCell c 2 6)
        ∗ cellInv (ER (F := F)) (cubeRd x w) κs8 (sendCell c 2 8) ∗ cellInv (ER (F := F)) (cubeRd x w) κr8 (recvCell c 2 8)
        ∗ sendG (F := F) c 2 6 1 ∗ recvG (F := F) c 2 6 0 ∗ sendG (F := F) c 2 8 1 ∗ recvG (F := F) c 2 8 0
        ∗ owes (c : Thread nD τ) O W
        ∗ MayWait (c : Thread nD τ) (.dma (ssem 2 6)) () O ∗ MayWait (c : Thread nD τ) (.dma (rsem 2 6)) () O
        ∗ MayWait (c : Thread nD τ) (.dma (ssem 2 8)) () O ∗ MayWait (c : Thread nD τ) (.dma (rsem 2 8)) () O) : sProp 𝕄)
      ⊢ wp frame (wpE (defs₀ (F := F)) Variants.none (c : Thread nD τ) none) Set.univ
          (withBufs (k0_part40 (F := F)) d0 v79)
          (fun _ => iprop(owes (c : Thread nD τ) O (insert (SemLoc.dma (rsem 2 8), ()) (insert (SemLoc.dma (ssem 2 8), ()) (insert (SemLoc.dma (rsem 2 6), ()) (insert (SemLoc.dma (ssem 2 6), ()) W))))
            ∗ sendG (F := F) c 2 6 2 ∗ recvG (F := F) c 2 6 1 ∗ sendG (F := F) c 2 8 2 ∗ recvG (F := F) c 2 8 1
            ∗ lentW (F := F) c 2 (o3 2 c) 256 (hG 2 c) fullShare.right.right.left
            ∗ lentW (F := F) c 2 (away2 2 c) 256 (hE 2 c) fullShare.right.left
            ∗ holdsW c 2 (sub2 2 c) 512 (hB 2 c) (gath x w 2))) := by
  subst hd
  simp only [sendG, recvG]
  iintro ⟨#HIs6, #HIr6, #HIs8, #HIr8, ⟨Hcs6, Has6⟩, ⟨Hcr6, Har6⟩, ⟨Hcs8, Has8⟩, ⟨Hcr8, Har8⟩, HO, #Hms6, #Hmr6, #Hms8, #Hmr8⟩
  unfold withBufs; rw [k0_part40_eq_skeleton]; unfold k0_part40_skel
  sl_exec
  sl_step
  isplitl [HO]; · iexact HO
  isplitl [Has6]; · iexact Has6
  isplitl [Har6]; · iexact Har6
  isplitl [Has8]; · iexact Has8
  isplitl [Har8]; · iexact Har8
  isplitl [Has6_pay1]
  · iapply (Entails.of_eq (p40_sendPay6 d0 2)); iexact Has6_pay1
  isplitl [Has8_pay1]
  · iapply (Entails.of_eq (p40_sendPay8 d0 2)); iexact Has8_pay1
  iapply (holdsW_B d0 2 (gath x w 2)).2
  isplitl [Har6_pay1]
  · iapply (Entails.of_eq (p40_recvPay6 x w d0 2)); iexact Har6_pay1
  · iapply (Entails.of_eq (p40_recvPay8 x w d0 2)); iexact Har8_pay1

theorem part41 (c : Dev nD) (κl22 κs9 κr9 : ℕ) (d0 : Dev nD) (hd : d0 = c) (v50 v65 v88 : BitVec 32)
    (O : CellTallies nD τ sig Unit) (W : Waits sig Unit) :
    (iprop(cellInv (ER (F := F)) (cubeRd x w) κl22 (locCell c 2 2) ∗ cellInv (ER (F := F)) (cubeRd x w) κs9 (sendCell c 0 9) ∗ cellInv (ER (F := F)) (cubeRd x w) κr9 (recvCell c 0 9)
        ∗ locG (F := F) c 2 2 0 ∗ sendG (F := F) c 0 9 1 ∗ recvG (F := F) c 0 9 0
        ∗ holdsW c 2 (sub2 2 c) 512 (hB 2 c) (gath x w 2)
        ∗ ownsOut (F := F) c 2 (sub2 2 c) (by have := inb_out 2 2 c; exact this)
        ∗ owes (c : Thread nD τ) O W
        ∗ MayWait (c : Thread nD τ) (.dma (ssem 0 9)) () O ∗ MayWait (c : Thread nD τ) (.dma (rsem 0 9)) () O) : sProp 𝕄)
      ⊢ wp frame (wpE (defs₀ (F := F)) Variants.none (c : Thread nD τ) none) Set.univ
          (withBufs (k0_part41 (F := F)) d0 v50 v65 v88)
          (fun _ => iprop(owes (c : Thread nD τ) O (insert (SemLoc.dma (rsem 0 9), ()) (insert (SemLoc.dma (ssem 0 9), ()) W))
            ∗ locG (F := F) c 2 2 1 ∗ sendG (F := F) c 0 9 2 ∗ recvG (F := F) c 0 9 1
            ∗ partW c 2 (sub2 2 c) 512 (hB 2 c) keep3 (gath x w 2)
            ∗ lentW (F := F) c 0 (away1 0 c) 512 (hC 0 c) fullShare.left
            ∗ holdsW c 0 (sub1 0 c) 512 (hA 0 c) (gath x w 0))) := by
  subst hd
  simp only [locG, sendG, recvG]
  iintro ⟨#HIl, #HIs, #HIr, ⟨Htok, #Hreach, Hal⟩, ⟨Hcs, Has⟩, ⟨Hcr, Har⟩, HB, Hout, HO, #Hms, #Hmr⟩
  unfold withBufs; rw [k0_part41_eq_skeleton]; unfold k0_part41_skel
  ihave HB' := (p40_lend d0 2 (hB 2 d0) (gath x w 2)) $$ HB
  icases HB' with ⟨%f, Hlsh, %hf, Hkeep⟩
  sl_exec
  iapply (ev_local x w d0 2 2 (ho := Forms.off_18 d0) (ho' := Forms.off_63 d0) (hsem := rfl) f hf) $$ [Hlsh Hout Htok]
  · isplitr [Hlsh Hout Htok]; · iexact HIl
    isplitl [Hlsh]; · iexact Hlsh
    isplitl [Hout]; · iexact Hout
    isplitl [Htok]; · iexact Htok
    iexact Hreach
  iintro Hcl
  sl_exec
  sl_step
  isplitl [HO]; · iexact HO
  isplitl [Hcl Hal]
  · iframe Hcl Hal
  iframe Has Har Hkeep
  isplitl [Has_pay1]
  · iapply (Entails.of_eq (p40_sendPay9 d0 0)); iexact Has_pay1
  iapply (Entails.of_eq (p40_recvPay9 x w d0 0)); iexact Har_pay1

theorem part42 (c : Dev nD) (κl03 κs9 κr9 κl13 : ℕ) (d0 : Dev nD) (hd : d0 = c) (v19 v68 v118 : BitVec 32)
    (O : CellTallies nD τ sig Unit) (W : Waits sig Unit) :
    (iprop(cellInv (ER (F := F)) (cubeRd x w) κl03 (locCell c 0 3) ∗ cellInv (ER (F := F)) (cubeRd x w) κs9 (sendCell c 1 9) ∗ cellInv (ER (F := F)) (cubeRd x w) κr9 (recvCell c 1 9)
        ∗ cellInv (ER (F := F)) (cubeRd x w) κl13 (locCell c 1 3)
        ∗ locG (F := F) c 0 3 0 ∗ sendG (F := F) c 1 9 1 ∗ recvG (F := F) c 1 9 0 ∗ locG (F := F) c 1 3 0
        ∗ holdsW c 0 (sub1 0 c) 512 (hA 0 c) (gath x w 0)
        ∗ ownsOut (F := F) c 0 (sub1 0 c) (by have := inb_out 0 3 c; exact this)
        ∗ ownsOut (F := F) c 1 (sub1 1 c) (by have := inb_out 1 3 c; exact this)
        ∗ owes (c : Thread nD τ) O W
        ∗ MayWait (c : Thread nD τ) (.dma (ssem 1 9)) () O ∗ MayWait (c : Thread nD τ) (.dma (rsem 1 9)) () O) : sProp 𝕄)
      ⊢ wp frame (wpE (defs₀ (F := F)) Variants.none (c : Thread nD τ) none) Set.univ
          (withBufs (k0_part42 (F := F)) d0 v19 v68 v118)
          (fun _ => iprop(owes (c : Thread nD τ) O (insert (SemLoc.dma (rsem 1 9), ()) (insert (SemLoc.dma (ssem 1 9), ()) W))
            ∗ locG (F := F) c 0 3 1 ∗ sendG (F := F) c 1 9 2 ∗ recvG (F := F) c 1 9 1 ∗ locG (F := F) c 1 3 1
            ∗ partW c 0 (sub1 0 c) 512 (hA 0 c) keep3 (gath x w 0)
            ∗ lentW (F := F) c 1 (away1 1 c) 512 (hC 1 c) fullShare.left
            ∗ partW c 1 (sub1 1 c) 512 (hA 1 c) keep3 (gath x w 1))) := by
  subst hd
  simp only [locG, sendG, recvG]
  iintro ⟨#HIl0, #HIs, #HIr, #HIl1, ⟨Htok0, #Hreach0, Hal0⟩, ⟨Hcs, Has⟩, ⟨Hcr, Har⟩, ⟨Htok1, #Hreach1, Hal1⟩, HA, Hout0, Hout1, HO, #Hms, #Hmr⟩
  unfold withBufs; rw [k0_part42_eq_skeleton]; unfold k0_part42_skel
  ihave HA' := (p40_lend d0 0 (hA 0 d0) (gath x w 0)) $$ HA
  icases HA' with ⟨%f0, Hlsh0, %hf0, Hkeep0⟩
  sl_exec
  iapply (ev_local x w d0 0 3 (ho := Forms.off_3 d0) (ho' := Forms.off_64 d0) (hsem := rfl) f0 hf0) $$ [Hlsh0 Hout0 Htok0]
  · isplitr [Hlsh0 Hout0 Htok0]; · iexact HIl0
    isplitl [Hlsh0]; · iexact Hlsh0
    isplitl [Hout0]; · iexact Hout0
    isplitl [Htok0]; · iexact Htok0
    iexact Hreach0
  iintro Hcl0
  sl_exec
  ihave HA1 := (Entails.of_eq (p40_recvPay9 x w d0 1)) $$ Har_pay1
  ihave HA1' := (p40_lend d0 1 (hA 1 d0) (gath x w 1)) $$ HA1
  icases HA1' with ⟨%f1, Hlsh1, %hf1, Hkeep1⟩
  iapply (ev_local x w d0 1 3 (ho := Forms.off_6 d0) (ho' := Forms.off_65 d0) (hsem := rfl) f1 hf1) $$ [Hlsh1 Hout1 Htok1]
  · isplitr [Hlsh1 Hout1 Htok1]; · iexact HIl1
    isplitl [Hlsh1]; · iexact Hlsh1
    isplitl [Hout1]; · iexact Hout1
    isplitl [Htok1]; · iexact Htok1
    iexact Hreach1
  iintro Hcl1
  sl_exec
  sl_step
  isplitl [HO]; · iexact HO
  isplitl [Hcl0 Hal0]
  · iframe Hcl0 Hal0
  iframe Has Har
  isplitl [Hcl1 Hal1]
  · iframe Hcl1 Hal1
  iframe Hkeep0
  isplitl [Has_pay1]
  · iapply (Entails.of_eq (p40_sendPay9 d0 1)); iexact Has_pay1
  iexact Hkeep1

theorem part43 (c : Dev nD) (κs9 κr9 κl23 κl00 : ℕ) (d0 : Dev nD) (hd : d0 = c) (v33 v79 v148 : BitVec 32)
    (O : CellTallies nD τ sig Unit) (W : Waits sig Unit) :
    (iprop(cellInv (ER (F := F)) (cubeRd x w) κs9 (sendCell c 2 9) ∗ cellInv (ER (F := F)) (cubeRd x w) κr9 (recvCell c 2 9)
        ∗ cellInv (ER (F := F)) (cubeRd x w) κl23 (locCell c 2 3) ∗ cellInv (ER (F := F)) (cubeRd x w) κl00 (locCell c 0 0)
        ∗ sendG (F := F) c 2 9 1 ∗ recvG (F := F) c 2 9 0 ∗ locG (F := F) c 2 3 0 ∗ locG (F := F) c 0 0 1
        ∗ ownsOut (F := F) c 2 (sub1 2 c) (by have := inb_out 2 3 c; exact this)
        ∗ owes (c : Thread nD τ) O W
        ∗ MayWait (c : Thread nD τ) (.dma (ssem 2 9)) () O ∗ MayWait (c : Thread nD τ) (.dma (rsem 2 9)) () O
        ∗ MayWait (c : Thread nD τ) (.dma (lsem 0 0)) () O) : sProp 𝕄)
      ⊢ wp frame (wpE (defs₀ (F := F)) Variants.none (c : Thread nD τ) none) Set.univ
          (withBufs (k0_part43 (F := F)) d0 v33 v79 v148)
          (fun _ => iprop(owes (c : Thread nD τ) O (insert (SemLoc.dma (lsem 0 0), ()) (insert (SemLoc.dma (rsem 2 9), ()) (insert (SemLoc.dma (ssem 2 9), ()) W)))
            ∗ sendG (F := F) c 2 9 2 ∗ recvG (F := F) c 2 9 1 ∗ locG (F := F) c 2 3 1 ∗ locG (F := F) c 0 0 2
            ∗ lentW (F := F) c 2 (away1 2 c) 512 (hC 2 c) fullShare.left
            ∗ partW c 2 (sub1 2 c) 512 (hA 2 c) keep3 (gath x w 2)
            ∗ locPay x w c 0 0)) := by
  subst hd
  simp only [locG, sendG, recvG]
  iintro ⟨#HIs, #HIr, #HIl2, #HIl0, ⟨Hcs, Has⟩, ⟨Hcr, Har⟩, ⟨Htok, #Hreach, Hal⟩, ⟨Hcl0, Hal0⟩, Hout, HO, #Hms, #Hmr, #Hml⟩
  unfold withBufs; rw [k0_part43_eq_skeleton]; unfold k0_part43_skel
  sl_exec
  ihave HA := (Entails.of_eq (p40_recvPay9 x w d0 2)) $$ Har_pay1
  ihave HA' := (p40_lend d0 2 (hA 2 d0) (gath x w 2)) $$ HA
  icases HA' with ⟨%f, Hlsh, %hf, Hkeep⟩
  iapply (ev_local x w d0 2 3 (ho := Forms.off_9 d0) (ho' := Forms.off_66 d0) (hsem := rfl) f hf) $$ [Hlsh Hout Htok]
  · isplitr [Hlsh Hout Htok]; · iexact HIl2
    isplitl [Hlsh]; · iexact Hlsh
    isplitl [Hout]; · iexact Hout
    isplitl [Htok]; · iexact Htok
    iexact Hreach
  iintro Hcl
  sl_exec
  sl_step
  isplitl [HO]; · iexact HO
  isplitl [Has]; · iexact Has
  isplitl [Har]; · iexact Har
  isplitl [Hcl Hal]
  · iframe Hcl Hal
  iframe Hal0
  isplitl [Has_pay1]
  · iapply (Entails.of_eq (p40_sendPay9 d0 2)); iexact Has_pay1
  iframe Hkeep Hal0_pay1

theorem part44 (c : Dev nD) (κl01 κl02 κl03 κl10 κl11 κl12 : ℕ) (d0 : Dev nD) (hd : d0 = c)
    (O : CellTallies nD τ sig Unit) (W : Waits sig Unit) :
    (iprop(cellInv (ER (F := F)) (cubeRd x w) κl01 (locCell c 0 1)
        ∗ cellInv (ER (F := F)) (cubeRd x w) κl02 (locCell c 0 2)
        ∗ cellInv (ER (F := F)) (cubeRd x w) κl03 (locCell c 0 3)
        ∗ cellInv (ER (F := F)) (cubeRd x w) κl10 (locCell c 1 0)
        ∗ cellInv (ER (F := F)) (cubeRd x w) κl11 (locCell c 1 1)
        ∗ cellInv (ER (F := F)) (cubeRd x w) κl12 (locCell c 1 2)
        ∗ locG (F := F) c 0 1 1 ∗ locG (F := F) c 0 2 1 ∗ locG (F := F) c 0 3 1 ∗ locG (F := F) c 1 0 1 ∗ locG (F := F) c 1 1 1 ∗ locG (F := F) c 1 2 1
        ∗ owes (c : Thread nD τ) O W
        ∗ MayWait (c : Thread nD τ) (.dma (lsem 0 1)) () O
        ∗ MayWait (c : Thread nD τ) (.dma (lsem 0 2)) () O
        ∗ MayWait (c : Thread nD τ) (.dma (lsem 0 3)) () O
        ∗ MayWait (c : Thread nD τ) (.dma (lsem 1 0)) () O
        ∗ MayWait (c : Thread nD τ) (.dma (lsem 1 1)) () O
        ∗ MayWait (c : Thread nD τ) (.dma (lsem 1 2)) () O) : sProp 𝕄)
      ⊢ wp frame (wpE (defs₀ (F := F)) Variants.none (c : Thread nD τ) none) Set.univ
          (withBufs (k0_part44 (F := F)) d0)
          (fun _ => iprop(owes (c : Thread nD τ) O (insert (SemLoc.dma (lsem 1 2), ()) (insert (SemLoc.dma (lsem 1 1), ()) (insert (SemLoc.dma (lsem 1 0), ()) (insert (SemLoc.dma (lsem 0 3), ()) (insert (SemLoc.dma (lsem 0 2), ()) (insert (SemLoc.dma (lsem 0 1), ()) W))))))
            ∗ locG (F := F) c 0 1 2 ∗ locG (F := F) c 0 2 2 ∗ locG (F := F) c 0 3 2 ∗ locG (F := F) c 1 0 2 ∗ locG (F := F) c 1 1 2 ∗ locG (F := F) c 1 2 2
            ∗ locPay x w c 0 1 ∗ locPay x w c 0 2 ∗ locPay x w c 0 3 ∗ locPay x w c 1 0 ∗ locPay x w c 1 1 ∗ locPay x w c 1 2)) := by
  subst hd
  simp only [locG]
  iintro ⟨#HI01, #HI02, #HI03, #HI10, #HI11, #HI12, ⟨Hc01, Ha01⟩, ⟨Hc02, Ha02⟩, ⟨Hc03, Ha03⟩, ⟨Hc10, Ha10⟩, ⟨Hc11, Ha11⟩, ⟨Hc12, Ha12⟩, HO, #Hm01, #Hm02, #Hm03, #Hm10, #Hm11, #Hm12⟩
  unfold withBufs; rw [k0_part44_eq_skeleton]; unfold k0_part44_skel
  sl_exec
  sl_step
  isplitl [HO]; · iexact HO
  isplitl [Ha01]; · iexact Ha01
  isplitl [Ha02]; · iexact Ha02
  isplitl [Ha03]; · iexact Ha03
  isplitl [Ha10]; · iexact Ha10
  isplitl [Ha11]; · iexact Ha11
  isplitl [Ha12]; · iexact Ha12
  isplitl [Ha01_pay1]; · iexact Ha01_pay1
  isplitl [Ha02_pay1]; · iexact Ha02_pay1
  isplitl [Ha03_pay1]; · iexact Ha03_pay1
  isplitl [Ha10_pay1]; · iexact Ha10_pay1
  isplitl [Ha11_pay1]; · iexact Ha11_pay1
  iexact Ha12_pay1

end Cert.Kernel.Body

end
-- ==== Proof.K.Body.lean ====
import proofs.«900802_g7700000000000803_dist_gemm_ar_m4096_k4096_n2048_f32_relu_v7x_i8_1_alg».proof.Proof.K.Launch
import proofs.«900802_g7700000000000803_dist_gemm_ar_m4096_k4096_n2048_f32_relu_v7x_i8_1_alg».proof.Proof.K.Part3
import proofs.«900802_g7700000000000803_dist_gemm_ar_m4096_k4096_n2048_f32_relu_v7x_i8_1_alg».proof.Proof.K.Ends
import proofs.«900802_g7700000000000803_dist_gemm_ar_m4096_k4096_n2048_f32_relu_v7x_i8_1_alg».proof.Proof.K.BodyTail
import proofs.«900802_g7700000000000803_dist_gemm_ar_m4096_k4096_n2048_f32_relu_v7x_i8_1_alg».proof.Proof.K.Parts5
import proofs.«900802_g7700000000000803_dist_gemm_ar_m4096_k4096_n2048_f32_relu_v7x_i8_1_alg».proof.Proof.K.Parts10
import proofs.«900802_g7700000000000803_dist_gemm_ar_m4096_k4096_n2048_f32_relu_v7x_i8_1_alg».proof.Proof.K.Parts15
import proofs.«900802_g7700000000000803_dist_gemm_ar_m4096_k4096_n2048_f32_relu_v7x_i8_1_alg».proof.Proof.K.Parts20
import proofs.«900802_g7700000000000803_dist_gemm_ar_m4096_k4096_n2048_f32_relu_v7x_i8_1_alg».proof.Proof.K.Parts25
import proofs.«900802_g7700000000000803_dist_gemm_ar_m4096_k4096_n2048_f32_relu_v7x_i8_1_alg».proof.Proof.K.Parts26x
import proofs.«900802_g7700000000000803_dist_gemm_ar_m4096_k4096_n2048_f32_relu_v7x_i8_1_alg».proof.Proof.K.Parts28x
import proofs.«900802_g7700000000000803_dist_gemm_ar_m4096_k4096_n2048_f32_relu_v7x_i8_1_alg».proof.Proof.K.Parts30
import proofs.«900802_g7700000000000803_dist_gemm_ar_m4096_k4096_n2048_f32_relu_v7x_i8_1_alg».proof.Proof.K.Parts35
import proofs.«900802_g7700000000000803_dist_gemm_ar_m4096_k4096_n2048_f32_relu_v7x_i8_1_alg».proof.Proof.K.Parts40

noncomputable section

namespace Cert.Kernel.Body

open Cert.Kernel Cert.Kernel.Gen Cert.Kernel.Spec Cert.Kernel.Reg Cert.Kernel.Proto
open Cert.Kernel.Stages Cert.Kernel.Pieces

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Facts]
open Facts₀ Facts

local notation "𝕄" => MT nD τ sig Unit (Elt F) ℕ UU ℕ

variable (m : (ℓ : Loc nD τ sig) → Buf (Elt F) ℓ)

omit [FloatOps F] [Facts] in
theorem owed_start (c : Dev nD) : (Launch.O₀ c : CellTallies nD τ sig Unit) = Launch.owedOf c (Launch.pays.drop 3) + tallyAt (barCell (par 2 c)) () 1 + tallyAt (barCell (par 1 c)) () 1 + tallyAt (barCell (par 0 c)) () 1 := rfl
omit [FloatOps F] [Facts] in
/-- Paying the next copy takes its credit off what is owed. -/
theorem owed_copy (c : Dev nD) (n n' : ℕ) (p : Fin 3) (i : Fin 10) (h : Launch.pays.drop n = .copy p i :: Launch.pays.drop n') :
    (Launch.owedOf c (Launch.pays.drop n) : CellTallies nD τ sig Unit) = Launch.owedOf c (Launch.pays.drop n') + tallyAt (recvCell (peer p i c) p i) () (credOf p i) := by
  rw [h]; rfl
omit [FloatOps F] [Facts] in
theorem owed_end (c : Dev nD) : (Launch.owedOf c (Launch.pays.drop 33) : CellTallies nD τ sig Unit) = 0 := rfl

theorem sendG_intro (K : Dev nD × Launch.CIx → ℕ) (c : Dev nD) (p : Fin 3) (i : Fin 10) :
    (iprop(Launch.records m K ∗ dutyTok ER (sendCell c p i) 0 0 ∗ dutyTok ER (recvCell (peer p i c) p i) 0 0 ∗ atPos ER (sendCell c p i) 0 ∅ 0) : sProp 𝕄)
      ⊢ sendG (F := F) c p i 0 := by
  show _ ⊢ iprop(dutyTok ER (sendCell c p i) 0 0 ∗ reached ER (sendCell c p i) 0
      ∗ dutyTok ER (recvCell (peer p i c) p i) 0 0 ∗ reached ER (recvCell (peer p i c) p i) 0
      ∗ atPos ER (sendCell c p i) 0 ∅ 0)
  iintro ⟨#HR, H1, H2, H3⟩
  ihave #Hr1 := (Launch.reached_send m K c p i) $$ HR
  ihave #Hr2 := (Launch.reached_recv m K (peer p i c) p i) $$ HR
  iframe H1 Hr1 H2 Hr2 H3

theorem locG_intro (K : Dev nD × Launch.CIx → ℕ) (c : Dev nD) (p : Fin 3) (j : Fin 4) :
    (iprop(Launch.records m K ∗ dutyTok ER (locCell c p j) 0 0 ∗ atPos ER (locCell c p j) 0 ∅ 0) : sProp 𝕄)
      ⊢ locG (F := F) c p j 0 := by
  show _ ⊢ iprop(dutyTok ER (locCell c p j) 0 0 ∗ reached ER (locCell c p j) 0 ∗ atPos ER (locCell c p j) 0 ∅ 0)
  iintro ⟨#HR, H1, H2⟩
  ihave #Hr1 := (Launch.reached_loc m K c p j) $$ HR
  iframe H1 Hr1 H2

theorem recvG_intro (c : Dev nD) (p : Fin 3) (i : Fin 10) :
    (iprop(cred (tallyAt (recvCell c p i) () (credOf p i)) ∗ atPos ER (recvCell c p i) 0 ∅ 0) : sProp 𝕄) ⊢ recvG (F := F) c p i 0 :=
  Entails.rfl

omit [Facts] in
theorem payToks_eq (c : Dev nD) : (Launch.payToks (F := F) c : sProp 𝕄)
    = iprop((dutyTok ER (barCell (par 0 c)) 0 (0 : Fin 3) ∗ dutyTok ER (barCell (par 1 c)) 0 (1 : Fin 3) ∗ dutyTok ER (barCell (par 2 c)) 0 (2 : Fin 3))
      ∗ ((dutyTok ER (sendCell c 0 0) 0 0 ∗ dutyTok ER (recvCell (peer 0 0 c) 0 0) 0 0)
        ∗ (dutyTok ER (sendCell c 1 0) 0 0 ∗ dutyTok ER (recvCell (peer 1 0 c) 1 0) 0 0)
        ∗ (dutyTok ER (sendCell c 2 0) 0 0 ∗ dutyTok ER (recvCell (peer 2 0 c) 2 0) 0 0)
        ∗ (dutyTok ER (sendCell c 0 1) 0 0 ∗ dutyTok ER (recvCell (peer 0 1 c) 0 1) 0 0)
        ∗ (dutyTok ER (sendCell c 1 1) 0 0 ∗ dutyTok ER (recvCell (peer 1 1 c) 1 1) 0 0)
        ∗ (dutyTok ER (sendCell c 2 1) 0 0 ∗ dutyTok ER (recvCell (peer 2 1 c) 2 1) 0 0)
        ∗ (dutyTok ER (sendCell c 0 2) 0 0 ∗ dutyTok ER (recvCell (peer 0 2 c) 0 2) 0 0)
        ∗ (dutyTok ER (sendCell c 1 2) 0 0 ∗ dutyTok ER (recvCell (peer 1 2 c) 1 2) 0 0)
        ∗ (dutyTok ER (sendCell c 2 2) 0 0 ∗ dutyTok ER (recvCell (peer 2 2 c) 2 2) 0 0)
        ∗ (dutyTok ER (sendCell c 0 3) 0 0 ∗ dutyTok ER (recvCell (peer 0 3 c) 0 3) 0 0)
        ∗ (dutyTok ER (sendCell c 1 3) 0 0 ∗ dutyTok ER (recvCell (peer 1 3 c) 1 3) 0 0)
        ∗ (dutyTok ER (sendCell c 2 3) 0 0 ∗ dutyTok ER (recvCell (peer 2 3 c) 2 3) 0 0)
        ∗ (dutyTok ER (sendCell c 0 4) 0 0 ∗ dutyTok ER (recvCell (peer 0 4 c) 0 4) 0 0)
        ∗ (dutyTok ER (sendCell c 0 5) 0 0 ∗ dutyTok ER (recvCell (peer 0 5 c) 0 5) 0 0)
        ∗ (dutyTok ER (sendCell c 0 6) 0 0 ∗ dutyTok ER (recvCell (peer 0 6 c) 0 6) 0 0)
        ∗ (dutyTok ER (sendCell c 1 4) 0 0 ∗ dutyTok ER (recvCell (peer 1 4 c) 1 4) 0 0)
        ∗ (dutyTok ER (sendCell c 1 5) 0 0 ∗ dutyTok ER (recvCell (peer 1 5 c) 1 5) 0 0)
        ∗ (dutyTok ER (sendCell c 1 6) 0 0 ∗ dutyTok ER (recvCell (peer 1 6 c) 1 6) 0 0)
        ∗ (dutyTok ER (sendCell c 2 4) 0 0 ∗ dutyTok ER (recvCell (peer 2 4 c) 2 4) 0 0)
        ∗ (dutyTok ER (sendCell c 2 5) 0 0 ∗ dutyTok ER (recvCell (peer 2 5 c) 2 5) 0 0)
        ∗ (dutyTok ER (sendCell c 2 6) 0 0 ∗ dutyTok ER (recvCell (peer 2 6 c) 2 6) 0 0)
        ∗ (dutyTok ER (sendCell c 0 7) 0 0 ∗ dutyTok ER (recvCell (peer 0 7 c) 0 7) 0 0)
        ∗ (dutyTok ER (sendCell c 0 8) 0 0 ∗ dutyTok ER (recvCell (peer 0 8 c) 0 8) 0 0)
        ∗ (dutyTok ER (sendCell c 1 7) 0 0 ∗ dutyTok ER (recvCell (peer 1 7 c) 1 7) 0 0)
        ∗ (dutyTok ER (sendCell c 1 8) 0 0 ∗ dutyTok ER (recvCell (peer 1 8 c) 1 8) 0 0)
        ∗ (dutyTok ER (sendCell c 2 7) 0 0 ∗ dutyTok ER (recvCell (peer 2 7 c) 2 7) 0 0)
        ∗ (dutyTok ER (sendCell c 2 8) 0 0 ∗ dutyTok ER (recvCell (peer 2 8 c) 2 8) 0 0)
        ∗ (dutyTok ER (sendCell c 0 9) 0 0 ∗ dutyTok ER (recvCell (peer 0 9 c) 0 9) 0 0)
        ∗ (dutyTok ER (sendCell c 1 9) 0 0 ∗ dutyTok ER (recvCell (peer 1 9 c) 1 9) 0 0)
        ∗ (dutyTok ER (sendCell c 2 9) 0 0 ∗ dutyTok ER (recvCell (peer 2 9 c) 2 9) 0 0))
      ∗ (dutyTok ER (locCell c 0 0) 0 0 ∗ dutyTok ER (locCell c 1 0) 0 0 ∗ dutyTok ER (locCell c 2 0) 0 0 ∗ dutyTok ER (locCell c 0 1) 0 0 ∗ dutyTok ER (locCell c 1 1) 0 0 ∗ dutyTok ER (locCell c 2 1) 0 0 ∗ dutyTok ER (locCell c 0 2) 0 0 ∗ dutyTok ER (locCell c 1 2) 0 0 ∗ dutyTok ER (locCell c 2 2) 0 0 ∗ dutyTok ER (locCell c 0 3) 0 0 ∗ dutyTok ER (locCell c 1 3) 0 0 ∗ dutyTok ER (locCell c 2 3) 0 0)) := rfl

omit [Facts] in
theorem waitRes_eq (c : Dev nD) : (Launch.waitRes (F := F) c : sProp 𝕄)
    = iprop((atPos ER (barCell c) 0 ∅ 0 ∗ cred (tallyAt (barCell c) () 3))
      ∗ ((atPos ER (sendCell c 0 0) 0 ∅ 0 ∗ atPos ER (recvCell c 0 0) 0 ∅ 0 ∗ cred (tallyAt (recvCell c 0 0) () (credOf 0 0)))
        ∗ (atPos ER (sendCell c 1 0) 0 ∅ 0 ∗ atPos ER (recvCell c 1 0) 0 ∅ 0 ∗ cred (tallyAt (recvCell c 1 0) () (credOf 1 0)))
        ∗ (atPos ER (sendCell c 2 0) 0 ∅ 0 ∗ atPos ER (recvCell c 2 0) 0 ∅ 0 ∗ cred (tallyAt (recvCell c 2 0) () (credOf 2 0)))
        ∗ (atPos ER (sendCell c 0 1) 0 ∅ 0 ∗ atPos ER (recvCell c 0 1) 0 ∅ 0 ∗ cred (tallyAt (recvCell c 0 1) () (credOf 0 1)))
        ∗ (atPos ER (sendCell c 0 2) 0 ∅ 0 ∗ atPos ER (recvCell c 0 2) 0 ∅ 0 ∗ cred (tallyAt (recvCell c 0 2) () (credOf 0 2)))
        ∗ (atPos ER (sendCell c 1 1) 0 ∅ 0 ∗ atPos ER (recvCell c 1 1) 0 ∅ 0 ∗ cred (tallyAt (recvCell c 1 1) () (credOf 1 1)))
        ∗ (atPos ER (sendCell c 1 2) 0 ∅ 0 ∗ atPos ER (recvCell c 1 2) 0 ∅ 0 ∗ cred (tallyAt (recvCell c 1 2) () (credOf 1 2)))
        ∗ (atPos ER (sendCell c 2 1) 0 ∅ 0 ∗ atPos ER (recvCell c 2 1) 0 ∅ 0 ∗ cred (tallyAt (recvCell c 2 1) () (credOf 2 1)))
        ∗ (atPos ER (sendCell c 2 2) 0 ∅ 0 ∗ atPos ER (recvCell c 2 2) 0 ∅ 0 ∗ cred (tallyAt (recvCell c 2 2) () (credOf 2 2)))
        ∗ (atPos ER (sendCell c 0 3) 0 ∅ 0 ∗ atPos ER (recvCell c 0 3) 0 ∅ 0 ∗ cred (tallyAt (recvCell c 0 3) () (credOf 0 3)))
        ∗ (atPos ER (sendCell c 1 3) 0 ∅ 0 ∗ atPos ER (recvCell c 1 3) 0 ∅ 0 ∗ cred (tallyAt (recvCell c 1 3) () (credOf 1 3)))
        ∗ (atPos ER (sendCell c 2 3) 0 ∅ 0 ∗ atPos ER (recvCell c 2 3) 0 ∅ 0 ∗ cred (tallyAt (recvCell c 2 3) () (credOf 2 3)))
        ∗ (atPos ER (sendCell c 0 4) 0 ∅ 0 ∗ atPos ER (recvCell c 0 4) 0 ∅ 0 ∗ cred (tallyAt (recvCell c 0 4) () (credOf 0 4)))
        ∗ (atPos ER (sendCell c 1 4) 0 ∅ 0 ∗ atPos ER (recvCell c 1 4) 0 ∅ 0 ∗ cred (tallyAt (recvCell c 1 4) () (credOf 1 4)))
        ∗ (atPos ER (sendCell c 2 4) 0 ∅ 0 ∗ atPos ER (recvCell c 2 4) 0 ∅ 0 ∗ cred (tallyAt (recvCell c 2 4) () (credOf 2 4)))
        ∗ (atPos ER (sendCell c 0 5) 0 ∅ 0 ∗ atPos ER (recvCell c 0 5) 0 ∅ 0 ∗ cred (tallyAt (recvCell c 0 5) () (credOf 0 5)))
        ∗ (atPos ER (sendCell c 0 7) 0 ∅ 0 ∗ atPos ER (recvCell c 0 7) 0 ∅ 0 ∗ cred (tallyAt (recvCell c 0 7) () (credOf 0 7)))
        ∗ (atPos ER (sendCell c 1 5) 0 ∅ 0 ∗ atPos ER (recvCell c 1 5) 0 ∅ 0 ∗ cred (tallyAt (recvCell c 1 5) () (credOf 1 5)))
        ∗ (atPos ER (sendCell c 1 7) 0 ∅ 0 ∗ atPos ER (recvCell c 1 7) 0 ∅ 0 ∗ cred (tallyAt (recvCell c 1 7) () (credOf 1 7)))
        ∗ (atPos ER (sendCell c 2 5) 0 ∅ 0 ∗ atPos ER (recvCell c 2 5) 0 ∅ 0 ∗ cred (tallyAt (recvCell c 2 5) () (credOf 2 5)))
        ∗ (atPos ER (sendCell c 2 7) 0 ∅ 0 ∗ atPos ER (recvCell c 2 7) 0 ∅ 0 ∗ cred (tallyAt (recvCell c 2 7) () (credOf 2 7)))
        ∗ (atPos ER (sendCell c 0 6) 0 ∅ 0 ∗ atPos ER (recvCell c 0 6) 0 ∅ 0 ∗ cred (tallyAt (recvCell c 0 6) () (credOf 0 6)))
        ∗ (atPos ER (sendCell c 0 8) 0 ∅ 0 ∗ atPos ER (recvCell c 0 8) 0 ∅ 0 ∗ cred (tallyAt (recvCell c 0 8) () (credOf 0 8)))
        ∗ (atPos ER (sendCell c 1 6) 0 ∅ 0 ∗ atPos ER (recvCell c 1 6) 0 ∅ 0 ∗ cred (tallyAt (recvCell c 1 6) () (credOf 1 6)))
        ∗ (atPos ER (sendCell c 1 8) 0 ∅ 0 ∗ atPos ER (recvCell c 1 8) 0 ∅ 0 ∗ cred (tallyAt (recvCell c 1 8) () (credOf 1 8)))
        ∗ (atPos ER (sendCell c 2 6) 0 ∅ 0 ∗ atPos ER (recvCell c 2 6) 0 ∅ 0 ∗ cred (tallyAt (recvCell c 2 6) () (credOf 2 6)))
        ∗ (atPos ER (sendCell c 2 8) 0 ∅ 0 ∗ atPos ER (recvCell c 2 8) 0 ∅ 0 ∗ cred (tallyAt (recvCell c 2 8) () (credOf 2 8)))
        ∗ (atPos ER (sendCell c 0 9) 0 ∅ 0 ∗ atPos ER (recvCell c 0 9) 0 ∅ 0 ∗ cred (tallyAt (recvCell c 0 9) () (credOf 0 9)))
        ∗ (atPos ER (sendCell c 1 9) 0 ∅ 0 ∗ atPos ER (recvCell c 1 9) 0 ∅ 0 ∗ cred (tallyAt (recvCell c 1 9) () (credOf 1 9)))
        ∗ (atPos ER (sendCell c 2 9) 0 ∅ 0 ∗ atPos ER (recvCell c 2 9) 0 ∅ 0 ∗ cred (tallyAt (recvCell c 2 9) () (credOf 2 9))))
      ∗ (atPos ER (locCell c 0 0) 0 ∅ 0 ∗ atPos ER (locCell c 0 1) 0 ∅ 0 ∗ atPos ER (locCell c 0 2) 0 ∅ 0 ∗ atPos ER (locCell c 0 3) 0 ∅ 0 ∗ atPos ER (locCell c 1 0) 0 ∅ 0 ∗ atPos ER (locCell c 1 1) 0 ∅ 0 ∗ atPos ER (locCell c 1 2) 0 ∅ 0 ∗ atPos ER (locCell c 1 3) 0 ∅ 0 ∗ atPos ER (locCell c 2 0) 0 ∅ 0 ∗ atPos ER (locCell c 2 1) 0 ∅ 0 ∗ atPos ER (locCell c 2 2) 0 ∅ 0 ∗ atPos ER (locCell c 2 3) 0 ∅ 0)) := rfl

/-- What the launch hands over, sorted copy by copy: each copy's tokens, positions and credit. -/
theorem open_ghost (K : Dev nD × Launch.CIx → ℕ) (c : Dev nD) :
    (iprop(Launch.records m K ∗ Launch.payToks c ∗ Launch.waitRes c) : sProp 𝕄)
      ⊢ iprop(dutyTok (ER (F := F)) (barCell (par 0 c)) 0 (0 : Fin 3)
        ∗ dutyTok (ER (F := F)) (barCell (par 1 c)) 0 (1 : Fin 3)
        ∗ dutyTok (ER (F := F)) (barCell (par 2 c)) 0 (2 : Fin 3)
        ∗ atPos (ER (F := F)) (barCell c) 0 ∅ 0
        ∗ cred (tallyAt (barCell c) () 3)
        ∗ sendG (F := F) c 0 0 0
        ∗ recvG (F := F) c 0 0 0
        ∗ sendG (F := F) c 0 1 0
        ∗ recvG (F := F) c 0 1 0
        ∗ sendG (F := F) c 0 2 0
        ∗ recvG (F := F) c 0 2 0
        ∗ sendG (F := F) c 0 3 0
        ∗ recvG (F := F) c 0 3 0
        ∗ sendG (F := F) c 0 4 0
        ∗ recvG (F := F) c 0 4 0
        ∗ sendG (F := F) c 0 5 0
        ∗ recvG (F := F) c 0 5 0
        ∗ sendG (F := F) c 0 6 0
        ∗ recvG (F := F) c 0 6 0
        ∗ sendG (F := F) c 0 7 0
        ∗ recvG (F := F) c 0 7 0
        ∗ sendG (F := F) c 0 8 0
        ∗ recvG (F := F) c 0 8 0
        ∗ sendG (F := F) c 0 9 0
        ∗ recvG (F := F) c 0 9 0
        ∗ sendG (F := F) c 1 0 0
        ∗ recvG (F := F) c 1 0 0
        ∗ sendG (F := F) c 1 1 0
        ∗ recvG (F := F) c 1 1 0
        ∗ sendG (F := F) c 1 2 0
        ∗ recvG (F := F) c 1 2 0
        ∗ sendG (F := F) c 1 3 0
        ∗ recvG (F := F) c 1 3 0
        ∗ sendG (F := F) c 1 4 0
        ∗ recvG (F := F) c 1 4 0
        ∗ sendG (F := F) c 1 5 0
        ∗ recvG (F := F) c 1 5 0
        ∗ sendG (F := F) c 1 6 0
        ∗ recvG (F := F) c 1 6 0
        ∗ sendG (F := F) c 1 7 0
        ∗ recvG (F := F) c 1 7 0
        ∗ sendG (F := F) c 1 8 0
        ∗ recvG (F := F) c 1 8 0
        ∗ sendG (F := F) c 1 9 0
        ∗ recvG (F := F) c 1 9 0
        ∗ sendG (F := F) c 2 0 0
        ∗ recvG (F := F) c 2 0 0
        ∗ sendG (F := F) c 2 1 0
        ∗ recvG (F := F) c 2 1 0
        ∗ sendG (F := F) c 2 2 0
        ∗ recvG (F := F) c 2 2 0
        ∗ sendG (F := F) c 2 3 0
        ∗ recvG (F := F) c 2 3 0
        ∗ sendG (F := F) c 2 4 0
        ∗ recvG (F := F) c 2 4 0
        ∗ sendG (F := F) c 2 5 0
        ∗ recvG (F := F) c 2 5 0
        ∗ sendG (F := F) c 2 6 0
        ∗ recvG (F := F) c 2 6 0
        ∗ sendG (F := F) c 2 7 0
        ∗ recvG (F := F) c 2 7 0
        ∗ sendG (F := F) c 2 8 0
        ∗ recvG (F := F) c 2 8 0
        ∗ sendG (F := F) c 2 9 0
        ∗ recvG (F := F) c 2 9 0
        ∗ locG (F := F) c 0 0 0
        ∗ locG (F := F) c 0 1 0
        ∗ locG (F := F) c 0 2 0
        ∗ locG (F := F) c 0 3 0
        ∗ locG (F := F) c 1 0 0
        ∗ locG (F := F) c 1 1 0
        ∗ locG (F := F) c 1 2 0
        ∗ locG (F := F) c 1 3 0
        ∗ locG (F := F) c 2 0 0
        ∗ locG (F := F) c 2 1 0
        ∗ locG (F := F) c 2 2 0
        ∗ locG (F := F) c 2 3 0) := by
  rw [payToks_eq, waitRes_eq]
  iintro ⟨#HR, ⟨⟨Htb0, Htb1, Htb2⟩, ⟨⟨Hts_0_0, Htr_0_0⟩, ⟨Hts_1_0, Htr_1_0⟩, ⟨Hts_2_0, Htr_2_0⟩, ⟨Hts_0_1, Htr_0_1⟩, ⟨Hts_1_1, Htr_1_1⟩, ⟨Hts_2_1, Htr_2_1⟩, ⟨Hts_0_2, Htr_0_2⟩, ⟨Hts_1_2, Htr_1_2⟩, ⟨Hts_2_2, Htr_2_2⟩, ⟨Hts_0_3, Htr_0_3⟩, ⟨Hts_1_3, Htr_1_3⟩, ⟨Hts_2_3, Htr_2_3⟩, ⟨Hts_0_4, Htr_0_4⟩, ⟨Hts_0_5, Htr_0_5⟩, ⟨Hts_0_6, Htr_0_6⟩, ⟨Hts_1_4, Htr_1_4⟩, ⟨Hts_1_5, Htr_1_5⟩, ⟨Hts_1_6, Htr_1_6⟩, ⟨Hts_2_4, Htr_2_4⟩, ⟨Hts_2_5, Htr_2_5⟩, ⟨Hts_2_6, Htr_2_6⟩, ⟨Hts_0_7, Htr_0_7⟩, ⟨Hts_0_8, Htr_0_8⟩, ⟨Hts_1_7, Htr_1_7⟩, ⟨Hts_1_8, Htr_1_8⟩, ⟨Hts_2_7, Htr_2_7⟩, ⟨Hts_2_8, Htr_2_8⟩, ⟨Hts_0_9, Htr_0_9⟩, ⟨Hts_1_9, Htr_1_9⟩, ⟨Hts_2_9, Htr_2_9⟩⟩, ⟨Htl_0_0, Htl_1_0, Htl_2_0, Htl_0_1, Htl_1_1, Htl_2_1, Htl_0_2, Htl_1_2, Htl_2_2, Htl_0_3, Htl_1_3, Htl_2_3⟩⟩, ⟨⟨Hatb, Hcrb⟩, ⟨⟨Has_0_0, Har_0_0, Hcr_0_0⟩, ⟨Has_1_0, Har_1_0, Hcr_1_0⟩, ⟨Has_2_0, Har_2_0, Hcr_2_0⟩, ⟨Has_0_1, Har_0_1, Hcr_0_1⟩, ⟨Has_0_2, Har_0_2, Hcr_0_2⟩, ⟨Has_1_1, Har_1_1, Hcr_1_1⟩, ⟨Has_1_2, Har_1_2, Hcr_1_2⟩, ⟨Has_2_1, Har_2_1, Hcr_2_1⟩, ⟨Has_2_2, Har_2_2, Hcr_2_2⟩, ⟨Has_0_3, Har_0_3, Hcr_0_3⟩, ⟨Has_1_3, Har_1_3, Hcr_1_3⟩, ⟨Has_2_3, Har_2_3, Hcr_2_3⟩, ⟨Has_0_4, Har_0_4, Hcr_0_4⟩, ⟨Has_1_4, Har_1_4, Hcr_1_4⟩, ⟨Has_2_4, Har_2_4, Hcr_2_4⟩, ⟨Has_0_5, Har_0_5, Hcr_0_5⟩, ⟨Has_0_7, Har_0_7, Hcr_0_7⟩, ⟨Has_1_5, Har_1_5, Hcr_1_5⟩, ⟨Has_1_7, Har_1_7, Hcr_1_7⟩, ⟨Has_2_5, Har_2_5, Hcr_2_5⟩, ⟨Has_2_7, Har_2_7, Hcr_2_7⟩, ⟨Has_0_6, Har_0_6, Hcr_0_6⟩, ⟨Has_0_8, Har_0_8, Hcr_0_8⟩, ⟨Has_1_6, Har_1_6, Hcr_1_6⟩, ⟨Has_1_8, Har_1_8, Hcr_1_8⟩, ⟨Has_2_6, Har_2_6, Hcr_2_6⟩, ⟨Has_2_8, Har_2_8, Hcr_2_8⟩, ⟨Has_0_9, Har_0_9, Hcr_0_9⟩, ⟨Has_1_9, Har_1_9, Hcr_1_9⟩, ⟨Has_2_9, Har_2_9, Hcr_2_9⟩⟩, ⟨Hal_0_0, Hal_0_1, Hal_0_2, Hal_0_3, Hal_1_0, Hal_1_1, Hal_1_2, Hal_1_3, Hal_2_0, Hal_2_1, Hal_2_2, Hal_2_3⟩⟩⟩
  iframe Htb0 Htb1 Htb2 Hatb Hcrb
  isplitl [Hts_0_0 Htr_0_0 Has_0_0]
  · iapply (sendG_intro m K c 0 0); isplitr; · iexact HR
    iframe Hts_0_0 Htr_0_0 Has_0_0
  isplitl [Hcr_0_0 Har_0_0]
  · iapply (recvG_intro (F := F) c 0 0)
    iframe Hcr_0_0 Har_0_0
  isplitl [Hts_0_1 Htr_0_1 Has_0_1]
  · iapply (sendG_intro m K c 0 1); isplitr; · iexact HR
    iframe Hts_0_1 Htr_0_1 Has_0_1
  isplitl [Hcr_0_1 Har_0_1]
  · iapply (recvG_intro (F := F) c 0 1)
    iframe Hcr_0_1 Har_0_1
  isplitl [Hts_0_2 Htr_0_2 Has_0_2]
  · iapply (sendG_intro m K c 0 2); isplitr; · iexact HR
    iframe Hts_0_2 Htr_0_2 Has_0_2
  isplitl [Hcr_0_2 Har_0_2]
  · iapply (recvG_intro (F := F) c 0 2)
    iframe Hcr_0_2 Har_0_2
  isplitl [Hts_0_3 Htr_0_3 Has_0_3]
  · iapply (sendG_intro m K c 0 3); isplitr; · iexact HR
    iframe Hts_0_3 Htr_0_3 Has_0_3
  isplitl [Hcr_0_3 Har_0_3]
  · iapply (recvG_intro (F := F) c 0 3)
    iframe Hcr_0_3 Har_0_3
  isplitl [Hts_0_4 Htr_0_4 Has_0_4]
  · iapply (sendG_intro m K c 0 4); isplitr; · iexact HR
    iframe Hts_0_4 Htr_0_4 Has_0_4
  isplitl [Hcr_0_4 Har_0_4]
  · iapply (recvG_intro (F := F) c 0 4)
    iframe Hcr_0_4 Har_0_4
  isplitl [Hts_0_5 Htr_0_5 Has_0_5]
  · iapply (sendG_intro m K c 0 5); isplitr; · iexact HR
    iframe Hts_0_5 Htr_0_5 Has_0_5
  isplitl [Hcr_0_5 Har_0_5]
  · iapply (recvG_intro (F := F) c 0 5)
    iframe Hcr_0_5 Har_0_5
  isplitl [Hts_0_6 Htr_0_6 Has_0_6]
  · iapply (sendG_intro m K c 0 6); isplitr; · iexact HR
    iframe Hts_0_6 Htr_0_6 Has_0_6
  isplitl [Hcr_0_6 Har_0_6]
  · iapply (recvG_intro (F := F) c 0 6)
    iframe Hcr_0_6 Har_0_6
  isplitl [Hts_0_7 Htr_0_7 Has_0_7]
  · iapply (sendG_intro m K c 0 7); isplitr; · iexact HR
    iframe Hts_0_7 Htr_0_7 Has_0_7
  isplitl [Hcr_0_7 Har_0_7]
  · iapply (recvG_intro (F := F) c 0 7)
    iframe Hcr_0_7 Har_0_7
  isplitl [Hts_0_8 Htr_0_8 Has_0_8]
  · iapply (sendG_intro m K c 0 8); isplitr; · iexact HR
    iframe Hts_0_8 Htr_0_8 Has_0_8
  isplitl [Hcr_0_8 Har_0_8]
  · iapply (recvG_intro (F := F) c 0 8)
    iframe Hcr_0_8 Har_0_8
  isplitl [Hts_0_9 Htr_0_9 Has_0_9]
  · iapply (sendG_intro m K c 0 9); isplitr; · iexact HR
    iframe Hts_0_9 Htr_0_9 Has_0_9
  isplitl [Hcr_0_9 Har_0_9]
  · iapply (recvG_intro (F := F) c 0 9)
    iframe Hcr_0_9 Har_0_9
  isplitl [Hts_1_0 Htr_1_0 Has_1_0]
  · iapply (sendG_intro m K c 1 0); isplitr; · iexact HR
    iframe Hts_1_0 Htr_1_0 Has_1_0
  isplitl [Hcr_1_0 Har_1_0]
  · iapply (recvG_intro (F := F) c 1 0)
    iframe Hcr_1_0 Har_1_0
  isplitl [Hts_1_1 Htr_1_1 Has_1_1]
  · iapply (sendG_intro m K c 1 1); isplitr; · iexact HR
    iframe Hts_1_1 Htr_1_1 Has_1_1
  isplitl [Hcr_1_1 Har_1_1]
  · iapply (recvG_intro (F := F) c 1 1)
    iframe Hcr_1_1 Har_1_1
  isplitl [Hts_1_2 Htr_1_2 Has_1_2]
  · iapply (sendG_intro m K c 1 2); isplitr; · iexact HR
    iframe Hts_1_2 Htr_1_2 Has_1_2
  isplitl [Hcr_1_2 Har_1_2]
  · iapply (recvG_intro (F := F) c 1 2)
    iframe Hcr_1_2 Har_1_2
  isplitl [Hts_1_3 Htr_1_3 Has_1_3]
  · iapply (sendG_intro m K c 1 3); isplitr; · iexact HR
    iframe Hts_1_3 Htr_1_3 Has_1_3
  isplitl [Hcr_1_3 Har_1_3]
  · iapply (recvG_intro (F := F) c 1 3)
    iframe Hcr_1_3 Har_1_3
  isplitl [Hts_1_4 Htr_1_4 Has_1_4]
  · iapply (sendG_intro m K c 1 4); isplitr; · iexact HR
    iframe Hts_1_4 Htr_1_4 Has_1_4
  isplitl [Hcr_1_4 Har_1_4]
  · iapply (recvG_intro (F := F) c 1 4)
    iframe Hcr_1_4 Har_1_4
  isplitl [Hts_1_5 Htr_1_5 Has_1_5]
  · iapply (sendG_intro m K c 1 5); isplitr; · iexact HR
    iframe Hts_1_5 Htr_1_5 Has_1_5
  isplitl [Hcr_1_5 Har_1_5]
  · iapply (recvG_intro (F := F) c 1 5)
    iframe Hcr_1_5 Har_1_5
  isplitl [Hts_1_6 Htr_1_6 Has_1_6]
  · iapply (sendG_intro m K c 1 6); isplitr; · iexact HR
    iframe Hts_1_6 Htr_1_6 Has_1_6
  isplitl [Hcr_1_6 Har_1_6]
  · iapply (recvG_intro (F := F) c 1 6)
    iframe Hcr_1_6 Har_1_6
  isplitl [Hts_1_7 Htr_1_7 Has_1_7]
  · iapply (sendG_intro m K c 1 7); isplitr; · iexact HR
    iframe Hts_1_7 Htr_1_7 Has_1_7
  isplitl [Hcr_1_7 Har_1_7]
  · iapply (recvG_intro (F := F) c 1 7)
    iframe Hcr_1_7 Har_1_7
  isplitl [Hts_1_8 Htr_1_8 Has_1_8]
  · iapply (sendG_intro m K c 1 8); isplitr; · iexact HR
    iframe Hts_1_8 Htr_1_8 Has_1_8
  isplitl [Hcr_1_8 Har_1_8]
  · iapply (recvG_intro (F := F) c 1 8)
    iframe Hcr_1_8 Har_1_8
  isplitl [Hts_1_9 Htr_1_9 Has_1_9]
  · iapply (sendG_intro m K c 1 9); isplitr; · iexact HR
    iframe Hts_1_9 Htr_1_9 Has_1_9
  isplitl [Hcr_1_9 Har_1_9]
  · iapply (recvG_intro (F := F) c 1 9)
    iframe Hcr_1_9 Har_1_9
  isplitl [Hts_2_0 Htr_2_0 Has_2_0]
  · iapply (sendG_intro m K c 2 0); isplitr; · iexact HR
    iframe Hts_2_0 Htr_2_0 Has_2_0
  isplitl [Hcr_2_0 Har_2_0]
  · iapply (recvG_intro (F := F) c 2 0)
    iframe Hcr_2_0 Har_2_0
  isplitl [Hts_2_1 Htr_2_1 Has_2_1]
  · iapply (sendG_intro m K c 2 1); isplitr; · iexact HR
    iframe Hts_2_1 Htr_2_1 Has_2_1
  isplitl [Hcr_2_1 Har_2_1]
  · iapply (recvG_intro (F := F) c 2 1)
    iframe Hcr_2_1 Har_2_1
  isplitl [Hts_2_2 Htr_2_2 Has_2_2]
  · iapply (sendG_intro m K c 2 2); isplitr; · iexact HR
    iframe Hts_2_2 Htr_2_2 Has_2_2
  isplitl [Hcr_2_2 Har_2_2]
  · iapply (recvG_intro (F := F) c 2 2)
    iframe Hcr_2_2 Har_2_2
  isplitl [Hts_2_3 Htr_2_3 Has_2_3]
  · iapply (sendG_intro m K c 2 3); isplitr; · iexact HR
    iframe Hts_2_3 Htr_2_3 Has_2_3
  isplitl [Hcr_2_3 Har_2_3]
  · iapply (recvG_intro (F := F) c 2 3)
    iframe Hcr_2_3 Har_2_3
  isplitl [Hts_2_4 Htr_2_4 Has_2_4]
  · iapply (sendG_intro m K c 2 4); isplitr; · iexact HR
    iframe Hts_2_4 Htr_2_4 Has_2_4
  isplitl [Hcr_2_4 Har_2_4]
  · iapply (recvG_intro (F := F) c 2 4)
    iframe Hcr_2_4 Har_2_4
  isplitl [Hts_2_5 Htr_2_5 Has_2_5]
  · iapply (sendG_intro m K c 2 5); isplitr; · iexact HR
    iframe Hts_2_5 Htr_2_5 Has_2_5
  isplitl [Hcr_2_5 Har_2_5]
  · iapply (recvG_intro (F := F) c 2 5)
    iframe Hcr_2_5 Har_2_5
  isplitl [Hts_2_6 Htr_2_6 Has_2_6]
  · iapply (sendG_intro m K c 2 6); isplitr; · iexact HR
    iframe Hts_2_6 Htr_2_6 Has_2_6
  isplitl [Hcr_2_6 Har_2_6]
  · iapply (recvG_intro (F := F) c 2 6)
    iframe Hcr_2_6 Har_2_6
  isplitl [Hts_2_7 Htr_2_7 Has_2_7]
  · iapply (sendG_intro m K c 2 7); isplitr; · iexact HR
    iframe Hts_2_7 Htr_2_7 Has_2_7
  isplitl [Hcr_2_7 Har_2_7]
  · iapply (recvG_intro (F := F) c 2 7)
    iframe Hcr_2_7 Har_2_7
  isplitl [Hts_2_8 Htr_2_8 Has_2_8]
  · iapply (sendG_intro m K c 2 8); isplitr; · iexact HR
    iframe Hts_2_8 Htr_2_8 Has_2_8
  isplitl [Hcr_2_8 Har_2_8]
  · iapply (recvG_intro (F := F) c 2 8)
    iframe Hcr_2_8 Har_2_8
  isplitl [Hts_2_9 Htr_2_9 Has_2_9]
  · iapply (sendG_intro m K c 2 9); isplitr; · iexact HR
    iframe Hts_2_9 Htr_2_9 Has_2_9
  isplitl [Hcr_2_9 Har_2_9]
  · iapply (recvG_intro (F := F) c 2 9)
    iframe Hcr_2_9 Har_2_9
  isplitl [Htl_0_0 Hal_0_0]
  · iapply (locG_intro m K c 0 0); isplitr; · iexact HR
    iframe Htl_0_0 Hal_0_0
  isplitl [Htl_0_1 Hal_0_1]
  · iapply (locG_intro m K c 0 1); isplitr; · iexact HR
    iframe Htl_0_1 Hal_0_1
  isplitl [Htl_0_2 Hal_0_2]
  · iapply (locG_intro m K c 0 2); isplitr; · iexact HR
    iframe Htl_0_2 Hal_0_2
  isplitl [Htl_0_3 Hal_0_3]
  · iapply (locG_intro m K c 0 3); isplitr; · iexact HR
    iframe Htl_0_3 Hal_0_3
  isplitl [Htl_1_0 Hal_1_0]
  · iapply (locG_intro m K c 1 0); isplitr; · iexact HR
    iframe Htl_1_0 Hal_1_0
  isplitl [Htl_1_1 Hal_1_1]
  · iapply (locG_intro m K c 1 1); isplitr; · iexact HR
    iframe Htl_1_1 Hal_1_1
  isplitl [Htl_1_2 Hal_1_2]
  · iapply (locG_intro m K c 1 2); isplitr; · iexact HR
    iframe Htl_1_2 Hal_1_2
  isplitl [Htl_1_3 Hal_1_3]
  · iapply (locG_intro m K c 1 3); isplitr; · iexact HR
    iframe Htl_1_3 Hal_1_3
  isplitl [Htl_2_0 Hal_2_0]
  · iapply (locG_intro m K c 2 0); isplitr; · iexact HR
    iframe Htl_2_0 Hal_2_0
  isplitl [Htl_2_1 Hal_2_1]
  · iapply (locG_intro m K c 2 1); isplitr; · iexact HR
    iframe Htl_2_1 Hal_2_1
  isplitl [Htl_2_2 Hal_2_2]
  · iapply (locG_intro m K c 2 2); isplitr; · iexact HR
    iframe Htl_2_2 Hal_2_2
  iapply (locG_intro m K c 2 3); isplitr; · iexact HR
  iframe Htl_2_3 Hal_2_3

theorem open_scratch (c : Dev nD) :
    (Launch.scratch (F := F) c : sProp 𝕄)
      ⊢ iprop(barPay (F := F) (par 0 c) 0 ∗ barPay (F := F) (par 1 c) 1 ∗ barPay (F := F) (par 2 c) 2
        ∗ ownsW (F := F) c 0 (sub1 0 c) 512 (hA 0 c) ∗ ownsW (F := F) c 0 (sub2 0 c) 512 (hB 0 c)
        ∗ ownsW (F := F) c 1 (sub1 1 c) 512 (hA 1 c) ∗ ownsW (F := F) c 1 (sub2 1 c) 512 (hB 1 c)
        ∗ ownsW (F := F) c 2 (sub1 2 c) 512 (hA 2 c) ∗ ownsW (F := F) c 2 (sub2 2 c) 512 (hB 2 c)
        ∗ restScr (F := F) c) := by
  unfold Launch.scratch
  refine (Pieces.scratch_split (F := F) c).1.trans ?_
  rw [bigSep_fin3]; unfold slicePieces; simp only [bigSep_fin4]
  iintro ⟨⟨⟨⟨D0, C0, B0, A0⟩, R10, R20⟩, ⟨⟨D1, C1, B1, A1⟩, R11, R21⟩, ⟨⟨D2, C2, B2, A2⟩, R12, R22⟩⟩, Hrest⟩
  isplitl [C0 D0 R12 R21]
  · iapply (Ends.barPay_give (F := F) c 0 2 1 (by decide) (by decide))
    isplitl [C0]; · iexact C0
    isplitl [D0]; · iexact D0
    isplitl [R12]; · iexact R12
    iexact R21
  isplitl [C1 D1 R10 R22]
  · iapply (Ends.barPay_give (F := F) c 1 0 2 (by decide) (by decide))
    isplitl [C1]; · iexact C1
    isplitl [D1]; · iexact D1
    isplitl [R10]; · iexact R10
    iexact R22
  isplitl [C2 D2 R11 R20]
  · iapply (Ends.barPay_give (F := F) c 2 1 0 (by decide) (by decide))
    isplitl [C2]; · iexact C2
    isplitl [D2]; · iexact D2
    isplitl [R11]; · iexact R11
    iexact R20
  isplitl [A0]; · iexact A0
  isplitl [B0]; · iexact B0
  isplitl [A1]; · iexact A1
  isplitl [B1]; · iexact B1
  isplitl [A2]; · iexact A2
  isplitl [B2]; · iexact B2
  iexact Hrest

theorem take_0 (c : Dev nD) : (barPay (F := F) c 0 : sProp 𝕄)
    ⊢ iprop(ownsW (F := F) (nb 0 0 c) 0 (sub1 0 c) 512 (hA 0 c) ∗ ownsW (F := F) (nb 0 0 c) 0 (sub2 0 c) 512 (hB 0 c) ∗ ownsR1 (F := F) (nb 2 1 c) 2 ∗ ownsR2 (F := F) (nb 1 2 c) 1) :=
  Ends.barPay_take (F := F) c 0 2 1 (by decide) (by decide)
theorem take_1 (c : Dev nD) : (barPay (F := F) c 1 : sProp 𝕄)
    ⊢ iprop(ownsW (F := F) (nb 1 0 c) 1 (sub1 1 c) 512 (hA 1 c) ∗ ownsW (F := F) (nb 1 0 c) 1 (sub2 1 c) 512 (hB 1 c) ∗ ownsR1 (F := F) (nb 0 1 c) 0 ∗ ownsR2 (F := F) (nb 2 2 c) 2) :=
  Ends.barPay_take (F := F) c 1 0 2 (by decide) (by decide)
theorem take_2 (c : Dev nD) : (barPay (F := F) c 2 : sProp 𝕄)
    ⊢ iprop(ownsW (F := F) (nb 2 0 c) 2 (sub1 2 c) 512 (hA 2 c) ∗ ownsW (F := F) (nb 2 0 c) 2 (sub2 2 c) 512 (hB 2 c) ∗ ownsR1 (F := F) (nb 1 1 c) 1 ∗ ownsR2 (F := F) (nb 0 2 c) 0) :=
  Ends.barPay_take (F := F) c 2 1 0 (by decide) (by decide)

theorem open_out (c : Dev nD) (V : Buf (Elt F) ((c : Thread nD τ).loc main_v1)) :
    ((((c : Thread nD τ).loc main_v1) ↦{fullShare} V) : sProp 𝕄)
      ⊢ iprop(ownsOut (F := F) c 0 (o2 0 c) (by have := inb_out 0 0 c; exact this)
        ∗ ownsOut (F := F) c 0 (away1 0 c) (by have := inb_out 0 1 c; exact this)
        ∗ ownsOut (F := F) c 0 (sub2 0 c) (by have := inb_out 0 2 c; exact this)
        ∗ ownsOut (F := F) c 0 (sub1 0 c) (by have := inb_out 0 3 c; exact this)
        ∗ ownsOut (F := F) c 1 (o2 1 c) (by have := inb_out 1 0 c; exact this)
        ∗ ownsOut (F := F) c 1 (away1 1 c) (by have := inb_out 1 1 c; exact this)
        ∗ ownsOut (F := F) c 1 (sub2 1 c) (by have := inb_out 1 2 c; exact this)
        ∗ ownsOut (F := F) c 1 (sub1 1 c) (by have := inb_out 1 3 c; exact this)
        ∗ ownsOut (F := F) c 2 (o2 2 c) (by have := inb_out 2 0 c; exact this)
        ∗ ownsOut (F := F) c 2 (away1 2 c) (by have := inb_out 2 1 c; exact this)
        ∗ ownsOut (F := F) c 2 (sub2 2 c) (by have := inb_out 2 2 c; exact this)
        ∗ ownsOut (F := F) c 2 (sub1 2 c) (by have := inb_out 2 3 c; exact this)) := by
  refine (Pieces.out_split (F := F) c V).trans ?_
  rw [bigSep_fin3]; simp only [bigSep_fin4]
  iintro ⟨⟨O00, O01, O02, O03⟩, ⟨O10, O11, O12, O13⟩, ⟨O20, O21, O22, O23⟩⟩
  isplitl [O00]; · iexact O00
  isplitl [O01]; · iexact O01
  isplitl [O02]; · iexact O02
  isplitl [O03]; · iexact O03
  isplitl [O10]; · iexact O10
  isplitl [O11]; · iexact O11
  isplitl [O12]; · iexact O12
  isplitl [O13]; · iexact O13
  isplitl [O20]; · iexact O20
  isplitl [O21]; · iexact O21
  isplitl [O22]; · iexact O22
  iexact O23

theorem inputs_eq (c : Dev nD) : (Launch.inputs m c : sProp 𝕄)
    = iprop((((c : Thread nD τ).loc cc0_stg0_0) ↦{fullShare} Launch.xOf m c) ∗ (((c : Thread nD τ).loc cc0_stg1_0) ↦{fullShare} Launch.wOf m c)) := by
  unfold Launch.inputs; rw [Launch.xstg_eq, Launch.wstg_eq]

set_option maxRecDepth 65536 in
set_option maxHeartbeats 0 in

theorem body : Launch.BodyHyp m := by
  intro K c Kt
  iintro ⟨Hpre, Hk⟩
  unfold Launch.bodyPreK
  rw [inputs_eq m c]
  icases Hpre with ⟨#HR, #Hlev, Htoks, Hwr, ⟨%W0, HO⟩, ⟨Hx, Hw⟩, Hscr, Hout⟩
  ihave Hg := (open_ghost m K c) $$ [Htoks Hwr]
  · iframe HR Htoks Hwr
  icases Hg with ⟨A1, A2, A3, A4, A5, A6, A7, A8, A9, A10, A11, A12, A13, A14, A15, A16, A17, A18, A19, A20, A21, A22, A23, A24, A25, A26, A27, A28, A29, A30, A31, A32, A33, A34, A35, A36, A37, A38, A39, A40, A41, A42, A43, A44, A45, A46, A47, A48, A49, A50, A51, A52, A53, A54, A55, A56, A57, A58, A59, A60, A61, A62, A63, A64, A65, A66, A67, A68, A69, A70, A71, A72, A73, A74, A75, A76, A77⟩
  ihave Hs := (open_scratch (F := F) c) $$ Hscr
  icases Hs with ⟨A78, A79, A80, A81, A82, A83, A84, A85, A86, Hrest⟩
  ihave Ho := (open_out (F := F) c _) $$ Hout
  icases Ho with ⟨A87, A88, A89, A90, A91, A92, A93, A94, A95, A96, A97, A98⟩
  unfold Launch.prog cc0_body
  rw [k0_part45_eq_skeleton]; unfold k0_part45_skel
  simp only [bind_assoc]

  iapply (Idealize.ShloMosaic.exec_cut _ _ _ (part1 (F := F) c (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5)) $$ []
  · iempintro
  iintro %r1 %hq1_1
  obtain ⟨d0, v2, v19, v29, v33, c2_i32_12, v34, v36, v38⟩ := r1
  have hd : d0 = c := hq1_1

  iapply (Idealize.ShloMosaic.exec_cut _ _ _ (part2 (F := F) c (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v2 v19 v29 c2_i32_12 v34 v36 v38)) $$ []
  · iempintro
  iintro %r2 -
  obtain ⟨v50, v65, v68, v71, v72, v73, v76⟩ := r2

  ihave #I_bp_0 := (Launch.inv_bar m K (par 0 c)) $$ HR
  ihave #I_bp_1 := (Launch.inv_bar m K (par 1 c)) $$ HR
  ihave #I_bp_2 := (Launch.inv_bar m K (par 2 c)) $$ HR
  ihave #I_bc := (Launch.inv_bar m K c) $$ HR
  ihave #R_bp_0 := (Launch.reached_bar m K (par 0 c)) $$ HR
  ihave #R_bp_1 := (Launch.reached_bar m K (par 1 c)) $$ HR
  ihave #R_bp_2 := (Launch.reached_bar m K (par 2 c)) $$ HR
  ihave #M_bar := (Launch.mayWait_bar c) $$ Hlev
  rw [owed_start c]
  iapply (Idealize.ShloMosaic.exec_cut _ _ _ (part3 (F := F) (x := Launch.xOf m) (w := Launch.wOf m) c _ _ _ _ (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 d0 hd v19 v33 v50 v65 v68 v71 v72 v73 v76 (Launch.owedOf c (Launch.pays.drop 3)) (W0))) $$ [A1 A2 A3 A78 A79 A80 HO A4 A5]
  · iframe I_bp_0 I_bp_1 I_bp_2 I_bc A1 A2 A3 R_bp_0 R_bp_1 R_bp_2 A78 A79 A80 HO A4 A5 M_bar
  iintro %r3 ⟨HO, A99, A100, A101, A102, A103⟩
  obtain ⟨v79, v88, v89, v92, v94, v97, v99, v104, v106, v107⟩ := r3
  ihave Ht0 := (take_0 (F := F) c) $$ A101
  icases Ht0 with ⟨A104, A105, A106, A107⟩
  ihave Ht1 := (take_1 (F := F) c) $$ A102
  icases Ht1 with ⟨A108, A109, A110, A111⟩
  ihave Ht2 := (take_2 (F := F) c) $$ A103
  icases Ht2 with ⟨A112, A113, A114, A115⟩
  iclear A99 A100

  iapply (Idealize.ShloMosaic.exec_cut _ _ _ (part4 (F := F) c (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v19 v33 v50 v89 v106 v107)) $$ []
  · iempintro
  iintro %r4 -
  obtain ⟨v108, v118, v119, v122, v124, v127, v129, v134, v138, v144⟩ := r4

  iapply (Idealize.ShloMosaic.exec_cut _ _ _ (part5 (F := F) (x := Launch.xOf m) (w := Launch.wOf m) c d0 hd v19 v33 v50 v92 v119 v144)) $$ [Hx Hw]
  · iframe Hx Hw
  iintro %r5 ⟨%hq5_1, %hq5_2, A116, A117⟩
  obtain ⟨v148, v152, v154, v157, v159, v164, v168, v178, v181⟩ := r5
  have h178 := hq5_1
  have h181 := hq5_2

  ihave #I_s_0_0 := (Launch.inv_send m K c 0 0) $$ HR
  ihave #I_rp_0_0 := (Launch.inv_recv m K (peer 0 0 c) 0 0) $$ HR
  rw [owed_copy c 3 4 0 0 rfl]
  iapply (Idealize.ShloMosaic.exec_cut _ _ _ (part6 (F := F) (x := Launch.xOf m) (w := Launch.wOf m) c _ _ d0 hd v65 v68 v92 v122 v178 h178 v181 h181 _ _)) $$ [A81 A104 A6 A83 HO A116 A117]
  · iframe I_s_0_0 I_rp_0_0 A81 A104 A6 A83 HO A116 A117
  iintro %r6 ⟨A118, A119, HO, A120, A121⟩

  ihave #I_s_1_0 := (Launch.inv_send m K c 1 0) $$ HR
  ihave #I_rp_1_0 := (Launch.inv_recv m K (peer 1 0 c) 1 0) $$ HR
  ihave #I_s_2_0 := (Launch.inv_send m K c 2 0) $$ HR
  ihave #I_rp_2_0 := (Launch.inv_recv m K (peer 2 0 c) 2 0) $$ HR
  rw [owed_copy c 4 5 1 0 rfl, owed_copy c 5 6 2 0 rfl]
  iapply (Idealize.ShloMosaic.exec_cut _ _ _ (part7 (F := F) (x := Launch.xOf m) (w := Launch.wOf m) c _ _ _ _ d0 hd v79 v94 v152 _ _)) $$ [A119 A108 A26 A85 A112 A46 A82 HO A120 A121]
  · iframe I_s_1_0 I_rp_1_0 I_s_2_0 I_rp_2_0 A119 A108 A26 A85 A112 A46 A82 HO A120 A121
  iintro %r7 ⟨%hq7_1, A122, A123, A124, HO, A125, A126⟩
  obtain ⟨v242, v244⟩ := r7
  have h242 := hq7_1

  ihave #I_s_0_1 := (Launch.inv_send m K c 0 1) $$ HR
  ihave #I_rp_0_1 := (Launch.inv_recv m K (peer 0 1 c) 0 1) $$ HR
  rw [owed_copy c 6 7 0 1 rfl]
  iapply (Idealize.ShloMosaic.exec_cut _ _ _ (part8 (F := F) (x := Launch.xOf m) (w := Launch.wOf m) c _ _ d0 hd v65 v68 v124 v242 h242 v244 _ _)) $$ [A124 A105 A8 A84 HO A125 A126]
  · iframe I_s_0_1 I_rp_0_1 A124 A105 A8 A84 HO A125 A126
  iintro %r8 ⟨A127, A128, HO, A129, A130⟩

  ihave #I_s_1_1 := (Launch.inv_send m K c 1 1) $$ HR
  ihave #I_rp_1_1 := (Launch.inv_recv m K (peer 1 1 c) 1 1) $$ HR
  ihave #I_s_2_1 := (Launch.inv_send m K c 2 1) $$ HR
  ihave #I_rp_2_1 := (Launch.inv_recv m K (peer 2 1 c) 2 1) $$ HR
  rw [owed_copy c 7 8 1 1 rfl, owed_copy c 8 9 2 1 rfl]
  iapply (Idealize.ShloMosaic.exec_cut _ _ _ (part9 (F := F) (x := Launch.xOf m) (w := Launch.wOf m) (L := Launch.L) (lv := Launch.lv) c _ _ _ _ _ d0 hd v79 v154 (Launch.owedOf c (Launch.pays.drop 9)) _ (Launch.mayWait_send c 0 0 (Launch.pays.drop 9)))) $$ [A128 A109 A28 A86 A113 A48 A118 HO A129 A130]
  · iframe I_s_1_1 I_rp_1_1 I_s_2_1 I_rp_2_1 I_s_0_0 Hlev A128 A109 A28 A86 A113 A48 A118 HO A129 A130
  iintro %r9 ⟨A131, A132, A133, HO, A134, A135⟩

  ihave #I_r_0_0 := (Launch.inv_recv m K c 0 0) $$ HR
  ihave #I_s_0_2 := (Launch.inv_send m K c 0 2) $$ HR
  ihave #I_rp_0_2 := (Launch.inv_recv m K (peer 0 2 c) 0 2) $$ HR
  ihave #M_r_0_0 := (Launch.mayWait_recv c 0 0 (Launch.pays.drop 9) (by decide)) $$ Hlev
  rw [owed_copy c 9 10 0 2 rfl]
  iapply (Idealize.ShloMosaic.exec_cut _ _ _ (part10 (F := F) (x := Launch.xOf m) (w := Launch.wOf m) c _ _ _ d0 hd v65 v68 v97 _ _)) $$ [A7 A10 A110 HO A134 A135]
  · iframe I_r_0_0 I_s_0_2 I_rp_0_2 A7 A10 A110 HO A134 A135 M_r_0_0
  iintro %r10 ⟨A136, A137, A138, HO, A139, A140⟩

  ihave #I_r_1_0 := (Launch.inv_recv m K c 1 0) $$ HR
  ihave #M_s_1_0 := (Launch.mayWait_send c 1 0 (Launch.pays.drop 10)) $$ Hlev
  ihave #M_r_1_0 := (Launch.mayWait_recv c 1 0 (Launch.pays.drop 10) (by decide)) $$ Hlev
  iapply (Idealize.ShloMosaic.exec_cut _ _ _ (part11 (F := F) (x := Launch.xOf m) (w := Launch.wOf m) c _ _ d0 hd v68 v127 _ _)) $$ [A122 A27 HO A139 A140]
  · iframe I_s_1_0 I_r_1_0 A122 A27 HO A139 A140 M_s_1_0 M_r_1_0
  iintro %r11 ⟨A141, A142, A143, A144, HO, A145, A146⟩

  ihave #I_s_1_2 := (Launch.inv_send m K c 1 2) $$ HR
  ihave #I_rp_1_2 := (Launch.inv_recv m K (peer 1 2 c) 1 2) $$ HR
  ihave #I_r_2_0 := (Launch.inv_recv m K c 2 0) $$ HR
  ihave #M_s_2_0 := (Launch.mayWait_send c 2 0 (Launch.pays.drop 11)) $$ Hlev
  ihave #M_r_2_0 := (Launch.mayWait_recv c 2 0 (Launch.pays.drop 11) (by decide)) $$ Hlev
  rw [owed_copy c 10 11 1 2 rfl]
  iapply (Idealize.ShloMosaic.exec_cut _ _ _ (part12 (F := F) (x := Launch.xOf m) (w := Launch.wOf m) c _ _ _ _ d0 hd v79 v157 _ _)) $$ [A30 A123 A47 A143 A114 HO]
  · iframe I_s_1_2 I_rp_1_2 I_s_2_0 I_r_2_0 A30 A123 A47 A143 A114 HO M_s_2_0 M_r_2_0
  iintro %v389 ⟨%hq12_1, A147, A148, A149, A150, A151, HO⟩
  obtain ⟨u, h389, hu⟩ := hq12_1

  ihave #I_s_2_2 := (Launch.inv_send m K c 2 2) $$ HR
  ihave #I_rp_2_2 := (Launch.inv_recv m K (peer 2 2 c) 2 2) $$ HR
  ihave #M_s_0_1 := (Launch.mayWait_send c 0 1 (Launch.pays.drop 12)) $$ Hlev
  rw [owed_copy c 11 12 2 2 rfl]
  iapply (Idealize.ShloMosaic.exec_cut _ _ _ (part13 (F := F) (x := Launch.xOf m) (w := Launch.wOf m) c _ _ _ d0 hd v65 v157 v389 u h389 hu _ _)) $$ [A50 A127 A150 A106 HO A145 A146]
  · iframe I_s_2_2 I_rp_2_2 I_s_0_1 A50 A127 A150 A106 HO A145 A146 M_s_0_1
  iintro %r13 ⟨A152, A153, HO, A154, A155⟩

  ihave #I_r_0_1 := (Launch.inv_recv m K c 0 1) $$ HR
  ihave #M_r_0_1 := (Launch.mayWait_recv c 0 1 (Launch.pays.drop 12) (by decide)) $$ Hlev
  ihave #M_s_0_2 := (Launch.mayWait_send c 0 2 (Launch.pays.drop 12)) $$ Hlev
  iapply (Idealize.ShloMosaic.exec_cut _ _ _ (part14 (F := F) (x := Launch.xOf m) (w := Launch.wOf m) c _ _ d0 hd v65 v99 _ _)) $$ [A9 A137 HO A154 A155]
  · iframe I_r_0_1 I_s_0_2 A9 A137 HO A154 A155 M_r_0_1 M_s_0_2
  iintro %r14 ⟨A156, A157, A158, A159, HO, A160, A161⟩

  ihave #I_r_0_2 := (Launch.inv_recv m K c 0 2) $$ HR
  ihave #I_s_0_3 := (Launch.inv_send m K c 0 3) $$ HR
  ihave #I_rp_0_3 := (Launch.inv_recv m K (peer 0 3 c) 0 3) $$ HR
  ihave #M_r_0_2 := (Launch.mayWait_recv c 0 2 (Launch.pays.drop 12) (by decide)) $$ Hlev
  rw [owed_copy c 12 13 0 3 rfl]
  iapply (Idealize.ShloMosaic.exec_cut _ _ _ (part15 (F := F) (x := Launch.xOf m) (w := Launch.wOf m) c _ _ _ d0 hd v68 v79 v99 v104 v108 _ _)) $$ [A11 A12 A158 A115 HO]
  · iframe I_r_0_2 I_s_0_3 I_rp_0_3 M_r_0_2 A11 A12 A158 A115 HO
  iintro %v476 ⟨%hq15_1, A162, A163, A164, A165, A166, HO⟩
  have h476 := hq15_1

  ihave #I_r_1_1 := (Launch.inv_recv m K c 1 1) $$ HR
  ihave #M_s_1_1 := (Launch.mayWait_send c 1 1 (Launch.pays.drop 13)) $$ Hlev
  ihave #M_r_1_1 := (Launch.mayWait_recv c 1 1 (Launch.pays.drop 13) (by decide)) $$ Hlev
  iapply (Idealize.ShloMosaic.exec_cut _ _ _ (part16 (F := F) (x := Launch.xOf m) (w := Launch.wOf m) c _ _ d0 hd v68 v99 v108 v129 v476 h476 _ _)) $$ [A131 A29 A166 A164 A160 HO]
  · iframe I_s_1_1 I_r_1_1 M_s_1_1 M_r_1_1 A131 A29 A166 A164 A160 HO
  iintro %r16 ⟨%hq16_1, %hq16_2, A167, A168, A169, A170, A171, A172, A173, HO⟩
  obtain ⟨v503, v505⟩ := r16
  obtain ⟨u503, h503, hu503⟩ := hq16_1
  have h505 := hq16_2

  ihave #I_r_1_2 := (Launch.inv_recv m K c 1 2) $$ HR
  ihave #M_s_1_2 := (Launch.mayWait_send c 1 2 (Launch.pays.drop 13)) $$ Hlev
  ihave #M_r_1_2 := (Launch.mayWait_recv c 1 2 (Launch.pays.drop 13) (by decide)) $$ Hlev
  iapply (Idealize.ShloMosaic.exec_cut _ _ _ (part17 (F := F) (x := Launch.xOf m) (w := Launch.wOf m) c _ _ d0 hd v79 v129 v134 v503 u503 h503 hu503 v505 h505 _ _)) $$ [A147 A31 A171 A161 HO]
  · iframe I_s_1_2 I_r_1_2 M_s_1_2 M_r_1_2 A147 A31 A171 A161 HO
  iintro %r17 ⟨%hq17_1, %hq17_2, A174, A175, A176, A177, A178, A179, HO⟩
  obtain ⟨v531, v534⟩ := r17
  obtain ⟨u531, h531, hu531⟩ := hq17_1
  have h534 := hq17_2

  ihave #I_s_1_3 := (Launch.inv_send m K c 1 3) $$ HR
  ihave #I_rp_1_3 := (Launch.inv_recv m K (peer 1 3 c) 1 3) $$ HR
  rw [owed_copy c 13 14 1 3 rfl]
  iapply (Idealize.ShloMosaic.exec_cut _ _ _ (part18 (F := F) (x := Launch.xOf m) (w := Launch.wOf m) c _ _ d0 hd v65 v129 v134 v138 v531 u531 h531 hu531 v534 h534 _ _)) $$ [A32 A176 A177 A107 HO]
  · iframe I_s_1_3 I_rp_1_3 A32 A176 A177 A107 HO
  iintro %r18 ⟨A180, A181, A182, HO⟩

  ihave #I_r_2_1 := (Launch.inv_recv m K c 2 1) $$ HR
  ihave #M_s_2_1 := (Launch.mayWait_send c 2 1 (Launch.pays.drop 14)) $$ Hlev
  ihave #M_r_2_1 := (Launch.mayWait_recv c 2 1 (Launch.pays.drop 14) (by decide)) $$ Hlev
  iapply (Idealize.ShloMosaic.exec_cut _ _ _ (part19 (F := F) (x := Launch.xOf m) (w := Launch.wOf m) c _ _ d0 hd v79 v159 _ _)) $$ [A132 A49 A173 A179 HO]
  · iframe I_s_2_1 I_r_2_1 M_s_2_1 M_r_2_1 A132 A49 A173 A179 HO
  iintro %r19 ⟨A183, A184, A185, A186, A187, A188, HO⟩

  ihave #I_r_2_2 := (Launch.inv_recv m K c 2 2) $$ HR
  ihave #M_s_2_2 := (Launch.mayWait_send c 2 2 (Launch.pays.drop 14)) $$ Hlev
  ihave #M_r_2_2 := (Launch.mayWait_recv c 2 2 (Launch.pays.drop 14) (by decide)) $$ Hlev
  iapply (Idealize.ShloMosaic.exec_cut _ _ _ (part20 (F := F) (x := Launch.xOf m) (w := Launch.wOf m) c _ _ d0 hd v65 v68 v159 v164 _ _)) $$ [A152 A51 A185 HO]
  · iframe I_s_2_2 I_r_2_2 M_s_2_2 M_r_2_2 A152 A51 A185 HO
  iintro %r20 ⟨A189, A190, A191, A192, A193, A194, HO⟩

  ihave #I_s_2_3 := (Launch.inv_send m K c 2 3) $$ HR
  ihave #I_rp_2_3 := (Launch.inv_recv m K (peer 2 3 c) 2 3) $$ HR
  ihave #M_s_0_3 := (Launch.mayWait_send c 0 3 (Launch.pays.drop 15)) $$ Hlev
  rw [owed_copy c 14 15 2 3 rfl]
  iapply (Idealize.ShloMosaic.exec_cut _ _ _ (part21 (F := F) (x := Launch.xOf m) (w := Launch.wOf m) c _ _ _ d0 hd v79 v159 v168 _ _)) $$ [A52 A193 A111 A194 A191 A163 HO]
  · iframe I_s_2_3 I_rp_2_3 I_s_0_3 M_s_0_3 A52 A193 A111 A194 A191 A163 HO
  iintro %r21 ⟨A195, A196, A197, A198, HO⟩

  ihave #I_r_0_3 := (Launch.inv_recv m K c 0 3) $$ HR
  ihave #I_s_0_4 := (Launch.inv_send m K c 0 4) $$ HR
  ihave #I_rp_0_4 := (Launch.inv_recv m K (peer 0 4 c) 0 4) $$ HR
  ihave #M_r_0_3 := (Launch.mayWait_recv c 0 3 (Launch.pays.drop 15) (by decide)) $$ Hlev
  rw [owed_copy c 15 16 0 4 rfl]
  iapply (Idealize.ShloMosaic.exec_cut _ _ _ (part22 (F := F) (x := Launch.xOf m) (w := Launch.wOf m) c _ _ _ d0 hd v68 v79 v108 _ _)) $$ [A13 A169 A14 HO]
  · iframe I_r_0_3 I_s_0_4 I_rp_0_4 M_r_0_3 A13 A169 A14 HO
  iintro %r22 ⟨A199, A200, A201, A202, HO⟩

  ihave #I_s_0_5 := (Launch.inv_send m K c 0 5) $$ HR
  ihave #I_rp_0_5 := (Launch.inv_recv m K (peer 0 5 c) 0 5) $$ HR
  ihave #I_s_0_6 := (Launch.inv_send m K c 0 6) $$ HR
  ihave #I_rp_0_6 := (Launch.inv_recv m K (peer 0 6 c) 0 6) $$ HR
  ihave #M_s_1_3 := (Launch.mayWait_send c 1 3 (Launch.pays.drop 18)) $$ Hlev
  rw [owed_copy c 16 17 0 5 rfl, owed_copy c 17 18 0 6 rfl]
  iapply (Idealize.ShloMosaic.exec_cut _ _ _ (part23 (F := F) (x := Launch.xOf m) (w := Launch.wOf m) c _ _ _ _ _ d0 hd v65 _ _)) $$ [A16 A18 A201 A165 A159 A180 HO]
  · iframe I_s_0_5 I_rp_0_5 I_s_0_6 I_rp_0_6 I_s_1_3 M_s_1_3 A16 A18 A201 A165 A159 A180 HO
  iintro %r23 ⟨A203, A204, A205, A206, A207, A208, HO⟩

  ihave #I_r_1_3 := (Launch.inv_recv m K c 1 3) $$ HR
  ihave #I_s_1_4 := (Launch.inv_send m K c 1 4) $$ HR
  ihave #I_rp_1_4 := (Launch.inv_recv m K (peer 1 4 c) 1 4) $$ HR
  ihave #M_r_1_3 := (Launch.mayWait_recv c 1 3 (Launch.pays.drop 18) (by decide)) $$ Hlev
  rw [owed_copy c 18 19 1 4 rfl]
  iapply (Idealize.ShloMosaic.exec_cut _ _ _ (part24 (F := F) (x := Launch.xOf m) (w := Launch.wOf m) c _ _ _ d0 hd v65 v79 v138 _ _)) $$ [A33 A181 A34 HO]
  · iframe I_r_1_3 I_s_1_4 I_rp_1_4 M_r_1_3 A33 A181 A34 HO
  iintro %r24 ⟨A209, A210, A211, A212, HO⟩

  ihave #I_s_1_5 := (Launch.inv_send m K c 1 5) $$ HR
  ihave #I_rp_1_5 := (Launch.inv_recv m K (peer 1 5 c) 1 5) $$ HR
  ihave #I_s_1_6 := (Launch.inv_send m K c 1 6) $$ HR
  ihave #I_rp_1_6 := (Launch.inv_recv m K (peer 1 6 c) 1 6) $$ HR
  ihave #M_s_2_3 := (Launch.mayWait_send c 2 3 (Launch.pays.drop 21)) $$ Hlev
  rw [owed_copy c 19 20 1 5 rfl, owed_copy c 20 21 1 6 rfl]
  iapply (Idealize.ShloMosaic.exec_cut _ _ _ (part25 (F := F) (x := Launch.xOf m) (w := Launch.wOf m) c _ _ _ _ _ d0 hd v68 _ _)) $$ [A211 A178 A172 A36 A38 A195 HO]
  · iframe I_s_1_5 I_rp_1_5 I_s_1_6 I_rp_1_6 I_s_2_3 M_s_2_3 A211 A178 A172 A36 A38 A195 HO
  iintro %r25 ⟨A213, A214, A215, A216, A217, A218, HO⟩

  ihave #I_r_2_3 := (Launch.inv_recv m K c 2 3) $$ HR
  ihave #I_s_2_4 := (Launch.inv_send m K c 2 4) $$ HR
  ihave #I_rp_2_4 := (Launch.inv_recv m K (peer 2 4 c) 2 4) $$ HR
  ihave #M_r_2_3 := (Launch.mayWait_recv c 2 3 (Launch.pays.drop 21) (by decide)) $$ Hlev
  rw [owed_copy c 21 22 2 4 rfl]
  iapply (Idealize.ShloMosaic.exec_cut _ _ _ (part26 (F := F) (x := Launch.xOf m) (w := Launch.wOf m) c _ _ _ d0 hd v65 v68 v168 _ _)) $$ [A196 A53 A54 HO]
  · iframe I_r_2_3 I_s_2_4 I_rp_2_4 M_r_2_3 A196 A53 A54 HO
  iintro %r26 ⟨A219, A220, A221, A222, HO⟩

  ihave #I_s_2_5 := (Launch.inv_send m K c 2 5) $$ HR
  ihave #I_rp_2_5 := (Launch.inv_recv m K (peer 2 5 c) 2 5) $$ HR
  ihave #I_s_2_6 := (Launch.inv_send m K c 2 6) $$ HR
  ihave #I_rp_2_6 := (Launch.inv_recv m K (peer 2 6 c) 2 6) $$ HR
  ihave #M_s_0_4 := (Launch.mayWait_send c 0 4 (Launch.pays.drop 24)) $$ Hlev
  rw [owed_copy c 22 23 2 5 rfl, owed_copy c 23 24 2 6 rfl]
  iapply (Idealize.ShloMosaic.exec_cut _ _ _ (part27 (F := F) (x := Launch.xOf m) (w := Launch.wOf m) c _ _ _ _ _ d0 hd v79 _ _)) $$ [A219 A192 A186 A56 A58 A202 HO]
  · iframe I_s_2_5 I_rp_2_5 I_s_2_6 I_rp_2_6 I_s_0_4 M_s_0_4 A219 A192 A186 A56 A58 A202 HO
  iintro %r27 ⟨A223, A224, A225, A226, A227, A228, A229, HO⟩

  ihave #I_r_0_4 := (Launch.inv_recv m K c 0 4) $$ HR
  ihave #I_l_0_0 := (Launch.inv_loc m K c 0 0) $$ HR
  ihave #I_s_0_7 := (Launch.inv_send m K c 0 7) $$ HR
  ihave #I_rp_0_7 := (Launch.inv_recv m K (peer 0 7 c) 0 7) $$ HR
  ihave #I_s_0_8 := (Launch.inv_send m K c 0 8) $$ HR
  ihave #I_rp_0_8 := (Launch.inv_recv m K (peer 0 8 c) 0 8) $$ HR
  ihave #M_r_0_4 := (Launch.mayWait_recv c 0 4 (Launch.pays.drop 24) (by decide)) $$ Hlev
  ihave A230 : (ownsOut c 0 (locOff 0 0 c) (inb_out 0 0 c) : sProp 𝕄) $$ [A87]
  · iexact A87
  rw [owed_copy c 24 25 0 7 rfl, owed_copy c 25 26 0 8 rfl]
  iapply (Idealize.ShloMosaic.exec_cut _ _ _ (part28 (F := F) (x := Launch.xOf m) (w := Launch.wOf m) c _ _ _ _ _ _ d0 hd v65 v68 _ _)) $$ [A205 A206 A207 A230 A15 A66 A20 A22 HO]
  · iframe I_r_0_4 I_l_0_0 I_s_0_7 I_rp_0_7 I_s_0_8 I_rp_0_8 M_r_0_4 A205 A206 A207 A230 A15 A66 A20 A22 HO
  iintro %r28 ⟨A231, A232, A233, A234, A235, HO⟩

  ihave #I_r_1_4 := (Launch.inv_recv m K c 1 4) $$ HR
  ihave #I_l_1_0 := (Launch.inv_loc m K c 1 0) $$ HR
  ihave #M_s_1_4 := (Launch.mayWait_send c 1 4 (Launch.pays.drop 26)) $$ Hlev
  ihave #M_r_1_4 := (Launch.mayWait_recv c 1 4 (Launch.pays.drop 26) (by decide)) $$ Hlev
  ihave A236 : (ownsOut c 1 (locOff 1 0 c) (inb_out 1 0 c) : sProp 𝕄) $$ [A91]
  · iexact A91
  iapply (Idealize.ShloMosaic.exec_cut _ _ _ (part29 (F := F) (x := Launch.xOf m) (w := Launch.wOf m) c _ _ _ d0 hd v65 v79 _ _)) $$ [A213 A236 A212 A35 A70 HO]
  · iframe I_s_1_4 I_r_1_4 I_l_1_0 M_s_1_4 M_r_1_4 A213 A236 A212 A35 A70 HO
  iintro %r29 ⟨A237, A238, A239, A240, A241, HO⟩

  ihave #I_s_1_7 := (Launch.inv_send m K c 1 7) $$ HR
  ihave #I_rp_1_7 := (Launch.inv_recv m K (peer 1 7 c) 1 7) $$ HR
  ihave #I_s_1_8 := (Launch.inv_send m K c 1 8) $$ HR
  ihave #I_rp_1_8 := (Launch.inv_recv m K (peer 1 8 c) 1 8) $$ HR
  ihave #I_r_2_4 := (Launch.inv_recv m K c 2 4) $$ HR
  ihave #M_s_2_4 := (Launch.mayWait_send c 2 4 (Launch.pays.drop 28)) $$ Hlev
  ihave #M_r_2_4 := (Launch.mayWait_recv c 2 4 (Launch.pays.drop 28) (by decide)) $$ Hlev
  rw [owed_copy c 26 27 1 7 rfl, owed_copy c 27 28 1 8 rfl]
  iapply (Idealize.ShloMosaic.exec_cut _ _ _ (part30 (F := F) (x := Launch.xOf m) (w := Launch.wOf m) c _ _ _ _ _ _ d0 hd v68 _ _)) $$ [A238 A214 A215 A40 A42 A222 A55 HO]
  · iframe I_s_1_7 I_rp_1_7 I_s_1_8 I_rp_1_8 I_s_2_4 I_r_2_4 M_s_2_4 M_r_2_4 A238 A214 A215 A40 A42 A222 A55 HO
  iintro %r30 ⟨A242, A243, A244, A245, A246, A247, A248, HO⟩

  ihave #I_l_2_0 := (Launch.inv_loc m K c 2 0) $$ HR
  ihave #I_s_2_7 := (Launch.inv_send m K c 2 7) $$ HR
  ihave #I_rp_2_7 := (Launch.inv_recv m K (peer 2 7 c) 2 7) $$ HR
  ihave #I_s_2_8 := (Launch.inv_send m K c 2 8) $$ HR
  ihave #I_rp_2_8 := (Launch.inv_recv m K (peer 2 8 c) 2 8) $$ HR
  rw [owed_copy c 28 29 2 7 rfl, owed_copy c 29 30 2 8 rfl]
  iapply (Idealize.ShloMosaic.exec_cut _ _ _ (part31 (F := F) (x := Launch.xOf m) (w := Launch.wOf m) c _ _ _ _ _ d0 hd v65 v79 _ _)) $$ [A223 A244 A224 A225 A95 A74 A60 A62 HO]
  · iframe I_l_2_0 I_s_2_7 I_rp_2_7 I_s_2_8 I_rp_2_8 A223 A244 A224 A225 A95 A74 A60 A62 HO
  iintro %r31 ⟨A249, A250, A251, A252, HO⟩

  ihave #I_r_0_5 := (Launch.inv_recv m K c 0 5) $$ HR
  ihave #M_s_0_5 := (Launch.mayWait_send c 0 5 (Launch.pays.drop 30)) $$ Hlev
  ihave #M_r_0_5 := (Launch.mayWait_recv c 0 5 (Launch.pays.drop 30) (by decide)) $$ Hlev
  ihave #M_s_0_7 := (Launch.mayWait_send c 0 7 (Launch.pays.drop 30)) $$ Hlev
  iapply (Idealize.ShloMosaic.exec_cut _ _ _ (part32 (F := F) (x := Launch.xOf m) (w := Launch.wOf m) c _ _ _ d0 hd v68 _ _)) $$ [A203 A17 A234 HO]
  · iframe I_s_0_5 I_r_0_5 I_s_0_7 M_s_0_5 M_r_0_5 M_s_0_7 A203 A17 A234 HO
  iintro %r32 ⟨A253, A254, A255, A256, A257, A258, HO⟩

  ihave #I_r_0_7 := (Launch.inv_recv m K c 0 7) $$ HR
  ihave #I_l_0_1 := (Launch.inv_loc m K c 0 1) $$ HR
  ihave #I_s_0_9 := (Launch.inv_send m K c 0 9) $$ HR
  ihave #I_rp_0_9 := (Launch.inv_recv m K (peer 0 9 c) 0 9) $$ HR
  ihave #M_r_0_7 := (Launch.mayWait_recv c 0 7 (Launch.pays.drop 30) (by decide)) $$ Hlev
  ihave #M_s_1_5 := (Launch.mayWait_send c 1 5 (Launch.pays.drop 31)) $$ Hlev
  rw [owed_copy c 30 31 0 9 rfl]
  iapply (Idealize.ShloMosaic.exec_cut _ _ _ (part33 (F := F) (x := Launch.xOf m) (w := Launch.wOf m) c _ _ _ _ _ d0 hd v65 v79 _ _)) $$ [A254 A138 A88 A21 A67 A24 A216 HO]
  · iframe I_r_0_7 I_l_0_1 I_s_0_9 I_rp_0_9 I_s_1_5 M_r_0_7 M_s_1_5 A254 A138 A88 A21 A67 A24 A216 HO
  iintro %r33 ⟨A259, A260, A261, A262, A263, A264, HO⟩

  ihave #I_r_1_5 := (Launch.inv_recv m K c 1 5) $$ HR
  ihave #I_r_1_7 := (Launch.inv_recv m K c 1 7) $$ HR
  ihave #I_l_1_1 := (Launch.inv_loc m K c 1 1) $$ HR
  ihave #M_r_1_5 := (Launch.mayWait_recv c 1 5 (Launch.pays.drop 31) (by decide)) $$ Hlev
  ihave #M_s_1_7 := (Launch.mayWait_send c 1 7 (Launch.pays.drop 31)) $$ Hlev
  ihave #M_r_1_7 := (Launch.mayWait_recv c 1 7 (Launch.pays.drop 31) (by decide)) $$ Hlev
  iapply (Idealize.ShloMosaic.exec_cut _ _ _ (part34 (F := F) (x := Launch.xOf m) (w := Launch.wOf m) c _ _ _ _ d0 hd v79 _ _)) $$ [A92 A37 A245 A41 A71 HO]
  · iframe I_r_1_5 I_s_1_7 I_r_1_7 I_l_1_1 M_r_1_5 M_s_1_7 M_r_1_7 A92 A37 A245 A41 A71 HO
  iintro %r34 ⟨A265, A266, A267, A268, A269, A270, HO⟩

  ihave #I_s_1_9 := (Launch.inv_send m K c 1 9) $$ HR
  ihave #I_rp_1_9 := (Launch.inv_recv m K (peer 1 9 c) 1 9) $$ HR
  ihave #I_r_2_5 := (Launch.inv_recv m K c 2 5) $$ HR
  ihave #M_s_2_5 := (Launch.mayWait_send c 2 5 (Launch.pays.drop 32)) $$ Hlev
  ihave #M_r_2_5 := (Launch.mayWait_recv c 2 5 (Launch.pays.drop 32) (by decide)) $$ Hlev
  rw [owed_copy c 31 32 1 9 rfl]
  iapply (Idealize.ShloMosaic.exec_cut _ _ _ (part35 (F := F) (x := Launch.xOf m) (w := Launch.wOf m) c _ _ _ _ d0 hd v65 v68 _ _)) $$ [A266 A144 A44 A226 A57 HO]
  · iframe I_s_1_9 I_rp_1_9 I_s_2_5 I_r_2_5 M_s_2_5 M_r_2_5 A266 A144 A44 A226 A57 HO
  iintro %r35 ⟨A271, A272, A273, A274, A275, A276, HO⟩

  ihave #I_r_2_7 := (Launch.inv_recv m K c 2 7) $$ HR
  ihave #I_l_2_1 := (Launch.inv_loc m K c 2 1) $$ HR
  ihave #I_s_2_9 := (Launch.inv_send m K c 2 9) $$ HR
  ihave #I_rp_2_9 := (Launch.inv_recv m K (peer 2 9 c) 2 9) $$ HR
  ihave #M_s_2_7 := (Launch.mayWait_send c 2 7 (Launch.pays.drop 32)) $$ Hlev
  ihave #M_r_2_7 := (Launch.mayWait_recv c 2 7 (Launch.pays.drop 32) (by decide)) $$ Hlev
  rw [owed_copy c 32 33 2 9 rfl]
  iapply (Idealize.ShloMosaic.exec_cut _ _ _ (part36 (F := F) (x := Launch.xOf m) (w := Launch.wOf m) c _ _ _ _ _ d0 hd v50 v65 v79 _ _)) $$ [A273 A151 A96 A251 A61 A75 A64 HO]
  · iframe I_s_2_7 I_r_2_7 I_l_2_1 I_s_2_9 I_rp_2_9 M_s_2_7 M_r_2_7 A273 A151 A96 A251 A61 A75 A64 HO
  iintro %v1053 ⟨A277, A278, A279, A280, A281, A282, HO⟩

  ihave #I_r_0_6 := (Launch.inv_recv m K c 0 6) $$ HR
  ihave #M_s_0_6 := (Launch.mayWait_send c 0 6 (Launch.pays.drop 33)) $$ Hlev
  ihave #M_r_0_6 := (Launch.mayWait_recv c 0 6 (Launch.pays.drop 33) (by decide)) $$ Hlev
  ihave #M_s_0_8 := (Launch.mayWait_send c 0 8 (Launch.pays.drop 33)) $$ Hlev
  iapply (Idealize.ShloMosaic.exec_cut _ _ _ (part37 (F := F) (x := Launch.xOf m) (w := Launch.wOf m) c _ _ _ d0 hd v19 v33 v65 v88 v118 v148 v1053 _ _)) $$ [A204 A19 A235 HO]
  · iframe I_s_0_6 I_r_0_6 I_s_0_8 M_s_0_6 M_r_0_6 M_s_0_8 A204 A19 A235 HO
  iintro %r37 ⟨A283, A284, A285, A286, A287, A288, HO⟩

  ihave #I_r_0_8 := (Launch.inv_recv m K c 0 8) $$ HR
  ihave #I_l_0_2 := (Launch.inv_loc m K c 0 2) $$ HR
  ihave #M_r_0_8 := (Launch.mayWait_recv c 0 8 (Launch.pays.drop 33) (by decide)) $$ Hlev
  ihave #M_s_1_6 := (Launch.mayWait_send c 1 6 (Launch.pays.drop 33)) $$ Hlev
  iapply (Idealize.ShloMosaic.exec_cut _ _ _ (part38 (F := F) (x := Launch.xOf m) (w := Launch.wOf m) c _ _ _ d0 hd v65 v68 _ _)) $$ [A284 A89 A23 A68 A217 HO]
  · iframe I_r_0_8 I_l_0_2 I_s_1_6 M_r_0_8 M_s_1_6 A284 A89 A23 A68 A217 HO
  iintro %r38 ⟨A289, A290, A291, A292, A293, HO⟩

  ihave #I_r_1_6 := (Launch.inv_recv m K c 1 6) $$ HR
  ihave #I_r_1_8 := (Launch.inv_recv m K c 1 8) $$ HR
  ihave #I_l_1_2 := (Launch.inv_loc m K c 1 2) $$ HR
  ihave #M_r_1_6 := (Launch.mayWait_recv c 1 6 (Launch.pays.drop 33) (by decide)) $$ Hlev
  ihave #M_s_1_8 := (Launch.mayWait_send c 1 8 (Launch.pays.drop 33)) $$ Hlev
  ihave #M_r_1_8 := (Launch.mayWait_recv c 1 8 (Launch.pays.drop 33) (by decide)) $$ Hlev
  iapply (Idealize.ShloMosaic.exec_cut _ _ _ (part39 (F := F) (x := Launch.xOf m) (w := Launch.wOf m) c _ _ _ _ d0 hd v68 _ _)) $$ [A93 A39 A246 A43 A72 HO]
  · iframe I_r_1_6 I_s_1_8 I_r_1_8 I_l_1_2 M_r_1_6 M_s_1_8 M_r_1_8 A93 A39 A246 A43 A72 HO
  iintro %r39 ⟨A294, A295, A296, A297, A298, A299, HO⟩

  ihave #I_r_2_6 := (Launch.inv_recv m K c 2 6) $$ HR
  ihave #I_r_2_8 := (Launch.inv_recv m K c 2 8) $$ HR
  ihave #M_s_2_6 := (Launch.mayWait_send c 2 6 (Launch.pays.drop 33)) $$ Hlev
  ihave #M_r_2_6 := (Launch.mayWait_recv c 2 6 (Launch.pays.drop 33) (by decide)) $$ Hlev
  ihave #M_s_2_8 := (Launch.mayWait_send c 2 8 (Launch.pays.drop 33)) $$ Hlev
  ihave #M_r_2_8 := (Launch.mayWait_recv c 2 8 (Launch.pays.drop 33) (by decide)) $$ Hlev
  iapply (Idealize.ShloMosaic.exec_cut _ _ _ (part40 (F := F) (x := Launch.xOf m) (w := Launch.wOf m) c _ _ _ _ d0 hd v79 _ _)) $$ [A227 A59 A252 A63 HO]
  · iframe I_s_2_6 I_r_2_6 I_s_2_8 I_r_2_8 A227 A59 A252 A63 HO M_s_2_6 M_r_2_6 M_s_2_8 M_r_2_8
  iintro %r40 ⟨HO, A300, A301, A302, A303, A304, A305, A306⟩

  ihave #I_l_2_2 := (Launch.inv_loc m K c 2 2) $$ HR
  ihave #I_r_0_9 := (Launch.inv_recv m K c 0 9) $$ HR
  ihave #M_s_0_9 := (Launch.mayWait_send c 0 9 (Launch.pays.drop 33)) $$ Hlev
  ihave #M_r_0_9 := (Launch.mayWait_recv c 0 9 (Launch.pays.drop 33) (by decide)) $$ Hlev
  iapply (Idealize.ShloMosaic.exec_cut _ _ _ (part41 (F := F) (x := Launch.xOf m) (w := Launch.wOf m) c _ _ _ d0 hd v50 v65 v88 _ _)) $$ [A76 A263 A25 A306 A97 HO]
  · iframe I_l_2_2 I_s_0_9 I_r_0_9 A76 A263 A25 A306 A97 HO M_s_0_9 M_r_0_9
  iintro %r41 ⟨HO, A307, A308, A309, A310, A311, A312⟩

  ihave #I_l_0_3 := (Launch.inv_loc m K c 0 3) $$ HR
  ihave #I_r_1_9 := (Launch.inv_recv m K c 1 9) $$ HR
  ihave #I_l_1_3 := (Launch.inv_loc m K c 1 3) $$ HR
  ihave #M_s_1_9 := (Launch.mayWait_send c 1 9 (Launch.pays.drop 33)) $$ Hlev
  ihave #M_r_1_9 := (Launch.mayWait_recv c 1 9 (Launch.pays.drop 33) (by decide)) $$ Hlev
  iapply (Idealize.ShloMosaic.exec_cut _ _ _ (part42 (F := F) (x := Launch.xOf m) (w := Launch.wOf m) c _ _ _ _ d0 hd v19 v68 v118 _ _)) $$ [A69 A274 A45 A73 A312 A90 A94 HO]
  · iframe I_l_0_3 I_s_1_9 I_r_1_9 I_l_1_3 A69 A274 A45 A73 A312 A90 A94 HO M_s_1_9 M_r_1_9
  iintro %r42 ⟨HO, A313, A314, A315, A316, A317, A318, A319⟩

  ihave #I_r_2_9 := (Launch.inv_recv m K c 2 9) $$ HR
  ihave #I_l_2_3 := (Launch.inv_loc m K c 2 3) $$ HR
  ihave #M_s_2_9 := (Launch.mayWait_send c 2 9 (Launch.pays.drop 33)) $$ Hlev
  ihave #M_r_2_9 := (Launch.mayWait_recv c 2 9 (Launch.pays.drop 33) (by decide)) $$ Hlev
  ihave #M_l_0_0 := (Launch.mayWait_loc c 0 0 (Launch.pays.drop 33)) $$ Hlev
  iapply (Idealize.ShloMosaic.exec_cut _ _ _ (part43 (F := F) (x := Launch.xOf m) (w := Launch.wOf m) c _ _ _ _ d0 hd v33 v79 v148 _ _)) $$ [A282 A65 A77 A233 A98 HO]
  · iframe I_s_2_9 I_r_2_9 I_l_2_3 I_l_0_0 A282 A65 A77 A233 A98 HO M_s_2_9 M_r_2_9 M_l_0_0
  iintro %r43 ⟨HO, A320, A321, A322, A323, A324, A325, A326⟩

  ihave #M_l_0_1 := (Launch.mayWait_loc c 0 1 (Launch.pays.drop 33)) $$ Hlev
  ihave #M_l_0_2 := (Launch.mayWait_loc c 0 2 (Launch.pays.drop 33)) $$ Hlev
  ihave #M_l_0_3 := (Launch.mayWait_loc c 0 3 (Launch.pays.drop 33)) $$ Hlev
  ihave #M_l_1_0 := (Launch.mayWait_loc c 1 0 (Launch.pays.drop 33)) $$ Hlev
  ihave #M_l_1_1 := (Launch.mayWait_loc c 1 1 (Launch.pays.drop 33)) $$ Hlev
  ihave #M_l_1_2 := (Launch.mayWait_loc c 1 2 (Launch.pays.drop 33)) $$ Hlev
  iapply (Idealize.ShloMosaic.exec_cut _ _ _ (part44 (F := F) (x := Launch.xOf m) (w := Launch.wOf m) c _ _ _ _ _ _ d0 hd _ _)) $$ [A262 A292 A313 A241 A270 A299 HO]
  · iframe I_l_0_1 I_l_0_2 I_l_0_3 I_l_1_0 I_l_1_1 I_l_1_2 A262 A292 A313 A241 A270 A299 HO M_l_0_1 M_l_0_2 M_l_0_3 M_l_1_0 M_l_1_1 M_l_1_2
  iintro %r44 ⟨HO, A327, A328, A329, A330, A331, A332, A333, A334, A335, A336, A337, A338⟩

  ihave #M_l_1_3 := (Launch.mayWait_loc c 1 3 (Launch.pays.drop 33)) $$ Hlev
  iapply (tail_1_3 (F := F) (x := Launch.xOf m) (w := Launch.wOf m) c _ d0 hd _ _) $$ [A316 HO]
  · iframe I_l_1_3 M_l_1_3 A316 HO
  iintro ⟨A339, A340, HO⟩
  simp only [pure_bind]
  ihave #M_l_2_0 := (Launch.mayWait_loc c 2 0 (Launch.pays.drop 33)) $$ Hlev
  iapply (tail_2_0 (F := F) (x := Launch.xOf m) (w := Launch.wOf m) c _ d0 hd _ _) $$ [A250 HO]
  · iframe I_l_2_0 M_l_2_0 A250 HO
  iintro ⟨A341, A342, HO⟩
  ihave #M_l_2_1 := (Launch.mayWait_loc c 2 1 (Launch.pays.drop 33)) $$ Hlev
  iapply (tail_2_1 (F := F) (x := Launch.xOf m) (w := Launch.wOf m) c _ d0 hd _ _) $$ [A281 HO]
  · iframe I_l_2_1 M_l_2_1 A281 HO
  iintro ⟨A343, A344, HO⟩
  ihave #M_l_2_2 := (Launch.mayWait_loc c 2 2 (Launch.pays.drop 33)) $$ Hlev
  iapply (tail_2_2 (F := F) (x := Launch.xOf m) (w := Launch.wOf m) c _ d0 hd _ _) $$ [A307 HO]
  · iframe I_l_2_2 M_l_2_2 A307 HO
  iintro ⟨A345, A346, HO⟩
  ihave #M_l_2_3 := (Launch.mayWait_loc c 2 3 (Launch.pays.drop 33)) $$ Hlev
  iapply (tail_2_3 (F := F) (x := Launch.xOf m) (w := Launch.wOf m) c _ d0 hd _ _) $$ [A322 HO]
  · iframe I_l_2_3 M_l_2_3 A322 HO
  iintro ⟨A347, A348, HO⟩
  rw [owed_end c]
  ihave Hin : (Launch.inputs m c : sProp 𝕄) $$ [A187 A188]
  · rw [inputs_eq m c]; iframe A187 A188
  ihave HOe : (iprop(∃ W : Waits sig Unit, owes (c : Thread nD τ) 0 W) : sProp 𝕄) $$ [HO]
  · iexists _; iexact HO
  ihave Hc := (Ends.close_post m K c) $$ [A317 A289 A259 A231 A170 A200 A229 A253 A283 A255 A285 A311 A326 A333 A334 A335 A133 A153 A157 A198 A228 A256 A286 A258 A288 A308 A136 A156 A162 A199 A232 A257 A287 A261 A291 A309 A323 A327 A328 A329 A319 A295 A271 A242 A182 A210 A237 A260 A290 A265 A294 A318 A336 A337 A338 A339 A141 A167 A174 A208 A239 A264 A293 A268 A297 A314 A142 A168 A175 A209 A240 A267 A296 A269 A298 A315 A330 A331 A332 A340 A325 A310 A278 A249 A197 A220 A243 A272 A304 A277 A305 A324 A341 A343 A345 A347 A148 A183 A189 A218 A247 A275 A300 A279 A302 A320 A149 A184 A190 A221 A248 A276 A301 A280 A303 A321 A342 A344 A346 A348 Hrest Hin HOe]
  · unfold Ends.sliceEnd
    iframe HR A317 A289 A259 A231 A170 A200 A229 A253 A283 A255 A285 A311 A326 A333 A334 A335 A133 A153 A157 A198 A228 A256 A286 A258 A288 A308 A136 A156 A162 A199 A232 A257 A287 A261 A291 A309 A323 A327 A328 A329 A319 A295 A271 A242 A182 A210 A237 A260 A290 A265 A294 A318 A336 A337 A338 A339 A141 A167 A174 A208 A239 A264 A293 A268 A297 A314 A142 A168 A175 A209 A240 A267 A296 A269 A298 A315 A330 A331 A332 A340 A325 A310 A278 A249 A197 A220 A243 A272 A304 A277 A305 A324 A341 A343 A345 A347 A148 A183 A189 A218 A247 A275 A300 A279 A302 A320 A149 A184 A190 A221 A248 A276 A301 A280 A303 A321 A342 A344 A346 A348 Hrest Hin HOe
  beta_reduce
  rw [Idealize.SL.Sem.wp_pure]
  imod Hc
  imodintro
  iapply Hk
  iexact Hc

end Cert.Kernel.Body

end
-- ==== Proof.RefRun.lean ====
import proofs.«900802_g7700000000000803_dist_gemm_ar_m4096_k4096_n2048_f32_relu_v7x_i8_1_alg».proof.Defs
import proofs.«900802_g7700000000000803_dist_gemm_ar_m4096_k4096_n2048_f32_relu_v7x_i8_1_alg».proof.Proof.Gen.ReferenceIdeal.Run
import proofs.«900802_g7700000000000803_dist_gemm_ar_m4096_k4096_n2048_f32_relu_v7x_i8_1_alg».proof.Proof.Gen.ReferenceIdeal.Read

noncomputable section

namespace Cert.Proof.RefRun

open Idealize.ShloMosaic Idealize.SL.Sem

variable [Cert.ReferenceIdeal.Facts] [Cert.Pre_finite_inputs_ReferenceIdeal.Facts]

theorem frame_ri : Cert.frame_ReferenceIdeal := fun m ρ _ =>
  (θ_run Cert.ReferenceIdeal.defs _ _).mono (fun _ h c => (h c).2) (Cert.ReferenceIdeal.Value.run (F := Ideal) m ρ)

end Cert.Proof.RefRun

end
-- ==== Proof.CubeSum.lean ====
import proofs.«900802_g7700000000000803_dist_gemm_ar_m4096_k4096_n2048_f32_relu_v7x_i8_1_alg».proof.Proof.Tree
import Mathlib.Algebra.BigOperators.Fin
import Mathlib.Algebra.BigOperators.Group.List.Basic

namespace Cert.KernelIdeal.Spec

open Idealize.ShloMosaic

def corners (p : Fin 3) (c : Dev nD) : List (Dev nD) :=
  [par (axis p 0) c, c,
   par (axis p 0) (par (axis p 1) c), par (axis p 1) c,
   par (axis p 0) (par (axis p 2) c), par (axis p 2) c,
   par (axis p 0) (par (axis p 1) (par (axis p 2) c)), par (axis p 1) (par (axis p 2) c)]

theorem corners_perm (p : Fin 3) (c : Dev nD) : (corners p c).Perm (List.finRange nD) := by
  revert p c; decide

theorem red3_eq_list {α : Type} [AddCommMonoid α] (P : Dev nD → α) (p : Fin 3) (c : Dev nD) :
    red3 P p c = ((corners p c).map P).sum := by
  simp only [red3, red2, red1, corners, List.map_cons, List.map_nil, List.sum_cons, List.sum_nil, add_zero,
    add_assoc]

theorem red3_eq_sum {α : Type} [AddCommMonoid α] (P : Dev nD → α) (p : Fin 3) (c : Dev nD) :
    Spec.red3 P p c = ∑ d : Dev nD, P d := by
  rw [red3_eq_list, ((corners_perm p c).map P).sum_eq, ← Fin.sum_univ_def]

end Cert.KernelIdeal.Spec
-- ==== Proof.RefValue.lean ====
import proofs.«900802_g7700000000000803_dist_gemm_ar_m4096_k4096_n2048_f32_relu_v7x_i8_1_alg».proof.Proof.RefRun
import proofs.«900802_g7700000000000803_dist_gemm_ar_m4096_k4096_n2048_f32_relu_v7x_i8_1_alg».proof.KernelIdeal
import Idealize.ShloMosaic.Lib.Layout
import Idealize.ShloMosaic.Lib.ValueIdx
import Idealize.ShloMosaic.PureOps.Ideal.Laws
import Mathlib.Algebra.BigOperators.Fin
import Mathlib.Logic.Equiv.Fin.Basic

noncomputable section

namespace Cert.Proof.RefValue

open Idealize.ShloMosaic Idealize.ShloMosaic.ValueIdx

section Reference
open Cert.ReferenceIdeal Cert.ReferenceIdeal.Gen

theorem ref_apply (X : (⟨S4096x4096, .f32⟩ : BufTy).Contents (Elt Ideal)) (W : (⟨S4096x2048, .f32⟩ : BufTy).Contents (Elt Ideal))
    (i : Fin 4096) (j : Fin 2048) :
    maximumf (F := Ideal) (φ := .f32) (Host.dotGeneral (F := Ideal) (φ₁ := .f32) (φ₂ := .f32) dot_S4096x4096_S4096x2048_S4096x2048_1_0_0_1_n_n none X W)
        (broadcastInDim S4096x2048 ![] bcast_S_S4096x2048 (constant (F := Ideal) S_ .f32 0x00000000#32)) (ix2 i j)
      = max (∑ k : Fin 4096, X (ix2 i k) * W (ix2 k j)) 0 := by
  have el : ∀ k : Fin 4096, Read.lidx_main_v0 (ix2 i j) k = ix2 i k := fun k =>
    funext fun a => Fin.ext (by match a with | ⟨0, _⟩ => rfl | ⟨1, _⟩ => rfl)
  have er : ∀ k : Fin 4096, Read.ridx_main_v0 (ix2 i j) k = ix2 k j := fun k =>
    funext fun a => Fin.ext (by match a with | ⟨0, _⟩ => rfl | ⟨1, _⟩ => rfl)
  rw [Read.val_main_v2_eq, Read.val_main_v2_apply, Read.val_main_v0_apply, Read.val_main_v1_apply, Read.val_main_cst_apply]
  simp only [el, er, Ideal.maximumf_def, Ideal.ofBits_def, Ideal.ofBits_zero_f32]

end Reference

theorem sum_blocks {M : Type} [AddCommMonoid M] (f : Fin 4096 → M) :
    ∑ k : Fin 4096, f k = ∑ d : Fin 8, ∑ l : Fin 512, f ⟨d.val * 512 + l.val, by omega⟩ := by
  have e : Fin 8 × Fin 512 ≃ Fin 4096 := finProdFinEquiv (m := 8) (n := 512)
  have he : ∀ p : Fin 8 × Fin 512, ((finProdFinEquiv (m := 8) (n := 512) p : Fin (8 * 512)) : ℕ) = p.1.val * 512 + p.2.val := fun p => by
    simp only [finProdFinEquiv_apply_val]; omega
  calc ∑ k : Fin 4096, f k
      = ∑ p : Fin 8 × Fin 512, f (finProdFinEquiv (m := 8) (n := 512) p) :=
        (Equiv.sum_comp (finProdFinEquiv (m := 8) (n := 512)) f).symm
    _ = ∑ d : Fin 8, ∑ l : Fin 512, f (finProdFinEquiv (m := 8) (n := 512) (d, l)) := Fintype.sum_prod_type _
    _ = _ := Finset.sum_congr rfl fun d _ => Finset.sum_congr rfl fun l _ => congrArg f (Fin.ext (he (d, l)))

theorem sum_blocks_dev {M : Type} [AddCommMonoid M] (f : Fin 4096 → M) :
    ∑ k : Fin 4096, f k = ∑ d : Dev Cert.KernelIdeal.nD, ∑ l : Fin 512, f ⟨d.val * 512 + l.val, by have : d.val < 8 := d.isLt; omega⟩ :=
  sum_blocks f

theorem block_left_apply {α : Type} (h : Layout.Tiles ⟨2, ![4096, 512]⟩ ⟨2, ![4096, 4096]⟩ 1 8) (c : Fin 8)
    (X : (⟨2, ![4096, 4096]⟩ : Shape).Idx → α) (i : Fin 4096) (l : Fin 512) :
    Layout.block ⟨2, ![4096, 512]⟩ ⟨2, ![4096, 4096]⟩ 1 8 c X h (ix2 i l) = X (ix2 i ⟨c.val * 512 + l.val, by omega⟩) := by
  rw [Layout.block_apply]
  exact congrArg X (funext fun a => Fin.ext (by match a with | ⟨0, _⟩ => rfl | ⟨1, _⟩ => rfl))

theorem block_right_apply {α : Type} (h : Layout.Tiles ⟨2, ![512, 2048]⟩ ⟨2, ![4096, 2048]⟩ 0 8) (c : Fin 8)
    (W : (⟨2, ![4096, 2048]⟩ : Shape).Idx → α) (l : Fin 512) (j : Fin 2048) :
    Layout.block ⟨2, ![512, 2048]⟩ ⟨2, ![4096, 2048]⟩ 0 8 c W h (ix2 l j) = W (ix2 ⟨c.val * 512 + l.val, by omega⟩ j) := by
  rw [Layout.block_apply]
  exact congrArg W (funext fun a => Fin.ext (by match a with | ⟨0, _⟩ => rfl | ⟨1, _⟩ => rfl))

section Product
open Cert.KernelIdeal
variable [Cert.KernelIdeal.Facts₀]

theorem lhs_mm1368_0 (i : S1368x512.Idx) (q : dot_S1368x512_S512x512_S1368x512_1_0_0_1_n_n.contr.Idx) :
    (dot_S1368x512_S512x512_S1368x512_1_0_0_1_n_n.lhsIdx i q 0).val = (i 0).val := by
  unfold DotDims.lhsIdx
  rw [dif_neg (show ¬(0 : Fin S1368x512.rank) ∈ dot_S1368x512_S512x512_S1368x512_1_0_0_1_n_n.lhsBatch from List.not_mem_nil),
    dif_pos (show (0 : Fin S1368x512.rank) ∈ dot_S1368x512_S512x512_S1368x512_1_0_0_1_n_n.lhsNonContracting from List.mem_singleton.2 rfl)]
  rfl
theorem lhs_mm1368_1 (i : S1368x512.Idx) (q : dot_S1368x512_S512x512_S1368x512_1_0_0_1_n_n.contr.Idx) :
    (dot_S1368x512_S512x512_S1368x512_1_0_0_1_n_n.lhsIdx i q 1).val = (q ⟨0, Nat.one_pos⟩).val :=
  dot_S1368x512_S512x512_S1368x512_1_0_0_1_n_n.lhsIdx_val_of_single rfl i q
theorem rhs_mm1368_0 (i : S1368x512.Idx) (q : dot_S1368x512_S512x512_S1368x512_1_0_0_1_n_n.contr.Idx) :
    (dot_S1368x512_S512x512_S1368x512_1_0_0_1_n_n.rhsIdx i q 0).val = (q ⟨0, Nat.one_pos⟩).val :=
  dot_S1368x512_S512x512_S1368x512_1_0_0_1_n_n.rhsIdx_val_of_single rfl i q
theorem rhs_mm1368_1 (i : S1368x512.Idx) (q : dot_S1368x512_S512x512_S1368x512_1_0_0_1_n_n.contr.Idx) :
    (dot_S1368x512_S512x512_S1368x512_1_0_0_1_n_n.rhsIdx i q 1).val = (i 1).val := by
  unfold DotDims.rhsIdx
  rw [dif_neg (show ¬(1 : Fin S512x512.rank) ∈ dot_S1368x512_S512x512_S1368x512_1_0_0_1_n_n.rhsBatch from List.not_mem_nil),
    dif_pos (show (1 : Fin S512x512.rank) ∈ dot_S1368x512_S512x512_S1368x512_1_0_0_1_n_n.rhsNonContracting from List.mem_singleton.2 rfl)]
  rfl

theorem matmul1368_apply (a : FVec Ideal S1368x512 .f32) (bm : FVec Ideal S512x512 .f32) (r : Fin 1368) (q : Fin 512) :
    matmul (F := Ideal) dot_S1368x512_S512x512_S1368x512_1_0_0_1_n_n none a bm (constant (F := Ideal) S1368x512 .f32 0x00000000#32) (ix2 r q)
      = ∑ l : Fin 512, a (ix2 r l) * bm (ix2 l q) := by
  simp only [matmul]
  rw [Ideal.matmul_constant_zero_apply, ← Equiv.sum_comp (ValueIdx.contrEquiv1 dot_S1368x512_S512x512_S1368x512_1_0_0_1_n_n 512 rfl rfl).symm]
  refine Finset.sum_congr rfl fun k _ => ?_
  have hk := ValueIdx.contrEquiv1_symm_val dot_S1368x512_S512x512_S1368x512_1_0_0_1_n_n 512 rfl rfl k
  have el : dot_S1368x512_S512x512_S1368x512_1_0_0_1_n_n.lhsIdx (ix2 r q) ((ValueIdx.contrEquiv1 dot_S1368x512_S512x512_S1368x512_1_0_0_1_n_n 512 rfl rfl).symm k) = ix2 r k := funext fun b => Fin.ext (by
    match b with
    | ⟨0, _⟩ => exact lhs_mm1368_0 _ _
    | ⟨1, _⟩ => exact (lhs_mm1368_1 _ _).trans hk)
  have er : dot_S1368x512_S512x512_S1368x512_1_0_0_1_n_n.rhsIdx (ix2 r q) ((ValueIdx.contrEquiv1 dot_S1368x512_S512x512_S1368x512_1_0_0_1_n_n 512 rfl rfl).symm k) = ix2 k q := funext fun b => Fin.ext (by
    match b with
    | ⟨0, _⟩ => exact (rhs_mm1368_0 _ _).trans hk
    | ⟨1, _⟩ => exact rhs_mm1368_1 _ _)
  rw [el, er]

theorem lhs_mm1360_0 (i : S1360x512.Idx) (q : dot_S1360x512_S512x512_S1360x512_1_0_0_1_n_n.contr.Idx) :
    (dot_S1360x512_S512x512_S1360x512_1_0_0_1_n_n.lhsIdx i q 0).val = (i 0).val := by
  unfold DotDims.lhsIdx
  rw [dif_neg (show ¬(0 : Fin S1360x512.rank) ∈ dot_S1360x512_S512x512_S1360x512_1_0_0_1_n_n.lhsBatch from List.not_mem_nil),
    dif_pos (show (0 : Fin S1360x512.rank) ∈ dot_S1360x512_S512x512_S1360x512_1_0_0_1_n_n.lhsNonContracting from List.mem_singleton.2 rfl)]
  rfl
theorem lhs_mm1360_1 (i : S1360x512.Idx) (q : dot_S1360x512_S512x512_S1360x512_1_0_0_1_n_n.contr.Idx) :
    (dot_S1360x512_S512x512_S1360x512_1_0_0_1_n_n.lhsIdx i q 1).val = (q ⟨0, Nat.one_pos⟩).val :=
  dot_S1360x512_S512x512_S1360x512_1_0_0_1_n_n.lhsIdx_val_of_single rfl i q
theorem rhs_mm1360_0 (i : S1360x512.Idx) (q : dot_S1360x512_S512x512_S1360x512_1_0_0_1_n_n.contr.Idx) :
    (dot_S1360x512_S512x512_S1360x512_1_0_0_1_n_n.rhsIdx i q 0).val = (q ⟨0, Nat.one_pos⟩).val :=
  dot_S1360x512_S512x512_S1360x512_1_0_0_1_n_n.rhsIdx_val_of_single rfl i q
theorem rhs_mm1360_1 (i : S1360x512.Idx) (q : dot_S1360x512_S512x512_S1360x512_1_0_0_1_n_n.contr.Idx) :
    (dot_S1360x512_S512x512_S1360x512_1_0_0_1_n_n.rhsIdx i q 1).val = (i 1).val := by
  unfold DotDims.rhsIdx
  rw [dif_neg (show ¬(1 : Fin S512x512.rank) ∈ dot_S1360x512_S512x512_S1360x512_1_0_0_1_n_n.rhsBatch from List.not_mem_nil),
    dif_pos (show (1 : Fin S512x512.rank) ∈ dot_S1360x512_S512x512_S1360x512_1_0_0_1_n_n.rhsNonContracting from List.mem_singleton.2 rfl)]
  rfl

theorem matmul1360_apply (a : FVec Ideal S1360x512 .f32) (bm : FVec Ideal S512x512 .f32) (r : Fin 1360) (q : Fin 512) :
    matmul (F := Ideal) dot_S1360x512_S512x512_S1360x512_1_0_0_1_n_n none a bm (constant (F := Ideal) S1360x512 .f32 0x00000000#32) (ix2 r q)
      = ∑ l : Fin 512, a (ix2 r l) * bm (ix2 l q) := by
  simp only [matmul]
  rw [Ideal.matmul_constant_zero_apply, ← Equiv.sum_comp (ValueIdx.contrEquiv1 dot_S1360x512_S512x512_S1360x512_1_0_0_1_n_n 512 rfl rfl).symm]
  refine Finset.sum_congr rfl fun k _ => ?_
  have hk := ValueIdx.contrEquiv1_symm_val dot_S1360x512_S512x512_S1360x512_1_0_0_1_n_n 512 rfl rfl k
  have el : dot_S1360x512_S512x512_S1360x512_1_0_0_1_n_n.lhsIdx (ix2 r q) ((ValueIdx.contrEquiv1 dot_S1360x512_S512x512_S1360x512_1_0_0_1_n_n 512 rfl rfl).symm k) = ix2 r k := funext fun b => Fin.ext (by
    match b with
    | ⟨0, _⟩ => exact lhs_mm1360_0 _ _
    | ⟨1, _⟩ => exact (lhs_mm1360_1 _ _).trans hk)
  have er : dot_S1360x512_S512x512_S1360x512_1_0_0_1_n_n.rhsIdx (ix2 r q) ((ValueIdx.contrEquiv1 dot_S1360x512_S512x512_S1360x512_1_0_0_1_n_n 512 rfl rfl).symm k) = ix2 k q := funext fun b => Fin.ext (by
    match b with
    | ⟨0, _⟩ => exact (rhs_mm1360_0 _ _).trans hk
    | ⟨1, _⟩ => exact rhs_mm1360_1 _ _)
  rw [el, er]

end Product

end Cert.Proof.RefValue

end
-- ==== Proof.ValueBridge.lean ====
import proofs.«900802_g7700000000000803_dist_gemm_ar_m4096_k4096_n2048_f32_relu_v7x_i8_1_alg».proof.Proof.CubeSum
import proofs.«900802_g7700000000000803_dist_gemm_ar_m4096_k4096_n2048_f32_relu_v7x_i8_1_alg».proof.Proof.RefValue
import proofs.«900802_g7700000000000803_dist_gemm_ar_m4096_k4096_n2048_f32_relu_v7x_i8_1_alg».proof.Proof.Vals
import Idealize.ShloMosaic.Lib.Pipeline.Value

noncomputable section

namespace Cert.Proof.ValueBridge

open Idealize.ShloMosaic Idealize.ShloMosaic.ValueIdx Cert.KernelIdeal Cert.KernelIdeal.Spec Cert.KernelIdeal.Gen

theorem row_lt : ∀ (p : Fin 3) (r : ℕ), r < rowLen p → rowStart p + r < 4096
  | 0, r, hr => by have h : r < 1368 := hr; show 0 + r < 4096; omega
  | 1, r, hr => by have h : r < 1368 := hr; show 1368 + r < 4096; omega
  | 2, r, hr => by have h : r < 1360 := hr; show 2736 + r < 4096; omega

theorem col_congr {α : Type} (v : S512x2048.Idx → α) (l : Fin 512) (a b : ℕ) (ha : a < 2048) (hb : b < 2048) (h : a = b) :
    v (ix2 l ⟨a, ha⟩) = v (ix2 l ⟨b, hb⟩) := by subst h; rfl

theorem own_apply (x : Dev nD → Vec Ideal S4096x512 .f32) (w : Dev nD → Vec Ideal S512x2048 .f32)
    (p : Fin 3) (r col : ℕ) (hr : r < rowLen p) (hc : col < 2048) (d : Dev nD) :
    Vals.own (F := Ideal) x w p r col d
      = ∑ l : Fin 512, x d (ix2 ⟨rowStart p + r, row_lt p r hr⟩ l) * w d (ix2 l ⟨col, hc⟩) := by
  have hcol : 512 * (col / 512) + col % 512 = col := Nat.div_add_mod col 512
  match p, hr with
  | 0, hr =>
    have hr' : r < 1368 := hr
    unfold Vals.own
    rw [dif_pos hc]
    show (if hr : r < 1368 then _ else _) = _
    rw [dif_pos hr']
    unfold Vals.mmA
    rw [shapeCast_self, shapeCast_self, RefValue.matmul1368_apply]
    refine Finset.sum_congr rfl fun l _ => ?_
    exact congrArg₂ (· * ·) rfl (col_congr (w d) l _ _ _ hc hcol)
  | 1, hr =>
    have hr' : r < 1368 := hr
    unfold Vals.own
    rw [dif_pos hc]
    show (if hr : r < 1368 then _ else _) = _
    rw [dif_pos hr']
    unfold Vals.mmA
    rw [shapeCast_self, shapeCast_self, RefValue.matmul1368_apply]
    refine Finset.sum_congr rfl fun l _ => ?_
    exact congrArg₂ (· * ·) rfl (col_congr (w d) l _ _ _ hc hcol)
  | 2, hr =>
    have hr' : r < 1360 := hr
    unfold Vals.own
    rw [dif_pos hc]
    show (if hr : r < 1360 then _ else _) = _
    rw [dif_pos hr']
    unfold Vals.mmB
    rw [shapeCast_self, shapeCast_self, RefValue.matmul1360_apply]
    refine Finset.sum_congr rfl fun l _ => ?_
    exact congrArg₂ (· * ·) rfl (col_congr (w d) l _ _ _ hc hcol)

theorem own_eq_block_sum (x : Dev nD → Vec Ideal S4096x512 .f32) (w : Dev nD → Vec Ideal S512x2048 .f32)
    (X : (⟨Cert.ReferenceIdeal.S4096x4096, .f32⟩ : BufTy).Contents (Elt Ideal))
    (W : (⟨Cert.ReferenceIdeal.S4096x2048, .f32⟩ : BufTy).Contents (Elt Ideal))
    (hx : ∀ d : Dev nD, x d = Layout.block ⟨2, ![4096, 512]⟩ ⟨2, ![4096, 4096]⟩ 1 8 d X)
    (hw : ∀ d : Dev nD, w d = Layout.block ⟨2, ![512, 2048]⟩ ⟨2, ![4096, 2048]⟩ 0 8 d W)
    (p : Fin 3) (r col : ℕ) (hr : r < rowLen p) (hc : col < 2048) (d : Dev nD) :
    Vals.own (F := Ideal) x w p r col d
      = ∑ l : Fin 512, X (ix2 ⟨rowStart p + r, row_lt p r hr⟩ ⟨d.val * 512 + l.val, by have : d.val < 8 := d.isLt; omega⟩)
          * W (ix2 ⟨d.val * 512 + l.val, by have : d.val < 8 := d.isLt; omega⟩ ⟨col, hc⟩) := by
  rw [own_apply x w p r col hr hc d]
  refine Finset.sum_congr rfl fun l _ => ?_
  rw [hx d, hw d, RefValue.block_left_apply, RefValue.block_right_apply]

theorem st3_eq_sum (x : Dev nD → Vec Ideal S4096x512 .f32) (w : Dev nD → Vec Ideal S512x2048 .f32)
    (p : Fin 3) (r col : ℕ) (c : Dev nD) :
    Vals.st3 (F := Ideal) x w p r col c = ∑ d : Dev nD, Vals.own (F := Ideal) x w p r col d :=
  red3_eq_sum (α := EReal) (Vals.own (F := Ideal) x w p r col) p c

theorem fin_eq_ref (x : Dev nD → Vec Ideal S4096x512 .f32) (w : Dev nD → Vec Ideal S512x2048 .f32)
    (X : (⟨Cert.ReferenceIdeal.S4096x4096, .f32⟩ : BufTy).Contents (Elt Ideal))
    (W : (⟨Cert.ReferenceIdeal.S4096x2048, .f32⟩ : BufTy).Contents (Elt Ideal))
    (hx : ∀ d : Dev nD, x d = Layout.block ⟨2, ![4096, 512]⟩ ⟨2, ![4096, 4096]⟩ 1 8 d X)
    (hw : ∀ d : Dev nD, w d = Layout.block ⟨2, ![512, 2048]⟩ ⟨2, ![4096, 2048]⟩ 0 8 d W)
    (p : Fin 3) (r col : ℕ) (hr : r < rowLen p) (hc : col < 2048) (c : Dev nD) :
    Vals.fin (F := Ideal) x w p r col c
      = max (∑ k : Fin 4096, X (ix2 ⟨rowStart p + r, row_lt p r hr⟩ k) * W (ix2 k ⟨col, hc⟩)) 0 := by
  unfold Vals.fin
  rw [Ideal.maximumf_def, st3_eq_sum,
    RefValue.sum_blocks_dev (fun k : Fin 4096 => X (ix2 ⟨rowStart p + r, row_lt p r hr⟩ k) * W (ix2 k ⟨col, hc⟩))]
  refine congrArg₂ max (Finset.sum_congr rfl fun d _ => own_eq_block_sum x w X W hx hw p r col hr hc d) ?_
  exact Ideal.ofBits_zero_f32

theorem fin_eq_run (x : Dev nD → Vec Ideal S4096x512 .f32) (w : Dev nD → Vec Ideal S512x2048 .f32)
    (X : (⟨Cert.ReferenceIdeal.S4096x4096, .f32⟩ : BufTy).Contents (Elt Ideal))
    (W : (⟨Cert.ReferenceIdeal.S4096x2048, .f32⟩ : BufTy).Contents (Elt Ideal))
    (hx : ∀ d : Dev nD, x d = Layout.block ⟨2, ![4096, 512]⟩ ⟨2, ![4096, 4096]⟩ 1 8 d X)
    (hw : ∀ d : Dev nD, w d = Layout.block ⟨2, ![512, 2048]⟩ ⟨2, ![4096, 2048]⟩ 0 8 d W)
    (p : Fin 3) (r col : ℕ) (hr : r < rowLen p) (hc : col < 2048) (c : Dev nD) :
    Vals.fin (F := Ideal) x w p r col c
      = maximumf (F := Ideal) (φ := .f32)
          (Host.dotGeneral (F := Ideal) (φ₁ := .f32) (φ₂ := .f32) Cert.ReferenceIdeal.dot_S4096x4096_S4096x2048_S4096x2048_1_0_0_1_n_n none X W)
          (broadcastInDim Cert.ReferenceIdeal.S4096x2048 ![] Cert.ReferenceIdeal.Facts₀.bcast_S_S4096x2048
            (constant (F := Ideal) Cert.ReferenceIdeal.S_ .f32 0x00000000#32))
          (ix2 ⟨rowStart p + r, row_lt p r hr⟩ ⟨col, hc⟩) :=
  (fin_eq_ref x w X W hx hw p r col hr hc c).trans (RefValue.ref_apply X W _ _).symm

end Cert.Proof.ValueBridge

end
-- ==== Proof.Final.lean ====
import proofs.«900802_g7700000000000803_dist_gemm_ar_m4096_k4096_n2048_f32_relu_v7x_i8_1_alg».proof.Proof.ValueBridge
import proofs.«900802_g7700000000000803_dist_gemm_ar_m4096_k4096_n2048_f32_relu_v7x_i8_1_alg».proof.Proof.Proto

noncomputable section

namespace Cert.Proof.Final

open Idealize.ShloMosaic Idealize.ShloMosaic.ValueIdx Cert.KernelIdeal Cert.KernelIdeal.Spec Cert.KernelIdeal.Gen Cert.KernelIdeal.Proto
open Cert.Proof.ValueBridge

theorem row_cases (a : Fin 4096) : ∃ (p : Fin 3) (r : ℕ), r < rowLen p ∧ a.val = rowStart p + r := by
  by_cases h1 : a.val < 1368
  · exact ⟨0, a.val, h1, by show a.val = 0 + a.val; omega⟩
  · by_cases h2 : a.val < 2736
    · exact ⟨1, a.val - 1368, by show a.val - 1368 < 1368; omega, by show a.val = 1368 + (a.val - 1368); omega⟩
    · exact ⟨2, a.val - 2736, by have := a.isLt; show a.val - 2736 < 1360; omega, by show a.val = 2736 + (a.val - 2736); omega⟩

variable (x : Dev nD → Vec Ideal S4096x512 .f32) (w : Dev nD → Vec Ideal S512x2048 .f32)
  (X : (⟨Cert.ReferenceIdeal.S4096x4096, .f32⟩ : BufTy).Contents (Elt Ideal))
  (W : (⟨Cert.ReferenceIdeal.S4096x2048, .f32⟩ : BufTy).Contents (Elt Ideal))
  (hx : ∀ d : Dev nD, x d = Layout.block ⟨2, ![4096, 512]⟩ ⟨2, ![4096, 4096]⟩ 1 8 d X)
  (hw : ∀ d : Dev nD, w d = Layout.block ⟨2, ![512, 2048]⟩ ⟨2, ![4096, 2048]⟩ 0 8 d W)

def refOut : (⟨Cert.ReferenceIdeal.S4096x2048, .f32⟩ : BufTy).Contents (Elt Ideal) :=
  maximumf (F := Ideal) (φ := .f32)
    (Host.dotGeneral (F := Ideal) (φ₁ := .f32) (φ₂ := .f32) Cert.ReferenceIdeal.dot_S4096x4096_S4096x2048_S4096x2048_1_0_0_1_n_n none X W)
    (broadcastInDim Cert.ReferenceIdeal.S4096x2048 ![] Cert.ReferenceIdeal.Facts₀.bcast_S_S4096x2048 (constant (F := Ideal) Cert.ReferenceIdeal.S_ .f32 0x00000000#32))

include hx hw in

theorem res_eq_ref (res : S4096x2048.Idx → EReal)
    (hres : ∀ (p : Fin 3) (r col : ℕ) (hr : r < rowLen p) (hc : col < 2048),
      res (ix2 ⟨rowStart p + r, row_lt p r hr⟩ ⟨col, hc⟩) = gath (F := Ideal) x w p r col) :
    res = refOut X W := by
  funext i
  obtain ⟨a, bc, rfl⟩ : ∃ (a : Fin 4096) (bc : Fin 2048), i = ix2 a bc := ⟨i 0, i 1, eq_ix2 i⟩
  obtain ⟨p, r, hr, ha⟩ := row_cases a
  have hidx : (ix2 a bc : S4096x2048.Idx) = ix2 ⟨rowStart p + r, row_lt p r hr⟩ ⟨bc.val, bc.isLt⟩ := by
    congr 1; exact Fin.ext ha
  rw [hidx, hres p r bc.val hr bc.isLt]
  unfold gath refOut
  exact fin_eq_run x w X W hx hw p r bc.val hr bc.isLt _

end Cert.Proof.Final

end
-- ==== Proof.lean ====
import proofs.«900802_g7700000000000803_dist_gemm_ar_m4096_k4096_n2048_f32_relu_v7x_i8_1_alg».proof.Defs
import proofs.«900802_g7700000000000803_dist_gemm_ar_m4096_k4096_n2048_f32_relu_v7x_i8_1_alg».proof.Proof.Gen.Kernel
import proofs.«900802_g7700000000000803_dist_gemm_ar_m4096_k4096_n2048_f32_relu_v7x_i8_1_alg».proof.Proof.Gen.KernelIdeal
import proofs.«900802_g7700000000000803_dist_gemm_ar_m4096_k4096_n2048_f32_relu_v7x_i8_1_alg».proof.Proof.Gen.ReferenceIdeal
import proofs.«900802_g7700000000000803_dist_gemm_ar_m4096_k4096_n2048_f32_relu_v7x_i8_1_alg».proof.Proof.Gen.Pre_finite_inputs_Kernel
import proofs.«900802_g7700000000000803_dist_gemm_ar_m4096_k4096_n2048_f32_relu_v7x_i8_1_alg».proof.Proof.Gen.Pre_finite_inputs_ReferenceIdeal
import proofs.«900802_g7700000000000803_dist_gemm_ar_m4096_k4096_n2048_f32_relu_v7x_i8_1_alg».proof.Proof.Body
import proofs.«900802_g7700000000000803_dist_gemm_ar_m4096_k4096_n2048_f32_relu_v7x_i8_1_alg».proof.Proof.K.Body
import proofs.«900802_g7700000000000803_dist_gemm_ar_m4096_k4096_n2048_f32_relu_v7x_i8_1_alg».proof.Proof.RefRun
import proofs.«900802_g7700000000000803_dist_gemm_ar_m4096_k4096_n2048_f32_relu_v7x_i8_1_alg».proof.Proof.Final

noncomputable section

namespace Cert.Proof.Assemble

open Idealize.ShloMosaic Idealize.SL.Sem

open Cert.KernelIdeal.Spec Cert.KernelIdeal.Launch in

/-- A row counted from the start of a slice lies in that slice. -/
theorem sliceOf_row (p : Fin 3) (r : ℕ) (hr : r < rowLen p) :
    sliceOf (rowStart p + r) = p ∧ rowStart p + r - rowStart p = r := by
  refine ⟨?_, by omega⟩
  fin_cases p
  · have h : r < 1368 := hr
    show (if 0 + r < 1368 then (0 : Fin 3) else if 0 + r < 2736 then 1 else 2) = 0
    rw [if_pos (by omega)]
  · have h : r < 1368 := hr
    show (if 1368 + r < 1368 then (0 : Fin 3) else if 1368 + r < 2736 then 1 else 2) = 1
    rw [if_neg (by omega), if_pos (by omega)]
  · have h : r < 1360 := hr
    show (if 2736 + r < 1368 then (0 : Fin 3) else if 2736 + r < 2736 then 1 else 2) = 2
    rw [if_neg (by omega), if_neg (by omega)]

section generic

open Cert.KernelIdeal Cert.KernelIdeal.Spec Cert.KernelIdeal.Proto Cert.KernelIdeal.Launch

variable {F : FTy → Type} [FloatOps F]

theorem isRes_resArr (m : (ℓ : Loc nD τ sig) → Buf (Elt F) ℓ) : IsRes m (resArr m) := by
  intro p r col hr hc
  obtain ⟨h1, h2⟩ := sliceOf_row p r hr
  show gath (xOf m) (wOf m) (sliceOf (rowStart p + r)) (rowStart p + r - rowStart (sliceOf (rowStart p + r))) col
    = gath (xOf m) (wOf m) p r col
  rw [h1, h2]

end generic

section ideal

open Cert.KernelIdeal Cert.KernelIdeal.Launch

/-- With every device's blocks cut from the whole factors, the result array is the product of the whole factors cut off below at zero. -/
theorem resArr_eq_ref (m : (ℓ : Loc nD τ sig) → Buf (Elt Ideal) ℓ)
    (X : (⟨Cert.ReferenceIdeal.S4096x4096, .f32⟩ : BufTy).Contents (Elt Ideal))
    (W : (⟨Cert.ReferenceIdeal.S4096x2048, .f32⟩ : BufTy).Contents (Elt Ideal))
    (hx : ∀ d : Dev nD, xOf m d = Layout.block ⟨2, ![4096, 512]⟩ ⟨2, ![4096, 4096]⟩ 1 8 d X)
    (hw : ∀ d : Dev nD, wOf m d = Layout.block ⟨2, ![512, 2048]⟩ ⟨2, ![4096, 2048]⟩ 0 8 d W) :
    resArr m = Cert.Proof.Final.refOut X W :=
  Cert.Proof.Final.res_eq_ref (xOf m) (wOf m) X W hx hw (resArr m) (fun p r col hr hc => isRes_resArr m p r col hr hc)

abbrev refX (m' : (ℓ : Loc Cert.ReferenceIdeal.nD Cert.ReferenceIdeal.τ Cert.ReferenceIdeal.sig) → Buf (Elt Ideal) ℓ) :
    (⟨Cert.ReferenceIdeal.S4096x4096, .f32⟩ : BufTy).Contents (Elt Ideal) :=
  m' (((0 : Dev Cert.ReferenceIdeal.nD).tc : Thread Cert.ReferenceIdeal.nD Cert.ReferenceIdeal.τ).loc Cert.ReferenceIdeal.main_arg0)
abbrev refW (m' : (ℓ : Loc Cert.ReferenceIdeal.nD Cert.ReferenceIdeal.τ Cert.ReferenceIdeal.sig) → Buf (Elt Ideal) ℓ) :
    (⟨Cert.ReferenceIdeal.S4096x2048, .f32⟩ : BufTy).Contents (Elt Ideal) :=
  m' (((0 : Dev Cert.ReferenceIdeal.nD).tc : Thread Cert.ReferenceIdeal.nD Cert.ReferenceIdeal.τ).loc Cert.ReferenceIdeal.main_arg1)

/-- The launch's run with the statement about the result array dropped. -/
theorem frame_ki : Cert.frame_KernelIdeal := fun m g _ =>
  (θ_run Cert.KernelIdeal.defs _ _).mono (fun _ h c => ⟨(h c).2.1, (h c).2.2⟩)
    (launch (F := Ideal) m g (Cert.KernelIdeal.Body.body m))

/-- Both programs end holding the one array of the whole factors. -/
theorem algebraic : Cert.algebraic_KernelIdeal_ReferenceIdeal := by
  intro m g m' g' _ hag
  have hres := resArr_eq_ref m (refX m') (refW m') (fun d => (hag d).1) (fun d => (hag d).2)
  refine ⟨Cert.Proof.Final.refOut (refX m') (refW m'), ?_, ?_⟩
  · exact (θ_run Cert.KernelIdeal.defs _ _).mono (fun _ h c => ⟨(h c).1.trans hres, (h c).2.1, (h c).2.2⟩)
      (launch (F := Ideal) m g (Cert.KernelIdeal.Body.body m))
  · exact (θ_run Cert.ReferenceIdeal.defs _ _).mono (fun _ h => h 0) (Cert.ReferenceIdeal.Value.run (F := Ideal) m' g')

end ideal

/-- The same run for the program as printed, the statement about the result array dropped. -/
theorem frame_k : Cert.frame_Kernel := fun m g _ =>
  (θ_run Cert.Kernel.defs _ _).mono (fun _ h c => ⟨(h c).2.1, (h c).2.2⟩)
    (Cert.Kernel.Launch.launch (F := Bits) m g (Cert.Kernel.Body.body m))

end Cert.Proof.Assemble

namespace Cert.Proof

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Assemble.frame_k, Assemble.frame_ki, Cert.Proof.RefRun.frame_ri, trivial, Assemble.algebraic⟩

end Cert.Proof

end
